-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)) →
    ∃ (v0 : (c : Dev Cert.KernelIdeal.nD) → Buf (Elt Ideal) ((c.tc : Thread Cert.KernelIdeal.nD Cert.KernelIdeal.τ).loc Cert.KernelIdeal.main_v243)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v243) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v289) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S20000x512 : Shape := ⟨2, ![20000, 512]⟩
abbrev S20000x18 : Shape := ⟨2, ![20000, 18]⟩
abbrev S320000x2 : Shape := ⟨2, ![320000, 2]⟩
abbrev S100000x2 : Shape := ⟨2, ![100000, 2]⟩
abbrev S512x512 : Shape := ⟨2, ![512, 512]⟩
abbrev S512 : Shape := ⟨1, ![512]⟩
abbrev S512x256 : Shape := ⟨2, ![512, 256]⟩
abbrev S256 : Shape := ⟨1, ![256]⟩
abbrev S274x256 : Shape := ⟨2, ![274, 256]⟩
abbrev S256x256 : Shape := ⟨2, ![256, 256]⟩
abbrev S3x512x256 : Shape := ⟨3, ![3, 512, 256]⟩
abbrev S3x256 : Shape := ⟨2, ![3, 256]⟩
abbrev S3x256x256 : Shape := ⟨3, ![3, 256, 256]⟩
abbrev S520x256 : Shape := ⟨2, ![520, 256]⟩
abbrev S256x26 : Shape := ⟨2, ![256, 26]⟩
abbrev S26 : Shape := ⟨1, ![26]⟩
abbrev S_ : Shape := ⟨0, ![]⟩

class Facts : Prop where
  bcast_S_S20000x512 : S_.BroadcastsInDim S20000x512 (![] : Fin 0 → Fin S20000x512.rank)
  reducesTo_S20000x512_S_d0_1 : S20000x512.ReducesTo [0, 1] S_
  h_S_ : 0 < S_.numel
  bcast_S_S20000x18 : S_.BroadcastsInDim S20000x18 (![] : Fin 0 → Fin S20000x18.rank)
  reducesTo_S20000x18_S_d0_1 : S20000x18.ReducesTo [0, 1] S_
  bcast_S_S512x512 : S_.BroadcastsInDim S512x512 (![] : Fin 0 → Fin S512x512.rank)
  reducesTo_S512x512_S_d0_1 : S512x512.ReducesTo [0, 1] S_
  bcast_S_S512 : S_.BroadcastsInDim S512 (![] : Fin 0 → Fin S512.rank)
  reducesTo_S512_S_d0 : S512.ReducesTo [0] S_
  bcast_S_S512x256 : S_.BroadcastsInDim S512x256 (![] : Fin 0 → Fin S512x256.rank)
  reducesTo_S512x256_S_d0_1 : S512x256.ReducesTo [0, 1] S_
  bcast_S_S256 : S_.BroadcastsInDim S256 (![] : Fin 0 → Fin S256.rank)
  reducesTo_S256_S_d0 : S256.ReducesTo [0] S_
  bcast_S_S274x256 : S_.BroadcastsInDim S274x256 (![] : Fin 0 → Fin S274x256.rank)
  reducesTo_S274x256_S_d0_1 : S274x256.ReducesTo [0, 1] S_
  bcast_S_S256x256 : S_.BroadcastsInDim S256x256 (![] : Fin 0 → Fin S256x256.rank)
  reducesTo_S256x256_S_d0_1 : S256x256.ReducesTo [0, 1] S_
  bcast_S_S3x512x256 : S_.BroadcastsInDim S3x512x256 (![] : Fin 0 → Fin S3x512x256.rank)
  reducesTo_S3x512x256_S_d0_1_2 : S3x512x256.ReducesTo [0, 1, 2] S_
  bcast_S_S3x256 : S_.BroadcastsInDim S3x256 (![] : Fin 0 → Fin S3x256.rank)
  reducesTo_S3x256_S_d0_1 : S3x256.ReducesTo [0, 1] S_
  bcast_S_S3x256x256 : S_.BroadcastsInDim S3x256x256 (![] : Fin 0 → Fin S3x256x256.rank)
  reducesTo_S3x256x256_S_d0_1_2 : S3x256x256.ReducesTo [0, 1, 2] S_
  bcast_S_S520x256 : S_.BroadcastsInDim S520x256 (![] : Fin 0 → Fin S520x256.rank)
  reducesTo_S520x256_S_d0_1 : S520x256.ReducesTo [0, 1] S_
  bcast_S_S256x26 : S_.BroadcastsInDim S256x26 (![] : Fin 0 → Fin S256x26.rank)
  reducesTo_S256x26_S_d0_1 : S256x26.ReducesTo [0, 1] S_
  bcast_S_S26 : S_.BroadcastsInDim S26 (![] : Fin 0 → Fin S26.rank)
  reducesTo_S26_S_d0 : S26.ReducesTo [0] S_

variable [Facts]

def fn_part6 {F : FTy → Type} [FloatOps F] (main_arg23 : FVec F S26 .f32) (main_v98 : IVec S_ 1) (main_v101 : IVec S256x26 1) (main_c_39 : IVec S_ 1) : IVec S_ 1 :=
  let main_v102 : IVec S_ 1 := (fun x v => Host.reduce IntOp.andi x v reducesTo_S256x26_S_d0_1 h_S_) main_v101 main_c_39
  let main_v103 : IVec S_ 1 := andi main_v98 main_v102
  let main_v104 : FVec F S26 .f32 := Host.absf main_arg23
  let main_cst_40 : FVec F S_ .f32 := constant S_ .f32 0x7F800000#32
  let main_v105 : FVec F S26 .f32 := broadcastInDim S26 ![] bcast_S_S26 main_cst_40
  let main_v106 : IVec S26 1 := cmpf .olt main_v104 main_v105
  let main_c_41 : IVec S_ 1 := constantI S_ 1 1#1
  let main_v107 : IVec S_ 1 := (fun x v => Host.reduce IntOp.andi x v reducesTo_S26_S_d0 h_S_) main_v106 main_c_41
  let main_v108 : IVec S_ 1 := andi main_v103 main_v107
  main_v108

def fn_part5 {F : FTy → Type} [FloatOps F] (main_arg20 : FVec F S520x256 .f32) (main_arg21 : FVec F S256 .f32) (main_arg22 : FVec F S256x26 .f32) (main_arg23 : FVec F S26 .f32) (main_v83 : IVec S_ 1) (main_v84 : FVec F S3x256 .f32) (main_cst_32 : FVec F S_ .f32) : IVec S_ 1 :=
  let main_v85 : FVec F S3x256 .f32 := broadcastInDim S3x256 ![] bcast_S_S3x256 main_cst_32
  let main_v86 : IVec S3x256 1 := cmpf .olt main_v84 main_v85
  let main_c_33 : IVec S_ 1 := constantI S_ 1 1#1
  let main_v87 : IVec S_ 1 := (fun x v => Host.reduce IntOp.andi x v reducesTo_S3x256_S_d0_1 h_S_) main_v86 main_c_33
  let main_v88 : IVec S_ 1 := andi main_v83 main_v87
  let main_v89 : FVec F S520x256 .f32 := Host.absf main_arg20
  let main_cst_34 : FVec F S_ .f32 := constant S_ .f32 0x7F800000#32
  let main_v90 : FVec F S520x256 .f32 := broadcastInDim S520x256 ![] bcast_S_S520x256 main_cst_34
  let main_v91 : IVec S520x256 1 := cmpf .olt main_v89 main_v90
  let main_c_35 : IVec S_ 1 := constantI S_ 1 1#1
  let main_v92 : IVec S_ 1 := (fun x v => Host.reduce IntOp.andi x v reducesTo_S520x256_S_d0_1 h_S_) main_v91 main_c_35
  let main_v93 : IVec S_ 1 := andi main_v88 main_v92
  let main_v94 : FVec F S256 .f32 := Host.absf main_arg21
  let main_cst_36 : FVec F S_ .f32 := constant S_ .f32 0x7F800000#32
  let main_v95 : FVec F S256 .f32 := broadcastInDim S256 ![] bcast_S_S256 main_cst_36
  let main_v96 : IVec S256 1 := cmpf .olt main_v94 main_v95
  let main_c_37 : IVec S_ 1 := constantI S_ 1 1#1
  let main_v97 : IVec S_ 1 := (fun x v => Host.reduce IntOp.andi x v reducesTo_S256_S_d0 h_S_) main_v96 main_c_37
  let main_v98 : IVec S_ 1 := andi main_v93 main_v97
  let main_v99 : FVec F S256x26 .f32 := Host.absf main_arg22
  let main_cst_38 : FVec F S_ .f32 := constant S_ .f32 0x7F800000#32
  let main_v100 : FVec F S256x26 .f32 := broadcastInDim S256x26 ![] bcast_S_S256x26 main_cst_38
  let main_v101 : IVec S256x26 1 := cmpf .olt main_v99 main_v100
  let main_c_39 : IVec S_ 1 := constantI S_ 1 1#1
  fn_part6 (F := F) main_arg23 main_v98 main_v101 main_c_39

def fn_part4 {F : FTy → Type} [FloatOps F] (main_arg16 : FVec F S3x512x256 .f32) (main_arg17 : FVec F S3x256 .f32) (main_arg18 : FVec F S3x256x256 .f32) (main_arg19 : FVec F S3x256 .f32) (main_arg20 : FVec F S520x256 .f32) (main_arg21 : FVec F S256 .f32) (main_arg22 : FVec F S256x26 .f32) (main_arg23 : FVec F S26 .f32) (main_v63 : IVec S_ 1) (main_v67 : IVec S_ 1) : IVec S_ 1 :=
  let main_v68 : IVec S_ 1 := andi main_v63 main_v67
  let main_v69 : FVec F S3x512x256 .f32 := Host.absf main_arg16
  let main_cst_26 : FVec F S_ .f32 := constant S_ .f32 0x7F800000#32
  let main_v70 : FVec F S3x512x256 .f32 := broadcastInDim S3x512x256 ![] bcast_S_S3x512x256 main_cst_26
  let main_v71 : IVec S3x512x256 1 := cmpf .olt main_v69 main_v70
  let main_c_27 : IVec S_ 1 := constantI S_ 1 1#1
  let main_v72 : IVec S_ 1 := (fun x v => Host.reduce IntOp.andi x v reducesTo_S3x512x256_S_d0_1_2 h_S_) main_v71 main_c_27
  let main_v73 : IVec S_ 1 := andi main_v68 main_v72
  let main_v74 : FVec F S3x256 .f32 := Host.absf main_arg17
  let main_cst_28 : FVec F S_ .f32 := constant S_ .f32 0x7F800000#32
  let main_v75 : FVec F S3x256 .f32 := broadcastInDim S3x256 ![] bcast_S_S3x256 main_cst_28
  let main_v76 : IVec S3x256 1 := cmpf .olt main_v74 main_v75
  let main_c_29 : IVec S_ 1 := constantI S_ 1 1#1
  let main_v77 : IVec S_ 1 := (fun x v => Host.reduce IntOp.andi x v reducesTo_S3x256_S_d0_1 h_S_) main_v76 main_c_29
  let main_v78 : IVec S_ 1 := andi main_v73 main_v77
  let main_v79 : FVec F S3x256x256 .f32 := Host.absf main_arg18
  let main_cst_30 : FVec F S_ .f32 := constant S_ .f32 0x7F800000#32
  let main_v80 : FVec F S3x256x256 .f32 := broadcastInDim S3x256x256 ![] bcast_S_S3x256x256 main_cst_30
  let main_v81 : IVec S3x256x256 1 := cmpf .olt main_v79 main_v80
  let main_c_31 : IVec S_ 1 := constantI S_ 1 1#1
  let main_v82 : IVec S_ 1 := (fun x v => Host.reduce IntOp.andi x v reducesTo_S3x256x256_S_d0_1_2 h_S_) main_v81 main_c_31
  let main_v83 : IVec S_ 1 := andi main_v78 main_v82
  let main_v84 : FVec F S3x256 .f32 := Host.absf main_arg19
  let main_cst_32 : FVec F S_ .f32 := constant S_ .f32 0x7F800000#32
  fn_part5 (F := F) main_arg20 main_arg21 main_arg22 main_arg23 main_v83 main_v84 main_cst_32

def fn_part3 {F : FTy → Type} [FloatOps F] (main_arg13 : FVec F S3x256 .f32) (main_arg14 : FVec F S3x256x256 .f32) (main_arg15 : FVec F S3x256 .f32) (main_arg16 : FVec F S3x512x256 .f32) (main_arg17 : FVec F S3x256 .f32) (main_arg18 : FVec F S3x256x256 .f32) (main_arg19 : FVec F S3x256 .f32) (main_arg20 : FVec F S520x256 .f32) (main_arg21 : FVec F S256 .f32) (main_arg22 : FVec F S256x26 .f32) (main_arg23 : FVec F S26 .f32) (main_v48 : IVec S_ 1) (main_v49 : FVec F S3x512x256 .f32) (main_v50 : FVec F S3x512x256 .f32) : IVec S_ 1 :=
  let main_v51 : IVec S3x512x256 1 := cmpf .olt main_v49 main_v50
  let main_c_19 : IVec S_ 1 := constantI S_ 1 1#1
  let main_v52 : IVec S_ 1 := (fun x v => Host.reduce IntOp.andi x v reducesTo_S3x512x256_S_d0_1_2 h_S_) main_v51 main_c_19
  let main_v53 : IVec S_ 1 := andi main_v48 main_v52
  let main_v54 : FVec F S3x256 .f32 := Host.absf main_arg13
  let main_cst_20 : FVec F S_ .f32 := constant S_ .f32 0x7F800000#32
  let main_v55 : FVec F S3x256 .f32 := broadcastInDim S3x256 ![] bcast_S_S3x256 main_cst_20
  let main_v56 : IVec S3x256 1 := cmpf .olt main_v54 main_v55
  let main_c_21 : IVec S_ 1 := constantI S_ 1 1#1
  let main_v57 : IVec S_ 1 := (fun x v => Host.reduce IntOp.andi x v reducesTo_S3x256_S_d0_1 h_S_) main_v56 main_c_21
  let main_v58 : IVec S_ 1 := andi main_v53 main_v57
  let main_v59 : FVec F S3x256x256 .f32 := Host.absf main_arg14
  let main_cst_22 : FVec F S_ .f32 := constant S_ .f32 0x7F800000#32
  let main_v60 : FVec F S3x256x256 .f32 := broadcastInDim S3x256x256 ![] bcast_S_S3x256x256 main_cst_22
  let main_v61 : IVec S3x256x256 1 := cmpf .olt main_v59 main_v60
  let main_c_23 : IVec S_ 1 := constantI S_ 1 1#1
  let main_v62 : IVec S_ 1 := (fun x v => Host.reduce IntOp.andi x v reducesTo_S3x256x256_S_d0_1_2 h_S_) main_v61 main_c_23
  let main_v63 : IVec S_ 1 := andi main_v58 main_v62
  let main_v64 : FVec F S3x256 .f32 := Host.absf main_arg15
  let main_cst_24 : FVec F S_ .f32 := constant S_ .f32 0x7F800000#32
  let main_v65 : FVec F S3x256 .f32 := broadcastInDim S3x256 ![] bcast_S_S3x256 main_cst_24
  let main_v66 : IVec S3x256 1 := cmpf .olt main_v64 main_v65
  let main_c_25 : IVec S_ 1 := constantI S_ 1 1#1
  let main_v67 : IVec S_ 1 := (fun x v => Host.reduce IntOp.andi x v reducesTo_S3x256_S_d0_1 h_S_) main_v66 main_c_25
  fn_part4 (F := F) main_arg16 main_arg17 main_arg18 main_arg19 main_arg20 main_arg21 main_arg22 main_arg23 main_v63 main_v67

def fn_part2 {F : FTy → Type} [FloatOps F] (main_arg9 : FVec F S256 .f32) (main_arg10 : FVec F S256x256 .f32) (main_arg11 : FVec F S256 .f32) (main_arg12 : FVec F S3x512x256 .f32) (main_arg13 : FVec F S3x256 .f32) (main_arg14 : FVec F S3x256x256 .f32) (main_arg15 : FVec F S3x256 .f32) (main_arg16 : FVec F S3x512x256 .f32) (main_arg17 : FVec F S3x256 .f32) (main_arg18 : FVec F S3x256x256 .f32) (main_arg19 : FVec F S3x256 .f32) (main_arg20 : FVec F S520x256 .f32) (main_arg21 : FVec F S256 .f32) (main_arg22 : FVec F S256x26 .f32) (main_arg23 : FVec F S26 .f32) (main_v33 : IVec S_ 1) : IVec S_ 1 :=
  let main_v34 : FVec F S256 .f32 := Host.absf main_arg9
  let main_cst_12 : FVec F S_ .f32 := constant S_ .f32 0x7F800000#32
  let main_v35 : FVec F S256 .f32 := broadcastInDim S256 ![] bcast_S_S256 main_cst_12
  let main_v36 : IVec S256 1 := cmpf .olt main_v34 main_v35
  let main_c_13 : IVec S_ 1 := constantI S_ 1 1#1
  let main_v37 : IVec S_ 1 := (fun x v => Host.reduce IntOp.andi x v reducesTo_S256_S_d0 h_S_) main_v36 main_c_13
  let main_v38 : IVec S_ 1 := andi main_v33 main_v37
  let main_v39 : FVec F S256x256 .f32 := Host.absf main_arg10
  let main_cst_14 : FVec F S_ .f32 := constant S_ .f32 0x7F800000#32
  let main_v40 : FVec F S256x256 .f32 := broadcastInDim S256x256 ![] bcast_S_S256x256 main_cst_14
  let main_v41 : IVec S256x256 1 := cmpf .olt main_v39 main_v40
  let main_c_15 : IVec S_ 1 := constantI S_ 1 1#1
  let main_v42 : IVec S_ 1 := (fun x v => Host.reduce IntOp.andi x v reducesTo_S256x256_S_d0_1 h_S_) main_v41 main_c_15
  let main_v43 : IVec S_ 1 := andi main_v38 main_v42
  let main_v44 : FVec F S256 .f32 := Host.absf main_arg11
  let main_cst_16 : FVec F S_ .f32 := constant S_ .f32 0x7F800000#32
  let main_v45 : FVec F S256 .f32 := broadcastInDim S256 ![] bcast_S_S256 main_cst_16
  let main_v46 : IVec S256 1 := cmpf .olt main_v44 main_v45
  let main_c_17 : IVec S_ 1 := constantI S_ 1 1#1
  let main_v47 : IVec S_ 1 := (fun x v => Host.reduce IntOp.andi x v reducesTo_S256_S_d0 h_S_) main_v46 main_c_17
  let main_v48 : IVec S_ 1 := andi main_v43 main_v47
  let main_v49 : FVec F S3x512x256 .f32 := Host.absf main_arg12
  let main_cst_18 : FVec F S_ .f32 := constant S_ .f32 0x7F800000#32
  let main_v50 : FVec F S3x512x256 .f32 := broadcastInDim S3x512x256 ![] bcast_S_S3x512x256 main_cst_18
  fn_part3 (F := F) main_arg13 main_arg14 main_arg15 main_arg16 main_arg17 main_arg18 main_arg19 main_arg20 main_arg21 main_arg22 main_arg23 main_v48 main_v49 main_v50

def fn_part1 {F : FTy → Type} [FloatOps F] (main_arg6 : FVec F S512x256 .f32) (main_arg7 : FVec F S256 .f32) (main_arg8 : FVec F S274x256 .f32) (main_arg9 : FVec F S256 .f32) (main_arg10 : FVec F S256x256 .f32) (main_arg11 : FVec F S256 .f32) (main_arg12 : FVec F S3x512x256 .f32) (main_arg13 : FVec F S3x256 .f32) (main_arg14 : FVec F S3x256x256 .f32) (main_arg15 : FVec F S3x256 .f32) (main_arg16 : FVec F S3x512x256 .f32) (main_arg17 : FVec F S3x256 .f32) (main_arg18 : FVec F S3x256x256 .f32) (main_arg19 : FVec F S3x256 .f32) (main_arg20 : FVec F S520x256 .f32) (main_arg21 : FVec F S256 .f32) (main_arg22 : FVec F S256x26 .f32) (main_arg23 : FVec F S26 .f32) (main_v13 : IVec S_ 1) (main_v16 : IVec S512 1) : IVec S_ 1 :=
  let main_c_5 : IVec S_ 1 := constantI S_ 1 1#1
  let main_v17 : IVec S_ 1 := (fun x v => Host.reduce IntOp.andi x v reducesTo_S512_S_d0 h_S_) main_v16 main_c_5
  let main_v18 : IVec S_ 1 := andi main_v13 main_v17
  let main_v19 : FVec F S512x256 .f32 := Host.absf main_arg6
  let main_cst_6 : FVec F S_ .f32 := constant S_ .f32 0x7F800000#32
  let main_v20 : FVec F S512x256 .f32 := broadcastInDim S512x256 ![] bcast_S_S512x256 main_cst_6
  let main_v21 : IVec S512x256 1 := cmpf .olt main_v19 main_v20
  let main_c_7 : IVec S_ 1 := constantI S_ 1 1#1
  let main_v22 : IVec S_ 1 := (fun x v => Host.reduce IntOp.andi x v reducesTo_S512x256_S_d0_1 h_S_) main_v21 main_c_7
  let main_v23 : IVec S_ 1 := andi main_v18 main_v22
  let main_v24 : FVec F S256 .f32 := Host.absf main_arg7
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  let main_v29 : FVec F S274x256 .f32 := Host.absf main_arg8
  let main_cst_10 : FVec F S_ .f32 := constant S_ .f32 0x7F800000#32
  let main_v30 : FVec F S274x256 .f32 := broadcastInDim S274x256 ![] bcast_S_S274x256 main_cst_10
  let main_v31 : IVec S274x256 1 := cmpf .olt main_v29 main_v30
  let main_c_11 : IVec S_ 1 := constantI S_ 1 1#1
  let main_v32 : IVec S_ 1 := (fun x v => Host.reduce IntOp.andi x v reducesTo_S274x256_S_d0_1 h_S_) main_v31 main_c_11
  let main_v33 : IVec S_ 1 := andi main_v28 main_v32
  fn_part2 (F := F) main_arg9 main_arg10 main_arg11 main_arg12 main_arg13 main_arg14 main_arg15 main_arg16 main_arg17 main_arg18 main_arg19 main_arg20 main_arg21 main_arg22 main_arg23 main_v33

def fn {F : FTy → Type} [FloatOps F] (main_arg0 : FVec F S20000x512 .f32) (main_arg1 : FVec F S20000x18 .f32) (main_arg2 : IVec S320000x2 32) (main_arg3 : IVec S100000x2 32) (main_arg4 : FVec F S512x512 .f32) (main_arg5 : FVec F S512 .f32) (main_arg6 : FVec F S512x256 .f32) (main_arg7 : FVec F S256 .f32) (main_arg8 : FVec F S274x256 .f32) (main_arg9 : FVec F S256 .f32) (main_arg10 : FVec F S256x256 .f32) (main_arg11 : FVec F S256 .f32) (main_arg12 : FVec F S3x512x256 .f32) (main_arg13 : FVec F S3x256 .f32) (main_arg14 : FVec F S3x256x256 .f32) (main_arg15 : FVec F S3x256 .f32) (main_arg16 : FVec F S3x512x256 .f32) (main_arg17 : FVec F S3x256 .f32) (main_arg18 : FVec F S3x256x256 .f32) (main_arg19 : FVec F S3x256 .f32) (main_arg20 : FVec F S520x256 .f32) (main_arg21 : FVec F S256 .f32) (main_arg22 : FVec F S256x26 .f32) (main_arg23 : FVec F S26 .f32) : IVec S_ 1 :=
  let main_v0 : FVec F S20000x512 .f32 := Host.absf main_arg0
  let main_cst : FVec F S_ .f32 := constant S_ .f32 0x7F800000#32
  let main_v1 : FVec F S20000x512 .f32 := broadcastInDim S20000x512 ![] bcast_S_S20000x512 main_cst
  let main_v2 : IVec S20000x512 1 := cmpf .olt main_v0 main_v1
  let main_c : IVec S_ 1 := constantI S_ 1 1#1
  let main_v3 : IVec S_ 1 := (fun x v => Host.reduce IntOp.andi x v reducesTo_S20000x512_S_d0_1 h_S_) main_v2 main_c
  let main_v4 : FVec F S20000x18 .f32 := Host.absf main_arg1
  let main_cst_0 : FVec F S_ .f32 := constant S_ .f32 0x7F800000#32
  let main_v5 : FVec F S20000x18 .f32 := broadcastInDim S20000x18 ![] bcast_S_S20000x18 main_cst_0
  let main_v6 : IVec S20000x18 1 := cmpf .olt main_v4 main_v5
  let main_c_1 : IVec S_ 1 := constantI S_ 1 1#1
  let main_v7 : IVec S_ 1 := (fun x v => Host.reduce IntOp.andi x v reducesTo_S20000x18_S_d0_1 h_S_) main_v6 main_c_1
  let main_v8 : IVec S_ 1 := andi main_v3 main_v7
  let main_v9 : FVec F S512x512 .f32 := Host.absf main_arg4
  let main_cst_2 : FVec F S_ .f32 := constant S_ .f32 0x7F800000#32
  let main_v10 : FVec F S512x512 .f32 := broadcastInDim S512x512 ![] bcast_S_S512x512 main_cst_2
  let main_v11 : IVec S512x512 1 := cmpf .olt main_v9 main_v10
  let main_c_3 : IVec S_ 1 := constantI S_ 1 1#1
  let main_v12 : IVec S_ 1 := (fun x v => Host.reduce IntOp.andi x v reducesTo_S512x512_S_d0_1 h_S_) main_v11 main_c_3
  let main_v13 : IVec S_ 1 := andi main_v8 main_v12
  let main_v14 : FVec F S512 .f32 := Host.absf main_arg5
  let main_cst_4 : FVec F S_ .f32 := constant S_ .f32 0x7F800000#32
  let main_v15 : FVec F S512 .f32 := broadcastInDim S512 ![] bcast_S_S512 main_cst_4
  let main_v16 : IVec S512 1 := cmpf .olt main_v14 main_v15
  fn_part1 (F := F) main_arg6 main_arg7 main_arg8 main_arg9 main_arg10 main_arg11 main_arg12 main_arg13 main_arg14 main_arg15 main_arg16 main_arg17 main_arg18 main_arg19 main_arg20 main_arg21 main_arg22 main_arg23 main_v13 main_v16
-- ==== Kernel.lean ====
abbrev S20000x512 : Shape := ⟨2, ![20000, 512]⟩
abbrev S20000x18 : Shape := ⟨2, ![20000, 18]⟩
abbrev S320000x2 : Shape := ⟨2, ![320000, 2]⟩
abbrev S100000x2 : Shape := ⟨2, ![100000, 2]⟩
abbrev S512x512 : Shape := ⟨2, ![512, 512]⟩
abbrev S512 : Shape := ⟨1, ![512]⟩
abbrev S512x256 : Shape := ⟨2, ![512, 256]⟩
abbrev S256 : Shape := ⟨1, ![256]⟩
abbrev S274x256 : Shape := ⟨2, ![274, 256]⟩
abbrev S256x256 : Shape := ⟨2, ![256, 256]⟩
abbrev S3x512x256 : Shape := ⟨3, ![3, 512, 256]⟩
abbrev S3x256 : Shape := ⟨2, ![3, 256]⟩
abbrev S3x256x256 : Shape := ⟨3, ![3, 256, 256]⟩
abbrev S520x256 : Shape := ⟨2, ![520, 256]⟩
abbrev S256x26 : Shape := ⟨2, ![256, 26]⟩
abbrev S26 : Shape := ⟨1, ![26]⟩
abbrev S18x256 : Shape := ⟨2, ![18, 256]⟩
abbrev S1x512 : Shape := ⟨2, ![1, 512]⟩
abbrev S1x256 : Shape := ⟨2, ![1, 256]⟩
abbrev S20000x256 : Shape := ⟨2, ![20000, 256]⟩
abbrev S2000x512 : Shape := ⟨2, ![2000, 512]⟩
abbrev S2000x18 : Shape := ⟨2, ![2000, 18]⟩
abbrev S2000x256 : Shape := ⟨2, ![2000, 256]⟩
abbrev S320000x1 : Shape := ⟨2, ![320000, 1]⟩
abbrev S320000 : Shape := ⟨1, ![320000]⟩
abbrev S_ : Shape := ⟨0, ![]⟩
abbrev S320000x256 : Shape := ⟨2, ![320000, 256]⟩
abbrev S1x256x256 : Shape := ⟨3, ![1, 256, 256]⟩
abbrev S3200x256 : Shape := ⟨2, ![3200, 256]⟩
abbrev S100000x1 : Shape := ⟨2, ![100000, 1]⟩
abbrev S100000 : Shape := ⟨1, ![100000]⟩
abbrev S100000x18 : Shape := ⟨2, ![100000, 18]⟩
abbrev S100000x3 : Shape := ⟨2, ![100000, 3]⟩
abbrev S100000x8 : Shape := ⟨2, ![100000, 8]⟩
abbrev S100000x256 : Shape := ⟨2, ![100000, 256]⟩
abbrev S8x256 : Shape := ⟨2, ![8, 256]⟩
abbrev S256x128 : Shape := ⟨2, ![256, 128]⟩
abbrev S1 : Shape := ⟨1, ![1]⟩
abbrev S128 : Shape := ⟨1, ![128]⟩
abbrev S1x128 : Shape := ⟨2, ![1, 128]⟩
abbrev S100000x128 : Shape := ⟨2, ![100000, 128]⟩
abbrev S2000x8 : Shape := ⟨2, ![2000, 8]⟩
abbrev S2000x128 : Shape := ⟨2, ![2000, 128]⟩
abbrev S100000x26 : Shape := ⟨2, ![100000, 26]⟩

abbrev nBuf : Space → Nat
  | .hbm => 310
  | .vmem => 101
  | .smem => 0
  | _ => 0

abbrev hbmTy0_0 (i : Nat) : BufTy := match i % 128 with
  | 0 => ⟨S20000x512, .f32⟩
  | 1 => ⟨S20000x18, .f32⟩
  | 2 => ⟨S320000x2, .i32⟩
  | 3 => ⟨S100000x2, .i32⟩
  | 4 => ⟨S512x512, .f32⟩
  | 5 => ⟨S512, .f32⟩
  | 6 => ⟨S512x256, .f32⟩
  | 7 => ⟨S256, .f32⟩
  | 8 => ⟨S274x256, .f32⟩
  | 9 => ⟨S256, .f32⟩
  | 10 => ⟨S256x256, .f32⟩
  | 11 => ⟨S256, .f32⟩
  | 12 => ⟨S3x512x256, .f32⟩
  | 13 => ⟨S3x256, .f32⟩
  | 14 => ⟨S3x256x256, .f32⟩
  | 15 => ⟨S3x256, .f32⟩
  | 16 => ⟨S3x512x256, .f32⟩
  | 17 => ⟨S3x256, .f32⟩
  | 18 => ⟨S3x256x256, .f32⟩
  | 19 => ⟨S3x256, .f32⟩
  | 20 => ⟨S520x256, .f32⟩
  | 21 => ⟨S256, .f32⟩
  | 22 => ⟨S256x26, .f32⟩
  | 23 => ⟨S26, .f32⟩
  | 24 => ⟨S20000x512, .bf16⟩
  | 25 => ⟨S20000x18, .bf16⟩
  | 26 => ⟨S512x512, .bf16⟩
  | 27 => ⟨S512x256, .bf16⟩
  | 28 => ⟨S256x256, .f32⟩
  | 29 => ⟨S256x256, .bf16⟩
  | 30 => ⟨S18x256, .f32⟩
  | 31 => ⟨S18x256, .bf16⟩
  | 32 => ⟨S256x256, .bf16⟩
  | 33 => ⟨S1x512, .f32⟩
  | 34 => ⟨S1x256, .f32⟩
  | 35 => ⟨S1x256, .f32⟩
  | 36 => ⟨S1x256, .f32⟩
  | 37 => ⟨S20000x256, .f32⟩
  | 38 => ⟨S320000x1, .i32⟩
  | 39 => ⟨S320000, .i32⟩
  | 40 => ⟨S320000x1, .i32⟩
  | 41 => ⟨S320000, .i32⟩
  | 42 => ⟨S3x256x256, .f32⟩
  | 43 => ⟨S3x256x256, .bf16⟩
  | 44 => ⟨S3x256x256, .f32⟩
  | 45 => ⟨S3x256x256, .bf16⟩
  | 46 => ⟨S3x256x256, .bf16⟩
  | 47 => ⟨S3x256x256, .f32⟩
  | 48 => ⟨S3x256x256, .bf16⟩
  | 49 => ⟨S3x256x256, .f32⟩
  | 50 => ⟨S3x256x256, .bf16⟩
  | 51 => ⟨S3x256x256, .bf16⟩
  | 52 => ⟨S20000x256, .bf16⟩
  | 53 => ⟨S_, .i32⟩
  | 54 => ⟨S320000, .i32⟩
  | 55 => ⟨S320000, .i1⟩
  | 56 => ⟨S_, .i32⟩
  | 57 => ⟨S320000, .i32⟩
  | 58 => ⟨S320000, .i32⟩
  | 59 => ⟨S320000, .i32⟩
  | 60 => ⟨S320000x1, .i32⟩
  | 61 => ⟨S320000x256, .bf16⟩
  | 62 => ⟨S_, .i32⟩
  | 63 => ⟨S320000, .i32⟩
  | 64 => ⟨S320000, .i1⟩
  | 65 => ⟨S_, .i32⟩
  | 66 => ⟨S320000, .i32⟩
  | 67 => ⟨S320000, .i32⟩
  | 68 => ⟨S320000, .i32⟩
  | 69 => ⟨S320000x1, .i32⟩
  | 70 => ⟨S320000x256, .bf16⟩
  | 71 => ⟨S1x256x256, .bf16⟩
  | 72 => ⟨S256x256, .bf16⟩
  | 73 => ⟨S1x256x256, .bf16⟩
  | 74 => ⟨S256x256, .bf16⟩
  | 75 => ⟨S1x256, .f32⟩
  | 76 => ⟨S256, .f32⟩
  | 77 => ⟨S1x256x256, .bf16⟩
  | 78 => ⟨S256x256, .bf16⟩
  | 79 => ⟨S1x256, .f32⟩
  | 80 => ⟨S256, .f32⟩
  | 81 => ⟨S1x256, .f32⟩
  | 82 => ⟨S1x256, .f32⟩
  | 83 => ⟨S320000x256, .bf16⟩
  | 84 => ⟨S320000x256, .f32⟩
  | 85 => ⟨S_, .f32⟩
  | 86 => ⟨S20000x256, .f32⟩
  | 87 => ⟨S320000x1, .i32⟩
  | 88 => ⟨S20000x256, .f32⟩
  | 89 => ⟨S20000x256, .bf16⟩
  | 90 => ⟨S1x256x256, .bf16⟩
  | 91 => ⟨S256x256, .bf16⟩
  | 92 => ⟨S1x256x256, .bf16⟩
  | 93 => ⟨S256x256, .bf16⟩
  | 94 => ⟨S1x256, .f32⟩
  | 95 => ⟨S256, .f32⟩
  | 96 => ⟨S1x256x256, .bf16⟩
  | 97 => ⟨S256x256, .bf16⟩
  | 98 => ⟨S1x256, .f32⟩
  | 99 => ⟨S256, .f32⟩
  | 100 => ⟨S1x256, .f32⟩
  | 101 => ⟨S1x256, .f32⟩
  | 102 => ⟨S20000x256, .f32⟩
  | 103 => ⟨S20000x256, .bf16⟩
  | 104 => ⟨S_, .i32⟩
  | 105 => ⟨S320000, .i32⟩
  | 106 => ⟨S320000, .i1⟩
  | 107 => ⟨S_, .i32⟩
  | 108 => ⟨S320000, .i32⟩
  | 109 => ⟨S320000, .i32⟩
  | 110 => ⟨S320000, .i32⟩
  | 111 => ⟨S320000x1, .i32⟩
  | 112 => ⟨S320000x256, .bf16⟩
  | 113 => ⟨S_, .i32⟩
  | 114 => ⟨S320000, .i32⟩
  | 115 => ⟨S320000, .i1⟩
  | 116 => ⟨S_, .i32⟩
  | 117 => ⟨S320000, .i32⟩
  | 118 => ⟨S320000, .i32⟩
  | 119 => ⟨S320000, .i32⟩
  | 120 => ⟨S320000x1, .i32⟩
  | 121 => ⟨S320000x256, .bf16⟩
  | 122 => ⟨S1x256x256, .bf16⟩
  | 123 => ⟨S256x256, .bf16⟩
  | 124 => ⟨S1x256x256, .bf16⟩
  | 125 => ⟨S256x256, .bf16⟩
  | 126 => ⟨S1x256, .f32⟩
  | 127 => ⟨S256, .f32⟩
  | _ => ⟨S20000x512, .f32⟩

abbrev hbmTy0_1 (i : Nat) : BufTy := match i % 128 with
  | 0 => ⟨S1x256x256, .bf16⟩
  | 1 => ⟨S256x256, .bf16⟩
  | 2 => ⟨S1x256, .f32⟩
  | 3 => ⟨S256, .f32⟩
  | 4 => ⟨S1x256, .f32⟩
  | 5 => ⟨S1x256, .f32⟩
  | 6 => ⟨S320000x256, .bf16⟩
  | 7 => ⟨S320000x256, .f32⟩
  | 8 => ⟨S_, .f32⟩
  | 9 => ⟨S20000x256, .f32⟩
  | 10 => ⟨S320000x1, .i32⟩
  | 11 => ⟨S20000x256, .f32⟩
  | 12 => ⟨S20000x256, .bf16⟩
  | 13 => ⟨S1x256x256, .bf16⟩
  | 14 => ⟨S256x256, .bf16⟩
  | 15 => ⟨S1x256x256, .bf16⟩
  | 16 => ⟨S256x256, .bf16⟩
  | 17 => ⟨S1x256, .f32⟩
  | 18 => ⟨S256, .f32⟩
  | 19 => ⟨S1x256x256, .bf16⟩
  | 20 => ⟨S256x256, .bf16⟩
  | 21 => ⟨S1x256, .f32⟩
  | 22 => ⟨S256, .f32⟩
  | 23 => ⟨S1x256, .f32⟩
  | 24 => ⟨S1x256, .f32⟩
  | 25 => ⟨S20000x256, .f32⟩
  | 26 => ⟨S20000x256, .bf16⟩
  | 27 => ⟨S_, .i32⟩
  | 28 => ⟨S320000, .i32⟩
  | 29 => ⟨S320000, .i1⟩
  | 30 => ⟨S_, .i32⟩
  | 31 => ⟨S320000, .i32⟩
  | 32 => ⟨S320000, .i32⟩
  | 33 => ⟨S320000, .i32⟩
  | 34 => ⟨S320000x1, .i32⟩
  | 35 => ⟨S320000x256, .bf16⟩
  | 36 => ⟨S_, .i32⟩
  | 37 => ⟨S320000, .i32⟩
  | 38 => ⟨S320000, .i1⟩
  | 39 => ⟨S_, .i32⟩
  | 40 => ⟨S320000, .i32⟩
  | 41 => ⟨S320000, .i32⟩
  | 42 => ⟨S320000, .i32⟩
  | 43 => ⟨S320000x1, .i32⟩
  | 44 => ⟨S320000x256, .bf16⟩
  | 45 => ⟨S1x256x256, .bf16⟩
  | 46 => ⟨S256x256, .bf16⟩
  | 47 => ⟨S1x256x256, .bf16⟩
  | 48 => ⟨S256x256, .bf16⟩
  | 49 => ⟨S1x256, .f32⟩
  | 50 => ⟨S256, .f32⟩
  | 51 => ⟨S1x256x256, .bf16⟩
  | 52 => ⟨S256x256, .bf16⟩
  | 53 => ⟨S1x256, .f32⟩
  | 54 => ⟨S256, .f32⟩
  | 55 => ⟨S1x256, .f32⟩
  | 56 => ⟨S1x256, .f32⟩
  | 57 => ⟨S320000x256, .bf16⟩
  | 58 => ⟨S320000x256, .f32⟩
  | 59 => ⟨S_, .f32⟩
  | 60 => ⟨S20000x256, .f32⟩
  | 61 => ⟨S320000x1, .i32⟩
  | 62 => ⟨S20000x256, .f32⟩
  | 63 => ⟨S20000x256, .bf16⟩
  | 64 => ⟨S1x256x256, .bf16⟩
  | 65 => ⟨S256x256, .bf16⟩
  | 66 => ⟨S1x256x256, .bf16⟩
  | 67 => ⟨S256x256, .bf16⟩
  | 68 => ⟨S1x256, .f32⟩
  | 69 => ⟨S256, .f32⟩
  | 70 => ⟨S1x256x256, .bf16⟩
  | 71 => ⟨S256x256, .bf16⟩
  | 72 => ⟨S1x256, .f32⟩
  | 73 => ⟨S256, .f32⟩
  | 74 => ⟨S1x256, .f32⟩
  | 75 => ⟨S1x256, .f32⟩
  | 76 => ⟨S20000x256, .f32⟩
  | 77 => ⟨S100000x1, .i32⟩
  | 78 => ⟨S100000, .i32⟩
  | 79 => ⟨S100000x1, .i32⟩
  | 80 => ⟨S100000, .i32⟩
  | 81 => ⟨S_, .i32⟩
  | 82 => ⟨S100000, .i32⟩
  | 83 => ⟨S100000, .i1⟩
  | 84 => ⟨S_, .i32⟩
  | 85 => ⟨S100000, .i32⟩
  | 86 => ⟨S100000, .i32⟩
  | 87 => ⟨S100000, .i32⟩
  | 88 => ⟨S100000x1, .i32⟩
  | 89 => ⟨S100000x18, .f32⟩
  | 90 => ⟨S_, .i32⟩
  | 91 => ⟨S100000, .i32⟩
  | 92 => ⟨S100000, .i1⟩
  | 93 => ⟨S_, .i32⟩
  | 94 => ⟨S100000, .i32⟩
  | 95 => ⟨S100000, .i32⟩
  | 96 => ⟨S100000, .i32⟩
  | 97 => ⟨S100000x1, .i32⟩
  | 98 => ⟨S100000x18, .f32⟩
  | 99 => ⟨S100000x3, .f32⟩
  | 100 => ⟨S100000x3, .f32⟩
  | 101 => ⟨S100000x3, .f32⟩
  | 102 => ⟨S100000x3, .f32⟩
  | 103 => ⟨S_, .f32⟩
  | 104 => ⟨S100000, .f32⟩
  | 105 => ⟨S100000x1, .f32⟩
  | 106 => ⟨S100000x1, .f32⟩
  | 107 => ⟨S100000x1, .f32⟩
  | 108 => ⟨S100000x3, .f32⟩
  | 109 => ⟨S_, .f32⟩
  | 110 => ⟨S100000x3, .f32⟩
  | 111 => ⟨S100000x3, .f32⟩
  | 112 => ⟨S100000x3, .f32⟩
  | 113 => ⟨S_, .f32⟩
  | 114 => ⟨S100000x3, .f32⟩
  | 115 => ⟨S100000x3, .f32⟩
  | 116 => ⟨S100000x3, .f32⟩
  | 117 => ⟨S100000x3, .f32⟩
  | 118 => ⟨S100000x3, .f32⟩
  | 119 => ⟨S100000x3, .f32⟩
  | 120 => ⟨S100000x3, .f32⟩
  | 121 => ⟨S_, .f32⟩
  | 122 => ⟨S100000, .f32⟩
  | 123 => ⟨S100000x3, .f32⟩
  | 124 => ⟨S_, .f32⟩
  | 125 => ⟨S100000, .f32⟩
  | 126 => ⟨S100000, .f32⟩
  | 127 => ⟨S_, .f32⟩
  | _ => ⟨S20000x512, .f32⟩

abbrev hbmTy0_2 (i : Nat) : BufTy := match i % 128 with
  | 0 => ⟨S100000, .f32⟩
  | 1 => ⟨S100000, .f32⟩
  | 2 => ⟨S100000x3, .f32⟩
  | 3 => ⟨S_, .f32⟩
  | 4 => ⟨S100000, .f32⟩
  | 5 => ⟨S100000, .f32⟩
  | 6 => ⟨S_, .f32⟩
  | 7 => ⟨S100000, .f32⟩
  | 8 => ⟨S100000, .f32⟩
  | 9 => ⟨S100000, .f32⟩
  | 10 => ⟨S100000, .f32⟩
  | 11 => ⟨S100000x1, .f32⟩
  | 12 => ⟨S100000x8, .f32⟩
  | 13 => ⟨S20000x256, .bf16⟩
  | 14 => ⟨S_, .i32⟩
  | 15 => ⟨S100000, .i32⟩
  | 16 => ⟨S100000, .i1⟩
  | 17 => ⟨S_, .i32⟩
  | 18 => ⟨S100000, .i32⟩
  | 19 => ⟨S100000, .i32⟩
  | 20 => ⟨S100000, .i32⟩
  | 21 => ⟨S100000x1, .i32⟩
  | 22 => ⟨S100000x256, .bf16⟩
  | 23 => ⟨S_, .i32⟩
  | 24 => ⟨S100000, .i32⟩
  | 25 => ⟨S100000, .i1⟩
  | 26 => ⟨S_, .i32⟩
  | 27 => ⟨S100000, .i32⟩
  | 28 => ⟨S100000, .i32⟩
  | 29 => ⟨S100000, .i32⟩
  | 30 => ⟨S100000x1, .i32⟩
  | 31 => ⟨S100000x256, .bf16⟩
  | 32 => ⟨S100000x8, .bf16⟩
  | 33 => ⟨S256x256, .f32⟩
  | 34 => ⟨S256x256, .bf16⟩
  | 35 => ⟨S256x256, .f32⟩
  | 36 => ⟨S256x256, .bf16⟩
  | 37 => ⟨S8x256, .f32⟩
  | 38 => ⟨S8x256, .bf16⟩
  | 39 => ⟨S_, .f32⟩
  | 40 => ⟨S256x128, .f32⟩
  | 41 => ⟨S_, .i32⟩
  | 42 => ⟨S1, .i32⟩
  | 43 => ⟨S256x128, .f32⟩
  | 44 => ⟨S_, .f32⟩
  | 45 => ⟨S128, .f32⟩
  | 46 => ⟨S_, .i32⟩
  | 47 => ⟨S1, .i32⟩
  | 48 => ⟨S128, .f32⟩
  | 49 => ⟨S256x128, .bf16⟩
  | 50 => ⟨S1x256, .f32⟩
  | 51 => ⟨S1x128, .f32⟩
  | 52 => ⟨S100000x128, .f32⟩
  | 53 => ⟨S100000x26, .f32⟩
  | _ => ⟨S20000x512, .f32⟩

abbrev hbmTy (i : Nat) : BufTy := match i / 128 with
  | 0 => hbmTy0_0 i
  | 1 => hbmTy0_1 i
  | 2 => hbmTy0_2 i
  | _ => ⟨S20000x512, .f32⟩

abbrev bufTy : (tb : Table) → Fin (tcTables nBuf tb) → BufTy
  | .hbm, ⟨i, _⟩ => hbmTy i
  | .local _ .vmem, ⟨0, _⟩ => ⟨S2000x512, .bf16⟩
  | .local _ .vmem, ⟨1, _⟩ => ⟨S2000x512, .bf16⟩
  | .local _ .vmem, ⟨2, _⟩ => ⟨S2000x18, .bf16⟩
  | .local _ .vmem, ⟨3, _⟩ => ⟨S2000x18, .bf16⟩
  | .local _ .vmem, ⟨4, _⟩ => ⟨S512x512, .bf16⟩
  | .local _ .vmem, ⟨5, _⟩ => ⟨S1x512, .f32⟩
  | .local _ .vmem, ⟨6, _⟩ => ⟨S512x256, .bf16⟩
  | .local _ .vmem, ⟨7, _⟩ => ⟨S1x256, .f32⟩
  | .local _ .vmem, ⟨8, _⟩ => ⟨S256x256, .bf16⟩
  | .local _ .vmem, ⟨9, _⟩ => ⟨S18x256, .bf16⟩
  | .local _ .vmem, ⟨10, _⟩ => ⟨S1x256, .f32⟩
  | .local _ .vmem, ⟨11, _⟩ => ⟨S256x256, .bf16⟩
  | .local _ .vmem, ⟨12, _⟩ => ⟨S1x256, .f32⟩
  | .local _ .vmem, ⟨13, _⟩ => ⟨S2000x256, .f32⟩
  | .local _ .vmem, ⟨14, _⟩ => ⟨S2000x256, .f32⟩
  | .local _ .vmem, ⟨15, _⟩ => ⟨S3200x256, .bf16⟩
  | .local _ .vmem, ⟨16, _⟩ => ⟨S3200x256, .bf16⟩
  | .local _ .vmem, ⟨17, _⟩ => ⟨S3200x256, .bf16⟩
  | .local _ .vmem, ⟨18, _⟩ => ⟨S3200x256, .bf16⟩
  | .local _ .vmem, ⟨19, _⟩ => ⟨S256x256, .bf16⟩
  | .local _ .vmem, ⟨20, _⟩ => ⟨S256x256, .bf16⟩
  | .local _ .vmem, ⟨21, _⟩ => ⟨S1x256, .f32⟩
  | .local _ .vmem, ⟨22, _⟩ => ⟨S256x256, .bf16⟩
  | .local _ .vmem, ⟨23, _⟩ => ⟨S1x256, .f32⟩
  | .local _ .vmem, ⟨24, _⟩ => ⟨S3200x256, .bf16⟩
  | .local _ .vmem, ⟨25, _⟩ => ⟨S3200x256, .bf16⟩
  | .local _ .vmem, ⟨26, _⟩ => ⟨S2000x256, .bf16⟩
  | .local _ .vmem, ⟨27, _⟩ => ⟨S2000x256, .bf16⟩
  | .local _ .vmem, ⟨28, _⟩ => ⟨S2000x256, .bf16⟩
  | .local _ .vmem, ⟨29, _⟩ => ⟨S2000x256, .bf16⟩
  | .local _ .vmem, ⟨30, _⟩ => ⟨S256x256, .bf16⟩
  | .local _ .vmem, ⟨31, _⟩ => ⟨S256x256, .bf16⟩
  | .local _ .vmem, ⟨32, _⟩ => ⟨S1x256, .f32⟩
  | .local _ .vmem, ⟨33, _⟩ => ⟨S256x256, .bf16⟩
  | .local _ .vmem, ⟨34, _⟩ => ⟨S1x256, .f32⟩
  | .local _ .vmem, ⟨35, _⟩ => ⟨S2000x256, .f32⟩
  | .local _ .vmem, ⟨36, _⟩ => ⟨S2000x256, .f32⟩
  | .local _ .vmem, ⟨37, _⟩ => ⟨S2000x256, .f32⟩
  | .local _ .vmem, ⟨38, _⟩ => ⟨S2000x256, .f32⟩
  | .local _ .vmem, ⟨39, _⟩ => ⟨S3200x256, .bf16⟩
  | .local _ .vmem, ⟨40, _⟩ => ⟨S3200x256, .bf16⟩
  | .local _ .vmem, ⟨41, _⟩ => ⟨S3200x256, .bf16⟩
  | .local _ .vmem, ⟨42, _⟩ => ⟨S3200x256, .bf16⟩
  | .local _ .vmem, ⟨43, _⟩ => ⟨S256x256, .bf16⟩
  | .local _ .vmem, ⟨44, _⟩ => ⟨S256x256, .bf16⟩
  | .local _ .vmem, ⟨45, _⟩ => ⟨S1x256, .f32⟩
  | .local _ .vmem, ⟨46, _⟩ => ⟨S256x256, .bf16⟩
  | .local _ .vmem, ⟨47, _⟩ => ⟨S1x256, .f32⟩
  | .local _ .vmem, ⟨48, _⟩ => ⟨S3200x256, .bf16⟩
  | .local _ .vmem, ⟨49, _⟩ => ⟨S3200x256, .bf16⟩
  | .local _ .vmem, ⟨50, _⟩ => ⟨S2000x256, .bf16⟩
  | .local _ .vmem, ⟨51, _⟩ => ⟨S2000x256, .bf16⟩
  | .local _ .vmem, ⟨52, _⟩ => ⟨S2000x256, .bf16⟩
  | .local _ .vmem, ⟨53, _⟩ => ⟨S2000x256, .bf16⟩
  | .local _ .vmem, ⟨54, _⟩ => ⟨S256x256, .bf16⟩
  | .local _ .vmem, ⟨55, _⟩ => ⟨S256x256, .bf16⟩
  | .local _ .vmem, ⟨56, _⟩ => ⟨S1x256, .f32⟩
  | .local _ .vmem, ⟨57, _⟩ => ⟨S256x256, .bf16⟩
  | .local _ .vmem, ⟨58, _⟩ => ⟨S1x256, .f32⟩
  | .local _ .vmem, ⟨59, _⟩ => ⟨S2000x256, .f32⟩
  | .local _ .vmem, ⟨60, _⟩ => ⟨S2000x256, .f32⟩
  | .local _ .vmem, ⟨61, _⟩ => ⟨S2000x256, .f32⟩
  | .local _ .vmem, ⟨62, _⟩ => ⟨S2000x256, .f32⟩
  | .local _ .vmem, ⟨63, _⟩ => ⟨S3200x256, .bf16⟩
  | .local _ .vmem, ⟨64, _⟩ => ⟨S3200x256, .bf16⟩
  | .local _ .vmem, ⟨65, _⟩ => ⟨S3200x256, .bf16⟩
  | .local _ .vmem, ⟨66, _⟩ => ⟨S3200x256, .bf16⟩
  | .local _ .vmem, ⟨67, _⟩ => ⟨S256x256, .bf16⟩
  | .local _ .vmem, ⟨68, _⟩ => ⟨S256x256, .bf16⟩
  | .local _ .vmem, ⟨69, _⟩ => ⟨S1x256, .f32⟩
  | .local _ .vmem, ⟨70, _⟩ => ⟨S256x256, .bf16⟩
  | .local _ .vmem, ⟨71, _⟩ => ⟨S1x256, .f32⟩
  | .local _ .vmem, ⟨72, _⟩ => ⟨S3200x256, .bf16⟩
  | .local _ .vmem, ⟨73, _⟩ => ⟨S3200x256, .bf16⟩
  | .local _ .vmem, ⟨74, _⟩ => ⟨S2000x256, .bf16⟩
  | .local _ .vmem, ⟨75, _⟩ => ⟨S2000x256, .bf16⟩
  | .local _ .vmem, ⟨76, _⟩ => ⟨S2000x256, .bf16⟩
  | .local _ .vmem, ⟨77, _⟩ => ⟨S2000x256, .bf16⟩
  | .local _ .vmem, ⟨78, _⟩ => ⟨S256x256, .bf16⟩
  | .local _ .vmem, ⟨79, _⟩ => ⟨S256x256, .bf16⟩
  | .local _ .vmem, ⟨80, _⟩ => ⟨S1x256, .f32⟩
  | .local _ .vmem, ⟨81, _⟩ => ⟨S256x256, .bf16⟩
  | .local _ .vmem, ⟨82, _⟩ => ⟨S1x256, .f32⟩
  | .local _ .vmem, ⟨83, _⟩ => ⟨S2000x256, .f32⟩
  | .local _ .vmem, ⟨84, _⟩ => ⟨S2000x256, .f32⟩
  | .local _ .vmem, ⟨85, _⟩ => ⟨S2000x256, .f32⟩
  | .local _ .vmem, ⟨86, _⟩ => ⟨S2000x256, .f32⟩
  | .local _ .vmem, ⟨87, _⟩ => ⟨S2000x256, .bf16⟩
  | .local _ .vmem, ⟨88, _⟩ => ⟨S2000x256, .bf16⟩
  | .local _ .vmem, ⟨89, _⟩ => ⟨S2000x256, .bf16⟩
  | .local _ .vmem, ⟨90, _⟩ => ⟨S2000x256, .bf16⟩
  | .local _ .vmem, ⟨91, _⟩ => ⟨S2000x8, .bf16⟩
  | .local _ .vmem, ⟨92, _⟩ => ⟨S2000x8, .bf16⟩
  | .local _ .vmem, ⟨93, _⟩ => ⟨S256x256, .bf16⟩
  | .local _ .vmem, ⟨94, _⟩ => ⟨S256x256, .bf16⟩
  | .local _ .vmem, ⟨95, _⟩ => ⟨S8x256, .bf16⟩
  | .local _ .vmem, ⟨96, _⟩ => ⟨S1x256, .f32⟩
  | .local _ .vmem, ⟨97, _⟩ => ⟨S256x128, .bf16⟩
  | .local _ .vmem, ⟨98, _⟩ => ⟨S1x128, .f32⟩
  | .local _ .vmem, ⟨99, _⟩ => ⟨S2000x128, .f32⟩
  | .local _ .vmem, ⟨100, _⟩ => ⟨S2000x128, .f32⟩
  | _, _ => ⟨S20000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | .vmem, ⟨78, _⟩ => true
  | .vmem, ⟨79, _⟩ => true
  | .vmem, ⟨80, _⟩ => true
  | .vmem, ⟨81, _⟩ => true
  | .vmem, ⟨82, _⟩ => true
  | .vmem, ⟨83, _⟩ => true
  | .vmem, ⟨84, _⟩ => true
  | .vmem, ⟨85, _⟩ => true
  | .vmem, ⟨86, _⟩ => true
  | .vmem, ⟨87, _⟩ => true
  | .vmem, ⟨88, _⟩ => true
  | .vmem, ⟨89, _⟩ => true
  | .vmem, ⟨90, _⟩ => true
  | .vmem, ⟨91, _⟩ => true
  | .vmem, ⟨92, _⟩ => true
  | .vmem, ⟨93, _⟩ => true
  | .vmem, ⟨94, _⟩ => true
  | .vmem, ⟨95, _⟩ => true
  | .vmem, ⟨96, _⟩ => true
  | .vmem, ⟨97, _⟩ => true
  | .vmem, ⟨98, _⟩ => true
  | .vmem, ⟨99, _⟩ => true
  | .vmem, ⟨100, _⟩ => true
  | _, _ => false

abbrev semScoped : Fin 0 → Bool
  | ⟨_, h⟩ => absurd h (Nat.not_lt_zero _)

abbrev dmaSemScoped : Fin 101 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | ⟨90, _⟩ => true
  | ⟨91, _⟩ => true
  | ⟨92, _⟩ => true
  | ⟨93, _⟩ => true
  | ⟨94, _⟩ => true
  | ⟨95, _⟩ => true
  | ⟨96, _⟩ => true
  | ⟨97, _⟩ => true
  | ⟨98, _⟩ => true
  | ⟨99, _⟩ => true
  | ⟨100, _⟩ => true
  | _ => false

abbrev sig : RefSig :=
  ofTc nBuf bufTy 0 101 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_v0 : Ref sig .tc := ⟨.hbm, 24, rfl⟩
abbrev main_v1 : Ref sig .tc := ⟨.hbm, 25, rfl⟩
abbrev main_v2 : Ref sig .tc := ⟨.hbm, 26, rfl⟩
abbrev main_v3 : Ref sig .tc := ⟨.hbm, 27, rfl⟩
abbrev main_v4 : Ref sig .tc := ⟨.hbm, 28, rfl⟩
abbrev main_v5 : Ref sig .tc := ⟨.hbm, 29, rfl⟩
abbrev main_v6 : Ref sig .tc := ⟨.hbm, 30, rfl⟩
abbrev main_v7 : Ref sig .tc := ⟨.hbm, 31, rfl⟩
abbrev main_v8 : Ref sig .tc := ⟨.hbm, 32, rfl⟩
abbrev main_v9 : Ref sig .tc := ⟨.hbm, 33, rfl⟩
abbrev main_v10 : Ref sig .tc := ⟨.hbm, 34, rfl⟩
abbrev main_v11 : Ref sig .tc := ⟨.hbm, 35, rfl⟩
abbrev main_v12 : Ref sig .tc := ⟨.hbm, 36, rfl⟩
abbrev main_v13 : Ref sig .tc := ⟨.hbm, 37, rfl⟩
abbrev main_v14 : Ref sig .tc := ⟨.hbm, 38, rfl⟩
abbrev main_v15 : Ref sig .tc := ⟨.hbm, 39, rfl⟩
abbrev main_v16 : Ref sig .tc := ⟨.hbm, 40, rfl⟩
abbrev main_v17 : Ref sig .tc := ⟨.hbm, 41, rfl⟩
abbrev main_v18 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_c : Ref sig .tc := ⟨.hbm, 53, rfl⟩
abbrev main_v29 : Ref sig .tc := ⟨.hbm, 54, rfl⟩
abbrev main_v30 : Ref sig .tc := ⟨.hbm, 55, rfl⟩
abbrev main_c_0 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_c_1 : Ref sig .tc := ⟨.hbm, 62, rfl⟩
abbrev main_v36 : Ref sig .tc := ⟨.hbm, 63, rfl⟩
abbrev main_v37 : Ref sig .tc := ⟨.hbm, 64, rfl⟩
abbrev main_c_2 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_cst : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_c_3 : Ref sig .tc := ⟨.hbm, 104, rfl⟩
abbrev main_v75 : Ref sig .tc := ⟨.hbm, 105, rfl⟩
abbrev main_v76 : Ref sig .tc := ⟨.hbm, 106, rfl⟩
abbrev main_c_4 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_c_5 : Ref sig .tc := ⟨.hbm, 113, rfl⟩
abbrev main_v82 : Ref sig .tc := ⟨.hbm, 114, rfl⟩
abbrev main_v83 : Ref sig .tc := ⟨.hbm, 115, rfl⟩
abbrev main_c_6 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩
abbrev main_v88 : Ref sig .tc := ⟨.hbm, 121, rfl⟩
abbrev main_v89 : Ref sig .tc := ⟨.hbm, 122, rfl⟩
abbrev main_v90 : Ref sig .tc := ⟨.hbm, 123, rfl⟩
abbrev main_v91 : Ref sig .tc := ⟨.hbm, 124, rfl⟩
abbrev main_v92 : Ref sig .tc := ⟨.hbm, 125, rfl⟩
abbrev main_v93 : Ref sig .tc := ⟨.hbm, 126, rfl⟩
abbrev main_v94 : Ref sig .tc := ⟨.hbm, 127, rfl⟩
abbrev main_v95 : Ref sig .tc := ⟨.hbm, 128, rfl⟩
abbrev main_v96 : Ref sig .tc := ⟨.hbm, 129, rfl⟩
abbrev main_v97 : Ref sig .tc := ⟨.hbm, 130, rfl⟩
abbrev main_v98 : Ref sig .tc := ⟨.hbm, 131, rfl⟩
abbrev main_v99 : Ref sig .tc := ⟨.hbm, 132, rfl⟩
abbrev main_v100 : Ref sig .tc := ⟨.hbm, 133, rfl⟩
abbrev main_v101 : Ref sig .tc := ⟨.hbm, 134, rfl⟩
abbrev main_v102 : Ref sig .tc := ⟨.hbm, 135, rfl⟩
abbrev main_cst_7 : Ref sig .tc := ⟨.hbm, 136, rfl⟩
abbrev main_v103 : Ref sig .tc := ⟨.hbm, 137, rfl⟩
abbrev main_v104 : Ref sig .tc := ⟨.hbm, 138, rfl⟩
abbrev main_v105 : Ref sig .tc := ⟨.hbm, 139, rfl⟩
abbrev main_v106 : Ref sig .tc := ⟨.hbm, 140, rfl⟩
abbrev main_v107 : Ref sig .tc := ⟨.hbm, 141, rfl⟩
abbrev main_v108 : Ref sig .tc := ⟨.hbm, 142, rfl⟩
abbrev main_v109 : Ref sig .tc := ⟨.hbm, 143, rfl⟩
abbrev main_v110 : Ref sig .tc := ⟨.hbm, 144, rfl⟩
abbrev main_v111 : Ref sig .tc := ⟨.hbm, 145, rfl⟩
abbrev main_v112 : Ref sig .tc := ⟨.hbm, 146, rfl⟩
abbrev main_v113 : Ref sig .tc := ⟨.hbm, 147, rfl⟩
abbrev main_v114 : Ref sig .tc := ⟨.hbm, 148, rfl⟩
abbrev main_v115 : Ref sig .tc := ⟨.hbm, 149, rfl⟩
abbrev main_v116 : Ref sig .tc := ⟨.hbm, 150, rfl⟩
abbrev main_v117 : Ref sig .tc := ⟨.hbm, 151, rfl⟩
abbrev main_v118 : Ref sig .tc := ⟨.hbm, 152, rfl⟩
abbrev main_v119 : Ref sig .tc := ⟨.hbm, 153, rfl⟩
abbrev main_v120 : Ref sig .tc := ⟨.hbm, 154, rfl⟩
abbrev main_c_8 : Ref sig .tc := ⟨.hbm, 155, rfl⟩
abbrev main_v121 : Ref sig .tc := ⟨.hbm, 156, rfl⟩
abbrev main_v122 : Ref sig .tc := ⟨.hbm, 157, rfl⟩
abbrev main_c_9 : Ref sig .tc := ⟨.hbm, 158, rfl⟩
abbrev main_v123 : Ref sig .tc := ⟨.hbm, 159, rfl⟩
abbrev main_v124 : Ref sig .tc := ⟨.hbm, 160, rfl⟩
abbrev main_v125 : Ref sig .tc := ⟨.hbm, 161, rfl⟩
abbrev main_v126 : Ref sig .tc := ⟨.hbm, 162, rfl⟩
abbrev main_v127 : Ref sig .tc := ⟨.hbm, 163, rfl⟩
abbrev main_c_10 : Ref sig .tc := ⟨.hbm, 164, rfl⟩
abbrev main_v128 : Ref sig .tc := ⟨.hbm, 165, rfl⟩
abbrev main_v129 : Ref sig .tc := ⟨.hbm, 166, rfl⟩
abbrev main_c_11 : Ref sig .tc := ⟨.hbm, 167, rfl⟩
abbrev main_v130 : Ref sig .tc := ⟨.hbm, 168, rfl⟩
abbrev main_v131 : Ref sig .tc := ⟨.hbm, 169, rfl⟩
abbrev main_v132 : Ref sig .tc := ⟨.hbm, 170, rfl⟩
abbrev main_v133 : Ref sig .tc := ⟨.hbm, 171, rfl⟩
abbrev main_v134 : Ref sig .tc := ⟨.hbm, 172, rfl⟩
abbrev main_v135 : Ref sig .tc := ⟨.hbm, 173, rfl⟩
abbrev main_v136 : Ref sig .tc := ⟨.hbm, 174, rfl⟩
abbrev main_v137 : Ref sig .tc := ⟨.hbm, 175, rfl⟩
abbrev main_v138 : Ref sig .tc := ⟨.hbm, 176, rfl⟩
abbrev main_v139 : Ref sig .tc := ⟨.hbm, 177, rfl⟩
abbrev main_v140 : Ref sig .tc := ⟨.hbm, 178, rfl⟩
abbrev main_v141 : Ref sig .tc := ⟨.hbm, 179, rfl⟩
abbrev main_v142 : Ref sig .tc := ⟨.hbm, 180, rfl⟩
abbrev main_v143 : Ref sig .tc := ⟨.hbm, 181, rfl⟩
abbrev main_v144 : Ref sig .tc := ⟨.hbm, 182, rfl⟩
abbrev main_v145 : Ref sig .tc := ⟨.hbm, 183, rfl⟩
abbrev main_v146 : Ref sig .tc := ⟨.hbm, 184, rfl⟩
abbrev main_v147 : Ref sig .tc := ⟨.hbm, 185, rfl⟩
abbrev main_v148 : Ref sig .tc := ⟨.hbm, 186, rfl⟩
abbrev main_cst_12 : Ref sig .tc := ⟨.hbm, 187, rfl⟩
abbrev main_v149 : Ref sig .tc := ⟨.hbm, 188, rfl⟩
abbrev main_v150 : Ref sig .tc := ⟨.hbm, 189, rfl⟩
abbrev main_v151 : Ref sig .tc := ⟨.hbm, 190, rfl⟩
abbrev main_v152 : Ref sig .tc := ⟨.hbm, 191, rfl⟩
abbrev main_v153 : Ref sig .tc := ⟨.hbm, 192, rfl⟩
abbrev main_v154 : Ref sig .tc := ⟨.hbm, 193, rfl⟩
abbrev main_v155 : Ref sig .tc := ⟨.hbm, 194, rfl⟩
abbrev main_v156 : Ref sig .tc := ⟨.hbm, 195, rfl⟩
abbrev main_v157 : Ref sig .tc := ⟨.hbm, 196, rfl⟩
abbrev main_v158 : Ref sig .tc := ⟨.hbm, 197, rfl⟩
abbrev main_v159 : Ref sig .tc := ⟨.hbm, 198, rfl⟩
abbrev main_v160 : Ref sig .tc := ⟨.hbm, 199, rfl⟩
abbrev main_v161 : Ref sig .tc := ⟨.hbm, 200, rfl⟩
abbrev main_v162 : Ref sig .tc := ⟨.hbm, 201, rfl⟩
abbrev main_v163 : Ref sig .tc := ⟨.hbm, 202, rfl⟩
abbrev main_v164 : Ref sig .tc := ⟨.hbm, 203, rfl⟩
abbrev main_v165 : Ref sig .tc := ⟨.hbm, 204, rfl⟩
abbrev main_v166 : Ref sig .tc := ⟨.hbm, 205, rfl⟩
abbrev main_v167 : Ref sig .tc := ⟨.hbm, 206, rfl⟩
abbrev main_v168 : Ref sig .tc := ⟨.hbm, 207, rfl⟩
abbrev main_v169 : Ref sig .tc := ⟨.hbm, 208, rfl⟩
abbrev main_c_13 : Ref sig .tc := ⟨.hbm, 209, rfl⟩
abbrev main_v170 : Ref sig .tc := ⟨.hbm, 210, rfl⟩
abbrev main_v171 : Ref sig .tc := ⟨.hbm, 211, rfl⟩
abbrev main_c_14 : Ref sig .tc := ⟨.hbm, 212, rfl⟩
abbrev main_v172 : Ref sig .tc := ⟨.hbm, 213, rfl⟩
abbrev main_v173 : Ref sig .tc := ⟨.hbm, 214, rfl⟩
abbrev main_v174 : Ref sig .tc := ⟨.hbm, 215, rfl⟩
abbrev main_v175 : Ref sig .tc := ⟨.hbm, 216, rfl⟩
abbrev main_v176 : Ref sig .tc := ⟨.hbm, 217, rfl⟩
abbrev main_c_15 : Ref sig .tc := ⟨.hbm, 218, rfl⟩
abbrev main_v177 : Ref sig .tc := ⟨.hbm, 219, rfl⟩
abbrev main_v178 : Ref sig .tc := ⟨.hbm, 220, rfl⟩
abbrev main_c_16 : Ref sig .tc := ⟨.hbm, 221, rfl⟩
abbrev main_v179 : Ref sig .tc := ⟨.hbm, 222, rfl⟩
abbrev main_v180 : Ref sig .tc := ⟨.hbm, 223, rfl⟩
abbrev main_v181 : Ref sig .tc := ⟨.hbm, 224, rfl⟩
abbrev main_v182 : Ref sig .tc := ⟨.hbm, 225, rfl⟩
abbrev main_v183 : Ref sig .tc := ⟨.hbm, 226, rfl⟩
abbrev main_v184 : Ref sig .tc := ⟨.hbm, 227, rfl⟩
abbrev main_v185 : Ref sig .tc := ⟨.hbm, 228, rfl⟩
abbrev main_v186 : Ref sig .tc := ⟨.hbm, 229, rfl⟩
abbrev main_call0_v0 : Ref sig .tc := ⟨.hbm, 230, rfl⟩
abbrev main_call0_cst : Ref sig .tc := ⟨.hbm, 231, rfl⟩
abbrev main_call0_v1 : Ref sig .tc := ⟨.hbm, 232, rfl⟩
abbrev main_call0_v2 : Ref sig .tc := ⟨.hbm, 233, rfl⟩
abbrev main_v187 : Ref sig .tc := ⟨.hbm, 234, rfl⟩
abbrev main_v188 : Ref sig .tc := ⟨.hbm, 235, rfl⟩
abbrev main_v189 : Ref sig .tc := ⟨.hbm, 236, rfl⟩
abbrev main_cst_17 : Ref sig .tc := ⟨.hbm, 237, rfl⟩
abbrev main_v190 : Ref sig .tc := ⟨.hbm, 238, rfl⟩
abbrev main_v191 : Ref sig .tc := ⟨.hbm, 239, rfl⟩
abbrev main_v192 : Ref sig .tc := ⟨.hbm, 240, rfl⟩
abbrev main_cst_18 : Ref sig .tc := ⟨.hbm, 241, rfl⟩
abbrev main_v193 : Ref sig .tc := ⟨.hbm, 242, rfl⟩
abbrev main_v194 : Ref sig .tc := ⟨.hbm, 243, rfl⟩
abbrev main_v195 : Ref sig .tc := ⟨.hbm, 244, rfl⟩
abbrev main_v196 : Ref sig .tc := ⟨.hbm, 245, rfl⟩
abbrev main_v197 : Ref sig .tc := ⟨.hbm, 246, rfl⟩
abbrev main_v198 : Ref sig .tc := ⟨.hbm, 247, rfl⟩
abbrev main_v199 : Ref sig .tc := ⟨.hbm, 248, rfl⟩
abbrev main_cst_19 : Ref sig .tc := ⟨.hbm, 249, rfl⟩
abbrev main_v200 : Ref sig .tc := ⟨.hbm, 250, rfl⟩
abbrev main_call1_v0 : Ref sig .tc := ⟨.hbm, 251, rfl⟩
abbrev main_call1_cst : Ref sig .tc := ⟨.hbm, 252, rfl⟩
abbrev main_call1_v1 : Ref sig .tc := ⟨.hbm, 253, rfl⟩
abbrev main_v201 : Ref sig .tc := ⟨.hbm, 254, rfl⟩
abbrev main_cst_20 : Ref sig .tc := ⟨.hbm, 255, rfl⟩
abbrev main_v202 : Ref sig .tc := ⟨.hbm, 256, rfl⟩
abbrev main_v203 : Ref sig .tc := ⟨.hbm, 257, rfl⟩
abbrev main_call2_v0 : Ref sig .tc := ⟨.hbm, 258, rfl⟩
abbrev main_call2_cst : Ref sig .tc := ⟨.hbm, 259, rfl⟩
abbrev main_call2_v1 : Ref sig .tc := ⟨.hbm, 260, rfl⟩
abbrev main_v204 : Ref sig .tc := ⟨.hbm, 261, rfl⟩
abbrev main_cst_21 : Ref sig .tc := ⟨.hbm, 262, rfl⟩
abbrev main_v205 : Ref sig .tc := ⟨.hbm, 263, rfl⟩
abbrev main_v206 : Ref sig .tc := ⟨.hbm, 264, rfl⟩
abbrev main_v207 : Ref sig .tc := ⟨.hbm, 265, rfl⟩
abbrev main_v208 : Ref sig .tc := ⟨.hbm, 266, rfl⟩
abbrev main_v209 : Ref sig .tc := ⟨.hbm, 267, rfl⟩
abbrev main_v210 : Ref sig .tc := ⟨.hbm, 268, rfl⟩
abbrev main_v211 : Ref sig .tc := ⟨.hbm, 269, rfl⟩
abbrev main_c_22 : Ref sig .tc := ⟨.hbm, 270, rfl⟩
abbrev main_v212 : Ref sig .tc := ⟨.hbm, 271, rfl⟩
abbrev main_v213 : Ref sig .tc := ⟨.hbm, 272, rfl⟩
abbrev main_c_23 : Ref sig .tc := ⟨.hbm, 273, rfl⟩
abbrev main_v214 : Ref sig .tc := ⟨.hbm, 274, rfl⟩
abbrev main_v215 : Ref sig .tc := ⟨.hbm, 275, rfl⟩
abbrev main_v216 : Ref sig .tc := ⟨.hbm, 276, rfl⟩
abbrev main_v217 : Ref sig .tc := ⟨.hbm, 277, rfl⟩
abbrev main_v218 : Ref sig .tc := ⟨.hbm, 278, rfl⟩
abbrev main_c_24 : Ref sig .tc := ⟨.hbm, 279, rfl⟩
abbrev main_v219 : Ref sig .tc := ⟨.hbm, 280, rfl⟩
abbrev main_v220 : Ref sig .tc := ⟨.hbm, 281, rfl⟩
abbrev main_c_25 : Ref sig .tc := ⟨.hbm, 282, rfl⟩
abbrev main_v221 : Ref sig .tc := ⟨.hbm, 283, rfl⟩
abbrev main_v222 : Ref sig .tc := ⟨.hbm, 284, rfl⟩
abbrev main_v223 : Ref sig .tc := ⟨.hbm, 285, rfl⟩
abbrev main_v224 : Ref sig .tc := ⟨.hbm, 286, rfl⟩
abbrev main_v225 : Ref sig .tc := ⟨.hbm, 287, rfl⟩
abbrev main_v226 : Ref sig .tc := ⟨.hbm, 288, rfl⟩
abbrev main_v227 : Ref sig .tc := ⟨.hbm, 289, rfl⟩
abbrev main_v228 : Ref sig .tc := ⟨.hbm, 290, rfl⟩
abbrev main_v229 : Ref sig .tc := ⟨.hbm, 291, rfl⟩
abbrev main_v230 : Ref sig .tc := ⟨.hbm, 292, rfl⟩
abbrev main_v231 : Ref sig .tc := ⟨.hbm, 293, rfl⟩
abbrev main_v232 : Ref sig .tc := ⟨.hbm, 294, rfl⟩
abbrev main_cst_26 : Ref sig .tc := ⟨.hbm, 295, rfl⟩
abbrev main_v233 : Ref sig .tc := ⟨.hbm, 296, rfl⟩
abbrev main_c_27 : Ref sig .tc := ⟨.hbm, 297, rfl⟩
abbrev main_v234 : Ref sig .tc := ⟨.hbm, 298, rfl⟩
abbrev main_v235 : Ref sig .tc := ⟨.hbm, 299, rfl⟩
abbrev main_cst_28 : Ref sig .tc := ⟨.hbm, 300, rfl⟩
abbrev main_v236 : Ref sig .tc := ⟨.hbm, 301, rfl⟩
abbrev main_c_29 : Ref sig .tc := ⟨.hbm, 302, rfl⟩
abbrev main_v237 : Ref sig .tc := ⟨.hbm, 303, rfl⟩
abbrev main_v238 : Ref sig .tc := ⟨.hbm, 304, rfl⟩
abbrev main_v239 : Ref sig .tc := ⟨.hbm, 305, rfl⟩
abbrev main_v240 : Ref sig .tc := ⟨.hbm, 306, rfl⟩
abbrev main_v241 : Ref sig .tc := ⟨.hbm, 307, rfl⟩
abbrev main_v242 : Ref sig .tc := ⟨.hbm, 308, rfl⟩
abbrev main_v243 : Ref sig .tc := ⟨.hbm, 309, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg11_1 : Ref sig .tc := ⟨.vmem, 14, rfl⟩
abbrev cc1_stg0_0 : Ref sig .tc := ⟨.vmem, 15, rfl⟩
abbrev cc1_stg0_1 : Ref sig .tc := ⟨.vmem, 16, rfl⟩
abbrev cc1_stg1_0 : Ref sig .tc := ⟨.vmem, 17, rfl⟩
abbrev cc1_stg1_1 : Ref sig .tc := ⟨.vmem, 18, rfl⟩
abbrev cc1_stg2_0 : Ref sig .tc := ⟨.vmem, 19, rfl⟩
abbrev cc1_stg3_0 : Ref sig .tc := ⟨.vmem, 20, rfl⟩
abbrev cc1_stg4_0 : Ref sig .tc := ⟨.vmem, 21, rfl⟩
abbrev cc1_stg5_0 : Ref sig .tc := ⟨.vmem, 22, rfl⟩
abbrev cc1_stg6_0 : Ref sig .tc := ⟨.vmem, 23, rfl⟩
abbrev cc1_stg7_0 : Ref sig .tc := ⟨.vmem, 24, rfl⟩
abbrev cc1_stg7_1 : Ref sig .tc := ⟨.vmem, 25, rfl⟩
abbrev cc2_stg0_0 : Ref sig .tc := ⟨.vmem, 26, rfl⟩
abbrev cc2_stg0_1 : Ref sig .tc := ⟨.vmem, 27, rfl⟩
abbrev cc2_stg1_0 : Ref sig .tc := ⟨.vmem, 28, rfl⟩
abbrev cc2_stg1_1 : Ref sig .tc := ⟨.vmem, 29, rfl⟩
abbrev cc2_stg2_0 : Ref sig .tc := ⟨.vmem, 30, rfl⟩
abbrev cc2_stg3_0 : Ref sig .tc := ⟨.vmem, 31, rfl⟩
abbrev cc2_stg4_0 : Ref sig .tc := ⟨.vmem, 32, rfl⟩
abbrev cc2_stg5_0 : Ref sig .tc := ⟨.vmem, 33, rfl⟩
abbrev cc2_stg6_0 : Ref sig .tc := ⟨.vmem, 34, rfl⟩
abbrev cc2_stg7_0 : Ref sig .tc := ⟨.vmem, 35, rfl⟩
abbrev cc2_stg7_1 : Ref sig .tc := ⟨.vmem, 36, rfl⟩
abbrev cc2_stg8_0 : Ref sig .tc := ⟨.vmem, 37, rfl⟩
abbrev cc2_stg8_1 : Ref sig .tc := ⟨.vmem, 38, rfl⟩
abbrev cc3_stg0_0 : Ref sig .tc := ⟨.vmem, 39, rfl⟩
abbrev cc3_stg0_1 : Ref sig .tc := ⟨.vmem, 40, rfl⟩
abbrev cc3_stg1_0 : Ref sig .tc := ⟨.vmem, 41, rfl⟩
abbrev cc3_stg1_1 : Ref sig .tc := ⟨.vmem, 42, rfl⟩
abbrev cc3_stg2_0 : Ref sig .tc := ⟨.vmem, 43, rfl⟩
abbrev cc3_stg3_0 : Ref sig .tc := ⟨.vmem, 44, rfl⟩
abbrev cc3_stg4_0 : Ref sig .tc := ⟨.vmem, 45, rfl⟩
abbrev cc3_stg5_0 : Ref sig .tc := ⟨.vmem, 46, rfl⟩
abbrev cc3_stg6_0 : Ref sig .tc := ⟨.vmem, 47, rfl⟩
abbrev cc3_stg7_0 : Ref sig .tc := ⟨.vmem, 48, rfl⟩
abbrev cc3_stg7_1 : Ref sig .tc := ⟨.vmem, 49, rfl⟩
abbrev cc4_stg0_0 : Ref sig .tc := ⟨.vmem, 50, rfl⟩
abbrev cc4_stg0_1 : Ref sig .tc := ⟨.vmem, 51, rfl⟩
abbrev cc4_stg1_0 : Ref sig .tc := ⟨.vmem, 52, rfl⟩
abbrev cc4_stg1_1 : Ref sig .tc := ⟨.vmem, 53, rfl⟩
abbrev cc4_stg2_0 : Ref sig .tc := ⟨.vmem, 54, rfl⟩
abbrev cc4_stg3_0 : Ref sig .tc := ⟨.vmem, 55, rfl⟩
abbrev cc4_stg4_0 : Ref sig .tc := ⟨.vmem, 56, rfl⟩
abbrev cc4_stg5_0 : Ref sig .tc := ⟨.vmem, 57, rfl⟩
abbrev cc4_stg6_0 : Ref sig .tc := ⟨.vmem, 58, rfl⟩
abbrev cc4_stg7_0 : Ref sig .tc := ⟨.vmem, 59, rfl⟩
abbrev cc4_stg7_1 : Ref sig .tc := ⟨.vmem, 60, rfl⟩
abbrev cc4_stg8_0 : Ref sig .tc := ⟨.vmem, 61, rfl⟩
abbrev cc4_stg8_1 : Ref sig .tc := ⟨.vmem, 62, rfl⟩
abbrev cc5_stg0_0 : Ref sig .tc := ⟨.vmem, 63, rfl⟩
abbrev cc5_stg0_1 : Ref sig .tc := ⟨.vmem, 64, rfl⟩
abbrev cc5_stg1_0 : Ref sig .tc := ⟨.vmem, 65, rfl⟩
abbrev cc5_stg1_1 : Ref sig .tc := ⟨.vmem, 66, rfl⟩
abbrev cc5_stg2_0 : Ref sig .tc := ⟨.vmem, 67, rfl⟩
abbrev cc5_stg3_0 : Ref sig .tc := ⟨.vmem, 68, rfl⟩
abbrev cc5_stg4_0 : Ref sig .tc := ⟨.vmem, 69, rfl⟩
abbrev cc5_stg5_0 : Ref sig .tc := ⟨.vmem, 70, rfl⟩
abbrev cc5_stg6_0 : Ref sig .tc := ⟨.vmem, 71, rfl⟩
abbrev cc5_stg7_0 : Ref sig .tc := ⟨.vmem, 72, rfl⟩
abbrev cc5_stg7_1 : Ref sig .tc := ⟨.vmem, 73, rfl⟩
abbrev cc6_stg0_0 : Ref sig .tc := ⟨.vmem, 74, rfl⟩
abbrev cc6_stg0_1 : Ref sig .tc := ⟨.vmem, 75, rfl⟩
abbrev cc6_stg1_0 : Ref sig .tc := ⟨.vmem, 76, rfl⟩
abbrev cc6_stg1_1 : Ref sig .tc := ⟨.vmem, 77, rfl⟩
abbrev cc6_stg2_0 : Ref sig .tc := ⟨.vmem, 78, rfl⟩
abbrev cc6_stg3_0 : Ref sig .tc := ⟨.vmem, 79, rfl⟩
abbrev cc6_stg4_0 : Ref sig .tc := ⟨.vmem, 80, rfl⟩
abbrev cc6_stg5_0 : Ref sig .tc := ⟨.vmem, 81, rfl⟩
abbrev cc6_stg6_0 : Ref sig .tc := ⟨.vmem, 82, rfl⟩
abbrev cc6_stg7_0 : Ref sig .tc := ⟨.vmem, 83, rfl⟩
abbrev cc6_stg7_1 : Ref sig .tc := ⟨.vmem, 84, rfl⟩
abbrev cc6_stg8_0 : Ref sig .tc := ⟨.vmem, 85, rfl⟩
abbrev cc6_stg8_1 : Ref sig .tc := ⟨.vmem, 86, rfl⟩
abbrev cc7_stg0_0 : Ref sig .tc := ⟨.vmem, 87, rfl⟩
abbrev cc7_stg0_1 : Ref sig .tc := ⟨.vmem, 88, rfl⟩
abbrev cc7_stg1_0 : Ref sig .tc := ⟨.vmem, 89, rfl⟩
abbrev cc7_stg1_1 : Ref sig .tc := ⟨.vmem, 90, rfl⟩
abbrev cc7_stg2_0 : Ref sig .tc := ⟨.vmem, 91, rfl⟩
abbrev cc7_stg2_1 : Ref sig .tc := ⟨.vmem, 92, rfl⟩
abbrev cc7_stg3_0 : Ref sig .tc := ⟨.vmem, 93, rfl⟩
abbrev cc7_stg4_0 : Ref sig .tc := ⟨.vmem, 94, rfl⟩
abbrev cc7_stg5_0 : Ref sig .tc := ⟨.vmem, 95, rfl⟩
abbrev cc7_stg6_0 : Ref sig .tc := ⟨.vmem, 96, rfl⟩
abbrev cc7_stg7_0 : Ref sig .tc := ⟨.vmem, 97, rfl⟩
abbrev cc7_stg8_0 : Ref sig .tc := ⟨.vmem, 98, rfl⟩
abbrev cc7_stg9_0 : Ref sig .tc := ⟨.vmem, 99, rfl⟩
abbrev cc7_stg9_1 : Ref sig .tc := ⟨.vmem, 100, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem11_1 : DmaSem sig := 14
abbrev cc1_sem0_0 : DmaSem sig := 15
abbrev cc1_sem0_1 : DmaSem sig := 16
abbrev cc1_sem1_0 : DmaSem sig := 17
abbrev cc1_sem1_1 : DmaSem sig := 18
abbrev cc1_sem2_0 : DmaSem sig := 19
abbrev cc1_sem3_0 : DmaSem sig := 20
abbrev cc1_sem4_0 : DmaSem sig := 21
abbrev cc1_sem5_0 : DmaSem sig := 22
abbrev cc1_sem6_0 : DmaSem sig := 23
abbrev cc1_sem7_0 : DmaSem sig := 24
abbrev cc1_sem7_1 : DmaSem sig := 25
abbrev cc2_sem0_0 : DmaSem sig := 26
abbrev cc2_sem0_1 : DmaSem sig := 27
abbrev cc2_sem1_0 : DmaSem sig := 28
abbrev cc2_sem1_1 : DmaSem sig := 29
abbrev cc2_sem2_0 : DmaSem sig := 30
abbrev cc2_sem3_0 : DmaSem sig := 31
abbrev cc2_sem4_0 : DmaSem sig := 32
abbrev cc2_sem5_0 : DmaSem sig := 33
abbrev cc2_sem6_0 : DmaSem sig := 34
abbrev cc2_sem7_0 : DmaSem sig := 35
abbrev cc2_sem7_1 : DmaSem sig := 36
abbrev cc2_sem8_0 : DmaSem sig := 37
abbrev cc2_sem8_1 : DmaSem sig := 38
abbrev cc3_sem0_0 : DmaSem sig := 39
abbrev cc3_sem0_1 : DmaSem sig := 40
abbrev cc3_sem1_0 : DmaSem sig := 41
abbrev cc3_sem1_1 : DmaSem sig := 42
abbrev cc3_sem2_0 : DmaSem sig := 43
abbrev cc3_sem3_0 : DmaSem sig := 44
abbrev cc3_sem4_0 : DmaSem sig := 45
abbrev cc3_sem5_0 : DmaSem sig := 46
abbrev cc3_sem6_0 : DmaSem sig := 47
abbrev cc3_sem7_0 : DmaSem sig := 48
abbrev cc3_sem7_1 : DmaSem sig := 49
abbrev cc4_sem0_0 : DmaSem sig := 50
abbrev cc4_sem0_1 : DmaSem sig := 51
abbrev cc4_sem1_0 : DmaSem sig := 52
abbrev cc4_sem1_1 : DmaSem sig := 53
abbrev cc4_sem2_0 : DmaSem sig := 54
abbrev cc4_sem3_0 : DmaSem sig := 55
abbrev cc4_sem4_0 : DmaSem sig := 56
abbrev cc4_sem5_0 : DmaSem sig := 57
abbrev cc4_sem6_0 : DmaSem sig := 58
abbrev cc4_sem7_0 : DmaSem sig := 59
abbrev cc4_sem7_1 : DmaSem sig := 60
abbrev cc4_sem8_0 : DmaSem sig := 61
abbrev cc4_sem8_1 : DmaSem sig := 62
abbrev cc5_sem0_0 : DmaSem sig := 63
abbrev cc5_sem0_1 : DmaSem sig := 64
abbrev cc5_sem1_0 : DmaSem sig := 65
abbrev cc5_sem1_1 : DmaSem sig := 66
abbrev cc5_sem2_0 : DmaSem sig := 67
abbrev cc5_sem3_0 : DmaSem sig := 68
abbrev cc5_sem4_0 : DmaSem sig := 69
abbrev cc5_sem5_0 : DmaSem sig := 70
abbrev cc5_sem6_0 : DmaSem sig := 71
abbrev cc5_sem7_0 : DmaSem sig := 72
abbrev cc5_sem7_1 : DmaSem sig := 73
abbrev cc6_sem0_0 : DmaSem sig := 74
abbrev cc6_sem0_1 : DmaSem sig := 75
abbrev cc6_sem1_0 : DmaSem sig := 76
abbrev cc6_sem1_1 : DmaSem sig := 77
abbrev cc6_sem2_0 : DmaSem sig := 78
abbrev cc6_sem3_0 : DmaSem sig := 79
abbrev cc6_sem4_0 : DmaSem sig := 80
abbrev cc6_sem5_0 : DmaSem sig := 81
abbrev cc6_sem6_0 : DmaSem sig := 82
abbrev cc6_sem7_0 : DmaSem sig := 83
abbrev cc6_sem7_1 : DmaSem sig := 84
abbrev cc6_sem8_0 : DmaSem sig := 85
abbrev cc6_sem8_1 : DmaSem sig := 86
abbrev cc7_sem0_0 : DmaSem sig := 87
abbrev cc7_sem0_1 : DmaSem sig := 88
abbrev cc7_sem1_0 : DmaSem sig := 89
abbrev cc7_sem1_1 : DmaSem sig := 90
abbrev cc7_sem2_0 : DmaSem sig := 91
abbrev cc7_sem2_1 : DmaSem sig := 92
abbrev cc7_sem3_0 : DmaSem sig := 93
abbrev cc7_sem4_0 : DmaSem sig := 94
abbrev cc7_sem5_0 : DmaSem sig := 95
abbrev cc7_sem6_0 : DmaSem sig := 96
abbrev cc7_sem7_0 : DmaSem sig := 97
abbrev cc7_sem8_0 : DmaSem sig := 98
abbrev cc7_sem9_0 : DmaSem sig := 99
abbrev cc7_sem9_1 : DmaSem sig := 100

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x18 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S512x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x256 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S18x256 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S256x256 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x256 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S2000x256 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev grid1 : Pipeline.Grid := ⟨1, ![100], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S3200x256 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S3200x256 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S256x256 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S256x256 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S256x256 .bf16 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x256 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S3200x256 .bf16 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_8 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x256 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x256 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S256x256 .bf16 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S256x256 .bf16 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x256 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S256x256 .bf16 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x256 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 2 → Memref sig .tc .vmem S2000x256 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

abbrev stage2_8 : Fin 2 → Memref sig .tc .vmem S2000x256 .f32 := fun | 0 => Memref.whole cc2_stg8_0 | 1 => Memref.whole cc2_stg8_1 | ⟨_ + 2, h⟩ => absurd h (Nat.not_lt.2 (Nat.le_add_left _ _))
abbrev sem2_8 : Fin 2 → DmaSem sig := fun | 0 => cc2_sem8_0 | 1 => cc2_sem8_1 | ⟨_ + 2, h⟩ => absurd h (Nat.not_lt.2 (Nat.le_add_left _ _))
abbrev reads2_8 : Fin grid2.rank → Bool := ![true]

abbrev grid3 : Pipeline.Grid := ⟨1, ![100], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S3200x256 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S3200x256 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S256x256 .bf16 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S256x256 .bf16 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x256 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S256x256 .bf16 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S1x256 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 2 → Memref sig .tc .vmem S3200x256 .bf16 := fun | 0 => Memref.whole cc3_stg7_0 | 1 => Memref.whole cc3_stg7_1 | ⟨_ + 2, h⟩ => absurd h (Nat.not_lt.2 (Nat.le_add_left _ _))
abbrev sem3_7 : Fin 2 → DmaSem sig := fun | 0 => cc3_sem7_0 | 1 => cc3_sem7_1 | ⟨_ + 2, h⟩ => absurd h (Nat.not_lt.2 (Nat.le_add_left _ _))
abbrev reads3_7 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_7 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_8 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S2000x256 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S2000x256 .bf16 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S256x256 .bf16 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S256x256 .bf16 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S1x256 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S256x256 .bf16 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 1 → Memref sig .tc .vmem S1x256 .f32 := fun | 0 => Memref.whole cc4_stg6_0 | ⟨_ + 1, h⟩ => absurd h (Nat.not_lt.2 (Nat.le_add_left _ _))
abbrev sem4_6 : Fin 1 → DmaSem sig := fun | 0 => cc4_sem6_0 | ⟨_ + 1, h⟩ => absurd h (Nat.not_lt.2 (Nat.le_add_left _ _))
abbrev reads4_6 : Fin grid4.rank → Bool := ![false]

abbrev stage4_7 : Fin 2 → Memref sig .tc .vmem S2000x256 .f32 := fun | 0 => Memref.whole cc4_stg7_0 | 1 => Memref.whole cc4_stg7_1 | ⟨_ + 2, h⟩ => absurd h (Nat.not_lt.2 (Nat.le_add_left _ _))
abbrev sem4_7 : Fin 2 → DmaSem sig := fun | 0 => cc4_sem7_0 | 1 => cc4_sem7_1 | ⟨_ + 2, h⟩ => absurd h (Nat.not_lt.2 (Nat.le_add_left _ _))
abbrev reads4_7 : Fin grid4.rank → Bool := ![true]

abbrev stage4_8 : Fin 2 → Memref sig .tc .vmem S2000x256 .f32 := fun | 0 => Memref.whole cc4_stg8_0 | 1 => Memref.whole cc4_stg8_1 | ⟨_ + 2, h⟩ => absurd h (Nat.not_lt.2 (Nat.le_add_left _ _))
abbrev sem4_8 : Fin 2 → DmaSem sig := fun | 0 => cc4_sem8_0 | 1 => cc4_sem8_1 | ⟨_ + 2, h⟩ => absurd h (Nat.not_lt.2 (Nat.le_add_left _ _))
abbrev reads4_8 : Fin grid4.rank → Bool := ![true]

abbrev grid5 : Pipeline.Grid := ⟨1, ![100], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_6 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_7 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S3200x256 .bf16 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S3200x256 .bf16 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 1 → Memref sig .tc .vmem S256x256 .bf16 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S256x256 .bf16 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S1x256 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 1 → Memref sig .tc .vmem S256x256 .bf16 := fun | 0 => Memref.whole cc5_stg5_0 | ⟨_ + 1, h⟩ => absurd h (Nat.not_lt.2 (Nat.le_add_left _ _))
abbrev sem5_5 : Fin 1 → DmaSem sig := fun | 0 => cc5_sem5_0 | ⟨_ + 1, h⟩ => absurd h (Nat.not_lt.2 (Nat.le_add_left _ _))
abbrev reads5_5 : Fin grid5.rank → Bool := ![false]

abbrev stage5_6 : Fin 1 → Memref sig .tc .vmem S1x256 .f32 := fun | 0 => Memref.whole cc5_stg6_0 | ⟨_ + 1, h⟩ => absurd h (Nat.not_lt.2 (Nat.le_add_left _ _))
abbrev sem5_6 : Fin 1 → DmaSem sig := fun | 0 => cc5_sem6_0 | ⟨_ + 1, h⟩ => absurd h (Nat.not_lt.2 (Nat.le_add_left _ _))
abbrev reads5_6 : Fin grid5.rank → Bool := ![false]

abbrev stage5_7 : Fin 2 → Memref sig .tc .vmem S3200x256 .bf16 := fun | 0 => Memref.whole cc5_stg7_0 | 1 => Memref.whole cc5_stg7_1 | ⟨_ + 2, h⟩ => absurd h (Nat.not_lt.2 (Nat.le_add_left _ _))
abbrev sem5_7 : Fin 2 → DmaSem sig := fun | 0 => cc5_sem7_0 | 1 => cc5_sem7_1 | ⟨_ + 2, h⟩ => absurd h (Nat.not_lt.2 (Nat.le_add_left _ _))
abbrev reads5_7 : Fin grid5.rank → Bool := ![true]

abbrev grid6 : Pipeline.Grid := ⟨1, ![10], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_5 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_6 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_7 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_8 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S2000x256 .bf16 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S2000x256 .bf16 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 1 → Memref sig .tc .vmem S256x256 .bf16 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 1 → Memref sig .tc .vmem S256x256 .bf16 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 1 → Memref sig .tc .vmem S1x256 .f32 := fun | 0 => Memref.whole cc6_stg4_0 | ⟨_ + 1, h⟩ => absurd h (Nat.not_lt.2 (Nat.le_add_left _ _))
abbrev sem6_4 : Fin 1 → DmaSem sig := fun | 0 => cc6_sem4_0 | ⟨_ + 1, h⟩ => absurd h (Nat.not_lt.2 (Nat.le_add_left _ _))
abbrev reads6_4 : Fin grid6.rank → Bool := ![false]

abbrev stage6_5 : Fin 1 → Memref sig .tc .vmem S256x256 .bf16 := fun | 0 => Memref.whole cc6_stg5_0 | ⟨_ + 1, h⟩ => absurd h (Nat.not_lt.2 (Nat.le_add_left _ _))
abbrev sem6_5 : Fin 1 → DmaSem sig := fun | 0 => cc6_sem5_0 | ⟨_ + 1, h⟩ => absurd h (Nat.not_lt.2 (Nat.le_add_left _ _))
abbrev reads6_5 : Fin grid6.rank → Bool := ![false]

abbrev stage6_6 : Fin 1 → Memref sig .tc .vmem S1x256 .f32 := fun | 0 => Memref.whole cc6_stg6_0 | ⟨_ + 1, h⟩ => absurd h (Nat.not_lt.2 (Nat.le_add_left _ _))
abbrev sem6_6 : Fin 1 → DmaSem sig := fun | 0 => cc6_sem6_0 | ⟨_ + 1, h⟩ => absurd h (Nat.not_lt.2 (Nat.le_add_left _ _))
abbrev reads6_6 : Fin grid6.rank → Bool := ![false]

abbrev stage6_7 : Fin 2 → Memref sig .tc .vmem S2000x256 .f32 := fun | 0 => Memref.whole cc6_stg7_0 | 1 => Memref.whole cc6_stg7_1 | ⟨_ + 2, h⟩ => absurd h (Nat.not_lt.2 (Nat.le_add_left _ _))
abbrev sem6_7 : Fin 2 → DmaSem sig := fun | 0 => cc6_sem7_0 | 1 => cc6_sem7_1 | ⟨_ + 2, h⟩ => absurd h (Nat.not_lt.2 (Nat.le_add_left _ _))
abbrev reads6_7 : Fin grid6.rank → Bool := ![true]

abbrev stage6_8 : Fin 2 → Memref sig .tc .vmem S2000x256 .f32 := fun | 0 => Memref.whole cc6_stg8_0 | 1 => Memref.whole cc6_stg8_1 | ⟨_ + 2, h⟩ => absurd h (Nat.not_lt.2 (Nat.le_add_left _ _))
abbrev sem6_8 : Fin 2 → DmaSem sig := fun | 0 => cc6_sem8_0 | 1 => cc6_sem8_1 | ⟨_ + 2, h⟩ => absurd h (Nat.not_lt.2 (Nat.le_add_left _ _))
abbrev reads6_8 : Fin grid6.rank → Bool := ![true]

abbrev grid7 : Pipeline.Grid := ⟨1, ![50], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_2 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_3 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_4 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_5 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_6 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_7 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_8 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_9 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S2000x256 .bf16 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 2 → Memref sig .tc .vmem S2000x256 .bf16 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![true]

abbrev stage7_2 : Fin 2 → Memref sig .tc .vmem S2000x8 .bf16 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true]

abbrev stage7_3 : Fin 1 → Memref sig .tc .vmem S256x256 .bf16 := fun | 0 => Memref.whole cc7_stg3_0 | ⟨_ + 1, h⟩ => absurd h (Nat.not_lt.2 (Nat.le_add_left _ _))
abbrev sem7_3 : Fin 1 → DmaSem sig := fun | 0 => cc7_sem3_0 | ⟨_ + 1, h⟩ => absurd h (Nat.not_lt.2 (Nat.le_add_left _ _))
abbrev reads7_3 : Fin grid7.rank → Bool := ![false]

abbrev stage7_4 : Fin 1 → Memref sig .tc .vmem S256x256 .bf16 := fun | 0 => Memref.whole cc7_stg4_0 | ⟨_ + 1, h⟩ => absurd h (Nat.not_lt.2 (Nat.le_add_left _ _))
abbrev sem7_4 : Fin 1 → DmaSem sig := fun | 0 => cc7_sem4_0 | ⟨_ + 1, h⟩ => absurd h (Nat.not_lt.2 (Nat.le_add_left _ _))
abbrev reads7_4 : Fin grid7.rank → Bool := ![false]

abbrev stage7_5 : Fin 1 → Memref sig .tc .vmem S8x256 .bf16 := fun | 0 => Memref.whole cc7_stg5_0 | ⟨_ + 1, h⟩ => absurd h (Nat.not_lt.2 (Nat.le_add_left _ _))
abbrev sem7_5 : Fin 1 → DmaSem sig := fun | 0 => cc7_sem5_0 | ⟨_ + 1, h⟩ => absurd h (Nat.not_lt.2 (Nat.le_add_left _ _))
abbrev reads7_5 : Fin grid7.rank → Bool := ![false]

abbrev stage7_6 : Fin 1 → Memref sig .tc .vmem S1x256 .f32 := fun | 0 => Memref.whole cc7_stg6_0 | ⟨_ + 1, h⟩ => absurd h (Nat.not_lt.2 (Nat.le_add_left _ _))
abbrev sem7_6 : Fin 1 → DmaSem sig := fun | 0 => cc7_sem6_0 | ⟨_ + 1, h⟩ => absurd h (Nat.not_lt.2 (Nat.le_add_left _ _))
abbrev reads7_6 : Fin grid7.rank → Bool := ![false]

abbrev stage7_7 : Fin 1 → Memref sig .tc .vmem S256x128 .bf16 := fun | 0 => Memref.whole cc7_stg7_0 | ⟨_ + 1, h⟩ => absurd h (Nat.not_lt.2 (Nat.le_add_left _ _))
abbrev sem7_7 : Fin 1 → DmaSem sig := fun | 0 => cc7_sem7_0 | ⟨_ + 1, h⟩ => absurd h (Nat.not_lt.2 (Nat.le_add_left _ _))
abbrev reads7_7 : Fin grid7.rank → Bool := ![false]

abbrev stage7_8 : Fin 1 → Memref sig .tc .vmem S1x128 .f32 := fun | 0 => Memref.whole cc7_stg8_0 | ⟨_ + 1, h⟩ => absurd h (Nat.not_lt.2 (Nat.le_add_left _ _))
abbrev sem7_8 : Fin 1 → DmaSem sig := fun | 0 => cc7_sem8_0 | ⟨_ + 1, h⟩ => absurd h (Nat.not_lt.2 (Nat.le_add_left _ _))
abbrev reads7_8 : Fin grid7.rank → Bool := ![false]

abbrev stage7_9 : Fin 2 → Memref sig .tc .vmem S2000x128 .f32 := fun | 0 => Memref.whole cc7_stg9_0 | 1 => Memref.whole cc7_stg9_1 | ⟨_ + 2, h⟩ => absurd h (Nat.not_lt.2 (Nat.le_add_left _ _))
abbrev sem7_9 : Fin 2 → DmaSem sig := fun | 0 => cc7_sem9_0 | 1 => cc7_sem9_1 | ⟨_ + 2, h⟩ => absurd h (Nat.not_lt.2 (Nat.le_add_left _ _))
abbrev reads7_9 : Fin grid7.rank → Bool := ![true]

class Facts₀ : Prop where
  bitsLt_bf16_f32 : FTy.bits .bf16 < FTy.bits .f32
  slices_S274x256_S256x256_0_0 : S274x256.Slices ![0, 0] S256x256
  slices_S274x256_S18x256_256_0 : S274x256.Slices ![256, 0] S18x256
  shapeCasts_S512_S1x512 : S512.ShapeCasts S1x512
  shapeCasts_S256_S1x256 : S256.ShapeCasts S1x256
  inb_S2000x512_S2000x512_0_0 : ∀ a, (![0, 0] : Fin 2 → Nat) a + S2000x512.size a ≤ S2000x512.size a
  h_S2000x512 : 0 < S2000x512.numel
  shapeCasts_S2000x512_S2000x512 : S2000x512.ShapeCasts S2000x512
  inb_S512x512_S512x512_0_0 : ∀ a, (![0, 0] : Fin 2 → Nat) a + S512x512.size a ≤ S512x512.size a
  h_S512x512 : 0 < S512x512.numel
  shapeCasts_S512x512_S512x512 : S512x512.ShapeCasts S512x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S2000x512 : S1x512.Broadcasts S2000x512
  inb_S512x256_S512x256_0_0 : ∀ a, (![0, 0] : Fin 2 → Nat) a + S512x256.size a ≤ S512x256.size a
  h_S512x256 : 0 < S512x256.numel
  shapeCasts_S512x256_S512x256 : S512x256.ShapeCasts S512x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2000x256 : S1x256.Broadcasts S2000x256
  inb_S2000x18_S2000x18_0_0 : ∀ a, (![0, 0] : Fin 2 → Nat) a + S2000x18.size a ≤ S2000x18.size a
  h_S2000x18 : 0 < S2000x18.numel
  shapeCasts_S2000x18_S2000x18 : S2000x18.ShapeCasts S2000x18
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S18x256_S18x256_0_0 : ∀ a, (![0, 0] : Fin 2 → Nat) a + S18x256.size a ≤ S18x256.size a
  h_S18x256 : 0 < S18x256.numel
  shapeCasts_S18x256_S18x256 : S18x256.ShapeCasts S18x256
  inb_S2000x256_S2000x256_0_0 : ∀ a, (![0, 0] : Fin 2 → Nat) a + S2000x256.size a ≤ S2000x256.size a
  h_S2000x256 : 0 < S2000x256.numel
  slices_S320000x2_S320000x1_0_0 : S320000x2.Slices ![0, 0] S320000x1
  shapeCasts_S320000x1_S320000 : S320000x1.ShapeCasts S320000
  slices_S320000x2_S320000x1_0_1 : S320000x2.Slices ![0, 1] S320000x1
  slices_S3x512x256_S3x256x256_0_0_0 : S3x512x256.Slices ![0, 0, 0] S3x256x256
  slices_S3x512x256_S3x256x256_0_256_0 : S3x512x256.Slices ![0, 256, 0] S3x256x256
  bcast_S_S320000 : S_.BroadcastsInDim S320000 (![] : Fin 0 → Fin S320000.rank)
  bcast_S320000_S320000x1_0 : S320000.BroadcastsInDim S320000x1 (![0] : Fin 1 → Fin S320000x1.rank)
  slices_S3x256x256_S1x256x256_0_0_0 : S3x256x256.Slices ![0, 0, 0] S1x256x256
  shapeCasts_S1x256x256_S256x256 : S1x256x256.ShapeCasts S256x256
  slices_S3x256_S1x256_0_0 : S3x256.Slices ![0, 0] S1x256
  shapeCasts_S1x256_S256 : S1x256.ShapeCasts S256
  inb_S3200x256_S3200x256_0_0 : ∀ a, (![0, 0] : Fin 2 → Nat) a + S3200x256.size a ≤ S3200x256.size a
  h_S3200x256 : 0 < S3200x256.numel
  shapeCasts_S3200x256_S3200x256 : S3200x256.ShapeCasts S3200x256
  broadcasts_S1x256_S3200x256 : S1x256.Broadcasts S3200x256
  packedbf16_S3200x256_S3200x256_0_0 : (Rect.unit (s := S3200x256) ![0, 0] S3200x256.size inb_S3200x256_S3200x256_0_0).PackedRows (EltTy.packing .bf16)
  bcast_S_S20000x256 : S_.BroadcastsInDim S20000x256 (![] : Fin 0 → Fin S20000x256.rank)
  shapeCasts_S2000x256_S2000x256 : S2000x256.ShapeCasts S2000x256
  slices_S3x256x256_S1x256x256_1_0_0 : S3x256x256.Slices ![1, 0, 0] S1x256x256
  slices_S3x256_S1x256_1_0 : S3x256.Slices ![1, 0] S1x256
  slices_S3x256x256_S1x256x256_2_0_0 : S3x256x256.Slices ![2, 0, 0] S1x256x256
  slices_S3x256_S1x256_2_0 : S3x256.Slices ![2, 0] S1x256
  slices_S100000x2_S100000x1_0_0 : S100000x2.Slices ![0, 0] S100000x1
  shapeCasts_S100000x1_S100000 : S100000x1.ShapeCasts S100000
  slices_S100000x2_S100000x1_0_1 : S100000x2.Slices ![0, 1] S100000x1
  bcast_S_S100000 : S_.BroadcastsInDim S100000 (![] : Fin 0 → Fin S100000.rank)
  bcast_S100000_S100000x1_0 : S100000.BroadcastsInDim S100000x1 (![0] : Fin 1 → Fin S100000x1.rank)
  slices_S100000x18_S100000x3_0_0 : S100000x18.Slices ![0, 0] S100000x3
  reducesTo_S100000x3_S100000_d1 : S100000x3.ReducesTo [1] S100000
  h_S_ : 0 < S_.numel
  slices_S100000x18_S100000x3_0_3 : S100000x18.Slices ![0, 3] S100000x3
  bcast_S_S100000x3 : S_.BroadcastsInDim S100000x3 (![] : Fin 0 → Fin S100000x3.rank)
  slices_S100000x18_S100000x3_0_15 : S100000x18.Slices ![0, 15] S100000x3
  concatenates_S100000x3_S100000x1_S100000x3_S100000x1_S100000x8_d1 : Shape.Concatenates [S100000x3, S100000x1, S100000x3, S100000x1] S100000x8 1
  slices_S520x256_S256x256_0_0 : S520x256.Slices ![0, 0] S256x256
  slices_S520x256_S256x256_256_0 : S520x256.Slices ![256, 0] S256x256
  slices_S520x256_S8x256_512_0 : S520x256.Slices ![512, 0] S8x256
  bcast_S_S256x128 : S_.BroadcastsInDim S256x128 (![] : Fin 0 → Fin S256x128.rank)
  bcast_S_S1 : S_.BroadcastsInDim S1 (![] : Fin 0 → Fin S1.rank)
  bcast_S_S128 : S_.BroadcastsInDim S128 (![] : Fin 0 → Fin S128.rank)
  shapeCasts_S128_S1x128 : S128.ShapeCasts S1x128
  inb_S2000x8_S2000x8_0_0 : ∀ a, (![0, 0] : Fin 2 → Nat) a + S2000x8.size a ≤ S2000x8.size a
  h_S2000x8 : 0 < S2000x8.numel
  shapeCasts_S2000x8_S2000x8 : S2000x8.ShapeCasts S2000x8
  inb_S8x256_S8x256_0_0 : ∀ a, (![0, 0] : Fin 2 → Nat) a + S8x256.size a ≤ S8x256.size a
  h_S8x256 : 0 < S8x256.numel
  shapeCasts_S8x256_S8x256 : S8x256.ShapeCasts S8x256
  inb_S256x128_S256x128_0_0 : ∀ a, (![0, 0] : Fin 2 → Nat) a + S256x128.size a ≤ S256x128.size a
  h_S256x128 : 0 < S256x128.numel
  shapeCasts_S256x128_S256x128 : S256x128.ShapeCasts S256x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  inb_S2000x128_S2000x128_0_0 : ∀ a, (![0, 0] : Fin 2 → Nat) a + S2000x128.size a ≤ S2000x128.size a
  h_S2000x128 : 0 < S2000x128.numel
  slices_S100000x128_S100000x26_0_0 : S100000x128.Slices ![0, 0] S100000x26
  dot_S2000x512_S512x512_S2000x512_1_0_0_1_n_n_wf : DotDims.WF S2000x512 S512x512 S2000x512 [1] [0] [0] [1] [] []
  dot_S2000x512_S512x256_S2000x256_1_0_0_1_n_n_wf : DotDims.WF S2000x512 S512x256 S2000x256 [1] [0] [0] [1] [] []
  dot_S2000x256_S256x256_S2000x256_1_0_0_1_n_n_wf : DotDims.WF S2000x256 S256x256 S2000x256 [1] [0] [0] [1] [] []
  dot_S2000x18_S18x256_S2000x256_1_0_0_1_n_n_wf : DotDims.WF S2000x18 S18x256 S2000x256 [1] [0] [0] [1] [] []
  gather_S20000x256_S320000x1_S320000x256_1_0_n_n_0_1_1256_wf : GatherDims.WF S20000x256 S320000x1 S320000x256 [1] [0] [] [0] [] 1 ![1, 256]
  dot_S3200x256_S256x256_S3200x256_1_0_0_1_n_n_wf : DotDims.WF S3200x256 S256x256 S3200x256 [1] [0] [0] [1] [] []
  scatter_S20000x256_S320000x1_S320000x256_1_0_0_1_wf : ScatterDims.WF S20000x256 S320000x1 S320000x256 [1] [0] [0] 1
  gather_S20000x18_S100000x1_S100000x18_1_0_n_n_0_1_118_wf : GatherDims.WF S20000x18 S100000x1 S100000x18 [1] [0] [] [0] [] 1 ![1, 18]
  gather_S20000x256_S100000x1_S100000x256_1_0_n_n_0_1_1256_wf : GatherDims.WF S20000x256 S100000x1 S100000x256 [1] [0] [] [0] [] 1 ![1, 256]
  scatter_S256x128_S1_S256x26_01_n_1_0_wf : ScatterDims.WF S256x128 S1 S256x26 [0, 1] [] [1] 0
  scatter_S128_S1_S26_0_n_0_0_wf : ScatterDims.WF S128 S1 S26 [0] [] [0] 0
  dot_S2000x8_S8x256_S2000x256_1_0_0_1_n_n_wf : DotDims.WF S2000x8 S8x256 S2000x256 [1] [0] [0] [1] [] []
  dot_S2000x256_S256x128_S2000x128_1_0_0_1_n_n_wf : DotDims.WF S2000x256 S256x128 S2000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x512.size a ≤ S20000x512.size a
  hwx0_0 : ∀ i : grid0.Coords, EltTy.bits .bf16 = 32 ∨ (Rect.block (s := S20000x512) S2000x512.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x18.size a ≤ S20000x18.size a
  hwx0_1 : ∀ i : grid0.Coords, EltTy.bits .bf16 = 32 ∨ (Rect.block (s := S20000x18) S2000x18.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x512.size a ≤ S512x512.size a
  hwx0_2 : ∀ i : grid0.Coords, EltTy.bits .bf16 = 32 ∨ (Rect.block (s := S512x512) S512x512.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x512.size a ≤ S1x512.size a
  hwx0_3 : ∀ i : grid0.Coords, EltTy.bits .f32 = 32 ∨ (Rect.block (s := S1x512) S1x512.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S512x256.size a ≤ S512x256.size a
  hwx0_4 : ∀ i : grid0.Coords, EltTy.bits .bf16 = 32 ∨ (Rect.block (s := S512x256) S512x256.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x256.size a ≤ S1x256.size a
  hwx0_5 : ∀ i : grid0.Coords, EltTy.bits .f32 = 32 ∨ (Rect.block (s := S1x256) S1x256.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S256x256.size a ≤ S256x256.size a
  hwx0_6 : ∀ i : grid0.Coords, EltTy.bits .bf16 = 32 ∨ (Rect.block (s := S256x256) S256x256.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S18x256.size a ≤ S18x256.size a
  hwx0_7 : ∀ i : grid0.Coords, EltTy.bits .bf16 = 32 ∨ (Rect.block (s := S18x256) S18x256.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x256.size a ≤ S1x256.size a
  hwx0_8 : ∀ i : grid0.Coords, EltTy.bits .f32 = 32 ∨ (Rect.block (s := S1x256) S1x256.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S256x256.size a ≤ S256x256.size a
  hwx0_9 : ∀ i : grid0.Coords, EltTy.bits .bf16 = 32 ∨ (Rect.block (s := S256x256) S256x256.size (cc0_transform_9 i) (hinb0_9 i)).WholeWords (EltTy.packing .bf16)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x256.size a ≤ S1x256.size a
  hwx0_10 : ∀ i : grid0.Coords, EltTy.bits .f32 = 32 ∨ (Rect.block (s := S1x256) S1x256.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S2000x256.size a ≤ S20000x256.size a
  hwx0_11 : ∀ i : grid0.Coords, EltTy.bits .f32 = 32 ∨ (Rect.block (s := S20000x256) S2000x256.size (cc0_transform_11 i) (hinb0_11 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S3200x256.size a ≤ S320000x256.size a
  hwx1_0 : ∀ i : grid1.Coords, EltTy.bits .bf16 = 32 ∨ (Rect.block (s := S320000x256) S3200x256.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S3200x256.size a ≤ S320000x256.size a
  hwx1_1 : ∀ i : grid1.Coords, EltTy.bits .bf16 = 32 ∨ (Rect.block (s := S320000x256) S3200x256.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S256x256.size a ≤ S256x256.size a
  hwx1_2 : ∀ i : grid1.Coords, EltTy.bits .bf16 = 32 ∨ (Rect.block (s := S256x256) S256x256.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S256x256.size a ≤ S256x256.size a
  hwx1_3 : ∀ i : grid1.Coords, EltTy.bits .bf16 = 32 ∨ (Rect.block (s := S256x256) S256x256.size (cc1_transform_3 i) (hinb1_3 i)).WholeWords (EltTy.packing .bf16)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x256.size a ≤ S1x256.size a
  hwx1_4 : ∀ i : grid1.Coords, EltTy.bits .f32 = 32 ∨ (Rect.block (s := S1x256) S1x256.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S256x256.size a ≤ S256x256.size a
  hwx1_5 : ∀ i : grid1.Coords, EltTy.bits .bf16 = 32 ∨ (Rect.block (s := S256x256) S256x256.size (cc1_transform_5 i) (hinb1_5 i)).WholeWords (EltTy.packing .bf16)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x256.size a ≤ S1x256.size a
  hwx1_6 : ∀ i : grid1.Coords, EltTy.bits .f32 = 32 ∨ (Rect.block (s := S1x256) S1x256.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S3200x256.size a ≤ S320000x256.size a
  hwx1_7 : ∀ i : grid1.Coords, EltTy.bits .bf16 = 32 ∨ (Rect.block (s := S320000x256) S3200x256.size (cc1_transform_7 i) (hinb1_7 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x256.size a ≤ S20000x256.size a
  hwx2_0 : ∀ i : grid2.Coords, EltTy.bits .bf16 = 32 ∨ (Rect.block (s := S20000x256) S2000x256.size (cc2_transform_0 i) (hinb2_0 i)).WholeWords (EltTy.packing .bf16)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x256.size a ≤ S20000x256.size a
  hwx2_1 : ∀ i : grid2.Coords, EltTy.bits .bf16 = 32 ∨ (Rect.block (s := S20000x256) S2000x256.size (cc2_transform_1 i) (hinb2_1 i)).WholeWords (EltTy.packing .bf16)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S256x256.size a ≤ S256x256.size a
  hwx2_2 : ∀ i : grid2.Coords, EltTy.bits .bf16 = 32 ∨ (Rect.block (s := S256x256) S256x256.size (cc2_transform_2 i) (hinb2_2 i)).WholeWords (EltTy.packing .bf16)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S256x256.size a ≤ S256x256.size a
  hwx2_3 : ∀ i : grid2.Coords, EltTy.bits .bf16 = 32 ∨ (Rect.block (s := S256x256) S256x256.size (cc2_transform_3 i) (hinb2_3 i)).WholeWords (EltTy.packing .bf16)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x256.size a ≤ S1x256.size a
  hwx2_4 : ∀ i : grid2.Coords, EltTy.bits .f32 = 32 ∨ (Rect.block (s := S1x256) S1x256.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S256x256.size a ≤ S256x256.size a
  hwx2_5 : ∀ i : grid2.Coords, EltTy.bits .bf16 = 32 ∨ (Rect.block (s := S256x256) S256x256.size (cc2_transform_5 i) (hinb2_5 i)).WholeWords (EltTy.packing .bf16)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x256.size a ≤ S1x256.size a
  hwx2_6 : ∀ i : grid2.Coords, EltTy.bits .f32 = 32 ∨ (Rect.block (s := S1x256) S1x256.size (cc2_transform_6 i) (hinb2_6 i)).WholeWords (EltTy.packing .f32)
  hstage2_7 : ∀ j, (stage2_7 j).IsWhole
  nbuf2_7 : grid2.bufCount reads2_7 false = 2
  hreads2_7 : ∀ i i' : grid2.Coords, (∀ a, reads2_7 a = true → i a = i' a) → cc2_transform_7 i = cc2_transform_7 i'
  hinb2_7 : ∀ (i : grid2.Coords) a, (cc2_transform_7 i a + 1) * S2000x256.size a ≤ S20000x256.size a
  hwx2_7 : ∀ i : grid2.Coords, EltTy.bits .f32 = 32 ∨ (Rect.block (s := S20000x256) S2000x256.size (cc2_transform_7 i) (hinb2_7 i)).WholeWords (EltTy.packing .f32)
  hstage2_8 : ∀ j, (stage2_8 j).IsWhole
  nbuf2_8 : grid2.bufCount reads2_8 false = 2
  hreads2_8 : ∀ i i' : grid2.Coords, (∀ a, reads2_8 a = true → i a = i' a) → cc2_transform_8 i = cc2_transform_8 i'
  hinb2_8 : ∀ (i : grid2.Coords) a, (cc2_transform_8 i a + 1) * S2000x256.size a ≤ S20000x256.size a
  hwx2_8 : ∀ i : grid2.Coords, EltTy.bits .f32 = 32 ∨ (Rect.block (s := S20000x256) S2000x256.size (cc2_transform_8 i) (hinb2_8 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S3200x256.size a ≤ S320000x256.size a
  hwx3_0 : ∀ i : grid3.Coords, EltTy.bits .bf16 = 32 ∨ (Rect.block (s := S320000x256) S3200x256.size (cc3_transform_0 i) (hinb3_0 i)).WholeWords (EltTy.packing .bf16)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S3200x256.size a ≤ S320000x256.size a
  hwx3_1 : ∀ i : grid3.Coords, EltTy.bits .bf16 = 32 ∨ (Rect.block (s := S320000x256) S3200x256.size (cc3_transform_1 i) (hinb3_1 i)).WholeWords (EltTy.packing .bf16)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S256x256.size a ≤ S256x256.size a
  hwx3_2 : ∀ i : grid3.Coords, EltTy.bits .bf16 = 32 ∨ (Rect.block (s := S256x256) S256x256.size (cc3_transform_2 i) (hinb3_2 i)).WholeWords (EltTy.packing .bf16)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S256x256.size a ≤ S256x256.size a
  hwx3_3 : ∀ i : grid3.Coords, EltTy.bits .bf16 = 32 ∨ (Rect.block (s := S256x256) S256x256.size (cc3_transform_3 i) (hinb3_3 i)).WholeWords (EltTy.packing .bf16)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x256.size a ≤ S1x256.size a
  hwx3_4 : ∀ i : grid3.Coords, EltTy.bits .f32 = 32 ∨ (Rect.block (s := S1x256) S1x256.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S256x256.size a ≤ S256x256.size a
  hwx3_5 : ∀ i : grid3.Coords, EltTy.bits .bf16 = 32 ∨ (Rect.block (s := S256x256) S256x256.size (cc3_transform_5 i) (hinb3_5 i)).WholeWords (EltTy.packing .bf16)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S1x256.size a ≤ S1x256.size a
  hwx3_6 : ∀ i : grid3.Coords, EltTy.bits .f32 = 32 ∨ (Rect.block (s := S1x256) S1x256.size (cc3_transform_6 i) (hinb3_6 i)).WholeWords (EltTy.packing .f32)
  hstage3_7 : ∀ j, (stage3_7 j).IsWhole
  nbuf3_7 : grid3.bufCount reads3_7 false = 2
  hreads3_7 : ∀ i i' : grid3.Coords, (∀ a, reads3_7 a = true → i a = i' a) → cc3_transform_7 i = cc3_transform_7 i'
  hinb3_7 : ∀ (i : grid3.Coords) a, (cc3_transform_7 i a + 1) * S3200x256.size a ≤ S320000x256.size a
  hwx3_7 : ∀ i : grid3.Coords, EltTy.bits .bf16 = 32 ∨ (Rect.block (s := S320000x256) S3200x256.size (cc3_transform_7 i) (hinb3_7 i)).WholeWords (EltTy.packing .bf16)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2000x256.size a ≤ S20000x256.size a
  hwx4_0 : ∀ i : grid4.Coords, EltTy.bits .bf16 = 32 ∨ (Rect.block (s := S20000x256) S2000x256.size (cc4_transform_0 i) (hinb4_0 i)).WholeWords (EltTy.packing .bf16)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S2000x256.size a ≤ S20000x256.size a
  hwx4_1 : ∀ i : grid4.Coords, EltTy.bits .bf16 = 32 ∨ (Rect.block (s := S20000x256) S2000x256.size (cc4_transform_1 i) (hinb4_1 i)).WholeWords (EltTy.packing .bf16)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S256x256.size a ≤ S256x256.size a
  hwx4_2 : ∀ i : grid4.Coords, EltTy.bits .bf16 = 32 ∨ (Rect.block (s := S256x256) S256x256.size (cc4_transform_2 i) (hinb4_2 i)).WholeWords (EltTy.packing .bf16)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S256x256.size a ≤ S256x256.size a
  hwx4_3 : ∀ i : grid4.Coords, EltTy.bits .bf16 = 32 ∨ (Rect.block (s := S256x256) S256x256.size (cc4_transform_3 i) (hinb4_3 i)).WholeWords (EltTy.packing .bf16)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x256.size a ≤ S1x256.size a
  hwx4_4 : ∀ i : grid4.Coords, EltTy.bits .f32 = 32 ∨ (Rect.block (s := S1x256) S1x256.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S256x256.size a ≤ S256x256.size a
  hwx4_5 : ∀ i : grid4.Coords, EltTy.bits .bf16 = 32 ∨ (Rect.block (s := S256x256) S256x256.size (cc4_transform_5 i) (hinb4_5 i)).WholeWords (EltTy.packing .bf16)
  hstage4_6 : ∀ j, (stage4_6 j).IsWhole
  nbuf4_6 : grid4.bufCount reads4_6 true = 1
  hreads4_6 : ∀ i i' : grid4.Coords, (∀ a, reads4_6 a = true → i a = i' a) → cc4_transform_6 i = cc4_transform_6 i'
  hinb4_6 : ∀ (i : grid4.Coords) a, (cc4_transform_6 i a + 1) * S1x256.size a ≤ S1x256.size a
  hwx4_6 : ∀ i : grid4.Coords, EltTy.bits .f32 = 32 ∨ (Rect.block (s := S1x256) S1x256.size (cc4_transform_6 i) (hinb4_6 i)).WholeWords (EltTy.packing .f32)
  hstage4_7 : ∀ j, (stage4_7 j).IsWhole
  nbuf4_7 : grid4.bufCount reads4_7 false = 2
  hreads4_7 : ∀ i i' : grid4.Coords, (∀ a, reads4_7 a = true → i a = i' a) → cc4_transform_7 i = cc4_transform_7 i'
  hinb4_7 : ∀ (i : grid4.Coords) a, (cc4_transform_7 i a + 1) * S2000x256.size a ≤ S20000x256.size a
  hwx4_7 : ∀ i : grid4.Coords, EltTy.bits .f32 = 32 ∨ (Rect.block (s := S20000x256) S2000x256.size (cc4_transform_7 i) (hinb4_7 i)).WholeWords (EltTy.packing .f32)
  hstage4_8 : ∀ j, (stage4_8 j).IsWhole
  nbuf4_8 : grid4.bufCount reads4_8 false = 2
  hreads4_8 : ∀ i i' : grid4.Coords, (∀ a, reads4_8 a = true → i a = i' a) → cc4_transform_8 i = cc4_transform_8 i'
  hinb4_8 : ∀ (i : grid4.Coords) a, (cc4_transform_8 i a + 1) * S2000x256.size a ≤ S20000x256.size a
  hwx4_8 : ∀ i : grid4.Coords, EltTy.bits .f32 = 32 ∨ (Rect.block (s := S20000x256) S2000x256.size (cc4_transform_8 i) (hinb4_8 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S3200x256.size a ≤ S320000x256.size a
  hwx5_0 : ∀ i : grid5.Coords, EltTy.bits .bf16 = 32 ∨ (Rect.block (s := S320000x256) S3200x256.size (cc5_transform_0 i) (hinb5_0 i)).WholeWords (EltTy.packing .bf16)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S3200x256.size a ≤ S320000x256.size a
  hwx5_1 : ∀ i : grid5.Coords, EltTy.bits .bf16 = 32 ∨ (Rect.block (s := S320000x256) S3200x256.size (cc5_transform_1 i) (hinb5_1 i)).WholeWords (EltTy.packing .bf16)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S256x256.size a ≤ S256x256.size a
  hwx5_2 : ∀ i : grid5.Coords, EltTy.bits .bf16 = 32 ∨ (Rect.block (s := S256x256) S256x256.size (cc5_transform_2 i) (hinb5_2 i)).WholeWords (EltTy.packing .bf16)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S256x256.size a ≤ S256x256.size a
  hwx5_3 : ∀ i : grid5.Coords, EltTy.bits .bf16 = 32 ∨ (Rect.block (s := S256x256) S256x256.size (cc5_transform_3 i) (hinb5_3 i)).WholeWords (EltTy.packing .bf16)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S1x256.size a ≤ S1x256.size a
  hwx5_4 : ∀ i : grid5.Coords, EltTy.bits .f32 = 32 ∨ (Rect.block (s := S1x256) S1x256.size (cc5_transform_4 i) (hinb5_4 i)).WholeWords (EltTy.packing .f32)
  hstage5_5 : ∀ j, (stage5_5 j).IsWhole
  nbuf5_5 : grid5.bufCount reads5_5 true = 1
  hreads5_5 : ∀ i i' : grid5.Coords, (∀ a, reads5_5 a = true → i a = i' a) → cc5_transform_5 i = cc5_transform_5 i'
  hinb5_5 : ∀ (i : grid5.Coords) a, (cc5_transform_5 i a + 1) * S256x256.size a ≤ S256x256.size a
  hwx5_5 : ∀ i : grid5.Coords, EltTy.bits .bf16 = 32 ∨ (Rect.block (s := S256x256) S256x256.size (cc5_transform_5 i) (hinb5_5 i)).WholeWords (EltTy.packing .bf16)
  hstage5_6 : ∀ j, (stage5_6 j).IsWhole
  nbuf5_6 : grid5.bufCount reads5_6 true = 1
  hreads5_6 : ∀ i i' : grid5.Coords, (∀ a, reads5_6 a = true → i a = i' a) → cc5_transform_6 i = cc5_transform_6 i'
  hinb5_6 : ∀ (i : grid5.Coords) a, (cc5_transform_6 i a + 1) * S1x256.size a ≤ S1x256.size a
  hwx5_6 : ∀ i : grid5.Coords, EltTy.bits .f32 = 32 ∨ (Rect.block (s := S1x256) S1x256.size (cc5_transform_6 i) (hinb5_6 i)).WholeWords (EltTy.packing .f32)
  hstage5_7 : ∀ j, (stage5_7 j).IsWhole
  nbuf5_7 : grid5.bufCount reads5_7 false = 2
  hreads5_7 : ∀ i i' : grid5.Coords, (∀ a, reads5_7 a = true → i a = i' a) → cc5_transform_7 i = cc5_transform_7 i'
  hinb5_7 : ∀ (i : grid5.Coords) a, (cc5_transform_7 i a + 1) * S3200x256.size a ≤ S320000x256.size a
  hwx5_7 : ∀ i : grid5.Coords, EltTy.bits .bf16 = 32 ∨ (Rect.block (s := S320000x256) S3200x256.size (cc5_transform_7 i) (hinb5_7 i)).WholeWords (EltTy.packing .bf16)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S2000x256.size a ≤ S20000x256.size a
  hwx6_0 : ∀ i : grid6.Coords, EltTy.bits .bf16 = 32 ∨ (Rect.block (s := S20000x256) S2000x256.size (cc6_transform_0 i) (hinb6_0 i)).WholeWords (EltTy.packing .bf16)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S2000x256.size a ≤ S20000x256.size a
  hwx6_1 : ∀ i : grid6.Coords, EltTy.bits .bf16 = 32 ∨ (Rect.block (s := S20000x256) S2000x256.size (cc6_transform_1 i) (hinb6_1 i)).WholeWords (EltTy.packing .bf16)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S256x256.size a ≤ S256x256.size a
  hwx6_2 : ∀ i : grid6.Coords, EltTy.bits .bf16 = 32 ∨ (Rect.block (s := S256x256) S256x256.size (cc6_transform_2 i) (hinb6_2 i)).WholeWords (EltTy.packing .bf16)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S256x256.size a ≤ S256x256.size a
  hwx6_3 : ∀ i : grid6.Coords, EltTy.bits .bf16 = 32 ∨ (Rect.block (s := S256x256) S256x256.size (cc6_transform_3 i) (hinb6_3 i)).WholeWords (EltTy.packing .bf16)
  hstage6_4 : ∀ j, (stage6_4 j).IsWhole
  nbuf6_4 : grid6.bufCount reads6_4 true = 1
  hreads6_4 : ∀ i i' : grid6.Coords, (∀ a, reads6_4 a = true → i a = i' a) → cc6_transform_4 i = cc6_transform_4 i'
  hinb6_4 : ∀ (i : grid6.Coords) a, (cc6_transform_4 i a + 1) * S1x256.size a ≤ S1x256.size a
  hwx6_4 : ∀ i : grid6.Coords, EltTy.bits .f32 = 32 ∨ (Rect.block (s := S1x256) S1x256.size (cc6_transform_4 i) (hinb6_4 i)).WholeWords (EltTy.packing .f32)
  hstage6_5 : ∀ j, (stage6_5 j).IsWhole
  nbuf6_5 : grid6.bufCount reads6_5 true = 1
  hreads6_5 : ∀ i i' : grid6.Coords, (∀ a, reads6_5 a = true → i a = i' a) → cc6_transform_5 i = cc6_transform_5 i'
  hinb6_5 : ∀ (i : grid6.Coords) a, (cc6_transform_5 i a + 1) * S256x256.size a ≤ S256x256.size a
  hwx6_5 : ∀ i : grid6.Coords, EltTy.bits .bf16 = 32 ∨ (Rect.block (s := S256x256) S256x256.size (cc6_transform_5 i) (hinb6_5 i)).WholeWords (EltTy.packing .bf16)
  hstage6_6 : ∀ j, (stage6_6 j).IsWhole
  nbuf6_6 : grid6.bufCount reads6_6 true = 1
  hreads6_6 : ∀ i i' : grid6.Coords, (∀ a, reads6_6 a = true → i a = i' a) → cc6_transform_6 i = cc6_transform_6 i'
  hinb6_6 : ∀ (i : grid6.Coords) a, (cc6_transform_6 i a + 1) * S1x256.size a ≤ S1x256.size a
  hwx6_6 : ∀ i : grid6.Coords, EltTy.bits .f32 = 32 ∨ (Rect.block (s := S1x256) S1x256.size (cc6_transform_6 i) (hinb6_6 i)).WholeWords (EltTy.packing .f32)
  hstage6_7 : ∀ j, (stage6_7 j).IsWhole
  nbuf6_7 : grid6.bufCount reads6_7 false = 2
  hreads6_7 : ∀ i i' : grid6.Coords, (∀ a, reads6_7 a = true → i a = i' a) → cc6_transform_7 i = cc6_transform_7 i'
  hinb6_7 : ∀ (i : grid6.Coords) a, (cc6_transform_7 i a + 1) * S2000x256.size a ≤ S20000x256.size a
  hwx6_7 : ∀ i : grid6.Coords, EltTy.bits .f32 = 32 ∨ (Rect.block (s := S20000x256) S2000x256.size (cc6_transform_7 i) (hinb6_7 i)).WholeWords (EltTy.packing .f32)
  hstage6_8 : ∀ j, (stage6_8 j).IsWhole
  nbuf6_8 : grid6.bufCount reads6_8 false = 2
  hreads6_8 : ∀ i i' : grid6.Coords, (∀ a, reads6_8 a = true → i a = i' a) → cc6_transform_8 i = cc6_transform_8 i'
  hinb6_8 : ∀ (i : grid6.Coords) a, (cc6_transform_8 i a + 1) * S2000x256.size a ≤ S20000x256.size a
  hwx6_8 : ∀ i : grid6.Coords, EltTy.bits .f32 = 32 ∨ (Rect.block (s := S20000x256) S2000x256.size (cc6_transform_8 i) (hinb6_8 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S2000x256.size a ≤ S100000x256.size a
  hwx7_0 : ∀ i : grid7.Coords, EltTy.bits .bf16 = 32 ∨ (Rect.block (s := S100000x256) S2000x256.size (cc7_transform_0 i) (hinb7_0 i)).WholeWords (EltTy.packing .bf16)
  hstage7_1 : ∀ j, (stage7_1 j).IsWhole
  nbuf7_1 : grid7.bufCount reads7_1 false = 2
  hreads7_1 : ∀ i i' : grid7.Coords, (∀ a, reads7_1 a = true → i a = i' a) → cc7_transform_1 i = cc7_transform_1 i'
  hinb7_1 : ∀ (i : grid7.Coords) a, (cc7_transform_1 i a + 1) * S2000x256.size a ≤ S100000x256.size a
  hwx7_1 : ∀ i : grid7.Coords, EltTy.bits .bf16 = 32 ∨ (Rect.block (s := S100000x256) S2000x256.size (cc7_transform_1 i) (hinb7_1 i)).WholeWords (EltTy.packing .bf16)
  hstage7_2 : ∀ j, (stage7_2 j).IsWhole
  nbuf7_2 : grid7.bufCount reads7_2 false = 2
  hreads7_2 : ∀ i i' : grid7.Coords, (∀ a, reads7_2 a = true → i a = i' a) → cc7_transform_2 i = cc7_transform_2 i'
  hinb7_2 : ∀ (i : grid7.Coords) a, (cc7_transform_2 i a + 1) * S2000x8.size a ≤ S100000x8.size a
  hwx7_2 : ∀ i : grid7.Coords, EltTy.bits .bf16 = 32 ∨ (Rect.block (s := S100000x8) S2000x8.size (cc7_transform_2 i) (hinb7_2 i)).WholeWords (EltTy.packing .bf16)
  hstage7_3 : ∀ j, (stage7_3 j).IsWhole
  nbuf7_3 : grid7.bufCount reads7_3 true = 1
  hreads7_3 : ∀ i i' : grid7.Coords, (∀ a, reads7_3 a = true → i a = i' a) → cc7_transform_3 i = cc7_transform_3 i'
  hinb7_3 : ∀ (i : grid7.Coords) a, (cc7_transform_3 i a + 1) * S256x256.size a ≤ S256x256.size a
  hwx7_3 : ∀ i : grid7.Coords, EltTy.bits .bf16 = 32 ∨ (Rect.block (s := S256x256) S256x256.size (cc7_transform_3 i) (hinb7_3 i)).WholeWords (EltTy.packing .bf16)
  hstage7_4 : ∀ j, (stage7_4 j).IsWhole
  nbuf7_4 : grid7.bufCount reads7_4 true = 1
  hreads7_4 : ∀ i i' : grid7.Coords, (∀ a, reads7_4 a = true → i a = i' a) → cc7_transform_4 i = cc7_transform_4 i'
  hinb7_4 : ∀ (i : grid7.Coords) a, (cc7_transform_4 i a + 1) * S256x256.size a ≤ S256x256.size a
  hwx7_4 : ∀ i : grid7.Coords, EltTy.bits .bf16 = 32 ∨ (Rect.block (s := S256x256) S256x256.size (cc7_transform_4 i) (hinb7_4 i)).WholeWords (EltTy.packing .bf16)
  hstage7_5 : ∀ j, (stage7_5 j).IsWhole
  nbuf7_5 : grid7.bufCount reads7_5 true = 1
  hreads7_5 : ∀ i i' : grid7.Coords, (∀ a, reads7_5 a = true → i a = i' a) → cc7_transform_5 i = cc7_transform_5 i'
  hinb7_5 : ∀ (i : grid7.Coords) a, (cc7_transform_5 i a + 1) * S8x256.size a ≤ S8x256.size a
  hwx7_5 : ∀ i : grid7.Coords, EltTy.bits .bf16 = 32 ∨ (Rect.block (s := S8x256) S8x256.size (cc7_transform_5 i) (hinb7_5 i)).WholeWords (EltTy.packing .bf16)
  hstage7_6 : ∀ j, (stage7_6 j).IsWhole
  nbuf7_6 : grid7.bufCount reads7_6 true = 1
  hreads7_6 : ∀ i i' : grid7.Coords, (∀ a, reads7_6 a = true → i a = i' a) → cc7_transform_6 i = cc7_transform_6 i'
  hinb7_6 : ∀ (i : grid7.Coords) a, (cc7_transform_6 i a + 1) * S1x256.size a ≤ S1x256.size a
  hwx7_6 : ∀ i : grid7.Coords, EltTy.bits .f32 = 32 ∨ (Rect.block (s := S1x256) S1x256.size (cc7_transform_6 i) (hinb7_6 i)).WholeWords (EltTy.packing .f32)
  hstage7_7 : ∀ j, (stage7_7 j).IsWhole
  nbuf7_7 : grid7.bufCount reads7_7 true = 1
  hreads7_7 : ∀ i i' : grid7.Coords, (∀ a, reads7_7 a = true → i a = i' a) → cc7_transform_7 i = cc7_transform_7 i'
  hinb7_7 : ∀ (i : grid7.Coords) a, (cc7_transform_7 i a + 1) * S256x128.size a ≤ S256x128.size a
  hwx7_7 : ∀ i : grid7.Coords, EltTy.bits .bf16 = 32 ∨ (Rect.block (s := S256x128) S256x128.size (cc7_transform_7 i) (hinb7_7 i)).WholeWords (EltTy.packing .bf16)
  hstage7_8 : ∀ j, (stage7_8 j).IsWhole
  nbuf7_8 : grid7.bufCount reads7_8 true = 1
  hreads7_8 : ∀ i i' : grid7.Coords, (∀ a, reads7_8 a = true → i a = i' a) → cc7_transform_8 i = cc7_transform_8 i'
  hinb7_8 : ∀ (i : grid7.Coords) a, (cc7_transform_8 i a + 1) * S1x128.size a ≤ S1x128.size a
  hwx7_8 : ∀ i : grid7.Coords, EltTy.bits .f32 = 32 ∨ (Rect.block (s := S1x128) S1x128.size (cc7_transform_8 i) (hinb7_8 i)).WholeWords (EltTy.packing .f32)
  hstage7_9 : ∀ j, (stage7_9 j).IsWhole
  nbuf7_9 : grid7.bufCount reads7_9 false = 2
  hreads7_9 : ∀ i i' : grid7.Coords, (∀ a, reads7_9 a = true → i a = i' a) → cc7_transform_9 i = cc7_transform_9 i'
  hinb7_9 : ∀ (i : grid7.Coords) a, (cc7_transform_9 i a + 1) * S2000x128.size a ≤ S100000x128.size a
  hwx7_9 : ∀ i : grid7.Coords, EltTy.bits .f32 = 32 ∨ (Rect.block (s := S100000x128) S2000x128.size (cc7_transform_9 i) (hinb7_9 i)).WholeWords (EltTy.packing .f32)

variable [Facts₀]

def dot_S2000x512_S512x512_S2000x512_1_0_0_1_n_n : DotDims S2000x512 S512x512 S2000x512 where
  lhsContracting := [1]
  rhsContracting := [0]
  lhsNonContracting := [0]
  rhsNonContracting := [1]
  lhsBatch := []
  rhsBatch := []
  wf := dot_S2000x512_S512x512_S2000x512_1_0_0_1_n_n_wf
def dot_S2000x512_S512x256_S2000x256_1_0_0_1_n_n : DotDims S2000x512 S512x256 S2000x256 where
  lhsContracting := [1]
  rhsContracting := [0]
  lhsNonContracting := [0]
  rhsNonContracting := [1]
  lhsBatch := []
  rhsBatch := []
  wf := dot_S2000x512_S512x256_S2000x256_1_0_0_1_n_n_wf
def dot_S2000x256_S256x256_S2000x256_1_0_0_1_n_n : DotDims S2000x256 S256x256 S2000x256 where
  lhsContracting := [1]
  rhsContracting := [0]
  lhsNonContracting := [0]
  rhsNonContracting := [1]
  lhsBatch := []
  rhsBatch := []
  wf := dot_S2000x256_S256x256_S2000x256_1_0_0_1_n_n_wf
def dot_S2000x18_S18x256_S2000x256_1_0_0_1_n_n : DotDims S2000x18 S18x256 S2000x256 where
  lhsContracting := [1]
  rhsContracting := [0]
  lhsNonContracting := [0]
  rhsNonContracting := [1]
  lhsBatch := []
  rhsBatch := []
  wf := dot_S2000x18_S18x256_S2000x256_1_0_0_1_n_n_wf
def gather_S20000x256_S320000x1_S320000x256_1_0_n_n_0_1_1256 : GatherDims S20000x256 S320000x1 S320000x256 where
  offsetDims := [1]
  collapsedSliceDims := [0]
  operandBatchingDims := []
  startIndicesBatchingDims := []
  startIndexMap := [0]
  indexVectorDim := 1
  sliceSizes := ![1, 256]
  wf := gather_S20000x256_S320000x1_S320000x256_1_0_n_n_0_1_1256_wf
def dot_S3200x256_S256x256_S3200x256_1_0_0_1_n_n : DotDims S3200x256 S256x256 S3200x256 where
  lhsContracting := [1]
  rhsContracting := [0]
  lhsNonContracting := [0]
  rhsNonContracting := [1]
  lhsBatch := []
  rhsBatch := []
  wf := dot_S3200x256_S256x256_S3200x256_1_0_0_1_n_n_wf
def scatter_S20000x256_S320000x1_S320000x256_1_0_0_1 : ScatterDims S20000x256 S320000x1 S320000x256 where
  updateWindowDims := [1]
  insertedWindowDims := [0]
  scatterDimsToOperandDims := [0]
  indexVectorDim := 1
  wf := scatter_S20000x256_S320000x1_S320000x256_1_0_0_1_wf
def gather_S20000x18_S100000x1_S100000x18_1_0_n_n_0_1_118 : GatherDims S20000x18 S100000x1 S100000x18 where
  offsetDims := [1]
  collapsedSliceDims := [0]
  operandBatchingDims := []
  startIndicesBatchingDims := []
  startIndexMap := [0]
  indexVectorDim := 1
  sliceSizes := ![1, 18]
  wf := gather_S20000x18_S100000x1_S100000x18_1_0_n_n_0_1_118_wf
def gather_S20000x256_S100000x1_S100000x256_1_0_n_n_0_1_1256 : GatherDims S20000x256 S100000x1 S100000x256 where
  offsetDims := [1]
  collapsedSliceDims := [0]
  operandBatchingDims := []
  startIndicesBatchingDims := []
  startIndexMap := [0]
  indexVectorDim := 1
  sliceSizes := ![1, 256]
  wf := gather_S20000x256_S100000x1_S100000x256_1_0_n_n_0_1_1256_wf
def scatter_S256x128_S1_S256x26_01_n_1_0 : ScatterDims S256x128 S1 S256x26 where
  updateWindowDims := [0, 1]
  insertedWindowDims := []
  scatterDimsToOperandDims := [1]
  indexVectorDim := 0
  wf := scatter_S256x128_S1_S256x26_01_n_1_0_wf
def scatter_S128_S1_S26_0_n_0_0 : ScatterDims S128 S1 S26 where
  updateWindowDims := [0]
  insertedWindowDims := []
  scatterDimsToOperandDims := [0]
  indexVectorDim := 0
  wf := scatter_S128_S1_S26_0_n_0_0_wf
def dot_S2000x8_S8x256_S2000x256_1_0_0_1_n_n : DotDims S2000x8 S8x256 S2000x256 where
  lhsContracting := [1]
  rhsContracting := [0]
  lhsNonContracting := [0]
  rhsNonContracting := [1]
  lhsBatch := []
  rhsBatch := []
  wf := dot_S2000x8_S8x256_S2000x256_1_0_0_1_n_n_wf
def dot_S2000x256_S256x128_S2000x128_1_0_0_1_n_n : DotDims S2000x256 S256x128 S2000x128 where
  lhsContracting := [1]
  rhsContracting := [0]
  lhsNonContracting := [0]
  rhsNonContracting := [1]
  lhsBatch := []
  rhsBatch := []
  wf := dot_S2000x256_S256x128_S2000x128_1_0_0_1_n_n_wf

abbrev win0_0 : Pipeline.Window sig grid0 :=
  Pipeline.Window.ofSpec (Memref.whole main_v0) S2000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S2000x18.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S512x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v9) S1x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v3) S512x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v10) S1x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v5) S256x256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v7) S18x256.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v11) S1x256.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v8) S256x256.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v12) S1x256.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v13) S2000x256.size cc0_transform_11 reads0_11 true false 2 stage0_11 sem0_11
    hrank0 hreads0_11 hinb0_11 nbuf0_11 (Memref.isWhole_whole _) hwx0_11 hstage0_11

abbrev win0 : Fin 12 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | ⟨_ + 12, h⟩ => absurd h (Nat.not_lt.2 (Nat.le_add_left _ _))
abbrev spec0 : Fin 12 → Pipeline.WinSpec sig grid0.rank := fun w => (win0 w).toWinSpec

abbrev win1_0 : Pipeline.Window sig grid1 :=
  Pipeline.Window.ofSpec (Memref.whole main_v35) S3200x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v42) S3200x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v44) S256x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v46) S256x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v53) S1x256.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v50) S256x256.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v54) S1x256.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v55) S3200x256.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

abbrev win2_0 : Pipeline.Window sig grid2 :=
  Pipeline.Window.ofSpec (Memref.whole main_v28) S2000x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v60) S2000x256.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v62) S256x256.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v64) S256x256.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v71) S1x256.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v68) S256x256.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v72) S1x256.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v13) S2000x256.size cc2_transform_7 reads2_7 false false 2 stage2_7 sem2_7
    hrank2 hreads2_7 hinb2_7 nbuf2_7 (Memref.isWhole_whole _) hwx2_7 hstage2_7

abbrev win2_8 : Pipeline.Window sig grid2 :=
  Pipeline.Window.ofSpec (Memref.whole main_v73) S2000x256.size cc2_transform_8 reads2_8 true false 2 stage2_8 sem2_8
    hrank2 hreads2_8 hinb2_8 nbuf2_8 (Memref.isWhole_whole _) hwx2_8 hstage2_8

abbrev win2 : Fin 9 → Pipeline.Window sig grid2 := fun | 0 => win2_0 | 1 => win2_1 | 2 => win2_2 | 3 => win2_3 | 4 => win2_4 | 5 => win2_5 | 6 => win2_6 | 7 => win2_7 | 8 => win2_8 | ⟨_ + 9, h⟩ => absurd h (Nat.not_lt.2 (Nat.le_add_left _ _))
abbrev spec2 : Fin 9 → Pipeline.WinSpec sig grid2.rank := fun w => (win2 w).toWinSpec

abbrev win3_0 : Pipeline.Window sig grid3 :=
  Pipeline.Window.ofSpec (Memref.whole main_v81) S3200x256.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v88) S3200x256.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v90) S256x256.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v92) S256x256.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v99) S1x256.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v96) S256x256.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v100) S1x256.size cc3_transform_6 reads3_6 false true 1 stage3_6 sem3_6
    hrank3 hreads3_6 hinb3_6 nbuf3_6 (Memref.isWhole_whole _) hwx3_6 hstage3_6

abbrev win3_7 : Pipeline.Window sig grid3 :=
  Pipeline.Window.ofSpec (Memref.whole main_v101) S3200x256.size cc3_transform_7 reads3_7 true false 2 stage3_7 sem3_7
    hrank3 hreads3_7 hinb3_7 nbuf3_7 (Memref.isWhole_whole _) hwx3_7 hstage3_7

abbrev win3 : Fin 8 → Pipeline.Window sig grid3 := fun | 0 => win3_0 | 1 => win3_1 | 2 => win3_2 | 3 => win3_3 | 4 => win3_4 | 5 => win3_5 | 6 => win3_6 | 7 => win3_7 | ⟨_ + 8, h⟩ => absurd h (Nat.not_lt.2 (Nat.le_add_left _ _))
abbrev spec3 : Fin 8 → Pipeline.WinSpec sig grid3.rank := fun w => (win3 w).toWinSpec

abbrev win4_0 : Pipeline.Window sig grid4 :=
  Pipeline.Window.ofSpec (Memref.whole main_v74) S2000x256.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v106) S2000x256.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v108) S256x256.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v110) S256x256.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v117) S1x256.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v114) S256x256.size cc4_transform_5 reads4_5 false true 1 stage4_5 sem4_5
    hrank4 hreads4_5 hinb4_5 nbuf4_5 (Memref.isWhole_whole _) hwx4_5 hstage4_5

abbrev win4_6 : Pipeline.Window sig grid4 :=
  Pipeline.Window.ofSpec (Memref.whole main_v118) S1x256.size cc4_transform_6 reads4_6 false true 1 stage4_6 sem4_6
    hrank4 hreads4_6 hinb4_6 nbuf4_6 (Memref.isWhole_whole _) hwx4_6 hstage4_6

abbrev win4_7 : Pipeline.Window sig grid4 :=
  Pipeline.Window.ofSpec (Memref.whole main_v73) S2000x256.size cc4_transform_7 reads4_7 false false 2 stage4_7 sem4_7
    hrank4 hreads4_7 hinb4_7 nbuf4_7 (Memref.isWhole_whole _) hwx4_7 hstage4_7

abbrev win4_8 : Pipeline.Window sig grid4 :=
  Pipeline.Window.ofSpec (Memref.whole main_v119) S2000x256.size cc4_transform_8 reads4_8 true false 2 stage4_8 sem4_8
    hrank4 hreads4_8 hinb4_8 nbuf4_8 (Memref.isWhole_whole _) hwx4_8 hstage4_8

abbrev win4 : Fin 9 → Pipeline.Window sig grid4 := fun | 0 => win4_0 | 1 => win4_1 | 2 => win4_2 | 3 => win4_3 | 4 => win4_4 | 5 => win4_5 | 6 => win4_6 | 7 => win4_7 | 8 => win4_8 | ⟨_ + 9, h⟩ => absurd h (Nat.not_lt.2 (Nat.le_add_left _ _))
abbrev spec4 : Fin 9 → Pipeline.WinSpec sig grid4.rank := fun w => (win4 w).toWinSpec

abbrev win5_0 : Pipeline.Window sig grid5 :=
  Pipeline.Window.ofSpec (Memref.whole main_v127) S3200x256.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v134) S3200x256.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v136) S256x256.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v138) S256x256.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v145) S1x256.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v142) S256x256.size cc5_transform_5 reads5_5 false true 1 stage5_5 sem5_5
    hrank5 hreads5_5 hinb5_5 nbuf5_5 (Memref.isWhole_whole _) hwx5_5 hstage5_5

abbrev win5_6 : Pipeline.Window sig grid5 :=
  Pipeline.Window.ofSpec (Memref.whole main_v146) S1x256.size cc5_transform_6 reads5_6 false true 1 stage5_6 sem5_6
    hrank5 hreads5_6 hinb5_6 nbuf5_6 (Memref.isWhole_whole _) hwx5_6 hstage5_6

abbrev win5_7 : Pipeline.Window sig grid5 :=
  Pipeline.Window.ofSpec (Memref.whole main_v147) S3200x256.size cc5_transform_7 reads5_7 true false 2 stage5_7 sem5_7
    hrank5 hreads5_7 hinb5_7 nbuf5_7 (Memref.isWhole_whole _) hwx5_7 hstage5_7

abbrev win5 : Fin 8 → Pipeline.Window sig grid5 := fun | 0 => win5_0 | 1 => win5_1 | 2 => win5_2 | 3 => win5_3 | 4 => win5_4 | 5 => win5_5 | 6 => win5_6 | 7 => win5_7 | ⟨_ + 8, h⟩ => absurd h (Nat.not_lt.2 (Nat.le_add_left _ _))
abbrev spec5 : Fin 8 → Pipeline.WinSpec sig grid5.rank := fun w => (win5 w).toWinSpec

abbrev win6_0 : Pipeline.Window sig grid6 :=
  Pipeline.Window.ofSpec (Memref.whole main_v120) S2000x256.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v152) S2000x256.size cc6_transform_1 reads6_1 false false 2 stage6_1 sem6_1
    hrank6 hreads6_1 hinb6_1 nbuf6_1 (Memref.isWhole_whole _) hwx6_1 hstage6_1

abbrev win6_2 : Pipeline.Window sig grid6 :=
  Pipeline.Window.ofSpec (Memref.whole main_v154) S256x256.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v156) S256x256.size cc6_transform_3 reads6_3 false true 1 stage6_3 sem6_3
    hrank6 hreads6_3 hinb6_3 nbuf6_3 (Memref.isWhole_whole _) hwx6_3 hstage6_3

abbrev win6_4 : Pipeline.Window sig grid6 :=
  Pipeline.Window.ofSpec (Memref.whole main_v163) S1x256.size cc6_transform_4 reads6_4 false true 1 stage6_4 sem6_4
    hrank6 hreads6_4 hinb6_4 nbuf6_4 (Memref.isWhole_whole _) hwx6_4 hstage6_4

abbrev win6_5 : Pipeline.Window sig grid6 :=
  Pipeline.Window.ofSpec (Memref.whole main_v160) S256x256.size cc6_transform_5 reads6_5 false true 1 stage6_5 sem6_5
    hrank6 hreads6_5 hinb6_5 nbuf6_5 (Memref.isWhole_whole _) hwx6_5 hstage6_5

abbrev win6_6 : Pipeline.Window sig grid6 :=
  Pipeline.Window.ofSpec (Memref.whole main_v164) S1x256.size cc6_transform_6 reads6_6 false true 1 stage6_6 sem6_6
    hrank6 hreads6_6 hinb6_6 nbuf6_6 (Memref.isWhole_whole _) hwx6_6 hstage6_6

abbrev win6_7 : Pipeline.Window sig grid6 :=
  Pipeline.Window.ofSpec (Memref.whole main_v119) S2000x256.size cc6_transform_7 reads6_7 false false 2 stage6_7 sem6_7
    hrank6 hreads6_7 hinb6_7 nbuf6_7 (Memref.isWhole_whole _) hwx6_7 hstage6_7

abbrev win6_8 : Pipeline.Window sig grid6 :=
  Pipeline.Window.ofSpec (Memref.whole main_v165) S2000x256.size cc6_transform_8 reads6_8 true false 2 stage6_8 sem6_8
    hrank6 hreads6_8 hinb6_8 nbuf6_8 (Memref.isWhole_whole _) hwx6_8 hstage6_8

abbrev win6 : Fin 9 → Pipeline.Window sig grid6 := fun | 0 => win6_0 | 1 => win6_1 | 2 => win6_2 | 3 => win6_3 | 4 => win6_4 | 5 => win6_5 | 6 => win6_6 | 7 => win6_7 | 8 => win6_8 | ⟨_ + 9, h⟩ => absurd h (Nat.not_lt.2 (Nat.le_add_left _ _))
abbrev spec6 : Fin 9 → Pipeline.WinSpec sig grid6.rank := fun w => (win6 w).toWinSpec

abbrev win7_0 : Pipeline.Window sig grid7 :=
  Pipeline.Window.ofSpec (Memref.whole main_v218) S2000x256.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v225) S2000x256.size cc7_transform_1 reads7_1 false false 2 stage7_1 sem7_1
    hrank7 hreads7_1 hinb7_1 nbuf7_1 (Memref.isWhole_whole _) hwx7_1 hstage7_1

abbrev win7_2 : Pipeline.Window sig grid7 :=
  Pipeline.Window.ofSpec (Memref.whole main_v226) S2000x8.size cc7_transform_2 reads7_2 false false 2 stage7_2 sem7_2
    hrank7 hreads7_2 hinb7_2 nbuf7_2 (Memref.isWhole_whole _) hwx7_2 hstage7_2

abbrev win7_3 : Pipeline.Window sig grid7 :=
  Pipeline.Window.ofSpec (Memref.whole main_v228) S256x256.size cc7_transform_3 reads7_3 false true 1 stage7_3 sem7_3
    hrank7 hreads7_3 hinb7_3 nbuf7_3 (Memref.isWhole_whole _) hwx7_3 hstage7_3

abbrev win7_4 : Pipeline.Window sig grid7 :=
  Pipeline.Window.ofSpec (Memref.whole main_v230) S256x256.size cc7_transform_4 reads7_4 false true 1 stage7_4 sem7_4
    hrank7 hreads7_4 hinb7_4 nbuf7_4 (Memref.isWhole_whole _) hwx7_4 hstage7_4

abbrev win7_5 : Pipeline.Window sig grid7 :=
  Pipeline.Window.ofSpec (Memref.whole main_v232) S8x256.size cc7_transform_5 reads7_5 false true 1 stage7_5 sem7_5
    hrank7 hreads7_5 hinb7_5 nbuf7_5 (Memref.isWhole_whole _) hwx7_5 hstage7_5

abbrev win7_6 : Pipeline.Window sig grid7 :=
  Pipeline.Window.ofSpec (Memref.whole main_v240) S1x256.size cc7_transform_6 reads7_6 false true 1 stage7_6 sem7_6
    hrank7 hreads7_6 hinb7_6 nbuf7_6 (Memref.isWhole_whole _) hwx7_6 hstage7_6

abbrev win7_7 : Pipeline.Window sig grid7 :=
  Pipeline.Window.ofSpec (Memref.whole main_v239) S256x128.size cc7_transform_7 reads7_7 false true 1 stage7_7 sem7_7
    hrank7 hreads7_7 hinb7_7 nbuf7_7 (Memref.isWhole_whole _) hwx7_7 hstage7_7

abbrev win7_8 : Pipeline.Window sig grid7 :=
  Pipeline.Window.ofSpec (Memref.whole main_v241) S1x128.size cc7_transform_8 reads7_8 false true 1 stage7_8 sem7_8
    hrank7 hreads7_8 hinb7_8 nbuf7_8 (Memref.isWhole_whole _) hwx7_8 hstage7_8

abbrev win7_9 : Pipeline.Window sig grid7 :=
  Pipeline.Window.ofSpec (Memref.whole main_v242) S2000x128.size cc7_transform_9 reads7_9 true false 2 stage7_9 sem7_9
    hrank7 hreads7_9 hinb7_9 nbuf7_9 (Memref.isWhole_whole _) hwx7_9 hstage7_9

abbrev win7 : Fin 10 → Pipeline.Window sig grid7 := fun | 0 => win7_0 | 1 => win7_1 | 2 => win7_2 | 3 => win7_3 | 4 => win7_4 | 5 => win7_5 | 6 => win7_6 | 7 => win7_7 | 8 => win7_8 | 9 => win7_9 | ⟨_ + 10, h⟩ => absurd h (Nat.not_lt.2 (Nat.le_add_left _ _))
abbrev spec7 : Fin 10 → Pipeline.WinSpec sig grid7.rank := fun w => (win7 w).toWinSpec

class Facts : Prop extends Facts₀ where

variable [Facts]
-- ==== ReferenceIdeal.lean ====
abbrev S20000x512 : Shape := ⟨2, ![20000, 512]⟩
abbrev S20000x18 : Shape := ⟨2, ![20000, 18]⟩
abbrev S320000x2 : Shape := ⟨2, ![320000, 2]⟩
abbrev S100000x2 : Shape := ⟨2, ![100000, 2]⟩
abbrev S512x512 : Shape := ⟨2, ![512, 512]⟩
abbrev S512 : Shape := ⟨1, ![512]⟩
abbrev S512x256 : Shape := ⟨2, ![512, 256]⟩
abbrev S256 : Shape := ⟨1, ![256]⟩
abbrev S274x256 : Shape := ⟨2, ![274, 256]⟩
abbrev S256x256 : Shape := ⟨2, ![256, 256]⟩
abbrev S3x512x256 : Shape := ⟨3, ![3, 512, 256]⟩
abbrev S3x256 : Shape := ⟨2, ![3, 256]⟩
abbrev S3x256x256 : Shape := ⟨3, ![3, 256, 256]⟩
abbrev S520x256 : Shape := ⟨2, ![520, 256]⟩
abbrev S256x26 : Shape := ⟨2, ![256, 26]⟩
abbrev S26 : Shape := ⟨1, ![26]⟩
abbrev S1x512 : Shape := ⟨2, ![1, 512]⟩
abbrev S_ : Shape := ⟨0, ![]⟩
abbrev S20000x256 : Shape := ⟨2, ![20000, 256]⟩
abbrev S1x256 : Shape := ⟨2, ![1, 256]⟩
abbrev S20000x274 : Shape := ⟨2, ![20000, 274]⟩
abbrev S320000x1 : Shape := ⟨2, ![320000, 1]⟩
abbrev S320000 : Shape := ⟨1, ![320000]⟩
abbrev S320000x256 : Shape := ⟨2, ![320000, 256]⟩
abbrev S320000x512 : Shape := ⟨2, ![320000, 512]⟩
abbrev S1x512x256 : Shape := ⟨3, ![1, 512, 256]⟩
abbrev S1x256x256 : Shape := ⟨3, ![1, 256, 256]⟩
abbrev S100000x1 : Shape := ⟨2, ![100000, 1]⟩
abbrev S100000 : Shape := ⟨1, ![100000]⟩
abbrev S100000x3 : Shape := ⟨2, ![100000, 3]⟩
abbrev S100000x8 : Shape := ⟨2, ![100000, 8]⟩
abbrev S100000x256 : Shape := ⟨2, ![100000, 256]⟩
abbrev S100000x520 : Shape := ⟨2, ![100000, 520]⟩
abbrev S100000x26 : Shape := ⟨2, ![100000, 26]⟩
abbrev S1x26 : Shape := ⟨2, ![1, 26]⟩

abbrev nBuf : Space → Nat
  | .hbm => 388
  | .vmem => 0
  | .smem => 0
  | _ => 0

abbrev hbmTy0_0 (i : Nat) : BufTy := match i % 128 with
  | 0 => ⟨S20000x512, .f32⟩
  | 1 => ⟨S20000x18, .f32⟩
  | 2 => ⟨S320000x2, .i32⟩
  | 3 => ⟨S100000x2, .i32⟩
  | 4 => ⟨S512x512, .f32⟩
  | 5 => ⟨S512, .f32⟩
  | 6 => ⟨S512x256, .f32⟩
  | 7 => ⟨S256, .f32⟩
  | 8 => ⟨S274x256, .f32⟩
  | 9 => ⟨S256, .f32⟩
  | 10 => ⟨S256x256, .f32⟩
  | 11 => ⟨S256, .f32⟩
  | 12 => ⟨S3x512x256, .f32⟩
  | 13 => ⟨S3x256, .f32⟩
  | 14 => ⟨S3x256x256, .f32⟩
  | 15 => ⟨S3x256, .f32⟩
  | 16 => ⟨S3x512x256, .f32⟩
  | 17 => ⟨S3x256, .f32⟩
  | 18 => ⟨S3x256x256, .f32⟩
  | 19 => ⟨S3x256, .f32⟩
  | 20 => ⟨S520x256, .f32⟩
  | 21 => ⟨S256, .f32⟩
  | 22 => ⟨S256x26, .f32⟩
  | 23 => ⟨S26, .f32⟩
  | 24 => ⟨S20000x512, .f32⟩
  | 25 => ⟨S1x512, .f32⟩
  | 26 => ⟨S20000x512, .f32⟩
  | 27 => ⟨S20000x512, .f32⟩
  | 28 => ⟨S_, .f32⟩
  | 29 => ⟨S20000x512, .f32⟩
  | 30 => ⟨S20000x512, .f32⟩
  | 31 => ⟨S20000x256, .f32⟩
  | 32 => ⟨S1x256, .f32⟩
  | 33 => ⟨S20000x256, .f32⟩
  | 34 => ⟨S20000x256, .f32⟩
  | 35 => ⟨S_, .f32⟩
  | 36 => ⟨S20000x256, .f32⟩
  | 37 => ⟨S20000x256, .f32⟩
  | 38 => ⟨S20000x274, .f32⟩
  | 39 => ⟨S20000x256, .f32⟩
  | 40 => ⟨S1x256, .f32⟩
  | 41 => ⟨S20000x256, .f32⟩
  | 42 => ⟨S20000x256, .f32⟩
  | 43 => ⟨S_, .f32⟩
  | 44 => ⟨S20000x256, .f32⟩
  | 45 => ⟨S20000x256, .f32⟩
  | 46 => ⟨S20000x256, .f32⟩
  | 47 => ⟨S1x256, .f32⟩
  | 48 => ⟨S20000x256, .f32⟩
  | 49 => ⟨S20000x256, .f32⟩
  | 50 => ⟨S_, .f32⟩
  | 51 => ⟨S20000x256, .f32⟩
  | 52 => ⟨S20000x256, .f32⟩
  | 53 => ⟨S320000x1, .i32⟩
  | 54 => ⟨S320000, .i32⟩
  | 55 => ⟨S320000x1, .i32⟩
  | 56 => ⟨S320000, .i32⟩
  | 57 => ⟨S_, .i32⟩
  | 58 => ⟨S320000, .i32⟩
  | 59 => ⟨S320000, .i1⟩
  | 60 => ⟨S_, .i32⟩
  | 61 => ⟨S320000, .i32⟩
  | 62 => ⟨S320000, .i32⟩
  | 63 => ⟨S320000, .i32⟩
  | 64 => ⟨S320000x1, .i32⟩
  | 65 => ⟨S320000x256, .f32⟩
  | 66 => ⟨S_, .i32⟩
  | 67 => ⟨S320000, .i32⟩
  | 68 => ⟨S320000, .i1⟩
  | 69 => ⟨S_, .i32⟩
  | 70 => ⟨S320000, .i32⟩
  | 71 => ⟨S320000, .i32⟩
  | 72 => ⟨S320000, .i32⟩
  | 73 => ⟨S320000x1, .i32⟩
  | 74 => ⟨S320000x256, .f32⟩
  | 75 => ⟨S320000x512, .f32⟩
  | 76 => ⟨S1x512x256, .f32⟩
  | 77 => ⟨S512x256, .f32⟩
  | 78 => ⟨S320000x256, .f32⟩
  | 79 => ⟨S1x256, .f32⟩
  | 80 => ⟨S256, .f32⟩
  | 81 => ⟨S1x256, .f32⟩
  | 82 => ⟨S320000x256, .f32⟩
  | 83 => ⟨S320000x256, .f32⟩
  | 84 => ⟨S_, .f32⟩
  | 85 => ⟨S320000x256, .f32⟩
  | 86 => ⟨S320000x256, .f32⟩
  | 87 => ⟨S1x256x256, .f32⟩
  | 88 => ⟨S256x256, .f32⟩
  | 89 => ⟨S320000x256, .f32⟩
  | 90 => ⟨S1x256, .f32⟩
  | 91 => ⟨S256, .f32⟩
  | 92 => ⟨S1x256, .f32⟩
  | 93 => ⟨S320000x256, .f32⟩
  | 94 => ⟨S320000x256, .f32⟩
  | 95 => ⟨S_, .f32⟩
  | 96 => ⟨S20000x256, .f32⟩
  | 97 => ⟨S320000x1, .i32⟩
  | 98 => ⟨S20000x256, .f32⟩
  | 99 => ⟨S20000x512, .f32⟩
  | 100 => ⟨S1x512x256, .f32⟩
  | 101 => ⟨S512x256, .f32⟩
  | 102 => ⟨S20000x256, .f32⟩
  | 103 => ⟨S1x256, .f32⟩
  | 104 => ⟨S256, .f32⟩
  | 105 => ⟨S1x256, .f32⟩
  | 106 => ⟨S20000x256, .f32⟩
  | 107 => ⟨S20000x256, .f32⟩
  | 108 => ⟨S_, .f32⟩
  | 109 => ⟨S20000x256, .f32⟩
  | 110 => ⟨S20000x256, .f32⟩
  | 111 => ⟨S1x256x256, .f32⟩
  | 112 => ⟨S256x256, .f32⟩
  | 113 => ⟨S20000x256, .f32⟩
  | 114 => ⟨S1x256, .f32⟩
  | 115 => ⟨S256, .f32⟩
  | 116 => ⟨S1x256, .f32⟩
  | 117 => ⟨S20000x256, .f32⟩
  | 118 => ⟨S20000x256, .f32⟩
  | 119 => ⟨S20000x256, .f32⟩
  | 120 => ⟨S_, .i32⟩
  | 121 => ⟨S320000, .i32⟩
  | 122 => ⟨S320000, .i1⟩
  | 123 => ⟨S_, .i32⟩
  | 124 => ⟨S320000, .i32⟩
  | 125 => ⟨S320000, .i32⟩
  | 126 => ⟨S320000, .i32⟩
  | 127 => ⟨S320000x1, .i32⟩
  | _ => ⟨S20000x512, .f32⟩

abbrev hbmTy0_1 (i : Nat) : BufTy := match i % 128 with
  | 0 => ⟨S320000x256, .f32⟩
  | 1 => ⟨S_, .i32⟩
  | 2 => ⟨S320000, .i32⟩
  | 3 => ⟨S320000, .i1⟩
  | 4 => ⟨S_, .i32⟩
  | 5 => ⟨S320000, .i32⟩
  | 6 => ⟨S320000, .i32⟩
  | 7 => ⟨S320000, .i32⟩
  | 8 => ⟨S320000x1, .i32⟩
  | 9 => ⟨S320000x256, .f32⟩
  | 10 => ⟨S320000x512, .f32⟩
  | 11 => ⟨S1x512x256, .f32⟩
  | 12 => ⟨S512x256, .f32⟩
  | 13 => ⟨S320000x256, .f32⟩
  | 14 => ⟨S1x256, .f32⟩
  | 15 => ⟨S256, .f32⟩
  | 16 => ⟨S1x256, .f32⟩
  | 17 => ⟨S320000x256, .f32⟩
  | 18 => ⟨S320000x256, .f32⟩
  | 19 => ⟨S_, .f32⟩
  | 20 => ⟨S320000x256, .f32⟩
  | 21 => ⟨S320000x256, .f32⟩
  | 22 => ⟨S1x256x256, .f32⟩
  | 23 => ⟨S256x256, .f32⟩
  | 24 => ⟨S320000x256, .f32⟩
  | 25 => ⟨S1x256, .f32⟩
  | 26 => ⟨S256, .f32⟩
  | 27 => ⟨S1x256, .f32⟩
  | 28 => ⟨S320000x256, .f32⟩
  | 29 => ⟨S320000x256, .f32⟩
  | 30 => ⟨S_, .f32⟩
  | 31 => ⟨S20000x256, .f32⟩
  | 32 => ⟨S320000x1, .i32⟩
  | 33 => ⟨S20000x256, .f32⟩
  | 34 => ⟨S20000x512, .f32⟩
  | 35 => ⟨S1x512x256, .f32⟩
  | 36 => ⟨S512x256, .f32⟩
  | 37 => ⟨S20000x256, .f32⟩
  | 38 => ⟨S1x256, .f32⟩
  | 39 => ⟨S256, .f32⟩
  | 40 => ⟨S1x256, .f32⟩
  | 41 => ⟨S20000x256, .f32⟩
  | 42 => ⟨S20000x256, .f32⟩
  | 43 => ⟨S_, .f32⟩
  | 44 => ⟨S20000x256, .f32⟩
  | 45 => ⟨S20000x256, .f32⟩
  | 46 => ⟨S1x256x256, .f32⟩
  | 47 => ⟨S256x256, .f32⟩
  | 48 => ⟨S20000x256, .f32⟩
  | 49 => ⟨S1x256, .f32⟩
  | 50 => ⟨S256, .f32⟩
  | 51 => ⟨S1x256, .f32⟩
  | 52 => ⟨S20000x256, .f32⟩
  | 53 => ⟨S20000x256, .f32⟩
  | 54 => ⟨S20000x256, .f32⟩
  | 55 => ⟨S_, .i32⟩
  | 56 => ⟨S320000, .i32⟩
  | 57 => ⟨S320000, .i1⟩
  | 58 => ⟨S_, .i32⟩
  | 59 => ⟨S320000, .i32⟩
  | 60 => ⟨S320000, .i32⟩
  | 61 => ⟨S320000, .i32⟩
  | 62 => ⟨S320000x1, .i32⟩
  | 63 => ⟨S320000x256, .f32⟩
  | 64 => ⟨S_, .i32⟩
  | 65 => ⟨S320000, .i32⟩
  | 66 => ⟨S320000, .i1⟩
  | 67 => ⟨S_, .i32⟩
  | 68 => ⟨S320000, .i32⟩
  | 69 => ⟨S320000, .i32⟩
  | 70 => ⟨S320000, .i32⟩
  | 71 => ⟨S320000x1, .i32⟩
  | 72 => ⟨S320000x256, .f32⟩
  | 73 => ⟨S320000x512, .f32⟩
  | 74 => ⟨S1x512x256, .f32⟩
  | 75 => ⟨S512x256, .f32⟩
  | 76 => ⟨S320000x256, .f32⟩
  | 77 => ⟨S1x256, .f32⟩
  | 78 => ⟨S256, .f32⟩
  | 79 => ⟨S1x256, .f32⟩
  | 80 => ⟨S320000x256, .f32⟩
  | 81 => ⟨S320000x256, .f32⟩
  | 82 => ⟨S_, .f32⟩
  | 83 => ⟨S320000x256, .f32⟩
  | 84 => ⟨S320000x256, .f32⟩
  | 85 => ⟨S1x256x256, .f32⟩
  | 86 => ⟨S256x256, .f32⟩
  | 87 => ⟨S320000x256, .f32⟩
  | 88 => ⟨S1x256, .f32⟩
  | 89 => ⟨S256, .f32⟩
  | 90 => ⟨S1x256, .f32⟩
  | 91 => ⟨S320000x256, .f32⟩
  | 92 => ⟨S320000x256, .f32⟩
  | 93 => ⟨S_, .f32⟩
  | 94 => ⟨S20000x256, .f32⟩
  | 95 => ⟨S320000x1, .i32⟩
  | 96 => ⟨S20000x256, .f32⟩
  | 97 => ⟨S20000x512, .f32⟩
  | 98 => ⟨S1x512x256, .f32⟩
  | 99 => ⟨S512x256, .f32⟩
  | 100 => ⟨S20000x256, .f32⟩
  | 101 => ⟨S1x256, .f32⟩
  | 102 => ⟨S256, .f32⟩
  | 103 => ⟨S1x256, .f32⟩
  | 104 => ⟨S20000x256, .f32⟩
  | 105 => ⟨S20000x256, .f32⟩
  | 106 => ⟨S_, .f32⟩
  | 107 => ⟨S20000x256, .f32⟩
  | 108 => ⟨S20000x256, .f32⟩
  | 109 => ⟨S1x256x256, .f32⟩
  | 110 => ⟨S256x256, .f32⟩
  | 111 => ⟨S20000x256, .f32⟩
  | 112 => ⟨S1x256, .f32⟩
  | 113 => ⟨S256, .f32⟩
  | 114 => ⟨S1x256, .f32⟩
  | 115 => ⟨S20000x256, .f32⟩
  | 116 => ⟨S20000x256, .f32⟩
  | 117 => ⟨S20000x256, .f32⟩
  | 118 => ⟨S100000x1, .i32⟩
  | 119 => ⟨S100000, .i32⟩
  | 120 => ⟨S100000x1, .i32⟩
  | 121 => ⟨S100000, .i32⟩
  | 122 => ⟨S_, .i32⟩
  | 123 => ⟨S100000, .i32⟩
  | 124 => ⟨S100000, .i1⟩
  | 125 => ⟨S_, .i32⟩
  | 126 => ⟨S100000, .i32⟩
  | 127 => ⟨S100000, .i32⟩
  | _ => ⟨S20000x512, .f32⟩

abbrev hbmTy0_2 (i : Nat) : BufTy := match i % 128 with
  | 0 => ⟨S100000, .i32⟩
  | 1 => ⟨S100000x1, .i32⟩
  | 2 => ⟨S_, .i32⟩
  | 3 => ⟨S100000x1, .i32⟩
  | 4 => ⟨S100000x2, .i32⟩
  | 5 => ⟨S100000x3, .f32⟩
  | 6 => ⟨S_, .i32⟩
  | 7 => ⟨S100000, .i32⟩
  | 8 => ⟨S100000, .i1⟩
  | 9 => ⟨S_, .i32⟩
  | 10 => ⟨S100000, .i32⟩
  | 11 => ⟨S100000, .i32⟩
  | 12 => ⟨S100000, .i32⟩
  | 13 => ⟨S100000x1, .i32⟩
  | 14 => ⟨S_, .i32⟩
  | 15 => ⟨S100000x1, .i32⟩
  | 16 => ⟨S100000x2, .i32⟩
  | 17 => ⟨S100000x3, .f32⟩
  | 18 => ⟨S100000x3, .f32⟩
  | 19 => ⟨S100000x3, .f32⟩
  | 20 => ⟨S_, .f32⟩
  | 21 => ⟨S100000, .f32⟩
  | 22 => ⟨S100000x1, .f32⟩
  | 23 => ⟨S100000x1, .f32⟩
  | 24 => ⟨S100000x1, .f32⟩
  | 25 => ⟨S_, .i32⟩
  | 26 => ⟨S100000, .i32⟩
  | 27 => ⟨S100000, .i1⟩
  | 28 => ⟨S_, .i32⟩
  | 29 => ⟨S100000, .i32⟩
  | 30 => ⟨S100000, .i32⟩
  | 31 => ⟨S100000, .i32⟩
  | 32 => ⟨S100000x1, .i32⟩
  | 33 => ⟨S_, .i32⟩
  | 34 => ⟨S100000x1, .i32⟩
  | 35 => ⟨S100000x2, .i32⟩
  | 36 => ⟨S100000x3, .f32⟩
  | 37 => ⟨S_, .f32⟩
  | 38 => ⟨S100000x3, .f32⟩
  | 39 => ⟨S100000x3, .f32⟩
  | 40 => ⟨S_, .i32⟩
  | 41 => ⟨S100000, .i32⟩
  | 42 => ⟨S100000, .i1⟩
  | 43 => ⟨S_, .i32⟩
  | 44 => ⟨S100000, .i32⟩
  | 45 => ⟨S100000, .i32⟩
  | 46 => ⟨S100000, .i32⟩
  | 47 => ⟨S100000x1, .i32⟩
  | 48 => ⟨S_, .i32⟩
  | 49 => ⟨S100000x1, .i32⟩
  | 50 => ⟨S100000x2, .i32⟩
  | 51 => ⟨S100000x3, .f32⟩
  | 52 => ⟨S_, .f32⟩
  | 53 => ⟨S100000x3, .f32⟩
  | 54 => ⟨S100000x3, .f32⟩
  | 55 => ⟨S100000x3, .f32⟩
  | 56 => ⟨S100000x3, .f32⟩
  | 57 => ⟨S_, .i32⟩
  | 58 => ⟨S100000, .i32⟩
  | 59 => ⟨S100000, .i1⟩
  | 60 => ⟨S_, .i32⟩
  | 61 => ⟨S100000, .i32⟩
  | 62 => ⟨S100000, .i32⟩
  | 63 => ⟨S100000, .i32⟩
  | 64 => ⟨S100000x1, .i32⟩
  | 65 => ⟨S_, .i32⟩
  | 66 => ⟨S100000x1, .i32⟩
  | 67 => ⟨S100000x2, .i32⟩
  | 68 => ⟨S100000x3, .f32⟩
  | 69 => ⟨S_, .i32⟩
  | 70 => ⟨S100000, .i32⟩
  | 71 => ⟨S100000, .i1⟩
  | 72 => ⟨S_, .i32⟩
  | 73 => ⟨S100000, .i32⟩
  | 74 => ⟨S100000, .i32⟩
  | 75 => ⟨S100000, .i32⟩
  | 76 => ⟨S100000x1, .i32⟩
  | 77 => ⟨S_, .i32⟩
  | 78 => ⟨S100000x1, .i32⟩
  | 79 => ⟨S100000x2, .i32⟩
  | 80 => ⟨S100000x3, .f32⟩
  | 81 => ⟨S100000x3, .f32⟩
  | 82 => ⟨S_, .f32⟩
  | 83 => ⟨S100000, .f32⟩
  | 84 => ⟨S100000x3, .f32⟩
  | 85 => ⟨S_, .f32⟩
  | 86 => ⟨S100000, .f32⟩
  | 87 => ⟨S100000, .f32⟩
  | 88 => ⟨S_, .f32⟩
  | 89 => ⟨S100000, .f32⟩
  | 90 => ⟨S100000, .f32⟩
  | 91 => ⟨S100000x3, .f32⟩
  | 92 => ⟨S_, .f32⟩
  | 93 => ⟨S100000, .f32⟩
  | 94 => ⟨S100000, .f32⟩
  | 95 => ⟨S_, .f32⟩
  | 96 => ⟨S100000, .f32⟩
  | 97 => ⟨S100000, .f32⟩
  | 98 => ⟨S100000, .f32⟩
  | 99 => ⟨S100000, .f32⟩
  | 100 => ⟨S100000x1, .f32⟩
  | 101 => ⟨S100000x8, .f32⟩
  | 102 => ⟨S_, .i32⟩
  | 103 => ⟨S100000, .i32⟩
  | 104 => ⟨S100000, .i1⟩
  | 105 => ⟨S_, .i32⟩
  | 106 => ⟨S100000, .i32⟩
  | 107 => ⟨S100000, .i32⟩
  | 108 => ⟨S100000, .i32⟩
  | 109 => ⟨S100000x1, .i32⟩
  | 110 => ⟨S100000x256, .f32⟩
  | 111 => ⟨S_, .i32⟩
  | 112 => ⟨S100000, .i32⟩
  | 113 => ⟨S100000, .i1⟩
  | 114 => ⟨S_, .i32⟩
  | 115 => ⟨S100000, .i32⟩
  | 116 => ⟨S100000, .i32⟩
  | 117 => ⟨S100000, .i32⟩
  | 118 => ⟨S100000x1, .i32⟩
  | 119 => ⟨S100000x256, .f32⟩
  | 120 => ⟨S100000x520, .f32⟩
  | 121 => ⟨S100000x256, .f32⟩
  | 122 => ⟨S1x256, .f32⟩
  | 123 => ⟨S100000x256, .f32⟩
  | 124 => ⟨S100000x256, .f32⟩
  | 125 => ⟨S_, .f32⟩
  | 126 => ⟨S100000x256, .f32⟩
  | 127 => ⟨S100000x256, .f32⟩
  | _ => ⟨S20000x512, .f32⟩

abbrev hbmTy0_3 (i : Nat) : BufTy := match i % 128 with
  | 0 => ⟨S100000x26, .f32⟩
  | 1 => ⟨S1x26, .f32⟩
  | 2 => ⟨S100000x26, .f32⟩
  | 3 => ⟨S100000x26, .f32⟩
  | _ => ⟨S20000x512, .f32⟩

abbrev hbmTy (i : Nat) : BufTy := match i / 128 with
  | 0 => hbmTy0_0 i
  | 1 => hbmTy0_1 i
  | 2 => hbmTy0_2 i
  | 3 => hbmTy0_3 i
  | _ => ⟨S20000x512, .f32⟩

abbrev bufTy : (tb : Table) → Fin (tcTables nBuf tb) → BufTy
  | .hbm, ⟨i, _⟩ => hbmTy i
  | _, _ => ⟨S20000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_v0 : Ref sig .tc := ⟨.hbm, 24, rfl⟩
abbrev main_v1 : Ref sig .tc := ⟨.hbm, 25, rfl⟩
abbrev main_v2 : Ref sig .tc := ⟨.hbm, 26, rfl⟩
abbrev main_v3 : Ref sig .tc := ⟨.hbm, 27, rfl⟩
abbrev main_call0_cst : Ref sig .tc := ⟨.hbm, 28, rfl⟩
abbrev main_call0_v0 : Ref sig .tc := ⟨.hbm, 29, rfl⟩
abbrev main_v4 : Ref sig .tc := ⟨.hbm, 30, rfl⟩
abbrev main_v5 : Ref sig .tc := ⟨.hbm, 31, rfl⟩
abbrev main_v6 : Ref sig .tc := ⟨.hbm, 32, rfl⟩
abbrev main_v7 : Ref sig .tc := ⟨.hbm, 33, rfl⟩
abbrev main_v8 : Ref sig .tc := ⟨.hbm, 34, rfl⟩
abbrev main_call1_cst : Ref sig .tc := ⟨.hbm, 35, rfl⟩
abbrev main_call1_v0 : Ref sig .tc := ⟨.hbm, 36, rfl⟩
abbrev main_v9 : Ref sig .tc := ⟨.hbm, 37, rfl⟩
abbrev main_v10 : Ref sig .tc := ⟨.hbm, 38, rfl⟩
abbrev main_v11 : Ref sig .tc := ⟨.hbm, 39, rfl⟩
abbrev main_v12 : Ref sig .tc := ⟨.hbm, 40, rfl⟩
abbrev main_v13 : Ref sig .tc := ⟨.hbm, 41, rfl⟩
abbrev main_v14 : Ref sig .tc := ⟨.hbm, 42, rfl⟩
abbrev main_call2_cst : Ref sig .tc := ⟨.hbm, 43, rfl⟩
abbrev main_call2_v0 : Ref sig .tc := ⟨.hbm, 44, rfl⟩
abbrev main_v15 : Ref sig .tc := ⟨.hbm, 45, rfl⟩
abbrev main_v16 : Ref sig .tc := ⟨.hbm, 46, rfl⟩
abbrev main_v17 : Ref sig .tc := ⟨.hbm, 47, rfl⟩
abbrev main_v18 : Ref sig .tc := ⟨.hbm, 48, rfl⟩
abbrev main_v19 : Ref sig .tc := ⟨.hbm, 49, rfl⟩
abbrev main_call3_cst : Ref sig .tc := ⟨.hbm, 50, rfl⟩
abbrev main_call3_v0 : Ref sig .tc := ⟨.hbm, 51, rfl⟩
abbrev main_v20 : Ref sig .tc := ⟨.hbm, 52, rfl⟩
abbrev main_v21 : Ref sig .tc := ⟨.hbm, 53, rfl⟩
abbrev main_v22 : Ref sig .tc := ⟨.hbm, 54, rfl⟩
abbrev main_v23 : Ref sig .tc := ⟨.hbm, 55, rfl⟩
abbrev main_v24 : Ref sig .tc := ⟨.hbm, 56, rfl⟩
abbrev main_c : Ref sig .tc := ⟨.hbm, 57, rfl⟩
abbrev main_v25 : Ref sig .tc := ⟨.hbm, 58, rfl⟩
abbrev main_v26 : Ref sig .tc := ⟨.hbm, 59, rfl⟩
abbrev main_c_0 : Ref sig .tc := ⟨.hbm, 60, rfl⟩
abbrev main_v27 : Ref sig .tc := ⟨.hbm, 61, rfl⟩
abbrev main_v28 : Ref sig .tc := ⟨.hbm, 62, rfl⟩
abbrev main_v29 : Ref sig .tc := ⟨.hbm, 63, rfl⟩
abbrev main_v30 : Ref sig .tc := ⟨.hbm, 64, rfl⟩
abbrev main_v31 : Ref sig .tc := ⟨.hbm, 65, rfl⟩
abbrev main_c_1 : Ref sig .tc := ⟨.hbm, 66, rfl⟩
abbrev main_v32 : Ref sig .tc := ⟨.hbm, 67, rfl⟩
abbrev main_v33 : Ref sig .tc := ⟨.hbm, 68, rfl⟩
abbrev main_c_2 : Ref sig .tc := ⟨.hbm, 69, rfl⟩
abbrev main_v34 : Ref sig .tc := ⟨.hbm, 70, rfl⟩
abbrev main_v35 : Ref sig .tc := ⟨.hbm, 71, rfl⟩
abbrev main_v36 : Ref sig .tc := ⟨.hbm, 72, rfl⟩
abbrev main_v37 : Ref sig .tc := ⟨.hbm, 73, rfl⟩
abbrev main_v38 : Ref sig .tc := ⟨.hbm, 74, rfl⟩
abbrev main_v39 : Ref sig .tc := ⟨.hbm, 75, rfl⟩
abbrev main_v40 : Ref sig .tc := ⟨.hbm, 76, rfl⟩
abbrev main_v41 : Ref sig .tc := ⟨.hbm, 77, rfl⟩
abbrev main_v42 : Ref sig .tc := ⟨.hbm, 78, rfl⟩
abbrev main_v43 : Ref sig .tc := ⟨.hbm, 79, rfl⟩
abbrev main_v44 : Ref sig .tc := ⟨.hbm, 80, rfl⟩
abbrev main_v45 : Ref sig .tc := ⟨.hbm, 81, rfl⟩
abbrev main_v46 : Ref sig .tc := ⟨.hbm, 82, rfl⟩
abbrev main_v47 : Ref sig .tc := ⟨.hbm, 83, rfl⟩
abbrev main_call4_cst : Ref sig .tc := ⟨.hbm, 84, rfl⟩
abbrev main_call4_v0 : Ref sig .tc := ⟨.hbm, 85, rfl⟩
abbrev main_v48 : Ref sig .tc := ⟨.hbm, 86, rfl⟩
abbrev main_v49 : Ref sig .tc := ⟨.hbm, 87, rfl⟩
abbrev main_v50 : Ref sig .tc := ⟨.hbm, 88, rfl⟩
abbrev main_v51 : Ref sig .tc := ⟨.hbm, 89, rfl⟩
abbrev main_v52 : Ref sig .tc := ⟨.hbm, 90, rfl⟩
abbrev main_v53 : Ref sig .tc := ⟨.hbm, 91, rfl⟩
abbrev main_v54 : Ref sig .tc := ⟨.hbm, 92, rfl⟩
abbrev main_v55 : Ref sig .tc := ⟨.hbm, 93, rfl⟩
abbrev main_v56 : Ref sig .tc := ⟨.hbm, 94, rfl⟩
abbrev main_cst : Ref sig .tc := ⟨.hbm, 95, rfl⟩
abbrev main_v57 : Ref sig .tc := ⟨.hbm, 96, rfl⟩
abbrev main_v58 : Ref sig .tc := ⟨.hbm, 97, rfl⟩
abbrev main_v59 : Ref sig .tc := ⟨.hbm, 98, rfl⟩
abbrev main_v60 : Ref sig .tc := ⟨.hbm, 99, rfl⟩
abbrev main_v61 : Ref sig .tc := ⟨.hbm, 100, rfl⟩
abbrev main_v62 : Ref sig .tc := ⟨.hbm, 101, rfl⟩
abbrev main_v63 : Ref sig .tc := ⟨.hbm, 102, rfl⟩
abbrev main_v64 : Ref sig .tc := ⟨.hbm, 103, rfl⟩
abbrev main_v65 : Ref sig .tc := ⟨.hbm, 104, rfl⟩
abbrev main_v66 : Ref sig .tc := ⟨.hbm, 105, rfl⟩
abbrev main_v67 : Ref sig .tc := ⟨.hbm, 106, rfl⟩
abbrev main_v68 : Ref sig .tc := ⟨.hbm, 107, rfl⟩
abbrev main_call5_cst : Ref sig .tc := ⟨.hbm, 108, rfl⟩
abbrev main_call5_v0 : Ref sig .tc := ⟨.hbm, 109, rfl⟩
abbrev main_v69 : Ref sig .tc := ⟨.hbm, 110, rfl⟩
abbrev main_v70 : Ref sig .tc := ⟨.hbm, 111, rfl⟩
abbrev main_v71 : Ref sig .tc := ⟨.hbm, 112, rfl⟩
abbrev main_v72 : Ref sig .tc := ⟨.hbm, 113, rfl⟩
abbrev main_v73 : Ref sig .tc := ⟨.hbm, 114, rfl⟩
abbrev main_v74 : Ref sig .tc := ⟨.hbm, 115, rfl⟩
abbrev main_v75 : Ref sig .tc := ⟨.hbm, 116, rfl⟩
abbrev main_v76 : Ref sig .tc := ⟨.hbm, 117, rfl⟩
abbrev main_v77 : Ref sig .tc := ⟨.hbm, 118, rfl⟩
abbrev main_v78 : Ref sig .tc := ⟨.hbm, 119, rfl⟩
abbrev main_c_3 : Ref sig .tc := ⟨.hbm, 120, rfl⟩
abbrev main_v79 : Ref sig .tc := ⟨.hbm, 121, rfl⟩
abbrev main_v80 : Ref sig .tc := ⟨.hbm, 122, rfl⟩
abbrev main_c_4 : Ref sig .tc := ⟨.hbm, 123, rfl⟩
abbrev main_v81 : Ref sig .tc := ⟨.hbm, 124, rfl⟩
abbrev main_v82 : Ref sig .tc := ⟨.hbm, 125, rfl⟩
abbrev main_v83 : Ref sig .tc := ⟨.hbm, 126, rfl⟩
abbrev main_v84 : Ref sig .tc := ⟨.hbm, 127, rfl⟩
abbrev main_v85 : Ref sig .tc := ⟨.hbm, 128, rfl⟩
abbrev main_c_5 : Ref sig .tc := ⟨.hbm, 129, rfl⟩
abbrev main_v86 : Ref sig .tc := ⟨.hbm, 130, rfl⟩
abbrev main_v87 : Ref sig .tc := ⟨.hbm, 131, rfl⟩
abbrev main_c_6 : Ref sig .tc := ⟨.hbm, 132, rfl⟩
abbrev main_v88 : Ref sig .tc := ⟨.hbm, 133, rfl⟩
abbrev main_v89 : Ref sig .tc := ⟨.hbm, 134, rfl⟩
abbrev main_v90 : Ref sig .tc := ⟨.hbm, 135, rfl⟩
abbrev main_v91 : Ref sig .tc := ⟨.hbm, 136, rfl⟩
abbrev main_v92 : Ref sig .tc := ⟨.hbm, 137, rfl⟩
abbrev main_v93 : Ref sig .tc := ⟨.hbm, 138, rfl⟩
abbrev main_v94 : Ref sig .tc := ⟨.hbm, 139, rfl⟩
abbrev main_v95 : Ref sig .tc := ⟨.hbm, 140, rfl⟩
abbrev main_v96 : Ref sig .tc := ⟨.hbm, 141, rfl⟩
abbrev main_v97 : Ref sig .tc := ⟨.hbm, 142, rfl⟩
abbrev main_v98 : Ref sig .tc := ⟨.hbm, 143, rfl⟩
abbrev main_v99 : Ref sig .tc := ⟨.hbm, 144, rfl⟩
abbrev main_v100 : Ref sig .tc := ⟨.hbm, 145, rfl⟩
abbrev main_v101 : Ref sig .tc := ⟨.hbm, 146, rfl⟩
abbrev main_call6_cst : Ref sig .tc := ⟨.hbm, 147, rfl⟩
abbrev main_call6_v0 : Ref sig .tc := ⟨.hbm, 148, rfl⟩
abbrev main_v102 : Ref sig .tc := ⟨.hbm, 149, rfl⟩
abbrev main_v103 : Ref sig .tc := ⟨.hbm, 150, rfl⟩
abbrev main_v104 : Ref sig .tc := ⟨.hbm, 151, rfl⟩
abbrev main_v105 : Ref sig .tc := ⟨.hbm, 152, rfl⟩
abbrev main_v106 : Ref sig .tc := ⟨.hbm, 153, rfl⟩
abbrev main_v107 : Ref sig .tc := ⟨.hbm, 154, rfl⟩
abbrev main_v108 : Ref sig .tc := ⟨.hbm, 155, rfl⟩
abbrev main_v109 : Ref sig .tc := ⟨.hbm, 156, rfl⟩
abbrev main_v110 : Ref sig .tc := ⟨.hbm, 157, rfl⟩
abbrev main_cst_7 : Ref sig .tc := ⟨.hbm, 158, rfl⟩
abbrev main_v111 : Ref sig .tc := ⟨.hbm, 159, rfl⟩
abbrev main_v112 : Ref sig .tc := ⟨.hbm, 160, rfl⟩
abbrev main_v113 : Ref sig .tc := ⟨.hbm, 161, rfl⟩
abbrev main_v114 : Ref sig .tc := ⟨.hbm, 162, rfl⟩
abbrev main_v115 : Ref sig .tc := ⟨.hbm, 163, rfl⟩
abbrev main_v116 : Ref sig .tc := ⟨.hbm, 164, rfl⟩
abbrev main_v117 : Ref sig .tc := ⟨.hbm, 165, rfl⟩
abbrev main_v118 : Ref sig .tc := ⟨.hbm, 166, rfl⟩
abbrev main_v119 : Ref sig .tc := ⟨.hbm, 167, rfl⟩
abbrev main_v120 : Ref sig .tc := ⟨.hbm, 168, rfl⟩
abbrev main_v121 : Ref sig .tc := ⟨.hbm, 169, rfl⟩
abbrev main_v122 : Ref sig .tc := ⟨.hbm, 170, rfl⟩
abbrev main_call7_cst : Ref sig .tc := ⟨.hbm, 171, rfl⟩
abbrev main_call7_v0 : Ref sig .tc := ⟨.hbm, 172, rfl⟩
abbrev main_v123 : Ref sig .tc := ⟨.hbm, 173, rfl⟩
abbrev main_v124 : Ref sig .tc := ⟨.hbm, 174, rfl⟩
abbrev main_v125 : Ref sig .tc := ⟨.hbm, 175, rfl⟩
abbrev main_v126 : Ref sig .tc := ⟨.hbm, 176, rfl⟩
abbrev main_v127 : Ref sig .tc := ⟨.hbm, 177, rfl⟩
abbrev main_v128 : Ref sig .tc := ⟨.hbm, 178, rfl⟩
abbrev main_v129 : Ref sig .tc := ⟨.hbm, 179, rfl⟩
abbrev main_v130 : Ref sig .tc := ⟨.hbm, 180, rfl⟩
abbrev main_v131 : Ref sig .tc := ⟨.hbm, 181, rfl⟩
abbrev main_v132 : Ref sig .tc := ⟨.hbm, 182, rfl⟩
abbrev main_c_8 : Ref sig .tc := ⟨.hbm, 183, rfl⟩
abbrev main_v133 : Ref sig .tc := ⟨.hbm, 184, rfl⟩
abbrev main_v134 : Ref sig .tc := ⟨.hbm, 185, rfl⟩
abbrev main_c_9 : Ref sig .tc := ⟨.hbm, 186, rfl⟩
abbrev main_v135 : Ref sig .tc := ⟨.hbm, 187, rfl⟩
abbrev main_v136 : Ref sig .tc := ⟨.hbm, 188, rfl⟩
abbrev main_v137 : Ref sig .tc := ⟨.hbm, 189, rfl⟩
abbrev main_v138 : Ref sig .tc := ⟨.hbm, 190, rfl⟩
abbrev main_v139 : Ref sig .tc := ⟨.hbm, 191, rfl⟩
abbrev main_c_10 : Ref sig .tc := ⟨.hbm, 192, rfl⟩
abbrev main_v140 : Ref sig .tc := ⟨.hbm, 193, rfl⟩
abbrev main_v141 : Ref sig .tc := ⟨.hbm, 194, rfl⟩
abbrev main_c_11 : Ref sig .tc := ⟨.hbm, 195, rfl⟩
abbrev main_v142 : Ref sig .tc := ⟨.hbm, 196, rfl⟩
abbrev main_v143 : Ref sig .tc := ⟨.hbm, 197, rfl⟩
abbrev main_v144 : Ref sig .tc := ⟨.hbm, 198, rfl⟩
abbrev main_v145 : Ref sig .tc := ⟨.hbm, 199, rfl⟩
abbrev main_v146 : Ref sig .tc := ⟨.hbm, 200, rfl⟩
abbrev main_v147 : Ref sig .tc := ⟨.hbm, 201, rfl⟩
abbrev main_v148 : Ref sig .tc := ⟨.hbm, 202, rfl⟩
abbrev main_v149 : Ref sig .tc := ⟨.hbm, 203, rfl⟩
abbrev main_v150 : Ref sig .tc := ⟨.hbm, 204, rfl⟩
abbrev main_v151 : Ref sig .tc := ⟨.hbm, 205, rfl⟩
abbrev main_v152 : Ref sig .tc := ⟨.hbm, 206, rfl⟩
abbrev main_v153 : Ref sig .tc := ⟨.hbm, 207, rfl⟩
abbrev main_v154 : Ref sig .tc := ⟨.hbm, 208, rfl⟩
abbrev main_v155 : Ref sig .tc := ⟨.hbm, 209, rfl⟩
abbrev main_call8_cst : Ref sig .tc := ⟨.hbm, 210, rfl⟩
abbrev main_call8_v0 : Ref sig .tc := ⟨.hbm, 211, rfl⟩
abbrev main_v156 : Ref sig .tc := ⟨.hbm, 212, rfl⟩
abbrev main_v157 : Ref sig .tc := ⟨.hbm, 213, rfl⟩
abbrev main_v158 : Ref sig .tc := ⟨.hbm, 214, rfl⟩
abbrev main_v159 : Ref sig .tc := ⟨.hbm, 215, rfl⟩
abbrev main_v160 : Ref sig .tc := ⟨.hbm, 216, rfl⟩
abbrev main_v161 : Ref sig .tc := ⟨.hbm, 217, rfl⟩
abbrev main_v162 : Ref sig .tc := ⟨.hbm, 218, rfl⟩
abbrev main_v163 : Ref sig .tc := ⟨.hbm, 219, rfl⟩
abbrev main_v164 : Ref sig .tc := ⟨.hbm, 220, rfl⟩
abbrev main_cst_12 : Ref sig .tc := ⟨.hbm, 221, rfl⟩
abbrev main_v165 : Ref sig .tc := ⟨.hbm, 222, rfl⟩
abbrev main_v166 : Ref sig .tc := ⟨.hbm, 223, rfl⟩
abbrev main_v167 : Ref sig .tc := ⟨.hbm, 224, rfl⟩
abbrev main_v168 : Ref sig .tc := ⟨.hbm, 225, rfl⟩
abbrev main_v169 : Ref sig .tc := ⟨.hbm, 226, rfl⟩
abbrev main_v170 : Ref sig .tc := ⟨.hbm, 227, rfl⟩
abbrev main_v171 : Ref sig .tc := ⟨.hbm, 228, rfl⟩
abbrev main_v172 : Ref sig .tc := ⟨.hbm, 229, rfl⟩
abbrev main_v173 : Ref sig .tc := ⟨.hbm, 230, rfl⟩
abbrev main_v174 : Ref sig .tc := ⟨.hbm, 231, rfl⟩
abbrev main_v175 : Ref sig .tc := ⟨.hbm, 232, rfl⟩
abbrev main_v176 : Ref sig .tc := ⟨.hbm, 233, rfl⟩
abbrev main_call9_cst : Ref sig .tc := ⟨.hbm, 234, rfl⟩
abbrev main_call9_v0 : Ref sig .tc := ⟨.hbm, 235, rfl⟩
abbrev main_v177 : Ref sig .tc := ⟨.hbm, 236, rfl⟩
abbrev main_v178 : Ref sig .tc := ⟨.hbm, 237, rfl⟩
abbrev main_v179 : Ref sig .tc := ⟨.hbm, 238, rfl⟩
abbrev main_v180 : Ref sig .tc := ⟨.hbm, 239, rfl⟩
abbrev main_v181 : Ref sig .tc := ⟨.hbm, 240, rfl⟩
abbrev main_v182 : Ref sig .tc := ⟨.hbm, 241, rfl⟩
abbrev main_v183 : Ref sig .tc := ⟨.hbm, 242, rfl⟩
abbrev main_v184 : Ref sig .tc := ⟨.hbm, 243, rfl⟩
abbrev main_v185 : Ref sig .tc := ⟨.hbm, 244, rfl⟩
abbrev main_v186 : Ref sig .tc := ⟨.hbm, 245, rfl⟩
abbrev main_v187 : Ref sig .tc := ⟨.hbm, 246, rfl⟩
abbrev main_v188 : Ref sig .tc := ⟨.hbm, 247, rfl⟩
abbrev main_v189 : Ref sig .tc := ⟨.hbm, 248, rfl⟩
abbrev main_v190 : Ref sig .tc := ⟨.hbm, 249, rfl⟩
abbrev main_c_13 : Ref sig .tc := ⟨.hbm, 250, rfl⟩
abbrev main_v191 : Ref sig .tc := ⟨.hbm, 251, rfl⟩
abbrev main_v192 : Ref sig .tc := ⟨.hbm, 252, rfl⟩
abbrev main_c_14 : Ref sig .tc := ⟨.hbm, 253, rfl⟩
abbrev main_v193 : Ref sig .tc := ⟨.hbm, 254, rfl⟩
abbrev main_v194 : Ref sig .tc := ⟨.hbm, 255, rfl⟩
abbrev main_v195 : Ref sig .tc := ⟨.hbm, 256, rfl⟩
abbrev main_v196 : Ref sig .tc := ⟨.hbm, 257, rfl⟩
abbrev main_c_15 : Ref sig .tc := ⟨.hbm, 258, rfl⟩
abbrev main_v197 : Ref sig .tc := ⟨.hbm, 259, rfl⟩
abbrev main_v198 : Ref sig .tc := ⟨.hbm, 260, rfl⟩
abbrev main_v199 : Ref sig .tc := ⟨.hbm, 261, rfl⟩
abbrev main_c_16 : Ref sig .tc := ⟨.hbm, 262, rfl⟩
abbrev main_v200 : Ref sig .tc := ⟨.hbm, 263, rfl⟩
abbrev main_v201 : Ref sig .tc := ⟨.hbm, 264, rfl⟩
abbrev main_c_17 : Ref sig .tc := ⟨.hbm, 265, rfl⟩
abbrev main_v202 : Ref sig .tc := ⟨.hbm, 266, rfl⟩
abbrev main_v203 : Ref sig .tc := ⟨.hbm, 267, rfl⟩
abbrev main_v204 : Ref sig .tc := ⟨.hbm, 268, rfl⟩
abbrev main_v205 : Ref sig .tc := ⟨.hbm, 269, rfl⟩
abbrev main_c_18 : Ref sig .tc := ⟨.hbm, 270, rfl⟩
abbrev main_v206 : Ref sig .tc := ⟨.hbm, 271, rfl⟩
abbrev main_v207 : Ref sig .tc := ⟨.hbm, 272, rfl⟩
abbrev main_v208 : Ref sig .tc := ⟨.hbm, 273, rfl⟩
abbrev main_v209 : Ref sig .tc := ⟨.hbm, 274, rfl⟩
abbrev main_call10_v0 : Ref sig .tc := ⟨.hbm, 275, rfl⟩
abbrev main_call10_cst : Ref sig .tc := ⟨.hbm, 276, rfl⟩
abbrev main_call10_v1 : Ref sig .tc := ⟨.hbm, 277, rfl⟩
abbrev main_call10_v2 : Ref sig .tc := ⟨.hbm, 278, rfl⟩
abbrev main_v210 : Ref sig .tc := ⟨.hbm, 279, rfl⟩
abbrev main_v211 : Ref sig .tc := ⟨.hbm, 280, rfl⟩
abbrev main_c_19 : Ref sig .tc := ⟨.hbm, 281, rfl⟩
abbrev main_v212 : Ref sig .tc := ⟨.hbm, 282, rfl⟩
abbrev main_v213 : Ref sig .tc := ⟨.hbm, 283, rfl⟩
abbrev main_c_20 : Ref sig .tc := ⟨.hbm, 284, rfl⟩
abbrev main_v214 : Ref sig .tc := ⟨.hbm, 285, rfl⟩
abbrev main_v215 : Ref sig .tc := ⟨.hbm, 286, rfl⟩
abbrev main_v216 : Ref sig .tc := ⟨.hbm, 287, rfl⟩
abbrev main_v217 : Ref sig .tc := ⟨.hbm, 288, rfl⟩
abbrev main_c_21 : Ref sig .tc := ⟨.hbm, 289, rfl⟩
abbrev main_v218 : Ref sig .tc := ⟨.hbm, 290, rfl⟩
abbrev main_v219 : Ref sig .tc := ⟨.hbm, 291, rfl⟩
abbrev main_v220 : Ref sig .tc := ⟨.hbm, 292, rfl⟩
abbrev main_cst_22 : Ref sig .tc := ⟨.hbm, 293, rfl⟩
abbrev main_v221 : Ref sig .tc := ⟨.hbm, 294, rfl⟩
abbrev main_v222 : Ref sig .tc := ⟨.hbm, 295, rfl⟩
abbrev main_c_23 : Ref sig .tc := ⟨.hbm, 296, rfl⟩
abbrev main_v223 : Ref sig .tc := ⟨.hbm, 297, rfl⟩
abbrev main_v224 : Ref sig .tc := ⟨.hbm, 298, rfl⟩
abbrev main_c_24 : Ref sig .tc := ⟨.hbm, 299, rfl⟩
abbrev main_v225 : Ref sig .tc := ⟨.hbm, 300, rfl⟩
abbrev main_v226 : Ref sig .tc := ⟨.hbm, 301, rfl⟩
abbrev main_v227 : Ref sig .tc := ⟨.hbm, 302, rfl⟩
abbrev main_v228 : Ref sig .tc := ⟨.hbm, 303, rfl⟩
abbrev main_c_25 : Ref sig .tc := ⟨.hbm, 304, rfl⟩
abbrev main_v229 : Ref sig .tc := ⟨.hbm, 305, rfl⟩
abbrev main_v230 : Ref sig .tc := ⟨.hbm, 306, rfl⟩
abbrev main_v231 : Ref sig .tc := ⟨.hbm, 307, rfl⟩
abbrev main_cst_26 : Ref sig .tc := ⟨.hbm, 308, rfl⟩
abbrev main_v232 : Ref sig .tc := ⟨.hbm, 309, rfl⟩
abbrev main_v233 : Ref sig .tc := ⟨.hbm, 310, rfl⟩
abbrev main_v234 : Ref sig .tc := ⟨.hbm, 311, rfl⟩
abbrev main_v235 : Ref sig .tc := ⟨.hbm, 312, rfl⟩
abbrev main_c_27 : Ref sig .tc := ⟨.hbm, 313, rfl⟩
abbrev main_v236 : Ref sig .tc := ⟨.hbm, 314, rfl⟩
abbrev main_v237 : Ref sig .tc := ⟨.hbm, 315, rfl⟩
abbrev main_c_28 : Ref sig .tc := ⟨.hbm, 316, rfl⟩
abbrev main_v238 : Ref sig .tc := ⟨.hbm, 317, rfl⟩
abbrev main_v239 : Ref sig .tc := ⟨.hbm, 318, rfl⟩
abbrev main_v240 : Ref sig .tc := ⟨.hbm, 319, rfl⟩
abbrev main_v241 : Ref sig .tc := ⟨.hbm, 320, rfl⟩
abbrev main_c_29 : Ref sig .tc := ⟨.hbm, 321, rfl⟩
abbrev main_v242 : Ref sig .tc := ⟨.hbm, 322, rfl⟩
abbrev main_v243 : Ref sig .tc := ⟨.hbm, 323, rfl⟩
abbrev main_v244 : Ref sig .tc := ⟨.hbm, 324, rfl⟩
abbrev main_c_30 : Ref sig .tc := ⟨.hbm, 325, rfl⟩
abbrev main_v245 : Ref sig .tc := ⟨.hbm, 326, rfl⟩
abbrev main_v246 : Ref sig .tc := ⟨.hbm, 327, rfl⟩
abbrev main_c_31 : Ref sig .tc := ⟨.hbm, 328, rfl⟩
abbrev main_v247 : Ref sig .tc := ⟨.hbm, 329, rfl⟩
abbrev main_v248 : Ref sig .tc := ⟨.hbm, 330, rfl⟩
abbrev main_v249 : Ref sig .tc := ⟨.hbm, 331, rfl⟩
abbrev main_v250 : Ref sig .tc := ⟨.hbm, 332, rfl⟩
abbrev main_c_32 : Ref sig .tc := ⟨.hbm, 333, rfl⟩
abbrev main_v251 : Ref sig .tc := ⟨.hbm, 334, rfl⟩
abbrev main_v252 : Ref sig .tc := ⟨.hbm, 335, rfl⟩
abbrev main_v253 : Ref sig .tc := ⟨.hbm, 336, rfl⟩
abbrev main_v254 : Ref sig .tc := ⟨.hbm, 337, rfl⟩
abbrev main_cst_33 : Ref sig .tc := ⟨.hbm, 338, rfl⟩
abbrev main_v255 : Ref sig .tc := ⟨.hbm, 339, rfl⟩
abbrev main_call11_v0 : Ref sig .tc := ⟨.hbm, 340, rfl⟩
abbrev main_call11_cst : Ref sig .tc := ⟨.hbm, 341, rfl⟩
abbrev main_call11_v1 : Ref sig .tc := ⟨.hbm, 342, rfl⟩
abbrev main_v256 : Ref sig .tc := ⟨.hbm, 343, rfl⟩
abbrev main_cst_34 : Ref sig .tc := ⟨.hbm, 344, rfl⟩
abbrev main_v257 : Ref sig .tc := ⟨.hbm, 345, rfl⟩
abbrev main_v258 : Ref sig .tc := ⟨.hbm, 346, rfl⟩
abbrev main_call12_v0 : Ref sig .tc := ⟨.hbm, 347, rfl⟩
abbrev main_call12_cst : Ref sig .tc := ⟨.hbm, 348, rfl⟩
abbrev main_call12_v1 : Ref sig .tc := ⟨.hbm, 349, rfl⟩
abbrev main_v259 : Ref sig .tc := ⟨.hbm, 350, rfl⟩
abbrev main_cst_35 : Ref sig .tc := ⟨.hbm, 351, rfl⟩
abbrev main_v260 : Ref sig .tc := ⟨.hbm, 352, rfl⟩
abbrev main_v261 : Ref sig .tc := ⟨.hbm, 353, rfl⟩
abbrev main_v262 : Ref sig .tc := ⟨.hbm, 354, rfl⟩
abbrev main_v263 : Ref sig .tc := ⟨.hbm, 355, rfl⟩
abbrev main_v264 : Ref sig .tc := ⟨.hbm, 356, rfl⟩
abbrev main_v265 : Ref sig .tc := ⟨.hbm, 357, rfl⟩
abbrev main_c_36 : Ref sig .tc := ⟨.hbm, 358, rfl⟩
abbrev main_v266 : Ref sig .tc := ⟨.hbm, 359, rfl⟩
abbrev main_v267 : Ref sig .tc := ⟨.hbm, 360, rfl⟩
abbrev main_c_37 : Ref sig .tc := ⟨.hbm, 361, rfl⟩
abbrev main_v268 : Ref sig .tc := ⟨.hbm, 362, rfl⟩
abbrev main_v269 : Ref sig .tc := ⟨.hbm, 363, rfl⟩
abbrev main_v270 : Ref sig .tc := ⟨.hbm, 364, rfl⟩
abbrev main_v271 : Ref sig .tc := ⟨.hbm, 365, rfl⟩
abbrev main_v272 : Ref sig .tc := ⟨.hbm, 366, rfl⟩
abbrev main_c_38 : Ref sig .tc := ⟨.hbm, 367, rfl⟩
abbrev main_v273 : Ref sig .tc := ⟨.hbm, 368, rfl⟩
abbrev main_v274 : Ref sig .tc := ⟨.hbm, 369, rfl⟩
abbrev main_c_39 : Ref sig .tc := ⟨.hbm, 370, rfl⟩
abbrev main_v275 : Ref sig .tc := ⟨.hbm, 371, rfl⟩
abbrev main_v276 : Ref sig .tc := ⟨.hbm, 372, rfl⟩
abbrev main_v277 : Ref sig .tc := ⟨.hbm, 373, rfl⟩
abbrev main_v278 : Ref sig .tc := ⟨.hbm, 374, rfl⟩
abbrev main_v279 : Ref sig .tc := ⟨.hbm, 375, rfl⟩
abbrev main_v280 : Ref sig .tc := ⟨.hbm, 376, rfl⟩
abbrev main_v281 : Ref sig .tc := ⟨.hbm, 377, rfl⟩
abbrev main_v282 : Ref sig .tc := ⟨.hbm, 378, rfl⟩
abbrev main_v283 : Ref sig .tc := ⟨.hbm, 379, rfl⟩
abbrev main_v284 : Ref sig .tc := ⟨.hbm, 380, rfl⟩
abbrev main_call13_cst : Ref sig .tc := ⟨.hbm, 381, rfl⟩
abbrev main_call13_v0 : Ref sig .tc := ⟨.hbm, 382, rfl⟩
abbrev main_v285 : Ref sig .tc := ⟨.hbm, 383, rfl⟩
abbrev main_v286 : Ref sig .tc := ⟨.hbm, 384, rfl⟩
abbrev main_v287 : Ref sig .tc := ⟨.hbm, 385, rfl⟩
abbrev main_v288 : Ref sig .tc := ⟨.hbm, 386, rfl⟩
abbrev main_v289 : Ref sig .tc := ⟨.hbm, 387, rfl⟩

abbrev nD : Nat := 1
abbrev τ : Topo := Topo.v7x

variable {F : FTy → Type} [FloatOps F]

class Facts₀ : Prop where
  bcast_S512_S1x512_1 : S512.BroadcastsInDim S1x512 (![1] : Fin 1 → Fin S1x512.rank)
  bcast_S1x512_S20000x512_0_1 : S1x512.BroadcastsInDim S20000x512 (![0, 1] : Fin 2 → Fin S20000x512.rank)
  bcast_S_S20000x512 : S_.BroadcastsInDim S20000x512 (![] : Fin 0 → Fin S20000x512.rank)
  bcast_S256_S1x256_1 : S256.BroadcastsInDim S1x256 (![1] : Fin 1 → Fin S1x256.rank)
  bcast_S1x256_S20000x256_0_1 : S1x256.BroadcastsInDim S20000x256 (![0, 1] : Fin 2 → Fin S20000x256.rank)
  bcast_S_S20000x256 : S_.BroadcastsInDim S20000x256 (![] : Fin 0 → Fin S20000x256.rank)
  concatenates_S20000x256_S20000x18_S20000x274_d1 : Shape.Concatenates [S20000x256, S20000x18] S20000x274 1
  slices_S320000x2_S320000x1_0_0 : S320000x2.Slices ![0, 0] S320000x1
  shapeCasts_S320000x1_S320000 : S320000x1.ShapeCasts S320000
  slices_S320000x2_S320000x1_0_1 : S320000x2.Slices ![0, 1] S320000x1
  bcast_S_S320000 : S_.BroadcastsInDim S320000 (![] : Fin 0 → Fin S320000.rank)
  bcast_S320000_S320000x1_0 : S320000.BroadcastsInDim S320000x1 (![0] : Fin 1 → Fin S320000x1.rank)
  concatenates_S320000x256_S320000x256_S320000x512_d1 : Shape.Concatenates [S320000x256, S320000x256] S320000x512 1
  slices_S3x512x256_S1x512x256_0_0_0 : S3x512x256.Slices ![0, 0, 0] S1x512x256
  shapeCasts_S1x512x256_S512x256 : S1x512x256.ShapeCasts S512x256
  slices_S3x256_S1x256_0_0 : S3x256.Slices ![0, 0] S1x256
  shapeCasts_S1x256_S256 : S1x256.ShapeCasts S256
  bcast_S1x256_S320000x256_0_1 : S1x256.BroadcastsInDim S320000x256 (![0, 1] : Fin 2 → Fin S320000x256.rank)
  bcast_S_S320000x256 : S_.BroadcastsInDim S320000x256 (![] : Fin 0 → Fin S320000x256.rank)
  slices_S3x256x256_S1x256x256_0_0_0 : S3x256x256.Slices ![0, 0, 0] S1x256x256
  shapeCasts_S1x256x256_S256x256 : S1x256x256.ShapeCasts S256x256
  concatenates_S20000x256_S20000x256_S20000x512_d1 : Shape.Concatenates [S20000x256, S20000x256] S20000x512 1
  slices_S3x512x256_S1x512x256_1_0_0 : S3x512x256.Slices ![1, 0, 0] S1x512x256
  slices_S3x256_S1x256_1_0 : S3x256.Slices ![1, 0] S1x256
  slices_S3x256x256_S1x256x256_1_0_0 : S3x256x256.Slices ![1, 0, 0] S1x256x256
  slices_S3x512x256_S1x512x256_2_0_0 : S3x512x256.Slices ![2, 0, 0] S1x512x256
  slices_S3x256_S1x256_2_0 : S3x256.Slices ![2, 0] S1x256
  slices_S3x256x256_S1x256x256_2_0_0 : S3x256x256.Slices ![2, 0, 0] S1x256x256
  slices_S100000x2_S100000x1_0_0 : S100000x2.Slices ![0, 0] S100000x1
  shapeCasts_S100000x1_S100000 : S100000x1.ShapeCasts S100000
  slices_S100000x2_S100000x1_0_1 : S100000x2.Slices ![0, 1] S100000x1
  bcast_S_S100000 : S_.BroadcastsInDim S100000 (![] : Fin 0 → Fin S100000.rank)
  bcast_S100000_S100000x1_0 : S100000.BroadcastsInDim S100000x1 (![0] : Fin 1 → Fin S100000x1.rank)
  bcast_S_S100000x1 : S_.BroadcastsInDim S100000x1 (![] : Fin 0 → Fin S100000x1.rank)
  concatenates_S100000x1_S100000x1_S100000x2_d1 : Shape.Concatenates [S100000x1, S100000x1] S100000x2 1
  reducesTo_S100000x3_S100000_d1 : S100000x3.ReducesTo [1] S100000
  h_S_ : 0 < S_.numel
  bcast_S_S100000x3 : S_.BroadcastsInDim S100000x3 (![] : Fin 0 → Fin S100000x3.rank)
  concatenates_S100000x3_S100000x1_S100000x3_S100000x1_S100000x8_d1 : Shape.Concatenates [S100000x3, S100000x1, S100000x3, S100000x1] S100000x8 1
  concatenates_S100000x256_S100000x256_S100000x8_S100000x520_d1 : Shape.Concatenates [S100000x256, S100000x256, S100000x8] S100000x520 1
  bcast_S1x256_S100000x256_0_1 : S1x256.BroadcastsInDim S100000x256 (![0, 1] : Fin 2 → Fin S100000x256.rank)
  bcast_S_S100000x256 : S_.BroadcastsInDim S100000x256 (![] : Fin 0 → Fin S100000x256.rank)
  bcast_S26_S1x26_1 : S26.BroadcastsInDim S1x26 (![1] : Fin 1 → Fin S1x26.rank)
  bcast_S1x26_S100000x26_0_1 : S1x26.BroadcastsInDim S100000x26 (![0, 1] : Fin 2 → Fin S100000x26.rank)
  dot_S20000x512_S512x512_S20000x512_1_0_0_1_n_n_wf : DotDims.WF S20000x512 S512x512 S20000x512 [1] [0] [0] [1] [] []
  dot_S20000x512_S512x256_S20000x256_1_0_0_1_n_n_wf : DotDims.WF S20000x512 S512x256 S20000x256 [1] [0] [0] [1] [] []
  dot_S20000x274_S274x256_S20000x256_1_0_0_1_n_n_wf : DotDims.WF S20000x274 S274x256 S20000x256 [1] [0] [0] [1] [] []
  dot_S20000x256_S256x256_S20000x256_1_0_0_1_n_n_wf : DotDims.WF S20000x256 S256x256 S20000x256 [1] [0] [0] [1] [] []
  gather_S20000x256_S320000x1_S320000x256_1_0_n_n_0_1_1256_wf : GatherDims.WF S20000x256 S320000x1 S320000x256 [1] [0] [] [0] [] 1 ![1, 256]
  dot_S320000x512_S512x256_S320000x256_1_0_0_1_n_n_wf : DotDims.WF S320000x512 S512x256 S320000x256 [1] [0] [0] [1] [] []
  dot_S320000x256_S256x256_S320000x256_1_0_0_1_n_n_wf : DotDims.WF S320000x256 S256x256 S320000x256 [1] [0] [0] [1] [] []
  scatter_S20000x256_S320000x1_S320000x256_1_0_0_1_wf : ScatterDims.WF S20000x256 S320000x1 S320000x256 [1] [0] [0] 1
  gather_S20000x18_S100000x2_S100000x3_1_0_n_n_01_1_13_wf : GatherDims.WF S20000x18 S100000x2 S100000x3 [1] [0] [] [0, 1] [] 1 ![1, 3]
  gather_S20000x256_S100000x1_S100000x256_1_0_n_n_0_1_1256_wf : GatherDims.WF S20000x256 S100000x1 S100000x256 [1] [0] [] [0] [] 1 ![1, 256]
  dot_S100000x520_S520x256_S100000x256_1_0_0_1_n_n_wf : DotDims.WF S100000x520 S520x256 S100000x256 [1] [0] [0] [1] [] []
  dot_S100000x256_S256x26_S100000x26_1_0_0_1_n_n_wf : DotDims.WF S100000x256 S256x26 S100000x26 [1] [0] [0] [1] [] []

variable [Facts₀]

def dot_S20000x512_S512x512_S20000x512_1_0_0_1_n_n : DotDims S20000x512 S512x512 S20000x512 where
  lhsContracting := [1]
  rhsContracting := [0]
  lhsNonContracting := [0]
  rhsNonContracting := [1]
  lhsBatch := []
  rhsBatch := []
  wf := dot_S20000x512_S512x512_S20000x512_1_0_0_1_n_n_wf
def dot_S20000x512_S512x256_S20000x256_1_0_0_1_n_n : DotDims S20000x512 S512x256 S20000x256 where
  lhsContracting := [1]
  rhsContracting := [0]
  lhsNonContracting := [0]
  rhsNonContracting := [1]
  lhsBatch := []
  rhsBatch := []
  wf := dot_S20000x512_S512x256_S20000x256_1_0_0_1_n_n_wf
def dot_S20000x274_S274x256_S20000x256_1_0_0_1_n_n : DotDims S20000x274 S274x256 S20000x256 where
  lhsContracting := [1]
  rhsContracting := [0]
  lhsNonContracting := [0]
  rhsNonContracting := [1]
  lhsBatch := []
  rhsBatch := []
  wf := dot_S20000x274_S274x256_S20000x256_1_0_0_1_n_n_wf
def dot_S20000x256_S256x256_S20000x256_1_0_0_1_n_n : DotDims S20000x256 S256x256 S20000x256 where
  lhsContracting := [1]
  rhsContracting := [0]
  lhsNonContracting := [0]
  rhsNonContracting := [1]
  lhsBatch := []
  rhsBatch := []
  wf := dot_S20000x256_S256x256_S20000x256_1_0_0_1_n_n_wf
def gather_S20000x256_S320000x1_S320000x256_1_0_n_n_0_1_1256 : GatherDims S20000x256 S320000x1 S320000x256 where
  offsetDims := [1]
  collapsedSliceDims := [0]
  operandBatchingDims := []
  startIndicesBatchingDims := []
  startIndexMap := [0]
  indexVectorDim := 1
  sliceSizes := ![1, 256]
  wf := gather_S20000x256_S320000x1_S320000x256_1_0_n_n_0_1_1256_wf
def dot_S320000x512_S512x256_S320000x256_1_0_0_1_n_n : DotDims S320000x512 S512x256 S320000x256 where
  lhsContracting := [1]
  rhsContracting := [0]
  lhsNonContracting := [0]
  rhsNonContracting := [1]
  lhsBatch := []
  rhsBatch := []
  wf := dot_S320000x512_S512x256_S320000x256_1_0_0_1_n_n_wf
def dot_S320000x256_S256x256_S320000x256_1_0_0_1_n_n : DotDims S320000x256 S256x256 S320000x256 where
  lhsContracting := [1]
  rhsContracting := [0]
  lhsNonContracting := [0]
  rhsNonContracting := [1]
  lhsBatch := []
  rhsBatch := []
  wf := dot_S320000x256_S256x256_S320000x256_1_0_0_1_n_n_wf
def scatter_S20000x256_S320000x1_S320000x256_1_0_0_1 : ScatterDims S20000x256 S320000x1 S320000x256 where
  updateWindowDims := [1]
  insertedWindowDims := [0]
  scatterDimsToOperandDims := [0]
  indexVectorDim := 1
  wf := scatter_S20000x256_S320000x1_S320000x256_1_0_0_1_wf
def gather_S20000x18_S100000x2_S100000x3_1_0_n_n_01_1_13 : GatherDims S20000x18 S100000x2 S100000x3 where
  offsetDims := [1]
  collapsedSliceDims := [0]
  operandBatchingDims := []
  startIndicesBatchingDims := []
  startIndexMap := [0, 1]
  indexVectorDim := 1
  sliceSizes := ![1, 3]
  wf := gather_S20000x18_S100000x2_S100000x3_1_0_n_n_01_1_13_wf
def gather_S20000x256_S100000x1_S100000x256_1_0_n_n_0_1_1256 : GatherDims S20000x256 S100000x1 S100000x256 where
  offsetDims := [1]
  collapsedSliceDims := [0]
  operandBatchingDims := []
  startIndicesBatchingDims := []
  startIndexMap := [0]
  indexVectorDim := 1
  sliceSizes := ![1, 256]
  wf := gather_S20000x256_S100000x1_S100000x256_1_0_n_n_0_1_1256_wf
def dot_S100000x520_S520x256_S100000x256_1_0_0_1_n_n : DotDims S100000x520 S520x256 S100000x256 where
  lhsContracting := [1]
  rhsContracting := [0]
  lhsNonContracting := [0]
  rhsNonContracting := [1]
  lhsBatch := []
  rhsBatch := []
  wf := dot_S100000x520_S520x256_S100000x256_1_0_0_1_n_n_wf
def dot_S100000x256_S256x26_S100000x26_1_0_0_1_n_n : DotDims S100000x256 S256x26 S100000x26 where
  lhsContracting := [1]
  rhsContracting := [0]
  lhsNonContracting := [0]
  rhsNonContracting := [1]
  lhsBatch := []
  rhsBatch := []
  wf := dot_S100000x256_S256x26_S100000x26_1_0_0_1_n_n_wf

class Facts : Prop extends Facts₀ where

variable [Facts]
-- ==== Proof.RefRunParts.P0.lean ====
import proofs.«411300_j19516331393713_3_alg».proof.Proof.RefRead
import Idealize.ShloMosaic.Lib.StableHlo.Run

noncomputable section

namespace Cert.Proof.Reference

open Cert.ReferenceIdeal Cert.ReferenceIdeal.Gen Idealize.ShloMosaic Idealize.ShloMosaic.TcCoe Idealize.SL.Sem Idealize.ShloMosaic.StableHlo

structure ArgVals (F : FTy → Type) where
  x0 : (⟨S20000x512, .f32⟩ : BufTy).Contents (Elt F)
  x1 : (⟨S20000x18, .f32⟩ : BufTy).Contents (Elt F)
  x2 : (⟨S320000x2, .i32⟩ : BufTy).Contents (Elt F)
  x3 : (⟨S100000x2, .i32⟩ : BufTy).Contents (Elt F)
  x4 : (⟨S512x512, .f32⟩ : BufTy).Contents (Elt F)
  x5 : (⟨S512, .f32⟩ : BufTy).Contents (Elt F)
  x6 : (⟨S512x256, .f32⟩ : BufTy).Contents (Elt F)
  x7 : (⟨S256, .f32⟩ : BufTy).Contents (Elt F)
  x8 : (⟨S274x256, .f32⟩ : BufTy).Contents (Elt F)
  x9 : (⟨S256, .f32⟩ : BufTy).Contents (Elt F)
  x10 : (⟨S256x256, .f32⟩ : BufTy).Contents (Elt F)
  x11 : (⟨S256, .f32⟩ : BufTy).Contents (Elt F)
  x12 : (⟨S3x512x256, .f32⟩ : BufTy).Contents (Elt F)
  x13 : (⟨S3x256, .f32⟩ : BufTy).Contents (Elt F)
  x14 : (⟨S3x256x256, .f32⟩ : BufTy).Contents (Elt F)
  x15 : (⟨S3x256, .f32⟩ : BufTy).Contents (Elt F)
  x16 : (⟨S3x512x256, .f32⟩ : BufTy).Contents (Elt F)
  x17 : (⟨S3x256, .f32⟩ : BufTy).Contents (Elt F)
  x18 : (⟨S3x256x256, .f32⟩ : BufTy).Contents (Elt F)
  x19 : (⟨S3x256, .f32⟩ : BufTy).Contents (Elt F)
  x20 : (⟨S520x256, .f32⟩ : BufTy).Contents (Elt F)
  x21 : (⟨S256, .f32⟩ : BufTy).Contents (Elt F)
  x22 : (⟨S256x26, .f32⟩ : BufTy).Contents (Elt F)
  x23 : (⟨S26, .f32⟩ : BufTy).Contents (Elt F)

variable {F : FTy → Type} [FloatOps F]

structure Args (a : ArgVals F) (V : Valuation τ sig (Elt F)) : Prop where
  a0 : V (Proc.devRef .tc main_arg0) = a.x0
  a1 : V (Proc.devRef .tc main_arg1) = a.x1
  a2 : V (Proc.devRef .tc main_arg2) = a.x2
  a3 : V (Proc.devRef .tc main_arg3) = a.x3
  a4 : V (Proc.devRef .tc main_arg4) = a.x4
  a5 : V (Proc.devRef .tc main_arg5) = a.x5
  a6 : V (Proc.devRef .tc main_arg6) = a.x6
  a7 : V (Proc.devRef .tc main_arg7) = a.x7
  a8 : V (Proc.devRef .tc main_arg8) = a.x8
  a9 : V (Proc.devRef .tc main_arg9) = a.x9
  a10 : V (Proc.devRef .tc main_arg10) = a.x10
  a11 : V (Proc.devRef .tc main_arg11) = a.x11
  a12 : V (Proc.devRef .tc main_arg12) = a.x12
  a13 : V (Proc.devRef .tc main_arg13) = a.x13
  a14 : V (Proc.devRef .tc main_arg14) = a.x14
  a15 : V (Proc.devRef .tc main_arg15) = a.x15
  a16 : V (Proc.devRef .tc main_arg16) = a.x16
  a17 : V (Proc.devRef .tc main_arg17) = a.x17
  a18 : V (Proc.devRef .tc main_arg18) = a.x18
  a19 : V (Proc.devRef .tc main_arg19) = a.x19
  a20 : V (Proc.devRef .tc main_arg20) = a.x20
  a21 : V (Proc.devRef .tc main_arg21) = a.x21
  a22 : V (Proc.devRef .tc main_arg22) = a.x22
  a23 : V (Proc.devRef .tc main_arg23) = a.x23

open Lean Elab Term in

elab "stage% " a:term:max r:ident : term <= ty => do
  let c := `Cert.ReferenceIdeal.Read ++ Name.mkSimple ("val_" ++ r.getId.toString)
  let info ← getConstInfo c
  let rec go : Expr → List Name
    | .forallE n _ b bi => if bi.isExplicit then n :: go b else go b
    | _ => []
  let args ← (go info.type).toArray.mapM fun n => `(($a).$(mkIdent n):ident)
  elabTerm (← `($(mkIdent c) $args*)) (some ty)

syntax "stage_step " ident " [" Lean.Parser.Tactic.simpLemma,* "]" : tactic
macro_rules
  | `(tactic| stage_step $hA [$hs,*]) => `(tactic|
      (simp (disch := decide) only [after_cons, after_nil,
        nullary_result', unary_result', binary_result', ternary_result', quaternary_result', reshape_result', nary4_result', nary_result',
        unaryIndexed_result', binaryIndexed_result',
        nullary_result_ne', unary_result_ne', binary_result_ne', ternary_result_ne', quaternary_result_ne', reshape_result_ne',
        nary_result_ne', unaryIndexed_result_ne', binaryIndexed_result_ne',
        ($hA).a0, ($hA).a1, ($hA).a2, ($hA).a3, ($hA).a4, ($hA).a5, ($hA).a6, ($hA).a7, ($hA).a8, ($hA).a9, ($hA).a10, ($hA).a11, ($hA).a12, ($hA).a13, ($hA).a14, ($hA).a15, ($hA).a16, ($hA).a17, ($hA).a18, ($hA).a19, ($hA).a20, ($hA).a21, ($hA).a22, ($hA).a23, $hs,*]
       <;> rfl))

structure Inv1 (a : ArgVals F) (V : Valuation τ sig (Elt F)) : Prop where
  args : Args a V
  v9 : V (Proc.devRef .tc main_v9) = stage% a main_v9

structure Inv2 (a : ArgVals F) (V : Valuation τ sig (Elt F)) : Prop where
  args : Args a V
  v20 : V (Proc.devRef .tc main_v20) = stage% a main_v20
  v22 : V (Proc.devRef .tc main_v22) = stage% a main_v22
  v24 : V (Proc.devRef .tc main_v24) = stage% a main_v24

structure Inv3 (a : ArgVals F) (V : Valuation τ sig (Elt F)) : Prop where
  args : Args a V
  v20 : V (Proc.devRef .tc main_v20) = stage% a main_v20
  v22 : V (Proc.devRef .tc main_v22) = stage% a main_v22
  v24 : V (Proc.devRef .tc main_v24) = stage% a main_v24
  v31 : V (Proc.devRef .tc main_v31) = stage% a main_v31
  v38 : V (Proc.devRef .tc main_v38) = stage% a main_v38

structure Inv4 (a : ArgVals F) (V : Valuation τ sig (Elt F)) : Prop where
  args : Args a V
  v20 : V (Proc.devRef .tc main_v20) = stage% a main_v20
  v22 : V (Proc.devRef .tc main_v22) = stage% a main_v22
  v24 : V (Proc.devRef .tc main_v24) = stage% a main_v24
  v51 : V (Proc.devRef .tc main_v51) = stage% a main_v51
  v55 : V (Proc.devRef .tc main_v55) = stage% a main_v55

structure Inv5 (a : ArgVals F) (V : Valuation τ sig (Elt F)) : Prop where
  args : Args a V
  v20 : V (Proc.devRef .tc main_v20) = stage% a main_v20
  v22 : V (Proc.devRef .tc main_v22) = stage% a main_v22
  v24 : V (Proc.devRef .tc main_v24) = stage% a main_v24
  v59 : V (Proc.devRef .tc main_v59) = stage% a main_v59

structure Inv6 (a : ArgVals F) (V : Valuation τ sig (Elt F)) : Prop where
  args : Args a V
  v20 : V (Proc.devRef .tc main_v20) = stage% a main_v20
  v22 : V (Proc.devRef .tc main_v22) = stage% a main_v22
  v24 : V (Proc.devRef .tc main_v24) = stage% a main_v24
  v77 : V (Proc.devRef .tc main_v77) = stage% a main_v77

structure Inv7 (a : ArgVals F) (V : Valuation τ sig (Elt F)) : Prop where
  args : Args a V
  v22 : V (Proc.devRef .tc main_v22) = stage% a main_v22
  v24 : V (Proc.devRef .tc main_v24) = stage% a main_v24
  v78 : V (Proc.devRef .tc main_v78) = stage% a main_v78
  v85 : V (Proc.devRef .tc main_v85) = stage% a main_v85
  v92 : V (Proc.devRef .tc main_v92) = stage% a main_v92

structure Inv8 (a : ArgVals F) (V : Valuation τ sig (Elt F)) : Prop where
  args : Args a V
  v22 : V (Proc.devRef .tc main_v22) = stage% a main_v22
  v24 : V (Proc.devRef .tc main_v24) = stage% a main_v24
  v78 : V (Proc.devRef .tc main_v78) = stage% a main_v78
  v110 : V (Proc.devRef .tc main_v110) = stage% a main_v110

structure Inv9 (a : ArgVals F) (V : Valuation τ sig (Elt F)) : Prop where
  args : Args a V
  v22 : V (Proc.devRef .tc main_v22) = stage% a main_v22
  v24 : V (Proc.devRef .tc main_v24) = stage% a main_v24
  v78 : V (Proc.devRef .tc main_v78) = stage% a main_v78
  v113 : V (Proc.devRef .tc main_v113) = stage% a main_v113

structure Inv10 (a : ArgVals F) (V : Valuation τ sig (Elt F)) : Prop where
  args : Args a V
  v22 : V (Proc.devRef .tc main_v22) = stage% a main_v22
  v24 : V (Proc.devRef .tc main_v24) = stage% a main_v24
  v78 : V (Proc.devRef .tc main_v78) = stage% a main_v78
  v131 : V (Proc.devRef .tc main_v131) = stage% a main_v131

structure Inv11 (a : ArgVals F) (V : Valuation τ sig (Elt F)) : Prop where
  args : Args a V
  v24 : V (Proc.devRef .tc main_v24) = stage% a main_v24
  v132 : V (Proc.devRef .tc main_v132) = stage% a main_v132
  v139 : V (Proc.devRef .tc main_v139) = stage% a main_v139
  v146 : V (Proc.devRef .tc main_v146) = stage% a main_v146

structure Inv12 (a : ArgVals F) (V : Valuation τ sig (Elt F)) : Prop where
  args : Args a V
  v24 : V (Proc.devRef .tc main_v24) = stage% a main_v24
  v132 : V (Proc.devRef .tc main_v132) = stage% a main_v132
  v164 : V (Proc.devRef .tc main_v164) = stage% a main_v164
  cst_12 : V (Proc.devRef .tc main_cst_12) = stage% a main_cst_12

structure Inv13 (a : ArgVals F) (V : Valuation τ sig (Elt F)) : Prop where
  args : Args a V
  v132 : V (Proc.devRef .tc main_v132) = stage% a main_v132
  v167 : V (Proc.devRef .tc main_v167) = stage% a main_v167

structure Inv14 (a : ArgVals F) (V : Valuation τ sig (Elt F)) : Prop where
  args : Args a V
  v132 : V (Proc.devRef .tc main_v132) = stage% a main_v132
  v180 : V (Proc.devRef .tc main_v180) = stage% a main_v180
  v183 : V (Proc.devRef .tc main_v183) = stage% a main_v183

structure Inv15 (a : ArgVals F) (V : Valuation τ sig (Elt F)) : Prop where
  args : Args a V
  v186 : V (Proc.devRef .tc main_v186) = stage% a main_v186
  v188 : V (Proc.devRef .tc main_v188) = stage% a main_v188
  v190 : V (Proc.devRef .tc main_v190) = stage% a main_v190
  v196 : V (Proc.devRef .tc main_v196) = stage% a main_v196
  v197 : V (Proc.devRef .tc main_v197) = stage% a main_v197

structure Inv16 (a : ArgVals F) (V : Valuation τ sig (Elt F)) : Prop where
  args : Args a V
  v186 : V (Proc.devRef .tc main_v186) = stage% a main_v186
  v188 : V (Proc.devRef .tc main_v188) = stage% a main_v188
  v190 : V (Proc.devRef .tc main_v190) = stage% a main_v190
  v199 : V (Proc.devRef .tc main_v199) = stage% a main_v199
  v205 : V (Proc.devRef .tc main_v205) = stage% a main_v205
  v206 : V (Proc.devRef .tc main_v206) = stage% a main_v206

structure Inv17 (a : ArgVals F) (V : Valuation τ sig (Elt F)) : Prop where
  args : Args a V
  v186 : V (Proc.devRef .tc main_v186) = stage% a main_v186
  v188 : V (Proc.devRef .tc main_v188) = stage% a main_v188
  v190 : V (Proc.devRef .tc main_v190) = stage% a main_v190
  v209 : V (Proc.devRef .tc main_v209) = stage% a main_v209
  v211 : V (Proc.devRef .tc main_v211) = stage% a main_v211
  v216 : V (Proc.devRef .tc main_v216) = stage% a main_v216

structure Inv18 (a : ArgVals F) (V : Valuation τ sig (Elt F)) : Prop where
  args : Args a V
  v186 : V (Proc.devRef .tc main_v186) = stage% a main_v186
  v188 : V (Proc.devRef .tc main_v188) = stage% a main_v188
  v190 : V (Proc.devRef .tc main_v190) = stage% a main_v190
  v209 : V (Proc.devRef .tc main_v209) = stage% a main_v209
  v211 : V (Proc.devRef .tc main_v211) = stage% a main_v211
  v217 : V (Proc.devRef .tc main_v217) = stage% a main_v217
  v218 : V (Proc.devRef .tc main_v218) = stage% a main_v218

structure Inv19 (a : ArgVals F) (V : Valuation τ sig (Elt F)) : Prop where
  args : Args a V
  v186 : V (Proc.devRef .tc main_v186) = stage% a main_v186
  v188 : V (Proc.devRef .tc main_v188) = stage% a main_v188
  v190 : V (Proc.devRef .tc main_v190) = stage% a main_v190
  v209 : V (Proc.devRef .tc main_v209) = stage% a main_v209
  v211 : V (Proc.devRef .tc main_v211) = stage% a main_v211
  v222 : V (Proc.devRef .tc main_v222) = stage% a main_v222
  v228 : V (Proc.devRef .tc main_v228) = stage% a main_v228
  v229 : V (Proc.devRef .tc main_v229) = stage% a main_v229

structure Inv20 (a : ArgVals F) (V : Valuation τ sig (Elt F)) : Prop where
  args : Args a V
  v186 : V (Proc.devRef .tc main_v186) = stage% a main_v186
  v188 : V (Proc.devRef .tc main_v188) = stage% a main_v188
  v190 : V (Proc.devRef .tc main_v190) = stage% a main_v190
  v209 : V (Proc.devRef .tc main_v209) = stage% a main_v209
  v211 : V (Proc.devRef .tc main_v211) = stage% a main_v211
  v235 : V (Proc.devRef .tc main_v235) = stage% a main_v235
  v241 : V (Proc.devRef .tc main_v241) = stage% a main_v241
  v242 : V (Proc.devRef .tc main_v242) = stage% a main_v242

structure Inv21 (a : ArgVals F) (V : Valuation τ sig (Elt F)) : Prop where
  args : Args a V
  v186 : V (Proc.devRef .tc main_v186) = stage% a main_v186
  v188 : V (Proc.devRef .tc main_v188) = stage% a main_v188
  v190 : V (Proc.devRef .tc main_v190) = stage% a main_v190
  v209 : V (Proc.devRef .tc main_v209) = stage% a main_v209
  v211 : V (Proc.devRef .tc main_v211) = stage% a main_v211
  v235 : V (Proc.devRef .tc main_v235) = stage% a main_v235
  v244 : V (Proc.devRef .tc main_v244) = stage% a main_v244
  v250 : V (Proc.devRef .tc main_v250) = stage% a main_v250
  v251 : V (Proc.devRef .tc main_v251) = stage% a main_v251

structure Inv22 (a : ArgVals F) (V : Valuation τ sig (Elt F)) : Prop where
  args : Args a V
  v186 : V (Proc.devRef .tc main_v186) = stage% a main_v186
  v188 : V (Proc.devRef .tc main_v188) = stage% a main_v188
  v190 : V (Proc.devRef .tc main_v190) = stage% a main_v190
  v209 : V (Proc.devRef .tc main_v209) = stage% a main_v209
  v211 : V (Proc.devRef .tc main_v211) = stage% a main_v211
  v235 : V (Proc.devRef .tc main_v235) = stage% a main_v235
  v255 : V (Proc.devRef .tc main_v255) = stage% a main_v255
  v258 : V (Proc.devRef .tc main_v258) = stage% a main_v258
  v261 : V (Proc.devRef .tc main_v261) = stage% a main_v261

structure Inv23 (a : ArgVals F) (V : Valuation τ sig (Elt F)) : Prop where
  args : Args a V
  v186 : V (Proc.devRef .tc main_v186) = stage% a main_v186
  v188 : V (Proc.devRef .tc main_v188) = stage% a main_v188
  v190 : V (Proc.devRef .tc main_v190) = stage% a main_v190
  v209 : V (Proc.devRef .tc main_v209) = stage% a main_v209
  v211 : V (Proc.devRef .tc main_v211) = stage% a main_v211
  v235 : V (Proc.devRef .tc main_v235) = stage% a main_v235
  v264 : V (Proc.devRef .tc main_v264) = stage% a main_v264

structure Inv24 (a : ArgVals F) (V : Valuation τ sig (Elt F)) : Prop where
  args : Args a V
  v265 : V (Proc.devRef .tc main_v265) = stage% a main_v265
  v272 : V (Proc.devRef .tc main_v272) = stage% a main_v272
  v279 : V (Proc.devRef .tc main_v279) = stage% a main_v279

structure Inv25 (a : ArgVals F) (V : Valuation τ sig (Elt F)) : Prop where
  args : Args a V
  v289 : V (Proc.devRef .tc main_v289) = stage% a main_v289

end Cert.Proof.Reference

end
-- ==== Proof.RefRunParts.P1.lean ====
import proofs.«411300_j19516331393713_3_alg».proof.Proof.RefRunParts.P0

noncomputable section

namespace Cert.Proof.Reference

open Cert.ReferenceIdeal Cert.ReferenceIdeal.Gen Idealize.ShloMosaic Idealize.ShloMosaic.TcCoe Idealize.SL.Sem Idealize.ShloMosaic.StableHlo

variable {F : FTy → Type} [FloatOps F]

abbrev ops1 : List (HloOp τ sig (Elt F)) :=
  [ binary main_arg0 main_arg4 main_v0 ((fun l r => Host.dotGeneral dot_S20000x512_S512x512_S20000x512_1_0_0_1_n_n none l r) : (⟨S20000x512, .f32⟩ : BufTy).Contents (Elt F) → (⟨S512x512, .f32⟩ : BufTy).Contents (Elt F) → (⟨S20000x512, .f32⟩ : BufTy).Contents (Elt F)),
    unary main_arg5 main_v1 (broadcastInDim S1x512 ![1] bcast_S512_S1x512_1 : (⟨S512, .f32⟩ : BufTy).Contents (Elt F) → (⟨S1x512, .f32⟩ : BufTy).Contents (Elt F)),
    unary main_v1 main_v2 (broadcastInDim S20000x512 ![0, 1] bcast_S1x512_S20000x512_0_1 : (⟨S1x512, .f32⟩ : BufTy).Contents (Elt F) → (⟨S20000x512, .f32⟩ : BufTy).Contents (Elt F)),
    binary main_v0 main_v2 main_v3 (addf : (⟨S20000x512, .f32⟩ : BufTy).Contents (Elt F) → (⟨S20000x512, .f32⟩ : BufTy).Contents (Elt F) → (⟨S20000x512, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S20000x512, .f32⟩) main_call0_v0) (broadcastInDim S20000x512 ![] bcast_S_S20000x512),
    TRef.binary (TRef.of (T := ⟨S20000x512, .f32⟩) main_v3) (TRef.of (T := ⟨S20000x512, .f32⟩) main_call0_v0) (TRef.of (T := ⟨S20000x512, .f32⟩) main_v4) maximumf,
    binary main_v4 main_arg6 main_v5 ((fun l r => Host.dotGeneral dot_S20000x512_S512x256_S20000x256_1_0_0_1_n_n none l r) : (⟨S20000x512, .f32⟩ : BufTy).Contents (Elt F) → (⟨S512x256, .f32⟩ : BufTy).Contents (Elt F) → (⟨S20000x256, .f32⟩ : BufTy).Contents (Elt F)),
    unary main_arg7 main_v6 (broadcastInDim S1x256 ![1] bcast_S256_S1x256_1 : (⟨S256, .f32⟩ : BufTy).Contents (Elt F) → (⟨S1x256, .f32⟩ : BufTy).Contents (Elt F)),
    unary main_v6 main_v7 (broadcastInDim S20000x256 ![0, 1] bcast_S1x256_S20000x256_0_1 : (⟨S1x256, .f32⟩ : BufTy).Contents (Elt F) → (⟨S20000x256, .f32⟩ : BufTy).Contents (Elt F)),
    binary main_v5 main_v7 main_v8 (addf : (⟨S20000x256, .f32⟩ : BufTy).Contents (Elt F) → (⟨S20000x256, .f32⟩ : BufTy).Contents (Elt F) → (⟨S20000x256, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S20000x256, .f32⟩) main_call1_v0) (broadcastInDim S20000x256 ![] bcast_S_S20000x256),
    TRef.binary (TRef.of (T := ⟨S20000x256, .f32⟩) main_v8) (TRef.of (T := ⟨S20000x256, .f32⟩) main_call1_v0) (TRef.of (T := ⟨S20000x256, .f32⟩) main_v9) maximumf ]

theorem step1 (a : ArgVals F) (V : Valuation τ sig (Elt F)) (hA : Args a V) : Inv1 a (after ops1 V) := by
  refine ⟨⟨?_, ?_, ?_, ?_, ?_, ?_, ?_, ?_, ?_, ?_, ?_, ?_, ?_, ?_, ?_, ?_, ?_, ?_, ?_, ?_, ?_, ?_, ?_, ?_⟩, ?_⟩
  all_goals stage_step hA []

end Cert.Proof.Reference

end
-- ==== Proof.RefRunParts.P2.lean ====
import proofs.«411300_j19516331393713_3_alg».proof.Proof.RefRunParts.P0

noncomputable section

namespace Cert.Proof.Reference

open Cert.ReferenceIdeal Cert.ReferenceIdeal.Gen Idealize.ShloMosaic Idealize.ShloMosaic.TcCoe Idealize.SL.Sem Idealize.ShloMosaic.StableHlo

variable {F : FTy → Type} [FloatOps F]

abbrev ops2 : List (HloOp τ sig (Elt F)) :=
  [ binary main_v9 main_arg1 main_v10 ((fun a b => concatenate S20000x274 1 [⟨S20000x256, a⟩, ⟨S20000x18, b⟩] concatenates_S20000x256_S20000x18_S20000x274_d1) : (⟨S20000x256, .f32⟩ : BufTy).Contents (Elt F) → (⟨S20000x18, .f32⟩ : BufTy).Contents (Elt F) → (⟨S20000x274, .f32⟩ : BufTy).Contents (Elt F)),
    binary main_v10 main_arg8 main_v11 ((fun l r => Host.dotGeneral dot_S20000x274_S274x256_S20000x256_1_0_0_1_n_n none l r) : (⟨S20000x274, .f32⟩ : BufTy).Contents (Elt F) → (⟨S274x256, .f32⟩ : BufTy).Contents (Elt F) → (⟨S20000x256, .f32⟩ : BufTy).Contents (Elt F)),
    unary main_arg9 main_v12 (broadcastInDim S1x256 ![1] bcast_S256_S1x256_1 : (⟨S256, .f32⟩ : BufTy).Contents (Elt F) → (⟨S1x256, .f32⟩ : BufTy).Contents (Elt F)),
    unary main_v12 main_v13 (broadcastInDim S20000x256 ![0, 1] bcast_S1x256_S20000x256_0_1 : (⟨S1x256, .f32⟩ : BufTy).Contents (Elt F) → (⟨S20000x256, .f32⟩ : BufTy).Contents (Elt F)),
    binary main_v11 main_v13 main_v14 (addf : (⟨S20000x256, .f32⟩ : BufTy).Contents (Elt F) → (⟨S20000x256, .f32⟩ : BufTy).Contents (Elt F) → (⟨S20000x256, .f32⟩ : BufTy).Contents (Elt F)),
    TRef.nullary (TRef.of (T := ⟨S_, .f32⟩) main_call2_cst) (constant S_ .f32 0x00000000#32),
    TRef.unary (TRef.of (T := ⟨S_, .f32⟩) main_call2_cst) (TRef.of (T := ⟨S20000x256, .f32⟩) main_call2_v0) (broadcastInDim S20000x256 ![] bcast_S_S20000x256),
    TRef.binary (TRef.of (T := ⟨S20000x256, .f32⟩) main_v14) (TRef.of (T := ⟨S20000x256, .f32⟩) main_call2_v0) (TRef.of (T := ⟨S20000x256, .f32⟩) main_v15) maximumf,
    binary main_v15 main_arg10 main_v16 ((fun l r => Host.dotGeneral dot_S20000x256_S256x256_S20000x256_1_0_0_1_n_n none l r) : (⟨S20000x256, .f32⟩ : BufTy).Contents (Elt F) → (⟨S256x256, .f32⟩ : BufTy).Contents (Elt F) → (⟨S20000x256, .f32⟩ : BufTy).Contents (Elt F)),
    unary main_arg11 main_v17 (broadcastInDim S1x256 ![1] bcast_S256_S1x256_1 : (⟨S256, .f32⟩ : BufTy).Contents (Elt F) → (⟨S1x256, .f32⟩ : BufTy).Contents (Elt F)),
    unary main_v17 main_v18 (broadcastInDim S20000x256 ![0, 1] bcast_S1x256_S20000x256_0_1 : (⟨S1x256, .f32⟩ : BufTy).Contents (Elt F) → (⟨S20000x256, .f32⟩ : BufTy).Contents (Elt F)),
    binary main_v16 main_v18 main_v19 (addf : (⟨S20000x256, .f32⟩ : BufTy).Contents (Elt F) → (⟨S20000x256, .f32⟩ : BufTy).Contents (Elt F) → (⟨S20000x256, .f32⟩ : BufTy).Contents (Elt F)),
    TRef.nullary (TRef.of (T := ⟨S_, .f32⟩) main_call3_cst) (constant S_ .f32 0x00000000#32),
    TRef.unary (TRef.of (T := ⟨S_, .f32⟩) main_call3_cst) (TRef.of (T := ⟨S20000x256, .f32⟩) main_call3_v0) (broadcastInDim S20000x256 ![] bcast_S_S20000x256),
    TRef.binary (TRef.of (T := ⟨S20000x256, .f32⟩) main_v19) (TRef.of (T := ⟨S20000x256, .f32⟩) main_call3_v0) (TRef.of (T := ⟨S20000x256, .f32⟩) main_v20) maximumf,
    unary main_arg2 main_v21 ((extractStridedSlice S320000x1 ![0, 0] · slices_S320000x2_S320000x1_0_0) : (⟨S320000x2, .i32⟩ : BufTy).Contents (Elt F) → (⟨S320000x1, .i32⟩ : BufTy).Contents (Elt F)),
    reshape main_v21 main_v22 rfl shapeCasts_S320000x1_S320000,
    unary main_arg2 main_v23 ((extractStridedSlice S320000x1 ![0, 1] · slices_S320000x2_S320000x1_0_1) : (⟨S320000x2, .i32⟩ : BufTy).Contents (Elt F) → (⟨S320000x1, .i32⟩ : BufTy).Contents (Elt F)),
    reshape main_v23 main_v24 rfl shapeCasts_S320000x1_S320000 ]

theorem step2 (a : ArgVals F) (V : Valuation τ sig (Elt F)) (h : Inv1 a V) : Inv2 a (after ops2 V) := by
  have hA := h.args
  refine ⟨⟨?_, ?_, ?_, ?_, ?_, ?_, ?_, ?_, ?_, ?_, ?_, ?_, ?_, ?_, ?_, ?_, ?_, ?_, ?_, ?_, ?_, ?_, ?_, ?_⟩, ?v20, ?_, ?_⟩
  case v20 =>

    after_results_simp
    rw [h.v9, hA.a1, hA.a8, hA.a9, hA.a10, hA.a11]
    rfl
  all_goals stage_step hA [h.v9]

end Cert.Proof.Reference

end
-- ==== Proof.RefRunParts.P3.lean ====
import proofs.«411300_j19516331393713_3_alg».proof.Proof.RefRunParts.P0

noncomputable section

namespace Cert.Proof.Reference

open Cert.ReferenceIdeal Cert.ReferenceIdeal.Gen Idealize.ShloMosaic Idealize.ShloMosaic.TcCoe Idealize.SL.Sem Idealize.ShloMosaic.StableHlo

variable {F : FTy → Type} [FloatOps F]

abbrev ops3 : List (HloOp τ sig (Elt F)) :=
  [ nullary main_c (constantI S_ 32 0#32),
    unary main_c main_v25 (broadcastInDim S320000 ![] bcast_S_S320000 : (⟨S_, .i32⟩ : BufTy).Contents (Elt F) → (⟨S320000, .i32⟩ : BufTy).Contents (Elt F)),
    binary main_v22 main_v25 main_v26 (cmpi .slt : (⟨S320000, .i32⟩ : BufTy).Contents (Elt F) → (⟨S320000, .i32⟩ : BufTy).Contents (Elt F) → (⟨S320000, .i1⟩ : BufTy).Contents (Elt F)),
    nullary main_c_0 (constantI S_ 32 20000#32),
    unary main_c_0 main_v27 (broadcastInDim S320000 ![] bcast_S_S320000 : (⟨S_, .i32⟩ : BufTy).Contents (Elt F) → (⟨S320000, .i32⟩ : BufTy).Contents (Elt F)),
    binary main_v22 main_v27 main_v28 (addi : (⟨S320000, .i32⟩ : BufTy).Contents (Elt F) → (⟨S320000, .i32⟩ : BufTy).Contents (Elt F) → (⟨S320000, .i32⟩ : BufTy).Contents (Elt F)),
    ternary main_v26 main_v28 main_v22 main_v29 (select : (⟨S320000, .i1⟩ : BufTy).Contents (Elt F) → (⟨S320000, .i32⟩ : BufTy).Contents (Elt F) → (⟨S320000, .i32⟩ : BufTy).Contents (Elt F) → (⟨S320000, .i32⟩ : BufTy).Contents (Elt F)),
    unary main_v29 main_v30 (broadcastInDim S320000x1 ![0] bcast_S320000_S320000x1_0 : (⟨S320000, .i32⟩ : BufTy).Contents (Elt F) → (⟨S320000x1, .i32⟩ : BufTy).Contents (Elt F)),
    binary main_v20 main_v30 main_v31 ((fun x i => Host.gather gather_S20000x256_S320000x1_S320000x256_1_0_n_n_0_1_1256 x i) : (⟨S20000x256, .f32⟩ : BufTy).Contents (Elt F) → (⟨S320000x1, .i32⟩ : BufTy).Contents (Elt F) → (⟨S320000x256, .f32⟩ : BufTy).Contents (Elt F)),
    nullary main_c_1 (constantI S_ 32 0#32),
    unary main_c_1 main_v32 (broadcastInDim S320000 ![] bcast_S_S320000 : (⟨S_, .i32⟩ : BufTy).Contents (Elt F) → (⟨S320000, .i32⟩ : BufTy).Contents (Elt F)),
    binary main_v24 main_v32 main_v33 (cmpi .slt : (⟨S320000, .i32⟩ : BufTy).Contents (Elt F) → (⟨S320000, .i32⟩ : BufTy).Contents (Elt F) → (⟨S320000, .i1⟩ : BufTy).Contents (Elt F)),
    nullary main_c_2 (constantI S_ 32 20000#32),
    unary main_c_2 main_v34 (broadcastInDim S320000 ![] bcast_S_S320000 : (⟨S_, .i32⟩ : BufTy).Contents (Elt F) → (⟨S320000, .i32⟩ : BufTy).Contents (Elt F)),
    binary main_v24 main_v34 main_v35 (addi : (⟨S320000, .i32⟩ : BufTy).Contents (Elt F) → (⟨S320000, .i32⟩ : BufTy).Contents (Elt F) → (⟨S320000, .i32⟩ : BufTy).Contents (Elt F)),
    ternary main_v33 main_v35 main_v24 main_v36 (select : (⟨S320000, .i1⟩ : BufTy).Contents (Elt F) → (⟨S320000, .i32⟩ : BufTy).Contents (Elt F) → (⟨S320000, .i32⟩ : BufTy).Contents (Elt F) → (⟨S320000, .i32⟩ : BufTy).Contents (Elt F)),
    unary main_v36 main_v37 (broadcastInDim S320000x1 ![0] bcast_S320000_S320000x1_0 : (⟨S320000, .i32⟩ : BufTy).Contents (Elt F) → (⟨S320000x1, .i32⟩ : BufTy).Contents (Elt F)),
    binary main_v20 main_v37 main_v38 ((fun x i => Host.gather gather_S20000x256_S320000x1_S320000x256_1_0_n_n_0_1_1256 x i) : (⟨S20000x256, .f32⟩ : BufTy).Contents (Elt F) → (⟨S320000x1, .i32⟩ : BufTy).Contents (Elt F) → (⟨S320000x256, .f32⟩ : BufTy).Contents (Elt F)) ]

theorem step3_args (a : ArgVals F) (V : Valuation τ sig (Elt F)) (h : Inv2 a V) : Args a (after ops3 V) := by
  have hA := h.args
  refine ⟨?_, ?_, ?_, ?_, ?_, ?_, ?_, ?_, ?_, ?_, ?_, ?_, ?_, ?_, ?_, ?_, ?_, ?_, ?_, ?_, ?_, ?_, ?_, ?_⟩
  all_goals stage_step hA [h.v20, h.v22, h.v24]

theorem step3_v20 (a : ArgVals F) (V : Valuation τ sig (Elt F)) (h : Inv2 a V) :
    after ops3 V (Proc.devRef .tc main_v20) = stage% a main_v20 := by
  have hA := h.args
  stage_step hA [h.v20, h.v22, h.v24]

theorem step3_v22 (a : ArgVals F) (V : Valuation τ sig (Elt F)) (h : Inv2 a V) :
    after ops3 V (Proc.devRef .tc main_v22) = stage% a main_v22 := by
  have hA := h.args
  stage_step hA [h.v20, h.v22, h.v24]

theorem step3_v24 (a : ArgVals F) (V : Valuation τ sig (Elt F)) (h : Inv2 a V) :
    after ops3 V (Proc.devRef .tc main_v24) = stage% a main_v24 := by
  have hA := h.args
  stage_step hA [h.v20, h.v22, h.v24]

theorem step3_v31 (a : ArgVals F) (V : Valuation τ sig (Elt F)) (h : Inv2 a V) :
    after ops3 V (Proc.devRef .tc main_v31) = stage% a main_v31 := by
  have hA := h.args
  stage_step hA [h.v20, h.v22, h.v24]

theorem step3_v38 (a : ArgVals F) (V : Valuation τ sig (Elt F)) (h : Inv2 a V) :
    after ops3 V (Proc.devRef .tc main_v38) = stage% a main_v38 := by
  have hA := h.args
  stage_step hA [h.v20, h.v22, h.v24]

theorem step3 (a : ArgVals F) (V : Valuation τ sig (Elt F)) (h : Inv2 a V) : Inv3 a (after ops3 V) :=
  ⟨step3_args a V h, step3_v20 a V h, step3_v22 a V h, step3_v24 a V h, step3_v31 a V h, step3_v38 a V h⟩

end Cert.Proof.Reference

end
-- ==== Proof.RefRunParts.P4.lean ====
import proofs.«411300_j19516331393713_3_alg».proof.Proof.RefRunParts.P0

noncomputable section

namespace Cert.Proof.Reference

open Cert.ReferenceIdeal Cert.ReferenceIdeal.Gen Idealize.ShloMosaic Idealize.ShloMosaic.TcCoe Idealize.SL.Sem Idealize.ShloMosaic.StableHlo

variable {F : FTy → Type} [FloatOps F]

abbrev ops4 : List (HloOp τ sig (Elt F)) :=
  [ binary main_v31 main_v38 main_v39 ((fun a b => concatenate S320000x512 1 [⟨S320000x256, a⟩, ⟨S320000x256, b⟩] concatenates_S320000x256_S320000x256_S320000x512_d1) : (⟨S320000x256, .f32⟩ : BufTy).Contents (Elt F) → (⟨S320000x256, .f32⟩ : BufTy).Contents (Elt F) → (⟨S320000x512, .f32⟩ : BufTy).Contents (Elt F)),
    unary main_arg12 main_v40 ((extractStridedSlice S1x512x256 ![0, 0, 0] · slices_S3x512x256_S1x512x256_0_0_0) : (⟨S3x512x256, .f32⟩ : BufTy).Contents (Elt F) → (⟨S1x512x256, .f32⟩ : BufTy).Contents (Elt F)),
    reshape main_v40 main_v41 rfl shapeCasts_S1x512x256_S512x256,
    binary main_v39 main_v41 main_v42 ((fun l r => Host.dotGeneral dot_S320000x512_S512x256_S320000x256_1_0_0_1_n_n none l r) : (⟨S320000x512, .f32⟩ : BufTy).Contents (Elt F) → (⟨S512x256, .f32⟩ : BufTy).Contents (Elt F) → (⟨S320000x256, .f32⟩ : BufTy).Contents (Elt F)),
    unary main_arg13 main_v43 ((extractStridedSlice S1x256 ![0, 0] · slices_S3x256_S1x256_0_0) : (⟨S3x256, .f32⟩ : BufTy).Contents (Elt F) → (⟨S1x256, .f32⟩ : BufTy).Contents (Elt F)),
    reshape main_v43 main_v44 rfl shapeCasts_S1x256_S256,
    unary main_v44 main_v45 (broadcastInDim S1x256 ![1] bcast_S256_S1x256_1 : (⟨S256, .f32⟩ : BufTy).Contents (Elt F) → (⟨S1x256, .f32⟩ : BufTy).Contents (Elt F)),
    unary main_v45 main_v46 (broadcastInDim S320000x256 ![0, 1] bcast_S1x256_S320000x256_0_1 : (⟨S1x256, .f32⟩ : BufTy).Contents (Elt F) → (⟨S320000x256, .f32⟩ : BufTy).Contents (Elt F)),
    binary main_v42 main_v46 main_v47 (addf : (⟨S320000x256, .f32⟩ : BufTy).Contents (Elt F) → (⟨S320000x256, .f32⟩ : BufTy).Contents (Elt F) → (⟨S320000x256, .f32⟩ : BufTy).Contents (Elt F)),
    TRef.nullary (TRef.of (T := ⟨S_, .f32⟩) main_call4_cst) (constant S_ .f32 0x00000000#32),
    TRef.unary (TRef.of (T := ⟨S_, .f32⟩) main_call4_cst) (TRef.of (T := ⟨S320000x256, .f32⟩) main_call4_v0) (broadcastInDim S320000x256 ![] bcast_S_S320000x256),
    TRef.binary (TRef.of (T := ⟨S320000x256, .f32⟩) main_v47) (TRef.of (T := ⟨S320000x256, .f32⟩) main_call4_v0) (TRef.of (T := ⟨S320000x256, .f32⟩) main_v48) maximumf,
    unary main_arg14 main_v49 ((extractStridedSlice S1x256x256 ![0, 0, 0] · slices_S3x256x256_S1x256x256_0_0_0) : (⟨S3x256x256, .f32⟩ : BufTy).Contents (Elt F) → (⟨S1x256x256, .f32⟩ : BufTy).Contents (Elt F)),
    reshape main_v49 main_v50 rfl shapeCasts_S1x256x256_S256x256,
    binary main_v48 main_v50 main_v51 ((fun l r => Host.dotGeneral dot_S320000x256_S256x256_S320000x256_1_0_0_1_n_n none l r) : (⟨S320000x256, .f32⟩ : BufTy).Contents (Elt F) → (⟨S256x256, .f32⟩ : BufTy).Contents (Elt F) → (⟨S320000x256, .f32⟩ : BufTy).Contents (Elt F)),
    unary main_arg15 main_v52 ((extractStridedSlice S1x256 ![0, 0] · slices_S3x256_S1x256_0_0) : (⟨S3x256, .f32⟩ : BufTy).Contents (Elt F) → (⟨S1x256, .f32⟩ : BufTy).Contents (Elt F)),
    reshape main_v52 main_v53 rfl shapeCasts_S1x256_S256,
    unary main_v53 main_v54 (broadcastInDim S1x256 ![1] bcast_S256_S1x256_1 : (⟨S256, .f32⟩ : BufTy).Contents (Elt F) → (⟨S1x256, .f32⟩ : BufTy).Contents (Elt F)),
    unary main_v54 main_v55 (broadcastInDim S320000x256 ![0, 1] bcast_S1x256_S320000x256_0_1 : (⟨S1x256, .f32⟩ : BufTy).Contents (Elt F) → (⟨S320000x256, .f32⟩ : BufTy).Contents (Elt F)) ]

theorem step4 (a : ArgVals F) (V : Valuation τ sig (Elt F)) (h : Inv3 a V) : Inv4 a (after ops4 V) := by
  have hA := h.args
  refine ⟨⟨?_, ?_, ?_, ?_, ?_, ?_, ?_, ?_, ?_, ?_, ?_, ?_, ?_, ?_, ?_, ?_, ?_, ?_, ?_, ?_, ?_, ?_, ?_, ?_⟩, ?_, ?_, ?_, ?v51, ?_⟩
  case v51 =>

    after_results_simp
    rw [h.v31, h.v38, hA.a12, hA.a13, hA.a14]
    rfl
  all_goals stage_step hA [h.v20, h.v22, h.v24, h.v31, h.v38]

end Cert.Proof.Reference

end
-- ==== Proof.RefRunParts.P5.lean ====
import proofs.«411300_j19516331393713_3_alg».proof.Proof.RefRunParts.P0

noncomputable section

namespace Cert.Proof.Reference

open Cert.ReferenceIdeal Cert.ReferenceIdeal.Gen Idealize.ShloMosaic Idealize.ShloMosaic.TcCoe Idealize.SL.Sem Idealize.ShloMosaic.StableHlo

variable {F : FTy → Type} [FloatOps F]

abbrev ops5 : List (HloOp τ sig (Elt F)) :=
  [ binary main_v51 main_v55 main_v56 (addf : (⟨S320000x256, .f32⟩ : BufTy).Contents (Elt F) → (⟨S320000x256, .f32⟩ : BufTy).Contents (Elt F) → (⟨S320000x256, .f32⟩ : BufTy).Contents (Elt F)),
    nullary main_cst (constant S_ .f32 0x00000000#32),
    unary main_cst main_v57 (broadcastInDim S20000x256 ![] bcast_S_S20000x256 : (⟨S_, .f32⟩ : BufTy).Contents (Elt F) → (⟨S20000x256, .f32⟩ : BufTy).Contents (Elt F)),
    unary main_v24 main_v58 (broadcastInDim S320000x1 ![0] bcast_S320000_S320000x1_0 : (⟨S320000, .i32⟩ : BufTy).Contents (Elt F) → (⟨S320000x1, .i32⟩ : BufTy).Contents (Elt F)),
    ternary main_v57 main_v58 main_v56 main_v59 ((fun x i u => Host.scatterAdd scatter_S20000x256_S320000x1_S320000x256_1_0_0_1 x i u) : (⟨S20000x256, .f32⟩ : BufTy).Contents (Elt F) → (⟨S320000x1, .i32⟩ : BufTy).Contents (Elt F) → (⟨S320000x256, .f32⟩ : BufTy).Contents (Elt F) → (⟨S20000x256, .f32⟩ : BufTy).Contents (Elt F)) ]

theorem step5 (a : ArgVals F) (V : Valuation τ sig (Elt F)) (h : Inv4 a V) : Inv5 a (after ops5 V) := by
  have hA := h.args
  refine ⟨⟨?_, ?_, ?_, ?_, ?_, ?_, ?_, ?_, ?_, ?_, ?_, ?_, ?_, ?_, ?_, ?_, ?_, ?_, ?_, ?_, ?_, ?_, ?_, ?_⟩, ?_, ?_, ?_, ?_⟩
  all_goals stage_step hA [h.v20, h.v22, h.v24, h.v51, h.v55]

end Cert.Proof.Reference

end
-- ==== Proof.RefRunParts.P6.lean ====
import proofs.«411300_j19516331393713_3_alg».proof.Proof.RefRunParts.P0

noncomputable section

namespace Cert.Proof.Reference

open Cert.ReferenceIdeal Cert.ReferenceIdeal.Gen Idealize.ShloMosaic Idealize.ShloMosaic.TcCoe Idealize.SL.Sem Idealize.ShloMosaic.StableHlo

variable {F : FTy → Type} [FloatOps F]

abbrev ops6 : List (HloOp τ sig (Elt F)) :=
  [ binary main_v20 main_v59 main_v60 ((fun a b => concatenate S20000x512 1 [⟨S20000x256, a⟩, ⟨S20000x256, b⟩] concatenates_S20000x256_S20000x256_S20000x512_d1) : (⟨S20000x256, .f32⟩ : BufTy).Contents (Elt F) → (⟨S20000x256, .f32⟩ : BufTy).Contents (Elt F) → (⟨S20000x512, .f32⟩ : BufTy).Contents (Elt F)),
    unary main_arg16 main_v61 ((extractStridedSlice S1x512x256 ![0, 0, 0] · slices_S3x512x256_S1x512x256_0_0_0) : (⟨S3x512x256, .f32⟩ : BufTy).Contents (Elt F) → (⟨S1x512x256, .f32⟩ : BufTy).Contents (Elt F)),
    reshape main_v61 main_v62 rfl shapeCasts_S1x512x256_S512x256,
    binary main_v60 main_v62 main_v63 ((fun l r => Host.dotGeneral dot_S20000x512_S512x256_S20000x256_1_0_0_1_n_n none l r) : (⟨S20000x512, .f32⟩ : BufTy).Contents (Elt F) → (⟨S512x256, .f32⟩ : BufTy).Contents (Elt F) → (⟨S20000x256, .f32⟩ : BufTy).Contents (Elt F)),
    unary main_arg17 main_v64 ((extractStridedSlice S1x256 ![0, 0] · slices_S3x256_S1x256_0_0) : (⟨S3x256, .f32⟩ : BufTy).Contents (Elt F) → (⟨S1x256, .f32⟩ : BufTy).Contents (Elt F)),
    reshape main_v64 main_v65 rfl shapeCasts_S1x256_S256,
    unary main_v65 main_v66 (broadcastInDim S1x256 ![1] bcast_S256_S1x256_1 : (⟨S256, .f32⟩ : BufTy).Contents (Elt F) → (⟨S1x256, .f32⟩ : BufTy).Contents (Elt F)),
    unary main_v66 main_v67 (broadcastInDim S20000x256 ![0, 1] bcast_S1x256_S20000x256_0_1 : (⟨S1x256, .f32⟩ : BufTy).Contents (Elt F) → (⟨S20000x256, .f32⟩ : BufTy).Contents (Elt F)),
    binary main_v63 main_v67 main_v68 (addf : (⟨S20000x256, .f32⟩ : BufTy).Contents (Elt F) → (⟨S20000x256, .f32⟩ : BufTy).Contents (Elt F) → (⟨S20000x256, .f32⟩ : BufTy).Contents (Elt F)),
    TRef.nullary (TRef.of (T := ⟨S_, .f32⟩) main_call5_cst) (constant S_ .f32 0x00000000#32),
    TRef.unary (TRef.of (T := ⟨S_, .f32⟩) main_call5_cst) (TRef.of (T := ⟨S20000x256, .f32⟩) main_call5_v0) (broadcastInDim S20000x256 ![] bcast_S_S20000x256),
    TRef.binary (TRef.of (T := ⟨S20000x256, .f32⟩) main_v68) (TRef.of (T := ⟨S20000x256, .f32⟩) main_call5_v0) (TRef.of (T := ⟨S20000x256, .f32⟩) main_v69) maximumf,
    unary main_arg18 main_v70 ((extractStridedSlice S1x256x256 ![0, 0, 0] · slices_S3x256x256_S1x256x256_0_0_0) : (⟨S3x256x256, .f32⟩ : BufTy).Contents (Elt F) → (⟨S1x256x256, .f32⟩ : BufTy).Contents (Elt F)),
    reshape main_v70 main_v71 rfl shapeCasts_S1x256x256_S256x256,
    binary main_v69 main_v71 main_v72 ((fun l r => Host.dotGeneral dot_S20000x256_S256x256_S20000x256_1_0_0_1_n_n none l r) : (⟨S20000x256, .f32⟩ : BufTy).Contents (Elt F) → (⟨S256x256, .f32⟩ : BufTy).Contents (Elt F) → (⟨S20000x256, .f32⟩ : BufTy).Contents (Elt F)),
    unary main_arg19 main_v73 ((extractStridedSlice S1x256 ![0, 0] · slices_S3x256_S1x256_0_0) : (⟨S3x256, .f32⟩ : BufTy).Contents (Elt F) → (⟨S1x256, .f32⟩ : BufTy).Contents (Elt F)),
    reshape main_v73 main_v74 rfl shapeCasts_S1x256_S256,
    unary main_v74 main_v75 (broadcastInDim S1x256 ![1] bcast_S256_S1x256_1 : (⟨S256, .f32⟩ : BufTy).Contents (Elt F) → (⟨S1x256, .f32⟩ : BufTy).Contents (Elt F)),
    unary main_v75 main_v76 (broadcastInDim S20000x256 ![0, 1] bcast_S1x256_S20000x256_0_1 : (⟨S1x256, .f32⟩ : BufTy).Contents (Elt F) → (⟨S20000x256, .f32⟩ : BufTy).Contents (Elt F)),
    binary main_v72 main_v76 main_v77 (addf : (⟨S20000x256, .f32⟩ : BufTy).Contents (Elt F) → (⟨S20000x256, .f32⟩ : BufTy).Contents (Elt F) → (⟨S20000x256, .f32⟩ : BufTy).Contents (Elt F)) ]

theorem step6 (a : ArgVals F) (V : Valuation τ sig (Elt F)) (h : Inv5 a V) : Inv6 a (after ops6 V) := by
  have hA := h.args
  refine ⟨⟨?_, ?_, ?_, ?_, ?_, ?_, ?_, ?_, ?_, ?_, ?_, ?_, ?_, ?_, ?_, ?_, ?_, ?_, ?_, ?_, ?_, ?_, ?_, ?_⟩, ?_, ?_, ?_, ?v77⟩
  case v77 =>

    after_results_simp
    rw [h.v20, h.v59, hA.a16, hA.a17, hA.a18, hA.a19]
    rfl
  all_goals stage_step hA [h.v20, h.v22, h.v24, h.v59]

end Cert.Proof.Reference

end
-- ==== Proof.RefRunParts.P7.lean ====
import proofs.«411300_j19516331393713_3_alg».proof.Proof.RefRunParts.P0

noncomputable section

namespace Cert.Proof.Reference

open Cert.ReferenceIdeal Cert.ReferenceIdeal.Gen Idealize.ShloMosaic Idealize.ShloMosaic.TcCoe Idealize.SL.Sem Idealize.ShloMosaic.StableHlo

variable {F : FTy → Type} [FloatOps F]

abbrev ops7 : List (HloOp τ sig (Elt F)) :=
  [ binary main_v20 main_v77 main_v78 (addf : (⟨S20000x256, .f32⟩ : BufTy).Contents (Elt F) → (⟨S20000x256, .f32⟩ : BufTy).Contents (Elt F) → (⟨S20000x256, .f32⟩ : BufTy).Contents (Elt F)),
    nullary main_c_3 (constantI S_ 32 0#32),
    unary main_c_3 main_v79 (broadcastInDim S320000 ![] bcast_S_S320000 : (⟨S_, .i32⟩ : BufTy).Contents (Elt F) → (⟨S320000, .i32⟩ : BufTy).Contents (Elt F)),
    binary main_v22 main_v79 main_v80 (cmpi .slt : (⟨S320000, .i32⟩ : BufTy).Contents (Elt F) → (⟨S320000, .i32⟩ : BufTy).Contents (Elt F) → (⟨S320000, .i1⟩ : BufTy).Contents (Elt F)),
    nullary main_c_4 (constantI S_ 32 20000#32),
    unary main_c_4 main_v81 (broadcastInDim S320000 ![] bcast_S_S320000 : (⟨S_, .i32⟩ : BufTy).Contents (Elt F) → (⟨S320000, .i32⟩ : BufTy).Contents (Elt F)),
    binary main_v22 main_v81 main_v82 (addi : (⟨S320000, .i32⟩ : BufTy).Contents (Elt F) → (⟨S320000, .i32⟩ : BufTy).Contents (Elt F) → (⟨S320000, .i32⟩ : BufTy).Contents (Elt F)),
    ternary main_v80 main_v82 main_v22 main_v83 (select : (⟨S320000, .i1⟩ : BufTy).Contents (Elt F) → (⟨S320000, .i32⟩ : BufTy).Contents (Elt F) → (⟨S320000, .i32⟩ : BufTy).Contents (Elt F) → (⟨S320000, .i32⟩ : BufTy).Contents (Elt F)),
    unary main_v83 main_v84 (broadcastInDim S320000x1 ![0] bcast_S320000_S320000x1_0 : (⟨S320000, .i32⟩ : BufTy).Contents (Elt F) → (⟨S320000x1, .i32⟩ : BufTy).Contents (Elt F)),
    binary main_v78 main_v84 main_v85 ((fun x i => Host.gather gather_S20000x256_S320000x1_S320000x256_1_0_n_n_0_1_1256 x i) : (⟨S20000x256, .f32⟩ : BufTy).Contents (Elt F) → (⟨S320000x1, .i32⟩ : BufTy).Contents (Elt F) → (⟨S320000x256, .f32⟩ : BufTy).Contents (Elt F)),
    nullary main_c_5 (constantI S_ 32 0#32),
    unary main_c_5 main_v86 (broadcastInDim S320000 ![] bcast_S_S320000 : (⟨S_, .i32⟩ : BufTy).Contents (Elt F) → (⟨S320000, .i32⟩ : BufTy).Contents (Elt F)),
    binary main_v24 main_v86 main_v87 (cmpi .slt : (⟨S320000, .i32⟩ : BufTy).Contents (Elt F) → (⟨S320000, .i32⟩ : BufTy).Contents (Elt F) → (⟨S320000, .i1⟩ : BufTy).Contents (Elt F)),
    nullary main_c_6 (constantI S_ 32 20000#32),
    unary main_c_6 main_v88 (broadcastInDim S320000 ![] bcast_S_S320000 : (⟨S_, .i32⟩ : BufTy).Contents (Elt F) → (⟨S320000, .i32⟩ : BufTy).Contents (Elt F)),
    binary main_v24 main_v88 main_v89 (addi : (⟨S320000, .i32⟩ : BufTy).Contents (Elt F) → (⟨S320000, .i32⟩ : BufTy).Contents (Elt F) → (⟨S320000, .i32⟩ : BufTy).Contents (Elt F)),
    ternary main_v87 main_v89 main_v24 main_v90 (select : (⟨S320000, .i1⟩ : BufTy).Contents (Elt F) → (⟨S320000, .i32⟩ : BufTy).Contents (Elt F) → (⟨S320000, .i32⟩ : BufTy).Contents (Elt F) → (⟨S320000, .i32⟩ : BufTy).Contents (Elt F)),
    unary main_v90 main_v91 (broadcastInDim S320000x1 ![0] bcast_S320000_S320000x1_0 : (⟨S320000, .i32⟩ : BufTy).Contents (Elt F) → (⟨S320000x1, .i32⟩ : BufTy).Contents (Elt F)),
    binary main_v78 main_v91 main_v92 ((fun x i => Host.gather gather_S20000x256_S320000x1_S320000x256_1_0_n_n_0_1_1256 x i) : (⟨S20000x256, .f32⟩ : BufTy).Contents (Elt F) → (⟨S320000x1, .i32⟩ : BufTy).Contents (Elt F) → (⟨S320000x256, .f32⟩ : BufTy).Contents (Elt F)) ]

set_option maxHeartbeats 2000000 in

theorem step7 (a : ArgVals F) (V : Valuation τ sig (Elt F)) (h : Inv6 a V) : Inv7 a (after ops7 V) := by
  have hA := h.args
  refine ⟨⟨?_, ?_, ?_, ?_, ?_, ?_, ?_, ?_, ?_, ?_, ?_, ?_, ?_, ?_, ?_, ?_, ?_, ?_, ?_, ?_, ?_, ?_, ?_, ?_⟩, ?_, ?_, ?_, ?_, ?_⟩
  all_goals stage_step hA [h.v20, h.v22, h.v24, h.v77]

end Cert.Proof.Reference

end
-- ==== Proof.RefRunParts.P8.lean ====
import proofs.«411300_j19516331393713_3_alg».proof.Proof.RefRunParts.P0

noncomputable section

namespace Cert.Proof.Reference

open Cert.ReferenceIdeal Cert.ReferenceIdeal.Gen Idealize.ShloMosaic Idealize.ShloMosaic.TcCoe Idealize.SL.Sem Idealize.ShloMosaic.StableHlo

variable {F : FTy → Type} [FloatOps F]

abbrev ops8 : List (HloOp τ sig (Elt F)) :=
  [ binary main_v85 main_v92 main_v93 ((fun a b => concatenate S320000x512 1 [⟨S320000x256, a⟩, ⟨S320000x256, b⟩] concatenates_S320000x256_S320000x256_S320000x512_d1) : (⟨S320000x256, .f32⟩ : BufTy).Contents (Elt F) → (⟨S320000x256, .f32⟩ : BufTy).Contents (Elt F) → (⟨S320000x512, .f32⟩ : BufTy).Contents (Elt F)),
    unary main_arg12 main_v94 ((extractStridedSlice S1x512x256 ![1, 0, 0] · slices_S3x512x256_S1x512x256_1_0_0) : (⟨S3x512x256, .f32⟩ : BufTy).Contents (Elt F) → (⟨S1x512x256, .f32⟩ : BufTy).Contents (Elt F)),
    reshape main_v94 main_v95 rfl shapeCasts_S1x512x256_S512x256,
    binary main_v93 main_v95 main_v96 ((fun l r => Host.dotGeneral dot_S320000x512_S512x256_S320000x256_1_0_0_1_n_n none l r) : (⟨S320000x512, .f32⟩ : BufTy).Contents (Elt F) → (⟨S512x256, .f32⟩ : BufTy).Contents (Elt F) → (⟨S320000x256, .f32⟩ : BufTy).Contents (Elt F)),
    unary main_arg13 main_v97 ((extractStridedSlice S1x256 ![1, 0] · slices_S3x256_S1x256_1_0) : (⟨S3x256, .f32⟩ : BufTy).Contents (Elt F) → (⟨S1x256, .f32⟩ : BufTy).Contents (Elt F)),
    reshape main_v97 main_v98 rfl shapeCasts_S1x256_S256,
    unary main_v98 main_v99 (broadcastInDim S1x256 ![1] bcast_S256_S1x256_1 : (⟨S256, .f32⟩ : BufTy).Contents (Elt F) → (⟨S1x256, .f32⟩ : BufTy).Contents (Elt F)),
    unary main_v99 main_v100 (broadcastInDim S320000x256 ![0, 1] bcast_S1x256_S320000x256_0_1 : (⟨S1x256, .f32⟩ : BufTy).Contents (Elt F) → (⟨S320000x256, .f32⟩ : BufTy).Contents (Elt F)),
    binary main_v96 main_v100 main_v101 (addf : (⟨S320000x256, .f32⟩ : BufTy).Contents (Elt F) → (⟨S320000x256, .f32⟩ : BufTy).Contents (Elt F) → (⟨S320000x256, .f32⟩ : BufTy).Contents (Elt F)),
    TRef.nullary (TRef.of (T := ⟨S_, .f32⟩) main_call6_cst) (constant S_ .f32 0x00000000#32),
    TRef.unary (TRef.of (T := ⟨S_, .f32⟩) main_call6_cst) (TRef.of (T := ⟨S320000x256, .f32⟩) main_call6_v0) (broadcastInDim S320000x256 ![] bcast_S_S320000x256),
    TRef.binary (TRef.of (T := ⟨S320000x256, .f32⟩) main_v101) (TRef.of (T := ⟨S320000x256, .f32⟩) main_call6_v0) (TRef.of (T := ⟨S320000x256, .f32⟩) main_v102) maximumf,
    unary main_arg14 main_v103 ((extractStridedSlice S1x256x256 ![1, 0, 0] · slices_S3x256x256_S1x256x256_1_0_0) : (⟨S3x256x256, .f32⟩ : BufTy).Contents (Elt F) → (⟨S1x256x256, .f32⟩ : BufTy).Contents (Elt F)),
    reshape main_v103 main_v104 rfl shapeCasts_S1x256x256_S256x256,
    binary main_v102 main_v104 main_v105 ((fun l r => Host.dotGeneral dot_S320000x256_S256x256_S320000x256_1_0_0_1_n_n none l r) : (⟨S320000x256, .f32⟩ : BufTy).Contents (Elt F) → (⟨S256x256, .f32⟩ : BufTy).Contents (Elt F) → (⟨S320000x256, .f32⟩ : BufTy).Contents (Elt F)),
    unary main_arg15 main_v106 ((extractStridedSlice S1x256 ![1, 0] · slices_S3x256_S1x256_1_0) : (⟨S3x256, .f32⟩ : BufTy).Contents (Elt F) → (⟨S1x256, .f32⟩ : BufTy).Contents (Elt F)),
    reshape main_v106 main_v107 rfl shapeCasts_S1x256_S256,
    unary main_v107 main_v108 (broadcastInDim S1x256 ![1] bcast_S256_S1x256_1 : (⟨S256, .f32⟩ : BufTy).Contents (Elt F) → (⟨S1x256, .f32⟩ : BufTy).Contents (Elt F)),
    unary main_v108 main_v109 (broadcastInDim S320000x256 ![0, 1] bcast_S1x256_S320000x256_0_1 : (⟨S1x256, .f32⟩ : BufTy).Contents (Elt F) → (⟨S320000x256, .f32⟩ : BufTy).Contents (Elt F)),
    binary main_v105 main_v109 main_v110 (addf : (⟨S320000x256, .f32⟩ : BufTy).Contents (Elt F) → (⟨S320000x256, .f32⟩ : BufTy).Contents (Elt F) → (⟨S320000x256, .f32⟩ : BufTy).Contents (Elt F)) ]

theorem step8 (a : ArgVals F) (V : Valuation τ sig (Elt F)) (h : Inv7 a V) : Inv8 a (after ops8 V) := by
  have hA := h.args
  refine ⟨⟨?_, ?_, ?_, ?_, ?_, ?_, ?_, ?_, ?_, ?_, ?_, ?_, ?_, ?_, ?_, ?_, ?_, ?_, ?_, ?_, ?_, ?_, ?_, ?_⟩, ?_, ?_, ?_, ?v110⟩
  case v110 =>

    after_results_simp
    rw [h.v85, h.v92, hA.a12, hA.a13, hA.a14, hA.a15]
    rfl
  all_goals stage_step hA [h.v22, h.v24, h.v78, h.v85, h.v92]

end Cert.Proof.Reference

end
-- ==== Proof.RefRunParts.P9.lean ====
import proofs.«411300_j19516331393713_3_alg».proof.Proof.RefRunParts.P0

noncomputable section

namespace Cert.Proof.Reference

open Cert.ReferenceIdeal Cert.ReferenceIdeal.Gen Idealize.ShloMosaic Idealize.ShloMosaic.TcCoe Idealize.SL.Sem Idealize.ShloMosaic.StableHlo

variable {F : FTy → Type} [FloatOps F]

abbrev ops9 : List (HloOp τ sig (Elt F)) :=
  [ nullary main_cst_7 (constant S_ .f32 0x00000000#32),
    unary main_cst_7 main_v111 (broadcastInDim S20000x256 ![] bcast_S_S20000x256 : (⟨S_, .f32⟩ : BufTy).Contents (Elt F) → (⟨S20000x256, .f32⟩ : BufTy).Contents (Elt F)),
    unary main_v24 main_v112 (broadcastInDim S320000x1 ![0] bcast_S320000_S320000x1_0 : (⟨S320000, .i32⟩ : BufTy).Contents (Elt F) → (⟨S320000x1, .i32⟩ : BufTy).Contents (Elt F)),
    ternary main_v111 main_v112 main_v110 main_v113 ((fun x i u => Host.scatterAdd scatter_S20000x256_S320000x1_S320000x256_1_0_0_1 x i u) : (⟨S20000x256, .f32⟩ : BufTy).Contents (Elt F) → (⟨S320000x1, .i32⟩ : BufTy).Contents (Elt F) → (⟨S320000x256, .f32⟩ : BufTy).Contents (Elt F) → (⟨S20000x256, .f32⟩ : BufTy).Contents (Elt F)) ]

theorem step9 (a : ArgVals F) (V : Valuation τ sig (Elt F)) (h : Inv8 a V) : Inv9 a (after ops9 V) := by
  have hA := h.args
  refine ⟨⟨?_, ?_, ?_, ?_, ?_, ?_, ?_, ?_, ?_, ?_, ?_, ?_, ?_, ?_, ?_, ?_, ?_, ?_, ?_, ?_, ?_, ?_, ?_, ?_⟩, ?_, ?_, ?_, ?_⟩
  all_goals stage_step hA [h.v22, h.v24, h.v78, h.v110]

end Cert.Proof.Reference

end
-- ==== Proof.RefRunParts.P10.lean ====
import proofs.«411300_j19516331393713_3_alg».proof.Proof.RefRunParts.P0

noncomputable section

namespace Cert.Proof.Reference

open Cert.ReferenceIdeal Cert.ReferenceIdeal.Gen Idealize.ShloMosaic Idealize.ShloMosaic.TcCoe Idealize.SL.Sem Idealize.ShloMosaic.StableHlo

variable {F : FTy → Type} [FloatOps F]

abbrev ops10 : List (HloOp τ sig (Elt F)) :=
  [ binary main_v78 main_v113 main_v114 ((fun a b => concatenate S20000x512 1 [⟨S20000x256, a⟩, ⟨S20000x256, b⟩] concatenates_S20000x256_S20000x256_S20000x512_d1) : (⟨S20000x256, .f32⟩ : BufTy).Contents (Elt F) → (⟨S20000x256, .f32⟩ : BufTy).Contents (Elt F) → (⟨S20000x512, .f32⟩ : BufTy).Contents (Elt F)),
    unary main_arg16 main_v115 ((extractStridedSlice S1x512x256 ![1, 0, 0] · slices_S3x512x256_S1x512x256_1_0_0) : (⟨S3x512x256, .f32⟩ : BufTy).Contents (Elt F) → (⟨S1x512x256, .f32⟩ : BufTy).Contents (Elt F)),
    reshape main_v115 main_v116 rfl shapeCasts_S1x512x256_S512x256,
    binary main_v114 main_v116 main_v117 ((fun l r => Host.dotGeneral dot_S20000x512_S512x256_S20000x256_1_0_0_1_n_n none l r) : (⟨S20000x512, .f32⟩ : BufTy).Contents (Elt F) → (⟨S512x256, .f32⟩ : BufTy).Contents (Elt F) → (⟨S20000x256, .f32⟩ : BufTy).Contents (Elt F)),
    unary main_arg17 main_v118 ((extractStridedSlice S1x256 ![1, 0] · slices_S3x256_S1x256_1_0) : (⟨S3x256, .f32⟩ : BufTy).Contents (Elt F) → (⟨S1x256, .f32⟩ : BufTy).Contents (Elt F)),
    reshape main_v118 main_v119 rfl shapeCasts_S1x256_S256,
    unary main_v119 main_v120 (broadcastInDim S1x256 ![1] bcast_S256_S1x256_1 : (⟨S256, .f32⟩ : BufTy).Contents (Elt F) → (⟨S1x256, .f32⟩ : BufTy).Contents (Elt F)),
    unary main_v120 main_v121 (broadcastInDim S20000x256 ![0, 1] bcast_S1x256_S20000x256_0_1 : (⟨S1x256, .f32⟩ : BufTy).Contents (Elt F) → (⟨S20000x256, .f32⟩ : BufTy).Contents (Elt F)),
    binary main_v117 main_v121 main_v122 (addf : (⟨S20000x256, .f32⟩ : BufTy).Contents (Elt F) → (⟨S20000x256, .f32⟩ : BufTy).Contents (Elt F) → (⟨S20000x256, .f32⟩ : BufTy).Contents (Elt F)),
    TRef.nullary (TRef.of (T := ⟨S_, .f32⟩) main_call7_cst) (constant S_ .f32 0x00000000#32),
    TRef.unary (TRef.of (T := ⟨S_, .f32⟩) main_call7_cst) (TRef.of (T := ⟨S20000x256, .f32⟩) main_call7_v0) (broadcastInDim S20000x256 ![] bcast_S_S20000x256),
    TRef.binary (TRef.of (T := ⟨S20000x256, .f32⟩) main_v122) (TRef.of (T := ⟨S20000x256, .f32⟩) main_call7_v0) (TRef.of (T := ⟨S20000x256, .f32⟩) main_v123) maximumf,
    unary main_arg18 main_v124 ((extractStridedSlice S1x256x256 ![1, 0, 0] · slices_S3x256x256_S1x256x256_1_0_0) : (⟨S3x256x256, .f32⟩ : BufTy).Contents (Elt F) → (⟨S1x256x256, .f32⟩ : BufTy).Contents (Elt F)),
    reshape main_v124 main_v125 rfl shapeCasts_S1x256x256_S256x256,
    binary main_v123 main_v125 main_v126 ((fun l r => Host.dotGeneral dot_S20000x256_S256x256_S20000x256_1_0_0_1_n_n none l r) : (⟨S20000x256, .f32⟩ : BufTy).Contents (Elt F) → (⟨S256x256, .f32⟩ : BufTy).Contents (Elt F) → (⟨S20000x256, .f32⟩ : BufTy).Contents (Elt F)),
    unary main_arg19 main_v127 ((extractStridedSlice S1x256 ![1, 0] · slices_S3x256_S1x256_1_0) : (⟨S3x256, .f32⟩ : BufTy).Contents (Elt F) → (⟨S1x256, .f32⟩ : BufTy).Contents (Elt F)),
    reshape main_v127 main_v128 rfl shapeCasts_S1x256_S256,
    unary main_v128 main_v129 (broadcastInDim S1x256 ![1] bcast_S256_S1x256_1 : (⟨S256, .f32⟩ : BufTy).Contents (Elt F) → (⟨S1x256, .f32⟩ : BufTy).Contents (Elt F)),
    unary main_v129 main_v130 (broadcastInDim S20000x256 ![0, 1] bcast_S1x256_S20000x256_0_1 : (⟨S1x256, .f32⟩ : BufTy).Contents (Elt F) → (⟨S20000x256, .f32⟩ : BufTy).Contents (Elt F)),
    binary main_v126 main_v130 main_v131 (addf : (⟨S20000x256, .f32⟩ : BufTy).Contents (Elt F) → (⟨S20000x256, .f32⟩ : BufTy).Contents (Elt F) → (⟨S20000x256, .f32⟩ : BufTy).Contents (Elt F)) ]

theorem step10 (a : ArgVals F) (V : Valuation τ sig (Elt F)) (h : Inv9 a V) : Inv10 a (after ops10 V) := by
  have hA := h.args
  refine ⟨⟨?_, ?_, ?_, ?_, ?_, ?_, ?_, ?_, ?_, ?_, ?_, ?_, ?_, ?_, ?_, ?_, ?_, ?_, ?_, ?_, ?_, ?_, ?_, ?_⟩, ?_, ?_, ?_, ?v131⟩
  case v131 =>

    after_results_simp
    rw [h.v78, h.v113, hA.a16, hA.a17, hA.a18, hA.a19]
    rfl
  all_goals stage_step hA [h.v22, h.v24, h.v78, h.v113]

end Cert.Proof.Reference

end
-- ==== Proof.RefRunParts.P11.lean ====
import proofs.«411300_j19516331393713_3_alg».proof.Proof.RefRunParts.P0

noncomputable section

namespace Cert.Proof.Reference

open Cert.ReferenceIdeal Cert.ReferenceIdeal.Gen Idealize.ShloMosaic Idealize.ShloMosaic.TcCoe Idealize.SL.Sem Idealize.ShloMosaic.StableHlo

variable {F : FTy → Type} [FloatOps F]

abbrev ops11 : List (HloOp τ sig (Elt F)) :=
  [ binary main_v78 main_v131 main_v132 (addf : (⟨S20000x256, .f32⟩ : BufTy).Contents (Elt F) → (⟨S20000x256, .f32⟩ : BufTy).Contents (Elt F) → (⟨S20000x256, .f32⟩ : BufTy).Contents (Elt F)),
    nullary main_c_8 (constantI S_ 32 0#32),
    unary main_c_8 main_v133 (broadcastInDim S320000 ![] bcast_S_S320000 : (⟨S_, .i32⟩ : BufTy).Contents (Elt F) → (⟨S320000, .i32⟩ : BufTy).Contents (Elt F)),
    binary main_v22 main_v133 main_v134 (cmpi .slt : (⟨S320000, .i32⟩ : BufTy).Contents (Elt F) → (⟨S320000, .i32⟩ : BufTy).Contents (Elt F) → (⟨S320000, .i1⟩ : BufTy).Contents (Elt F)),
    nullary main_c_9 (constantI S_ 32 20000#32),
    unary main_c_9 main_v135 (broadcastInDim S320000 ![] bcast_S_S320000 : (⟨S_, .i32⟩ : BufTy).Contents (Elt F) → (⟨S320000, .i32⟩ : BufTy).Contents (Elt F)),
    binary main_v22 main_v135 main_v136 (addi : (⟨S320000, .i32⟩ : BufTy).Contents (Elt F) → (⟨S320000, .i32⟩ : BufTy).Contents (Elt F) → (⟨S320000, .i32⟩ : BufTy).Contents (Elt F)),
    ternary main_v134 main_v136 main_v22 main_v137 (select : (⟨S320000, .i1⟩ : BufTy).Contents (Elt F) → (⟨S320000, .i32⟩ : BufTy).Contents (Elt F) → (⟨S320000, .i32⟩ : BufTy).Contents (Elt F) → (⟨S320000, .i32⟩ : BufTy).Contents (Elt F)),
    unary main_v137 main_v138 (broadcastInDim S320000x1 ![0] bcast_S320000_S320000x1_0 : (⟨S320000, .i32⟩ : BufTy).Contents (Elt F) → (⟨S320000x1, .i32⟩ : BufTy).Contents (Elt F)),
    binary main_v132 main_v138 main_v139 ((fun x i => Host.gather gather_S20000x256_S320000x1_S320000x256_1_0_n_n_0_1_1256 x i) : (⟨S20000x256, .f32⟩ : BufTy).Contents (Elt F) → (⟨S320000x1, .i32⟩ : BufTy).Contents (Elt F) → (⟨S320000x256, .f32⟩ : BufTy).Contents (Elt F)),
    nullary main_c_10 (constantI S_ 32 0#32),
    unary main_c_10 main_v140 (broadcastInDim S320000 ![] bcast_S_S320000 : (⟨S_, .i32⟩ : BufTy).Contents (Elt F) → (⟨S320000, .i32⟩ : BufTy).Contents (Elt F)),
    binary main_v24 main_v140 main_v141 (cmpi .slt : (⟨S320000, .i32⟩ : BufTy).Contents (Elt F) → (⟨S320000, .i32⟩ : BufTy).Contents (Elt F) → (⟨S320000, .i1⟩ : BufTy).Contents (Elt F)),
    nullary main_c_11 (constantI S_ 32 20000#32),
    unary main_c_11 main_v142 (broadcastInDim S320000 ![] bcast_S_S320000 : (⟨S_, .i32⟩ : BufTy).Contents (Elt F) → (⟨S320000, .i32⟩ : BufTy).Contents (Elt F)),
    binary main_v24 main_v142 main_v143 (addi : (⟨S320000, .i32⟩ : BufTy).Contents (Elt F) → (⟨S320000, .i32⟩ : BufTy).Contents (Elt F) → (⟨S320000, .i32⟩ : BufTy).Contents (Elt F)),
    ternary main_v141 main_v143 main_v24 main_v144 (select : (⟨S320000, .i1⟩ : BufTy).Contents (Elt F) → (⟨S320000, .i32⟩ : BufTy).Contents (Elt F) → (⟨S320000, .i32⟩ : BufTy).Contents (Elt F) → (⟨S320000, .i32⟩ : BufTy).Contents (Elt F)),
    unary main_v144 main_v145 (broadcastInDim S320000x1 ![0] bcast_S320000_S320000x1_0 : (⟨S320000, .i32⟩ : BufTy).Contents (Elt F) → (⟨S320000x1, .i32⟩ : BufTy).Contents (Elt F)),
    binary main_v132 main_v145 main_v146 ((fun x i => Host.gather gather_S20000x256_S320000x1_S320000x256_1_0_n_n_0_1_1256 x i) : (⟨S20000x256, .f32⟩ : BufTy).Contents (Elt F) → (⟨S320000x1, .i32⟩ : BufTy).Contents (Elt F) → (⟨S320000x256, .f32⟩ : BufTy).Contents (Elt F)) ]

set_option maxHeartbeats 2000000 in

theorem step11 (a : ArgVals F) (V : Valuation τ sig (Elt F)) (h : Inv10 a V) : Inv11 a (after ops11 V) := by
  have hA := h.args
  refine ⟨⟨?_, ?_, ?_, ?_, ?_, ?_, ?_, ?_, ?_, ?_, ?_, ?_, ?_, ?_, ?_, ?_, ?_, ?_, ?_, ?_, ?_, ?_, ?_, ?_⟩, ?_, ?_, ?_, ?_⟩
  all_goals stage_step hA [h.v22, h.v24, h.v78, h.v131]

end Cert.Proof.Reference

end
-- ==== Proof.RefRunParts.P12.lean ====
import proofs.«411300_j19516331393713_3_alg».proof.Proof.RefRunParts.P0

noncomputable section

namespace Cert.Proof.Reference

open Cert.ReferenceIdeal Cert.ReferenceIdeal.Gen Idealize.ShloMosaic Idealize.ShloMosaic.TcCoe Idealize.SL.Sem Idealize.ShloMosaic.StableHlo

variable {F : FTy → Type} [FloatOps F]

abbrev ops12 : List (HloOp τ sig (Elt F)) :=
  [ binary main_v139 main_v146 main_v147 ((fun a b => concatenate S320000x512 1 [⟨S320000x256, a⟩, ⟨S320000x256, b⟩] concatenates_S320000x256_S320000x256_S320000x512_d1) : (⟨S320000x256, .f32⟩ : BufTy).Contents (Elt F) → (⟨S320000x256, .f32⟩ : BufTy).Contents (Elt F) → (⟨S320000x512, .f32⟩ : BufTy).Contents (Elt F)),
    unary main_arg12 main_v148 ((extractStridedSlice S1x512x256 ![2, 0, 0] · slices_S3x512x256_S1x512x256_2_0_0) : (⟨S3x512x256, .f32⟩ : BufTy).Contents (Elt F) → (⟨S1x512x256, .f32⟩ : BufTy).Contents (Elt F)),
    reshape main_v148 main_v149 rfl shapeCasts_S1x512x256_S512x256,
    binary main_v147 main_v149 main_v150 ((fun l r => Host.dotGeneral dot_S320000x512_S512x256_S320000x256_1_0_0_1_n_n none l r) : (⟨S320000x512, .f32⟩ : BufTy).Contents (Elt F) → (⟨S512x256, .f32⟩ : BufTy).Contents (Elt F) → (⟨S320000x256, .f32⟩ : BufTy).Contents (Elt F)),
    unary main_arg13 main_v151 ((extractStridedSlice S1x256 ![2, 0] · slices_S3x256_S1x256_2_0) : (⟨S3x256, .f32⟩ : BufTy).Contents (Elt F) → (⟨S1x256, .f32⟩ : BufTy).Contents (Elt F)),
    reshape main_v151 main_v152 rfl shapeCasts_S1x256_S256,
    unary main_v152 main_v153 (broadcastInDim S1x256 ![1] bcast_S256_S1x256_1 : (⟨S256, .f32⟩ : BufTy).Contents (Elt F) → (⟨S1x256, .f32⟩ : BufTy).Contents (Elt F)),
    unary main_v153 main_v154 (broadcastInDim S320000x256 ![0, 1] bcast_S1x256_S320000x256_0_1 : (⟨S1x256, .f32⟩ : BufTy).Contents (Elt F) → (⟨S320000x256, .f32⟩ : BufTy).Contents (Elt F)),
    binary main_v150 main_v154 main_v155 (addf : (⟨S320000x256, .f32⟩ : BufTy).Contents (Elt F) → (⟨S320000x256, .f32⟩ : BufTy).Contents (Elt F) → (⟨S320000x256, .f32⟩ : BufTy).Contents (Elt F)),
    TRef.nullary (TRef.of (T := ⟨S_, .f32⟩) main_call8_cst) (constant S_ .f32 0x00000000#32),
    TRef.unary (TRef.of (T := ⟨S_, .f32⟩) main_call8_cst) (TRef.of (T := ⟨S320000x256, .f32⟩) main_call8_v0) (broadcastInDim S320000x256 ![] bcast_S_S320000x256),
    TRef.binary (TRef.of (T := ⟨S320000x256, .f32⟩) main_v155) (TRef.of (T := ⟨S320000x256, .f32⟩) main_call8_v0) (TRef.of (T := ⟨S320000x256, .f32⟩) main_v156) maximumf,
    unary main_arg14 main_v157 ((extractStridedSlice S1x256x256 ![2, 0, 0] · slices_S3x256x256_S1x256x256_2_0_0) : (⟨S3x256x256, .f32⟩ : BufTy).Contents (Elt F) → (⟨S1x256x256, .f32⟩ : BufTy).Contents (Elt F)),
    reshape main_v157 main_v158 rfl shapeCasts_S1x256x256_S256x256,
    binary main_v156 main_v158 main_v159 ((fun l r => Host.dotGeneral dot_S320000x256_S256x256_S320000x256_1_0_0_1_n_n none l r) : (⟨S320000x256, .f32⟩ : BufTy).Contents (Elt F) → (⟨S256x256, .f32⟩ : BufTy).Contents (Elt F) → (⟨S320000x256, .f32⟩ : BufTy).Contents (Elt F)),
    unary main_arg15 main_v160 ((extractStridedSlice S1x256 ![2, 0] · slices_S3x256_S1x256_2_0) : (⟨S3x256, .f32⟩ : BufTy).Contents (Elt F) → (⟨S1x256, .f32⟩ : BufTy).Contents (Elt F)),
    reshape main_v160 main_v161 rfl shapeCasts_S1x256_S256,
    unary main_v161 main_v162 (broadcastInDim S1x256 ![1] bcast_S256_S1x256_1 : (⟨S256, .f32⟩ : BufTy).Contents (Elt F) → (⟨S1x256, .f32⟩ : BufTy).Contents (Elt F)),
    unary main_v162 main_v163 (broadcastInDim S320000x256 ![0, 1] bcast_S1x256_S320000x256_0_1 : (⟨S1x256, .f32⟩ : BufTy).Contents (Elt F) → (⟨S320000x256, .f32⟩ : BufTy).Contents (Elt F)),
    binary main_v159 main_v163 main_v164 (addf : (⟨S320000x256, .f32⟩ : BufTy).Contents (Elt F) → (⟨S320000x256, .f32⟩ : BufTy).Contents (Elt F) → (⟨S320000x256, .f32⟩ : BufTy).Contents (Elt F)),
    nullary main_cst_12 (constant S_ .f32 0x00000000#32) ]

theorem step12 (a : ArgVals F) (V : Valuation τ sig (Elt F)) (h : Inv11 a V) : Inv12 a (after ops12 V) := by
  have hA := h.args
  refine ⟨⟨?_, ?_, ?_, ?_, ?_, ?_, ?_, ?_, ?_, ?_, ?_, ?_, ?_, ?_, ?_, ?_, ?_, ?_, ?_, ?_, ?_, ?_, ?_, ?_⟩, ?_, ?_, ?v164, ?_⟩
  case v164 =>

    after_results_simp
    rw [h.v139, h.v146, hA.a12, hA.a13, hA.a14, hA.a15]
    rfl
  all_goals stage_step hA [h.v24, h.v132, h.v139, h.v146]

end Cert.Proof.Reference

end
-- ==== Proof.RefRunParts.P13.lean ====
import proofs.«411300_j19516331393713_3_alg».proof.Proof.RefRunParts.P0

noncomputable section

namespace Cert.Proof.Reference

open Cert.ReferenceIdeal Cert.ReferenceIdeal.Gen Idealize.ShloMosaic Idealize.ShloMosaic.TcCoe Idealize.SL.Sem Idealize.ShloMosaic.StableHlo

variable {F : FTy → Type} [FloatOps F]

abbrev ops13 : List (HloOp τ sig (Elt F)) :=
  [ unary main_cst_12 main_v165 (broadcastInDim S20000x256 ![] bcast_S_S20000x256 : (⟨S_, .f32⟩ : BufTy).Contents (Elt F) → (⟨S20000x256, .f32⟩ : BufTy).Contents (Elt F)),
    unary main_v24 main_v166 (broadcastInDim S320000x1 ![0] bcast_S320000_S320000x1_0 : (⟨S320000, .i32⟩ : BufTy).Contents (Elt F) → (⟨S320000x1, .i32⟩ : BufTy).Contents (Elt F)),
    ternary main_v165 main_v166 main_v164 main_v167 ((fun x i u => Host.scatterAdd scatter_S20000x256_S320000x1_S320000x256_1_0_0_1 x i u) : (⟨S20000x256, .f32⟩ : BufTy).Contents (Elt F) → (⟨S320000x1, .i32⟩ : BufTy).Contents (Elt F) → (⟨S320000x256, .f32⟩ : BufTy).Contents (Elt F) → (⟨S20000x256, .f32⟩ : BufTy).Contents (Elt F)) ]

theorem step13 (a : ArgVals F) (V : Valuation τ sig (Elt F)) (h : Inv12 a V) : Inv13 a (after ops13 V) := by
  have hA := h.args
  refine ⟨⟨?_, ?_, ?_, ?_, ?_, ?_, ?_, ?_, ?_, ?_, ?_, ?_, ?_, ?_, ?_, ?_, ?_, ?_, ?_, ?_, ?_, ?_, ?_, ?_⟩, ?_, ?_⟩
  all_goals stage_step hA [h.v24, h.v132, h.v164, h.cst_12]

end Cert.Proof.Reference

end
-- ==== Proof.RefRunParts.P14.lean ====
import proofs.«411300_j19516331393713_3_alg».proof.Proof.RefRunParts.P0

noncomputable section

namespace Cert.Proof.Reference

open Cert.ReferenceIdeal Cert.ReferenceIdeal.Gen Idealize.ShloMosaic Idealize.ShloMosaic.TcCoe Idealize.SL.Sem Idealize.ShloMosaic.StableHlo

variable {F : FTy → Type} [FloatOps F]

abbrev ops14 : List (HloOp τ sig (Elt F)) :=
  [ binary main_v132 main_v167 main_v168 ((fun a b => concatenate S20000x512 1 [⟨S20000x256, a⟩, ⟨S20000x256, b⟩] concatenates_S20000x256_S20000x256_S20000x512_d1) : (⟨S20000x256, .f32⟩ : BufTy).Contents (Elt F) → (⟨S20000x256, .f32⟩ : BufTy).Contents (Elt F) → (⟨S20000x512, .f32⟩ : BufTy).Contents (Elt F)),
    unary main_arg16 main_v169 ((extractStridedSlice S1x512x256 ![2, 0, 0] · slices_S3x512x256_S1x512x256_2_0_0) : (⟨S3x512x256, .f32⟩ : BufTy).Contents (Elt F) → (⟨S1x512x256, .f32⟩ : BufTy).Contents (Elt F)),
    reshape main_v169 main_v170 rfl shapeCasts_S1x512x256_S512x256,
    binary main_v168 main_v170 main_v171 ((fun l r => Host.dotGeneral dot_S20000x512_S512x256_S20000x256_1_0_0_1_n_n none l r) : (⟨S20000x512, .f32⟩ : BufTy).Contents (Elt F) → (⟨S512x256, .f32⟩ : BufTy).Contents (Elt F) → (⟨S20000x256, .f32⟩ : BufTy).Contents (Elt F)),
    unary main_arg17 main_v172 ((extractStridedSlice S1x256 ![2, 0] · slices_S3x256_S1x256_2_0) : (⟨S3x256, .f32⟩ : BufTy).Contents (Elt F) → (⟨S1x256, .f32⟩ : BufTy).Contents (Elt F)),
    reshape main_v172 main_v173 rfl shapeCasts_S1x256_S256,
    unary main_v173 main_v174 (broadcastInDim S1x256 ![1] bcast_S256_S1x256_1 : (⟨S256, .f32⟩ : BufTy).Contents (Elt F) → (⟨S1x256, .f32⟩ : BufTy).Contents (Elt F)),
    unary main_v174 main_v175 (broadcastInDim S20000x256 ![0, 1] bcast_S1x256_S20000x256_0_1 : (⟨S1x256, .f32⟩ : BufTy).Contents (Elt F) → (⟨S20000x256, .f32⟩ : BufTy).Contents (Elt F)),
    binary main_v171 main_v175 main_v176 (addf : (⟨S20000x256, .f32⟩ : BufTy).Contents (Elt F) → (⟨S20000x256, .f32⟩ : BufTy).Contents (Elt F) → (⟨S20000x256, .f32⟩ : BufTy).Contents (Elt F)),
    TRef.nullary (TRef.of (T := ⟨S_, .f32⟩) main_call9_cst) (constant S_ .f32 0x00000000#32),
    TRef.unary (TRef.of (T := ⟨S_, .f32⟩) main_call9_cst) (TRef.of (T := ⟨S20000x256, .f32⟩) main_call9_v0) (broadcastInDim S20000x256 ![] bcast_S_S20000x256),
    TRef.binary (TRef.of (T := ⟨S20000x256, .f32⟩) main_v176) (TRef.of (T := ⟨S20000x256, .f32⟩) main_call9_v0) (TRef.of (T := ⟨S20000x256, .f32⟩) main_v177) maximumf,
    unary main_arg18 main_v178 ((extractStridedSlice S1x256x256 ![2, 0, 0] · slices_S3x256x256_S1x256x256_2_0_0) : (⟨S3x256x256, .f32⟩ : BufTy).Contents (Elt F) → (⟨S1x256x256, .f32⟩ : BufTy).Contents (Elt F)),
    reshape main_v178 main_v179 rfl shapeCasts_S1x256x256_S256x256,
    binary main_v177 main_v179 main_v180 ((fun l r => Host.dotGeneral dot_S20000x256_S256x256_S20000x256_1_0_0_1_n_n none l r) : (⟨S20000x256, .f32⟩ : BufTy).Contents (Elt F) → (⟨S256x256, .f32⟩ : BufTy).Contents (Elt F) → (⟨S20000x256, .f32⟩ : BufTy).Contents (Elt F)),
    unary main_arg19 main_v181 ((extractStridedSlice S1x256 ![2, 0] · slices_S3x256_S1x256_2_0) : (⟨S3x256, .f32⟩ : BufTy).Contents (Elt F) → (⟨S1x256, .f32⟩ : BufTy).Contents (Elt F)),
    reshape main_v181 main_v182 rfl shapeCasts_S1x256_S256,
    unary main_v182 main_v183 (broadcastInDim S1x256 ![1] bcast_S256_S1x256_1 : (⟨S256, .f32⟩ : BufTy).Contents (Elt F) → (⟨S1x256, .f32⟩ : BufTy).Contents (Elt F)) ]

theorem step14 (a : ArgVals F) (V : Valuation τ sig (Elt F)) (h : Inv13 a V) : Inv14 a (after ops14 V) := by
  have hA := h.args
  refine ⟨⟨?_, ?_, ?_, ?_, ?_, ?_, ?_, ?_, ?_, ?_, ?_, ?_, ?_, ?_, ?_, ?_, ?_, ?_, ?_, ?_, ?_, ?_, ?_, ?_⟩, ?_, ?v180, ?_⟩
  case v180 =>

    after_results_simp
    rw [h.v132, h.v167, hA.a16, hA.a17, hA.a18]
    rfl
  all_goals stage_step hA [h.v132, h.v167]

end Cert.Proof.Reference

end
-- ==== Proof.RefRunParts.P15.lean ====
import proofs.«411300_j19516331393713_3_alg».proof.Proof.RefRunParts.P0

noncomputable section

namespace Cert.Proof.Reference

open Cert.ReferenceIdeal Cert.ReferenceIdeal.Gen Idealize.ShloMosaic Idealize.ShloMosaic.TcCoe Idealize.SL.Sem Idealize.ShloMosaic.StableHlo

variable {F : FTy → Type} [FloatOps F]

abbrev ops15 : List (HloOp τ sig (Elt F)) :=
  [ unary main_v183 main_v184 (broadcastInDim S20000x256 ![0, 1] bcast_S1x256_S20000x256_0_1 : (⟨S1x256, .f32⟩ : BufTy).Contents (Elt F) → (⟨S20000x256, .f32⟩ : BufTy).Contents (Elt F)),
    binary main_v180 main_v184 main_v185 (addf : (⟨S20000x256, .f32⟩ : BufTy).Contents (Elt F) → (⟨S20000x256, .f32⟩ : BufTy).Contents (Elt F) → (⟨S20000x256, .f32⟩ : BufTy).Contents (Elt F)),
    binary main_v132 main_v185 main_v186 (addf : (⟨S20000x256, .f32⟩ : BufTy).Contents (Elt F) → (⟨S20000x256, .f32⟩ : BufTy).Contents (Elt F) → (⟨S20000x256, .f32⟩ : BufTy).Contents (Elt F)),
    unary main_arg3 main_v187 ((extractStridedSlice S100000x1 ![0, 0] · slices_S100000x2_S100000x1_0_0) : (⟨S100000x2, .i32⟩ : BufTy).Contents (Elt F) → (⟨S100000x1, .i32⟩ : BufTy).Contents (Elt F)),
    reshape main_v187 main_v188 rfl shapeCasts_S100000x1_S100000,
    unary main_arg3 main_v189 ((extractStridedSlice S100000x1 ![0, 1] · slices_S100000x2_S100000x1_0_1) : (⟨S100000x2, .i32⟩ : BufTy).Contents (Elt F) → (⟨S100000x1, .i32⟩ : BufTy).Contents (Elt F)),
    reshape main_v189 main_v190 rfl shapeCasts_S100000x1_S100000,
    nullary main_c_13 (constantI S_ 32 0#32),
    unary main_c_13 main_v191 (broadcastInDim S100000 ![] bcast_S_S100000 : (⟨S_, .i32⟩ : BufTy).Contents (Elt F) → (⟨S100000, .i32⟩ : BufTy).Contents (Elt F)),
    binary main_v190 main_v191 main_v192 (cmpi .slt : (⟨S100000, .i32⟩ : BufTy).Contents (Elt F) → (⟨S100000, .i32⟩ : BufTy).Contents (Elt F) → (⟨S100000, .i1⟩ : BufTy).Contents (Elt F)),
    nullary main_c_14 (constantI S_ 32 20000#32),
    unary main_c_14 main_v193 (broadcastInDim S100000 ![] bcast_S_S100000 : (⟨S_, .i32⟩ : BufTy).Contents (Elt F) → (⟨S100000, .i32⟩ : BufTy).Contents (Elt F)),
    binary main_v190 main_v193 main_v194 (addi : (⟨S100000, .i32⟩ : BufTy).Contents (Elt F) → (⟨S100000, .i32⟩ : BufTy).Contents (Elt F) → (⟨S100000, .i32⟩ : BufTy).Contents (Elt F)),
    ternary main_v192 main_v194 main_v190 main_v195 (select : (⟨S100000, .i1⟩ : BufTy).Contents (Elt F) → (⟨S100000, .i32⟩ : BufTy).Contents (Elt F) → (⟨S100000, .i32⟩ : BufTy).Contents (Elt F) → (⟨S100000, .i32⟩ : BufTy).Contents (Elt F)),
    unary main_v195 main_v196 (broadcastInDim S100000x1 ![0] bcast_S100000_S100000x1_0 : (⟨S100000, .i32⟩ : BufTy).Contents (Elt F) → (⟨S100000x1, .i32⟩ : BufTy).Contents (Elt F)),
    nullary main_c_15 (constantI S_ 32 0#32),
    unary main_c_15 main_v197 (broadcastInDim S100000x1 ![] bcast_S_S100000x1 : (⟨S_, .i32⟩ : BufTy).Contents (Elt F) → (⟨S100000x1, .i32⟩ : BufTy).Contents (Elt F)) ]

set_option maxHeartbeats 2000000 in

theorem step15 (a : ArgVals F) (V : Valuation τ sig (Elt F)) (h : Inv14 a V) : Inv15 a (after ops15 V) := by
  have hA := h.args
  refine ⟨⟨?_, ?_, ?_, ?_, ?_, ?_, ?_, ?_, ?_, ?_, ?_, ?_, ?_, ?_, ?_, ?_, ?_, ?_, ?_, ?_, ?_, ?_, ?_, ?_⟩, ?_, ?_, ?_, ?_, ?_⟩
  all_goals stage_step hA [h.v132, h.v180, h.v183]

end Cert.Proof.Reference

end
-- ==== Proof.RefRunParts.P16.lean ====
import proofs.«411300_j19516331393713_3_alg».proof.Proof.RefRunParts.P0

noncomputable section

namespace Cert.Proof.Reference

open Cert.ReferenceIdeal Cert.ReferenceIdeal.Gen Idealize.ShloMosaic Idealize.ShloMosaic.TcCoe Idealize.SL.Sem Idealize.ShloMosaic.StableHlo

variable {F : FTy → Type} [FloatOps F]

abbrev ops16 : List (HloOp τ sig (Elt F)) :=
  [ binary main_v196 main_v197 main_v198 ((fun a b => concatenate S100000x2 1 [⟨S100000x1, a⟩, ⟨S100000x1, b⟩] concatenates_S100000x1_S100000x1_S100000x2_d1) : (⟨S100000x1, .i32⟩ : BufTy).Contents (Elt F) → (⟨S100000x1, .i32⟩ : BufTy).Contents (Elt F) → (⟨S100000x2, .i32⟩ : BufTy).Contents (Elt F)),
    binary main_arg1 main_v198 main_v199 ((fun x i => Host.gather gather_S20000x18_S100000x2_S100000x3_1_0_n_n_01_1_13 x i) : (⟨S20000x18, .f32⟩ : BufTy).Contents (Elt F) → (⟨S100000x2, .i32⟩ : BufTy).Contents (Elt F) → (⟨S100000x3, .f32⟩ : BufTy).Contents (Elt F)),
    nullary main_c_16 (constantI S_ 32 0#32),
    unary main_c_16 main_v200 (broadcastInDim S100000 ![] bcast_S_S100000 : (⟨S_, .i32⟩ : BufTy).Contents (Elt F) → (⟨S100000, .i32⟩ : BufTy).Contents (Elt F)),
    binary main_v188 main_v200 main_v201 (cmpi .slt : (⟨S100000, .i32⟩ : BufTy).Contents (Elt F) → (⟨S100000, .i32⟩ : BufTy).Contents (Elt F) → (⟨S100000, .i1⟩ : BufTy).Contents (Elt F)),
    nullary main_c_17 (constantI S_ 32 20000#32),
    unary main_c_17 main_v202 (broadcastInDim S100000 ![] bcast_S_S100000 : (⟨S_, .i32⟩ : BufTy).Contents (Elt F) → (⟨S100000, .i32⟩ : BufTy).Contents (Elt F)),
    binary main_v188 main_v202 main_v203 (addi : (⟨S100000, .i32⟩ : BufTy).Contents (Elt F) → (⟨S100000, .i32⟩ : BufTy).Contents (Elt F) → (⟨S100000, .i32⟩ : BufTy).Contents (Elt F)),
    ternary main_v201 main_v203 main_v188 main_v204 (select : (⟨S100000, .i1⟩ : BufTy).Contents (Elt F) → (⟨S100000, .i32⟩ : BufTy).Contents (Elt F) → (⟨S100000, .i32⟩ : BufTy).Contents (Elt F) → (⟨S100000, .i32⟩ : BufTy).Contents (Elt F)),
    unary main_v204 main_v205 (broadcastInDim S100000x1 ![0] bcast_S100000_S100000x1_0 : (⟨S100000, .i32⟩ : BufTy).Contents (Elt F) → (⟨S100000x1, .i32⟩ : BufTy).Contents (Elt F)),
    nullary main_c_18 (constantI S_ 32 0#32),
    unary main_c_18 main_v206 (broadcastInDim S100000x1 ![] bcast_S_S100000x1 : (⟨S_, .i32⟩ : BufTy).Contents (Elt F) → (⟨S100000x1, .i32⟩ : BufTy).Contents (Elt F)) ]

theorem step16 (a : ArgVals F) (V : Valuation τ sig (Elt F)) (h : Inv15 a V) : Inv16 a (after ops16 V) := by
  have hA := h.args
  refine ⟨⟨?_, ?_, ?_, ?_, ?_, ?_, ?_, ?_, ?_, ?_, ?_, ?_, ?_, ?_, ?_, ?_, ?_, ?_, ?_, ?_, ?_, ?_, ?_, ?_⟩, ?_, ?_, ?_, ?v199, ?_, ?_⟩
  case v199 =>

    after_results_simp
    rw [h.v196, h.v197, hA.a1]
    rfl
  all_goals stage_step hA [h.v186, h.v188, h.v190, h.v196, h.v197]

end Cert.Proof.Reference

end
-- ==== Proof.RefRunParts.P17.lean ====
import proofs.«411300_j19516331393713_3_alg».proof.Proof.RefRunParts.P0

noncomputable section

namespace Cert.Proof.Reference

open Cert.ReferenceIdeal Cert.ReferenceIdeal.Gen Idealize.ShloMosaic Idealize.ShloMosaic.TcCoe Idealize.SL.Sem Idealize.ShloMosaic.StableHlo

variable {F : FTy → Type} [FloatOps F]

abbrev ops17 : List (HloOp τ sig (Elt F)) :=
  [ binary main_v205 main_v206 main_v207 ((fun a b => concatenate S100000x2 1 [⟨S100000x1, a⟩, ⟨S100000x1, b⟩] concatenates_S100000x1_S100000x1_S100000x2_d1) : (⟨S100000x1, .i32⟩ : BufTy).Contents (Elt F) → (⟨S100000x1, .i32⟩ : BufTy).Contents (Elt F) → (⟨S100000x2, .i32⟩ : BufTy).Contents (Elt F)),
    binary main_arg1 main_v207 main_v208 ((fun x i => Host.gather gather_S20000x18_S100000x2_S100000x3_1_0_n_n_01_1_13 x i) : (⟨S20000x18, .f32⟩ : BufTy).Contents (Elt F) → (⟨S100000x2, .i32⟩ : BufTy).Contents (Elt F) → (⟨S100000x3, .f32⟩ : BufTy).Contents (Elt F)),
    binary main_v199 main_v208 main_v209 (subf : (⟨S100000x3, .f32⟩ : BufTy).Contents (Elt F) → (⟨S100000x3, .f32⟩ : BufTy).Contents (Elt F) → (⟨S100000x3, .f32⟩ : BufTy).Contents (Elt F)),
    TRef.binary (TRef.of (T := ⟨S100000x3, .f32⟩) main_v209) (TRef.of (T := ⟨S100000x3, .f32⟩) main_v209) (TRef.of (T := ⟨S100000x3, .f32⟩) main_call10_v0) mulf,
    TRef.nullary (TRef.of (T := ⟨S_, .f32⟩) main_call10_cst) (constant S_ .f32 0x00000000#32),
    TRef.binary (TRef.of (T := ⟨S100000x3, .f32⟩) main_call10_v0) (TRef.of (T := ⟨S_, .f32⟩) main_call10_cst) (TRef.of (T := ⟨S100000, .f32⟩) main_call10_v1) (fun x v => Host.reduceAdd x v reducesTo_S100000x3_S100000_d1 h_S_),
    TRef.unary (TRef.of (T := ⟨S100000, .f32⟩) main_call10_v1) (TRef.of (T := ⟨S100000x1, .f32⟩) main_call10_v2) (broadcastInDim S100000x1 ![0] bcast_S100000_S100000x1_0),
    TRef.unary (TRef.of (T := ⟨S100000x1, .f32⟩) main_call10_v2) (TRef.of (T := ⟨S100000x1, .f32⟩) main_v210) Host.sqrt,
    unary main_v210 main_v211 (Host.log1p : (⟨S100000x1, .f32⟩ : BufTy).Contents (Elt F) → (⟨S100000x1, .f32⟩ : BufTy).Contents (Elt F)),
    nullary main_c_19 (constantI S_ 32 0#32),
    unary main_c_19 main_v212 (broadcastInDim S100000 ![] bcast_S_S100000 : (⟨S_, .i32⟩ : BufTy).Contents (Elt F) → (⟨S100000, .i32⟩ : BufTy).Contents (Elt F)),
    binary main_v188 main_v212 main_v213 (cmpi .slt : (⟨S100000, .i32⟩ : BufTy).Contents (Elt F) → (⟨S100000, .i32⟩ : BufTy).Contents (Elt F) → (⟨S100000, .i1⟩ : BufTy).Contents (Elt F)),
    nullary main_c_20 (constantI S_ 32 20000#32),
    unary main_c_20 main_v214 (broadcastInDim S100000 ![] bcast_S_S100000 : (⟨S_, .i32⟩ : BufTy).Contents (Elt F) → (⟨S100000, .i32⟩ : BufTy).Contents (Elt F)),
    binary main_v188 main_v214 main_v215 (addi : (⟨S100000, .i32⟩ : BufTy).Contents (Elt F) → (⟨S100000, .i32⟩ : BufTy).Contents (Elt F) → (⟨S100000, .i32⟩ : BufTy).Contents (Elt F)),
    ternary main_v213 main_v215 main_v188 main_v216 (select : (⟨S100000, .i1⟩ : BufTy).Contents (Elt F) → (⟨S100000, .i32⟩ : BufTy).Contents (Elt F) → (⟨S100000, .i32⟩ : BufTy).Contents (Elt F) → (⟨S100000, .i32⟩ : BufTy).Contents (Elt F)) ]

set_option maxHeartbeats 2000000 in

theorem step17 (a : ArgVals F) (V : Valuation τ sig (Elt F)) (h : Inv16 a V) : Inv17 a (after ops17 V) := by
  have hA := h.args
  refine ⟨⟨?_, ?_, ?_, ?_, ?_, ?_, ?_, ?_, ?_, ?_, ?_, ?_, ?_, ?_, ?_, ?_, ?_, ?_, ?_, ?_, ?_, ?_, ?_, ?_⟩, ?_, ?_, ?_, ?v209, ?v211, ?_⟩

  case v209 =>
    after_results_simp
    rw [hA.a1, h.v199, h.v205, h.v206]
    rfl
  case v211 =>
    after_results_simp
    rw [hA.a1, h.v199, h.v205, h.v206]
    rfl
  all_goals stage_step hA [h.v186, h.v188, h.v190, h.v199, h.v205, h.v206]

end Cert.Proof.Reference

end
-- ==== Proof.RefRunParts.P18.lean ====
import proofs.«411300_j19516331393713_3_alg».proof.Proof.RefRunParts.P0

noncomputable section

namespace Cert.Proof.Reference

open Cert.ReferenceIdeal Cert.ReferenceIdeal.Gen Idealize.ShloMosaic Idealize.ShloMosaic.TcCoe Idealize.SL.Sem Idealize.ShloMosaic.StableHlo

variable {F : FTy → Type} [FloatOps F]

abbrev ops18 : List (HloOp τ sig (Elt F)) :=
  [ unary main_v216 main_v217 (broadcastInDim S100000x1 ![0] bcast_S100000_S100000x1_0 : (⟨S100000, .i32⟩ : BufTy).Contents (Elt F) → (⟨S100000x1, .i32⟩ : BufTy).Contents (Elt F)),
    nullary main_c_21 (constantI S_ 32 3#32),
    unary main_c_21 main_v218 (broadcastInDim S100000x1 ![] bcast_S_S100000x1 : (⟨S_, .i32⟩ : BufTy).Contents (Elt F) → (⟨S100000x1, .i32⟩ : BufTy).Contents (Elt F)) ]

theorem step18 (a : ArgVals F) (V : Valuation τ sig (Elt F)) (h : Inv17 a V) : Inv18 a (after ops18 V) := by
  have hA := h.args
  refine ⟨⟨?_, ?_, ?_, ?_, ?_, ?_, ?_, ?_, ?_, ?_, ?_, ?_, ?_, ?_, ?_, ?_, ?_, ?_, ?_, ?_, ?_, ?_, ?_, ?_⟩, ?_, ?_, ?_, ?_, ?_, ?_, ?_⟩
  all_goals stage_step hA [h.v186, h.v188, h.v190, h.v209, h.v211, h.v216]

end Cert.Proof.Reference

end
-- ==== Proof.RefRunParts.P19.lean ====
import proofs.«411300_j19516331393713_3_alg».proof.Proof.RefRunParts.P0

noncomputable section

namespace Cert.Proof.Reference

open Cert.ReferenceIdeal Cert.ReferenceIdeal.Gen Idealize.ShloMosaic Idealize.ShloMosaic.TcCoe Idealize.SL.Sem Idealize.ShloMosaic.StableHlo

variable {F : FTy → Type} [FloatOps F]

abbrev ops19 : List (HloOp τ sig (Elt F)) :=
  [ binary main_v217 main_v218 main_v219 ((fun a b => concatenate S100000x2 1 [⟨S100000x1, a⟩, ⟨S100000x1, b⟩] concatenates_S100000x1_S100000x1_S100000x2_d1) : (⟨S100000x1, .i32⟩ : BufTy).Contents (Elt F) → (⟨S100000x1, .i32⟩ : BufTy).Contents (Elt F) → (⟨S100000x2, .i32⟩ : BufTy).Contents (Elt F)),
    binary main_arg1 main_v219 main_v220 ((fun x i => Host.gather gather_S20000x18_S100000x2_S100000x3_1_0_n_n_01_1_13 x i) : (⟨S20000x18, .f32⟩ : BufTy).Contents (Elt F) → (⟨S100000x2, .i32⟩ : BufTy).Contents (Elt F) → (⟨S100000x3, .f32⟩ : BufTy).Contents (Elt F)),
    nullary main_cst_22 (constant S_ .f32 0x358637BD#32),
    unary main_cst_22 main_v221 (broadcastInDim S100000x3 ![] bcast_S_S100000x3 : (⟨S_, .f32⟩ : BufTy).Contents (Elt F) → (⟨S100000x3, .f32⟩ : BufTy).Contents (Elt F)),
    binary main_v220 main_v221 main_v222 (maximumf : (⟨S100000x3, .f32⟩ : BufTy).Contents (Elt F) → (⟨S100000x3, .f32⟩ : BufTy).Contents (Elt F) → (⟨S100000x3, .f32⟩ : BufTy).Contents (Elt F)),
    nullary main_c_23 (constantI S_ 32 0#32),
    unary main_c_23 main_v223 (broadcastInDim S100000 ![] bcast_S_S100000 : (⟨S_, .i32⟩ : BufTy).Contents (Elt F) → (⟨S100000, .i32⟩ : BufTy).Contents (Elt F)),
    binary main_v190 main_v223 main_v224 (cmpi .slt : (⟨S100000, .i32⟩ : BufTy).Contents (Elt F) → (⟨S100000, .i32⟩ : BufTy).Contents (Elt F) → (⟨S100000, .i1⟩ : BufTy).Contents (Elt F)),
    nullary main_c_24 (constantI S_ 32 20000#32),
    unary main_c_24 main_v225 (broadcastInDim S100000 ![] bcast_S_S100000 : (⟨S_, .i32⟩ : BufTy).Contents (Elt F) → (⟨S100000, .i32⟩ : BufTy).Contents (Elt F)),
    binary main_v190 main_v225 main_v226 (addi : (⟨S100000, .i32⟩ : BufTy).Contents (Elt F) → (⟨S100000, .i32⟩ : BufTy).Contents (Elt F) → (⟨S100000, .i32⟩ : BufTy).Contents (Elt F)),
    ternary main_v224 main_v226 main_v190 main_v227 (select : (⟨S100000, .i1⟩ : BufTy).Contents (Elt F) → (⟨S100000, .i32⟩ : BufTy).Contents (Elt F) → (⟨S100000, .i32⟩ : BufTy).Contents (Elt F) → (⟨S100000, .i32⟩ : BufTy).Contents (Elt F)),
    unary main_v227 main_v228 (broadcastInDim S100000x1 ![0] bcast_S100000_S100000x1_0 : (⟨S100000, .i32⟩ : BufTy).Contents (Elt F) → (⟨S100000x1, .i32⟩ : BufTy).Contents (Elt F)),
    nullary main_c_25 (constantI S_ 32 3#32),
    unary main_c_25 main_v229 (broadcastInDim S100000x1 ![] bcast_S_S100000x1 : (⟨S_, .i32⟩ : BufTy).Contents (Elt F) → (⟨S100000x1, .i32⟩ : BufTy).Contents (Elt F)) ]

set_option maxHeartbeats 2000000 in

theorem step19 (a : ArgVals F) (V : Valuation τ sig (Elt F)) (h : Inv18 a V) : Inv19 a (after ops19 V) := by
  have hA := h.args
  refine ⟨⟨?_, ?_, ?_, ?_, ?_, ?_, ?_, ?_, ?_, ?_, ?_, ?_, ?_, ?_, ?_, ?_, ?_, ?_, ?_, ?_, ?_, ?_, ?_, ?_⟩, ?_, ?_, ?_, ?_, ?_, ?v222, ?_, ?_⟩

  case v222 =>
    after_results_simp
    rw [hA.a1, h.v217, h.v218]
    rfl
  all_goals stage_step hA [h.v186, h.v188, h.v190, h.v209, h.v211, h.v217, h.v218]

end Cert.Proof.Reference

end
-- ==== Proof.RefRunParts.P20.lean ====
import proofs.«411300_j19516331393713_3_alg».proof.Proof.RefRunParts.P0

noncomputable section

namespace Cert.Proof.Reference

open Cert.ReferenceIdeal Cert.ReferenceIdeal.Gen Idealize.ShloMosaic Idealize.ShloMosaic.TcCoe Idealize.SL.Sem Idealize.ShloMosaic.StableHlo

variable {F : FTy → Type} [FloatOps F]

abbrev ops20 : List (HloOp τ sig (Elt F)) :=
  [ binary main_v228 main_v229 main_v230 ((fun a b => concatenate S100000x2 1 [⟨S100000x1, a⟩, ⟨S100000x1, b⟩] concatenates_S100000x1_S100000x1_S100000x2_d1) : (⟨S100000x1, .i32⟩ : BufTy).Contents (Elt F) → (⟨S100000x1, .i32⟩ : BufTy).Contents (Elt F) → (⟨S100000x2, .i32⟩ : BufTy).Contents (Elt F)),
    binary main_arg1 main_v230 main_v231 ((fun x i => Host.gather gather_S20000x18_S100000x2_S100000x3_1_0_n_n_01_1_13 x i) : (⟨S20000x18, .f32⟩ : BufTy).Contents (Elt F) → (⟨S100000x2, .i32⟩ : BufTy).Contents (Elt F) → (⟨S100000x3, .f32⟩ : BufTy).Contents (Elt F)),
    nullary main_cst_26 (constant S_ .f32 0x358637BD#32),
    unary main_cst_26 main_v232 (broadcastInDim S100000x3 ![] bcast_S_S100000x3 : (⟨S_, .f32⟩ : BufTy).Contents (Elt F) → (⟨S100000x3, .f32⟩ : BufTy).Contents (Elt F)),
    binary main_v231 main_v232 main_v233 (maximumf : (⟨S100000x3, .f32⟩ : BufTy).Contents (Elt F) → (⟨S100000x3, .f32⟩ : BufTy).Contents (Elt F) → (⟨S100000x3, .f32⟩ : BufTy).Contents (Elt F)),
    binary main_v233 main_v222 main_v234 (Host.divf : (⟨S100000x3, .f32⟩ : BufTy).Contents (Elt F) → (⟨S100000x3, .f32⟩ : BufTy).Contents (Elt F) → (⟨S100000x3, .f32⟩ : BufTy).Contents (Elt F)),
    unary main_v234 main_v235 (Host.log : (⟨S100000x3, .f32⟩ : BufTy).Contents (Elt F) → (⟨S100000x3, .f32⟩ : BufTy).Contents (Elt F)),
    nullary main_c_27 (constantI S_ 32 0#32),
    unary main_c_27 main_v236 (broadcastInDim S100000 ![] bcast_S_S100000 : (⟨S_, .i32⟩ : BufTy).Contents (Elt F) → (⟨S100000, .i32⟩ : BufTy).Contents (Elt F)),
    binary main_v188 main_v236 main_v237 (cmpi .slt : (⟨S100000, .i32⟩ : BufTy).Contents (Elt F) → (⟨S100000, .i32⟩ : BufTy).Contents (Elt F) → (⟨S100000, .i1⟩ : BufTy).Contents (Elt F)),
    nullary main_c_28 (constantI S_ 32 20000#32),
    unary main_c_28 main_v238 (broadcastInDim S100000 ![] bcast_S_S100000 : (⟨S_, .i32⟩ : BufTy).Contents (Elt F) → (⟨S100000, .i32⟩ : BufTy).Contents (Elt F)),
    binary main_v188 main_v238 main_v239 (addi : (⟨S100000, .i32⟩ : BufTy).Contents (Elt F) → (⟨S100000, .i32⟩ : BufTy).Contents (Elt F) → (⟨S100000, .i32⟩ : BufTy).Contents (Elt F)),
    ternary main_v237 main_v239 main_v188 main_v240 (select : (⟨S100000, .i1⟩ : BufTy).Contents (Elt F) → (⟨S100000, .i32⟩ : BufTy).Contents (Elt F) → (⟨S100000, .i32⟩ : BufTy).Contents (Elt F) → (⟨S100000, .i32⟩ : BufTy).Contents (Elt F)),
    unary main_v240 main_v241 (broadcastInDim S100000x1 ![0] bcast_S100000_S100000x1_0 : (⟨S100000, .i32⟩ : BufTy).Contents (Elt F) → (⟨S100000x1, .i32⟩ : BufTy).Contents (Elt F)),
    nullary main_c_29 (constantI S_ 32 15#32),
    unary main_c_29 main_v242 (broadcastInDim S100000x1 ![] bcast_S_S100000x1 : (⟨S_, .i32⟩ : BufTy).Contents (Elt F) → (⟨S100000x1, .i32⟩ : BufTy).Contents (Elt F)) ]

set_option maxHeartbeats 2000000 in

theorem step20 (a : ArgVals F) (V : Valuation τ sig (Elt F)) (h : Inv19 a V) : Inv20 a (after ops20 V) := by
  have hA := h.args
  refine ⟨⟨?_, ?_, ?_, ?_, ?_, ?_, ?_, ?_, ?_, ?_, ?_, ?_, ?_, ?_, ?_, ?_, ?_, ?_, ?_, ?_, ?_, ?_, ?_, ?_⟩, ?_, ?_, ?_, ?_, ?_, ?v235, ?_, ?_⟩
  case v235 =>

    after_results_simp
    rw [h.v228, h.v229, h.v222, hA.a1]
    rfl
  all_goals stage_step hA [h.v186, h.v188, h.v190, h.v209, h.v211, h.v222, h.v228, h.v229]

end Cert.Proof.Reference

end
-- ==== Proof.RefRunParts.P21.lean ====
import proofs.«411300_j19516331393713_3_alg».proof.Proof.RefRunParts.P0

noncomputable section

namespace Cert.Proof.Reference

open Cert.ReferenceIdeal Cert.ReferenceIdeal.Gen Idealize.ShloMosaic Idealize.ShloMosaic.TcCoe Idealize.SL.Sem Idealize.ShloMosaic.StableHlo

variable {F : FTy → Type} [FloatOps F]

abbrev ops21 : List (HloOp τ sig (Elt F)) :=
  [ binary main_v241 main_v242 main_v243 ((fun a b => concatenate S100000x2 1 [⟨S100000x1, a⟩, ⟨S100000x1, b⟩] concatenates_S100000x1_S100000x1_S100000x2_d1) : (⟨S100000x1, .i32⟩ : BufTy).Contents (Elt F) → (⟨S100000x1, .i32⟩ : BufTy).Contents (Elt F) → (⟨S100000x2, .i32⟩ : BufTy).Contents (Elt F)),
    binary main_arg1 main_v243 main_v244 ((fun x i => Host.gather gather_S20000x18_S100000x2_S100000x3_1_0_n_n_01_1_13 x i) : (⟨S20000x18, .f32⟩ : BufTy).Contents (Elt F) → (⟨S100000x2, .i32⟩ : BufTy).Contents (Elt F) → (⟨S100000x3, .f32⟩ : BufTy).Contents (Elt F)),
    nullary main_c_30 (constantI S_ 32 0#32),
    unary main_c_30 main_v245 (broadcastInDim S100000 ![] bcast_S_S100000 : (⟨S_, .i32⟩ : BufTy).Contents (Elt F) → (⟨S100000, .i32⟩ : BufTy).Contents (Elt F)),
    binary main_v190 main_v245 main_v246 (cmpi .slt : (⟨S100000, .i32⟩ : BufTy).Contents (Elt F) → (⟨S100000, .i32⟩ : BufTy).Contents (Elt F) → (⟨S100000, .i1⟩ : BufTy).Contents (Elt F)),
    nullary main_c_31 (constantI S_ 32 20000#32),
    unary main_c_31 main_v247 (broadcastInDim S100000 ![] bcast_S_S100000 : (⟨S_, .i32⟩ : BufTy).Contents (Elt F) → (⟨S100000, .i32⟩ : BufTy).Contents (Elt F)),
    binary main_v190 main_v247 main_v248 (addi : (⟨S100000, .i32⟩ : BufTy).Contents (Elt F) → (⟨S100000, .i32⟩ : BufTy).Contents (Elt F) → (⟨S100000, .i32⟩ : BufTy).Contents (Elt F)),
    ternary main_v246 main_v248 main_v190 main_v249 (select : (⟨S100000, .i1⟩ : BufTy).Contents (Elt F) → (⟨S100000, .i32⟩ : BufTy).Contents (Elt F) → (⟨S100000, .i32⟩ : BufTy).Contents (Elt F) → (⟨S100000, .i32⟩ : BufTy).Contents (Elt F)),
    unary main_v249 main_v250 (broadcastInDim S100000x1 ![0] bcast_S100000_S100000x1_0 : (⟨S100000, .i32⟩ : BufTy).Contents (Elt F) → (⟨S100000x1, .i32⟩ : BufTy).Contents (Elt F)),
    nullary main_c_32 (constantI S_ 32 15#32),
    unary main_c_32 main_v251 (broadcastInDim S100000x1 ![] bcast_S_S100000x1 : (⟨S_, .i32⟩ : BufTy).Contents (Elt F) → (⟨S100000x1, .i32⟩ : BufTy).Contents (Elt F)) ]

set_option maxHeartbeats 2000000 in

theorem step21 (a : ArgVals F) (V : Valuation τ sig (Elt F)) (h : Inv20 a V) : Inv21 a (after ops21 V) := by
  have hA := h.args
  refine ⟨⟨?_, ?_, ?_, ?_, ?_, ?_, ?_, ?_, ?_, ?_, ?_, ?_, ?_, ?_, ?_, ?_, ?_, ?_, ?_, ?_, ?_, ?_, ?_, ?_⟩, ?_, ?_, ?_, ?_, ?_, ?_, ?v244, ?_, ?_⟩
  case v244 =>

    after_results_simp
    rw [h.v241, h.v242, hA.a1]
    rfl
  all_goals stage_step hA [h.v186, h.v188, h.v190, h.v209, h.v211, h.v235, h.v241, h.v242]

end Cert.Proof.Reference

end
-- ==== Proof.RefRunParts.P22.lean ====
import proofs.«411300_j19516331393713_3_alg».proof.Proof.RefRunParts.P0

noncomputable section

namespace Cert.Proof.Reference

open Cert.ReferenceIdeal Cert.ReferenceIdeal.Gen Idealize.ShloMosaic Idealize.ShloMosaic.TcCoe Idealize.SL.Sem Idealize.ShloMosaic.StableHlo

variable {F : FTy → Type} [FloatOps F]

abbrev ops22 : List (HloOp τ sig (Elt F)) :=
  [ binary main_v250 main_v251 main_v252 ((fun a b => concatenate S100000x2 1 [⟨S100000x1, a⟩, ⟨S100000x1, b⟩] concatenates_S100000x1_S100000x1_S100000x2_d1) : (⟨S100000x1, .i32⟩ : BufTy).Contents (Elt F) → (⟨S100000x1, .i32⟩ : BufTy).Contents (Elt F) → (⟨S100000x2, .i32⟩ : BufTy).Contents (Elt F)),
    binary main_arg1 main_v252 main_v253 ((fun x i => Host.gather gather_S20000x18_S100000x2_S100000x3_1_0_n_n_01_1_13 x i) : (⟨S20000x18, .f32⟩ : BufTy).Contents (Elt F) → (⟨S100000x2, .i32⟩ : BufTy).Contents (Elt F) → (⟨S100000x3, .f32⟩ : BufTy).Contents (Elt F)),
    binary main_v244 main_v253 main_v254 (mulf : (⟨S100000x3, .f32⟩ : BufTy).Contents (Elt F) → (⟨S100000x3, .f32⟩ : BufTy).Contents (Elt F) → (⟨S100000x3, .f32⟩ : BufTy).Contents (Elt F)),
    nullary main_cst_33 (constant S_ .f32 0x00000000#32),
    binary main_v254 main_cst_33 main_v255 ((fun x v => Host.reduceAdd x v reducesTo_S100000x3_S100000_d1 h_S_) : (⟨S100000x3, .f32⟩ : BufTy).Contents (Elt F) → (⟨S_, .f32⟩ : BufTy).Contents (Elt F) → (⟨S100000, .f32⟩ : BufTy).Contents (Elt F)),
    TRef.binary (TRef.of (T := ⟨S100000x3, .f32⟩) main_v244) (TRef.of (T := ⟨S100000x3, .f32⟩) main_v244) (TRef.of (T := ⟨S100000x3, .f32⟩) main_call11_v0) mulf,
    TRef.nullary (TRef.of (T := ⟨S_, .f32⟩) main_call11_cst) (constant S_ .f32 0x00000000#32),
    TRef.binary (TRef.of (T := ⟨S100000x3, .f32⟩) main_call11_v0) (TRef.of (T := ⟨S_, .f32⟩) main_call11_cst) (TRef.of (T := ⟨S100000, .f32⟩) main_call11_v1) (fun x v => Host.reduceAdd x v reducesTo_S100000x3_S100000_d1 h_S_),
    TRef.unary (TRef.of (T := ⟨S100000, .f32⟩) main_call11_v1) (TRef.of (T := ⟨S100000, .f32⟩) main_v256) Host.sqrt,
    nullary main_cst_34 (constant S_ .f32 0x322BCC77#32),
    unary main_cst_34 main_v257 (broadcastInDim S100000 ![] bcast_S_S100000 : (⟨S_, .f32⟩ : BufTy).Contents (Elt F) → (⟨S100000, .f32⟩ : BufTy).Contents (Elt F)),
    binary main_v256 main_v257 main_v258 (maximumf : (⟨S100000, .f32⟩ : BufTy).Contents (Elt F) → (⟨S100000, .f32⟩ : BufTy).Contents (Elt F) → (⟨S100000, .f32⟩ : BufTy).Contents (Elt F)),
    TRef.binary (TRef.of (T := ⟨S100000x3, .f32⟩) main_v253) (TRef.of (T := ⟨S100000x3, .f32⟩) main_v253) (TRef.of (T := ⟨S100000x3, .f32⟩) main_call12_v0) mulf,
    TRef.nullary (TRef.of (T := ⟨S_, .f32⟩) main_call12_cst) (constant S_ .f32 0x00000000#32),
    TRef.binary (TRef.of (T := ⟨S100000x3, .f32⟩) main_call12_v0) (TRef.of (T := ⟨S_, .f32⟩) main_call12_cst) (TRef.of (T := ⟨S100000, .f32⟩) main_call12_v1) (fun x v => Host.reduceAdd x v reducesTo_S100000x3_S100000_d1 h_S_),
    TRef.unary (TRef.of (T := ⟨S100000, .f32⟩) main_call12_v1) (TRef.of (T := ⟨S100000, .f32⟩) main_v259) Host.sqrt,
    nullary main_cst_35 (constant S_ .f32 0x322BCC77#32),
    unary main_cst_35 main_v260 (broadcastInDim S100000 ![] bcast_S_S100000 : (⟨S_, .f32⟩ : BufTy).Contents (Elt F) → (⟨S100000, .f32⟩ : BufTy).Contents (Elt F)),
    binary main_v259 main_v260 main_v261 (maximumf : (⟨S100000, .f32⟩ : BufTy).Contents (Elt F) → (⟨S100000, .f32⟩ : BufTy).Contents (Elt F) → (⟨S100000, .f32⟩ : BufTy).Contents (Elt F)) ]

set_option maxHeartbeats 2000000 in

theorem step22 (a : ArgVals F) (V : Valuation τ sig (Elt F)) (h : Inv21 a V) : Inv22 a (after ops22 V) := by
  have hA := h.args
  refine ⟨⟨?_, ?_, ?_, ?_, ?_, ?_, ?_, ?_, ?_, ?_, ?_, ?_, ?_, ?_, ?_, ?_, ?_, ?_, ?_, ?_, ?_, ?_, ?_, ?_⟩, ?_, ?_, ?_, ?_, ?_, ?_, ?c255, ?_, ?c261⟩

  case c255 =>
    after_results_simp
    rw [h.v244, h.v250, h.v251, hA.a1]
    rfl
  case c261 =>
    after_results_simp
    rw [h.v250, h.v251, hA.a1]
    rfl
  all_goals stage_step hA [h.v186, h.v188, h.v190, h.v209, h.v211, h.v235, h.v244, h.v250, h.v251]

end Cert.Proof.Reference

end
-- ==== Proof.RefRunParts.P23.lean ====
import proofs.«411300_j19516331393713_3_alg».proof.Proof.RefRunParts.P0

noncomputable section

namespace Cert.Proof.Reference

open Cert.ReferenceIdeal Cert.ReferenceIdeal.Gen Idealize.ShloMosaic Idealize.ShloMosaic.TcCoe Idealize.SL.Sem Idealize.ShloMosaic.StableHlo

variable {F : FTy → Type} [FloatOps F]

abbrev ops23 : List (HloOp τ sig (Elt F)) :=
  [ binary main_v258 main_v261 main_v262 (mulf : (⟨S100000, .f32⟩ : BufTy).Contents (Elt F) → (⟨S100000, .f32⟩ : BufTy).Contents (Elt F) → (⟨S100000, .f32⟩ : BufTy).Contents (Elt F)),
    binary main_v255 main_v262 main_v263 (Host.divf : (⟨S100000, .f32⟩ : BufTy).Contents (Elt F) → (⟨S100000, .f32⟩ : BufTy).Contents (Elt F) → (⟨S100000, .f32⟩ : BufTy).Contents (Elt F)),
    unary main_v263 main_v264 (broadcastInDim S100000x1 ![0] bcast_S100000_S100000x1_0 : (⟨S100000, .f32⟩ : BufTy).Contents (Elt F) → (⟨S100000x1, .f32⟩ : BufTy).Contents (Elt F)) ]

theorem step23 (a : ArgVals F) (V : Valuation τ sig (Elt F)) (h : Inv22 a V) : Inv23 a (after ops23 V) := by
  have hA := h.args
  refine ⟨⟨?_, ?_, ?_, ?_, ?_, ?_, ?_, ?_, ?_, ?_, ?_, ?_, ?_, ?_, ?_, ?_, ?_, ?_, ?_, ?_, ?_, ?_, ?_, ?_⟩, ?_, ?_, ?_, ?_, ?_, ?_, ?_⟩
  all_goals stage_step hA [h.v186, h.v188, h.v190, h.v209, h.v211, h.v235, h.v255, h.v258, h.v261]

end Cert.Proof.Reference

end
-- ==== Proof.RefRunParts.P24.lean ====
import proofs.«411300_j19516331393713_3_alg».proof.Proof.RefRunParts.P0

noncomputable section

namespace Cert.Proof.Reference

open Cert.ReferenceIdeal Cert.ReferenceIdeal.Gen Idealize.ShloMosaic Idealize.ShloMosaic.TcCoe Idealize.SL.Sem Idealize.ShloMosaic.StableHlo

variable {F : FTy → Type} [FloatOps F]

abbrev ops24 : List (HloOp τ sig (Elt F)) :=
  [ nary ![main_v209, main_v211, main_v235, main_v264] main_v265 (fun u => concatenate S100000x8 1 [⟨S100000x3, u 0⟩, ⟨S100000x1, u 1⟩, ⟨S100000x3, u 2⟩, ⟨S100000x1, u 3⟩] concatenates_S100000x3_S100000x1_S100000x3_S100000x1_S100000x8_d1),
    nullary main_c_36 (constantI S_ 32 0#32),
    unary main_c_36 main_v266 (broadcastInDim S100000 ![] bcast_S_S100000 : (⟨S_, .i32⟩ : BufTy).Contents (Elt F) → (⟨S100000, .i32⟩ : BufTy).Contents (Elt F)),
    binary main_v188 main_v266 main_v267 (cmpi .slt : (⟨S100000, .i32⟩ : BufTy).Contents (Elt F) → (⟨S100000, .i32⟩ : BufTy).Contents (Elt F) → (⟨S100000, .i1⟩ : BufTy).Contents (Elt F)),
    nullary main_c_37 (constantI S_ 32 20000#32),
    unary main_c_37 main_v268 (broadcastInDim S100000 ![] bcast_S_S100000 : (⟨S_, .i32⟩ : BufTy).Contents (Elt F) → (⟨S100000, .i32⟩ : BufTy).Contents (Elt F)),
    binary main_v188 main_v268 main_v269 (addi : (⟨S100000, .i32⟩ : BufTy).Contents (Elt F) → (⟨S100000, .i32⟩ : BufTy).Contents (Elt F) → (⟨S100000, .i32⟩ : BufTy).Contents (Elt F)),
    ternary main_v267 main_v269 main_v188 main_v270 (select : (⟨S100000, .i1⟩ : BufTy).Contents (Elt F) → (⟨S100000, .i32⟩ : BufTy).Contents (Elt F) → (⟨S100000, .i32⟩ : BufTy).Contents (Elt F) → (⟨S100000, .i32⟩ : BufTy).Contents (Elt F)),
    unary main_v270 main_v271 (broadcastInDim S100000x1 ![0] bcast_S100000_S100000x1_0 : (⟨S100000, .i32⟩ : BufTy).Contents (Elt F) → (⟨S100000x1, .i32⟩ : BufTy).Contents (Elt F)),
    binary main_v186 main_v271 main_v272 ((fun x i => Host.gather gather_S20000x256_S100000x1_S100000x256_1_0_n_n_0_1_1256 x i) : (⟨S20000x256, .f32⟩ : BufTy).Contents (Elt F) → (⟨S100000x1, .i32⟩ : BufTy).Contents (Elt F) → (⟨S100000x256, .f32⟩ : BufTy).Contents (Elt F)),
    nullary main_c_38 (constantI S_ 32 0#32),
    unary main_c_38 main_v273 (broadcastInDim S100000 ![] bcast_S_S100000 : (⟨S_, .i32⟩ : BufTy).Contents (Elt F) → (⟨S100000, .i32⟩ : BufTy).Contents (Elt F)),
    binary main_v190 main_v273 main_v274 (cmpi .slt : (⟨S100000, .i32⟩ : BufTy).Contents (Elt F) → (⟨S100000, .i32⟩ : BufTy).Contents (Elt F) → (⟨S100000, .i1⟩ : BufTy).Contents (Elt F)),
    nullary main_c_39 (constantI S_ 32 20000#32),
    unary main_c_39 main_v275 (broadcastInDim S100000 ![] bcast_S_S100000 : (⟨S_, .i32⟩ : BufTy).Contents (Elt F) → (⟨S100000, .i32⟩ : BufTy).Contents (Elt F)),
    binary main_v190 main_v275 main_v276 (addi : (⟨S100000, .i32⟩ : BufTy).Contents (Elt F) → (⟨S100000, .i32⟩ : BufTy).Contents (Elt F) → (⟨S100000, .i32⟩ : BufTy).Contents (Elt F)),
    ternary main_v274 main_v276 main_v190 main_v277 (select : (⟨S100000, .i1⟩ : BufTy).Contents (Elt F) → (⟨S100000, .i32⟩ : BufTy).Contents (Elt F) → (⟨S100000, .i32⟩ : BufTy).Contents (Elt F) → (⟨S100000, .i32⟩ : BufTy).Contents (Elt F)),
    unary main_v277 main_v278 (broadcastInDim S100000x1 ![0] bcast_S100000_S100000x1_0 : (⟨S100000, .i32⟩ : BufTy).Contents (Elt F) → (⟨S100000x1, .i32⟩ : BufTy).Contents (Elt F)),
    binary main_v186 main_v278 main_v279 ((fun x i => Host.gather gather_S20000x256_S100000x1_S100000x256_1_0_n_n_0_1_1256 x i) : (⟨S20000x256, .f32⟩ : BufTy).Contents (Elt F) → (⟨S100000x1, .i32⟩ : BufTy).Contents (Elt F) → (⟨S100000x256, .f32⟩ : BufTy).Contents (Elt F)) ]

set_option maxHeartbeats 2000000 in

theorem step24 (a : ArgVals F) (V : Valuation τ sig (Elt F)) (h : Inv23 a V) : Inv24 a (after ops24 V) := by
  have hA := h.args
  refine ⟨⟨?_, ?_, ?_, ?_, ?_, ?_, ?_, ?_, ?_, ?_, ?_, ?_, ?_, ?_, ?_, ?_, ?_, ?_, ?_, ?_, ?_, ?_, ?_, ?_⟩, ?c265, ?_, ?_⟩

  case c265 =>
    after_results_simp

    have e0 : V (Proc.devRef .tc (![main_v209, main_v211, main_v235, main_v264] 0)) = stage% a main_v209 := h.v209
    have e1 : V (Proc.devRef .tc (![main_v209, main_v211, main_v235, main_v264] 1)) = stage% a main_v211 := h.v211
    have e2 : V (Proc.devRef .tc (![main_v209, main_v211, main_v235, main_v264] 2)) = stage% a main_v235 := h.v235
    have e3 : V (Proc.devRef .tc (![main_v209, main_v211, main_v235, main_v264] 3)) = stage% a main_v264 := h.v264
    rw [e0, e1, e2, e3]
    rfl
  all_goals stage_step hA [h.v186, h.v188, h.v190, h.v209, h.v211, h.v235, h.v264]

end Cert.Proof.Reference

end
-- ==== Proof.RefRunParts.P25.lean ====
import proofs.«411300_j19516331393713_3_alg».proof.Proof.RefRunParts.P0

noncomputable section

namespace Cert.Proof.Reference

open Cert.ReferenceIdeal Cert.ReferenceIdeal.Gen Idealize.ShloMosaic Idealize.ShloMosaic.TcCoe Idealize.SL.Sem Idealize.ShloMosaic.StableHlo

variable {F : FTy → Type} [FloatOps F]

abbrev ops25 : List (HloOp τ sig (Elt F)) :=
  [ nary ![main_v272, main_v279, main_v265] main_v280 (fun u => concatenate S100000x520 1 [⟨S100000x256, u 0⟩, ⟨S100000x256, u 1⟩, ⟨S100000x8, u 2⟩] concatenates_S100000x256_S100000x256_S100000x8_S100000x520_d1),
    binary main_v280 main_arg20 main_v281 ((fun l r => Host.dotGeneral dot_S100000x520_S520x256_S100000x256_1_0_0_1_n_n none l r) : (⟨S100000x520, .f32⟩ : BufTy).Contents (Elt F) → (⟨S520x256, .f32⟩ : BufTy).Contents (Elt F) → (⟨S100000x256, .f32⟩ : BufTy).Contents (Elt F)),
    unary main_arg21 main_v282 (broadcastInDim S1x256 ![1] bcast_S256_S1x256_1 : (⟨S256, .f32⟩ : BufTy).Contents (Elt F) → (⟨S1x256, .f32⟩ : BufTy).Contents (Elt F)),
    unary main_v282 main_v283 (broadcastInDim S100000x256 ![0, 1] bcast_S1x256_S100000x256_0_1 : (⟨S1x256, .f32⟩ : BufTy).Contents (Elt F) → (⟨S100000x256, .f32⟩ : BufTy).Contents (Elt F)),
    binary main_v281 main_v283 main_v284 (addf : (⟨S100000x256, .f32⟩ : BufTy).Contents (Elt F) → (⟨S100000x256, .f32⟩ : BufTy).Contents (Elt F) → (⟨S100000x256, .f32⟩ : BufTy).Contents (Elt F)),
    TRef.nullary (TRef.of (T := ⟨S_, .f32⟩) main_call13_cst) (constant S_ .f32 0x00000000#32),
    TRef.unary (TRef.of (T := ⟨S_, .f32⟩) main_call13_cst) (TRef.of (T := ⟨S100000x256, .f32⟩) main_call13_v0) (broadcastInDim S100000x256 ![] bcast_S_S100000x256),
    TRef.binary (TRef.of (T := ⟨S100000x256, .f32⟩) main_v284) (TRef.of (T := ⟨S100000x256, .f32⟩) main_call13_v0) (TRef.of (T := ⟨S100000x256, .f32⟩) main_v285) maximumf,
    binary main_v285 main_arg22 main_v286 ((fun l r => Host.dotGeneral dot_S100000x256_S256x26_S100000x26_1_0_0_1_n_n none l r) : (⟨S100000x256, .f32⟩ : BufTy).Contents (Elt F) → (⟨S256x26, .f32⟩ : BufTy).Contents (Elt F) → (⟨S100000x26, .f32⟩ : BufTy).Contents (Elt F)),
    unary main_arg23 main_v287 (broadcastInDim S1x26 ![1] bcast_S26_S1x26_1 : (⟨S26, .f32⟩ : BufTy).Contents (Elt F) → (⟨S1x26, .f32⟩ : BufTy).Contents (Elt F)),
    unary main_v287 main_v288 (broadcastInDim S100000x26 ![0, 1] bcast_S1x26_S100000x26_0_1 : (⟨S1x26, .f32⟩ : BufTy).Contents (Elt F) → (⟨S100000x26, .f32⟩ : BufTy).Contents (Elt F)),
    binary main_v286 main_v288 main_v289 (addf : (⟨S100000x26, .f32⟩ : BufTy).Contents (Elt F) → (⟨S100000x26, .f32⟩ : BufTy).Contents (Elt F) → (⟨S100000x26, .f32⟩ : BufTy).Contents (Elt F)) ]

set_option maxHeartbeats 2000000 in

theorem step25 (a : ArgVals F) (V : Valuation τ sig (Elt F)) (h : Inv24 a V) : Inv25 a (after ops25 V) := by
  have hA := h.args
  refine ⟨⟨?_, ?_, ?_, ?_, ?_, ?_, ?_, ?_, ?_, ?_, ?_, ?_, ?_, ?_, ?_, ?_, ?_, ?_, ?_, ?_, ?_, ?_, ?_, ?_⟩, ?c289⟩

  case c289 =>
    after_results_simp
    have e0 : V (Proc.devRef .tc (![main_v272, main_v279, main_v265] 0)) = stage% a main_v272 := h.v272
    have e1 : V (Proc.devRef .tc (![main_v272, main_v279, main_v265] 1)) = stage% a main_v279 := h.v279
    have e2 : V (Proc.devRef .tc (![main_v272, main_v279, main_v265] 2)) = stage% a main_v265 := h.v265
    rw [e0, e1, e2, hA.a20, hA.a21, hA.a22, hA.a23]
    rfl
  all_goals stage_step hA [h.v265, h.v272, h.v279]

end Cert.Proof.Reference

end
-- ==== Proof.RefRun.lean ====
import proofs.«411300_j19516331393713_3_alg».proof.Proof.RefRunParts.P1
import proofs.«411300_j19516331393713_3_alg».proof.Proof.RefRunParts.P2
import proofs.«411300_j19516331393713_3_alg».proof.Proof.RefRunParts.P3
import proofs.«411300_j19516331393713_3_alg».proof.Proof.RefRunParts.P4
import proofs.«411300_j19516331393713_3_alg».proof.Proof.RefRunParts.P5
import proofs.«411300_j19516331393713_3_alg».proof.Proof.RefRunParts.P6
import proofs.«411300_j19516331393713_3_alg».proof.Proof.RefRunParts.P7
import proofs.«411300_j19516331393713_3_alg».proof.Proof.RefRunParts.P8
import proofs.«411300_j19516331393713_3_alg».proof.Proof.RefRunParts.P9
import proofs.«411300_j19516331393713_3_alg».proof.Proof.RefRunParts.P10
import proofs.«411300_j19516331393713_3_alg».proof.Proof.RefRunParts.P11
import proofs.«411300_j19516331393713_3_alg».proof.Proof.RefRunParts.P12
import proofs.«411300_j19516331393713_3_alg».proof.Proof.RefRunParts.P13
import proofs.«411300_j19516331393713_3_alg».proof.Proof.RefRunParts.P14
import proofs.«411300_j19516331393713_3_alg».proof.Proof.RefRunParts.P15
import proofs.«411300_j19516331393713_3_alg».proof.Proof.RefRunParts.P16
import proofs.«411300_j19516331393713_3_alg».proof.Proof.RefRunParts.P17
import proofs.«411300_j19516331393713_3_alg».proof.Proof.RefRunParts.P18
import proofs.«411300_j19516331393713_3_alg».proof.Proof.RefRunParts.P19
import proofs.«411300_j19516331393713_3_alg».proof.Proof.RefRunParts.P20
import proofs.«411300_j19516331393713_3_alg».proof.Proof.RefRunParts.P21
import proofs.«411300_j19516331393713_3_alg».proof.Proof.RefRunParts.P22
import proofs.«411300_j19516331393713_3_alg».proof.Proof.RefRunParts.P23
import proofs.«411300_j19516331393713_3_alg».proof.Proof.RefRunParts.P24
import proofs.«411300_j19516331393713_3_alg».proof.Proof.RefRunParts.P25
import Idealize.ShloMosaic.Lib.Pipeline.Frame

noncomputable section

namespace Cert.Proof.Reference

open Cert.ReferenceIdeal Cert.ReferenceIdeal.Gen Idealize.ShloMosaic Idealize.ShloMosaic.TcCoe Idealize.SL.Sem Idealize.ShloMosaic.StableHlo

variable {F : FTy → Type} [FloatOps F]

abbrev win0 : List (HloOp τ sig (Elt F)) := ops1 ++ (ops2 ++ (ops3 ++ (ops4)))

abbrev win1 : List (HloOp τ sig (Elt F)) := ops5 ++ (ops6 ++ (ops7 ++ (ops8)))

abbrev win2 : List (HloOp τ sig (Elt F)) := ops9 ++ (ops10 ++ (ops11 ++ (ops12)))

abbrev win3 : List (HloOp τ sig (Elt F)) := ops13 ++ (ops14 ++ (ops15 ++ (ops16 ++ (ops17))))

abbrev win4 : List (HloOp τ sig (Elt F)) := ops18 ++ (ops19 ++ (ops20 ++ (ops21 ++ (ops22))))

abbrev win5 : List (HloOp τ sig (Elt F)) := ops23 ++ (ops24 ++ (ops25))

abbrev ops : List (HloOp τ sig (Elt F)) := win0 ++ (win1 ++ (win2 ++ (win3 ++ (win4 ++ (win5)))))

set_option maxRecDepth 8192 in
theorem main_part0_eq (c : Dev nD) : main_part0 (F := F) c = seq win0 := rfl
set_option maxRecDepth 8192 in
theorem main_part1_eq (c : Dev nD) : main_part1 (F := F) c = seq win1 := rfl
set_option maxRecDepth 8192 in
theorem main_part2_eq (c : Dev nD) : main_part2 (F := F) c = seq win2 := rfl
set_option maxRecDepth 8192 in
theorem main_part3_eq (c : Dev nD) : main_part3 (F := F) c = seq win3 := rfl
set_option maxRecDepth 8192 in
theorem main_part4_eq (c : Dev nD) : main_part4 (F := F) c = seq win4 := rfl
set_option maxRecDepth 8192 in
theorem main_part5_eq (c : Dev nD) : main_part5 (F := F) c = seq win5 := rfl

theorem main_eq (c : Dev nD) : main (F := F) c = seq ops := by
  unfold main
  rw [main_part0_eq, main_part1_eq, main_part2_eq, main_part3_eq, main_part4_eq, main_part5_eq]
  simp only [ops, seq_append]

theorem scopedRefs_eq : (Finset.univ.filter fun b : Ref sig .tc => b.isScoped) = ∅ := by decide
theorem scopedSems_eq : (Finset.univ.filter fun sm : SemLoc sig => sm.isScoped .tc) = ∅ := by decide

def Ok (l : List (HloOp τ sig (Elt F))) : Prop :=
  (l.Forall fun op => op.bufs ⊆ tcRefs τ sig) ∧ ∀ op ∈ l, op.fresh = ∅

theorem Ok.append {l₁ l₂ : List (HloOp τ sig (Elt F))} (h₁ : Ok l₁) (h₂ : Ok l₂) : Ok (l₁ ++ l₂) :=
  ⟨List.forall_append.2 ⟨h₁.1, h₂.1⟩, fun op h => (List.mem_append.1 h).elim (h₁.2 op) (h₂.2 op)⟩

syntax "ok_line " ident : tactic
macro_rules
  | `(tactic| ok_line $l) => `(tactic|
      (refine ⟨?_, ?_⟩
       · simp only [$l:ident, List.forall_cons, List.Forall, nullary_bufs_sub, unary_bufs_sub, binary_bufs_sub, ternary_bufs_sub,
           reshape_bufs_sub, nary_bufs_sub, TRef.nullary, TRef.unary, TRef.binary, and_self]
       · intro _ h; (repeat (cases h with | head => rfl | tail _ h => ?_)); exact nomatch h))

set_option maxHeartbeats 1000000

theorem ok1 : Ok (ops1 (F := F)) := by ok_line ops1
theorem ok2 : Ok (ops2 (F := F)) := by ok_line ops2
theorem ok3 : Ok (ops3 (F := F)) := by ok_line ops3
theorem ok4 : Ok (ops4 (F := F)) := by ok_line ops4
theorem ok5 : Ok (ops5 (F := F)) := by ok_line ops5
theorem ok6 : Ok (ops6 (F := F)) := by ok_line ops6
theorem ok7 : Ok (ops7 (F := F)) := by ok_line ops7
theorem ok8 : Ok (ops8 (F := F)) := by ok_line ops8
theorem ok9 : Ok (ops9 (F := F)) := by ok_line ops9
theorem ok10 : Ok (ops10 (F := F)) := by ok_line ops10
theorem ok11 : Ok (ops11 (F := F)) := by ok_line ops11
theorem ok12 : Ok (ops12 (F := F)) := by ok_line ops12
theorem ok13 : Ok (ops13 (F := F)) := by ok_line ops13
theorem ok14 : Ok (ops14 (F := F)) := by ok_line ops14
theorem ok15 : Ok (ops15 (F := F)) := by ok_line ops15
theorem ok16 : Ok (ops16 (F := F)) := by ok_line ops16
theorem ok17 : Ok (ops17 (F := F)) := by ok_line ops17
theorem ok18 : Ok (ops18 (F := F)) := by ok_line ops18
theorem ok19 : Ok (ops19 (F := F)) := by ok_line ops19
theorem ok20 : Ok (ops20 (F := F)) := by ok_line ops20
theorem ok21 : Ok (ops21 (F := F)) := by ok_line ops21
theorem ok22 : Ok (ops22 (F := F)) := by ok_line ops22
theorem ok23 : Ok (ops23 (F := F)) := by ok_line ops23
theorem ok24 : Ok (ops24 (F := F)) := by ok_line ops24
theorem ok25 : Ok (ops25 (F := F)) := by ok_line ops25

theorem ok : Ok (ops (F := F)) :=
  (ok1.append (ok2.append (ok3.append (ok4)))).append ((ok5.append (ok6.append (ok7.append (ok8)))).append ((ok9.append (ok10.append (ok11.append (ok12)))).append ((ok13.append (ok14.append (ok15.append (ok16.append (ok17))))).append ((ok18.append (ok19.append (ok20.append (ok21.append (ok22))))).append ((ok23.append (ok24.append (ok25))))))))

theorem after_ops (V : Valuation τ sig (Elt F)) :
    after ops V = after ops25 (after ops24 (after ops23 (after ops22 (after ops21 (after ops20 (after ops19 (after ops18 (after ops17 (after ops16 (after ops15 (after ops14 (after ops13 (after ops12 (after ops11 (after ops10 (after ops9 (after ops8 (after ops7 (after ops6 (after ops5 (after ops4 (after ops3 (after ops2 (after ops1 (V))))))))))))))))))))))))) := by
  simp only [ops, win0, win1, win2, win3, win4, win5, after_append]

theorem inv_end (a : ArgVals F) (V : Valuation τ sig (Elt F)) (hA : Args a V) : Inv25 a (after ops V) := by
  rw [after_ops]
  exact step25 a _ (step24 a _ (step23 a _ (step22 a _ (step21 a _ (step20 a _ (step19 a _ (step18 a _ (step17 a _ (step16 a _ (step15 a _ (step14 a _ (step13 a _ (step12 a _ (step11 a _ (step10 a _ (step9 a _ (step8 a _ (step7 a _ (step6 a _ (step5 a _ (step4 a _ (step3 a _ (step2 a _ (step1 a V hA))))))))))))))))))))))))

abbrev argsAt (m : (ℓ : Loc nD τ sig) → Buf (Elt F) ℓ) (c : Dev nD) : ArgVals F :=
  ⟨m ((c.tc : Thread nD τ).loc main_arg0),
   m ((c.tc : Thread nD τ).loc main_arg1),
   m ((c.tc : Thread nD τ).loc main_arg2),
   m ((c.tc : Thread nD τ).loc main_arg3),
   m ((c.tc : Thread nD τ).loc main_arg4),
   m ((c.tc : Thread nD τ).loc main_arg5),
   m ((c.tc : Thread nD τ).loc main_arg6),
   m ((c.tc : Thread nD τ).loc main_arg7),
   m ((c.tc : Thread nD τ).loc main_arg8),
   m ((c.tc : Thread nD τ).loc main_arg9),
   m ((c.tc : Thread nD τ).loc main_arg10),
   m ((c.tc : Thread nD τ).loc main_arg11),
   m ((c.tc : Thread nD τ).loc main_arg12),
   m ((c.tc : Thread nD τ).loc main_arg13),
   m ((c.tc : Thread nD τ).loc main_arg14),
   m ((c.tc : Thread nD τ).loc main_arg15),
   m ((c.tc : Thread nD τ).loc main_arg16),
   m ((c.tc : Thread nD τ).loc main_arg17),
   m ((c.tc : Thread nD τ).loc main_arg18),
   m ((c.tc : Thread nD τ).loc main_arg19),
   m ((c.tc : Thread nD τ).loc main_arg20),
   m ((c.tc : Thread nD τ).loc main_arg21),
   m ((c.tc : Thread nD τ).loc main_arg22),
   m ((c.tc : Thread nD τ).loc main_arg23)⟩

theorem run (m : (ℓ : Loc nD τ sig) → Buf (Elt F) ℓ) (ρ : Dev nD → PrngReg) :
    θ_run Cert.ReferenceIdeal.defs (onTc (τ := τ) (Cert.ReferenceIdeal.main (F := F))) ⟨m, fun _ => 0, ρ⟩ fun r => ∀ c : Dev nD,
      r.2.mem ((c.tc : Thread nD τ).loc main_v289) = Cert.ReferenceIdeal.Read.val_main_v289 (F := F)
          (m ((c.tc : Thread nD τ).loc main_arg0))
          (m ((c.tc : Thread nD τ).loc main_arg1))
          (m ((c.tc : Thread nD τ).loc main_arg2))
          (m ((c.tc : Thread nD τ).loc main_arg3))
          (m ((c.tc : Thread nD τ).loc main_arg4))
          (m ((c.tc : Thread nD τ).loc main_arg5))
          (m ((c.tc : Thread nD τ).loc main_arg6))
          (m ((c.tc : Thread nD τ).loc main_arg7))
          (m ((c.tc : Thread nD τ).loc main_arg8))
          (m ((c.tc : Thread nD τ).loc main_arg9))
          (m ((c.tc : Thread nD τ).loc main_arg10))
          (m ((c.tc : Thread nD τ).loc main_arg11))
          (m ((c.tc : Thread nD τ).loc main_arg12))
          (m ((c.tc : Thread nD τ).loc main_arg13))
          (m ((c.tc : Thread nD τ).loc main_arg14))
          (m ((c.tc : Thread nD τ).loc main_arg15))
          (m ((c.tc : Thread nD τ).loc main_arg16))
          (m ((c.tc : Thread nD τ).loc main_arg17))
          (m ((c.tc : Thread nD τ).loc main_arg18))
          (m ((c.tc : Thread nD τ).loc main_arg19))
          (m ((c.tc : Thread nD τ).loc main_arg20))
          (m ((c.tc : Thread nD τ).loc main_arg21))
          (m ((c.tc : Thread nD τ).loc main_arg22))
          (m ((c.tc : Thread nD τ).loc main_arg23))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23) :=
  (θ_run defs _ _).mono (fun _ h c => by
      have hI := inv_end (argsAt m c) (launchContents m c)
        ⟨rfl, rfl, rfl, rfl, rfl, rfl, rfl, rfl, rfl, rfl, rfl, rfl, rfl, rfl, rfl, rfl, rfl, rfl, rfl, rfl, rfl, rfl, rfl, rfl⟩
      exact ⟨(h c main_v289).trans hI.v289,
        (h c main_arg0).trans hI.args.a0,
        (h c main_arg1).trans hI.args.a1,
        (h c main_arg2).trans hI.args.a2,
        (h c main_arg3).trans hI.args.a3,
        (h c main_arg4).trans hI.args.a4,
        (h c main_arg5).trans hI.args.a5,
        (h c main_arg6).trans hI.args.a6,
        (h c main_arg7).trans hI.args.a7,
        (h c main_arg8).trans hI.args.a8,
        (h c main_arg9).trans hI.args.a9,
        (h c main_arg10).trans hI.args.a10,
        (h c main_arg11).trans hI.args.a11,
        (h c main_arg12).trans hI.args.a12,
        (h c main_arg13).trans hI.args.a13,
        (h c main_arg14).trans hI.args.a14,
        (h c main_arg15).trans hI.args.a15,
        (h c main_arg16).trans hI.args.a16,
        (h c main_arg17).trans hI.args.a17,
        (h c main_arg18).trans hI.args.a18,
        (h c main_arg19).trans hI.args.a19,
        (h c main_arg20).trans hI.args.a20,
        (h c main_arg21).trans hI.args.a21,
        (h c main_arg22).trans hI.args.a22,
        (h c main_arg23).trans hI.args.a23⟩)
    (run_seq scopedRefs_eq scopedSems_eq defs main (fun _ => ops) main_eq (fun _ => ok.1) m ρ (fun _ => ok.2))

end Cert.Proof.Reference

end
-- ==== Proof.RefFrame.lean ====
import proofs.«411300_j19516331393713_3_alg».proof.Defs
import proofs.«411300_j19516331393713_3_alg».proof.Proof.Gen.ReferenceIdeal
import proofs.«411300_j19516331393713_3_alg».proof.Proof.Gen.Pre_finite_inputs
import proofs.«411300_j19516331393713_3_alg».proof.Proof.RefRun

noncomputable section

namespace Cert.Proof.Reference

open Idealize.ShloMosaic Idealize.SL.Sem

theorem frame : Cert.frame_ReferenceIdeal := fun m ρ _ =>
  (θ_run Cert.ReferenceIdeal.defs _ _).mono (fun _ h c => (h c).2) (Cert.Proof.Reference.run (F := Ideal) m ρ)

end Cert.Proof.Reference

end
-- ==== Proof.K.Body0.lean ====
import proofs.«411300_j19516331393713_3_alg».proof.Proof.Gen.Kernel.Launch
import proofs.«411300_j19516331393713_3_alg».proof.Proof.Gen.Kernel.Skeleton
import proofs.«411300_j19516331393713_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region0
variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev r0_0 : Rect S2000x512 := Rect.unit (s := S2000x512) ![0, 0] S2000x512.size inb_S2000x512_S2000x512_0_0
abbrev r0_1 : Rect S512x512 := Rect.unit (s := S512x512) ![0, 0] S512x512.size inb_S512x512_S512x512_0_0
abbrev r0_2 : Rect S1x512 := Rect.unit (s := S1x512) ![0, 0] S1x512.size inb_S1x512_S1x512_0_0
abbrev r0_3 : Rect S512x256 := Rect.unit (s := S512x256) ![0, 0] S512x256.size inb_S512x256_S512x256_0_0
abbrev r0_4 : Rect S1x256 := Rect.unit (s := S1x256) ![0, 0] S1x256.size inb_S1x256_S1x256_0_0
abbrev r0_5 : Rect S2000x18 := Rect.unit (s := S2000x18) ![0, 0] S2000x18.size inb_S2000x18_S2000x18_0_0
abbrev r0_6 : Rect S256x256 := Rect.unit (s := S256x256) ![0, 0] S256x256.size inb_S256x256_S256x256_0_0
abbrev r0_7 : Rect S18x256 := Rect.unit (s := S18x256) ![0, 0] S18x256.size inb_S18x256_S18x256_0_0
abbrev r0_8 : Rect S2000x256 := Rect.unit (s := S2000x256) ![0, 0] S2000x256.size inb_S2000x256_S2000x256_0_0

def out0_11 (x0 : Vec F S2000x512 .bf16) (x1 : Vec F S2000x18 .bf16) (x2 : Vec F S512x512 .bf16) (x3 : Vec F S1x512 .f32)
    (x4 : Vec F S512x256 .bf16) (x5 : Vec F S1x256 .f32) (x6 : Vec F S256x256 .bf16) (x7 : Vec F S18x256 .bf16)
    (x8 : Vec F S1x256 .f32) (x9 : Vec F S256x256 .bf16) (x10 : Vec F S1x256 .f32) : Vec F S2000x256 .f32 :=
  View.canon [⟨r0_8, k0_pay1
    (k0_pay2 (View.ld x0 r0_0) (View.ld x2 r0_1) (View.ld x3 r0_2) (View.ld x4 r0_3) (View.ld x5 r0_4)
      (View.ld x1 r0_5) (View.ld x6 r0_6) (View.ld x7 r0_7) (View.ld x8 r0_4))
    (View.ld x9 r0_6) (View.ld x10 r0_4)⟩]

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => iblk0 V c 7 t
    | ⟨8, _⟩ => iblk0 V c 8 t
    | ⟨9, _⟩ => iblk0 V c 9 t
    | ⟨10, _⟩ => iblk0 V c 10 t
    | ⟨11, _⟩ => out0_11 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_11 (c : Dev nD) (t : Fin cfg0.N) : (dat0 V c).after 11 t = out0_11 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) := by dsimp only [dat0]

-- The body only reads an input window, so its buffer holds the array's block before the body as after it.
theorem before0 (c : Dev nD) (t : Fin cfg0.N) : ∀ (w : Fin cfg0.W) (hw : (cfg0.win w).isOut = false) (d),
    (dat0 V c).before w t d = (dat0 V c).after w t
  | ⟨0, _⟩, hw, d | ⟨1, _⟩, hw, d | ⟨2, _⟩, hw, d | ⟨3, _⟩, hw, d | ⟨4, _⟩, hw, d | ⟨5, _⟩, hw, d | ⟨6, _⟩, hw, d | ⟨7, _⟩, hw, d | ⟨8, _⟩, hw, d | ⟨9, _⟩, hw, d | ⟨10, _⟩, hw, d =>
    ((dat0 V c).before_in_eq_fetched _ hw (fun _ => rfl) (fun _ _ _ => rfl) (fun _ => rfl) t d).trans rfl
  | ⟨11, _⟩, hw, _ => absurd hw.symm Bool.false_ne_true

set_option maxHeartbeats 4000000 in
theorem sound_kernel0 (c : Dev nD) (E : Set ℕ) (i : grid0.Coords)
    {arg0 : Memref sig .tc .vmem S2000x512 .bf16} {arg1 : Memref sig .tc .vmem S2000x18 .bf16} {arg2 : Memref sig .tc .vmem S512x512 .bf16} {arg3 : Memref sig .tc .vmem S1x512 .f32} {arg4 : Memref sig .tc .vmem S512x256 .bf16} {arg5 : Memref sig .tc .vmem S1x256 .f32} {arg6 : Memref sig .tc .vmem S256x256 .bf16} {arg7 : Memref sig .tc .vmem S18x256 .bf16} {arg8 : Memref sig .tc .vmem S1x256 .f32} {arg9 : Memref sig .tc .vmem S256x256 .bf16} {arg10 : Memref sig .tc .vmem S1x256 .f32} {arg11 : Memref sig .tc .vmem S2000x256 .f32}
    (h0 : arg0.IsWhole) (h1 : arg1.IsWhole) (h2 : arg2.IsWhole) (h3 : arg3.IsWhole) (h4 : arg4.IsWhole) (h5 : arg5.IsWhole) (h6 : arg6.IsWhole) (h7 : arg7.IsWhole) (h8 : arg8.IsWhole) (h9 : arg9.IsWhole) (h10 : arg10.IsWhole) (h11 : arg11.IsWhole)
    (x0 : Vec F S2000x512 .bf16) (x1 : Vec F S2000x18 .bf16) (x2 : Vec F S512x512 .bf16) (x3 : Vec F S1x512 .f32) (x4 : Vec F S512x256 .bf16) (x5 : Vec F S1x256 .f32) (x6 : Vec F S256x256 .bf16) (x7 : Vec F S18x256 .bf16) (x8 : Vec F S1x256 .f32) (x9 : Vec F S256x256 .bf16) (x10 : Vec F S1x256 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ (∃ d, owns (c : Thread nD τ) arg11 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare (out0_11 x0 x1 x2 x3 x4 x5 x6 x7 x8 x9 x10)) -∗ K ⟨⟩))
      ⊢ wp frame (wpE (defs₀ (F := F)) Variants.none c none) E (cc0__clip_fuse_kernel i arg0 h0 arg1 h1 arg2 h2 arg3 h3 arg4 h4 arg5 h5 arg6 h6 arg7 h7 arg8 h8 arg9 h9 arg10 h10 arg11 h11) K := by
  simp only [cc0__clip_fuse_kernel_eq_skeleton]; unfold cc0__clip_fuse_kernel_skel
  simp only [k0_part1_eq_skeleton]; unfold k0_part1_skel
  unfold owns
  iintro ⟨⟨%f0, %e0, H0⟩, ⟨%f1, %e1, H1⟩, ⟨%f2, %e2, H2⟩, ⟨%f3, %e3, H3⟩, ⟨%f4, %e4, H4⟩, ⟨%f5, %e5, H5⟩, ⟨%f6, %e6, H6⟩, ⟨%f7, %e7, H7⟩, ⟨%f8, %e8, H8⟩, ⟨%f9, %e9, H9⟩, ⟨%f10, %e10, H10⟩, ⟨%d11, %f11, -, H11⟩, Hk⟩
  subst e0 e1 e2 e3 e4 e5 e6 e7 e8 e9 e10
  sl_exec
  sl_step
  iapply Hk
  isplitl [H0]; · iexists f0; isplitr; (· ipureintro; rfl); iexact H0
  isplitl [H1]; · iexists f1; isplitr; (· ipureintro; rfl); iexact H1
  isplitl [H2]; · iexists f2; isplitr; (· ipureintro; rfl); iexact H2
  isplitl [H3]; · iexists f3; isplitr; (· ipureintro; rfl); iexact H3
  isplitl [H4]; · iexists f4; isplitr; (· ipureintro; rfl); iexact H4
  isplitl [H5]; · iexists f5; isplitr; (· ipureintro; rfl); iexact H5
  isplitl [H6]; · iexists f6; isplitr; (· ipureintro; rfl); iexact H6
  isplitl [H7]; · iexists f7; isplitr; (· ipureintro; rfl); iexact H7
  isplitl [H8]; · iexists f8; isplitr; (· ipureintro; rfl); iexact H8
  isplitl [H9]; · iexists f9; isplitr; (· ipureintro; rfl); iexact H9
  isplitl [H10]; · iexists f10; isplitr; (· ipureintro; rfl); iexact H10
  iexists _; isplitr
  swap; · iexact H11
  ipureintro
  exact View.read_writes_eq_canon _ _ _ (View.cover_of_tiled _ S2000x256.size (by rfl))

set_option maxHeartbeats 4000000 in
theorem body_obligation0 (c : Dev nD) : BodyObligation (dat0 (F := F) V c) (defs₀ (F := F)) Variants.none () Set.univ := fun t => by
  rw [bigSep_W0, bigSep_W0]
  simp (disch := exact rfl) only [before0 V c t]
  rw [show (dat0 V c).Φ t.succ = (dat0 V c).Φ t.castSucc from rfl,
    show (dat0 V c).owesAt () t.succ = (dat0 V c).owesAt () t.castSucc from rfl]
  show _ ⊢ wp frame (wpE (defs₀ (F := F)) Variants.none c none) Set.univ (bodyAt0 t) _
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply (sound_kernel0 c Set.univ _ _ _ _ _ _ _ _ _ _ _ _ _ (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexists _; iexact H11
  iintro ⟨H0, H1, H2, H3, H4, H5, H6, H7, H8, H9, H10, H11⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11

end Region0

end Cert.Kernel.Gen

end
-- ==== Proof.K.Body1.lean ====
import proofs.«411300_j19516331393713_3_alg».proof.Proof.Gen.Kernel.Launch
import proofs.«411300_j19516331393713_3_alg».proof.Proof.Gen.Kernel.Skeleton
import proofs.«411300_j19516331393713_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev r1_0 : Rect S3200x256 := Rect.unit (s := S3200x256) ![0, 0] S3200x256.size inb_S3200x256_S3200x256_0_0
abbrev r1_2 : Rect S256x256 := Rect.unit (s := S256x256) ![0, 0] S256x256.size inb_S256x256_S256x256_0_0
abbrev r1_4 : Rect S1x256 := Rect.unit (s := S1x256) ![0, 0] S1x256.size inb_S1x256_S1x256_0_0

def out1_7 (x0 x1 : Vec F S3200x256 .bf16) (x2 x3 : Vec F S256x256 .bf16) (x4 : Vec F S1x256 .f32) (x5 : Vec F S256x256 .bf16) (x6 : Vec F S1x256 .f32) : Vec F S3200x256 .bf16 :=
  View.canon [⟨r1_0, k1_pay1 (View.ld x0 r1_0) (View.ld x2 r1_2) (View.ld x1 r1_0) (View.ld x3 r1_2) (View.ld x4 r1_4) (View.ld x5 r1_2) (View.ld x6 r1_4)⟩]

set_option maxHeartbeats 1000000 in
theorem sound_kernel1 (c : Dev nD) (E : Set ℕ) (x0 x1 : Vec F S3200x256 .bf16) (x2 x3 : Vec F S256x256 .bf16) (x4 : Vec F S1x256 .f32) (x5 : Vec F S256x256 .bf16) (x6 : Vec F S1x256 .f32)
    {i : grid1.Coords} {a1 a2 a8 : Memref sig .tc .vmem S3200x256 .bf16} {a3 a4 a6 : Memref sig .tc .vmem S256x256 .bf16} {a5 a7 : Memref sig .tc .vmem S1x256 .f32}
    {h1 : a1.IsWhole} {h2 : a2.IsWhole} {h3 : a3.IsWhole} {h4 : a4.IsWhole} {h5 : a5.IsWhole} {h6 : a6.IsWhole} {h7 : a7.IsWhole} {h8 : a8.IsWhole} {K : PUnit → sProp 𝕄} :
    iprop(owns c a1 fullShare x0 ∗ owns c a2 fullShare x1 ∗ owns c a3 fullShare x2 ∗ owns c a4 fullShare x3 ∗ owns c a5 fullShare x4 ∗ owns c a6 fullShare x5 ∗ owns c a7 fullShare x6 ∗ (∃ d, owns c a8 fullShare d)
        ∗ (iprop(owns c a1 fullShare x0 ∗ owns c a2 fullShare x1 ∗ owns c a3 fullShare x2 ∗ owns c a4 fullShare x3 ∗ owns c a5 fullShare x4 ∗ owns c a6 fullShare x5 ∗ owns c a7 fullShare x6 ∗ owns c a8 fullShare (out1_7 x0 x1 x2 x3 x4 x5 x6)) -∗ K ⟨⟩))
      ⊢ wp frame (wpE (defs₀ (F := F)) Variants.none c none) E (cc1__mlp2_split_kernel i a1 h1 a2 h2 a3 h3 a4 h4 a5 h5 a6 h6 a7 h7 a8 h8) K := by
  simp only [cc1__mlp2_split_kernel_eq_skeleton]; unfold cc1__mlp2_split_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (View.cover_of_tiled _ S3200x256.size (by rfl))

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => out1_7 (iblk1 V c 0 t) (iblk1 V c 1 t) (iblk1 V c 2 t) (iblk1 V c 3 t) (iblk1 V c 4 t) (iblk1 V c 5 t) (iblk1 V c 6 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_7 (c : Dev nD) (t : Fin cfg1.N) : (dat1 V c).after 7 t = out1_7 (iblk1 V c 0 t) (iblk1 V c 1 t) (iblk1 V c 2 t) (iblk1 V c 3 t) (iblk1 V c 4 t) (iblk1 V c 5 t) (iblk1 V c 6 t) := by dsimp only [dat1]

theorem beforeIn1 (c : Dev nD) (t : Fin cfg1.N) : ∀ w : Fin cfg1.W, w ≠ 7 → ∀ d, (dat1 V c).before w t d = (dat1 V c).after w t
  | ⟨0, _⟩, _ | ⟨1, _⟩, _ | ⟨2, _⟩, _ | ⟨3, _⟩, _ | ⟨4, _⟩, _ | ⟨5, _⟩, _ | ⟨6, _⟩, _ => fun d =>
    ((dat1 V c).before_in_eq_fetched _ (by rfl) (fun _ => by rfl) (fun _ _ _ => by rfl) (fun _ => by rfl) t d).trans (by rfl)
  | ⟨7, _⟩, h => absurd rfl h

theorem body_obligation1 (c : Dev nD) : BodyObligation (dat1 (F := F) V c) (defs₀ (F := F)) Variants.none () Set.univ := fun t => by
  rw [bigSep_W1, bigSep_W1]
  simp (disch := decide) only [beforeIn1 V c t]
  dsimp only [dat1, Dat.owesAt, Dat.bound]
  sl_whnfR [defs₀, Defs.onTc]
  iintro ⟨HR, HQ, ⟨%d0, H0⟩, ⟨%d1, H1⟩, ⟨%d2, H2⟩, ⟨%d3, H3⟩, ⟨%d4, H4⟩, ⟨%d5, H5⟩, ⟨%d6, H6⟩, ⟨%d7, H7⟩⟩
  iapply sound_kernel1 c Set.univ (iblk1 V c 0 t) (iblk1 V c 1 t) (iblk1 V c 2 t) (iblk1 V c 3 t) (iblk1 V c 4 t) (iblk1 V c 5 t) (iblk1 V c 6 t)
  iframe H0 H1 H2 H3 H4 H5 H6
  isplitl [H7]; · iexists _; iexact H7
  iintro ⟨H0, H1, H2, H3, H4, H5, H6, H7⟩
  iframe

end Cert.Kernel.Gen
-- ==== Proof.K.Body2.lean ====
import proofs.«411300_j19516331393713_3_alg».proof.Proof.Gen.Kernel.Launch
import proofs.«411300_j19516331393713_3_alg».proof.Proof.Gen.Kernel.Skeleton
import proofs.«411300_j19516331393713_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 65536

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region2
variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev r2_0 : Rect S2000x256 := Rect.unit (s := S2000x256) ![0, 0] S2000x256.size inb_S2000x256_S2000x256_0_0
abbrev r2_1 : Rect S256x256 := Rect.unit (s := S256x256) ![0, 0] S256x256.size inb_S256x256_S256x256_0_0
abbrev r2_2 : Rect S1x256 := Rect.unit (s := S1x256) ![0, 0] S1x256.size inb_S1x256_S1x256_0_0

def out2_8 (x0 : Vec F S2000x256 .bf16) (x1 : Vec F S2000x256 .bf16) (x2 : Vec F S256x256 .bf16) (x3 : Vec F S256x256 .bf16) (x4 : Vec F S1x256 .f32) (x5 : Vec F S256x256 .bf16) (x6 : Vec F S1x256 .f32) (x7 : Vec F S2000x256 .f32) : Vec F S2000x256 .f32 :=
  View.canon [⟨r2_0, k2_pay1 (View.ld x0 r2_0) (View.ld x2 r2_1) (View.ld x1 r2_0) (View.ld x3 r2_1) (View.ld x4 r2_2) (View.ld x5 r2_1) (View.ld x6 r2_2) (View.ld x7 r2_0)⟩]

set_option maxHeartbeats 1000000 in
theorem sound_kernel2 (c : Dev nD) (E : Set ℕ) {i : grid2.Coords} {arg1 arg2 : Memref sig .tc .vmem S2000x256 .bf16} {arg3 arg4 arg6 : Memref sig .tc .vmem S256x256 .bf16} {arg5 arg7 : Memref sig .tc .vmem S1x256 .f32} {arg8 arg9 : Memref sig .tc .vmem S2000x256 .f32}
    {harg1 : arg1.IsWhole} {harg2 : arg2.IsWhole} {harg3 : arg3.IsWhole} {harg4 : arg4.IsWhole} {harg5 : arg5.IsWhole} {harg6 : arg6.IsWhole} {harg7 : arg7.IsWhole} {harg8 : arg8.IsWhole} {harg9 : arg9.IsWhole}
    (x0 x1 : Vec F S2000x256 .bf16) (x2 x3 : Vec F S256x256 .bf16) (x4 : Vec F S1x256 .f32) (x5 : Vec F S256x256 .bf16) (x6 : Vec F S1x256 .f32) (x7 : Vec F S2000x256 .f32) (K : PUnit → sProp 𝕄) :
    iprop(owns c arg1 fullShare x0 ∗ owns c arg2 fullShare x1 ∗ owns c arg3 fullShare x2 ∗ owns c arg4 fullShare x3 ∗ owns c arg5 fullShare x4 ∗ owns c arg6 fullShare x5 ∗ owns c arg7 fullShare x6 ∗ owns c arg8 fullShare x7 ∗ (∃ d, owns c arg9 fullShare d)
        ∗ (iprop(owns c arg1 fullShare x0 ∗ owns c arg2 fullShare x1 ∗ owns c arg3 fullShare x2 ∗ owns c arg4 fullShare x3 ∗ owns c arg5 fullShare x4 ∗ owns c arg6 fullShare x5 ∗ owns c arg7 fullShare x6 ∗ owns c arg8 fullShare x7 ∗ owns c arg9 fullShare (out2_8 x0 x1 x2 x3 x4 x5 x6 x7)) -∗ K ⟨⟩))
      ⊢ wp frame (wpE (defs₀ (F := F)) Variants.none c none) E (cc2__mlp2_split_residual_kernel i arg1 harg1 arg2 harg2 arg3 harg3 arg4 harg4 arg5 harg5 arg6 harg6 arg7 harg7 arg8 harg8 arg9 harg9) K := by
  simp only [cc2__mlp2_split_residual_kernel_eq_skeleton]; unfold cc2__mlp2_split_residual_kernel_skel owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, Hk⟩
  subst hf0 hf1 hf2 hf3 hf4 hf5 hf6 hf7
  sl_exec
  sl_step
  iapply Hk
  isplitl [H0]; · iexists f0; isplitr; · ipureintro; rfl
                  iexact H0
  isplitl [H1]; · iexists f1; isplitr; · ipureintro; rfl
                  iexact H1
  isplitl [H2]; · iexists f2; isplitr; · ipureintro; rfl
                  iexact H2
  isplitl [H3]; · iexists f3; isplitr; · ipureintro; rfl
                  iexact H3
  isplitl [H4]; · iexists f4; isplitr; · ipureintro; rfl
                  iexact H4
  isplitl [H5]; · iexists f5; isplitr; · ipureintro; rfl
                  iexact H5
  isplitl [H6]; · iexists f6; isplitr; · ipureintro; rfl
                  iexact H6
  isplitl [H7]; · iexists f7; isplitr; · ipureintro; rfl
                  iexact H7
  iexists _; isplitr
  swap; · iexact H8
  ipureintro
  exact View.read_writes_eq_canon _ _ _ (View.cover_of_tiled _ S2000x256.size (by rfl))

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => iblk2 V c 6 t
    | ⟨7, _⟩ => iblk2 V c 7 t
    | ⟨8, _⟩ => out2_8 (iblk2 V c 0 t) (iblk2 V c 1 t) (iblk2 V c 2 t) (iblk2 V c 3 t) (iblk2 V c 4 t) (iblk2 V c 5 t) (iblk2 V c 6 t) (iblk2 V c 7 t)
  Φ _ := Pipeline.ΦA spec2 c
  q _ := fullShare
  owed _ := 0

theorem A_eq2 (c : Dev nD) (w : Fin cfg2.W) : (dat2 V c).A w = V c (Pipeline.arrRef spec2 w) := rfl

theorem after2_8 (c : Dev nD) (t : Fin cfg2.N) : (dat2 V c).after 8 t = out2_8 (iblk2 V c 0 t) (iblk2 V c 1 t) (iblk2 V c 2 t) (iblk2 V c 3 t) (iblk2 V c 4 t) (iblk2 V c 5 t) (iblk2 V c 6 t) (iblk2 V c 7 t) := by dsimp only [dat2]

theorem beforeIn2 (c : Dev nD) : ∀ w : Fin cfg2.W, w ≠ 8 → ∀ t d, (dat2 V c).before w t d = (dat2 V c).after w t
  | ⟨0, _⟩, _ | ⟨1, _⟩, _ | ⟨2, _⟩, _ | ⟨3, _⟩, _ | ⟨4, _⟩, _ | ⟨5, _⟩, _ | ⟨6, _⟩, _ | ⟨7, _⟩, _ =>
    (dat2 V c).before_in_eq_fetched _ rfl (fun _ => rfl) (fun _ _ _ => rfl) (fun _ => rfl)
  | ⟨8, _⟩, h => absurd rfl h

theorem body_obligation2 (c : Dev nD) : BodyObligation (dat2 (F := F) V c) (defs₀ (F := F)) Variants.none () Set.univ := fun t => by
  rw [bigSep_W2, bigSep_W2]
  simp (disch := decide) only [beforeIn2 V c]
  dsimp only [dat2]
  change _ ⊢ wp _ _ _ (bodyAt2 t) _
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (sound_kernel2 c Set.univ (iblk2 V c 0 t) (iblk2 V c 1 t) (iblk2 V c 2 t) (iblk2 V c 3 t) (iblk2 V c 4 t) (iblk2 V c 5 t) (iblk2 V c 6 t) (iblk2 V c 7 t) _)
  iframe
  isplitl [H8]; · iexists _; iexact H8
  iintro ⟨H0, H1, H2, H3, H4, H5, H6, H7, H8⟩
  iframe
  iexact Ho

end Region2

end Cert.Kernel.Gen
-- ==== Proof.K.Body3.lean ====
import proofs.«411300_j19516331393713_3_alg».proof.Proof.Gen.Kernel.Launch
import proofs.«411300_j19516331393713_3_alg».proof.Proof.Gen.Kernel.Skeleton
import proofs.«411300_j19516331393713_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

abbrev r3_0 : Rect S3200x256 := Rect.unit (s := S3200x256) ![0, 0] S3200x256.size inb_S3200x256_S3200x256_0_0
abbrev r3_2 : Rect S256x256 := Rect.unit (s := S256x256) ![0, 0] S256x256.size inb_S256x256_S256x256_0_0
abbrev r3_4 : Rect S1x256 := Rect.unit (s := S1x256) ![0, 0] S1x256.size inb_S1x256_S1x256_0_0

def out3_7 (x0 x1 : Vec F S3200x256 .bf16) (x2 x3 : Vec F S256x256 .bf16) (x4 : Vec F S1x256 .f32) (x5 : Vec F S256x256 .bf16) (x6 : Vec F S1x256 .f32) : Vec F S3200x256 .bf16 :=
  View.canon [⟨r3_0, k3_pay1 (View.ld x0 r3_0) (View.ld x2 r3_2) (View.ld x1 r3_0) (View.ld x3 r3_2) (View.ld x4 r3_4) (View.ld x5 r3_2) (View.ld x6 r3_4)⟩]

set_option maxHeartbeats 1000000 in
theorem sound_kernel3 (c : Dev nD) (E : Set ℕ) (x0 x1 : Vec F S3200x256 .bf16) (x2 x3 : Vec F S256x256 .bf16) (x4 : Vec F S1x256 .f32) (x5 : Vec F S256x256 .bf16) (x6 : Vec F S1x256 .f32)
    {i : grid3.Coords} {a1 a2 a8 : Memref sig .tc .vmem S3200x256 .bf16} {a3 a4 a6 : Memref sig .tc .vmem S256x256 .bf16} {a5 a7 : Memref sig .tc .vmem S1x256 .f32}
    {h1 : a1.IsWhole} {h2 : a2.IsWhole} {h3 : a3.IsWhole} {h4 : a4.IsWhole} {h5 : a5.IsWhole} {h6 : a6.IsWhole} {h7 : a7.IsWhole} {h8 : a8.IsWhole} {K : PUnit → sProp 𝕄} :
    iprop(owns c a1 fullShare x0 ∗ owns c a2 fullShare x1 ∗ owns c a3 fullShare x2 ∗ owns c a4 fullShare x3 ∗ owns c a5 fullShare x4 ∗ owns c a6 fullShare x5 ∗ owns c a7 fullShare x6 ∗ (∃ d, owns c a8 fullShare d)
        ∗ (iprop(owns c a1 fullShare x0 ∗ owns c a2 fullShare x1 ∗ owns c a3 fullShare x2 ∗ owns c a4 fullShare x3 ∗ owns c a5 fullShare x4 ∗ owns c a6 fullShare x5 ∗ owns c a7 fullShare x6 ∗ owns c a8 fullShare (out3_7 x0 x1 x2 x3 x4 x5 x6)) -∗ K ⟨⟩))
      ⊢ wp frame (wpE (defs₀ (F := F)) Variants.none c none) E (cc3__mlp2_split_kernel i a1 h1 a2 h2 a3 h3 a4 h4 a5 h5 a6 h6 a7 h7 a8 h8) K := by
  simp only [cc3__mlp2_split_kernel_eq_skeleton]; unfold cc3__mlp2_split_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (View.cover_of_tiled _ S3200x256.size (by rfl))

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => iblk3 V c 5 t
    | ⟨6, _⟩ => iblk3 V c 6 t
    | ⟨7, _⟩ => out3_7 (iblk3 V c 0 t) (iblk3 V c 1 t) (iblk3 V c 2 t) (iblk3 V c 3 t) (iblk3 V c 4 t) (iblk3 V c 5 t) (iblk3 V c 6 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_7 (c : Dev nD) (t : Fin cfg3.N) : (dat3 V c).after 7 t = out3_7 (iblk3 V c 0 t) (iblk3 V c 1 t) (iblk3 V c 2 t) (iblk3 V c 3 t) (iblk3 V c 4 t) (iblk3 V c 5 t) (iblk3 V c 6 t) := by dsimp only [dat3]

theorem beforeIn3 (c : Dev nD) (t : Fin cfg3.N) : ∀ w : Fin cfg3.W, w ≠ 7 → ∀ d, (dat3 V c).before w t d = (dat3 V c).after w t
  | ⟨0, _⟩, _ | ⟨1, _⟩, _ | ⟨2, _⟩, _ | ⟨3, _⟩, _ | ⟨4, _⟩, _ | ⟨5, _⟩, _ | ⟨6, _⟩, _ => fun d =>
    ((dat3 V c).before_in_eq_fetched _ (by rfl) (fun _ => by rfl) (fun _ _ _ => by rfl) (fun _ => by rfl) t d).trans (by rfl)
  | ⟨7, _⟩, h => absurd rfl h

theorem body_obligation3 (c : Dev nD) : BodyObligation (dat3 (F := F) V c) (defs₀ (F := F)) Variants.none () Set.univ := fun t => by
  rw [bigSep_W3, bigSep_W3]
  simp (disch := decide) only [beforeIn3 V c t]
  dsimp only [dat3, Dat.owesAt, Dat.bound]
  sl_whnfR [defs₀, Defs.onTc]
  iintro ⟨HR, HQ, ⟨%d0, H0⟩, ⟨%d1, H1⟩, ⟨%d2, H2⟩, ⟨%d3, H3⟩, ⟨%d4, H4⟩, ⟨%d5, H5⟩, ⟨%d6, H6⟩, ⟨%d7, H7⟩⟩
  iapply sound_kernel3 c Set.univ (iblk3 V c 0 t) (iblk3 V c 1 t) (iblk3 V c 2 t) (iblk3 V c 3 t) (iblk3 V c 4 t) (iblk3 V c 5 t) (iblk3 V c 6 t)
  iframe H0 H1 H2 H3 H4 H5 H6
  isplitl [H7]; · iexists _; iexact H7
  iintro ⟨H0, H1, H2, H3, H4, H5, H6, H7⟩
  iframe

end Cert.Kernel.Gen
-- ==== Proof.K.Body4.lean ====
import proofs.«411300_j19516331393713_3_alg».proof.Proof.Gen.Kernel.Launch
import proofs.«411300_j19516331393713_3_alg».proof.Proof.Gen.Kernel.Skeleton
import proofs.«411300_j19516331393713_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 65536

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region4
variable (V : (c : Dev nD) → (b : Ref sig .tc) → Buf (Elt F) ((c : Thread nD τ).loc b))

def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

abbrev r4_0 : Rect S2000x256 := Rect.unit (s := S2000x256) ![0, 0] S2000x256.size inb_S2000x256_S2000x256_0_0
abbrev r4_1 : Rect S256x256 := Rect.unit (s := S256x256) ![0, 0] S256x256.size inb_S256x256_S256x256_0_0
abbrev r4_2 : Rect S1x256 := Rect.unit (s := S1x256) ![0, 0] S1x256.size inb_S1x256_S1x256_0_0

def out4_8 (x0 : Vec F S2000x256 .bf16) (x1 : Vec F S2000x256 .bf16) (x2 : Vec F S256x256 .bf16) (x3 : Vec F S256x256 .bf16) (x4 : Vec F S1x256 .f32) (x5 : Vec F S256x256 .bf16) (x6 : Vec F S1x256 .f32) (x7 : Vec F S2000x256 .f32) : Vec F S2000x256 .f32 :=
  View.canon [⟨r4_0, k4_pay1 (View.ld x0 r4_0) (View.ld x2 r4_1) (View.ld x1 r4_0) (View.ld x3 r4_1) (View.ld x4 r4_2) (View.ld x5 r4_1) (View.ld x6 r4_2) (View.ld x7 r4_0)⟩]

set_option maxHeartbeats 1000000 in
theorem sound_kernel4 (c : Dev nD) (E : Set ℕ) {i : grid4.Coords} {arg1 arg2 : Memref sig .tc .vmem S2000x256 .bf16} {arg3 arg4 arg6 : Memref sig .tc .vmem S256x256 .bf16} {arg5 arg7 : Memref sig .tc .vmem S1x256 .f32} {arg8 arg9 : Memref sig .tc .vmem S2000x256 .f32}
    {harg1 : arg1.IsWhole} {harg2 : arg2.IsWhole} {harg3 : arg3.IsWhole} {harg4 : arg4.IsWhole} {harg5 : arg5.IsWhole} {harg6 : arg6.IsWhole} {harg7 : arg7.IsWhole} {harg8 : arg8.IsWhole} {harg9 : arg9.IsWhole}
    (x0 x1 : Vec F S2000x256 .bf16) (x2 x3 : Vec F S256x256 .bf16) (x4 : Vec F S1x256 .f32) (x5 : Vec F S256x256 .bf16) (x6 : Vec F S1x256 .f32) (x7 : Vec F S2000x256 .f32) (K : PUnit → sProp 𝕄) :
    iprop(owns c arg1 fullShare x0 ∗ owns c arg2 fullShare x1 ∗ owns c arg3 fullShare x2 ∗ owns c arg4 fullShare x3 ∗ owns c arg5 fullShare x4 ∗ owns c arg6 fullShare x5 ∗ owns c arg7 fullShare x6 ∗ owns c arg8 fullShare x7 ∗ (∃ d, owns c arg9 fullShare d)
        ∗ (iprop(owns c arg1 fullShare x0 ∗ owns c arg2 fullShare x1 ∗ owns c arg3 fullShare x2 ∗ owns c arg4 fullShare x3 ∗ owns c arg5 fullShare x4 ∗ owns c arg6 fullShare x5 ∗ owns c arg7 fullShare x6 ∗ owns c arg8 fullShare x7 ∗ owns c arg9 fullShare (out4_8 x0 x1 x2 x3 x4 x5 x6 x7)) -∗ K ⟨⟩))
      ⊢ wp frame (wpE (defs₀ (F := F)) Variants.none c none) E (cc4__mlp2_split_residual_kernel i arg1 harg1 arg2 harg2 arg3 harg3 arg4 harg4 arg5 harg5 arg6 harg6 arg7 harg7 arg8 harg8 arg9 harg9) K := by
  simp only [cc4__mlp2_split_residual_kernel_eq_skeleton]; unfold cc4__mlp2_split_residual_kernel_skel owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, Hk⟩
  subst hf0 hf1 hf2 hf3 hf4 hf5 hf6 hf7
  sl_exec
  sl_step
  iapply Hk
  isplitl [H0]; · iexists f0; isplitr; · ipureintro; rfl
                  iexact H0
  isplitl [H1]; · iexists f1; isplitr; · ipureintro; rfl
                  iexact H1
  isplitl [H2]; · iexists f2; isplitr; · ipureintro; rfl
                  iexact H2
  isplitl [H3]; · iexists f3; isplitr; · ipureintro; rfl
                  iexact H3
  isplitl [H4]; · iexists f4; isplitr; · ipureintro; rfl
                  iexact H4
  isplitl [H5]; · iexists f5; isplitr; · ipureintro; rfl
                  iexact H5
  isplitl [H6]; · iexists f6; isplitr; · ipureintro; rfl
                  iexact H6
  isplitl [H7]; · iexists f7; isplitr; · ipureintro; rfl
                  iexact H7
  iexists _; isplitr
  swap; · iexact H8
  ipureintro
  exact View.read_writes_eq_canon _ _ _ (View.cover_of_tiled _ S2000x256.size (by rfl))

def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => iblk4 V c 4 t
    | ⟨5, _⟩ => iblk4 V c 5 t
    | ⟨6, _⟩ => iblk4 V c 6 t
    | ⟨7, _⟩ => iblk4 V c 7 t
    | ⟨8, _⟩ => out4_8 (iblk4 V c 0 t) (iblk4 V c 1 t) (iblk4 V c 2 t) (iblk4 V c 3 t) (iblk4 V c 4 t) (iblk4 V c 5 t) (iblk4 V c 6 t) (iblk4 V c 7 t)
  Φ _ := Pipeline.ΦA spec4 c
  q _ := fullShare
  owed _ := 0

theorem A_eq4 (c : Dev nD) (w : Fin cfg4.W) : (dat4 V c).A w = V c (Pipeline.arrRef spec4 w) := rfl

theorem after4_8 (c : Dev nD) (t : Fin cfg4.N) : (dat4 V c).after 8 t = out4_8 (iblk4 V c 0 t) (iblk4 V c 1 t) (iblk4 V c 2 t) (iblk4 V c 3 t) (iblk4 V c 4 t) (iblk4 V c 5 t) (iblk4 V c 6 t) (iblk4 V c 7 t) := by dsimp only [dat4]

theorem beforeIn4 (c : Dev nD) : ∀ w : Fin cfg4.W, w ≠ 8 → ∀ t d, (dat4 V c).before w t d = (dat4 V c).after w t
  | ⟨0, _⟩, _ | ⟨1, _⟩, _ | ⟨2, _⟩, _ | ⟨3, _⟩, _ | ⟨4, _⟩, _ | ⟨5, _⟩, _ | ⟨6, _⟩, _ | ⟨7, _⟩, _ =>
    (dat4 V c).before_in_eq_fetched _ rfl (fun _ => rfl) (fun _ _ _ => rfl) (fun _ => rfl)
  | ⟨8, _⟩, h => absurd rfl h

theorem body_obligation4 (c : Dev nD) : BodyObligation (dat4 (F := F) V c) (defs₀ (F := F)) Variants.none () Set.univ := fun t => by
  rw [bigSep_W4, bigSep_W4]
  simp (disch := decide) only [beforeIn4 V c]
  dsimp only [dat4]
  change _ ⊢ wp _ _ _ (bodyAt4 t) _
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (sound_kernel4 c Set.univ (iblk4 V c 0 t) (iblk4 V c 1 t) (iblk4 V c 2 t) (iblk4 V c 3 t) (iblk4 V c 4 t) (iblk4 V c 5 t) (iblk4 V c 6 t) (iblk4 V c 7 t) _)
  iframe
  isplitl [H8]; · iexists _; iexact H8
  iintro ⟨H0, H1, H2, H3, H4, H5, H6, H7, H8⟩
  iframe
  iexact Ho

end Region4

end Cert.Kernel.Gen
-- ==== Proof.K.Body5.lean ====
import proofs.«411300_j19516331393713_3_alg».proof.Proof.Gen.Kernel.Launch
import proofs.«411300_j19516331393713_3_alg».proof.Proof.Gen.Kernel.Skeleton
import proofs.«411300_j19516331393713_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

abbrev r5_0 : Rect S3200x256 := Rect.unit (s := S3200x256) ![0, 0] S3200x256.size inb_S3200x256_S3200x256_0_0
abbrev r5_2 : Rect S256x256 := Rect.unit (s := S256x256) ![0, 0] S256x256.size inb_S256x256_S256x256_0_0
abbrev r5_4 : Rect S1x256 := Rect.unit (s := S1x256) ![0, 0] S1x256.size inb_S1x256_S1x256_0_0

def out5_7 (x0 x1 : Vec F S3200x256 .bf16) (x2 x3 : Vec F S256x256 .bf16) (x4 : Vec F S1x256 .f32) (x5 : Vec F S256x256 .bf16) (x6 : Vec F S1x256 .f32) : Vec F S3200x256 .bf16 :=
  View.canon [⟨r5_0, k5_pay1 (View.ld x0 r5_0) (View.ld x2 r5_2) (View.ld x1 r5_0) (View.ld x3 r5_2) (View.ld x4 r5_4) (View.ld x5 r5_2) (View.ld x6 r5_4)⟩]

set_option maxHeartbeats 1000000 in
theorem sound_kernel5 (c : Dev nD) (E : Set ℕ) (x0 x1 : Vec F S3200x256 .bf16) (x2 x3 : Vec F S256x256 .bf16) (x4 : Vec F S1x256 .f32) (x5 : Vec F S256x256 .bf16) (x6 : Vec F S1x256 .f32)
    {i : grid5.Coords} {a1 a2 a8 : Memref sig .tc .vmem S3200x256 .bf16} {a3 a4 a6 : Memref sig .tc .vmem S256x256 .bf16} {a5 a7 : Memref sig .tc .vmem S1x256 .f32}
    {h1 : a1.IsWhole} {h2 : a2.IsWhole} {h3 : a3.IsWhole} {h4 : a4.IsWhole} {h5 : a5.IsWhole} {h6 : a6.IsWhole} {h7 : a7.IsWhole} {h8 : a8.IsWhole} {K : PUnit → sProp 𝕄} :
    iprop(owns c a1 fullShare x0 ∗ owns c a2 fullShare x1 ∗ owns c a3 fullShare x2 ∗ owns c a4 fullShare x3 ∗ owns c a5 fullShare x4 ∗ owns c a6 fullShare x5 ∗ owns c a7 fullShare x6 ∗ (∃ d, owns c a8 fullShare d)
        ∗ (iprop(owns c a1 fullShare x0 ∗ owns c a2 fullShare x1 ∗ owns c a3 fullShare x2 ∗ owns c a4 fullShare x3 ∗ owns c a5 fullShare x4 ∗ owns c a6 fullShare x5 ∗ owns c a7 fullShare x6 ∗ owns c a8 fullShare (out5_7 x0 x1 x2 x3 x4 x5 x6)) -∗ K ⟨⟩))
      ⊢ wp frame (wpE (defs₀ (F := F)) Variants.none c none) E (cc5__mlp2_split_kernel i a1 h1 a2 h2 a3 h3 a4 h4 a5 h5 a6 h6 a7 h7 a8 h8) K := by
  simp only [cc5__mlp2_split_kernel_eq_skeleton]; unfold cc5__mlp2_split_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (View.cover_of_tiled _ S3200x256.size (by rfl))

def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => iblk5 V c 4 t
    | ⟨5, _⟩ => iblk5 V c 5 t
    | ⟨6, _⟩ => iblk5 V c 6 t
    | ⟨7, _⟩ => out5_7 (iblk5 V c 0 t) (iblk5 V c 1 t) (iblk5 V c 2 t) (iblk5 V c 3 t) (iblk5 V c 4 t) (iblk5 V c 5 t) (iblk5 V c 6 t)
  Φ _ := Pipeline.ΦA spec5 c
  q _ := fullShare
  owed _ := 0

theorem A_eq5 (c : Dev nD) (w : Fin cfg5.W) : (dat5 V c).A w = V c (Pipeline.arrRef spec5 w) := by
  dsimp only [dat5]

theorem after5_7 (c : Dev nD) (t : Fin cfg5.N) : (dat5 V c).after 7 t = out5_7 (iblk5 V c 0 t) (iblk5 V c 1 t) (iblk5 V c 2 t) (iblk5 V c 3 t) (iblk5 V c 4 t) (iblk5 V c 5 t) (iblk5 V c 6 t) := by dsimp only [dat5]

theorem beforeIn5 (c : Dev nD) (t : Fin cfg5.N) : ∀ w : Fin cfg5.W, w ≠ 7 → ∀ d, (dat5 V c).before w t d = (dat5 V c).after w t
  | ⟨0, _⟩, _ | ⟨1, _⟩, _ | ⟨2, _⟩, _ | ⟨3, _⟩, _ | ⟨4, _⟩, _ | ⟨5, _⟩, _ | ⟨6, _⟩, _ => fun d =>
    ((dat5 V c).before_in_eq_fetched _ (by rfl) (fun _ => by rfl) (fun _ _ _ => by rfl) (fun _ => by rfl) t d).trans (by rfl)
  | ⟨7, _⟩, h => absurd rfl h

theorem body_obligation5 (c : Dev nD) : BodyObligation (dat5 (F := F) V c) (defs₀ (F := F)) Variants.none () Set.univ := fun t => by
  rw [bigSep_W5, bigSep_W5]
  simp (disch := decide) only [beforeIn5 V c t]
  dsimp only [dat5, Dat.owesAt, Dat.bound]
  sl_whnfR [defs₀, Defs.onTc]
  iintro ⟨HR, HQ, ⟨%d0, H0⟩, ⟨%d1, H1⟩, ⟨%d2, H2⟩, ⟨%d3, H3⟩, ⟨%d4, H4⟩, ⟨%d5, H5⟩, ⟨%d6, H6⟩, ⟨%d7, H7⟩⟩
  iapply sound_kernel5 c Set.univ (iblk5 V c 0 t) (iblk5 V c 1 t) (iblk5 V c 2 t) (iblk5 V c 3 t) (iblk5 V c 4 t) (iblk5 V c 5 t) (iblk5 V c 6 t)
  iframe H0 H1 H2 H3 H4 H5 H6
  isplitl [H7]; · iexists _; iexact H7
  iintro ⟨H0, H1, H2, H3, H4, H5, H6, H7⟩
  iframe

end Cert.Kernel.Gen
-- ==== Proof.K.Body6.lean ====
import proofs.«411300_j19516331393713_3_alg».proof.Proof.Gen.Kernel.Launch
import proofs.«411300_j19516331393713_3_alg».proof.Proof.Gen.Kernel.Skeleton
import proofs.«411300_j19516331393713_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 65536

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region6
variable (V : (c : Dev nD) → (b : Ref sig .tc) → Buf (Elt F) ((c : Thread nD τ).loc b))

def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

abbrev r6_0 : Rect S2000x256 := Rect.unit (s := S2000x256) ![0, 0] S2000x256.size inb_S2000x256_S2000x256_0_0
abbrev r6_1 : Rect S256x256 := Rect.unit (s := S256x256) ![0, 0] S256x256.size inb_S256x256_S256x256_0_0
abbrev r6_2 : Rect S1x256 := Rect.unit (s := S1x256) ![0, 0] S1x256.size inb_S1x256_S1x256_0_0

def out6_8 (x0 : Vec F S2000x256 .bf16) (x1 : Vec F S2000x256 .bf16) (x2 : Vec F S256x256 .bf16) (x3 : Vec F S256x256 .bf16) (x4 : Vec F S1x256 .f32) (x5 : Vec F S256x256 .bf16) (x6 : Vec F S1x256 .f32) (x7 : Vec F S2000x256 .f32) : Vec F S2000x256 .f32 :=
  View.canon [⟨r6_0, k6_pay1 (View.ld x0 r6_0) (View.ld x2 r6_1) (View.ld x1 r6_0) (View.ld x3 r6_1) (View.ld x4 r6_2) (View.ld x5 r6_1) (View.ld x6 r6_2) (View.ld x7 r6_0)⟩]

set_option maxHeartbeats 1000000 in
theorem sound_kernel6 (c : Dev nD) (E : Set ℕ) {i : grid6.Coords} {arg1 arg2 : Memref sig .tc .vmem S2000x256 .bf16} {arg3 arg4 arg6 : Memref sig .tc .vmem S256x256 .bf16} {arg5 arg7 : Memref sig .tc .vmem S1x256 .f32} {arg8 arg9 : Memref sig .tc .vmem S2000x256 .f32}
    {harg1 : arg1.IsWhole} {harg2 : arg2.IsWhole} {harg3 : arg3.IsWhole} {harg4 : arg4.IsWhole} {harg5 : arg5.IsWhole} {harg6 : arg6.IsWhole} {harg7 : arg7.IsWhole} {harg8 : arg8.IsWhole} {harg9 : arg9.IsWhole}
    (x0 x1 : Vec F S2000x256 .bf16) (x2 x3 : Vec F S256x256 .bf16) (x4 : Vec F S1x256 .f32) (x5 : Vec F S256x256 .bf16) (x6 : Vec F S1x256 .f32) (x7 : Vec F S2000x256 .f32) (K : PUnit → sProp 𝕄) :
    iprop(owns c arg1 fullShare x0 ∗ owns c arg2 fullShare x1 ∗ owns c arg3 fullShare x2 ∗ owns c arg4 fullShare x3 ∗ owns c arg5 fullShare x4 ∗ owns c arg6 fullShare x5 ∗ owns c arg7 fullShare x6 ∗ owns c arg8 fullShare x7 ∗ (∃ d, owns c arg9 fullShare d)
        ∗ (iprop(owns c arg1 fullShare x0 ∗ owns c arg2 fullShare x1 ∗ owns c arg3 fullShare x2 ∗ owns c arg4 fullShare x3 ∗ owns c arg5 fullShare x4 ∗ owns c arg6 fullShare x5 ∗ owns c arg7 fullShare x6 ∗ owns c arg8 fullShare x7 ∗ owns c arg9 fullShare (out6_8 x0 x1 x2 x3 x4 x5 x6 x7)) -∗ K ⟨⟩))
      ⊢ wp frame (wpE (defs₀ (F := F)) Variants.none c none) E (cc6__mlp2_split_residual_kernel i arg1 harg1 arg2 harg2 arg3 harg3 arg4 harg4 arg5 harg5 arg6 harg6 arg7 harg7 arg8 harg8 arg9 harg9) K := by
  simp only [cc6__mlp2_split_residual_kernel_eq_skeleton]; unfold cc6__mlp2_split_residual_kernel_skel owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, Hk⟩
  subst hf0 hf1 hf2 hf3 hf4 hf5 hf6 hf7
  sl_exec
  sl_step
  iapply Hk
  isplitl [H0]; · iexists f0; isplitr; · ipureintro; rfl
                  iexact H0
  isplitl [H1]; · iexists f1; isplitr; · ipureintro; rfl
                  iexact H1
  isplitl [H2]; · iexists f2; isplitr; · ipureintro; rfl
                  iexact H2
  isplitl [H3]; · iexists f3; isplitr; · ipureintro; rfl
                  iexact H3
  isplitl [H4]; · iexists f4; isplitr; · ipureintro; rfl
                  iexact H4
  isplitl [H5]; · iexists f5; isplitr; · ipureintro; rfl
                  iexact H5
  isplitl [H6]; · iexists f6; isplitr; · ipureintro; rfl
                  iexact H6
  isplitl [H7]; · iexists f7; isplitr; · ipureintro; rfl
                  iexact H7
  iexists _; isplitr
  swap; · iexact H8
  ipureintro
  exact View.read_writes_eq_canon _ _ _ (View.cover_of_tiled _ S2000x256.size (by rfl))

def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => iblk6 V c 3 t
    | ⟨4, _⟩ => iblk6 V c 4 t
    | ⟨5, _⟩ => iblk6 V c 5 t
    | ⟨6, _⟩ => iblk6 V c 6 t
    | ⟨7, _⟩ => iblk6 V c 7 t
    | ⟨8, _⟩ => out6_8 (iblk6 V c 0 t) (iblk6 V c 1 t) (iblk6 V c 2 t) (iblk6 V c 3 t) (iblk6 V c 4 t) (iblk6 V c 5 t) (iblk6 V c 6 t) (iblk6 V c 7 t)
  Φ _ := Pipeline.ΦA spec6 c
  q _ := fullShare
  owed _ := 0

theorem A_eq6 (c : Dev nD) (w : Fin cfg6.W) : (dat6 V c).A w = V c (Pipeline.arrRef spec6 w) := rfl

theorem after6_8 (c : Dev nD) (t : Fin cfg6.N) : (dat6 V c).after 8 t = out6_8 (iblk6 V c 0 t) (iblk6 V c 1 t) (iblk6 V c 2 t) (iblk6 V c 3 t) (iblk6 V c 4 t) (iblk6 V c 5 t) (iblk6 V c 6 t) (iblk6 V c 7 t) := by dsimp only [dat6]

theorem beforeIn6 (c : Dev nD) : ∀ w : Fin cfg6.W, w ≠ 8 → ∀ t d, (dat6 V c).before w t d = (dat6 V c).after w t
  | ⟨0, _⟩, _ | ⟨1, _⟩, _ | ⟨2, _⟩, _ | ⟨3, _⟩, _ | ⟨4, _⟩, _ | ⟨5, _⟩, _ | ⟨6, _⟩, _ | ⟨7, _⟩, _ =>
    (dat6 V c).before_in_eq_fetched _ rfl (fun _ => rfl) (fun _ _ _ => rfl) (fun _ => rfl)
  | ⟨8, _⟩, h => absurd rfl h

theorem body_obligation6 (c : Dev nD) : BodyObligation (dat6 (F := F) V c) (defs₀ (F := F)) Variants.none () Set.univ := fun t => by
  rw [bigSep_W6, bigSep_W6]
  simp (disch := decide) only [beforeIn6 V c]
  dsimp only [dat6]
  change _ ⊢ wp _ _ _ (bodyAt6 t) _
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (sound_kernel6 c Set.univ (iblk6 V c 0 t) (iblk6 V c 1 t) (iblk6 V c 2 t) (iblk6 V c 3 t) (iblk6 V c 4 t) (iblk6 V c 5 t) (iblk6 V c 6 t) (iblk6 V c 7 t) _)
  iframe
  isplitl [H8]; · iexists _; iexact H8
  iintro ⟨H0, H1, H2, H3, H4, H5, H6, H7, H8⟩
  iframe
  iexact Ho

end Region6

end Cert.Kernel.Gen
-- ==== Proof.K.Body7.lean ====
import proofs.«411300_j19516331393713_3_alg».proof.Proof.Gen.Kernel.Launch
import proofs.«411300_j19516331393713_3_alg».proof.Proof.Gen.Kernel.Skeleton
import proofs.«411300_j19516331393713_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region7
variable (V : (c : Dev nD) → (b : Ref sig .tc) → Buf (Elt F) ((c : Thread nD τ).loc b))

def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

abbrev r7_0 : Rect S2000x256 := Rect.unit (s := S2000x256) ![0, 0] S2000x256.size inb_S2000x256_S2000x256_0_0
abbrev r7_1 : Rect S256x256 := Rect.unit (s := S256x256) ![0, 0] S256x256.size inb_S256x256_S256x256_0_0
abbrev r7_2 : Rect S2000x8 := Rect.unit (s := S2000x8) ![0, 0] S2000x8.size inb_S2000x8_S2000x8_0_0
abbrev r7_3 : Rect S8x256 := Rect.unit (s := S8x256) ![0, 0] S8x256.size inb_S8x256_S8x256_0_0
abbrev r7_4 : Rect S1x256 := Rect.unit (s := S1x256) ![0, 0] S1x256.size inb_S1x256_S1x256_0_0
abbrev r7_5 : Rect S256x128 := Rect.unit (s := S256x128) ![0, 0] S256x128.size inb_S256x128_S256x128_0_0
abbrev r7_6 : Rect S1x128 := Rect.unit (s := S1x128) ![0, 0] S1x128.size inb_S1x128_S1x128_0_0
abbrev r7_7 : Rect S2000x128 := Rect.unit (s := S2000x128) ![0, 0] S2000x128.size inb_S2000x128_S2000x128_0_0

def out7_9 (x0 : Vec F S2000x256 .bf16) (x1 : Vec F S2000x256 .bf16) (x2 : Vec F S2000x8 .bf16) (x3 : Vec F S256x256 .bf16) (x4 : Vec F S256x256 .bf16) (x5 : Vec F S8x256 .bf16) (x6 : Vec F S1x256 .f32) (x7 : Vec F S256x128 .bf16) (x8 : Vec F S1x128 .f32) : Vec F S2000x128 .f32 :=
  View.canon [⟨r7_7, k7_pay1 (View.ld x0 r7_0) (View.ld x3 r7_1) (View.ld x1 r7_0) (View.ld x4 r7_1) (View.ld x2 r7_2) (View.ld x5 r7_3) (View.ld x6 r7_4) (View.ld x7 r7_5) (View.ld x8 r7_6)⟩]

def dat7 (c : Dev nD) : Dat τ (Elt F) Unit ℕ (UR sig nD τ) ℕ cfg7 c where
  A w := V c (Pipeline.arrRef spec7 w)
  after w t := match w with
    | ⟨0, _⟩ => iblk7 V c 0 t
    | ⟨1, _⟩ => iblk7 V c 1 t
    | ⟨2, _⟩ => iblk7 V c 2 t
    | ⟨3, _⟩ => iblk7 V c 3 t
    | ⟨4, _⟩ => iblk7 V c 4 t
    | ⟨5, _⟩ => iblk7 V c 5 t
    | ⟨6, _⟩ => iblk7 V c 6 t
    | ⟨7, _⟩ => iblk7 V c 7 t
    | ⟨8, _⟩ => iblk7 V c 8 t
    | ⟨9, _⟩ => out7_9 (iblk7 V c 0 t) (iblk7 V c 1 t) (iblk7 V c 2 t) (iblk7 V c 3 t) (iblk7 V c 4 t) (iblk7 V c 5 t) (iblk7 V c 6 t) (iblk7 V c 7 t) (iblk7 V c 8 t)
  Φ _ := Pipeline.ΦA spec7 c
  q _ := fullShare
  owed _ := 0

theorem A_eq7 (c : Dev nD) (w : Fin cfg7.W) : (dat7 V c).A w = V c (Pipeline.arrRef spec7 w) := by
  dsimp only [dat7]

theorem after7_9 (c : Dev nD) (t : Fin cfg7.N) : (dat7 V c).after 9 t = out7_9 (iblk7 V c 0 t) (iblk7 V c 1 t) (iblk7 V c 2 t) (iblk7 V c 3 t) (iblk7 V c 4 t) (iblk7 V c 5 t) (iblk7 V c 6 t) (iblk7 V c 7 t) (iblk7 V c 8 t) := by dsimp only [dat7]

-- An input window is only read: what the body finds there is what it leaves.
theorem before7 (c : Dev nD) (t : Fin cfg7.N) : ∀ (w : Fin cfg7.W) (hw : (cfg7.win w).isOut = false) (d),
    (dat7 V c).before w t d = (dat7 V c).after w t
  | ⟨0, _⟩, hw, d | ⟨1, _⟩, hw, d | ⟨2, _⟩, hw, d | ⟨3, _⟩, hw, d | ⟨4, _⟩, hw, d | ⟨5, _⟩, hw, d | ⟨6, _⟩, hw, d | ⟨7, _⟩, hw, d | ⟨8, _⟩, hw, d =>
    ((dat7 V c).before_in_eq_fetched _ hw (fun _ => rfl) (fun _ _ _ => rfl) (fun _ => rfl) t d).trans rfl
  | ⟨9, _⟩, hw, _ => absurd hw.symm Bool.false_ne_true

set_option maxHeartbeats 4000000 in
theorem sound_kernel7 (c : Dev nD) {E : Set ℕ} {i : grid7.Coords}
    {arg0 : Memref sig .tc .vmem S2000x256 .bf16} {arg1 : Memref sig .tc .vmem S2000x256 .bf16} {arg2 : Memref sig .tc .vmem S2000x8 .bf16} {arg3 : Memref sig .tc .vmem S256x256 .bf16} {arg4 : Memref sig .tc .vmem S256x256 .bf16} {arg5 : Memref sig .tc .vmem S8x256 .bf16} {arg6 : Memref sig .tc .vmem S1x256 .f32} {arg7 : Memref sig .tc .vmem S256x128 .bf16} {arg8 : Memref sig .tc .vmem S1x128 .f32} {arg9 : Memref sig .tc .vmem S2000x128 .f32}
    {h0 : arg0.IsWhole} {h1 : arg1.IsWhole} {h2 : arg2.IsWhole} {h3 : arg3.IsWhole} {h4 : arg4.IsWhole} {h5 : arg5.IsWhole} {h6 : arg6.IsWhole} {h7 : arg7.IsWhole} {h8 : arg8.IsWhole} {h9 : arg9.IsWhole}
    {x0 : Vec F S2000x256 .bf16} {x1 : Vec F S2000x256 .bf16} {x2 : Vec F S2000x8 .bf16} {x3 : Vec F S256x256 .bf16} {x4 : Vec F S256x256 .bf16} {x5 : Vec F S8x256 .bf16} {x6 : Vec F S1x256 .f32} {x7 : Vec F S256x128 .bf16} {x8 : Vec F S1x128 .f32} (R₁ R₂ : sProp 𝕄) :
    iprop(R₁ ∗ R₂ ∗ owns c arg0 fullShare x0 ∗ owns c arg1 fullShare x1 ∗ owns c arg2 fullShare x2 ∗ owns c arg3 fullShare x3 ∗ owns c arg4 fullShare x4 ∗ owns c arg5 fullShare x5 ∗ owns c arg6 fullShare x6 ∗ owns c arg7 fullShare x7 ∗ owns c arg8 fullShare x8 ∗ (∃ d, owns c arg9 fullShare d))
      ⊢ wp frame (wpE (defs₀ (F := F)) Variants.none c none) E (cc7__mlp2_split3_kernel i arg0 h0 arg1 h1 arg2 h2 arg3 h3 arg4 h4 arg5 h5 arg6 h6 arg7 h7 arg8 h8 arg9 h9) fun _ =>
        iprop(R₁ ∗ R₂ ∗ owns c arg0 fullShare x0 ∗ owns c arg1 fullShare x1 ∗ owns c arg2 fullShare x2 ∗ owns c arg3 fullShare x3 ∗ owns c arg4 fullShare x4 ∗ owns c arg5 fullShare x5 ∗ owns c arg6 fullShare x6 ∗ owns c arg7 fullShare x7 ∗ owns c arg8 fullShare x8 ∗ owns c arg9 fullShare (out7_9 x0 x1 x2 x3 x4 x5 x6 x7 x8)) := by
  simp only [cc7__mlp2_split3_kernel_eq_skeleton]; unfold cc7__mlp2_split3_kernel_skel
  unfold owns
  iintro ⟨HR₁, HR₂, ⟨%f0, %e0, H0⟩, ⟨%f1, %e1, H1⟩, ⟨%f2, %e2, H2⟩, ⟨%f3, %e3, H3⟩, ⟨%f4, %e4, H4⟩, ⟨%f5, %e5, H5⟩, ⟨%f6, %e6, H6⟩, ⟨%f7, %e7, H7⟩, ⟨%f8, %e8, H8⟩, ⟨%d9, %f9, -, H9⟩⟩
  subst e0 e1 e2 e3 e4 e5 e6 e7 e8
  sl_exec
  sl_step
  isplitl [HR₁]; · iexact HR₁
  isplitl [HR₂]; · iexact HR₂
  isplitl [H0]; · iexists f0; isplitr; (· ipureintro; rfl); iexact H0
  isplitl [H1]; · iexists f1; isplitr; (· ipureintro; rfl); iexact H1
  isplitl [H2]; · iexists f2; isplitr; (· ipureintro; rfl); iexact H2
  isplitl [H3]; · iexists f3; isplitr; (· ipureintro; rfl); iexact H3
  isplitl [H4]; · iexists f4; isplitr; (· ipureintro; rfl); iexact H4
  isplitl [H5]; · iexists f5; isplitr; (· ipureintro; rfl); iexact H5
  isplitl [H6]; · iexists f6; isplitr; (· ipureintro; rfl); iexact H6
  isplitl [H7]; · iexists f7; isplitr; (· ipureintro; rfl); iexact H7
  isplitl [H8]; · iexists f8; isplitr; (· ipureintro; rfl); iexact H8
  iexists _; isplitr
  swap; · iexact H9
  ipureintro
  exact View.read_writes_eq_canon _ _ _ (View.cover_of_tiled _ S2000x128.size (by rfl))

set_option maxHeartbeats 4000000 in
theorem body_obligation7 (c : Dev nD) : BodyObligation (dat7 (F := F) V c) (defs₀ (F := F)) Variants.none () Set.univ := fun t => by
  rw [bigSep_W7, bigSep_W7]
  simp (disch := exact rfl) only [before7 V c t]
  show _ ⊢ wp frame (wpE (defs₀ (F := F)) Variants.none c none) Set.univ (bodyAt7 t) _
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply sound_kernel7 c ((dat7 V c).Φ t.castSucc) ((dat7 V c).owesAt () t.castSucc)
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexists _; iexact H9

end Region7

end Cert.Kernel.Gen

end
-- ==== Proof.K.Regs.lean ====
import proofs.«411300_j19516331393713_3_alg».proof.Proof.Gen.Kernel.Regions
import proofs.«411300_j19516331393713_3_alg».proof.Proof.K.Body0
import proofs.«411300_j19516331393713_3_alg».proof.Proof.K.Body1
import proofs.«411300_j19516331393713_3_alg».proof.Proof.K.Body2
import proofs.«411300_j19516331393713_3_alg».proof.Proof.K.Body3
import proofs.«411300_j19516331393713_3_alg».proof.Proof.K.Body4
import proofs.«411300_j19516331393713_3_alg».proof.Proof.K.Body5
import proofs.«411300_j19516331393713_3_alg».proof.Proof.K.Body6
import proofs.«411300_j19516331393713_3_alg».proof.Proof.K.Body7
import Idealize.ShloMosaic.Lib.Pipeline.FrameBody
import Idealize.ShloMosaic.Lib.Pipeline.RegionsLoop

set_option maxRecDepth 2156

noncomputable section

namespace Cert.Kernel.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ)

abbrev atTc (W : Dev nD → Valuation τ sig (Elt F)) : (c : Dev nD) → (b : Ref sig .tc) → Buf (Elt F) ((c : Thread nD τ).loc b) :=
  fun c b => W c b

abbrev U1 (c : Dev nD) : Valuation τ sig (Elt F) := V1 m c
def o0 (c : Dev nD) : Buf (Elt F) ((c : Thread nD τ).loc main_v13) := (dat0 (atTc (U1 m)) c).arrAt 11 cfg0.N
abbrev U2 (c : Dev nD) : Valuation τ sig (Elt F) := Function.update (U1 m c) main_v13 (o0 m c)
abbrev U3 (c : Dev nD) : Valuation τ sig (Elt F) := StableHlo.after hostOps1 (U2 m c)
def o1 (c : Dev nD) : Buf (Elt F) ((c : Thread nD τ).loc main_v55) := (dat1 (atTc (U3 m)) c).arrAt 7 cfg1.N
abbrev U4 (c : Dev nD) : Valuation τ sig (Elt F) := Function.update (U3 m c) main_v55 (o1 m c)
abbrev U5 (c : Dev nD) : Valuation τ sig (Elt F) := StableHlo.after hostOps2 (U4 m c)
def o2 (c : Dev nD) : Buf (Elt F) ((c : Thread nD τ).loc main_v73) := (dat2 (atTc (U5 m)) c).arrAt 8 cfg2.N
abbrev U6 (c : Dev nD) : Valuation τ sig (Elt F) := Function.update (U5 m c) main_v73 (o2 m c)
abbrev U7 (c : Dev nD) : Valuation τ sig (Elt F) := StableHlo.after hostOps3 (U6 m c)
def o3 (c : Dev nD) : Buf (Elt F) ((c : Thread nD τ).loc main_v101) := (dat3 (atTc (U7 m)) c).arrAt 7 cfg3.N
abbrev U8 (c : Dev nD) : Valuation τ sig (Elt F) := Function.update (U7 m c) main_v101 (o3 m c)
abbrev U9 (c : Dev nD) : Valuation τ sig (Elt F) := StableHlo.after hostOps4 (U8 m c)
def o4 (c : Dev nD) : Buf (Elt F) ((c : Thread nD τ).loc main_v119) := (dat4 (atTc (U9 m)) c).arrAt 8 cfg4.N
abbrev U10 (c : Dev nD) : Valuation τ sig (Elt F) := Function.update (U9 m c) main_v119 (o4 m c)
abbrev U11 (c : Dev nD) : Valuation τ sig (Elt F) := StableHlo.after hostOps5 (U10 m c)
def o5 (c : Dev nD) : Buf (Elt F) ((c : Thread nD τ).loc main_v147) := (dat5 (atTc (U11 m)) c).arrAt 7 cfg5.N
abbrev U12 (c : Dev nD) : Valuation τ sig (Elt F) := Function.update (U11 m c) main_v147 (o5 m c)
abbrev U13 (c : Dev nD) : Valuation τ sig (Elt F) := StableHlo.after hostOps6 (U12 m c)
def o6 (c : Dev nD) : Buf (Elt F) ((c : Thread nD τ).loc main_v165) := (dat6 (atTc (U13 m)) c).arrAt 8 cfg6.N
abbrev U14 (c : Dev nD) : Valuation τ sig (Elt F) := Function.update (U13 m c) main_v165 (o6 m c)
abbrev U15 (c : Dev nD) : Valuation τ sig (Elt F) := StableHlo.after hostOps7 (U14 m c)
abbrev U16 (c : Dev nD) : Valuation τ sig (Elt F) := StableHlo.after hostOps7_1 (U15 m c)
abbrev U17 (c : Dev nD) : Valuation τ sig (Elt F) := StableHlo.after hostOps7_2 (U16 m c)
abbrev U18 (c : Dev nD) : Valuation τ sig (Elt F) := StableHlo.after hostOps7_3 (U17 m c)
abbrev U19 (c : Dev nD) : Valuation τ sig (Elt F) := StableHlo.after hostOps7_4 (U18 m c)
abbrev U20 (c : Dev nD) : Valuation τ sig (Elt F) := StableHlo.after hostOps7_5 (U19 m c)
abbrev U21 (c : Dev nD) : Valuation τ sig (Elt F) := StableHlo.after hostOps7_6 (U20 m c)
def o7 (c : Dev nD) : Buf (Elt F) ((c : Thread nD τ).loc main_v242) := (dat7 (atTc (U21 m)) c).arrAt 9 cfg7.N
abbrev U22 (c : Dev nD) : Valuation τ sig (Elt F) := Function.update (U21 m c) main_v242 (o7 m c)
abbrev U23 (c : Dev nD) : Valuation τ sig (Elt F) := StableHlo.after hostOps8 (U22 m c)

def outs : Outs (F := F) := fun J r c =>
  if J = 2 then (if h : r = main_v13 then h ▸ o0 m c else m ((c : Thread nD τ).loc r)) else
  if J = 4 then (if h : r = main_v55 then h ▸ o1 m c else m ((c : Thread nD τ).loc r)) else
  if J = 6 then (if h : r = main_v73 then h ▸ o2 m c else m ((c : Thread nD τ).loc r)) else
  if J = 8 then (if h : r = main_v101 then h ▸ o3 m c else m ((c : Thread nD τ).loc r)) else
  if J = 10 then (if h : r = main_v119 then h ▸ o4 m c else m ((c : Thread nD τ).loc r)) else
  if J = 12 then (if h : r = main_v147 then h ▸ o5 m c else m ((c : Thread nD τ).loc r)) else
  if J = 14 then (if h : r = main_v165 then h ▸ o6 m c else m ((c : Thread nD τ).loc r)) else
  if J = 22 then (if h : r = main_v242 then h ▸ o7 m c else m ((c : Thread nD τ).loc r)) else
  m ((c : Thread nD τ).loc r)

theorem outs_o0 (c : Dev nD) : outs m 2 main_v13 c = o0 m c := by
  rw [outs, if_pos rfl, dif_pos rfl]
theorem outs_o1 (c : Dev nD) : outs m 4 main_v55 c = o1 m c := by
  rw [outs, if_neg (by decide), if_pos rfl, dif_pos rfl]
theorem outs_o2 (c : Dev nD) : outs m 6 main_v73 c = o2 m c := by
  rw [outs, if_neg (by decide), if_neg (by decide), if_pos rfl, dif_pos rfl]
theorem outs_o3 (c : Dev nD) : outs m 8 main_v101 c = o3 m c := by
  rw [outs, if_neg (by decide), if_neg (by decide), if_neg (by decide), if_pos rfl, dif_pos rfl]
theorem outs_o4 (c : Dev nD) : outs m 10 main_v119 c = o4 m c := by
  rw [outs, if_neg (by decide), if_neg (by decide), if_neg (by decide), if_neg (by decide), if_pos rfl, dif_pos rfl]
theorem outs_o5 (c : Dev nD) : outs m 12 main_v147 c = o5 m c := by
  rw [outs, if_neg (by decide), if_neg (by decide), if_neg (by decide), if_neg (by decide), if_neg (by decide), if_pos rfl, dif_pos rfl]
theorem outs_o6 (c : Dev nD) : outs m 14 main_v165 c = o6 m c := by
  rw [outs, if_neg (by decide), if_neg (by decide), if_neg (by decide), if_neg (by decide), if_neg (by decide), if_neg (by decide), if_pos rfl, dif_pos rfl]
theorem outs_o7 (c : Dev nD) : outs m 22 main_v242 c = o7 m c := by
  rw [outs, if_neg (by decide), if_neg (by decide), if_neg (by decide), if_neg (by decide), if_neg (by decide), if_neg (by decide), if_neg (by decide), if_pos rfl, dif_pos rfl]

theorem V2_eq : V2 m (outs m) = U2 m := funext fun c => by rw [V2, outs_o0]
theorem V3_eq : V3 m (outs m) = U3 m := funext fun c => by rw [V3, V2_eq]
theorem V4_eq : V4 m (outs m) = U4 m := funext fun c => by rw [V4, V3_eq, outs_o1]
theorem V5_eq : V5 m (outs m) = U5 m := funext fun c => by rw [V5, V4_eq]
theorem V6_eq : V6 m (outs m) = U6 m := funext fun c => by rw [V6, V5_eq, outs_o2]
theorem V7_eq : V7 m (outs m) = U7 m := funext fun c => by rw [V7, V6_eq]
theorem V8_eq : V8 m (outs m) = U8 m := funext fun c => by rw [V8, V7_eq, outs_o3]
theorem V9_eq : V9 m (outs m) = U9 m := funext fun c => by rw [V9, V8_eq]
theorem V10_eq : V10 m (outs m) = U10 m := funext fun c => by rw [V10, V9_eq, outs_o4]
theorem V11_eq : V11 m (outs m) = U11 m := funext fun c => by rw [V11, V10_eq]
theorem V12_eq : V12 m (outs m) = U12 m := funext fun c => by rw [V12, V11_eq, outs_o5]
theorem V13_eq : V13 m (outs m) = U13 m := funext fun c => by rw [V13, V12_eq]
theorem V14_eq : V14 m (outs m) = U14 m := funext fun c => by rw [V14, V13_eq, outs_o6]
theorem V21_eq : V21 m (outs m) = U21 m := funext fun c => by rw [V21, V20, V19, V18, V17, V16, V15, V14_eq]
theorem V22_eq : V22 m (outs m) = U22 m := funext fun c => by rw [V22, V21_eq, outs_o7]

def pdats : (p : Fin 8) → (c : Dev nD) → Dat τ (Elt F) Unit ℕ (UR sig nD τ) ℕ (cfgs p) c
  | ⟨0, _⟩ => fun c => dat0 (atTc (U1 m)) c
  | ⟨1, _⟩ => fun c => dat1 (atTc (U3 m)) c
  | ⟨2, _⟩ => fun c => dat2 (atTc (U5 m)) c
  | ⟨3, _⟩ => fun c => dat3 (atTc (U7 m)) c
  | ⟨4, _⟩ => fun c => dat4 (atTc (U9 m)) c
  | ⟨5, _⟩ => fun c => dat5 (atTc (U11 m)) c
  | ⟨6, _⟩ => fun c => dat6 (atTc (U13 m)) c
  | ⟨7, _⟩ => fun c => dat7 (atTc (U21 m)) c

abbrev noPairs : GSem nD τ sig → Finset Unit := fun _ => ∅
abbrev noLevel : GSem nD τ sig → Unit → ℕ := fun _ _ => 0
abbrev rest (c : Dev nD) : sProp 𝕄 := iprop((∃ r, prngReg c r) ∗ ∃ W, owes (c : Thread nD τ) (0 : CellTallies nD τ sig Unit) W)
abbrev rests : Fin 9 → Dev nD → sProp 𝕄 := fun _ => rest

theorem held_of_eq {V A : Dev nD → Valuation τ sig (Elt F)} (h : V = A) (c : Dev nD) (R : sProp 𝕄) :
    iprop(StableHlo.held (c : Thread nD τ) (Pipeline.ucRefs τ sig) (V c) ∗ R)
      ⊢ iprop(StableHlo.held (c : Thread nD τ) (Pipeline.ucRefs τ sig) (A c) ∗ R) := by
  subst h; exact .rfl

set_option backward.isDefEq.respectTransparency.types false in
-- One record for every region: what differs between regions enters as hypotheses closed by `rfl` or `decide`.
def reg (p : Fin 8) (lf : Pipeline.LaunchFacts (nD := nD) (τ := τ) cfgs p) (A B : Dev nD → Valuation τ sig (Elt F))
    (wo : Fin (cfgs p).W)
    (hin : ∀ w, w ≠ wo → ((cfgs p).win w).isOut = false ∧ Pipeline.arrRef (cfgs p).spec w ≠ Pipeline.arrRef (cfgs p).spec wo)
    (hb : ∀ c, BodyObligation (pdats m p c) defs₀ Variants.none () Set.univ)
    (hA : ∀ c w, (pdats m p c).A w = atTc A c (Pipeline.arrRef (cfgs p).spec w))
    (hBo : ∀ c, (pdats m p c).arrAt wo (cfgs p).N = atTc B c (Pipeline.arrRef (cfgs p).spec wo))
    (hBn : ∀ c b, b ≠ Pipeline.arrRef (cfgs p).spec wo → atTc B c b = atTc A c b)
    (hq : ∀ c w, (pdats m p c).q w = fullShare := by exact fun _ _ => rfl)
    (hΦ : ∀ c t, (pdats m p c).Φ t = Pipeline.ΦA (cfgs p).spec c := by exact fun _ _ => rfl)
    (hz : ∀ c t, (pdats m p c).owed t = 0 := by exact fun _ _ => rfl)
    (hr : ∀ c t, (pdats m p c).recorded t = Set.univ := by exact fun _ _ => rfl) :
    Pipeline.RegionSeg (pcfgs (F := F)) adm (pdats m) () defs₀ Variants.none noPairs noLevel p where
  win := lf.win.to₀
  block_pos := lf.block_pos
  stage_whole := lf.stage_whole
  K := PEmpty
  osem k := k.elim
  ho := Pipeline.OwnSemFacts.none _
  hbody c := (hb c).loose
  hwaits := Pipeline.hwaits_of_owed_zero _ _ _ _ noPairs noLevel p hz
  pre c := iprop(StableHlo.held (c : Thread nD τ) (Pipeline.ucRefs τ sig) (A c) ∗ rest c)
  post c := iprop(StableHlo.held (c : Thread nD τ) (Pipeline.ucRefs τ sig) (B c) ∗ rest c)
  X c := iprop(∃ r, prngReg c r)
  Y c := iprop(∃ r, prngReg c r)
  Z c := Pipeline.unscopedRest (Ix := Unit) (Name := ℕ) (U := UR sig nD τ) (Lvl := ℕ) (cfgs p).spec c (atTc A c)
  hentry c := by
    unfold Pipeline.Dat.owesAt Pipeline.owesWithin Pipeline.Dat.bound
    rw [Pipeline.ownSems0_none, hz c, hr c]
    have hsplit := Pipeline.arrays_of_unscopedBufs (p := p) (pcfgs (F := F)) adm (pdats m) lf.win lf.arr_whole c
      ((pdats m p c).share_full (hq c)) (atTc A c) (hA c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · icases HO with ⟨%W, HO⟩; iexists W; isplitr; · ipureintro; exact fun _ _ => Or.inl trivial
      iexact HO
    isplitl [Hp]; · iexact Hp
    iexact Hrest
  hin c := by
    rw [hΦ c]; unfold Pipeline.ΦA
    iintro ⟨Hp, -, Hr⟩
    isplitl [Hr]; · iexact Hr
    iexact Hp
  hout c := by
    rw [Pipeline.ownSems0_none, hΦ c]; unfold Pipeline.ΦA
    iintro ⟨Hr, Hp⟩
    isplitl [Hp]; · iexact Hp
    isplitr; · iempintro
    iexact Hr
  hexit c := by
    unfold Pipeline.Dat.owesAt Pipeline.owesWithin
    rw [hz c]
    have hjoin := Pipeline.unscopedBufs_of_arrays (p := p) (pcfgs (F := F)) adm (Ix := Unit) (Name := ℕ) (U := UR sig nD τ) (Lvl := ℕ)
      lf.win lf.arr_whole c (pdats m) ((pdats m p c).share_full (hq c))
      (atTc A c) (atTc B c) ((pdats m p c).arrAt · (cfgs p).N)
      (fun w => by
        by_cases hw : w = wo
        · rw [hw]; exact hBo c
        · exact ((pdats m p c).arrAt_in w (hin w hw).1 _).trans ((hA c w).trans (hBn c _ (hin w hw).2).symm))
      fun b hb => hBn c b fun e => hb (Finset.mem_image.mpr ⟨wo, Finset.mem_univ _, e.symm⟩)
    rw [Pipeline.unscopedBufs_held] at hjoin
    iintro ⟨Ha, HO, HY, Hrest⟩
    imodintro
    isplitl [Ha Hrest]
    · iapply hjoin; isplitl [Ha] <;> iassumption
    isplitl [HY]; · iexact HY
    icases HO with ⟨%W, -, HO⟩; iexists W; iexact HO

theorem in0 : ∀ w : Fin 12, w ≠ 11 → (cfg0.win w).isOut = false ∧ Pipeline.arrRef spec0 w ≠ main_v13 := by decide
set_option backward.isDefEq.respectTransparency.types false in
def reg0 := reg m 0 launch0 (U1 m) (U2 m) 11 in0 (body_obligation0 (atTc (U1 m))) (A_eq0 (atTc (U1 m)))
  (fun c => (Function.update_self (Proc.devRef (τ := τ) .tc main_v13) (o0 m c) (U1 m c)).symm)
  fun c b h => Function.update_of_ne (StableHlo.devRef_ne_of_ne h) (o0 m c) (U1 m c)

theorem in1 : ∀ w : Fin 8, w ≠ 7 → (cfg1.win w).isOut = false ∧ Pipeline.arrRef spec1 w ≠ main_v55 := by decide
set_option backward.isDefEq.respectTransparency.types false in
def reg1 := reg m 1 launch1 (U3 m) (U4 m) 7 in1 (body_obligation1 (atTc (U3 m))) (A_eq1 (atTc (U3 m)))
  (fun c => (Function.update_self (Proc.devRef (τ := τ) .tc main_v55) (o1 m c) (U3 m c)).symm)
  fun c b h => Function.update_of_ne (StableHlo.devRef_ne_of_ne h) (o1 m c) (U3 m c)

theorem in2 : ∀ w : Fin 9, w ≠ 8 → (cfg2.win w).isOut = false ∧ Pipeline.arrRef spec2 w ≠ main_v73 := by decide
set_option backward.isDefEq.respectTransparency.types false in
def reg2 := reg m 2 launch2 (U5 m) (U6 m) 8 in2 (body_obligation2 (atTc (U5 m))) (A_eq2 (atTc (U5 m)))
  (fun c => (Function.update_self (Proc.devRef (τ := τ) .tc main_v73) (o2 m c) (U5 m c)).symm)
  fun c b h => Function.update_of_ne (StableHlo.devRef_ne_of_ne h) (o2 m c) (U5 m c)

theorem in3 : ∀ w : Fin 8, w ≠ 7 → (cfg3.win w).isOut = false ∧ Pipeline.arrRef spec3 w ≠ main_v101 := by decide
set_option backward.isDefEq.respectTransparency.types false in
def reg3 := reg m 3 launch3 (U7 m) (U8 m) 7 in3 (body_obligation3 (atTc (U7 m))) (A_eq3 (atTc (U7 m)))
  (fun c => (Function.update_self (Proc.devRef (τ := τ) .tc main_v101) (o3 m c) (U7 m c)).symm)
  fun c b h => Function.update_of_ne (StableHlo.devRef_ne_of_ne h) (o3 m c) (U7 m c)

theorem in4 : ∀ w : Fin 9, w ≠ 8 → (cfg4.win w).isOut = false ∧ Pipeline.arrRef spec4 w ≠ main_v119 := by decide
set_option backward.isDefEq.respectTransparency.types false in
def reg4 := reg m 4 launch4 (U9 m) (U10 m) 8 in4 (body_obligation4 (atTc (U9 m))) (A_eq4 (atTc (U9 m)))
  (fun c => (Function.update_self (Proc.devRef (τ := τ) .tc main_v119) (o4 m c) (U9 m c)).symm)
  fun c b h => Function.update_of_ne (StableHlo.devRef_ne_of_ne h) (o4 m c) (U9 m c)

theorem in5 : ∀ w : Fin 8, w ≠ 7 → (cfg5.win w).isOut = false ∧ Pipeline.arrRef spec5 w ≠ main_v147 := by decide
set_option backward.isDefEq.respectTransparency.types false in
def reg5 := reg m 5 launch5 (U11 m) (U12 m) 7 in5 (body_obligation5 (atTc (U11 m))) (A_eq5 (atTc (U11 m)))
  (fun c => (Function.update_self (Proc.devRef (τ := τ) .tc main_v147) (o5 m c) (U11 m c)).symm)
  fun c b h => Function.update_of_ne (StableHlo.devRef_ne_of_ne h) (o5 m c) (U11 m c)

theorem in6 : ∀ w : Fin 9, w ≠ 8 → (cfg6.win w).isOut = false ∧ Pipeline.arrRef spec6 w ≠ main_v165 := by decide
set_option backward.isDefEq.respectTransparency.types false in
def reg6 := reg m 6 launch6 (U13 m) (U14 m) 8 in6 (body_obligation6 (atTc (U13 m))) (A_eq6 (atTc (U13 m)))
  (fun c => (Function.update_self (Proc.devRef (τ := τ) .tc main_v165) (o6 m c) (U13 m c)).symm)
  fun c b h => Function.update_of_ne (StableHlo.devRef_ne_of_ne h) (o6 m c) (U13 m c)

theorem in7 : ∀ w : Fin 10, w ≠ 9 → (cfg7.win w).isOut = false ∧ Pipeline.arrRef spec7 w ≠ main_v242 := by decide
set_option backward.isDefEq.respectTransparency.types false in
def reg7 := reg m 7 launch7 (U21 m) (U22 m) 9 in7 (body_obligation7 (atTc (U21 m))) (A_eq7 (atTc (U21 m)))
  (fun c => (Function.update_self (Proc.devRef (τ := τ) .tc main_v242) (o7 m c) (U21 m c)).symm)
  fun c b h => Function.update_of_ne (StableHlo.devRef_ne_of_ne h) (o7 m c) (U21 m c)

abbrev launchElt : UR sig nD τ := initOf (Pipeline.cells cfgs cellOf_inj) (Pipeline.launchToks cfgs cellOf_inj)

theorem launchElt_yields : (ownU launchElt : sProp 𝕄)
    ⊢ |={Set.univ}=> iprop(BI.own (emb₁ launchElt) ∗ bigSep Finset.univ fun _ : Dev nD => (iprop(emp) : sProp 𝕄)) := by
  iintro Hu; imodintro
  isplitl [Hu]
  · iapply (show (ownU launchElt : sProp 𝕄) ⊢ BI.own (emb₁ launchElt) from .rfl)
    iexact Hu
  iapply (show (BI.emp : sProp 𝕄) ⊢ bigSep Finset.univ (fun _ : Dev nD => (BI.emp : sProp 𝕄)) from by rw [BI.bigSep_emp_const])
  iempintro

theorem rests_init (ρ : Dev nD → PrngReg) :
    iprop((bigSep Finset.univ fun c : Dev nD => iprop(unscopedSems0 c ∗ owes (c : Thread nD τ) ((0 : Dev nD → CellTallies nD τ sig Unit) c) ∅
        ∗ Pipeline.launchCred (0 : Dev nD → CellTallies nD τ sig Unit) c ∗ prngReg c (ρ c) ∗ (iprop(emp) : sProp 𝕄))) ∗ levAts noPairs noLevel)
      ⊢ (|={Set.univ}=> bigSep Finset.univ (rests (F := F) 0) : sProp 𝕄) := by
  refine Pipeline.initEach noPairs noLevel fun c => ?_
  iintro ⟨⟨-, HO, -, Hp, -⟩, -⟩
  imodintro
  isplitl [Hp]; · iexists _; iexact Hp
  iexists ∅; iexact HO

theorem rests_end (c : Dev nD) : rests (F := F) 8 c ⊢ (iprop(∃ W, owes (c : Thread nD τ) (0 : CellTallies nD τ sig Unit) W) : sProp 𝕄) := by
  iintro ⟨-, HO⟩; iexact HO

set_option backward.isDefEq.respectTransparency.types false in
theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)) :=
  frame_cond m emb₁ () Variants.none noPairs noLevel (fun _ _ => rfl) ρ (outs m) (pdats m) 0 (fun _ => iprop(emp)) launchElt launchElt_yields rests (rests_init ρ) rests_end
    (reg0 m) (fun _ => .rfl) (fun c => held_of_eq (V2_eq m).symm c _)
    (reg1 m) (fun c => held_of_eq (V3_eq m) c _) (fun c => held_of_eq (V4_eq m).symm c _)
    (reg2 m) (fun c => held_of_eq (V5_eq m) c _) (fun c => held_of_eq (V6_eq m).symm c _)
    (reg3 m) (fun c => held_of_eq (V7_eq m) c _) (fun c => held_of_eq (V8_eq m).symm c _)
    (reg4 m) (fun c => held_of_eq (V9_eq m) c _) (fun c => held_of_eq (V10_eq m).symm c _)
    (reg5 m) (fun c => held_of_eq (V11_eq m) c _) (fun c => held_of_eq (V12_eq m).symm c _)
    (reg6 m) (fun c => held_of_eq (V13_eq m) c _) (fun c => held_of_eq (V14_eq m).symm c _)
    (reg7 m) (fun c => held_of_eq (V21_eq m) c _) (fun c => held_of_eq (V22_eq m).symm c _)

end Cert.Kernel.Gen

end
-- ==== Proof.KI.Body0.lean ====
import proofs.«411300_j19516331393713_3_alg».proof.Proof.Gen.KernelIdeal.Launch
import proofs.«411300_j19516331393713_3_alg».proof.Proof.Gen.KernelIdeal.Skeleton
import proofs.«411300_j19516331393713_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region0
variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev r0_0 : Rect S2000x512 := Rect.unit (s := S2000x512) ![0, 0] S2000x512.size inb_S2000x512_S2000x512_0_0
abbrev r0_1 : Rect S512x512 := Rect.unit (s := S512x512) ![0, 0] S512x512.size inb_S512x512_S512x512_0_0
abbrev r0_2 : Rect S1x512 := Rect.unit (s := S1x512) ![0, 0] S1x512.size inb_S1x512_S1x512_0_0
abbrev r0_3 : Rect S512x256 := Rect.unit (s := S512x256) ![0, 0] S512x256.size inb_S512x256_S512x256_0_0
abbrev r0_4 : Rect S1x256 := Rect.unit (s := S1x256) ![0, 0] S1x256.size inb_S1x256_S1x256_0_0
abbrev r0_5 : Rect S2000x18 := Rect.unit (s := S2000x18) ![0, 0] S2000x18.size inb_S2000x18_S2000x18_0_0
abbrev r0_6 : Rect S256x256 := Rect.unit (s := S256x256) ![0, 0] S256x256.size inb_S256x256_S256x256_0_0
abbrev r0_7 : Rect S18x256 := Rect.unit (s := S18x256) ![0, 0] S18x256.size inb_S18x256_S18x256_0_0
abbrev r0_8 : Rect S2000x256 := Rect.unit (s := S2000x256) ![0, 0] S2000x256.size inb_S2000x256_S2000x256_0_0

def out0_11 (x0 : Vec F S2000x512 .bf16) (x1 : Vec F S2000x18 .bf16) (x2 : Vec F S512x512 .bf16) (x3 : Vec F S1x512 .f32)
    (x4 : Vec F S512x256 .bf16) (x5 : Vec F S1x256 .f32) (x6 : Vec F S256x256 .bf16) (x7 : Vec F S18x256 .bf16)
    (x8 : Vec F S1x256 .f32) (x9 : Vec F S256x256 .bf16) (x10 : Vec F S1x256 .f32) : Vec F S2000x256 .f32 :=
  View.canon [⟨r0_8, k0_pay1
    (k0_pay2 (View.ld x0 r0_0) (View.ld x2 r0_1) (View.ld x3 r0_2) (View.ld x4 r0_3) (View.ld x5 r0_4)
      (View.ld x1 r0_5) (View.ld x6 r0_6) (View.ld x7 r0_7) (View.ld x8 r0_4))
    (View.ld x9 r0_6) (View.ld x10 r0_4)⟩]

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => iblk0 V c 7 t
    | ⟨8, _⟩ => iblk0 V c 8 t
    | ⟨9, _⟩ => iblk0 V c 9 t
    | ⟨10, _⟩ => iblk0 V c 10 t
    | ⟨11, _⟩ => out0_11 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_11 (c : Dev nD) (t : Fin cfg0.N) : (dat0 V c).after 11 t = out0_11 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) := by dsimp only [dat0]

-- The body only reads an input window, so its buffer holds the array's block before the body as after it.
theorem before0 (c : Dev nD) (t : Fin cfg0.N) : ∀ (w : Fin cfg0.W) (hw : (cfg0.win w).isOut = false) (d),
    (dat0 V c).before w t d = (dat0 V c).after w t
  | ⟨0, _⟩, hw, d | ⟨1, _⟩, hw, d | ⟨2, _⟩, hw, d | ⟨3, _⟩, hw, d | ⟨4, _⟩, hw, d | ⟨5, _⟩, hw, d | ⟨6, _⟩, hw, d | ⟨7, _⟩, hw, d | ⟨8, _⟩, hw, d | ⟨9, _⟩, hw, d | ⟨10, _⟩, hw, d =>
    ((dat0 V c).before_in_eq_fetched _ hw (fun _ => rfl) (fun _ _ _ => rfl) (fun _ => rfl) t d).trans rfl
  | ⟨11, _⟩, hw, _ => absurd hw.symm Bool.false_ne_true

set_option maxHeartbeats 4000000 in
theorem sound_kernel0 (c : Dev nD) (E : Set ℕ) (i : grid0.Coords)
    {arg0 : Memref sig .tc .vmem S2000x512 .bf16} {arg1 : Memref sig .tc .vmem S2000x18 .bf16} {arg2 : Memref sig .tc .vmem S512x512 .bf16} {arg3 : Memref sig .tc .vmem S1x512 .f32} {arg4 : Memref sig .tc .vmem S512x256 .bf16} {arg5 : Memref sig .tc .vmem S1x256 .f32} {arg6 : Memref sig .tc .vmem S256x256 .bf16} {arg7 : Memref sig .tc .vmem S18x256 .bf16} {arg8 : Memref sig .tc .vmem S1x256 .f32} {arg9 : Memref sig .tc .vmem S256x256 .bf16} {arg10 : Memref sig .tc .vmem S1x256 .f32} {arg11 : Memref sig .tc .vmem S2000x256 .f32}
    (h0 : arg0.IsWhole) (h1 : arg1.IsWhole) (h2 : arg2.IsWhole) (h3 : arg3.IsWhole) (h4 : arg4.IsWhole) (h5 : arg5.IsWhole) (h6 : arg6.IsWhole) (h7 : arg7.IsWhole) (h8 : arg8.IsWhole) (h9 : arg9.IsWhole) (h10 : arg10.IsWhole) (h11 : arg11.IsWhole)
    (x0 : Vec F S2000x512 .bf16) (x1 : Vec F S2000x18 .bf16) (x2 : Vec F S512x512 .bf16) (x3 : Vec F S1x512 .f32) (x4 : Vec F S512x256 .bf16) (x5 : Vec F S1x256 .f32) (x6 : Vec F S256x256 .bf16) (x7 : Vec F S18x256 .bf16) (x8 : Vec F S1x256 .f32) (x9 : Vec F S256x256 .bf16) (x10 : Vec F S1x256 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ (∃ d, owns (c : Thread nD τ) arg11 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare (out0_11 x0 x1 x2 x3 x4 x5 x6 x7 x8 x9 x10)) -∗ K ⟨⟩))
      ⊢ wp frame (wpE (defs₀ (F := F)) Variants.none c none) E (cc0__clip_fuse_kernel i arg0 h0 arg1 h1 arg2 h2 arg3 h3 arg4 h4 arg5 h5 arg6 h6 arg7 h7 arg8 h8 arg9 h9 arg10 h10 arg11 h11) K := by
  simp only [cc0__clip_fuse_kernel_eq_skeleton]; unfold cc0__clip_fuse_kernel_skel
  simp only [k0_part1_eq_skeleton]; unfold k0_part1_skel
  unfold owns
  iintro ⟨⟨%f0, %e0, H0⟩, ⟨%f1, %e1, H1⟩, ⟨%f2, %e2, H2⟩, ⟨%f3, %e3, H3⟩, ⟨%f4, %e4, H4⟩, ⟨%f5, %e5, H5⟩, ⟨%f6, %e6, H6⟩, ⟨%f7, %e7, H7⟩, ⟨%f8, %e8, H8⟩, ⟨%f9, %e9, H9⟩, ⟨%f10, %e10, H10⟩, ⟨%d11, %f11, -, H11⟩, Hk⟩
  subst e0 e1 e2 e3 e4 e5 e6 e7 e8 e9 e10
  sl_exec
  sl_step
  iapply Hk
  isplitl [H0]; · iexists f0; isplitr; (· ipureintro; rfl); iexact H0
  isplitl [H1]; · iexists f1; isplitr; (· ipureintro; rfl); iexact H1
  isplitl [H2]; · iexists f2; isplitr; (· ipureintro; rfl); iexact H2
  isplitl [H3]; · iexists f3; isplitr; (· ipureintro; rfl); iexact H3
  isplitl [H4]; · iexists f4; isplitr; (· ipureintro; rfl); iexact H4
  isplitl [H5]; · iexists f5; isplitr; (· ipureintro; rfl); iexact H5
  isplitl [H6]; · iexists f6; isplitr; (· ipureintro; rfl); iexact H6
  isplitl [H7]; · iexists f7; isplitr; (· ipureintro; rfl); iexact H7
  isplitl [H8]; · iexists f8; isplitr; (· ipureintro; rfl); iexact H8
  isplitl [H9]; · iexists f9; isplitr; (· ipureintro; rfl); iexact H9
  isplitl [H10]; · iexists f10; isplitr; (· ipureintro; rfl); iexact H10
  iexists _; isplitr
  swap; · iexact H11
  ipureintro
  exact View.read_writes_eq_canon _ _ _ (View.cover_of_tiled _ S2000x256.size (by rfl))

set_option maxHeartbeats 4000000 in
theorem body_obligation0 (c : Dev nD) : BodyObligation (dat0 (F := F) V c) (defs₀ (F := F)) Variants.none () Set.univ := fun t => by
  rw [bigSep_W0, bigSep_W0]
  simp (disch := exact rfl) only [before0 V c t]
  rw [show (dat0 V c).Φ t.succ = (dat0 V c).Φ t.castSucc from rfl,
    show (dat0 V c).owesAt () t.succ = (dat0 V c).owesAt () t.castSucc from rfl]
  show _ ⊢ wp frame (wpE (defs₀ (F := F)) Variants.none c none) Set.univ (bodyAt0 t) _
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply (sound_kernel0 c Set.univ _ _ _ _ _ _ _ _ _ _ _ _ _ (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexists _; iexact H11
  iintro ⟨H0, H1, H2, H3, H4, H5, H6, H7, H8, H9, H10, H11⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11

end Region0

end Cert.KernelIdeal.Gen

end
-- ==== Proof.KI.Body1.lean ====
import proofs.«411300_j19516331393713_3_alg».proof.Proof.Gen.KernelIdeal.Launch
import proofs.«411300_j19516331393713_3_alg».proof.Proof.Gen.KernelIdeal.Skeleton
import proofs.«411300_j19516331393713_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev r1_0 : Rect S3200x256 := Rect.unit (s := S3200x256) ![0, 0] S3200x256.size inb_S3200x256_S3200x256_0_0
abbrev r1_2 : Rect S256x256 := Rect.unit (s := S256x256) ![0, 0] S256x256.size inb_S256x256_S256x256_0_0
abbrev r1_4 : Rect S1x256 := Rect.unit (s := S1x256) ![0, 0] S1x256.size inb_S1x256_S1x256_0_0

def out1_7 (x0 x1 : Vec F S3200x256 .bf16) (x2 x3 : Vec F S256x256 .bf16) (x4 : Vec F S1x256 .f32) (x5 : Vec F S256x256 .bf16) (x6 : Vec F S1x256 .f32) : Vec F S3200x256 .bf16 :=
  View.canon [⟨r1_0, k1_pay1 (View.ld x0 r1_0) (View.ld x2 r1_2) (View.ld x1 r1_0) (View.ld x3 r1_2) (View.ld x4 r1_4) (View.ld x5 r1_2) (View.ld x6 r1_4)⟩]

set_option maxHeartbeats 1000000 in
theorem sound_kernel1 (c : Dev nD) (E : Set ℕ) (x0 x1 : Vec F S3200x256 .bf16) (x2 x3 : Vec F S256x256 .bf16) (x4 : Vec F S1x256 .f32) (x5 : Vec F S256x256 .bf16) (x6 : Vec F S1x256 .f32)
    {i : grid1.Coords} {a1 a2 a8 : Memref sig .tc .vmem S3200x256 .bf16} {a3 a4 a6 : Memref sig .tc .vmem S256x256 .bf16} {a5 a7 : Memref sig .tc .vmem S1x256 .f32}
    {h1 : a1.IsWhole} {h2 : a2.IsWhole} {h3 : a3.IsWhole} {h4 : a4.IsWhole} {h5 : a5.IsWhole} {h6 : a6.IsWhole} {h7 : a7.IsWhole} {h8 : a8.IsWhole} {K : PUnit → sProp 𝕄} :
    iprop(owns c a1 fullShare x0 ∗ owns c a2 fullShare x1 ∗ owns c a3 fullShare x2 ∗ owns c a4 fullShare x3 ∗ owns c a5 fullShare x4 ∗ owns c a6 fullShare x5 ∗ owns c a7 fullShare x6 ∗ (∃ d, owns c a8 fullShare d)
        ∗ (iprop(owns c a1 fullShare x0 ∗ owns c a2 fullShare x1 ∗ owns c a3 fullShare x2 ∗ owns c a4 fullShare x3 ∗ owns c a5 fullShare x4 ∗ owns c a6 fullShare x5 ∗ owns c a7 fullShare x6 ∗ owns c a8 fullShare (out1_7 x0 x1 x2 x3 x4 x5 x6)) -∗ K ⟨⟩))
      ⊢ wp frame (wpE (defs₀ (F := F)) Variants.none c none) E (cc1__mlp2_split_kernel i a1 h1 a2 h2 a3 h3 a4 h4 a5 h5 a6 h6 a7 h7 a8 h8) K := by
  simp only [cc1__mlp2_split_kernel_eq_skeleton]; unfold cc1__mlp2_split_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (View.cover_of_tiled _ S3200x256.size (by rfl))

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => out1_7 (iblk1 V c 0 t) (iblk1 V c 1 t) (iblk1 V c 2 t) (iblk1 V c 3 t) (iblk1 V c 4 t) (iblk1 V c 5 t) (iblk1 V c 6 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_7 (c : Dev nD) (t : Fin cfg1.N) : (dat1 V c).after 7 t = out1_7 (iblk1 V c 0 t) (iblk1 V c 1 t) (iblk1 V c 2 t) (iblk1 V c 3 t) (iblk1 V c 4 t) (iblk1 V c 5 t) (iblk1 V c 6 t) := by dsimp only [dat1]

theorem beforeIn1 (c : Dev nD) (t : Fin cfg1.N) : ∀ w : Fin cfg1.W, w ≠ 7 → ∀ d, (dat1 V c).before w t d = (dat1 V c).after w t
  | ⟨0, _⟩, _ | ⟨1, _⟩, _ | ⟨2, _⟩, _ | ⟨3, _⟩, _ | ⟨4, _⟩, _ | ⟨5, _⟩, _ | ⟨6, _⟩, _ => fun d =>
    ((dat1 V c).before_in_eq_fetched _ (by rfl) (fun _ => by rfl) (fun _ _ _ => by rfl) (fun _ => by rfl) t d).trans (by rfl)
  | ⟨7, _⟩, h => absurd rfl h

theorem body_obligation1 (c : Dev nD) : BodyObligation (dat1 (F := F) V c) (defs₀ (F := F)) Variants.none () Set.univ := fun t => by
  rw [bigSep_W1, bigSep_W1]
  simp (disch := decide) only [beforeIn1 V c t]
  dsimp only [dat1, Dat.owesAt, Dat.bound]
  sl_whnfR [defs₀, Defs.onTc]
  iintro ⟨HR, HQ, ⟨%d0, H0⟩, ⟨%d1, H1⟩, ⟨%d2, H2⟩, ⟨%d3, H3⟩, ⟨%d4, H4⟩, ⟨%d5, H5⟩, ⟨%d6, H6⟩, ⟨%d7, H7⟩⟩
  iapply sound_kernel1 c Set.univ (iblk1 V c 0 t) (iblk1 V c 1 t) (iblk1 V c 2 t) (iblk1 V c 3 t) (iblk1 V c 4 t) (iblk1 V c 5 t) (iblk1 V c 6 t)
  iframe H0 H1 H2 H3 H4 H5 H6
  isplitl [H7]; · iexists _; iexact H7
  iintro ⟨H0, H1, H2, H3, H4, H5, H6, H7⟩
  iframe

end Cert.KernelIdeal.Gen
-- ==== Proof.KI.Body2.lean ====
import proofs.«411300_j19516331393713_3_alg».proof.Proof.Gen.KernelIdeal.Launch
import proofs.«411300_j19516331393713_3_alg».proof.Proof.Gen.KernelIdeal.Skeleton
import proofs.«411300_j19516331393713_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 65536

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region2
variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev r2_0 : Rect S2000x256 := Rect.unit (s := S2000x256) ![0, 0] S2000x256.size inb_S2000x256_S2000x256_0_0
abbrev r2_1 : Rect S256x256 := Rect.unit (s := S256x256) ![0, 0] S256x256.size inb_S256x256_S256x256_0_0
abbrev r2_2 : Rect S1x256 := Rect.unit (s := S1x256) ![0, 0] S1x256.size inb_S1x256_S1x256_0_0

def out2_8 (x0 : Vec F S2000x256 .bf16) (x1 : Vec F S2000x256 .bf16) (x2 : Vec F S256x256 .bf16) (x3 : Vec F S256x256 .bf16) (x4 : Vec F S1x256 .f32) (x5 : Vec F S256x256 .bf16) (x6 : Vec F S1x256 .f32) (x7 : Vec F S2000x256 .f32) : Vec F S2000x256 .f32 :=
  View.canon [⟨r2_0, k2_pay1 (View.ld x0 r2_0) (View.ld x2 r2_1) (View.ld x1 r2_0) (View.ld x3 r2_1) (View.ld x4 r2_2) (View.ld x5 r2_1) (View.ld x6 r2_2) (View.ld x7 r2_0)⟩]

set_option maxHeartbeats 1000000 in
theorem sound_kernel2 (c : Dev nD) (E : Set ℕ) {i : grid2.Coords} {arg1 arg2 : Memref sig .tc .vmem S2000x256 .bf16} {arg3 arg4 arg6 : Memref sig .tc .vmem S256x256 .bf16} {arg5 arg7 : Memref sig .tc .vmem S1x256 .f32} {arg8 arg9 : Memref sig .tc .vmem S2000x256 .f32}
    {harg1 : arg1.IsWhole} {harg2 : arg2.IsWhole} {harg3 : arg3.IsWhole} {harg4 : arg4.IsWhole} {harg5 : arg5.IsWhole} {harg6 : arg6.IsWhole} {harg7 : arg7.IsWhole} {harg8 : arg8.IsWhole} {harg9 : arg9.IsWhole}
    (x0 x1 : Vec F S2000x256 .bf16) (x2 x3 : Vec F S256x256 .bf16) (x4 : Vec F S1x256 .f32) (x5 : Vec F S256x256 .bf16) (x6 : Vec F S1x256 .f32) (x7 : Vec F S2000x256 .f32) (K : PUnit → sProp 𝕄) :
    iprop(owns c arg1 fullShare x0 ∗ owns c arg2 fullShare x1 ∗ owns c arg3 fullShare x2 ∗ owns c arg4 fullShare x3 ∗ owns c arg5 fullShare x4 ∗ owns c arg6 fullShare x5 ∗ owns c arg7 fullShare x6 ∗ owns c arg8 fullShare x7 ∗ (∃ d, owns c arg9 fullShare d)
        ∗ (iprop(owns c arg1 fullShare x0 ∗ owns c arg2 fullShare x1 ∗ owns c arg3 fullShare x2 ∗ owns c arg4 fullShare x3 ∗ owns c arg5 fullShare x4 ∗ owns c arg6 fullShare x5 ∗ owns c arg7 fullShare x6 ∗ owns c arg8 fullShare x7 ∗ owns c arg9 fullShare (out2_8 x0 x1 x2 x3 x4 x5 x6 x7)) -∗ K ⟨⟩))
      ⊢ wp frame (wpE (defs₀ (F := F)) Variants.none c none) E (cc2__mlp2_split_residual_kernel i arg1 harg1 arg2 harg2 arg3 harg3 arg4 harg4 arg5 harg5 arg6 harg6 arg7 harg7 arg8 harg8 arg9 harg9) K := by
  simp only [cc2__mlp2_split_residual_kernel_eq_skeleton]; unfold cc2__mlp2_split_residual_kernel_skel owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, Hk⟩
  subst hf0 hf1 hf2 hf3 hf4 hf5 hf6 hf7
  sl_exec
  sl_step
  iapply Hk
  isplitl [H0]; · iexists f0; isplitr; · ipureintro; rfl
                  iexact H0
  isplitl [H1]; · iexists f1; isplitr; · ipureintro; rfl
                  iexact H1
  isplitl [H2]; · iexists f2; isplitr; · ipureintro; rfl
                  iexact H2
  isplitl [H3]; · iexists f3; isplitr; · ipureintro; rfl
                  iexact H3
  isplitl [H4]; · iexists f4; isplitr; · ipureintro; rfl
                  iexact H4
  isplitl [H5]; · iexists f5; isplitr; · ipureintro; rfl
                  iexact H5
  isplitl [H6]; · iexists f6; isplitr; · ipureintro; rfl
                  iexact H6
  isplitl [H7]; · iexists f7; isplitr; · ipureintro; rfl
                  iexact H7
  iexists _; isplitr
  swap; · iexact H8
  ipureintro
  exact View.read_writes_eq_canon _ _ _ (View.cover_of_tiled _ S2000x256.size (by rfl))

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => iblk2 V c 6 t
    | ⟨7, _⟩ => iblk2 V c 7 t
    | ⟨8, _⟩ => out2_8 (iblk2 V c 0 t) (iblk2 V c 1 t) (iblk2 V c 2 t) (iblk2 V c 3 t) (iblk2 V c 4 t) (iblk2 V c 5 t) (iblk2 V c 6 t) (iblk2 V c 7 t)
  Φ _ := Pipeline.ΦA spec2 c
  q _ := fullShare
  owed _ := 0

theorem A_eq2 (c : Dev nD) (w : Fin cfg2.W) : (dat2 V c).A w = V c (Pipeline.arrRef spec2 w) := rfl

theorem after2_8 (c : Dev nD) (t : Fin cfg2.N) : (dat2 V c).after 8 t = out2_8 (iblk2 V c 0 t) (iblk2 V c 1 t) (iblk2 V c 2 t) (iblk2 V c 3 t) (iblk2 V c 4 t) (iblk2 V c 5 t) (iblk2 V c 6 t) (iblk2 V c 7 t) := by dsimp only [dat2]

theorem beforeIn2 (c : Dev nD) : ∀ w : Fin cfg2.W, w ≠ 8 → ∀ t d, (dat2 V c).before w t d = (dat2 V c).after w t
  | ⟨0, _⟩, _ | ⟨1, _⟩, _ | ⟨2, _⟩, _ | ⟨3, _⟩, _ | ⟨4, _⟩, _ | ⟨5, _⟩, _ | ⟨6, _⟩, _ | ⟨7, _⟩, _ =>
    (dat2 V c).before_in_eq_fetched _ rfl (fun _ => rfl) (fun _ _ _ => rfl) (fun _ => rfl)
  | ⟨8, _⟩, h => absurd rfl h

theorem body_obligation2 (c : Dev nD) : BodyObligation (dat2 (F := F) V c) (defs₀ (F := F)) Variants.none () Set.univ := fun t => by
  rw [bigSep_W2, bigSep_W2]
  simp (disch := decide) only [beforeIn2 V c]
  dsimp only [dat2]
  change _ ⊢ wp _ _ _ (bodyAt2 t) _
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (sound_kernel2 c Set.univ (iblk2 V c 0 t) (iblk2 V c 1 t) (iblk2 V c 2 t) (iblk2 V c 3 t) (iblk2 V c 4 t) (iblk2 V c 5 t) (iblk2 V c 6 t) (iblk2 V c 7 t) _)
  iframe
  isplitl [H8]; · iexists _; iexact H8
  iintro ⟨H0, H1, H2, H3, H4, H5, H6, H7, H8⟩
  iframe
  iexact Ho

end Region2

end Cert.KernelIdeal.Gen
-- ==== Proof.KI.Body3.lean ====
import proofs.«411300_j19516331393713_3_alg».proof.Proof.Gen.KernelIdeal.Launch
import proofs.«411300_j19516331393713_3_alg».proof.Proof.Gen.KernelIdeal.Skeleton
import proofs.«411300_j19516331393713_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

abbrev r3_0 : Rect S3200x256 := Rect.unit (s := S3200x256) ![0, 0] S3200x256.size inb_S3200x256_S3200x256_0_0
abbrev r3_2 : Rect S256x256 := Rect.unit (s := S256x256) ![0, 0] S256x256.size inb_S256x256_S256x256_0_0
abbrev r3_4 : Rect S1x256 := Rect.unit (s := S1x256) ![0, 0] S1x256.size inb_S1x256_S1x256_0_0

def out3_7 (x0 x1 : Vec F S3200x256 .bf16) (x2 x3 : Vec F S256x256 .bf16) (x4 : Vec F S1x256 .f32) (x5 : Vec F S256x256 .bf16) (x6 : Vec F S1x256 .f32) : Vec F S3200x256 .bf16 :=
  View.canon [⟨r3_0, k3_pay1 (View.ld x0 r3_0) (View.ld x2 r3_2) (View.ld x1 r3_0) (View.ld x3 r3_2) (View.ld x4 r3_4) (View.ld x5 r3_2) (View.ld x6 r3_4)⟩]

set_option maxHeartbeats 1000000 in
theorem sound_kernel3 (c : Dev nD) (E : Set ℕ) (x0 x1 : Vec F S3200x256 .bf16) (x2 x3 : Vec F S256x256 .bf16) (x4 : Vec F S1x256 .f32) (x5 : Vec F S256x256 .bf16) (x6 : Vec F S1x256 .f32)
    {i : grid3.Coords} {a1 a2 a8 : Memref sig .tc .vmem S3200x256 .bf16} {a3 a4 a6 : Memref sig .tc .vmem S256x256 .bf16} {a5 a7 : Memref sig .tc .vmem S1x256 .f32}
    {h1 : a1.IsWhole} {h2 : a2.IsWhole} {h3 : a3.IsWhole} {h4 : a4.IsWhole} {h5 : a5.IsWhole} {h6 : a6.IsWhole} {h7 : a7.IsWhole} {h8 : a8.IsWhole} {K : PUnit → sProp 𝕄} :
    iprop(owns c a1 fullShare x0 ∗ owns c a2 fullShare x1 ∗ owns c a3 fullShare x2 ∗ owns c a4 fullShare x3 ∗ owns c a5 fullShare x4 ∗ owns c a6 fullShare x5 ∗ owns c a7 fullShare x6 ∗ (∃ d, owns c a8 fullShare d)
        ∗ (iprop(owns c a1 fullShare x0 ∗ owns c a2 fullShare x1 ∗ owns c a3 fullShare x2 ∗ owns c a4 fullShare x3 ∗ owns c a5 fullShare x4 ∗ owns c a6 fullShare x5 ∗ owns c a7 fullShare x6 ∗ owns c a8 fullShare (out3_7 x0 x1 x2 x3 x4 x5 x6)) -∗ K ⟨⟩))
      ⊢ wp frame (wpE (defs₀ (F := F)) Variants.none c none) E (cc3__mlp2_split_kernel i a1 h1 a2 h2 a3 h3 a4 h4 a5 h5 a6 h6 a7 h7 a8 h8) K := by
  simp only [cc3__mlp2_split_kernel_eq_skeleton]; unfold cc3__mlp2_split_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (View.cover_of_tiled _ S3200x256.size (by rfl))

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => iblk3 V c 5 t
    | ⟨6, _⟩ => iblk3 V c 6 t
    | ⟨7, _⟩ => out3_7 (iblk3 V c 0 t) (iblk3 V c 1 t) (iblk3 V c 2 t) (iblk3 V c 3 t) (iblk3 V c 4 t) (iblk3 V c 5 t) (iblk3 V c 6 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_7 (c : Dev nD) (t : Fin cfg3.N) : (dat3 V c).after 7 t = out3_7 (iblk3 V c 0 t) (iblk3 V c 1 t) (iblk3 V c 2 t) (iblk3 V c 3 t) (iblk3 V c 4 t) (iblk3 V c 5 t) (iblk3 V c 6 t) := by dsimp only [dat3]

theorem beforeIn3 (c : Dev nD) (t : Fin cfg3.N) : ∀ w : Fin cfg3.W, w ≠ 7 → ∀ d, (dat3 V c).before w t d = (dat3 V c).after w t
  | ⟨0, _⟩, _ | ⟨1, _⟩, _ | ⟨2, _⟩, _ | ⟨3, _⟩, _ | ⟨4, _⟩, _ | ⟨5, _⟩, _ | ⟨6, _⟩, _ => fun d =>
    ((dat3 V c).before_in_eq_fetched _ (by rfl) (fun _ => by rfl) (fun _ _ _ => by rfl) (fun _ => by rfl) t d).trans (by rfl)
  | ⟨7, _⟩, h => absurd rfl h

theorem body_obligation3 (c : Dev nD) : BodyObligation (dat3 (F := F) V c) (defs₀ (F := F)) Variants.none () Set.univ := fun t => by
  rw [bigSep_W3, bigSep_W3]
  simp (disch := decide) only [beforeIn3 V c t]
  dsimp only [dat3, Dat.owesAt, Dat.bound]
  sl_whnfR [defs₀, Defs.onTc]
  iintro ⟨HR, HQ, ⟨%d0, H0⟩, ⟨%d1, H1⟩, ⟨%d2, H2⟩, ⟨%d3, H3⟩, ⟨%d4, H4⟩, ⟨%d5, H5⟩, ⟨%d6, H6⟩, ⟨%d7, H7⟩⟩
  iapply sound_kernel3 c Set.univ (iblk3 V c 0 t) (iblk3 V c 1 t) (iblk3 V c 2 t) (iblk3 V c 3 t) (iblk3 V c 4 t) (iblk3 V c 5 t) (iblk3 V c 6 t)
  iframe H0 H1 H2 H3 H4 H5 H6
  isplitl [H7]; · iexists _; iexact H7
  iintro ⟨H0, H1, H2, H3, H4, H5, H6, H7⟩
  iframe

end Cert.KernelIdeal.Gen
-- ==== Proof.KI.Body4.lean ====
import proofs.«411300_j19516331393713_3_alg».proof.Proof.Gen.KernelIdeal.Launch
import proofs.«411300_j19516331393713_3_alg».proof.Proof.Gen.KernelIdeal.Skeleton
import proofs.«411300_j19516331393713_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 65536

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region4
variable (V : (c : Dev nD) → (b : Ref sig .tc) → Buf (Elt F) ((c : Thread nD τ).loc b))

def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

abbrev r4_0 : Rect S2000x256 := Rect.unit (s := S2000x256) ![0, 0] S2000x256.size inb_S2000x256_S2000x256_0_0
abbrev r4_1 : Rect S256x256 := Rect.unit (s := S256x256) ![0, 0] S256x256.size inb_S256x256_S256x256_0_0
abbrev r4_2 : Rect S1x256 := Rect.unit (s := S1x256) ![0, 0] S1x256.size inb_S1x256_S1x256_0_0

def out4_8 (x0 : Vec F S2000x256 .bf16) (x1 : Vec F S2000x256 .bf16) (x2 : Vec F S256x256 .bf16) (x3 : Vec F S256x256 .bf16) (x4 : Vec F S1x256 .f32) (x5 : Vec F S256x256 .bf16) (x6 : Vec F S1x256 .f32) (x7 : Vec F S2000x256 .f32) : Vec F S2000x256 .f32 :=
  View.canon [⟨r4_0, k4_pay1 (View.ld x0 r4_0) (View.ld x2 r4_1) (View.ld x1 r4_0) (View.ld x3 r4_1) (View.ld x4 r4_2) (View.ld x5 r4_1) (View.ld x6 r4_2) (View.ld x7 r4_0)⟩]

set_option maxHeartbeats 1000000 in
theorem sound_kernel4 (c : Dev nD) (E : Set ℕ) {i : grid4.Coords} {arg1 arg2 : Memref sig .tc .vmem S2000x256 .bf16} {arg3 arg4 arg6 : Memref sig .tc .vmem S256x256 .bf16} {arg5 arg7 : Memref sig .tc .vmem S1x256 .f32} {arg8 arg9 : Memref sig .tc .vmem S2000x256 .f32}
    {harg1 : arg1.IsWhole} {harg2 : arg2.IsWhole} {harg3 : arg3.IsWhole} {harg4 : arg4.IsWhole} {harg5 : arg5.IsWhole} {harg6 : arg6.IsWhole} {harg7 : arg7.IsWhole} {harg8 : arg8.IsWhole} {harg9 : arg9.IsWhole}
    (x0 x1 : Vec F S2000x256 .bf16) (x2 x3 : Vec F S256x256 .bf16) (x4 : Vec F S1x256 .f32) (x5 : Vec F S256x256 .bf16) (x6 : Vec F S1x256 .f32) (x7 : Vec F S2000x256 .f32) (K : PUnit → sProp 𝕄) :
    iprop(owns c arg1 fullShare x0 ∗ owns c arg2 fullShare x1 ∗ owns c arg3 fullShare x2 ∗ owns c arg4 fullShare x3 ∗ owns c arg5 fullShare x4 ∗ owns c arg6 fullShare x5 ∗ owns c arg7 fullShare x6 ∗ owns c arg8 fullShare x7 ∗ (∃ d, owns c arg9 fullShare d)
        ∗ (iprop(owns c arg1 fullShare x0 ∗ owns c arg2 fullShare x1 ∗ owns c arg3 fullShare x2 ∗ owns c arg4 fullShare x3 ∗ owns c arg5 fullShare x4 ∗ owns c arg6 fullShare x5 ∗ owns c arg7 fullShare x6 ∗ owns c arg8 fullShare x7 ∗ owns c arg9 fullShare (out4_8 x0 x1 x2 x3 x4 x5 x6 x7)) -∗ K ⟨⟩))
      ⊢ wp frame (wpE (defs₀ (F := F)) Variants.none c none) E (cc4__mlp2_split_residual_kernel i arg1 harg1 arg2 harg2 arg3 harg3 arg4 harg4 arg5 harg5 arg6 harg6 arg7 harg7 arg8 harg8 arg9 harg9) K := by
  simp only [cc4__mlp2_split_residual_kernel_eq_skeleton]; unfold cc4__mlp2_split_residual_kernel_skel owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, Hk⟩
  subst hf0 hf1 hf2 hf3 hf4 hf5 hf6 hf7
  sl_exec
  sl_step
  iapply Hk
  isplitl [H0]; · iexists f0; isplitr; · ipureintro; rfl
                  iexact H0
  isplitl [H1]; · iexists f1; isplitr; · ipureintro; rfl
                  iexact H1
  isplitl [H2]; · iexists f2; isplitr; · ipureintro; rfl
                  iexact H2
  isplitl [H3]; · iexists f3; isplitr; · ipureintro; rfl
                  iexact H3
  isplitl [H4]; · iexists f4; isplitr; · ipureintro; rfl
                  iexact H4
  isplitl [H5]; · iexists f5; isplitr; · ipureintro; rfl
                  iexact H5
  isplitl [H6]; · iexists f6; isplitr; · ipureintro; rfl
                  iexact H6
  isplitl [H7]; · iexists f7; isplitr; · ipureintro; rfl
                  iexact H7
  iexists _; isplitr
  swap; · iexact H8
  ipureintro
  exact View.read_writes_eq_canon _ _ _ (View.cover_of_tiled _ S2000x256.size (by rfl))

def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => iblk4 V c 4 t
    | ⟨5, _⟩ => iblk4 V c 5 t
    | ⟨6, _⟩ => iblk4 V c 6 t
    | ⟨7, _⟩ => iblk4 V c 7 t
    | ⟨8, _⟩ => out4_8 (iblk4 V c 0 t) (iblk4 V c 1 t) (iblk4 V c 2 t) (iblk4 V c 3 t) (iblk4 V c 4 t) (iblk4 V c 5 t) (iblk4 V c 6 t) (iblk4 V c 7 t)
  Φ _ := Pipeline.ΦA spec4 c
  q _ := fullShare
  owed _ := 0

theorem A_eq4 (c : Dev nD) (w : Fin cfg4.W) : (dat4 V c).A w = V c (Pipeline.arrRef spec4 w) := rfl

theorem after4_8 (c : Dev nD) (t : Fin cfg4.N) : (dat4 V c).after 8 t = out4_8 (iblk4 V c 0 t) (iblk4 V c 1 t) (iblk4 V c 2 t) (iblk4 V c 3 t) (iblk4 V c 4 t) (iblk4 V c 5 t) (iblk4 V c 6 t) (iblk4 V c 7 t) := by dsimp only [dat4]

theorem beforeIn4 (c : Dev nD) : ∀ w : Fin cfg4.W, w ≠ 8 → ∀ t d, (dat4 V c).before w t d = (dat4 V c).after w t
  | ⟨0, _⟩, _ | ⟨1, _⟩, _ | ⟨2, _⟩, _ | ⟨3, _⟩, _ | ⟨4, _⟩, _ | ⟨5, _⟩, _ | ⟨6, _⟩, _ | ⟨7, _⟩, _ =>
    (dat4 V c).before_in_eq_fetched _ rfl (fun _ => rfl) (fun _ _ _ => rfl) (fun _ => rfl)
  | ⟨8, _⟩, h => absurd rfl h

theorem body_obligation4 (c : Dev nD) : BodyObligation (dat4 (F := F) V c) (defs₀ (F := F)) Variants.none () Set.univ := fun t => by
  rw [bigSep_W4, bigSep_W4]
  simp (disch := decide) only [beforeIn4 V c]
  dsimp only [dat4]
  change _ ⊢ wp _ _ _ (bodyAt4 t) _
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (sound_kernel4 c Set.univ (iblk4 V c 0 t) (iblk4 V c 1 t) (iblk4 V c 2 t) (iblk4 V c 3 t) (iblk4 V c 4 t) (iblk4 V c 5 t) (iblk4 V c 6 t) (iblk4 V c 7 t) _)
  iframe
  isplitl [H8]; · iexists _; iexact H8
  iintro ⟨H0, H1, H2, H3, H4, H5, H6, H7, H8⟩
  iframe
  iexact Ho

end Region4

end Cert.KernelIdeal.Gen
-- ==== Proof.KI.Body5.lean ====
import proofs.«411300_j19516331393713_3_alg».proof.Proof.Gen.KernelIdeal.Launch
import proofs.«411300_j19516331393713_3_alg».proof.Proof.Gen.KernelIdeal.Skeleton
import proofs.«411300_j19516331393713_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

abbrev r5_0 : Rect S3200x256 := Rect.unit (s := S3200x256) ![0, 0] S3200x256.size inb_S3200x256_S3200x256_0_0
abbrev r5_2 : Rect S256x256 := Rect.unit (s := S256x256) ![0, 0] S256x256.size inb_S256x256_S256x256_0_0
abbrev r5_4 : Rect S1x256 := Rect.unit (s := S1x256) ![0, 0] S1x256.size inb_S1x256_S1x256_0_0

def out5_7 (x0 x1 : Vec F S3200x256 .bf16) (x2 x3 : Vec F S256x256 .bf16) (x4 : Vec F S1x256 .f32) (x5 : Vec F S256x256 .bf16) (x6 : Vec F S1x256 .f32) : Vec F S3200x256 .bf16 :=
  View.canon [⟨r5_0, k5_pay1 (View.ld x0 r5_0) (View.ld x2 r5_2) (View.ld x1 r5_0) (View.ld x3 r5_2) (View.ld x4 r5_4) (View.ld x5 r5_2) (View.ld x6 r5_4)⟩]

set_option maxHeartbeats 1000000 in
theorem sound_kernel5 (c : Dev nD) (E : Set ℕ) (x0 x1 : Vec F S3200x256 .bf16) (x2 x3 : Vec F S256x256 .bf16) (x4 : Vec F S1x256 .f32) (x5 : Vec F S256x256 .bf16) (x6 : Vec F S1x256 .f32)
    {i : grid5.Coords} {a1 a2 a8 : Memref sig .tc .vmem S3200x256 .bf16} {a3 a4 a6 : Memref sig .tc .vmem S256x256 .bf16} {a5 a7 : Memref sig .tc .vmem S1x256 .f32}
    {h1 : a1.IsWhole} {h2 : a2.IsWhole} {h3 : a3.IsWhole} {h4 : a4.IsWhole} {h5 : a5.IsWhole} {h6 : a6.IsWhole} {h7 : a7.IsWhole} {h8 : a8.IsWhole} {K : PUnit → sProp 𝕄} :
    iprop(owns c a1 fullShare x0 ∗ owns c a2 fullShare x1 ∗ owns c a3 fullShare x2 ∗ owns c a4 fullShare x3 ∗ owns c a5 fullShare x4 ∗ owns c a6 fullShare x5 ∗ owns c a7 fullShare x6 ∗ (∃ d, owns c a8 fullShare d)
        ∗ (iprop(owns c a1 fullShare x0 ∗ owns c a2 fullShare x1 ∗ owns c a3 fullShare x2 ∗ owns c a4 fullShare x3 ∗ owns c a5 fullShare x4 ∗ owns c a6 fullShare x5 ∗ owns c a7 fullShare x6 ∗ owns c a8 fullShare (out5_7 x0 x1 x2 x3 x4 x5 x6)) -∗ K ⟨⟩))
      ⊢ wp frame (wpE (defs₀ (F := F)) Variants.none c none) E (cc5__mlp2_split_kernel i a1 h1 a2 h2 a3 h3 a4 h4 a5 h5 a6 h6 a7 h7 a8 h8) K := by
  simp only [cc5__mlp2_split_kernel_eq_skeleton]; unfold cc5__mlp2_split_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (View.cover_of_tiled _ S3200x256.size (by rfl))

def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => iblk5 V c 4 t
    | ⟨5, _⟩ => iblk5 V c 5 t
    | ⟨6, _⟩ => iblk5 V c 6 t
    | ⟨7, _⟩ => out5_7 (iblk5 V c 0 t) (iblk5 V c 1 t) (iblk5 V c 2 t) (iblk5 V c 3 t) (iblk5 V c 4 t) (iblk5 V c 5 t) (iblk5 V c 6 t)
  Φ _ := Pipeline.ΦA spec5 c
  q _ := fullShare
  owed _ := 0

theorem A_eq5 (c : Dev nD) (w : Fin cfg5.W) : (dat5 V c).A w = V c (Pipeline.arrRef spec5 w) := by
  dsimp only [dat5]

theorem after5_7 (c : Dev nD) (t : Fin cfg5.N) : (dat5 V c).after 7 t = out5_7 (iblk5 V c 0 t) (iblk5 V c 1 t) (iblk5 V c 2 t) (iblk5 V c 3 t) (iblk5 V c 4 t) (iblk5 V c 5 t) (iblk5 V c 6 t) := by dsimp only [dat5]

theorem beforeIn5 (c : Dev nD) (t : Fin cfg5.N) : ∀ w : Fin cfg5.W, w ≠ 7 → ∀ d, (dat5 V c).before w t d = (dat5 V c).after w t
  | ⟨0, _⟩, _ | ⟨1, _⟩, _ | ⟨2, _⟩, _ | ⟨3, _⟩, _ | ⟨4, _⟩, _ | ⟨5, _⟩, _ | ⟨6, _⟩, _ => fun d =>
    ((dat5 V c).before_in_eq_fetched _ (by rfl) (fun _ => by rfl) (fun _ _ _ => by rfl) (fun _ => by rfl) t d).trans (by rfl)
  | ⟨7, _⟩, h => absurd rfl h

theorem body_obligation5 (c : Dev nD) : BodyObligation (dat5 (F := F) V c) (defs₀ (F := F)) Variants.none () Set.univ := fun t => by
  rw [bigSep_W5, bigSep_W5]
  simp (disch := decide) only [beforeIn5 V c t]
  dsimp only [dat5, Dat.owesAt, Dat.bound]
  sl_whnfR [defs₀, Defs.onTc]
  iintro ⟨HR, HQ, ⟨%d0, H0⟩, ⟨%d1, H1⟩, ⟨%d2, H2⟩, ⟨%d3, H3⟩, ⟨%d4, H4⟩, ⟨%d5, H5⟩, ⟨%d6, H6⟩, ⟨%d7, H7⟩⟩
  iapply sound_kernel5 c Set.univ (iblk5 V c 0 t) (iblk5 V c 1 t) (iblk5 V c 2 t) (iblk5 V c 3 t) (iblk5 V c 4 t) (iblk5 V c 5 t) (iblk5 V c 6 t)
  iframe H0 H1 H2 H3 H4 H5 H6
  isplitl [H7]; · iexists _; iexact H7
  iintro ⟨H0, H1, H2, H3, H4, H5, H6, H7⟩
  iframe

end Cert.KernelIdeal.Gen
-- ==== Proof.KI.Body6.lean ====
import proofs.«411300_j19516331393713_3_alg».proof.Proof.Gen.KernelIdeal.Launch
import proofs.«411300_j19516331393713_3_alg».proof.Proof.Gen.KernelIdeal.Skeleton
import proofs.«411300_j19516331393713_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 65536

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region6
variable (V : (c : Dev nD) → (b : Ref sig .tc) → Buf (Elt F) ((c : Thread nD τ).loc b))

def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

abbrev r6_0 : Rect S2000x256 := Rect.unit (s := S2000x256) ![0, 0] S2000x256.size inb_S2000x256_S2000x256_0_0
abbrev r6_1 : Rect S256x256 := Rect.unit (s := S256x256) ![0, 0] S256x256.size inb_S256x256_S256x256_0_0
abbrev r6_2 : Rect S1x256 := Rect.unit (s := S1x256) ![0, 0] S1x256.size inb_S1x256_S1x256_0_0

def out6_8 (x0 : Vec F S2000x256 .bf16) (x1 : Vec F S2000x256 .bf16) (x2 : Vec F S256x256 .bf16) (x3 : Vec F S256x256 .bf16) (x4 : Vec F S1x256 .f32) (x5 : Vec F S256x256 .bf16) (x6 : Vec F S1x256 .f32) (x7 : Vec F S2000x256 .f32) : Vec F S2000x256 .f32 :=
  View.canon [⟨r6_0, k6_pay1 (View.ld x0 r6_0) (View.ld x2 r6_1) (View.ld x1 r6_0) (View.ld x3 r6_1) (View.ld x4 r6_2) (View.ld x5 r6_1) (View.ld x6 r6_2) (View.ld x7 r6_0)⟩]

set_option maxHeartbeats 1000000 in
theorem sound_kernel6 (c : Dev nD) (E : Set ℕ) {i : grid6.Coords} {arg1 arg2 : Memref sig .tc .vmem S2000x256 .bf16} {arg3 arg4 arg6 : Memref sig .tc .vmem S256x256 .bf16} {arg5 arg7 : Memref sig .tc .vmem S1x256 .f32} {arg8 arg9 : Memref sig .tc .vmem S2000x256 .f32}
    {harg1 : arg1.IsWhole} {harg2 : arg2.IsWhole} {harg3 : arg3.IsWhole} {harg4 : arg4.IsWhole} {harg5 : arg5.IsWhole} {harg6 : arg6.IsWhole} {harg7 : arg7.IsWhole} {harg8 : arg8.IsWhole} {harg9 : arg9.IsWhole}
    (x0 x1 : Vec F S2000x256 .bf16) (x2 x3 : Vec F S256x256 .bf16) (x4 : Vec F S1x256 .f32) (x5 : Vec F S256x256 .bf16) (x6 : Vec F S1x256 .f32) (x7 : Vec F S2000x256 .f32) (K : PUnit → sProp 𝕄) :
    iprop(owns c arg1 fullShare x0 ∗ owns c arg2 fullShare x1 ∗ owns c arg3 fullShare x2 ∗ owns c arg4 fullShare x3 ∗ owns c arg5 fullShare x4 ∗ owns c arg6 fullShare x5 ∗ owns c arg7 fullShare x6 ∗ owns c arg8 fullShare x7 ∗ (∃ d, owns c arg9 fullShare d)
        ∗ (iprop(owns c arg1 fullShare x0 ∗ owns c arg2 fullShare x1 ∗ owns c arg3 fullShare x2 ∗ owns c arg4 fullShare x3 ∗ owns c arg5 fullShare x4 ∗ owns c arg6 fullShare x5 ∗ owns c arg7 fullShare x6 ∗ owns c arg8 fullShare x7 ∗ owns c arg9 fullShare (out6_8 x0 x1 x2 x3 x4 x5 x6 x7)) -∗ K ⟨⟩))
      ⊢ wp frame (wpE (defs₀ (F := F)) Variants.none c none) E (cc6__mlp2_split_residual_kernel i arg1 harg1 arg2 harg2 arg3 harg3 arg4 harg4 arg5 harg5 arg6 harg6 arg7 harg7 arg8 harg8 arg9 harg9) K := by
  simp only [cc6__mlp2_split_residual_kernel_eq_skeleton]; unfold cc6__mlp2_split_residual_kernel_skel owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, Hk⟩
  subst hf0 hf1 hf2 hf3 hf4 hf5 hf6 hf7
  sl_exec
  sl_step
  iapply Hk
  isplitl [H0]; · iexists f0; isplitr; · ipureintro; rfl
                  iexact H0
  isplitl [H1]; · iexists f1; isplitr; · ipureintro; rfl
                  iexact H1
  isplitl [H2]; · iexists f2; isplitr; · ipureintro; rfl
                  iexact H2
  isplitl [H3]; · iexists f3; isplitr; · ipureintro; rfl
                  iexact H3
  isplitl [H4]; · iexists f4; isplitr; · ipureintro; rfl
                  iexact H4
  isplitl [H5]; · iexists f5; isplitr; · ipureintro; rfl
                  iexact H5
  isplitl [H6]; · iexists f6; isplitr; · ipureintro; rfl
                  iexact H6
  isplitl [H7]; · iexists f7; isplitr; · ipureintro; rfl
                  iexact H7
  iexists _; isplitr
  swap; · iexact H8
  ipureintro
  exact View.read_writes_eq_canon _ _ _ (View.cover_of_tiled _ S2000x256.size (by rfl))

def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => iblk6 V c 3 t
    | ⟨4, _⟩ => iblk6 V c 4 t
    | ⟨5, _⟩ => iblk6 V c 5 t
    | ⟨6, _⟩ => iblk6 V c 6 t
    | ⟨7, _⟩ => iblk6 V c 7 t
    | ⟨8, _⟩ => out6_8 (iblk6 V c 0 t) (iblk6 V c 1 t) (iblk6 V c 2 t) (iblk6 V c 3 t) (iblk6 V c 4 t) (iblk6 V c 5 t) (iblk6 V c 6 t) (iblk6 V c 7 t)
  Φ _ := Pipeline.ΦA spec6 c
  q _ := fullShare
  owed _ := 0

theorem A_eq6 (c : Dev nD) (w : Fin cfg6.W) : (dat6 V c).A w = V c (Pipeline.arrRef spec6 w) := rfl

theorem after6_8 (c : Dev nD) (t : Fin cfg6.N) : (dat6 V c).after 8 t = out6_8 (iblk6 V c 0 t) (iblk6 V c 1 t) (iblk6 V c 2 t) (iblk6 V c 3 t) (iblk6 V c 4 t) (iblk6 V c 5 t) (iblk6 V c 6 t) (iblk6 V c 7 t) := by dsimp only [dat6]

theorem beforeIn6 (c : Dev nD) : ∀ w : Fin cfg6.W, w ≠ 8 → ∀ t d, (dat6 V c).before w t d = (dat6 V c).after w t
  | ⟨0, _⟩, _ | ⟨1, _⟩, _ | ⟨2, _⟩, _ | ⟨3, _⟩, _ | ⟨4, _⟩, _ | ⟨5, _⟩, _ | ⟨6, _⟩, _ | ⟨7, _⟩, _ =>
    (dat6 V c).before_in_eq_fetched _ rfl (fun _ => rfl) (fun _ _ _ => rfl) (fun _ => rfl)
  | ⟨8, _⟩, h => absurd rfl h

theorem body_obligation6 (c : Dev nD) : BodyObligation (dat6 (F := F) V c) (defs₀ (F := F)) Variants.none () Set.univ := fun t => by
  rw [bigSep_W6, bigSep_W6]
  simp (disch := decide) only [beforeIn6 V c]
  dsimp only [dat6]
  change _ ⊢ wp _ _ _ (bodyAt6 t) _
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (sound_kernel6 c Set.univ (iblk6 V c 0 t) (iblk6 V c 1 t) (iblk6 V c 2 t) (iblk6 V c 3 t) (iblk6 V c 4 t) (iblk6 V c 5 t) (iblk6 V c 6 t) (iblk6 V c 7 t) _)
  iframe
  isplitl [H8]; · iexists _; iexact H8
  iintro ⟨H0, H1, H2, H3, H4, H5, H6, H7, H8⟩
  iframe
  iexact Ho

end Region6

end Cert.KernelIdeal.Gen
-- ==== Proof.KI.Body7.lean ====
import proofs.«411300_j19516331393713_3_alg».proof.Proof.Gen.KernelIdeal.Launch
import proofs.«411300_j19516331393713_3_alg».proof.Proof.Gen.KernelIdeal.Skeleton
import proofs.«411300_j19516331393713_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region7
variable (V : (c : Dev nD) → (b : Ref sig .tc) → Buf (Elt F) ((c : Thread nD τ).loc b))

def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

abbrev r7_0 : Rect S2000x256 := Rect.unit (s := S2000x256) ![0, 0] S2000x256.size inb_S2000x256_S2000x256_0_0
abbrev r7_1 : Rect S256x256 := Rect.unit (s := S256x256) ![0, 0] S256x256.size inb_S256x256_S256x256_0_0
abbrev r7_2 : Rect S2000x8 := Rect.unit (s := S2000x8) ![0, 0] S2000x8.size inb_S2000x8_S2000x8_0_0
abbrev r7_3 : Rect S8x256 := Rect.unit (s := S8x256) ![0, 0] S8x256.size inb_S8x256_S8x256_0_0
abbrev r7_4 : Rect S1x256 := Rect.unit (s := S1x256) ![0, 0] S1x256.size inb_S1x256_S1x256_0_0
abbrev r7_5 : Rect S256x128 := Rect.unit (s := S256x128) ![0, 0] S256x128.size inb_S256x128_S256x128_0_0
abbrev r7_6 : Rect S1x128 := Rect.unit (s := S1x128) ![0, 0] S1x128.size inb_S1x128_S1x128_0_0
abbrev r7_7 : Rect S2000x128 := Rect.unit (s := S2000x128) ![0, 0] S2000x128.size inb_S2000x128_S2000x128_0_0

def out7_9 (x0 : Vec F S2000x256 .bf16) (x1 : Vec F S2000x256 .bf16) (x2 : Vec F S2000x8 .bf16) (x3 : Vec F S256x256 .bf16) (x4 : Vec F S256x256 .bf16) (x5 : Vec F S8x256 .bf16) (x6 : Vec F S1x256 .f32) (x7 : Vec F S256x128 .bf16) (x8 : Vec F S1x128 .f32) : Vec F S2000x128 .f32 :=
  View.canon [⟨r7_7, k7_pay1 (View.ld x0 r7_0) (View.ld x3 r7_1) (View.ld x1 r7_0) (View.ld x4 r7_1) (View.ld x2 r7_2) (View.ld x5 r7_3) (View.ld x6 r7_4) (View.ld x7 r7_5) (View.ld x8 r7_6)⟩]

def dat7 (c : Dev nD) : Dat τ (Elt F) Unit ℕ (UR sig nD τ) ℕ cfg7 c where
  A w := V c (Pipeline.arrRef spec7 w)
  after w t := match w with
    | ⟨0, _⟩ => iblk7 V c 0 t
    | ⟨1, _⟩ => iblk7 V c 1 t
    | ⟨2, _⟩ => iblk7 V c 2 t
    | ⟨3, _⟩ => iblk7 V c 3 t
    | ⟨4, _⟩ => iblk7 V c 4 t
    | ⟨5, _⟩ => iblk7 V c 5 t
    | ⟨6, _⟩ => iblk7 V c 6 t
    | ⟨7, _⟩ => iblk7 V c 7 t
    | ⟨8, _⟩ => iblk7 V c 8 t
    | ⟨9, _⟩ => out7_9 (iblk7 V c 0 t) (iblk7 V c 1 t) (iblk7 V c 2 t) (iblk7 V c 3 t) (iblk7 V c 4 t) (iblk7 V c 5 t) (iblk7 V c 6 t) (iblk7 V c 7 t) (iblk7 V c 8 t)
  Φ _ := Pipeline.ΦA spec7 c
  q _ := fullShare
  owed _ := 0

theorem A_eq7 (c : Dev nD) (w : Fin cfg7.W) : (dat7 V c).A w = V c (Pipeline.arrRef spec7 w) := by
  dsimp only [dat7]

theorem after7_9 (c : Dev nD) (t : Fin cfg7.N) : (dat7 V c).after 9 t = out7_9 (iblk7 V c 0 t) (iblk7 V c 1 t) (iblk7 V c 2 t) (iblk7 V c 3 t) (iblk7 V c 4 t) (iblk7 V c 5 t) (iblk7 V c 6 t) (iblk7 V c 7 t) (iblk7 V c 8 t) := by dsimp only [dat7]

-- An input window is only read: what the body finds there is what it leaves.
theorem before7 (c : Dev nD) (t : Fin cfg7.N) : ∀ (w : Fin cfg7.W) (hw : (cfg7.win w).isOut = false) (d),
    (dat7 V c).before w t d = (dat7 V c).after w t
  | ⟨0, _⟩, hw, d | ⟨1, _⟩, hw, d | ⟨2, _⟩, hw, d | ⟨3, _⟩, hw, d | ⟨4, _⟩, hw, d | ⟨5, _⟩, hw, d | ⟨6, _⟩, hw, d | ⟨7, _⟩, hw, d | ⟨8, _⟩, hw, d =>
    ((dat7 V c).before_in_eq_fetched _ hw (fun _ => rfl) (fun _ _ _ => rfl) (fun _ => rfl) t d).trans rfl
  | ⟨9, _⟩, hw, _ => absurd hw.symm Bool.false_ne_true

set_option maxHeartbeats 4000000 in
theorem sound_kernel7 (c : Dev nD) {E : Set ℕ} {i : grid7.Coords}
    {arg0 : Memref sig .tc .vmem S2000x256 .bf16} {arg1 : Memref sig .tc .vmem S2000x256 .bf16} {arg2 : Memref sig .tc .vmem S2000x8 .bf16} {arg3 : Memref sig .tc .vmem S256x256 .bf16} {arg4 : Memref sig .tc .vmem S256x256 .bf16} {arg5 : Memref sig .tc .vmem S8x256 .bf16} {arg6 : Memref sig .tc .vmem S1x256 .f32} {arg7 : Memref sig .tc .vmem S256x128 .bf16} {arg8 : Memref sig .tc .vmem S1x128 .f32} {arg9 : Memref sig .tc .vmem S2000x128 .f32}
    {h0 : arg0.IsWhole} {h1 : arg1.IsWhole} {h2 : arg2.IsWhole} {h3 : arg3.IsWhole} {h4 : arg4.IsWhole} {h5 : arg5.IsWhole} {h6 : arg6.IsWhole} {h7 : arg7.IsWhole} {h8 : arg8.IsWhole} {h9 : arg9.IsWhole}
    {x0 : Vec F S2000x256 .bf16} {x1 : Vec F S2000x256 .bf16} {x2 : Vec F S2000x8 .bf16} {x3 : Vec F S256x256 .bf16} {x4 : Vec F S256x256 .bf16} {x5 : Vec F S8x256 .bf16} {x6 : Vec F S1x256 .f32} {x7 : Vec F S256x128 .bf16} {x8 : Vec F S1x128 .f32} (R₁ R₂ : sProp 𝕄) :
    iprop(R₁ ∗ R₂ ∗ owns c arg0 fullShare x0 ∗ owns c arg1 fullShare x1 ∗ owns c arg2 fullShare x2 ∗ owns c arg3 fullShare x3 ∗ owns c arg4 fullShare x4 ∗ owns c arg5 fullShare x5 ∗ owns c arg6 fullShare x6 ∗ owns c arg7 fullShare x7 ∗ owns c arg8 fullShare x8 ∗ (∃ d, owns c arg9 fullShare d))
      ⊢ wp frame (wpE (defs₀ (F := F)) Variants.none c none) E (cc7__mlp2_split3_kernel i arg0 h0 arg1 h1 arg2 h2 arg3 h3 arg4 h4 arg5 h5 arg6 h6 arg7 h7 arg8 h8 arg9 h9) fun _ =>
        iprop(R₁ ∗ R₂ ∗ owns c arg0 fullShare x0 ∗ owns c arg1 fullShare x1 ∗ owns c arg2 fullShare x2 ∗ owns c arg3 fullShare x3 ∗ owns c arg4 fullShare x4 ∗ owns c arg5 fullShare x5 ∗ owns c arg6 fullShare x6 ∗ owns c arg7 fullShare x7 ∗ owns c arg8 fullShare x8 ∗ owns c arg9 fullShare (out7_9 x0 x1 x2 x3 x4 x5 x6 x7 x8)) := by
  simp only [cc7__mlp2_split3_kernel_eq_skeleton]; unfold cc7__mlp2_split3_kernel_skel
  unfold owns
  iintro ⟨HR₁, HR₂, ⟨%f0, %e0, H0⟩, ⟨%f1, %e1, H1⟩, ⟨%f2, %e2, H2⟩, ⟨%f3, %e3, H3⟩, ⟨%f4, %e4, H4⟩, ⟨%f5, %e5, H5⟩, ⟨%f6, %e6, H6⟩, ⟨%f7, %e7, H7⟩, ⟨%f8, %e8, H8⟩, ⟨%d9, %f9, -, H9⟩⟩
  subst e0 e1 e2 e3 e4 e5 e6 e7 e8
  sl_exec
  sl_step
  isplitl [HR₁]; · iexact HR₁
  isplitl [HR₂]; · iexact HR₂
  isplitl [H0]; · iexists f0; isplitr; (· ipureintro; rfl); iexact H0
  isplitl [H1]; · iexists f1; isplitr; (· ipureintro; rfl); iexact H1
  isplitl [H2]; · iexists f2; isplitr; (· ipureintro; rfl); iexact H2
  isplitl [H3]; · iexists f3; isplitr; (· ipureintro; rfl); iexact H3
  isplitl [H4]; · iexists f4; isplitr; (· ipureintro; rfl); iexact H4
  isplitl [H5]; · iexists f5; isplitr; (· ipureintro; rfl); iexact H5
  isplitl [H6]; · iexists f6; isplitr; (· ipureintro; rfl); iexact H6
  isplitl [H7]; · iexists f7; isplitr; (· ipureintro; rfl); iexact H7
  isplitl [H8]; · iexists f8; isplitr; (· ipureintro; rfl); iexact H8
  iexists _; isplitr
  swap; · iexact H9
  ipureintro
  exact View.read_writes_eq_canon _ _ _ (View.cover_of_tiled _ S2000x128.size (by rfl))

set_option maxHeartbeats 4000000 in
theorem body_obligation7 (c : Dev nD) : BodyObligation (dat7 (F := F) V c) (defs₀ (F := F)) Variants.none () Set.univ := fun t => by
  rw [bigSep_W7, bigSep_W7]
  simp (disch := exact rfl) only [before7 V c t]
  show _ ⊢ wp frame (wpE (defs₀ (F := F)) Variants.none c none) Set.univ (bodyAt7 t) _
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply sound_kernel7 c ((dat7 V c).Φ t.castSucc) ((dat7 V c).owesAt () t.castSucc)
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexists _; iexact H9

end Region7

end Cert.KernelIdeal.Gen

end
-- ==== Proof.KI.Regs.lean ====
import proofs.«411300_j19516331393713_3_alg».proof.Proof.Gen.KernelIdeal.Regions
import proofs.«411300_j19516331393713_3_alg».proof.Proof.KI.Body0
import proofs.«411300_j19516331393713_3_alg».proof.Proof.KI.Body1
import proofs.«411300_j19516331393713_3_alg».proof.Proof.KI.Body2
import proofs.«411300_j19516331393713_3_alg».proof.Proof.KI.Body3
import proofs.«411300_j19516331393713_3_alg».proof.Proof.KI.Body4
import proofs.«411300_j19516331393713_3_alg».proof.Proof.KI.Body5
import proofs.«411300_j19516331393713_3_alg».proof.Proof.KI.Body6
import proofs.«411300_j19516331393713_3_alg».proof.Proof.KI.Body7
import Idealize.ShloMosaic.Lib.Pipeline.FrameBody
import Idealize.ShloMosaic.Lib.Pipeline.RegionsLoop

set_option maxRecDepth 2156

noncomputable section

namespace Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ)

abbrev atTc (W : Dev nD → Valuation τ sig (Elt F)) : (c : Dev nD) → (b : Ref sig .tc) → Buf (Elt F) ((c : Thread nD τ).loc b) :=
  fun c b => W c b

abbrev U1 (c : Dev nD) : Valuation τ sig (Elt F) := V1 m c
def o0 (c : Dev nD) : Buf (Elt F) ((c : Thread nD τ).loc main_v13) := (dat0 (atTc (U1 m)) c).arrAt 11 cfg0.N
abbrev U2 (c : Dev nD) : Valuation τ sig (Elt F) := Function.update (U1 m c) main_v13 (o0 m c)
abbrev U3 (c : Dev nD) : Valuation τ sig (Elt F) := StableHlo.after hostOps1 (U2 m c)
def o1 (c : Dev nD) : Buf (Elt F) ((c : Thread nD τ).loc main_v55) := (dat1 (atTc (U3 m)) c).arrAt 7 cfg1.N
abbrev U4 (c : Dev nD) : Valuation τ sig (Elt F) := Function.update (U3 m c) main_v55 (o1 m c)
abbrev U5 (c : Dev nD) : Valuation τ sig (Elt F) := StableHlo.after hostOps2 (U4 m c)
def o2 (c : Dev nD) : Buf (Elt F) ((c : Thread nD τ).loc main_v73) := (dat2 (atTc (U5 m)) c).arrAt 8 cfg2.N
abbrev U6 (c : Dev nD) : Valuation τ sig (Elt F) := Function.update (U5 m c) main_v73 (o2 m c)
abbrev U7 (c : Dev nD) : Valuation τ sig (Elt F) := StableHlo.after hostOps3 (U6 m c)
def o3 (c : Dev nD) : Buf (Elt F) ((c : Thread nD τ).loc main_v101) := (dat3 (atTc (U7 m)) c).arrAt 7 cfg3.N
abbrev U8 (c : Dev nD) : Valuation τ sig (Elt F) := Function.update (U7 m c) main_v101 (o3 m c)
abbrev U9 (c : Dev nD) : Valuation τ sig (Elt F) := StableHlo.after hostOps4 (U8 m c)
def o4 (c : Dev nD) : Buf (Elt F) ((c : Thread nD τ).loc main_v119) := (dat4 (atTc (U9 m)) c).arrAt 8 cfg4.N
abbrev U10 (c : Dev nD) : Valuation τ sig (Elt F) := Function.update (U9 m c) main_v119 (o4 m c)
abbrev U11 (c : Dev nD) : Valuation τ sig (Elt F) := StableHlo.after hostOps5 (U10 m c)
def o5 (c : Dev nD) : Buf (Elt F) ((c : Thread nD τ).loc main_v147) := (dat5 (atTc (U11 m)) c).arrAt 7 cfg5.N
abbrev U12 (c : Dev nD) : Valuation τ sig (Elt F) := Function.update (U11 m c) main_v147 (o5 m c)
abbrev U13 (c : Dev nD) : Valuation τ sig (Elt F) := StableHlo.after hostOps6 (U12 m c)
def o6 (c : Dev nD) : Buf (Elt F) ((c : Thread nD τ).loc main_v165) := (dat6 (atTc (U13 m)) c).arrAt 8 cfg6.N
abbrev U14 (c : Dev nD) : Valuation τ sig (Elt F) := Function.update (U13 m c) main_v165 (o6 m c)
abbrev U15 (c : Dev nD) : Valuation τ sig (Elt F) := StableHlo.after hostOps7 (U14 m c)
abbrev U16 (c : Dev nD) : Valuation τ sig (Elt F) := StableHlo.after hostOps7_1 (U15 m c)
abbrev U17 (c : Dev nD) : Valuation τ sig (Elt F) := StableHlo.after hostOps7_2 (U16 m c)
abbrev U18 (c : Dev nD) : Valuation τ sig (Elt F) := StableHlo.after hostOps7_3 (U17 m c)
abbrev U19 (c : Dev nD) : Valuation τ sig (Elt F) := StableHlo.after hostOps7_4 (U18 m c)
abbrev U20 (c : Dev nD) : Valuation τ sig (Elt F) := StableHlo.after hostOps7_5 (U19 m c)
abbrev U21 (c : Dev nD) : Valuation τ sig (Elt F) := StableHlo.after hostOps7_6 (U20 m c)
def o7 (c : Dev nD) : Buf (Elt F) ((c : Thread nD τ).loc main_v242) := (dat7 (atTc (U21 m)) c).arrAt 9 cfg7.N
abbrev U22 (c : Dev nD) : Valuation τ sig (Elt F) := Function.update (U21 m c) main_v242 (o7 m c)
abbrev U23 (c : Dev nD) : Valuation τ sig (Elt F) := StableHlo.after hostOps8 (U22 m c)

def outs : Outs (F := F) := fun J r c =>
  if J = 2 then (if h : r = main_v13 then h ▸ o0 m c else m ((c : Thread nD τ).loc r)) else
  if J = 4 then (if h : r = main_v55 then h ▸ o1 m c else m ((c : Thread nD τ).loc r)) else
  if J = 6 then (if h : r = main_v73 then h ▸ o2 m c else m ((c : Thread nD τ).loc r)) else
  if J = 8 then (if h : r = main_v101 then h ▸ o3 m c else m ((c : Thread nD τ).loc r)) else
  if J = 10 then (if h : r = main_v119 then h ▸ o4 m c else m ((c : Thread nD τ).loc r)) else
  if J = 12 then (if h : r = main_v147 then h ▸ o5 m c else m ((c : Thread nD τ).loc r)) else
  if J = 14 then (if h : r = main_v165 then h ▸ o6 m c else m ((c : Thread nD τ).loc r)) else
  if J = 22 then (if h : r = main_v242 then h ▸ o7 m c else m ((c : Thread nD τ).loc r)) else
  m ((c : Thread nD τ).loc r)

theorem outs_o0 (c : Dev nD) : outs m 2 main_v13 c = o0 m c := by
  rw [outs, if_pos rfl, dif_pos rfl]
theorem outs_o1 (c : Dev nD) : outs m 4 main_v55 c = o1 m c := by
  rw [outs, if_neg (by decide), if_pos rfl, dif_pos rfl]
theorem outs_o2 (c : Dev nD) : outs m 6 main_v73 c = o2 m c := by
  rw [outs, if_neg (by decide), if_neg (by decide), if_pos rfl, dif_pos rfl]
theorem outs_o3 (c : Dev nD) : outs m 8 main_v101 c = o3 m c := by
  rw [outs, if_neg (by decide), if_neg (by decide), if_neg (by decide), if_pos rfl, dif_pos rfl]
theorem outs_o4 (c : Dev nD) : outs m 10 main_v119 c = o4 m c := by
  rw [outs, if_neg (by decide), if_neg (by decide), if_neg (by decide), if_neg (by decide), if_pos rfl, dif_pos rfl]
theorem outs_o5 (c : Dev nD) : outs m 12 main_v147 c = o5 m c := by
  rw [outs, if_neg (by decide), if_neg (by decide), if_neg (by decide), if_neg (by decide), if_neg (by decide), if_pos rfl, dif_pos rfl]
theorem outs_o6 (c : Dev nD) : outs m 14 main_v165 c = o6 m c := by
  rw [outs, if_neg (by decide), if_neg (by decide), if_neg (by decide), if_neg (by decide), if_neg (by decide), if_neg (by decide), if_pos rfl, dif_pos rfl]
theorem outs_o7 (c : Dev nD) : outs m 22 main_v242 c = o7 m c := by
  rw [outs, if_neg (by decide), if_neg (by decide), if_neg (by decide), if_neg (by decide), if_neg (by decide), if_neg (by decide), if_neg (by decide), if_pos rfl, dif_pos rfl]

theorem V2_eq : V2 m (outs m) = U2 m := funext fun c => by rw [V2, outs_o0]
theorem V3_eq : V3 m (outs m) = U3 m := funext fun c => by rw [V3, V2_eq]
theorem V4_eq : V4 m (outs m) = U4 m := funext fun c => by rw [V4, V3_eq, outs_o1]
theorem V5_eq : V5 m (outs m) = U5 m := funext fun c => by rw [V5, V4_eq]
theorem V6_eq : V6 m (outs m) = U6 m := funext fun c => by rw [V6, V5_eq, outs_o2]
theorem V7_eq : V7 m (outs m) = U7 m := funext fun c => by rw [V7, V6_eq]
theorem V8_eq : V8 m (outs m) = U8 m := funext fun c => by rw [V8, V7_eq, outs_o3]
theorem V9_eq : V9 m (outs m) = U9 m := funext fun c => by rw [V9, V8_eq]
theorem V10_eq : V10 m (outs m) = U10 m := funext fun c => by rw [V10, V9_eq, outs_o4]
theorem V11_eq : V11 m (outs m) = U11 m := funext fun c => by rw [V11, V10_eq]
theorem V12_eq : V12 m (outs m) = U12 m := funext fun c => by rw [V12, V11_eq, outs_o5]
theorem V13_eq : V13 m (outs m) = U13 m := funext fun c => by rw [V13, V12_eq]
theorem V14_eq : V14 m (outs m) = U14 m := funext fun c => by rw [V14, V13_eq, outs_o6]
theorem V21_eq : V21 m (outs m) = U21 m := funext fun c => by rw [V21, V20, V19, V18, V17, V16, V15, V14_eq]
theorem V22_eq : V22 m (outs m) = U22 m := funext fun c => by rw [V22, V21_eq, outs_o7]

def pdats : (p : Fin 8) → (c : Dev nD) → Dat τ (Elt F) Unit ℕ (UR sig nD τ) ℕ (cfgs p) c
  | ⟨0, _⟩ => fun c => dat0 (atTc (U1 m)) c
  | ⟨1, _⟩ => fun c => dat1 (atTc (U3 m)) c
  | ⟨2, _⟩ => fun c => dat2 (atTc (U5 m)) c
  | ⟨3, _⟩ => fun c => dat3 (atTc (U7 m)) c
  | ⟨4, _⟩ => fun c => dat4 (atTc (U9 m)) c
  | ⟨5, _⟩ => fun c => dat5 (atTc (U11 m)) c
  | ⟨6, _⟩ => fun c => dat6 (atTc (U13 m)) c
  | ⟨7, _⟩ => fun c => dat7 (atTc (U21 m)) c

abbrev noPairs : GSem nD τ sig → Finset Unit := fun _ => ∅
abbrev noLevel : GSem nD τ sig → Unit → ℕ := fun _ _ => 0
abbrev rest (c : Dev nD) : sProp 𝕄 := iprop((∃ r, prngReg c r) ∗ ∃ W, owes (c : Thread nD τ) (0 : CellTallies nD τ sig Unit) W)
abbrev rests : Fin 9 → Dev nD → sProp 𝕄 := fun _ => rest

theorem held_of_eq {V A : Dev nD → Valuation τ sig (Elt F)} (h : V = A) (c : Dev nD) (R : sProp 𝕄) :
    iprop(StableHlo.held (c : Thread nD τ) (Pipeline.ucRefs τ sig) (V c) ∗ R)
      ⊢ iprop(StableHlo.held (c : Thread nD τ) (Pipeline.ucRefs τ sig) (A c) ∗ R) := by
  subst h; exact .rfl

set_option backward.isDefEq.respectTransparency.types false in
-- One record for every region: what differs between regions enters as hypotheses closed by `rfl` or `decide`.
def reg (p : Fin 8) (lf : Pipeline.LaunchFacts (nD := nD) (τ := τ) cfgs p) (A B : Dev nD → Valuation τ sig (Elt F))
    (wo : Fin (cfgs p).W)
    (hin : ∀ w, w ≠ wo → ((cfgs p).win w).isOut = false ∧ Pipeline.arrRef (cfgs p).spec w ≠ Pipeline.arrRef (cfgs p).spec wo)
    (hb : ∀ c, BodyObligation (pdats m p c) defs₀ Variants.none () Set.univ)
    (hA : ∀ c w, (pdats m p c).A w = atTc A c (Pipeline.arrRef (cfgs p).spec w))
    (hBo : ∀ c, (pdats m p c).arrAt wo (cfgs p).N = atTc B c (Pipeline.arrRef (cfgs p).spec wo))
    (hBn : ∀ c b, b ≠ Pipeline.arrRef (cfgs p).spec wo → atTc B c b = atTc A c b)
    (hq : ∀ c w, (pdats m p c).q w = fullShare := by exact fun _ _ => rfl)
    (hΦ : ∀ c t, (pdats m p c).Φ t = Pipeline.ΦA (cfgs p).spec c := by exact fun _ _ => rfl)
    (hz : ∀ c t, (pdats m p c).owed t = 0 := by exact fun _ _ => rfl)
    (hr : ∀ c t, (pdats m p c).recorded t = Set.univ := by exact fun _ _ => rfl) :
    Pipeline.RegionSeg (pcfgs (F := F)) adm (pdats m) () defs₀ Variants.none noPairs noLevel p where
  win := lf.win.to₀
  block_pos := lf.block_pos
  stage_whole := lf.stage_whole
  K := PEmpty
  osem k := k.elim
  ho := Pipeline.OwnSemFacts.none _
  hbody c := (hb c).loose
  hwaits := Pipeline.hwaits_of_owed_zero _ _ _ _ noPairs noLevel p hz
  pre c := iprop(StableHlo.held (c : Thread nD τ) (Pipeline.ucRefs τ sig) (A c) ∗ rest c)
  post c := iprop(StableHlo.held (c : Thread nD τ) (Pipeline.ucRefs τ sig) (B c) ∗ rest c)
  X c := iprop(∃ r, prngReg c r)
  Y c := iprop(∃ r, prngReg c r)
  Z c := Pipeline.unscopedRest (Ix := Unit) (Name := ℕ) (U := UR sig nD τ) (Lvl := ℕ) (cfgs p).spec c (atTc A c)
  hentry c := by
    unfold Pipeline.Dat.owesAt Pipeline.owesWithin Pipeline.Dat.bound
    rw [Pipeline.ownSems0_none, hz c, hr c]
    have hsplit := Pipeline.arrays_of_unscopedBufs (p := p) (pcfgs (F := F)) adm (pdats m) lf.win lf.arr_whole c
      ((pdats m p c).share_full (hq c)) (atTc A c) (hA c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · icases HO with ⟨%W, HO⟩; iexists W; isplitr; · ipureintro; exact fun _ _ => Or.inl trivial
      iexact HO
    isplitl [Hp]; · iexact Hp
    iexact Hrest
  hin c := by
    rw [hΦ c]; unfold Pipeline.ΦA
    iintro ⟨Hp, -, Hr⟩
    isplitl [Hr]; · iexact Hr
    iexact Hp
  hout c := by
    rw [Pipeline.ownSems0_none, hΦ c]; unfold Pipeline.ΦA
    iintro ⟨Hr, Hp⟩
    isplitl [Hp]; · iexact Hp
    isplitr; · iempintro
    iexact Hr
  hexit c := by
    unfold Pipeline.Dat.owesAt Pipeline.owesWithin
    rw [hz c]
    have hjoin := Pipeline.unscopedBufs_of_arrays (p := p) (pcfgs (F := F)) adm (Ix := Unit) (Name := ℕ) (U := UR sig nD τ) (Lvl := ℕ)
      lf.win lf.arr_whole c (pdats m) ((pdats m p c).share_full (hq c))
      (atTc A c) (atTc B c) ((pdats m p c).arrAt · (cfgs p).N)
      (fun w => by
        by_cases hw : w = wo
        · rw [hw]; exact hBo c
        · exact ((pdats m p c).arrAt_in w (hin w hw).1 _).trans ((hA c w).trans (hBn c _ (hin w hw).2).symm))
      fun b hb => hBn c b fun e => hb (Finset.mem_image.mpr ⟨wo, Finset.mem_univ _, e.symm⟩)
    rw [Pipeline.unscopedBufs_held] at hjoin
    iintro ⟨Ha, HO, HY, Hrest⟩
    imodintro
    isplitl [Ha Hrest]
    · iapply hjoin; isplitl [Ha] <;> iassumption
    isplitl [HY]; · iexact HY
    icases HO with ⟨%W, -, HO⟩; iexists W; iexact HO

theorem in0 : ∀ w : Fin 12, w ≠ 11 → (cfg0.win w).isOut = false ∧ Pipeline.arrRef spec0 w ≠ main_v13 := by decide
set_option backward.isDefEq.respectTransparency.types false in
def reg0 := reg m 0 launch0 (U1 m) (U2 m) 11 in0 (body_obligation0 (atTc (U1 m))) (A_eq0 (atTc (U1 m)))
  (fun c => (Function.update_self (Proc.devRef (τ := τ) .tc main_v13) (o0 m c) (U1 m c)).symm)
  fun c b h => Function.update_of_ne (StableHlo.devRef_ne_of_ne h) (o0 m c) (U1 m c)

theorem in1 : ∀ w : Fin 8, w ≠ 7 → (cfg1.win w).isOut = false ∧ Pipeline.arrRef spec1 w ≠ main_v55 := by decide
set_option backward.isDefEq.respectTransparency.types false in
def reg1 := reg m 1 launch1 (U3 m) (U4 m) 7 in1 (body_obligation1 (atTc (U3 m))) (A_eq1 (atTc (U3 m)))
  (fun c => (Function.update_self (Proc.devRef (τ := τ) .tc main_v55) (o1 m c) (U3 m c)).symm)
  fun c b h => Function.update_of_ne (StableHlo.devRef_ne_of_ne h) (o1 m c) (U3 m c)

theorem in2 : ∀ w : Fin 9, w ≠ 8 → (cfg2.win w).isOut = false ∧ Pipeline.arrRef spec2 w ≠ main_v73 := by decide
set_option backward.isDefEq.respectTransparency.types false in
def reg2 := reg m 2 launch2 (U5 m) (U6 m) 8 in2 (body_obligation2 (atTc (U5 m))) (A_eq2 (atTc (U5 m)))
  (fun c => (Function.update_self (Proc.devRef (τ := τ) .tc main_v73) (o2 m c) (U5 m c)).symm)
  fun c b h => Function.update_of_ne (StableHlo.devRef_ne_of_ne h) (o2 m c) (U5 m c)

theorem in3 : ∀ w : Fin 8, w ≠ 7 → (cfg3.win w).isOut = false ∧ Pipeline.arrRef spec3 w ≠ main_v101 := by decide
set_option backward.isDefEq.respectTransparency.types false in
def reg3 := reg m 3 launch3 (U7 m) (U8 m) 7 in3 (body_obligation3 (atTc (U7 m))) (A_eq3 (atTc (U7 m)))
  (fun c => (Function.update_self (Proc.devRef (τ := τ) .tc main_v101) (o3 m c) (U7 m c)).symm)
  fun c b h => Function.update_of_ne (StableHlo.devRef_ne_of_ne h) (o3 m c) (U7 m c)

theorem in4 : ∀ w : Fin 9, w ≠ 8 → (cfg4.win w).isOut = false ∧ Pipeline.arrRef spec4 w ≠ main_v119 := by decide
set_option backward.isDefEq.respectTransparency.types false in
def reg4 := reg m 4 launch4 (U9 m) (U10 m) 8 in4 (body_obligation4 (atTc (U9 m))) (A_eq4 (atTc (U9 m)))
  (fun c => (Function.update_self (Proc.devRef (τ := τ) .tc main_v119) (o4 m c) (U9 m c)).symm)
  fun c b h => Function.update_of_ne (StableHlo.devRef_ne_of_ne h) (o4 m c) (U9 m c)

theorem in5 : ∀ w : Fin 8, w ≠ 7 → (cfg5.win w).isOut = false ∧ Pipeline.arrRef spec5 w ≠ main_v147 := by decide
set_option backward.isDefEq.respectTransparency.types false in
def reg5 := reg m 5 launch5 (U11 m) (U12 m) 7 in5 (body_obligation5 (atTc (U11 m))) (A_eq5 (atTc (U11 m)))
  (fun c => (Function.update_self (Proc.devRef (τ := τ) .tc main_v147) (o5 m c) (U11 m c)).symm)
  fun c b h => Function.update_of_ne (StableHlo.devRef_ne_of_ne h) (o5 m c) (U11 m c)

theorem in6 : ∀ w : Fin 9, w ≠ 8 → (cfg6.win w).isOut = false ∧ Pipeline.arrRef spec6 w ≠ main_v165 := by decide
set_option backward.isDefEq.respectTransparency.types false in
def reg6 := reg m 6 launch6 (U13 m) (U14 m) 8 in6 (body_obligation6 (atTc (U13 m))) (A_eq6 (atTc (U13 m)))
  (fun c => (Function.update_self (Proc.devRef (τ := τ) .tc main_v165) (o6 m c) (U13 m c)).symm)
  fun c b h => Function.update_of_ne (StableHlo.devRef_ne_of_ne h) (o6 m c) (U13 m c)

theorem in7 : ∀ w : Fin 10, w ≠ 9 → (cfg7.win w).isOut = false ∧ Pipeline.arrRef spec7 w ≠ main_v242 := by decide
set_option backward.isDefEq.respectTransparency.types false in
def reg7 := reg m 7 launch7 (U21 m) (U22 m) 9 in7 (body_obligation7 (atTc (U21 m))) (A_eq7 (atTc (U21 m)))
  (fun c => (Function.update_self (Proc.devRef (τ := τ) .tc main_v242) (o7 m c) (U21 m c)).symm)
  fun c b h => Function.update_of_ne (StableHlo.devRef_ne_of_ne h) (o7 m c) (U21 m c)

abbrev launchElt : UR sig nD τ := initOf (Pipeline.cells cfgs cellOf_inj) (Pipeline.launchToks cfgs cellOf_inj)

theorem launchElt_yields : (ownU launchElt : sProp 𝕄)
    ⊢ |={Set.univ}=> iprop(BI.own (emb₁ launchElt) ∗ bigSep Finset.univ fun _ : Dev nD => (iprop(emp) : sProp 𝕄)) := by
  iintro Hu; imodintro
  isplitl [Hu]
  · iapply (show (ownU launchElt : sProp 𝕄) ⊢ BI.own (emb₁ launchElt) from .rfl)
    iexact Hu
  iapply (show (BI.emp : sProp 𝕄) ⊢ bigSep Finset.univ (fun _ : Dev nD => (BI.emp : sProp 𝕄)) from by rw [BI.bigSep_emp_const])
  iempintro

theorem rests_init (ρ : Dev nD → PrngReg) :
    iprop((bigSep Finset.univ fun c : Dev nD => iprop(unscopedSems0 c ∗ owes (c : Thread nD τ) ((0 : Dev nD → CellTallies nD τ sig Unit) c) ∅
        ∗ Pipeline.launchCred (0 : Dev nD → CellTallies nD τ sig Unit) c ∗ prngReg c (ρ c) ∗ (iprop(emp) : sProp 𝕄))) ∗ levAts noPairs noLevel)
      ⊢ (|={Set.univ}=> bigSep Finset.univ (rests (F := F) 0) : sProp 𝕄) := by
  refine Pipeline.initEach noPairs noLevel fun c => ?_
  iintro ⟨⟨-, HO, -, Hp, -⟩, -⟩
  imodintro
  isplitl [Hp]; · iexists _; iexact Hp
  iexists ∅; iexact HO

theorem rests_end (c : Dev nD) : rests (F := F) 8 c ⊢ (iprop(∃ W, owes (c : Thread nD τ) (0 : CellTallies nD τ sig Unit) W) : sProp 𝕄) := by
  iintro ⟨-, HO⟩; iexact HO

set_option backward.isDefEq.respectTransparency.types false in
theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)) :=
  frame_cond m emb₁ () Variants.none noPairs noLevel (fun _ _ => rfl) ρ (outs m) (pdats m) 0 (fun _ => iprop(emp)) launchElt launchElt_yields rests (rests_init ρ) rests_end
    (reg0 m) (fun _ => .rfl) (fun c => held_of_eq (V2_eq m).symm c _)
    (reg1 m) (fun c => held_of_eq (V3_eq m) c _) (fun c => held_of_eq (V4_eq m).symm c _)
    (reg2 m) (fun c => held_of_eq (V5_eq m) c _) (fun c => held_of_eq (V6_eq m).symm c _)
    (reg3 m) (fun c => held_of_eq (V7_eq m) c _) (fun c => held_of_eq (V8_eq m).symm c _)
    (reg4 m) (fun c => held_of_eq (V9_eq m) c _) (fun c => held_of_eq (V10_eq m).symm c _)
    (reg5 m) (fun c => held_of_eq (V11_eq m) c _) (fun c => held_of_eq (V12_eq m).symm c _)
    (reg6 m) (fun c => held_of_eq (V13_eq m) c _) (fun c => held_of_eq (V14_eq m).symm c _)
    (reg7 m) (fun c => held_of_eq (V21_eq m) c _) (fun c => held_of_eq (V22_eq m).symm c _)

end Cert.KernelIdeal.Gen

end
-- ==== Proof.KI.RegsResult.lean ====
import proofs.«411300_j19516331393713_3_alg».proof.Proof.KI.Regs

set_option maxRecDepth 2156

noncomputable section

namespace Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

variable (m : (ℓ : Loc nD τ sig) → Buf (Elt F) ℓ)

theorem outs_v13 (c : Dev nD) : outs m 2 main_v13 c = (dat0 (atTc (V1 m)) c).arrAt 11 cfg0.N := by
  rw [outs_o0]; rfl
theorem outs_v55 (c : Dev nD) : outs m 4 main_v55 c = (dat1 (atTc (V3 m (outs m))) c).arrAt 7 cfg1.N := by
  rw [outs_o1, V3_eq]; rfl
theorem outs_v73 (c : Dev nD) : outs m 6 main_v73 c = (dat2 (atTc (V5 m (outs m))) c).arrAt 8 cfg2.N := by
  rw [outs_o2, V5_eq]; rfl
theorem outs_v101 (c : Dev nD) : outs m 8 main_v101 c = (dat3 (atTc (V7 m (outs m))) c).arrAt 7 cfg3.N := by
  rw [outs_o3, V7_eq]; rfl
theorem outs_v119 (c : Dev nD) : outs m 10 main_v119 c = (dat4 (atTc (V9 m (outs m))) c).arrAt 8 cfg4.N := by
  rw [outs_o4, V9_eq]; rfl
theorem outs_v147 (c : Dev nD) : outs m 12 main_v147 c = (dat5 (atTc (V11 m (outs m))) c).arrAt 7 cfg5.N := by
  rw [outs_o5, V11_eq]; rfl
theorem outs_v165 (c : Dev nD) : outs m 14 main_v165 c = (dat6 (atTc (V13 m (outs m))) c).arrAt 8 cfg6.N := by
  rw [outs_o6, V13_eq]; rfl
theorem outs_v242 (c : Dev nD) : outs m 22 main_v242 c = (dat7 (atTc (V21 m (outs m))) c).arrAt 9 cfg7.N := by
  rw [outs_o7, V21_eq]; rfl

set_option backward.isDefEq.respectTransparency.types false in
theorem run_result (ρ : Dev nD → PrngReg) : θ_run defs (onTc (τ := τ) (main (F := F))) ⟨m, fun _ => 0, ρ⟩ (fun r => ∀ c : Dev nD,
      r.2.mem ((c.tc : Thread nD τ).loc main_v243) = V23 m (outs m) c main_v243
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)) := by
  refine Pipeline.θ_run_regions_kit_dev (pcfgs (F := F)) adm (pdats m) () cellOf_inj emb₁ defs₀ Variants.none noPairs noLevel m ρ main
    (segs m (outs m) Variants.none noPairs noLevel rests () (pdats m) (reg0 m) (reg1 m) (reg2 m) (reg3 m) (reg4 m) (reg5 m) (reg6 m) (reg7 m))
    (fun c Q => by
      rewrite [main_chain c, Seg.run_eq_chain,
        show (segs m (outs m) Variants.none noPairs noLevel rests () (pdats m) (reg0 m) (reg1 m) (reg2 m) (reg3 m) (reg4 m) (reg5 m) (reg6 m) (reg7 m) c).map Seg.prog = [
          StableHlo.seq hostOps0,
          Prog.lift (.customCall (Pipeline.entry 0) ()),
          StableHlo.seq hostOps1,
          Prog.lift (.customCall (Pipeline.entry 1) ()),
          StableHlo.seq hostOps2,
          Prog.lift (.customCall (Pipeline.entry 2) ()),
          StableHlo.seq hostOps3,
          Prog.lift (.customCall (Pipeline.entry 3) ()),
          StableHlo.seq hostOps4,
          Prog.lift (.customCall (Pipeline.entry 4) ()),
          StableHlo.seq hostOps5,
          Prog.lift (.customCall (Pipeline.entry 5) ()),
          StableHlo.seq hostOps6,
          Prog.lift (.customCall (Pipeline.entry 6) ()),
          StableHlo.seq hostOps7,
          StableHlo.seq hostOps7_1,
          StableHlo.seq hostOps7_2,
          StableHlo.seq hostOps7_3,
          StableHlo.seq hostOps7_4,
          StableHlo.seq hostOps7_5,
          StableHlo.seq hostOps7_6,
          Prog.lift (.customCall (Pipeline.entry 7) ()),
          StableHlo.seq hostOps8 ] from rfl]
      exact .rfl)
    (fun c => by simp only [segs, Seg.pipes_host, Seg.pipes_region, Seg.pipes_nil]; decide) 0 (fun _ _ => rfl) (fun _ => iprop(emp)) launchElt launchElt_yields
    (T₀ := fun c => iprop(StableHlo.held (c : Thread nD τ) (Pipeline.ucRefs τ sig) (V0 m c) ∗ rests (F := F) 0 c))
    (Tₙ := fun c => StableHlo.held (c : Thread nD τ) (Pipeline.ucRefs τ sig) (V23 m (outs m) c))
    (hch := fun c => ⟨.rfl, .rfl, held_of_eq (V2_eq m).symm c _,
      held_of_eq (V3_eq m) c _, held_of_eq (V4_eq m).symm c _,
      held_of_eq (V5_eq m) c _, held_of_eq (V6_eq m).symm c _,
      held_of_eq (V7_eq m) c _, held_of_eq (V8_eq m).symm c _,
      held_of_eq (V9_eq m) c _, held_of_eq (V10_eq m).symm c _,
      held_of_eq (V11_eq m) c _, held_of_eq (V12_eq m).symm c _,
      held_of_eq (V13_eq m) c _, held_of_eq (V14_eq m).symm c _,
      .rfl, .rfl, .rfl, .rfl, .rfl, .rfl, held_of_eq (V21_eq m) c _, held_of_eq (V22_eq m).symm c _, sep_mono .rfl (rests_end c)⟩)
    (hinit := ?_) (QY := _) (hfin := fun c s' => ?_) (hQ := fun _ h => h)
  · refine Pipeline.initEach noPairs noLevel fun c => ?_
    iintro ⟨⟨Hb, -, HO, -, Hp, -⟩, -⟩
    imodintro
    isplitl [Hb]
    · iapply (Entails.of_eq (Pipeline.unscopedBufs_held (Ix := Unit) (Name := ℕ) (U := UR sig nD τ) (Lvl := ℕ) c (V0 m c))); iexact Hb
    isplitl [Hp]; · iexists _; iexact Hp
    iexists ∅; iexact HO
  · unfold StableHlo.held
    iintro ⟨Hh, HSI⟩
    ihave Hr := (pointsTo_read_all (Pipeline.ucRefs τ sig) (fun b => ((c : Thread nD τ).1, b)) (V23 m (outs m) c) s') $$ [Hh HSI]
    · isplitl [Hh] <;> iassumption
    icases Hr with ⟨%h, HSI⟩
    imodintro
    isplitr
    · ipureintro
      have key := fun (b : Ref sig .tc) hb => h (Proc.devRef .tc b) (Finset.mem_filter.mpr ⟨StableHlo.devRef_mem_tcRefs b, hb⟩)
      exact ⟨key main_v243 (by decide),
        (key main_arg0 (by decide)).trans (V23_main_arg0 m _ c),
        (key main_arg1 (by decide)).trans (V23_main_arg1 m _ c),
        (key main_arg2 (by decide)).trans (V23_main_arg2 m _ c),
        (key main_arg3 (by decide)).trans (V23_main_arg3 m _ c),
        (key main_arg4 (by decide)).trans (V23_main_arg4 m _ c),
        (key main_arg5 (by decide)).trans (V23_main_arg5 m _ c),
        (key main_arg6 (by decide)).trans (V23_main_arg6 m _ c),
        (key main_arg7 (by decide)).trans (V23_main_arg7 m _ c),
        (key main_arg8 (by decide)).trans (V23_main_arg8 m _ c),
        (key main_arg9 (by decide)).trans (V23_main_arg9 m _ c),
        (key main_arg10 (by decide)).trans (V23_main_arg10 m _ c),
        (key main_arg11 (by decide)).trans (V23_main_arg11 m _ c),
        (key main_arg12 (by decide)).trans (V23_main_arg12 m _ c),
        (key main_arg13 (by decide)).trans (V23_main_arg13 m _ c),
        (key main_arg14 (by decide)).trans (V23_main_arg14 m _ c),
        (key main_arg15 (by decide)).trans (V23_main_arg15 m _ c),
        (key main_arg16 (by decide)).trans (V23_main_arg16 m _ c),
        (key main_arg17 (by decide)).trans (V23_main_arg17 m _ c),
        (key main_arg18 (by decide)).trans (V23_main_arg18 m _ c),
        (key main_arg19 (by decide)).trans (V23_main_arg19 m _ c),
        (key main_arg20 (by decide)).trans (V23_main_arg20 m _ c),
        (key main_arg21 (by decide)).trans (V23_main_arg21 m _ c),
        (key main_arg22 (by decide)).trans (V23_main_arg22 m _ c),
        (key main_arg23 (by decide)).trans (V23_main_arg23 m _ c)⟩
    · iexact HSI

end Cert.KernelIdeal.Gen

end
-- ==== Proof.Spec.lean ====
import Idealize.ShloMosaic.PureOps.Ideal
import Idealize.ShloMosaic.Lib.ValueIdx

noncomputable section

open scoped BigOperators

namespace Cert.Spec

open Idealize.ShloMosaic Idealize.ShloMosaic.ValueIdx

abbrev Mat (r c : Nat) : Type := (⟨2, ![r, c]⟩ : Shape).Idx → EReal

def rowOf {r c : Nat} (x : Mat r c) (i : Fin r) : Fin c → EReal := fun k => x (ix2 i k)

def relu (x : EReal) : EReal := max x 0

def dot {K H : Nat} (v : Fin K → EReal) (w : Mat K H) (j : Fin H) : EReal := ∑ k : Fin K, v k * w (ix2 k j)

def denseRelu {K H : Nat} (w : Mat K H) (b : Mat 1 H) (v : Fin K → EReal) : Fin H → EReal :=
  fun j => relu (dot v w j + b (ix2 0 j))

def hidden2 {Ka Kb Hm : Nat} (w1a : Mat Ka Hm) (w1b : Mat Kb Hm) (b1 : Mat 1 Hm)
    (a : Fin Ka → EReal) (b : Fin Kb → EReal) : Fin Hm → EReal :=
  fun d => relu ((dot a w1a d + dot b w1b d) + b1 (ix2 0 d))

def hidden3 {Ka Kb Kc Hm : Nat} (w1a : Mat Ka Hm) (w1b : Mat Kb Hm) (w1c : Mat Kc Hm) (b1 : Mat 1 Hm)
    (a : Fin Ka → EReal) (b : Fin Kb → EReal) (c : Fin Kc → EReal) : Fin Hm → EReal :=
  fun d => relu (((dot a w1a d + dot b w1b d) + dot c w1c d) + b1 (ix2 0 d))

def outLayer {Hm Ho : Nat} (w2 : Mat Hm Ho) (b2 : Mat 1 Ho) (h : Fin Hm → EReal) : Fin Ho → EReal :=
  fun j => dot h w2 j + b2 (ix2 0 j)

def mlp2 {Ka Kb Hm Ho : Nat} (w1a : Mat Ka Hm) (w1b : Mat Kb Hm) (b1 : Mat 1 Hm) (w2 : Mat Hm Ho) (b2 : Mat 1 Ho)
    (a : Fin Ka → EReal) (b : Fin Kb → EReal) : Fin Ho → EReal :=
  outLayer w2 b2 (hidden2 w1a w1b b1 a b)

def mlp3 {Ka Kb Kc Hm Ho : Nat} (w1a : Mat Ka Hm) (w1b : Mat Kb Hm) (w1c : Mat Kc Hm) (b1 : Mat 1 Hm)
    (w2 : Mat Hm Ho) (b2 : Mat 1 Ho) (a : Fin Ka → EReal) (b : Fin Kb → EReal) (c : Fin Kc → EReal) : Fin Ho → EReal :=
  outLayer w2 b2 (hidden3 w1a w1b w1c b1 a b c)

def encode {Kx Kg H1 H2 Hf : Nat} (cw1 : Mat Kx H1) (cb1 : Mat 1 H1) (cw2 : Mat H1 H2) (cb2 : Mat 1 H2)
    (fw1a : Mat H2 Hf) (fw1b : Mat Kg Hf) (fb1 : Mat 1 Hf) (fw2 : Mat Hf Hf) (fb2 : Mat 1 Hf)
    (x : Fin Kx → EReal) (g : Fin Kg → EReal) : Fin Hf → EReal :=
  fun j => relu (mlp2 fw1a fw1b fb1 fw2 fb2 (denseRelu cw2 cb2 (denseRelu cw1 cb1 x)) g j)

def encodeMat {N Kx Kg H1 H2 Hf : Nat} (cw1 : Mat Kx H1) (cb1 : Mat 1 H1) (cw2 : Mat H1 H2) (cb2 : Mat 1 H2)
    (fw1a : Mat H2 Hf) (fw1b : Mat Kg Hf) (fb1 : Mat 1 Hf) (fw2 : Mat Hf Hf) (fb2 : Mat 1 Hf)
    (x : Mat N Kx) (g : Mat N Kg) : Mat N Hf :=
  fun i => encode cw1 cb1 cw2 cb2 fw1a fw1b fb1 fw2 fb2 (rowOf x (i 0)) (rowOf g (i 0)) (i 1)

def mlp2Mat {M Ka Kb Hm Ho : Nat} (w1a : Mat Ka Hm) (w1b : Mat Kb Hm) (b1 : Mat 1 Hm) (w2 : Mat Hm Ho) (b2 : Mat 1 Ho)
    (a : Mat M Ka) (b : Mat M Kb) : Mat M Ho :=
  fun i => mlp2 w1a w1b b1 w2 b2 (rowOf a (i 0)) (rowOf b (i 0)) (i 1)

def updMat {M Ka Kb Hm Ho : Nat} (w1a : Mat Ka Hm) (w1b : Mat Kb Hm) (b1 : Mat 1 Hm) (w2 : Mat Hm Ho) (b2 : Mat 1 Ho)
    (a : Mat M Ka) (b : Mat M Kb) (res : Mat M Ho) : Mat M Ho :=
  fun i => res i + mlp2 w1a w1b b1 w2 b2 (rowOf a (i 0)) (rowOf b (i 0)) (i 1)

def mlp3Mat {M Ka Kb Kc Hm Ho : Nat} (w1a : Mat Ka Hm) (w1b : Mat Kb Hm) (w1c : Mat Kc Hm) (b1 : Mat 1 Hm)
    (w2 : Mat Hm Ho) (b2 : Mat 1 Ho) (a : Mat M Ka) (b : Mat M Kb) (c : Mat M Kc) : Mat M Ho :=
  fun i => mlp3 w1a w1b w1c b1 w2 b2 (rowOf a (i 0)) (rowOf b (i 0)) (rowOf c (i 0)) (i 1)

end Cert.Spec

end
-- ==== Proof.LibBlockRead.lean ====
import Idealize.ShloMosaic.Lib.Pipeline.Value
import Idealize.ShloMosaic.Lib.ValueIdx
import Idealize.ShloMosaic.Lib.StackMember

open scoped BigOperators

namespace Idealize.ShloMosaic.BlockRead

open Idealize.ShloMosaic Idealize.ShloMosaic.ValueIdx
open Idealize.ShloMosaic.Pipeline (Window Grid)

/-- A plain product into a zero accumulator, read at `(p, d)`: row `p` of the left factor against column `d` of the right. -/
theorem prod_apply (φ₁ φ₂ : FTy) {m k n : Nat} (x : FVec Ideal ⟨2, ![m, k]⟩ φ₁) (w : FVec Ideal ⟨2, ![k, n]⟩ φ₂) (p : Fin m) (d : Fin n) :
    matmul (DotDims.plain m k n) none x w (constant (F := Ideal) ⟨2, ![m, n]⟩ .f32 0x00000000#32) (ix2 p d)
      = ∑ j : Fin k, x (ix2 p j) * w (ix2 j d) :=
  (congrFun (matmul_zero_eq_dotGeneral _ none x w) _).trans (StackMember.dotGeneral_plain_apply none x w p d)

/-- The offsets `![0, 0]` read as the zero offsets. -/
theorem zero_offsets : (![0, 0] : Fin 2 → Nat) = fun _ => 0 := funext fun a => by fin_cases a <;> rfl

/-- A load of a whole `[n, m]` matrix from offsets `![0, 0]` reads the matrix. -/
theorem ld_whole {Val : EltTy → Type} {e : EltTy} {n m : Nat} (inb : ∀ a, ![0, 0] a + (⟨2, ![n, m]⟩ : Shape).size a ≤ (⟨2, ![n, m]⟩ : Shape).size a)
    (X : (⟨2, ![n, m]⟩ : Shape).Idx → Val e) : View.ld X (Rect.unit ![0, 0] _ inb) = X :=
  View.ld_unit_zero zero_offsets inb X

/-- An array read where entry `y` of a window's block at point `t` sits: on each axis the block's index times its extent plus `y`'s coordinate. -/
theorem read_emb {sig : RefSig} {G : Grid} (w : Window sig G) (t : Fin G.N) {α : Type} (X : w.shape.Idx → α)
    (y : (w.xblock (G.coords t)).Idx) (z : w.shape.Idx) (h : ∀ a, w.index t a * w.size a + (y a).val = (z a).val) :
    X ((w.rect t).emb y) = X z :=
  congrArg X (funext fun a => Fin.ext ((w.rect_emb_val t y a).trans (h a)))

/-- The same read through a window whose block index at `t` is zero on every axis: the array at `y`'s own coordinates. -/
theorem read_whole {sig : RefSig} {G : Grid} (w : Window sig G) (t : Fin G.N) (h0 : ∀ a, w.index t a = 0) {α : Type} (X : w.shape.Idx → α)
    (y : (w.xblock (G.coords t)).Idx) (z : w.shape.Idx) (h : ∀ a, (y a).val = (z a).val) : X ((w.rect t).emb y) = X z :=
  read_emb w t X y z fun a => by rw [h0 a, h a]; omega

/-- Block index `(t, 0)` and blocks of `R` rows: entry `(p, k)` of the block is entry `(R·t + p, k)` of the array (the hypothesis `read_emb` asks). -/
theorem at_rows (i s : Fin 2 → Nat) {t R : Nat} (h0 : i 0 = t) (h1 : i 1 = 0) (hs : s 0 = R) {n C N : Nat} (p : Fin n) (k : Fin C)
    (z : Fin N) (hz : z.val = t * R + p.val) (a : Fin 2) : i a * s a + (ix2 p k a).val = (ix2 z k a).val := by
  match a with
  | ⟨0, _⟩ => show i 0 * s 0 + p.val = z.val; rw [h0, hs, hz]
  | ⟨1, _⟩ => show i 1 * s 1 + k.val = k.val; rw [h1]; omega

end Idealize.ShloMosaic.BlockRead
-- ==== Proof.KI.Val0.lean ====
import proofs.«411300_j19516331393713_3_alg».proof.Proof.KI.Body0
import proofs.«411300_j19516331393713_3_alg».proof.Proof.Spec
import proofs.«411300_j19516331393713_3_alg».proof.Proof.LibBlockRead
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.Val.R0

open Cert.KernelIdeal Cert.KernelIdeal.Gen Cert.Spec
open Idealize.ShloMosaic Idealize.ShloMosaic.TcCoe Idealize.ShloMosaic.ValueIdx Idealize.ShloMosaic.BlockRead Idealize.SL.Sem
open Idealize.ShloMosaic.Pipeline (Dat Cfg Window Grid)

theorem zero_f32 : Scalar.ofBits (F := Ideal) .f32 0x00000000#32 = (0 : EReal) := Ideal.ofBits_zero_f32

theorem dot_plain : dot_S2000x512_S512x512_S2000x512_1_0_0_1_n_n = DotDims.plain 2000 512 512
    ∧ dot_S2000x512_S512x256_S2000x256_1_0_0_1_n_n = DotDims.plain 2000 512 256
    ∧ dot_S2000x256_S256x256_S2000x256_1_0_0_1_n_n = DotDims.plain 2000 256 256
    ∧ dot_S2000x18_S18x256_S2000x256_1_0_0_1_n_n = DotDims.plain 2000 18 256 := ⟨rfl, rfl, rfl, rfl⟩

theorem body_apply (x : Vec Ideal S2000x512 .bf16) (g : Vec Ideal S2000x18 .bf16) (cw1 : Vec Ideal S512x512 .bf16)
    (cb1 : Vec Ideal S1x512 .f32) (cw2 : Vec Ideal S512x256 .bf16) (cb2 : Vec Ideal S1x256 .f32)
    (fw1a : Vec Ideal S256x256 .bf16) (fw1b : Vec Ideal S18x256 .bf16) (fb1 : Vec Ideal S1x256 .f32)
    (fw2 : Vec Ideal S256x256 .bf16) (fb2 : Vec Ideal S1x256 .f32) (p : Fin 2000) (q : Fin 256) :
    k0_pay1 (F := Ideal) (k0_pay2 (F := Ideal) x cw1 cb1 cw2 cb2 g fw1a fw1b fb1) fw2 fb2 (ix2 p q)
      = encode (Kx := 512) (Kg := 18) (H1 := 512) (H2 := 256) (Hf := 256) cw1 cb1 cw2 cb2 fw1a fw1b fb1 fw2 fb2
          (rowOf (r := 2000) (c := 512) x p) (rowOf (r := 2000) (c := 18) g p) q := by
  simp only [k0_pay1, k0_pay2, dot_plain.1, dot_plain.2.1, dot_plain.2.2.1, dot_plain.2.2.2, addf_apply, maximumf_apply,
    truncf_apply, broadcast_apply, shapeCast_self, prod_apply, broadcastTo_1b_ab_apply, zero_f32]
  rfl

section Region0

variable (V : (c : Dev nD) → (b : Ref sig .tc) → Buf (Elt Ideal) ((c : Thread nD τ).loc b))

abbrev encArr (c : Dev nD) : Mat 20000 256 :=
  encodeMat (V c main_v2) (V c main_v9) (V c main_v3) (V c main_v10) (V c main_v5) (V c main_v7) (V c main_v11) (V c main_v8)
    (V c main_v12) (V c main_v0) (V c main_v1)

theorem row_index : ∀ t : Fin cfg0.N, win0_11.index t (0 : Fin 2) = t.val ∧ win0_0.index t (0 : Fin 2) = t.val
    ∧ win0_1.index t (0 : Fin 2) = t.val :=
  (by decide +kernel : ∀ t : Fin grid0.N, _)

def rowAt (t : Fin cfg0.N) (p : Fin 2000) : Fin 20000 :=
  ⟨t.val * 2000 + p.val, by have h : t.val < 10 := Nat.lt_of_lt_of_eq t.isLt N_0; have hp := p.isLt; omega⟩

theorem blk_whole (c : Dev nD) (t : Fin cfg0.N) :
    (iblk0 V c 2 t : Mat 512 512) = V c main_v2 ∧ (iblk0 V c 3 t : Mat 1 512) = V c main_v9
    ∧ (iblk0 V c 4 t : Mat 512 256) = V c main_v3 ∧ (iblk0 V c 5 t : Mat 1 256) = V c main_v10
    ∧ (iblk0 V c 6 t : Mat 256 256) = V c main_v5 ∧ (iblk0 V c 7 t : Mat 18 256) = V c main_v7
    ∧ (iblk0 V c 8 t : Mat 1 256) = V c main_v11 ∧ (iblk0 V c 9 t : Mat 256 256) = V c main_v8
    ∧ (iblk0 V c 10 t : Mat 1 256) = V c main_v12 :=
  ⟨funext fun y => read_whole win0_2 t (congrFun zero_offsets) (V c main_v2) y y fun _ => rfl,
   funext fun y => read_whole win0_3 t (congrFun zero_offsets) (V c main_v9) y y fun _ => rfl,
   funext fun y => read_whole win0_4 t (congrFun zero_offsets) (V c main_v3) y y fun _ => rfl,
   funext fun y => read_whole win0_5 t (congrFun zero_offsets) (V c main_v10) y y fun _ => rfl,
   funext fun y => read_whole win0_6 t (congrFun zero_offsets) (V c main_v5) y y fun _ => rfl,
   funext fun y => read_whole win0_7 t (congrFun zero_offsets) (V c main_v7) y y fun _ => rfl,
   funext fun y => read_whole win0_8 t (congrFun zero_offsets) (V c main_v11) y y fun _ => rfl,
   funext fun y => read_whole win0_9 t (congrFun zero_offsets) (V c main_v8) y y fun _ => rfl,
   funext fun y => read_whole win0_10 t (congrFun zero_offsets) (V c main_v12) y y fun _ => rfl⟩

theorem blk_rows (c : Dev nD) (t : Fin cfg0.N) (p : Fin 2000) :
    rowOf (iblk0 V c 0 t : Mat 2000 512) p = rowOf (V c main_v0 : Mat 20000 512) (rowAt t p)
    ∧ rowOf (iblk0 V c 1 t : Mat 2000 18) p = rowOf (V c main_v1 : Mat 20000 18) (rowAt t p) :=
  ⟨funext fun k => read_emb win0_0 t (V c main_v0) (ix2 p k) (ix2 (rowAt t p) k) (at_rows (win0_0.index t) win0_0.size (row_index t).2.1 rfl rfl p k _ rfl),
   funext fun k => read_emb win0_1 t (V c main_v1) (ix2 p k) (ix2 (rowAt t p) k) (at_rows (win0_1.index t) win0_1.size (row_index t).2.2 rfl rfl p k _ rfl)⟩

theorem flushed_eq (c : Dev nD) (t : Fin cfg0.N) :
    (dat0 (F := Ideal) V c).flushed 11 t = ((cfg0.win 11).blk t).view.read (Elt Ideal) (encArr V c) := by
  show (cfg0.win 11).cut (grid0.coords t) ((dat0 (F := Ideal) V c).after 11 t) = _
  rw [after0_11]
  unfold out0_11
  rw [View.canon_unit_zero zero_offsets]
  simp only [ld_whole]
  funext j
  obtain ⟨p, q, rfl⟩ : ∃ (p : Fin 2000) (q : Fin 256), j = ix2 p q := ⟨j 0, j 1, eq_ix2 j⟩
  obtain ⟨h2, h3, h4, h5, h6, h7, h8, h9, h10⟩ := blk_whole V c t
  obtain ⟨r0, r1⟩ := blk_rows V c t p
  refine (body_apply (iblk0 V c 0 t) (iblk0 V c 1 t) (iblk0 V c 2 t) (iblk0 V c 3 t) (iblk0 V c 4 t) (iblk0 V c 5 t) (iblk0 V c 6 t)
    (iblk0 V c 7 t) (iblk0 V c 8 t) (iblk0 V c 9 t) (iblk0 V c 10 t) p q).trans ?_
  rw [h2, h3, h4, h5, h6, h7, h8, h9, h10, r0, r1]
  exact (read_emb win0_11 t (encArr V c) (ix2 p q) (ix2 (rowAt t p) q) (at_rows (win0_11.index t) win0_11.size (row_index t).1 rfl rfl p q _ rfl)).symm

/-- The blocks tile the array: row `r` is in the block of point `r / 2000`. -/
theorem covered (i : S20000x256.Idx) :
    ∃ t : Fin cfg0.N, (cfg0.win 11).flush t = true ∧ i ∈ ((cfg0.win 11).blk t).view.set := by
  have hi0 : (i 0).val < 20000 := (i 0).isLt
  have hi1 : (i 1).val < 256 := (i 1).isLt
  have hlt : (i 0).val / 2000 < cfg0.N := by rw [show cfg0.N = 10 from N_0]; omega
  refine ⟨⟨(i 0).val / 2000, hlt⟩, flush0_11 _, ?_⟩
  show i ∈ ((View.whole main_v13).slice (win0_11.rect ⟨(i 0).val / 2000, hlt⟩)).set
  rw [View.set_slice_whole, Rect.mem_set_unit]
  intro a
  match a with
  | ⟨0, _⟩ =>
    show win0_11.index ⟨(i 0).val / 2000, hlt⟩ (0 : Fin 2) * 2000 ≤ (i 0).val
      ∧ (i 0).val < win0_11.index ⟨(i 0).val / 2000, hlt⟩ (0 : Fin 2) * 2000 + 2000
    rw [(row_index ⟨(i 0).val / 2000, hlt⟩).1]
    show (i 0).val / 2000 * 2000 ≤ (i 0).val ∧ (i 0).val < (i 0).val / 2000 * 2000 + 2000
    omega
  | ⟨1, _⟩ => show 0 * 256 ≤ (i 1).val ∧ (i 1).val < 0 * 256 + 256; omega

end Region0

end Cert.KernelIdeal.Val.R0

namespace Cert.KernelIdeal.Val

open Cert.KernelIdeal Cert.KernelIdeal.Gen Cert.Spec
open Idealize.ShloMosaic Idealize.ShloMosaic.TcCoe Idealize.SL.Sem

theorem region0_value (V : (c : Dev nD) → (b : Ref sig .tc) → Buf (Elt Ideal) ((c : Thread nD τ).loc b)) (c : Dev nD) :
    (dat0 (F := Ideal) V c).arrAt 11 cfg0.N
      = Cert.Spec.encodeMat (V c main_v2) (V c main_v9) (V c main_v3) (V c main_v10) (V c main_v5) (V c main_v7)
          (V c main_v11) (V c main_v8) (V c main_v12) (V c main_v0) (V c main_v1) :=
  (dat0 (F := Ideal) V c).arrAt_eq_of_cover 11 (R0.encArr V c) (fun t _ => R0.flushed_eq V c t) R0.covered

end Cert.KernelIdeal.Val

end
-- ==== Proof.KI.Val1.lean ====
import proofs.«411300_j19516331393713_3_alg».proof.Proof.KI.Body1
import proofs.«411300_j19516331393713_3_alg».proof.Proof.Spec
import Idealize.ShloMosaic.Lib.ValueLayout
import Idealize.ShloMosaic.Lib.StackMember

noncomputable section

namespace Cert.KernelIdeal.Val

open Cert.KernelIdeal Cert.KernelIdeal.Gen Cert.Spec
open Idealize.ShloMosaic Idealize.ShloMosaic.TcCoe Idealize.SL.Sem Idealize.ShloMosaic.ValueIdx

namespace R1

-- Each of the three products, accumulated from zero, is the sum over the contracted coordinate.
theorem pay_apply (a b : Vec Ideal S3200x256 .bf16) (w1a w1b w2 : Vec Ideal S256x256 .bf16) (b1 b2 : Vec Ideal S1x256 .f32)
    (p : Fin 3200) (q : Fin 256) : k1_pay1 a w1a b w1b b1 w2 b2 (ix2 p q) = mlp2 w1a w1b b1 w2 b2 (rowOf a p) (rowOf b p) q := by
  simp only [k1_pay1, show dot_S3200x256_S256x256_S3200x256_1_0_0_1_n_n = DotDims.plain 3200 256 256 from rfl, matmul_zero_eq_dotGeneral, StackMember.dotGeneral_plain_apply,
    truncf_apply, addf_apply, maximumf_apply, broadcast_apply, broadcastTo_1b_ab_apply, shapeCast_self, mlp2, outLayer, hidden2, relu, dot, rowOf]
  rw [show (FloatOps.ofBits FTy.f32 0#32 : Ideal .f32) = (0 : EReal) from Ideal.ofBits_zero_f32]

-- The offsets of the eight blocks at a point, by evaluation.
theorem offs : ∀ t : Fin grid1.N,
    (win1_0.rect t).off = ![3200 * t.val, 0] ∧ (win1_1.rect t).off = ![3200 * t.val, 0]
    ∧ (win1_2.rect t).off = (fun _ => 0) ∧ (win1_3.rect t).off = (fun _ => 0) ∧ (win1_4.rect t).off = (fun _ => 0)
    ∧ (win1_5.rect t).off = (fun _ => 0) ∧ (win1_6.rect t).off = (fun _ => 0) ∧ (win1_7.rect t).off = ![3200 * t.val, 0] := by
  decide +kernel

-- A rectangle of whole rows from row o on: where its entries sit, and which indices it holds.
theorem unit_emb {d sz off : Fin 2 → ℕ} {inb} {o : ℕ} (h : off = ![o, 0]) (y : (⟨2, sz⟩ : Shape).Idx) (i : (⟨2, d⟩ : Shape).Idx)
    (h0 : (i 0).val = o + (y 0).val) (h1 : (i 1).val = (y 1).val) : (Rect.unit (s := ⟨2, d⟩) off sz inb).emb y = i := by
  subst h
  exact Shape.idx_ext₂ (by show o + 1 * (y 0).val = (i 0).val; omega) (by show 0 + 1 * (y 1).val = (i 1).val; omega)

theorem mem_unit {d sz off : Fin 2 → ℕ} {inb} {o : ℕ} (h : off = ![o, 0]) (i : (⟨2, d⟩ : Shape).Idx)
    (h0 : o ≤ (i 0).val ∧ (i 0).val < o + sz 0) (h1 : (i 1).val < sz 1) : i ∈ (Rect.unit (s := ⟨2, d⟩) off sz inb).set := by
  subst h
  exact Rect.mem_set_unit.mpr (Fin.forall_fin_two.mpr ⟨h0, Nat.zero_le _, by show (i 1).val < 0 + sz 1; omega⟩)

-- Row r lies in the block of point r / 3200.
theorem out_cover (i : S320000x256.Idx) : ∃ t : Fin cfg1.N, (cfg1.win 7).flush t = true ∧ i ∈ ((cfg1.win 7).blk t).view.set := by
  have ht : (i 0).val / 3200 < cfg1.N := lt_of_lt_of_eq (Nat.div_lt_of_lt_mul (idx2_lt0 i)) N_1.symm
  refine ⟨⟨_, ht⟩, flush1_7 _, ?_⟩
  show i ∈ ((View.whole main_v55).slice (win1_7.rect ⟨_, ht⟩)).set
  rw [View.set_slice_whole]
  exact mem_unit (offs ⟨_, ht⟩).2.2.2.2.2.2.2 i ⟨Nat.mul_div_le _ _, Nat.lt_mul_div_succ _ (by decide)⟩ (idx2_lt1 i)

theorem hz : (![0, 0] : Fin 2 → ℕ) = fun _ => 0 := by decide

variable (V : (c : Dev nD) → (b : Ref sig .tc) → Buf (Elt Ideal) ((c : Thread nD τ).loc b)) (c : Dev nD)

abbrev msgs :=
  mlp2Mat (V c main_v44) (V c main_v46) (V c main_v53) (V c main_v50) (V c main_v54) (V c main_v35) (V c main_v42)

theorem flushed_eq (t : Fin cfg1.N) : (dat1 V c).flushed 7 t = ((cfg1.win 7).blk t).view.read (Elt Ideal) (msgs V c) := by
  obtain ⟨o0, o1, o2, o3, o4, o5, o6, o7⟩ := offs t
  rw [Pipeline.Dat.flushed, after1_7, out1_7, View.canon_unit_zero hz]
  simp only [View.ld_unit_zero (S := ⟨2, ![_, _]⟩) hz]
  funext j
  obtain ⟨p, q, rfl⟩ : ∃ (p : Fin 3200) (q : Fin 256), j = ix2 p q := ⟨j 0, j 1, eq_ix2 j⟩
  have hr : 3200 * t.val + p.val < 320000 := by have := p.isLt; have := lt_of_lt_of_eq t.isLt N_1; omega
  refine (pay_apply _ _ _ _ _ _ _ p q).trans ?_
  show _ = msgs V c ((win1_7.rect t).emb (ix2 p q))
  rw [show (win1_7.rect t).emb (ix2 p q) = ix2 ⟨_, hr⟩ q from unit_emb o7 _ _ rfl rfl]
  show mlp2 _ _ _ _ _ _ _ q = mlp2 _ _ _ _ _ _ _ q
  congr 1 <;> first
    | exact View.ld_unit_zero (by assumption) _ _
    | exact funext fun k => congrArg (V c _) (unit_emb (by assumption) (ix2 p k) (ix2 ⟨_, hr⟩ k) rfl rfl)

end R1

theorem region1_value (V : (c : Dev nD) → (b : Ref sig .tc) → Buf (Elt Ideal) ((c : Thread nD τ).loc b)) (c : Dev nD) :
    (dat1 (F := Ideal) V c).arrAt 7 cfg1.N
      = Cert.Spec.mlp2Mat (V c main_v44) (V c main_v46) (V c main_v53) (V c main_v50) (V c main_v54) (V c main_v35) (V c main_v42) :=
  (dat1 (F := Ideal) V c).arrAt_eq_of_cover 7 (R1.msgs V c) (fun t _ => R1.flushed_eq V c t) R1.out_cover

end Cert.KernelIdeal.Val

end
-- ==== Proof.KI.Val2.lean ====
import proofs.«411300_j19516331393713_3_alg».proof.Proof.KI.Body2
import proofs.«411300_j19516331393713_3_alg».proof.Proof.Spec
import Idealize.ShloMosaic.Lib.Pipeline.Value
import Idealize.ShloMosaic.Lib.ValueIdx
import Idealize.ShloMosaic.Lib.ValueLayout
import Idealize.ShloMosaic.PureOps.Ideal.Laws
import proofs.«411300_j19516331393713_3_alg».proof.Proof.LibBlockRead

noncomputable section

open scoped BigOperators

namespace Cert.KernelIdeal.Val

open Cert.KernelIdeal Cert.KernelIdeal.Gen Cert.Spec
open Idealize.ShloMosaic Idealize.ShloMosaic.TcCoe Idealize.ShloMosaic.ValueIdx Idealize.SL.Sem
open Idealize.ShloMosaic.Pipeline (Dat)
open Idealize.ShloMosaic.BlockRead

namespace R2

theorem rowsDot_apply {φ₁ φ₂ : FTy} (x : FVec Ideal S2000x256 φ₁) (w : FVec Ideal S256x256 φ₂) (p : Fin 2000) (q : Fin 256) :
    matmul dot_S2000x256_S256x256_S2000x256_1_0_0_1_n_n none x w (constant (F := Ideal) S2000x256 .f32 0x00000000#32) (ix2 p q) = Cert.Spec.dot (@rowOf 2000 256 x p) w q :=
  prod_apply φ₁ φ₂ x w p q

-- Each of the three products is a row against a weight matrix; everything else is entrywise.
theorem k2_pay1_apply (a : Mat 2000 256) (w1a : Mat 256 256) (b : Mat 2000 256) (w1b : Mat 256 256) (b1 : Mat 1 256) (w2 : Mat 256 256)
    (b2 : Mat 1 256) (res : Mat 2000 256) (p : Fin 2000) (q : Fin 256) :
    k2_pay1 (F := Ideal) a w1a b w1b b1 w2 b2 res (ix2 p q) = res (ix2 p q) + mlp2 w1a w1b b1 w2 b2 (rowOf a p) (rowOf b p) q := by
  unfold k2_pay1
  simp only [shapeCast_self]
  rw [addf_apply, addf_apply, rowsDot_apply, broadcastTo_1b_ab_apply]
  refine congrArg (res (ix2 p q) + ·) ?_
  unfold mlp2 outLayer
  refine congrArg (· + b2 (ix2 (0 : Fin 1) q)) ?_
  refine congrArg (fun v => Cert.Spec.dot v w2 q) (funext fun d => ?_)
  show max (_ + _ + _) (Ideal.ofBits .f32 0x00000000#32) = _
  rw [rowsDot_apply, rowsDot_apply, broadcastTo_1b_ab_apply, Ideal.ofBits_zero_f32]
  rfl

theorem blockIdx2 : ∀ t : Fin cfg2.N,
      win2_8.index t (0 : Fin 2) ≤ 9 ∧ win2_8.index t (1 : Fin 2) = 0
    ∧ (∀ a : Fin 2, win2_0.index t a = win2_8.index t a) ∧ (∀ a : Fin 2, win2_1.index t a = win2_8.index t a)
    ∧ (∀ a : Fin 2, win2_7.index t a = win2_8.index t a)
    ∧ (∀ a : Fin 2, win2_2.index t a = 0) ∧ (∀ a : Fin 2, win2_3.index t a = 0) ∧ (∀ a : Fin 2, win2_4.index t a = 0)
    ∧ (∀ a : Fin 2, win2_5.index t a = 0) ∧ (∀ a : Fin 2, win2_6.index t a = 0) :=
  (by decide +kernel : ∀ t : Fin grid2.N, _)

theorem rowBlock_onto2 : ∀ r : Fin 10, ∃ t : Fin cfg2.N, win2_8.index t = ![r.val, 0] :=
  (by decide +kernel : ∀ r : Fin 10, ∃ t : Fin grid2.N, win2_8.index t = ![r.val, 0])

-- Row r lies in block r / 2000.
theorem covered2 (i : S20000x256.Idx) : ∃ t : Fin cfg2.N, (cfg2.win 8).flush t = true ∧ i ∈ ((cfg2.win 8).blk t).view.set := by
  have hi0 : (i 0).val < 20000 := (i 0).isLt
  have hi1 : (i 1).val < 256 := (i 1).isLt
  obtain ⟨t, ht⟩ := rowBlock_onto2 ⟨(i 0).val / 2000, by omega⟩
  have q0 : win2_8.index t (0 : Fin 2) = (i 0).val / 2000 := congrFun ht 0
  have q1 : win2_8.index t (1 : Fin 2) = 0 := congrFun ht 1
  refine ⟨t, flush2_8 t, ?_⟩
  show i ∈ ((View.whole main_v73).slice (win2_8.rect t)).set
  rw [View.set_slice_whole, Rect.mem_set_unit]
  intro a
  match a with
  | ⟨0, _⟩ => show win2_8.index t (0 : Fin 2) * 2000 ≤ (i 0).val ∧ (i 0).val < win2_8.index t (0 : Fin 2) * 2000 + 2000; omega
  | ⟨1, _⟩ => show win2_8.index t (1 : Fin 2) * 256 ≤ (i 1).val ∧ (i 1).val < win2_8.index t (1 : Fin 2) * 256 + 256; omega

def arrRow2 (t : Fin cfg2.N) (p : Fin 2000) : Fin 20000 :=
  ⟨win2_8.index t (0 : Fin 2) * 2000 + p.val, by have h := (blockIdx2 t).1; have hp := p.isLt; omega⟩

-- One statement for the four arrays read in blocks of rows: each block sits where the output's block does.
theorem rowBlock_emb2 (t : Fin cfg2.N) {e : S2000x256.Idx → S20000x256.Idx} {ι : Fin 2 → Nat}
    (he : ∀ y a, (e y a : Nat) = ι a * S2000x256.size a + y a) (hι : ∀ a, ι a = win2_8.index t a) (p : Fin 2000) (q : Fin 256) :
    e (ix2 p q) = ix2 (arrRow2 t p) q := by
  funext a; apply Fin.ext; rw [he, hι]
  match a with
  | ⟨0, _⟩ => rfl
  | ⟨1, _⟩ => show win2_8.index t (1 : Fin 2) * 256 + q.val = q.val; rw [(blockIdx2 t).2.1]; omega

section Region

variable (V : (c : Dev nD) → (b : Ref sig .tc) → Buf (Elt Ideal) ((c : Thread nD τ).loc b))

theorem flushed2_eq (c : Dev nD) (t : Fin cfg2.N) :
    (dat2 (F := Ideal) V c).flushed 8 t
      = ((cfg2.win 8).blk t).view.read (Elt Ideal)
          (Cert.Spec.updMat (V c main_v62 : Mat 256 256) (V c main_v64 : Mat 256 256) (V c main_v71 : Mat 1 256) (V c main_v68 : Mat 256 256)
            (V c main_v72 : Mat 1 256) (V c main_v28 : Mat 20000 256) (V c main_v60 : Mat 20000 256) (V c main_v13 : Mat 20000 256)) := by
  show (cfg2.win 8).cut _ ((dat2 V c).after 8 t) = _
  rw [after2_8]
  unfold out2_8
  rw [View.canon_unit_zero zero_offsets]
  simp only [ld_whole]
  funext j
  obtain ⟨p, q, rfl⟩ : ∃ (p : Fin 2000) (q : Fin 256), j = ix2 p q := ⟨j 0, j 1, eq_ix2 j⟩
  refine (k2_pay1_apply _ _ _ _ _ _ _ _ p q).trans ?_
  show _ = Cert.Spec.updMat _ _ _ _ _ _ _ _ (((cfg2.win 8).blk t).view.emb (ix2 p q))
  obtain ⟨-, -, h0, h1, h7, h2, h3, h4, h5, h6⟩ := blockIdx2 t
  have hout : ((cfg2.win 8).blk t).view.emb (ix2 p q) = ix2 (arrRow2 t p) q := rowBlock_emb2 t (win2_8.rect_emb_val t) (fun _ => rfl) p q
  have hres : iblk2 V c 7 t (ix2 p q) = V c main_v13 (ix2 (arrRow2 t p) q) :=
    congrArg (V c main_v13) (rowBlock_emb2 t (win2_7.rect_emb_val t) h7 p q)
  have hnode : @rowOf 2000 256 (iblk2 V c 0 t) p = rowOf (V c main_v28 : Mat 20000 256) (arrRow2 t p) :=
    funext fun k => congrArg (V c main_v28) (rowBlock_emb2 t (win2_0.rect_emb_val t) h0 p k)
  have hmsg : @rowOf 2000 256 (iblk2 V c 1 t) p = rowOf (V c main_v60 : Mat 20000 256) (arrRow2 t p) :=
    funext fun k => congrArg (V c main_v60) (rowBlock_emb2 t (win2_1.rect_emb_val t) h1 p k)
  have hw1a : iblk2 V c 2 t = V c main_v62 := funext fun y => congrArg (V c main_v62) (funext fun a => Fin.ext (win2_2.rect_emb_val_of_index_zero t a (h2 a) y))
  have hw1b : iblk2 V c 3 t = V c main_v64 := funext fun y => congrArg (V c main_v64) (funext fun a => Fin.ext (win2_3.rect_emb_val_of_index_zero t a (h3 a) y))
  have hb1 : iblk2 V c 4 t = V c main_v71 := funext fun y => congrArg (V c main_v71) (funext fun a => Fin.ext (win2_4.rect_emb_val_of_index_zero t a (h4 a) y))
  have hw2 : iblk2 V c 5 t = V c main_v68 := funext fun y => congrArg (V c main_v68) (funext fun a => Fin.ext (win2_5.rect_emb_val_of_index_zero t a (h5 a) y))
  have hb2 : iblk2 V c 6 t = V c main_v72 := funext fun y => congrArg (V c main_v72) (funext fun a => Fin.ext (win2_6.rect_emb_val_of_index_zero t a (h6 a) y))
  rw [hout, hres, hnode, hmsg, hw1a, hw1b, hb1, hw2, hb2]
  rfl

end Region

end R2

section Region

variable (V : (c : Dev nD) → (b : Ref sig .tc) → Buf (Elt Ideal) ((c : Thread nD τ).loc b))

theorem region2_value (c : Dev nD) :
    (dat2 (F := Ideal) V c).arrAt 8 cfg2.N
      = Cert.Spec.updMat (V c main_v62 : Mat 256 256) (V c main_v64 : Mat 256 256) (V c main_v71 : Mat 1 256) (V c main_v68 : Mat 256 256)
          (V c main_v72 : Mat 1 256) (V c main_v28 : Mat 20000 256) (V c main_v60 : Mat 20000 256) (V c main_v13 : Mat 20000 256) :=
  (dat2 (F := Ideal) V c).arrAt_eq_of_cover 8 _ (fun t _ => R2.flushed2_eq V c t) R2.covered2

end Region

end Cert.KernelIdeal.Val

end
-- ==== Proof.KI.Val3.lean ====
import proofs.«411300_j19516331393713_3_alg».proof.Proof.KI.Body3
import proofs.«411300_j19516331393713_3_alg».proof.Proof.Spec
import Idealize.ShloMosaic.Lib.ValueLayout
import Idealize.ShloMosaic.Lib.StackMember

noncomputable section

namespace Cert.KernelIdeal.Val

open Cert.KernelIdeal Cert.KernelIdeal.Gen Cert.Spec
open Idealize.ShloMosaic Idealize.ShloMosaic.TcCoe Idealize.SL.Sem Idealize.ShloMosaic.ValueIdx

namespace R3

-- Each of the three products, accumulated from zero, is the sum over the contracted coordinate.
theorem pay_apply (a b : Vec Ideal S3200x256 .bf16) (w1a w1b w2 : Vec Ideal S256x256 .bf16) (b1 b2 : Vec Ideal S1x256 .f32)
    (p : Fin 3200) (q : Fin 256) : k3_pay1 a w1a b w1b b1 w2 b2 (ix2 p q) = mlp2 w1a w1b b1 w2 b2 (rowOf a p) (rowOf b p) q := by
  simp only [k3_pay1, show dot_S3200x256_S256x256_S3200x256_1_0_0_1_n_n = DotDims.plain 3200 256 256 from rfl, matmul_zero_eq_dotGeneral, StackMember.dotGeneral_plain_apply,
    truncf_apply, addf_apply, maximumf_apply, broadcast_apply, broadcastTo_1b_ab_apply, shapeCast_self, mlp2, outLayer, hidden2, relu, dot, rowOf]
  rw [show (FloatOps.ofBits FTy.f32 0#32 : Ideal .f32) = (0 : EReal) from Ideal.ofBits_zero_f32]

-- The offsets of the eight blocks at a point, by evaluation.
theorem offs : ∀ t : Fin grid3.N,
    (win3_0.rect t).off = ![3200 * t.val, 0] ∧ (win3_1.rect t).off = ![3200 * t.val, 0]
    ∧ (win3_2.rect t).off = (fun _ => 0) ∧ (win3_3.rect t).off = (fun _ => 0) ∧ (win3_4.rect t).off = (fun _ => 0)
    ∧ (win3_5.rect t).off = (fun _ => 0) ∧ (win3_6.rect t).off = (fun _ => 0) ∧ (win3_7.rect t).off = ![3200 * t.val, 0] := by
  decide +kernel

-- A rectangle of whole rows from row o on: where its entries sit, and which indices it holds.
theorem unit_emb {d sz off : Fin 2 → ℕ} {inb} {o : ℕ} (h : off = ![o, 0]) (y : (⟨2, sz⟩ : Shape).Idx) (i : (⟨2, d⟩ : Shape).Idx)
    (h0 : (i 0).val = o + (y 0).val) (h1 : (i 1).val = (y 1).val) : (Rect.unit (s := ⟨2, d⟩) off sz inb).emb y = i := by
  subst h
  exact Shape.idx_ext₂ (by show o + 1 * (y 0).val = (i 0).val; omega) (by show 0 + 1 * (y 1).val = (i 1).val; omega)

theorem mem_unit {d sz off : Fin 2 → ℕ} {inb} {o : ℕ} (h : off = ![o, 0]) (i : (⟨2, d⟩ : Shape).Idx)
    (h0 : o ≤ (i 0).val ∧ (i 0).val < o + sz 0) (h1 : (i 1).val < sz 1) : i ∈ (Rect.unit (s := ⟨2, d⟩) off sz inb).set := by
  subst h
  exact Rect.mem_set_unit.mpr (Fin.forall_fin_two.mpr ⟨h0, Nat.zero_le _, by show (i 1).val < 0 + sz 1; omega⟩)

-- Row r lies in the block of point r / 3200.
theorem out_cover (i : S320000x256.Idx) : ∃ t : Fin cfg3.N, (cfg3.win 7).flush t = true ∧ i ∈ ((cfg3.win 7).blk t).view.set := by
  have ht : (i 0).val / 3200 < cfg3.N := lt_of_lt_of_eq (Nat.div_lt_of_lt_mul (idx2_lt0 i)) N_3.symm
  refine ⟨⟨_, ht⟩, flush3_7 _, ?_⟩
  show i ∈ ((View.whole main_v101).slice (win3_7.rect ⟨_, ht⟩)).set
  rw [View.set_slice_whole]
  exact mem_unit (offs ⟨_, ht⟩).2.2.2.2.2.2.2 i ⟨Nat.mul_div_le _ _, Nat.lt_mul_div_succ _ (by decide)⟩ (idx2_lt1 i)

theorem hz : (![0, 0] : Fin 2 → ℕ) = fun _ => 0 := by decide

variable (V : (c : Dev nD) → (b : Ref sig .tc) → Buf (Elt Ideal) ((c : Thread nD τ).loc b)) (c : Dev nD)

abbrev msgs :=
  mlp2Mat (V c main_v90) (V c main_v92) (V c main_v99) (V c main_v96) (V c main_v100) (V c main_v81) (V c main_v88)

theorem flushed_eq (t : Fin cfg3.N) : (dat3 V c).flushed 7 t = ((cfg3.win 7).blk t).view.read (Elt Ideal) (msgs V c) := by
  obtain ⟨o0, o1, o2, o3, o4, o5, o6, o7⟩ := offs t
  rw [Pipeline.Dat.flushed, after3_7, out3_7, View.canon_unit_zero hz]
  simp only [View.ld_unit_zero (S := ⟨2, ![_, _]⟩) hz]
  funext j
  obtain ⟨p, q, rfl⟩ : ∃ (p : Fin 3200) (q : Fin 256), j = ix2 p q := ⟨j 0, j 1, eq_ix2 j⟩
  have hr : 3200 * t.val + p.val < 320000 := by have := p.isLt; have := lt_of_lt_of_eq t.isLt N_3; omega
  refine (pay_apply _ _ _ _ _ _ _ p q).trans ?_
  show _ = msgs V c ((win3_7.rect t).emb (ix2 p q))
  rw [show (win3_7.rect t).emb (ix2 p q) = ix2 ⟨_, hr⟩ q from unit_emb o7 _ _ rfl rfl]
  show mlp2 _ _ _ _ _ _ _ q = mlp2 _ _ _ _ _ _ _ q
  congr 1 <;> first
    | exact View.ld_unit_zero (by assumption) _ _
    | exact funext fun k => congrArg (V c _) (unit_emb (by assumption) (ix2 p k) (ix2 ⟨_, hr⟩ k) rfl rfl)

end R3

theorem region3_value (V : (c : Dev nD) → (b : Ref sig .tc) → Buf (Elt Ideal) ((c : Thread nD τ).loc b)) (c : Dev nD) :
    (dat3 (F := Ideal) V c).arrAt 7 cfg3.N
      = Cert.Spec.mlp2Mat (V c main_v90) (V c main_v92) (V c main_v99) (V c main_v96) (V c main_v100) (V c main_v81) (V c main_v88) :=
  (dat3 (F := Ideal) V c).arrAt_eq_of_cover 7 (R3.msgs V c) (fun t _ => R3.flushed_eq V c t) R3.out_cover

end Cert.KernelIdeal.Val

end
-- ==== Proof.KI.Val4.lean ====
import proofs.«411300_j19516331393713_3_alg».proof.Proof.KI.Body4
import proofs.«411300_j19516331393713_3_alg».proof.Proof.Spec
import Idealize.ShloMosaic.Lib.Pipeline.Value
import Idealize.ShloMosaic.Lib.ValueIdx
import Idealize.ShloMosaic.Lib.ValueLayout
import Idealize.ShloMosaic.PureOps.Ideal.Laws
import proofs.«411300_j19516331393713_3_alg».proof.Proof.LibBlockRead

noncomputable section

open scoped BigOperators

namespace Cert.KernelIdeal.Val

open Cert.KernelIdeal Cert.KernelIdeal.Gen Cert.Spec
open Idealize.ShloMosaic Idealize.ShloMosaic.TcCoe Idealize.ShloMosaic.ValueIdx Idealize.SL.Sem
open Idealize.ShloMosaic.Pipeline (Dat)
open Idealize.ShloMosaic.BlockRead

namespace R4

theorem rowsDot_apply {φ₁ φ₂ : FTy} (x : FVec Ideal S2000x256 φ₁) (w : FVec Ideal S256x256 φ₂) (p : Fin 2000) (q : Fin 256) :
    matmul dot_S2000x256_S256x256_S2000x256_1_0_0_1_n_n none x w (constant (F := Ideal) S2000x256 .f32 0x00000000#32) (ix2 p q) = Cert.Spec.dot (@rowOf 2000 256 x p) w q :=
  prod_apply φ₁ φ₂ x w p q

-- Each of the three products is a row against a weight matrix; everything else is entrywise.
theorem k4_pay1_apply (a : Mat 2000 256) (w1a : Mat 256 256) (b : Mat 2000 256) (w1b : Mat 256 256) (b1 : Mat 1 256) (w2 : Mat 256 256)
    (b2 : Mat 1 256) (res : Mat 2000 256) (p : Fin 2000) (q : Fin 256) :
    k4_pay1 (F := Ideal) a w1a b w1b b1 w2 b2 res (ix2 p q) = res (ix2 p q) + mlp2 w1a w1b b1 w2 b2 (rowOf a p) (rowOf b p) q := by
  unfold k4_pay1
  simp only [shapeCast_self]
  rw [addf_apply, addf_apply, rowsDot_apply, broadcastTo_1b_ab_apply]
  refine congrArg (res (ix2 p q) + ·) ?_
  unfold mlp2 outLayer
  refine congrArg (· + b2 (ix2 (0 : Fin 1) q)) ?_
  refine congrArg (fun v => Cert.Spec.dot v w2 q) (funext fun d => ?_)
  show max (_ + _ + _) (Ideal.ofBits .f32 0x00000000#32) = _
  rw [rowsDot_apply, rowsDot_apply, broadcastTo_1b_ab_apply, Ideal.ofBits_zero_f32]
  rfl

theorem blockIdx4 : ∀ t : Fin cfg4.N,
      win4_8.index t (0 : Fin 2) ≤ 9 ∧ win4_8.index t (1 : Fin 2) = 0
    ∧ (∀ a : Fin 2, win4_0.index t a = win4_8.index t a) ∧ (∀ a : Fin 2, win4_1.index t a = win4_8.index t a)
    ∧ (∀ a : Fin 2, win4_7.index t a = win4_8.index t a)
    ∧ (∀ a : Fin 2, win4_2.index t a = 0) ∧ (∀ a : Fin 2, win4_3.index t a = 0) ∧ (∀ a : Fin 2, win4_4.index t a = 0)
    ∧ (∀ a : Fin 2, win4_5.index t a = 0) ∧ (∀ a : Fin 2, win4_6.index t a = 0) :=
  (by decide +kernel : ∀ t : Fin grid4.N, _)

theorem rowBlock_onto4 : ∀ r : Fin 10, ∃ t : Fin cfg4.N, win4_8.index t = ![r.val, 0] :=
  (by decide +kernel : ∀ r : Fin 10, ∃ t : Fin grid4.N, win4_8.index t = ![r.val, 0])

-- Row r lies in block r / 2000.
theorem covered4 (i : S20000x256.Idx) : ∃ t : Fin cfg4.N, (cfg4.win 8).flush t = true ∧ i ∈ ((cfg4.win 8).blk t).view.set := by
  have hi0 : (i 0).val < 20000 := (i 0).isLt
  have hi1 : (i 1).val < 256 := (i 1).isLt
  obtain ⟨t, ht⟩ := rowBlock_onto4 ⟨(i 0).val / 2000, by omega⟩
  have q0 : win4_8.index t (0 : Fin 2) = (i 0).val / 2000 := congrFun ht 0
  have q1 : win4_8.index t (1 : Fin 2) = 0 := congrFun ht 1
  refine ⟨t, flush4_8 t, ?_⟩
  show i ∈ ((View.whole main_v119).slice (win4_8.rect t)).set
  rw [View.set_slice_whole, Rect.mem_set_unit]
  intro a
  match a with
  | ⟨0, _⟩ => show win4_8.index t (0 : Fin 2) * 2000 ≤ (i 0).val ∧ (i 0).val < win4_8.index t (0 : Fin 2) * 2000 + 2000; omega
  | ⟨1, _⟩ => show win4_8.index t (1 : Fin 2) * 256 ≤ (i 1).val ∧ (i 1).val < win4_8.index t (1 : Fin 2) * 256 + 256; omega

def arrRow4 (t : Fin cfg4.N) (p : Fin 2000) : Fin 20000 :=
  ⟨win4_8.index t (0 : Fin 2) * 2000 + p.val, by have h := (blockIdx4 t).1; have hp := p.isLt; omega⟩

-- One statement for the four arrays read in blocks of rows: each block sits where the output's block does.
theorem rowBlock_emb4 (t : Fin cfg4.N) {e : S2000x256.Idx → S20000x256.Idx} {ι : Fin 2 → Nat}
    (he : ∀ y a, (e y a : Nat) = ι a * S2000x256.size a + y a) (hι : ∀ a, ι a = win4_8.index t a) (p : Fin 2000) (q : Fin 256) :
    e (ix2 p q) = ix2 (arrRow4 t p) q := by
  funext a; apply Fin.ext; rw [he, hι]
  match a with
  | ⟨0, _⟩ => rfl
  | ⟨1, _⟩ => show win4_8.index t (1 : Fin 2) * 256 + q.val = q.val; rw [(blockIdx4 t).2.1]; omega

section Region

variable (V : (c : Dev nD) → (b : Ref sig .tc) → Buf (Elt Ideal) ((c : Thread nD τ).loc b))

theorem flushed4_eq (c : Dev nD) (t : Fin cfg4.N) :
    (dat4 (F := Ideal) V c).flushed 8 t
      = ((cfg4.win 8).blk t).view.read (Elt Ideal)
          (Cert.Spec.updMat (V c main_v108 : Mat 256 256) (V c main_v110 : Mat 256 256) (V c main_v117 : Mat 1 256) (V c main_v114 : Mat 256 256)
            (V c main_v118 : Mat 1 256) (V c main_v74 : Mat 20000 256) (V c main_v106 : Mat 20000 256) (V c main_v73 : Mat 20000 256)) := by
  show (cfg4.win 8).cut _ ((dat4 V c).after 8 t) = _
  rw [after4_8]
  unfold out4_8
  rw [View.canon_unit_zero zero_offsets]
  simp only [ld_whole]
  funext j
  obtain ⟨p, q, rfl⟩ : ∃ (p : Fin 2000) (q : Fin 256), j = ix2 p q := ⟨j 0, j 1, eq_ix2 j⟩
  refine (k4_pay1_apply _ _ _ _ _ _ _ _ p q).trans ?_
  show _ = Cert.Spec.updMat _ _ _ _ _ _ _ _ (((cfg4.win 8).blk t).view.emb (ix2 p q))
  obtain ⟨-, -, h0, h1, h7, h2, h3, h4, h5, h6⟩ := blockIdx4 t
  have hout : ((cfg4.win 8).blk t).view.emb (ix2 p q) = ix2 (arrRow4 t p) q := rowBlock_emb4 t (win4_8.rect_emb_val t) (fun _ => rfl) p q
  have hres : iblk4 V c 7 t (ix2 p q) = V c main_v73 (ix2 (arrRow4 t p) q) :=
    congrArg (V c main_v73) (rowBlock_emb4 t (win4_7.rect_emb_val t) h7 p q)
  have hnode : @rowOf 2000 256 (iblk4 V c 0 t) p = rowOf (V c main_v74 : Mat 20000 256) (arrRow4 t p) :=
    funext fun k => congrArg (V c main_v74) (rowBlock_emb4 t (win4_0.rect_emb_val t) h0 p k)
  have hmsg : @rowOf 2000 256 (iblk4 V c 1 t) p = rowOf (V c main_v106 : Mat 20000 256) (arrRow4 t p) :=
    funext fun k => congrArg (V c main_v106) (rowBlock_emb4 t (win4_1.rect_emb_val t) h1 p k)
  have hw1a : iblk4 V c 2 t = V c main_v108 := funext fun y => congrArg (V c main_v108) (funext fun a => Fin.ext (win4_2.rect_emb_val_of_index_zero t a (h2 a) y))
  have hw1b : iblk4 V c 3 t = V c main_v110 := funext fun y => congrArg (V c main_v110) (funext fun a => Fin.ext (win4_3.rect_emb_val_of_index_zero t a (h3 a) y))
  have hb1 : iblk4 V c 4 t = V c main_v117 := funext fun y => congrArg (V c main_v117) (funext fun a => Fin.ext (win4_4.rect_emb_val_of_index_zero t a (h4 a) y))
  have hw2 : iblk4 V c 5 t = V c main_v114 := funext fun y => congrArg (V c main_v114) (funext fun a => Fin.ext (win4_5.rect_emb_val_of_index_zero t a (h5 a) y))
  have hb2 : iblk4 V c 6 t = V c main_v118 := funext fun y => congrArg (V c main_v118) (funext fun a => Fin.ext (win4_6.rect_emb_val_of_index_zero t a (h6 a) y))
  rw [hout, hres, hnode, hmsg, hw1a, hw1b, hb1, hw2, hb2]
  rfl

end Region

end R4

section Region

variable (V : (c : Dev nD) → (b : Ref sig .tc) → Buf (Elt Ideal) ((c : Thread nD τ).loc b))

theorem region4_value (c : Dev nD) :
    (dat4 (F := Ideal) V c).arrAt 8 cfg4.N
      = Cert.Spec.updMat (V c main_v108 : Mat 256 256) (V c main_v110 : Mat 256 256) (V c main_v117 : Mat 1 256) (V c main_v114 : Mat 256 256)
          (V c main_v118 : Mat 1 256) (V c main_v74 : Mat 20000 256) (V c main_v106 : Mat 20000 256) (V c main_v73 : Mat 20000 256) :=
  (dat4 (F := Ideal) V c).arrAt_eq_of_cover 8 _ (fun t _ => R4.flushed4_eq V c t) R4.covered4

end Region

end Cert.KernelIdeal.Val

end
-- ==== Proof.KI.Val5.lean ====
import proofs.«411300_j19516331393713_3_alg».proof.Proof.KI.Body5
import proofs.«411300_j19516331393713_3_alg».proof.Proof.Spec
import Idealize.ShloMosaic.Lib.ValueLayout
import Idealize.ShloMosaic.Lib.StackMember

noncomputable section

namespace Cert.KernelIdeal.Val

open Cert.KernelIdeal Cert.KernelIdeal.Gen Cert.Spec
open Idealize.ShloMosaic Idealize.ShloMosaic.TcCoe Idealize.SL.Sem Idealize.ShloMosaic.ValueIdx

namespace R5

-- Each of the three products, accumulated from zero, is the sum over the contracted coordinate.
theorem pay_apply (a b : Vec Ideal S3200x256 .bf16) (w1a w1b w2 : Vec Ideal S256x256 .bf16) (b1 b2 : Vec Ideal S1x256 .f32)
    (p : Fin 3200) (q : Fin 256) : k5_pay1 a w1a b w1b b1 w2 b2 (ix2 p q) = mlp2 w1a w1b b1 w2 b2 (rowOf a p) (rowOf b p) q := by
  simp only [k5_pay1, show dot_S3200x256_S256x256_S3200x256_1_0_0_1_n_n = DotDims.plain 3200 256 256 from rfl, matmul_zero_eq_dotGeneral, StackMember.dotGeneral_plain_apply,
    truncf_apply, addf_apply, maximumf_apply, broadcast_apply, broadcastTo_1b_ab_apply, shapeCast_self, mlp2, outLayer, hidden2, relu, dot, rowOf]
  rw [show (FloatOps.ofBits FTy.f32 0#32 : Ideal .f32) = (0 : EReal) from Ideal.ofBits_zero_f32]

-- The offsets of the eight blocks at a point, by evaluation.
theorem offs : ∀ t : Fin grid5.N,
    (win5_0.rect t).off = ![3200 * t.val, 0] ∧ (win5_1.rect t).off = ![3200 * t.val, 0]
    ∧ (win5_2.rect t).off = (fun _ => 0) ∧ (win5_3.rect t).off = (fun _ => 0) ∧ (win5_4.rect t).off = (fun _ => 0)
    ∧ (win5_5.rect t).off = (fun _ => 0) ∧ (win5_6.rect t).off = (fun _ => 0) ∧ (win5_7.rect t).off = ![3200 * t.val, 0] := by
  decide +kernel

-- A rectangle of whole rows from row o on: where its entries sit, and which indices it holds.
theorem unit_emb {d sz off : Fin 2 → ℕ} {inb} {o : ℕ} (h : off = ![o, 0]) (y : (⟨2, sz⟩ : Shape).Idx) (i : (⟨2, d⟩ : Shape).Idx)
    (h0 : (i 0).val = o + (y 0).val) (h1 : (i 1).val = (y 1).val) : (Rect.unit (s := ⟨2, d⟩) off sz inb).emb y = i := by
  subst h
  exact Shape.idx_ext₂ (by show o + 1 * (y 0).val = (i 0).val; omega) (by show 0 + 1 * (y 1).val = (i 1).val; omega)

theorem mem_unit {d sz off : Fin 2 → ℕ} {inb} {o : ℕ} (h : off = ![o, 0]) (i : (⟨2, d⟩ : Shape).Idx)
    (h0 : o ≤ (i 0).val ∧ (i 0).val < o + sz 0) (h1 : (i 1).val < sz 1) : i ∈ (Rect.unit (s := ⟨2, d⟩) off sz inb).set := by
  subst h
  exact Rect.mem_set_unit.mpr (Fin.forall_fin_two.mpr ⟨h0, Nat.zero_le _, by show (i 1).val < 0 + sz 1; omega⟩)

-- Row r lies in the block of point r / 3200.
theorem out_cover (i : S320000x256.Idx) : ∃ t : Fin cfg5.N, (cfg5.win 7).flush t = true ∧ i ∈ ((cfg5.win 7).blk t).view.set := by
  have ht : (i 0).val / 3200 < cfg5.N := lt_of_lt_of_eq (Nat.div_lt_of_lt_mul (idx2_lt0 i)) N_5.symm
  refine ⟨⟨_, ht⟩, flush5_7 _, ?_⟩
  show i ∈ ((View.whole main_v147).slice (win5_7.rect ⟨_, ht⟩)).set
  rw [View.set_slice_whole]
  exact mem_unit (offs ⟨_, ht⟩).2.2.2.2.2.2.2 i ⟨Nat.mul_div_le _ _, Nat.lt_mul_div_succ _ (by decide)⟩ (idx2_lt1 i)

theorem hz : (![0, 0] : Fin 2 → ℕ) = fun _ => 0 := by decide

variable (V : (c : Dev nD) → (b : Ref sig .tc) → Buf (Elt Ideal) ((c : Thread nD τ).loc b)) (c : Dev nD)

abbrev msgs :=
  mlp2Mat (V c main_v136) (V c main_v138) (V c main_v145) (V c main_v142) (V c main_v146) (V c main_v127) (V c main_v134)

theorem flushed_eq (t : Fin cfg5.N) : (dat5 V c).flushed 7 t = ((cfg5.win 7).blk t).view.read (Elt Ideal) (msgs V c) := by
  obtain ⟨o0, o1, o2, o3, o4, o5, o6, o7⟩ := offs t
  rw [Pipeline.Dat.flushed, after5_7, out5_7, View.canon_unit_zero hz]
  simp only [View.ld_unit_zero (S := ⟨2, ![_, _]⟩) hz]
  funext j
  obtain ⟨p, q, rfl⟩ : ∃ (p : Fin 3200) (q : Fin 256), j = ix2 p q := ⟨j 0, j 1, eq_ix2 j⟩
  have hr : 3200 * t.val + p.val < 320000 := by have := p.isLt; have := lt_of_lt_of_eq t.isLt N_5; omega
  refine (pay_apply _ _ _ _ _ _ _ p q).trans ?_
  show _ = msgs V c ((win5_7.rect t).emb (ix2 p q))
  rw [show (win5_7.rect t).emb (ix2 p q) = ix2 ⟨_, hr⟩ q from unit_emb o7 _ _ rfl rfl]
  show mlp2 _ _ _ _ _ _ _ q = mlp2 _ _ _ _ _ _ _ q
  congr 1 <;> first
    | exact View.ld_unit_zero (by assumption) _ _
    | exact funext fun k => congrArg (V c _) (unit_emb (by assumption) (ix2 p k) (ix2 ⟨_, hr⟩ k) rfl rfl)

end R5

theorem region5_value (V : (c : Dev nD) → (b : Ref sig .tc) → Buf (Elt Ideal) ((c : Thread nD τ).loc b)) (c : Dev nD) :
    (dat5 (F := Ideal) V c).arrAt 7 cfg5.N
      = Cert.Spec.mlp2Mat (V c main_v136) (V c main_v138) (V c main_v145) (V c main_v142) (V c main_v146) (V c main_v127) (V c main_v134) :=
  (dat5 (F := Ideal) V c).arrAt_eq_of_cover 7 (R5.msgs V c) (fun t _ => R5.flushed_eq V c t) R5.out_cover

end Cert.KernelIdeal.Val

end
-- ==== Proof.KI.Val6.lean ====
import proofs.«411300_j19516331393713_3_alg».proof.Proof.KI.Body6
import proofs.«411300_j19516331393713_3_alg».proof.Proof.Spec
import Idealize.ShloMosaic.Lib.Pipeline.Value
import Idealize.ShloMosaic.Lib.ValueIdx
import Idealize.ShloMosaic.Lib.ValueLayout
import Idealize.ShloMosaic.PureOps.Ideal.Laws
import proofs.«411300_j19516331393713_3_alg».proof.Proof.LibBlockRead

noncomputable section

open scoped BigOperators

namespace Cert.KernelIdeal.Val

open Cert.KernelIdeal Cert.KernelIdeal.Gen Cert.Spec
open Idealize.ShloMosaic Idealize.ShloMosaic.TcCoe Idealize.ShloMosaic.ValueIdx Idealize.SL.Sem
open Idealize.ShloMosaic.Pipeline (Dat)
open Idealize.ShloMosaic.BlockRead

namespace R6

theorem rowsDot_apply {φ₁ φ₂ : FTy} (x : FVec Ideal S2000x256 φ₁) (w : FVec Ideal S256x256 φ₂) (p : Fin 2000) (q : Fin 256) :
    matmul dot_S2000x256_S256x256_S2000x256_1_0_0_1_n_n none x w (constant (F := Ideal) S2000x256 .f32 0x00000000#32) (ix2 p q) = Cert.Spec.dot (@rowOf 2000 256 x p) w q :=
  prod_apply φ₁ φ₂ x w p q

-- Each of the three products is a row against a weight matrix; everything else is entrywise.
theorem k6_pay1_apply (a : Mat 2000 256) (w1a : Mat 256 256) (b : Mat 2000 256) (w1b : Mat 256 256) (b1 : Mat 1 256) (w2 : Mat 256 256)
    (b2 : Mat 1 256) (res : Mat 2000 256) (p : Fin 2000) (q : Fin 256) :
    k6_pay1 (F := Ideal) a w1a b w1b b1 w2 b2 res (ix2 p q) = res (ix2 p q) + mlp2 w1a w1b b1 w2 b2 (rowOf a p) (rowOf b p) q := by
  unfold k6_pay1
  simp only [shapeCast_self]
  rw [addf_apply, addf_apply, rowsDot_apply, broadcastTo_1b_ab_apply]
  refine congrArg (res (ix2 p q) + ·) ?_
  unfold mlp2 outLayer
  refine congrArg (· + b2 (ix2 (0 : Fin 1) q)) ?_
  refine congrArg (fun v => Cert.Spec.dot v w2 q) (funext fun d => ?_)
  show max (_ + _ + _) (Ideal.ofBits .f32 0x00000000#32) = _
  rw [rowsDot_apply, rowsDot_apply, broadcastTo_1b_ab_apply, Ideal.ofBits_zero_f32]
  rfl

theorem blockIdx6 : ∀ t : Fin cfg6.N,
      win6_8.index t (0 : Fin 2) ≤ 9 ∧ win6_8.index t (1 : Fin 2) = 0
    ∧ (∀ a : Fin 2, win6_0.index t a = win6_8.index t a) ∧ (∀ a : Fin 2, win6_1.index t a = win6_8.index t a)
    ∧ (∀ a : Fin 2, win6_7.index t a = win6_8.index t a)
    ∧ (∀ a : Fin 2, win6_2.index t a = 0) ∧ (∀ a : Fin 2, win6_3.index t a = 0) ∧ (∀ a : Fin 2, win6_4.index t a = 0)
    ∧ (∀ a : Fin 2, win6_5.index t a = 0) ∧ (∀ a : Fin 2, win6_6.index t a = 0) :=
  (by decide +kernel : ∀ t : Fin grid6.N, _)

theorem rowBlock_onto6 : ∀ r : Fin 10, ∃ t : Fin cfg6.N, win6_8.index t = ![r.val, 0] :=
  (by decide +kernel : ∀ r : Fin 10, ∃ t : Fin grid6.N, win6_8.index t = ![r.val, 0])

-- Row r lies in block r / 2000.
theorem covered6 (i : S20000x256.Idx) : ∃ t : Fin cfg6.N, (cfg6.win 8).flush t = true ∧ i ∈ ((cfg6.win 8).blk t).view.set := by
  have hi0 : (i 0).val < 20000 := (i 0).isLt
  have hi1 : (i 1).val < 256 := (i 1).isLt
  obtain ⟨t, ht⟩ := rowBlock_onto6 ⟨(i 0).val / 2000, by omega⟩
  have q0 : win6_8.index t (0 : Fin 2) = (i 0).val / 2000 := congrFun ht 0
  have q1 : win6_8.index t (1 : Fin 2) = 0 := congrFun ht 1
  refine ⟨t, flush6_8 t, ?_⟩
  show i ∈ ((View.whole main_v165).slice (win6_8.rect t)).set
  rw [View.set_slice_whole, Rect.mem_set_unit]
  intro a
  match a with
  | ⟨0, _⟩ => show win6_8.index t (0 : Fin 2) * 2000 ≤ (i 0).val ∧ (i 0).val < win6_8.index t (0 : Fin 2) * 2000 + 2000; omega
  | ⟨1, _⟩ => show win6_8.index t (1 : Fin 2) * 256 ≤ (i 1).val ∧ (i 1).val < win6_8.index t (1 : Fin 2) * 256 + 256; omega

def arrRow6 (t : Fin cfg6.N) (p : Fin 2000) : Fin 20000 :=
  ⟨win6_8.index t (0 : Fin 2) * 2000 + p.val, by have h := (blockIdx6 t).1; have hp := p.isLt; omega⟩

-- One statement for the four arrays read in blocks of rows: each block sits where the output's block does.
theorem rowBlock_emb6 (t : Fin cfg6.N) {e : S2000x256.Idx → S20000x256.Idx} {ι : Fin 2 → Nat}
    (he : ∀ y a, (e y a : Nat) = ι a * S2000x256.size a + y a) (hι : ∀ a, ι a = win6_8.index t a) (p : Fin 2000) (q : Fin 256) :
    e (ix2 p q) = ix2 (arrRow6 t p) q := by
  funext a; apply Fin.ext; rw [he, hι]
  match a with
  | ⟨0, _⟩ => rfl
  | ⟨1, _⟩ => show win6_8.index t (1 : Fin 2) * 256 + q.val = q.val; rw [(blockIdx6 t).2.1]; omega

section Region

variable (V : (c : Dev nD) → (b : Ref sig .tc) → Buf (Elt Ideal) ((c : Thread nD τ).loc b))

theorem flushed6_eq (c : Dev nD) (t : Fin cfg6.N) :
    (dat6 (F := Ideal) V c).flushed 8 t
      = ((cfg6.win 8).blk t).view.read (Elt Ideal)
          (Cert.Spec.updMat (V c main_v154 : Mat 256 256) (V c main_v156 : Mat 256 256) (V c main_v163 : Mat 1 256) (V c main_v160 : Mat 256 256)
            (V c main_v164 : Mat 1 256) (V c main_v120 : Mat 20000 256) (V c main_v152 : Mat 20000 256) (V c main_v119 : Mat 20000 256)) := by
  show (cfg6.win 8).cut _ ((dat6 V c).after 8 t) = _
  rw [after6_8]
  unfold out6_8
  rw [View.canon_unit_zero zero_offsets]
  simp only [ld_whole]
  funext j
  obtain ⟨p, q, rfl⟩ : ∃ (p : Fin 2000) (q : Fin 256), j = ix2 p q := ⟨j 0, j 1, eq_ix2 j⟩
  refine (k6_pay1_apply _ _ _ _ _ _ _ _ p q).trans ?_
  show _ = Cert.Spec.updMat _ _ _ _ _ _ _ _ (((cfg6.win 8).blk t).view.emb (ix2 p q))
  obtain ⟨-, -, h0, h1, h7, h2, h3, h4, h5, h6⟩ := blockIdx6 t
  have hout : ((cfg6.win 8).blk t).view.emb (ix2 p q) = ix2 (arrRow6 t p) q := rowBlock_emb6 t (win6_8.rect_emb_val t) (fun _ => rfl) p q
  have hres : iblk6 V c 7 t (ix2 p q) = V c main_v119 (ix2 (arrRow6 t p) q) :=
    congrArg (V c main_v119) (rowBlock_emb6 t (win6_7.rect_emb_val t) h7 p q)
  have hnode : @rowOf 2000 256 (iblk6 V c 0 t) p = rowOf (V c main_v120 : Mat 20000 256) (arrRow6 t p) :=
    funext fun k => congrArg (V c main_v120) (rowBlock_emb6 t (win6_0.rect_emb_val t) h0 p k)
  have hmsg : @rowOf 2000 256 (iblk6 V c 1 t) p = rowOf (V c main_v152 : Mat 20000 256) (arrRow6 t p) :=
    funext fun k => congrArg (V c main_v152) (rowBlock_emb6 t (win6_1.rect_emb_val t) h1 p k)
  have hw1a : iblk6 V c 2 t = V c main_v154 := funext fun y => congrArg (V c main_v154) (funext fun a => Fin.ext (win6_2.rect_emb_val_of_index_zero t a (h2 a) y))
  have hw1b : iblk6 V c 3 t = V c main_v156 := funext fun y => congrArg (V c main_v156) (funext fun a => Fin.ext (win6_3.rect_emb_val_of_index_zero t a (h3 a) y))
  have hb1 : iblk6 V c 4 t = V c main_v163 := funext fun y => congrArg (V c main_v163) (funext fun a => Fin.ext (win6_4.rect_emb_val_of_index_zero t a (h4 a) y))
  have hw2 : iblk6 V c 5 t = V c main_v160 := funext fun y => congrArg (V c main_v160) (funext fun a => Fin.ext (win6_5.rect_emb_val_of_index_zero t a (h5 a) y))
  have hb2 : iblk6 V c 6 t = V c main_v164 := funext fun y => congrArg (V c main_v164) (funext fun a => Fin.ext (win6_6.rect_emb_val_of_index_zero t a (h6 a) y))
  rw [hout, hres, hnode, hmsg, hw1a, hw1b, hb1, hw2, hb2]
  rfl

end Region

end R6

section Region

variable (V : (c : Dev nD) → (b : Ref sig .tc) → Buf (Elt Ideal) ((c : Thread nD τ).loc b))

theorem region6_value (c : Dev nD) :
    (dat6 (F := Ideal) V c).arrAt 8 cfg6.N
      = Cert.Spec.updMat (V c main_v154 : Mat 256 256) (V c main_v156 : Mat 256 256) (V c main_v163 : Mat 1 256) (V c main_v160 : Mat 256 256)
          (V c main_v164 : Mat 1 256) (V c main_v120 : Mat 20000 256) (V c main_v152 : Mat 20000 256) (V c main_v119 : Mat 20000 256) :=
  (dat6 (F := Ideal) V c).arrAt_eq_of_cover 8 _ (fun t _ => R6.flushed6_eq V c t) R6.covered6

end Region

end Cert.KernelIdeal.Val

end
-- ==== Proof.KI.Val7.lean ====
import proofs.«411300_j19516331393713_3_alg».proof.Proof.KI.Body7
import proofs.«411300_j19516331393713_3_alg».proof.Proof.Spec
import proofs.«411300_j19516331393713_3_alg».proof.Proof.LibBlockRead
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Val

open Cert.KernelIdeal Cert.KernelIdeal.Gen Cert.Spec
open Idealize.ShloMosaic Idealize.ShloMosaic.TcCoe Idealize.ShloMosaic.ValueIdx Idealize.ShloMosaic.BlockRead Idealize.SL.Sem
open Idealize.ShloMosaic.Pipeline (Dat Window Grid)
open scoped BigOperators

namespace R7

theorem k7_pay1_apply (a : Vec Ideal S2000x256 .bf16) (w1a : Vec Ideal S256x256 .bf16) (b : Vec Ideal S2000x256 .bf16)
    (w1b : Vec Ideal S256x256 .bf16) (g : Vec Ideal S2000x8 .bf16) (w1c : Vec Ideal S8x256 .bf16) (b1 : Vec Ideal S1x256 .f32)
    (w2 : Vec Ideal S256x128 .bf16) (b2 : Vec Ideal S1x128 .f32) (p : Fin 2000) (q : Fin 128) :
    k7_pay1 (F := Ideal) a w1a b w1b g w1c b1 w2 b2 (ix2 p q)
      = mlp3 (w1a : Mat 256 256) (w1b : Mat 256 256) (w1c : Mat 8 256) (b1 : Mat 1 256) (w2 : Mat 256 128) (b2 : Mat 1 128)
          (rowOf (a : Mat 2000 256) p) (rowOf (b : Mat 2000 256) p) (rowOf (g : Mat 2000 8) p) q := by
  unfold k7_pay1
  simp only [shapeCast_self]
  refine (congrArg₂ (· + ·) (prod_apply .bf16 .bf16 _ w2 p q) (broadcastTo_1b_ab_apply b2 broadcasts_S1x128_S2000x128 p q)).trans ?_
  refine congrArg (· + b2 (ix2 (0 : Fin 1) q)) (Finset.sum_congr rfl fun d _ => congrArg (· * w2 (ix2 d q)) ?_)
  refine (congrArg₂ max (congrArg₂ (· + ·) (congrArg₂ (· + ·) (congrArg₂ (· + ·) (prod_apply .bf16 .bf16 a w1a p d) (prod_apply .bf16 .bf16 b w1b p d))
    (prod_apply .bf16 .bf16 g w1c p d)) (broadcastTo_1b_ab_apply b1 broadcasts_S1x256_S2000x256 p d)) Ideal.ofBits_zero_f32).trans rfl

section Array
variable (V : (c : Dev nD) → (b : Ref sig .tc) → Buf (Elt Ideal) ((c : Thread nD τ).loc b))

abbrev headOf (c : Dev nD) : Mat 100000 128 :=
  mlp3Mat (V c main_v228) (V c main_v230) (V c main_v232) (V c main_v240) (V c main_v239) (V c main_v241)
    (V c main_v218) (V c main_v225) (V c main_v226)

theorem row_index : ∀ t : Fin cfg7.N, win7_9.index t (0 : Fin 2) = t.val ∧ win7_0.index t (0 : Fin 2) = t.val
    ∧ win7_1.index t (0 : Fin 2) = t.val ∧ win7_2.index t (0 : Fin 2) = t.val :=
  (by decide +kernel : ∀ t : Fin grid7.N, _)

def rowAt (t : Fin cfg7.N) (p : Fin 2000) : Fin 100000 :=
  ⟨t.val * 2000 + p.val, by have ht : t.val < 50 := t.isLt; have hp := p.isLt; omega⟩

theorem blk_whole (c : Dev nD) (t : Fin cfg7.N) :
    (iblk7 V c 3 t : Mat 256 256) = V c main_v228 ∧ (iblk7 V c 4 t : Mat 256 256) = V c main_v230
    ∧ (iblk7 V c 5 t : Mat 8 256) = V c main_v232 ∧ (iblk7 V c 6 t : Mat 1 256) = V c main_v240
    ∧ (iblk7 V c 7 t : Mat 256 128) = V c main_v239 ∧ (iblk7 V c 8 t : Mat 1 128) = V c main_v241 :=
  ⟨funext fun y => read_whole win7_3 t (congrFun zero_offsets) (V c main_v228) y y fun _ => rfl,
   funext fun y => read_whole win7_4 t (congrFun zero_offsets) (V c main_v230) y y fun _ => rfl,
   funext fun y => read_whole win7_5 t (congrFun zero_offsets) (V c main_v232) y y fun _ => rfl,
   funext fun y => read_whole win7_6 t (congrFun zero_offsets) (V c main_v240) y y fun _ => rfl,
   funext fun y => read_whole win7_7 t (congrFun zero_offsets) (V c main_v239) y y fun _ => rfl,
   funext fun y => read_whole win7_8 t (congrFun zero_offsets) (V c main_v241) y y fun _ => rfl⟩

theorem blk_rows (c : Dev nD) (t : Fin cfg7.N) (p : Fin 2000) :
    rowOf (iblk7 V c 0 t : Mat 2000 256) p = rowOf (V c main_v218 : Mat 100000 256) (rowAt t p)
    ∧ rowOf (iblk7 V c 1 t : Mat 2000 256) p = rowOf (V c main_v225 : Mat 100000 256) (rowAt t p)
    ∧ rowOf (iblk7 V c 2 t : Mat 2000 8) p = rowOf (V c main_v226 : Mat 100000 8) (rowAt t p) :=
  ⟨funext fun k => read_emb win7_0 t (V c main_v218) (ix2 p k) (ix2 (rowAt t p) k) (at_rows (win7_0.index t) win7_0.size (row_index t).2.1 rfl rfl p k _ rfl),
   funext fun k => read_emb win7_1 t (V c main_v225) (ix2 p k) (ix2 (rowAt t p) k) (at_rows (win7_1.index t) win7_1.size (row_index t).2.2.1 rfl rfl p k _ rfl),
   funext fun k => read_emb win7_2 t (V c main_v226) (ix2 p k) (ix2 (rowAt t p) k) (at_rows (win7_2.index t) win7_2.size (row_index t).2.2.2 rfl rfl p k _ rfl)⟩

theorem flushed_eq (c : Dev nD) (t : Fin cfg7.N) :
    (dat7 (F := Ideal) V c).flushed 9 t = ((cfg7.win 9).blk t).view.read (Elt Ideal) (headOf V c) := by
  show (cfg7.win 9).cut (grid7.coords t) ((dat7 (F := Ideal) V c).after 9 t) = _
  rw [after7_9]
  unfold out7_9
  rw [View.canon_unit_zero zero_offsets]
  simp only [ld_whole]
  funext j
  obtain ⟨p, q, rfl⟩ : ∃ (p : Fin 2000) (q : Fin 128), j = ix2 p q := ⟨j 0, j 1, eq_ix2 j⟩
  obtain ⟨h3, h4, h5, h6, h7, h8⟩ := blk_whole V c t
  obtain ⟨r0, r1, r2⟩ := blk_rows V c t p
  refine (k7_pay1_apply (iblk7 V c 0 t) (iblk7 V c 3 t) (iblk7 V c 1 t) (iblk7 V c 4 t) (iblk7 V c 2 t) (iblk7 V c 5 t) (iblk7 V c 6 t) (iblk7 V c 7 t) (iblk7 V c 8 t) p q).trans ?_
  rw [h3, h4, h5, h6, h7, h8, r0, r1, r2]
  exact (read_emb win7_9 t (headOf V c) (ix2 p q) (ix2 (rowAt t p) q) (at_rows (win7_9.index t) win7_9.size (row_index t).1 rfl rfl p q _ rfl)).symm

/-- The blocks tile the array: row `r` is in the block of point `r / 2000`. -/
theorem covered (i : S100000x128.Idx) :
    ∃ t : Fin cfg7.N, (cfg7.win 9).flush t = true ∧ i ∈ ((cfg7.win 9).blk t).view.set := by
  have hi0 : (i 0).val < 100000 := (i 0).isLt
  have hi1 : (i 1).val < 128 := (i 1).isLt
  have hlt : (i 0).val / 2000 < cfg7.N := by show (i 0).val / 2000 < 50; omega
  refine ⟨⟨(i 0).val / 2000, hlt⟩, flush7_9 _, ?_⟩
  show i ∈ ((View.whole main_v242).slice (win7_9.rect ⟨(i 0).val / 2000, hlt⟩)).set
  rw [View.set_slice_whole, Rect.mem_set_unit]
  intro a
  match a with
  | ⟨0, _⟩ =>
    show win7_9.index ⟨(i 0).val / 2000, hlt⟩ (0 : Fin 2) * 2000 ≤ (i 0).val
      ∧ (i 0).val < win7_9.index ⟨(i 0).val / 2000, hlt⟩ (0 : Fin 2) * 2000 + 2000
    rw [(row_index ⟨(i 0).val / 2000, hlt⟩).1]
    show (i 0).val / 2000 * 2000 ≤ (i 0).val ∧ (i 0).val < (i 0).val / 2000 * 2000 + 2000
    omega
  | ⟨1, _⟩ => show 0 * 128 ≤ (i 1).val ∧ (i 1).val < 0 * 128 + 128; omega

end Array

end R7

theorem region7_value (V : (c : Dev nD) → (b : Ref sig .tc) → Buf (Elt Ideal) ((c : Thread nD τ).loc b)) (c : Dev nD) : (dat7 (F := Ideal) V c).arrAt 9 cfg7.N = Cert.Spec.mlp3Mat (V c main_v228) (V c main_v230) (V c main_v232) (V c main_v240) (V c main_v239) (V c main_v241) (V c main_v218) (V c main_v225) (V c main_v226) :=
  (dat7 (F := Ideal) V c).arrAt_eq_of_cover 9 (R7.headOf V c) (fun t _ => R7.flushed_eq V c t) R7.covered

end Cert.KernelIdeal.Val

end
-- ==== Proof.Net.lean ====
import proofs.«411300_j19516331393713_3_alg».proof.Proof.Spec
import proofs.«411300_j19516331393713_3_alg».proof.Proof.RefRead

noncomputable section

namespace Cert.Net

open Idealize.ShloMosaic Idealize.ShloMosaic.ValueIdx Cert.ReferenceIdeal Cert.ReferenceIdeal.Read Cert.Spec

abbrev Stack (L r c : Nat) : Type := (⟨3, ![L, r, c]⟩ : Shape).Idx → EReal

abbrev Vec1 (n : Nat) : Type := (⟨1, ![n]⟩ : Shape).Idx → EReal

def rowsFrom (s n : Nat) {R C : Nat} (w : Mat R C) (h : s + n ≤ R) : Mat n C :=
  fun i => w (ix2 ⟨s + (i 0).val, by have := idx2_lt0 i; omega⟩ ⟨(i 1).val, idx2_lt1 i⟩)

def layer {L R C : Nat} (l : Fin L) (w : Stack L R C) : Mat R C :=
  fun i => w (ix3 l ⟨(i 0).val, idx2_lt0 i⟩ ⟨(i 1).val, idx2_lt1 i⟩)

def layerRow {L H : Nat} (l : Fin L) (b : Mat L H) : Mat 1 H := fun i => b (ix2 l ⟨(i 1).val, idx2_lt1 i⟩)

def asRow {H : Nat} (b : Vec1 H) : Mat 1 H := fun i => b (ix1 ⟨(i 1).val, idx2_lt1 i⟩)

def encoded (x0 : Mat 20000 512) (x1 : Mat 20000 18) (x4 : Mat 512 512) (x5 : Vec1 512) (x6 : Mat 512 256) (x7 : Vec1 256)
    (x8 : Mat 274 256) (x9 : Vec1 256) (x10 : Mat 256 256) (x11 : Vec1 256) : Mat 20000 256 :=
  encodeMat x4 (asRow x5) x6 (asRow x7) (rowsFrom 0 256 x8 (by norm_num)) (rowsFrom 256 18 x8 (by norm_num)) (asRow x9) x10 (asRow x11) x0 x1

def messages (l : Fin 3) (x2 : (⟨S320000x2, .i32⟩ : BufTy).Contents (Elt Ideal)) (x12 : Stack 3 512 256) (x13 : Mat 3 256)
    (x14 : Stack 3 256 256) (x15 : Mat 3 256) (H : Mat 20000 256) : Mat 320000 256 :=
  mlp2Mat (rowsFrom 0 256 (layer l x12) (by norm_num)) (rowsFrom 256 256 (layer l x12) (by norm_num)) (layerRow l x13)
    (layer l x14) (layerRow l x15)
    (Host.gather gather_S20000x256_S320000x1_S320000x256_1_0_n_n_0_1_1256 H (val_main_v30 (F := Ideal) x2))
    (Host.gather gather_S20000x256_S320000x1_S320000x256_1_0_n_n_0_1_1256 H (val_main_v37 (F := Ideal) x2))

def aggregated (x2 : (⟨S320000x2, .i32⟩ : BufTy).Contents (Elt Ideal)) (M : Mat 320000 256) : Mat 20000 256 :=
  Host.scatterAdd (F := Ideal) (φ := .f32) scatter_S20000x256_S320000x1_S320000x256_1_0_0_1 (val_main_v57 (F := Ideal)) (val_main_v58 (F := Ideal) x2) M

def layerStep (l : Fin 3) (x2 : (⟨S320000x2, .i32⟩ : BufTy).Contents (Elt Ideal)) (x12 : Stack 3 512 256) (x13 : Mat 3 256)
    (x14 : Stack 3 256 256) (x15 : Mat 3 256) (x16 : Stack 3 512 256) (x17 : Mat 3 256) (x18 : Stack 3 256 256) (x19 : Mat 3 256)
    (H : Mat 20000 256) : Mat 20000 256 :=
  updMat (rowsFrom 0 256 (layer l x16) (by norm_num)) (rowsFrom 256 256 (layer l x16) (by norm_num)) (layerRow l x17)
    (layer l x18) (layerRow l x19) H (aggregated x2 (messages l x2 x12 x13 x14 x15 H)) H

def scores (x1 : Mat 20000 18) (x3 : (⟨S100000x2, .i32⟩ : BufTy).Contents (Elt Ideal)) (x20 : Mat 520 256) (x21 : Vec1 256)
    (x22 : Mat 256 26) (x23 : Vec1 26) (H : Mat 20000 256) : Mat 100000 26 :=
  mlp3Mat (rowsFrom 0 256 x20 (by norm_num)) (rowsFrom 256 256 x20 (by norm_num)) (rowsFrom 512 8 x20 (by norm_num)) (asRow x21)
    x22 (asRow x23)
    (Host.gather gather_S20000x256_S100000x1_S100000x256_1_0_n_n_0_1_1256 H (val_main_v271 (F := Ideal) x3))
    (Host.gather gather_S20000x256_S100000x1_S100000x256_1_0_n_n_0_1_1256 H (val_main_v278 (F := Ideal) x3))
    (val_main_v265 (F := Ideal) x1 x3)

def net (x0 : Mat 20000 512) (x1 : Mat 20000 18) (x2 : (⟨S320000x2, .i32⟩ : BufTy).Contents (Elt Ideal))
    (x3 : (⟨S100000x2, .i32⟩ : BufTy).Contents (Elt Ideal)) (x4 : Mat 512 512) (x5 : Vec1 512) (x6 : Mat 512 256) (x7 : Vec1 256)
    (x8 : Mat 274 256) (x9 : Vec1 256) (x10 : Mat 256 256) (x11 : Vec1 256) (x12 : Stack 3 512 256) (x13 : Mat 3 256)
    (x14 : Stack 3 256 256) (x15 : Mat 3 256) (x16 : Stack 3 512 256) (x17 : Mat 3 256) (x18 : Stack 3 256 256) (x19 : Mat 3 256)
    (x20 : Mat 520 256) (x21 : Vec1 256) (x22 : Mat 256 26) (x23 : Vec1 26) : Mat 100000 26 :=
  scores x1 x3 x20 x21 x22 x23
    (layerStep 2 x2 x12 x13 x14 x15 x16 x17 x18 x19
      (layerStep 1 x2 x12 x13 x14 x15 x16 x17 x18 x19
        (layerStep 0 x2 x12 x13 x14 x15 x16 x17 x18 x19
          (encoded x0 x1 x4 x5 x6 x7 x8 x9 x10 x11))))

end Cert.Net

end
-- ==== Proof.KI.HostEncoded.lean ====
import proofs.«411300_j19516331393713_3_alg».proof.Proof.Gen.KernelIdeal.Regions
import proofs.«411300_j19516331393713_3_alg».proof.Proof.Net
import Idealize.ShloMosaic.Lib.StableHlo.Run
import Idealize.ShloMosaic.Lib.ValueIdx
import Idealize.ShloMosaic.Lib.Pipeline.Value

set_option maxRecDepth 2156

noncomputable section

namespace Cert.KernelIdeal.HostVal

open Idealize.ShloMosaic Idealize.ShloMosaic.TcCoe Idealize.ShloMosaic.ValueIdx
open Cert.KernelIdeal Cert.KernelIdeal.Gen Cert.Spec

variable (m : (ℓ : Loc nD τ sig) → Buf (Elt Ideal) ℓ) (outs : Outs (F := Ideal)) (c : Dev nD)

namespace Encoded

theorem V1_arg : (V1 m c main_v0 : Mat 20000 512) = m ((c : Thread nD τ).loc main_arg0) ∧ (V1 m c main_v1 : Mat 20000 18) = m ((c : Thread nD τ).loc main_arg1) ∧
    (V1 m c main_v2 : Mat 512 512) = m ((c : Thread nD τ).loc main_arg4) ∧ (V1 m c main_v3 : Mat 512 256) = m ((c : Thread nD τ).loc main_arg6) ∧
    (V1 m c main_v8 : Mat 256 256) = m ((c : Thread nD τ).loc main_arg10) := by
  refine ⟨?_, ?_, ?_, ?_, ?_⟩ <;> (show StableHlo.after hostOps0 _ _ = _; after_results; rfl)

theorem V1_rows : (V1 m c main_v5 : Mat 256 256) = Cert.Net.rowsFrom 0 256 (m ((c : Thread nD τ).loc main_arg8) : Mat 274 256) (by norm_num) ∧
    (V1 m c main_v7 : Mat 18 256) = Cert.Net.rowsFrom 256 18 (m ((c : Thread nD τ).loc main_arg8) : Mat 274 256) (by norm_num) := by
  constructor
  all_goals
    show StableHlo.after hostOps0 _ _ = _
    after_results
    funext i
    rw [truncf_apply]
    refine extractStridedSlice_apply _ _ _ _ _ (fun a => ?_)
    match a with
    | ⟨0, _⟩ => rfl
    | ⟨1, _⟩ => exact (Nat.zero_add _).symm

-- A vector recast as a one-row matrix is read at the column index: both have the same row-major position.
theorem shapeCast_asRow {H : Nat} (b : Cert.Net.Vec1 H) (h : (⟨1, ![H]⟩ : Shape).ShapeCasts ⟨2, ![1, H]⟩) :
    shapeCast ⟨2, ![1, H]⟩ b h = Cert.Net.asRow b := by
  refine funext fun (i : (⟨2, ![1, H]⟩ : Shape).Idx) => ?_
  refine shapeCast_apply _ _ i (ix1 ⟨(i 1).val, idx2_lt1 i⟩) ?_
  rw [Shape.rowMajor_val_one, Shape.rowMajor_val_two]
  have h0 : (i 0).val = 0 := by have := idx2_lt0 i; omega
  show (i 1).val = (i 0).val * H + (i 1).val
  rw [h0]; omega

theorem V1_row : (V1 m c main_v9 : Mat 1 512) = Cert.Net.asRow (m ((c : Thread nD τ).loc main_arg5)) ∧
    (V1 m c main_v10 : Mat 1 256) = Cert.Net.asRow (m ((c : Thread nD τ).loc main_arg7)) ∧
    (V1 m c main_v11 : Mat 1 256) = Cert.Net.asRow (m ((c : Thread nD τ).loc main_arg9)) ∧
    (V1 m c main_v12 : Mat 1 256) = Cert.Net.asRow (m ((c : Thread nD τ).loc main_arg11)) := by
  refine ⟨?_, ?_, ?_, ?_⟩ <;> (show StableHlo.after hostOps0 _ _ = _; after_results; exact shapeCast_asRow _ _)

end Encoded

open Encoded in

theorem ker_encoded
    (h0 : outs 2 main_v13 c = Cert.Spec.encodeMat (V1 m c main_v2 : Mat 512 512) (V1 m c main_v9 : Mat 1 512)
      (V1 m c main_v3 : Mat 512 256) (V1 m c main_v10 : Mat 1 256) (V1 m c main_v5 : Mat 256 256)
      (V1 m c main_v7 : Mat 18 256) (V1 m c main_v11 : Mat 1 256) (V1 m c main_v8 : Mat 256 256)
      (V1 m c main_v12 : Mat 1 256) (V1 m c main_v0 : Mat 20000 512) (V1 m c main_v1 : Mat 20000 18)) :
    outs 2 main_v13 c = Cert.Net.encoded (m ((c : Thread nD τ).loc main_arg0)) (m ((c : Thread nD τ).loc main_arg1))
      (m ((c : Thread nD τ).loc main_arg4)) (m ((c : Thread nD τ).loc main_arg5)) (m ((c : Thread nD τ).loc main_arg6))
      (m ((c : Thread nD τ).loc main_arg7)) (m ((c : Thread nD τ).loc main_arg8)) (m ((c : Thread nD τ).loc main_arg9))
      (m ((c : Thread nD τ).loc main_arg10)) (m ((c : Thread nD τ).loc main_arg11)) := by
  refine h0.trans ?_
  unfold Cert.Net.encoded
  obtain ⟨e0, e1, e2, e3, e8⟩ := V1_arg m c
  obtain ⟨e5, e7⟩ := V1_rows m c
  obtain ⟨e9, e10, e11, e12⟩ := V1_row m c
  rw [e2, e9, e3, e10, e5, e7, e11, e8, e12, e0, e1]

end Cert.KernelIdeal.HostVal

end
-- ==== Proof.KI.HostHead.lean ====
import proofs.«411300_j19516331393713_3_alg».proof.Proof.Gen.KernelIdeal.Regions
import proofs.«411300_j19516331393713_3_alg».proof.Proof.Net
import Idealize.ShloMosaic.Lib.StableHlo.Run
import Idealize.ShloMosaic.Lib.ValueIdx
import Idealize.ShloMosaic.Lib.Pipeline.Value

set_option maxRecDepth 4096

noncomputable section

namespace Cert.KernelIdeal.HostVal.LH

open Idealize.ShloMosaic Idealize.ShloMosaic.TcCoe Idealize.ShloMosaic.ValueIdx Idealize.SL.Sem
open Cert.KernelIdeal Cert.KernelIdeal.Gen Cert.Spec

theorem stackLayer (x : Net.Stack 3 256 256) (l : Fin 3) (h2 : S3x256x256.Slices ![l.val, 0, 0] S1x256x256)
    (h3 : S1x256x256.ShapeCasts S256x256) (hb : FTy.bits .bf16 < FTy.bits .f32) :
    (shapeCast S256x256 (extractStridedSlice S1x256x256 ![l.val, 0, 0]
        (truncf .bf16 (x : FVec Ideal S3x256x256 .f32) hb : FVec Ideal S3x256x256 .bf16) h2) h3 : Mat 256 256)
      = Net.layer l x := by
  funext i
  refine (shapeCast_apply _ h3 i (ix3 0 ⟨(i 0).val, idx2_lt0 i⟩ ⟨(i 1).val, idx2_lt1 i⟩) ?_).trans ?_
  · rw [Shape.rowMajor_val_three, Shape.rowMajor_val_two]
    show (0 * 256 + (i 0).val) * 256 + (i 1).val = (i 0).val * 256 + (i 1).val
    omega
  refine (extractStridedSlice_apply _ _ h2 _ (ix3 l ⟨(i 0).val, idx2_lt0 i⟩ ⟨(i 1).val, idx2_lt1 i⟩) ?_).trans ?_
  · intro a; match a with
    | ⟨0, _⟩ => rfl
    | ⟨1, _⟩ | ⟨2, _⟩ => exact (Nat.zero_add _).symm
  rfl

theorem stackSlab (x : Net.Stack 3 512 256) (s : Nat) (hs : s + 256 ≤ 512) (l : Fin 3)
    (h1 : S3x512x256.Slices ![0, s, 0] S3x256x256) (h2 : S3x256x256.Slices ![l.val, 0, 0] S1x256x256)
    (h3 : S1x256x256.ShapeCasts S256x256) (hb : FTy.bits .bf16 < FTy.bits .f32) :
    (shapeCast S256x256 (extractStridedSlice S1x256x256 ![l.val, 0, 0]
        (truncf .bf16 (extractStridedSlice S3x256x256 ![0, s, 0] x h1 : FVec Ideal S3x256x256 .f32) hb : FVec Ideal S3x256x256 .bf16) h2) h3 : Mat 256 256)
      = Net.rowsFrom s 256 (Net.layer l x) hs := by
  refine (stackLayer (extractStridedSlice S3x256x256 ![0, s, 0] x h1) l h2 h3 hb).trans (funext fun i => ?_)
  refine (extractStridedSlice_apply _ x h1 _ (ix3 l ⟨s + (i 0).val, by have := idx2_lt0 i; omega⟩ ⟨(i 1).val, idx2_lt1 i⟩) ?_).trans rfl
  intro a; match a with
    | ⟨1, _⟩ => rfl
    | ⟨0, _⟩ | ⟨2, _⟩ => exact (Nat.zero_add _).symm

theorem biasRow (x : Mat 3 256) (l : Fin 3) (h1 : S3x256.Slices ![l.val, 0] S1x256) (h2 : S1x256.ShapeCasts S256)
    (h3 : S256.ShapeCasts S1x256) :
    (shapeCast S1x256 (shapeCast S256 (extractStridedSlice S1x256 ![l.val, 0] x h1) h2) h3 : Mat 1 256) = Net.layerRow l x := by
  funext i
  have h0 : (i 0).val < 1 := idx2_lt0 i
  refine (shapeCast_apply _ h3 i (ix1 ⟨(i 1).val, idx2_lt1 i⟩) ?_).trans ?_
  · rw [Shape.rowMajor_val_one, Shape.rowMajor_val_two]
    show (i 1).val = (i 0).val * 256 + (i 1).val
    omega
  refine (shapeCast_apply _ h2 _ (ix2 (0 : Fin 1) ⟨(i 1).val, idx2_lt1 i⟩) ?_).trans ?_
  · rw [Shape.rowMajor_val_two, Shape.rowMajor_val_one]
    show 0 * 256 + (i 1).val = (i 1).val
    omega
  refine (extractStridedSlice_apply _ x h1 _ (ix2 l ⟨(i 1).val, idx2_lt1 i⟩) ?_).trans ?_
  · intro a; match a with
    | ⟨0, _⟩ => rfl
    | ⟨1, _⟩ => exact (Nat.zero_add _).symm
  rfl

def idxCol (col : IVec S320000 32) : IVec S320000x1 32 :=
  broadcastInDim S320000x1 ![0] bcast_S320000_S320000x1_0
    (select (cmpi .slt col (broadcastInDim S320000 ![] bcast_S_S320000 (constantI S_ 32 0#32)))
      (addi col (broadcastInDim S320000 ![] bcast_S_S320000 (constantI S_ 32 20000#32))) col)

theorem idxCol_src (x2 : (⟨S320000x2, .i32⟩ : BufTy).Contents (Elt Ideal)) :
    idxCol (Cert.ReferenceIdeal.Read.val_main_v22 (F := Ideal) x2) = Cert.ReferenceIdeal.Read.val_main_v30 (F := Ideal) x2 := rfl

theorem idxCol_dst (x2 : (⟨S320000x2, .i32⟩ : BufTy).Contents (Elt Ideal)) :
    idxCol (Cert.ReferenceIdeal.Read.val_main_v24 (F := Ideal) x2) = Cert.ReferenceIdeal.Read.val_main_v37 (F := Ideal) x2 := rfl

variable (m : (ℓ : Loc nD τ sig) → Buf (Elt Ideal) ℓ) (outs : Outs (F := Ideal)) (c : Dev nD)

theorem a3 (r : Ref sig .tc) (h1 : r ∉ hostOps0_W) (h2 : r ∉ ([main_v13] : List (Ref sig .tc))) (h3 : r ∉ hostOps1_W) :
    V3 m outs c r = m ((c : Thread nD τ).loc r) :=
  (V3_of m outs c r h3).trans ((V2_of m outs c r h2).trans (V1_of m c r h1))

theorem a2 (r : Ref sig .tc) (h1 : r ∉ hostOps0_W) (h2 : r ∉ ([main_v13] : List (Ref sig .tc))) :
    V2 m outs c r = m ((c : Thread nD τ).loc r) :=
  (V2_of m outs c r h2).trans (V1_of m c r h1)

abbrev W3 : List (Ref sig .tc) := []
abbrev W5 : List (Ref sig .tc) := main_v55 :: hostOps2_W
abbrev W7 : List (Ref sig .tc) := W5 ++ main_v73 :: hostOps3_W
abbrev W9 : List (Ref sig .tc) := W7 ++ main_v101 :: hostOps4_W
abbrev W11 : List (Ref sig .tc) := W9 ++ main_v119 :: hostOps5_W
abbrev W13 : List (Ref sig .tc) := W11 ++ main_v147 :: hostOps6_W

theorem c3 (r : Ref sig .tc) (h : r ∉ W3) : V3 m outs c r = V3 m outs c r := rfl
-- What neither of two further steps writes keeps the value it had before them.
theorem carry {β : Ref sig .tc → Type} {f g k e : (r : Ref sig .tc) → β r} {W X : List (Ref sig .tc)} {v : Ref sig .tc}
    (hf : ∀ r, r ∉ X → f r = g r) (hg : ∀ r, r ∉ [v] → g r = k r) (hk : ∀ r, r ∉ W → k r = e r)
    (r : Ref sig .tc) (h : r ∉ W ++ v :: X) : f r = e r :=
  (hf r fun h' => h (List.mem_append_right _ (List.mem_cons_of_mem _ h'))).trans
    ((hg r fun h' => h (List.mem_append_right _ (List.mem_cons.mpr (Or.inl (List.mem_singleton.mp h'))))).trans
      (hk r fun h' => h (List.mem_append_left _ h')))

theorem c5 (r : Ref sig .tc) (h : r ∉ W5) : V5 m outs c r = V3 m outs c r :=
  carry (V5_of m outs c) (V4_of m outs c) (c3 m outs c) r h
theorem c7 (r : Ref sig .tc) (h : r ∉ W7) : V7 m outs c r = V3 m outs c r :=
  carry (V7_of m outs c) (V6_of m outs c) (c5 m outs c) r h
theorem c9 (r : Ref sig .tc) (h : r ∉ W9) : V9 m outs c r = V3 m outs c r :=
  carry (V9_of m outs c) (V8_of m outs c) (c7 m outs c) r h
theorem c11 (r : Ref sig .tc) (h : r ∉ W11) : V11 m outs c r = V3 m outs c r :=
  carry (V11_of m outs c) (V10_of m outs c) (c9 m outs c) r h
theorem c13 (r : Ref sig .tc) (h : r ∉ W13) : V13 m outs c r = V3 m outs c r :=
  carry (V13_of m outs c) (V12_of m outs c) (c11 m outs c) r h

theorem head15 : V3 m outs c main_v15 = Cert.ReferenceIdeal.Read.val_main_v22 (F := Ideal) (m ((c : Thread nD τ).loc main_arg2)) := by
  show StableHlo.after hostOps1 (V2 m outs c) (Proc.devRef .tc main_v15) = _
  after_results_simp
  rw [a2 m outs c main_arg2 (by decide) (by decide)]
  rfl

theorem head17 : V3 m outs c main_v17 = Cert.ReferenceIdeal.Read.val_main_v24 (F := Ideal) (m ((c : Thread nD τ).loc main_arg2)) := by
  show StableHlo.after hostOps1 (V2 m outs c) (Proc.devRef .tc main_v17) = _
  after_results_simp
  rw [a2 m outs c main_arg2 (by decide) (by decide)]
  rfl

theorem head19 : V3 m outs c main_v19 =
    (truncf .bf16 (extractStridedSlice S3x256x256 ![0, 0, 0] (m ((c : Thread nD τ).loc main_arg12)) slices_S3x512x256_S3x256x256_0_0_0 : FVec Ideal S3x256x256 .f32) bitsLt_bf16_f32 : FVec Ideal S3x256x256 .bf16) := by
  show StableHlo.after hostOps1 (V2 m outs c) (Proc.devRef .tc main_v19) = _
  after_results_simp
  rw [a2 m outs c main_arg12 (by decide) (by decide)]

theorem head21 : V3 m outs c main_v21 =
    (truncf .bf16 (extractStridedSlice S3x256x256 ![0, 256, 0] (m ((c : Thread nD τ).loc main_arg12)) slices_S3x512x256_S3x256x256_0_256_0 : FVec Ideal S3x256x256 .f32) bitsLt_bf16_f32 : FVec Ideal S3x256x256 .bf16) := by
  show StableHlo.after hostOps1 (V2 m outs c) (Proc.devRef .tc main_v21) = _
  after_results_simp
  rw [a2 m outs c main_arg12 (by decide) (by decide)]

theorem head22 : V3 m outs c main_v22 = (truncf .bf16 ((m ((c : Thread nD τ).loc main_arg14)) : FVec Ideal S3x256x256 .f32) bitsLt_bf16_f32 : FVec Ideal S3x256x256 .bf16) := by
  show StableHlo.after hostOps1 (V2 m outs c) (Proc.devRef .tc main_v22) = _
  after_results_simp
  rw [a2 m outs c main_arg14 (by decide) (by decide)]

theorem head24 : V3 m outs c main_v24 =
    (truncf .bf16 (extractStridedSlice S3x256x256 ![0, 0, 0] (m ((c : Thread nD τ).loc main_arg16)) slices_S3x512x256_S3x256x256_0_0_0 : FVec Ideal S3x256x256 .f32) bitsLt_bf16_f32 : FVec Ideal S3x256x256 .bf16) := by
  show StableHlo.after hostOps1 (V2 m outs c) (Proc.devRef .tc main_v24) = _
  after_results_simp
  rw [a2 m outs c main_arg16 (by decide) (by decide)]

theorem head26 : V3 m outs c main_v26 =
    (truncf .bf16 (extractStridedSlice S3x256x256 ![0, 256, 0] (m ((c : Thread nD τ).loc main_arg16)) slices_S3x512x256_S3x256x256_0_256_0 : FVec Ideal S3x256x256 .f32) bitsLt_bf16_f32 : FVec Ideal S3x256x256 .bf16) := by
  show StableHlo.after hostOps1 (V2 m outs c) (Proc.devRef .tc main_v26) = _
  after_results_simp
  rw [a2 m outs c main_arg16 (by decide) (by decide)]

theorem head27 : V3 m outs c main_v27 = (truncf .bf16 ((m ((c : Thread nD τ).loc main_arg18)) : FVec Ideal S3x256x256 .f32) bitsLt_bf16_f32 : FVec Ideal S3x256x256 .bf16) := by
  show StableHlo.after hostOps1 (V2 m outs c) (Proc.devRef .tc main_v27) = _
  after_results_simp
  rw [a2 m outs c main_arg18 (by decide) (by decide)]

end Cert.KernelIdeal.HostVal.LH

end
-- ==== Proof.KI.HostLayer0.lean ====
import proofs.«411300_j19516331393713_3_alg».proof.Proof.KI.HostHead

noncomputable section

namespace Cert.KernelIdeal.HostVal

open Idealize.ShloMosaic Idealize.ShloMosaic.TcCoe Idealize.ShloMosaic.ValueIdx Idealize.SL.Sem
open Cert.KernelIdeal Cert.KernelIdeal.Gen Cert.Spec

variable (m : (ℓ : Loc nD τ sig) → Buf (Elt Ideal) ℓ) (outs : Outs (F := Ideal)) (c : Dev nD)

namespace L0

variable {m outs c}

def slab (X : FVec Ideal S3x256x256 .bf16) : Mat 256 256 :=
  shapeCast S256x256 (extractStridedSlice S1x256x256 ![0, 0, 0] X slices_S3x256x256_S1x256x256_0_0_0) shapeCasts_S1x256x256_S256x256

def row (X : Mat 3 256) : Mat 1 256 :=
  shapeCast S1x256 (shapeCast S256 (extractStridedSlice S1x256 ![0, 0] X slices_S3x256_S1x256_0_0) shapeCasts_S1x256_S256) shapeCasts_S256_S1x256

theorem feat : V3 m outs c main_v28 = outs 2 main_v13 c :=
  (show V3 m outs c main_v28 = V2 m outs c main_v13 by after_results_simp <;> rfl).trans (Function.update_self _ _ _)

theorem src : V3 m outs c main_v34 = Cert.ReferenceIdeal.Read.val_main_v30 (F := Ideal) (m ((c : Thread nD τ).loc main_arg2)) :=
  Eq.trans (by after_results_simp <;> rfl) ((congrArg LH.idxCol ((LH.c3 m outs c main_v15 (by decide)).trans (LH.head15 m outs c))).trans (LH.idxCol_src _))

theorem dst : V3 m outs c main_v41 = Cert.ReferenceIdeal.Read.val_main_v37 (F := Ideal) (m ((c : Thread nD τ).loc main_arg2)) :=
  Eq.trans (by after_results_simp <;> rfl) ((congrArg LH.idxCol ((LH.c3 m outs c main_v17 (by decide)).trans (LH.head17 m outs c))).trans (LH.idxCol_dst _))

theorem ga : V3 m outs c main_v35 = Host.gather gather_S20000x256_S320000x1_S320000x256_1_0_n_n_0_1_1256 (V3 m outs c main_v28) (V3 m outs c main_v34) := by after_results_simp <;> rfl

theorem gb : V3 m outs c main_v42 = Host.gather gather_S20000x256_S320000x1_S320000x256_1_0_n_n_0_1_1256 (V3 m outs c main_v28) (V3 m outs c main_v41) := by after_results_simp <;> rfl

theorem w1a : V3 m outs c main_v44 = Net.rowsFrom 0 256 (Net.layer (0 : Fin 3) (m ((c : Thread nD τ).loc main_arg12))) (by norm_num) :=
  Eq.trans (by after_results_simp <;> rfl) ((congrArg slab ((LH.c3 m outs c main_v19 (by decide)).trans (LH.head19 m outs c))).trans (LH.stackSlab _ 0 _ (0 : Fin 3) _ _ _ _))

theorem w1b : V3 m outs c main_v46 = Net.rowsFrom 256 256 (Net.layer (0 : Fin 3) (m ((c : Thread nD τ).loc main_arg12))) (by norm_num) :=
  Eq.trans (by after_results_simp <;> rfl) ((congrArg slab ((LH.c3 m outs c main_v21 (by decide)).trans (LH.head21 m outs c))).trans (LH.stackSlab _ 256 _ (0 : Fin 3) _ _ _ _))

theorem w2 : V3 m outs c main_v50 = Net.layer (0 : Fin 3) (m ((c : Thread nD τ).loc main_arg14)) :=
  Eq.trans (by after_results_simp <;> rfl) ((congrArg slab ((LH.c3 m outs c main_v22 (by decide)).trans (LH.head22 m outs c))).trans (LH.stackLayer _ (0 : Fin 3) _ _ _))

theorem b1 : V3 m outs c main_v53 = Net.layerRow (0 : Fin 3) (m ((c : Thread nD τ).loc main_arg13)) :=
  Eq.trans (by after_results_simp <;> rfl) ((congrArg row ((LH.c3 m outs c main_arg13 (by decide)).trans (LH.a3 m outs c main_arg13 (by decide) (by decide) (by decide)))).trans (LH.biasRow _ (0 : Fin 3) _ _ _))

theorem b2 : V3 m outs c main_v54 = Net.layerRow (0 : Fin 3) (m ((c : Thread nD τ).loc main_arg15)) :=
  Eq.trans (by after_results_simp <;> rfl) ((congrArg row ((LH.c3 m outs c main_arg15 (by decide)).trans (LH.a3 m outs c main_arg15 (by decide) (by decide) (by decide)))).trans (LH.biasRow _ (0 : Fin 3) _ _ _))

theorem msgf : V5 m outs c main_v56 = outs 4 main_v55 c :=
  (show V5 m outs c main_v56 = V4 m outs c main_v55 by after_results_simp <;> rfl).trans (Function.update_self _ _ _)

theorem zero : V5 m outs c main_v57 = Cert.ReferenceIdeal.Read.val_main_v57 (F := Ideal) := by after_results_simp <;> rfl

theorem dcol : V5 m outs c main_v58 = Cert.ReferenceIdeal.Read.val_main_v58 (F := Ideal) (m ((c : Thread nD τ).loc main_arg2)) := by
  have e : V5 m outs c main_v58 = (broadcastInDim S320000x1 ![0] bcast_S320000_S320000x1_0 (V5 m outs c main_v17 : IVec S320000 32) : IVec S320000x1 32) := by after_results_simp <;> rfl
  rw [e, (LH.c5 m outs c main_v17 (by decide)).trans (LH.head17 m outs c)]
  rfl

theorem agg : V5 m outs c main_v60 = Host.scatterAdd (F := Ideal) (φ := .f32) scatter_S20000x256_S320000x1_S320000x256_1_0_0_1 (V5 m outs c main_v57) (V5 m outs c main_v58) (V5 m outs c main_v56) := by after_results_simp <;> rfl

theorem u1a : V5 m outs c main_v62 = Net.rowsFrom 0 256 (Net.layer (0 : Fin 3) (m ((c : Thread nD τ).loc main_arg16))) (by norm_num) :=
  Eq.trans (by after_results_simp <;> rfl) ((congrArg slab ((LH.c5 m outs c main_v24 (by decide)).trans (LH.head24 m outs c))).trans (LH.stackSlab _ 0 _ (0 : Fin 3) _ _ _ _))

theorem u1b : V5 m outs c main_v64 = Net.rowsFrom 256 256 (Net.layer (0 : Fin 3) (m ((c : Thread nD τ).loc main_arg16))) (by norm_num) :=
  Eq.trans (by after_results_simp <;> rfl) ((congrArg slab ((LH.c5 m outs c main_v26 (by decide)).trans (LH.head26 m outs c))).trans (LH.stackSlab _ 256 _ (0 : Fin 3) _ _ _ _))

theorem u2 : V5 m outs c main_v68 = Net.layer (0 : Fin 3) (m ((c : Thread nD τ).loc main_arg18)) :=
  Eq.trans (by after_results_simp <;> rfl) ((congrArg slab ((LH.c5 m outs c main_v27 (by decide)).trans (LH.head27 m outs c))).trans (LH.stackLayer _ (0 : Fin 3) _ _ _))

theorem ub1 : V5 m outs c main_v71 = Net.layerRow (0 : Fin 3) (m ((c : Thread nD τ).loc main_arg17)) :=
  Eq.trans (by after_results_simp <;> rfl) ((congrArg row ((LH.c5 m outs c main_arg17 (by decide)).trans (LH.a3 m outs c main_arg17 (by decide) (by decide) (by decide)))).trans (LH.biasRow _ (0 : Fin 3) _ _ _))

theorem ub2 : V5 m outs c main_v72 = Net.layerRow (0 : Fin 3) (m ((c : Thread nD τ).loc main_arg19)) :=
  Eq.trans (by after_results_simp <;> rfl) ((congrArg row ((LH.c5 m outs c main_arg19 (by decide)).trans (LH.a3 m outs c main_arg19 (by decide) (by decide) (by decide)))).trans (LH.biasRow _ (0 : Fin 3) _ _ _))

theorem featB : V5 m outs c main_v28 = outs 2 main_v13 c :=
  (V5_of m outs c main_v28 (by decide)).trans ((V4_of m outs c main_v28 (by decide)).trans feat)

theorem res : V5 m outs c main_v13 = outs 2 main_v13 c :=
  (V5_of m outs c main_v13 (by decide)).trans ((V4_of m outs c main_v13 (by decide)).trans
    ((V3_of m outs c main_v13 (by decide)).trans (Function.update_self _ _ _)))

end L0

open L0 in
theorem ker_layer0
    (h1 : outs 4 main_v55 c = Cert.Spec.mlp2Mat (V3 m outs c main_v44) (V3 m outs c main_v46) (V3 m outs c main_v53) (V3 m outs c main_v50) (V3 m outs c main_v54) (V3 m outs c main_v35) (V3 m outs c main_v42))
    (h2 : outs 6 main_v73 c = Cert.Spec.updMat (V5 m outs c main_v62) (V5 m outs c main_v64) (V5 m outs c main_v71) (V5 m outs c main_v68) (V5 m outs c main_v72) (V5 m outs c main_v28) (V5 m outs c main_v60) (V5 m outs c main_v13)) :
    outs 6 main_v73 c = Cert.Net.layerStep (0 : Fin 3) (m ((c : Thread nD τ).loc main_arg2)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (outs 2 main_v13 c) := by
  rw [h2, u1a, u1b, ub1, u2, ub2, featB, agg, zero, dcol, msgf, h1, w1a, w1b, b1, w2, b2, ga, gb, feat, src, dst, res]
  rfl

end Cert.KernelIdeal.HostVal

end
-- ==== Proof.KI.HostLayer1.lean ====
import proofs.«411300_j19516331393713_3_alg».proof.Proof.KI.HostHead

noncomputable section

namespace Cert.KernelIdeal.HostVal

open Idealize.ShloMosaic Idealize.ShloMosaic.TcCoe Idealize.ShloMosaic.ValueIdx Idealize.SL.Sem
open Cert.KernelIdeal Cert.KernelIdeal.Gen Cert.Spec

variable (m : (ℓ : Loc nD τ sig) → Buf (Elt Ideal) ℓ) (outs : Outs (F := Ideal)) (c : Dev nD)

namespace L1

variable {m outs c}

def slab (X : FVec Ideal S3x256x256 .bf16) : Mat 256 256 :=
  shapeCast S256x256 (extractStridedSlice S1x256x256 ![1, 0, 0] X slices_S3x256x256_S1x256x256_1_0_0) shapeCasts_S1x256x256_S256x256

def row (X : Mat 3 256) : Mat 1 256 :=
  shapeCast S1x256 (shapeCast S256 (extractStridedSlice S1x256 ![1, 0] X slices_S3x256_S1x256_1_0) shapeCasts_S1x256_S256) shapeCasts_S256_S1x256

theorem feat : V7 m outs c main_v74 = outs 6 main_v73 c :=
  (show V7 m outs c main_v74 = V6 m outs c main_v73 by after_results_simp <;> rfl).trans (Function.update_self _ _ _)

theorem src : V7 m outs c main_v80 = Cert.ReferenceIdeal.Read.val_main_v30 (F := Ideal) (m ((c : Thread nD τ).loc main_arg2)) :=
  Eq.trans (by after_results_simp <;> rfl) ((congrArg LH.idxCol ((LH.c7 m outs c main_v15 (by decide)).trans (LH.head15 m outs c))).trans (LH.idxCol_src _))

theorem dst : V7 m outs c main_v87 = Cert.ReferenceIdeal.Read.val_main_v37 (F := Ideal) (m ((c : Thread nD τ).loc main_arg2)) :=
  Eq.trans (by after_results_simp <;> rfl) ((congrArg LH.idxCol ((LH.c7 m outs c main_v17 (by decide)).trans (LH.head17 m outs c))).trans (LH.idxCol_dst _))

theorem ga : V7 m outs c main_v81 = Host.gather gather_S20000x256_S320000x1_S320000x256_1_0_n_n_0_1_1256 (V7 m outs c main_v74) (V7 m outs c main_v80) := by after_results_simp <;> rfl

theorem gb : V7 m outs c main_v88 = Host.gather gather_S20000x256_S320000x1_S320000x256_1_0_n_n_0_1_1256 (V7 m outs c main_v74) (V7 m outs c main_v87) := by after_results_simp <;> rfl

theorem w1a : V7 m outs c main_v90 = Net.rowsFrom 0 256 (Net.layer (1 : Fin 3) (m ((c : Thread nD τ).loc main_arg12))) (by norm_num) :=
  Eq.trans (by after_results_simp <;> rfl) ((congrArg slab ((LH.c7 m outs c main_v19 (by decide)).trans (LH.head19 m outs c))).trans (LH.stackSlab _ 0 _ (1 : Fin 3) _ _ _ _))

theorem w1b : V7 m outs c main_v92 = Net.rowsFrom 256 256 (Net.layer (1 : Fin 3) (m ((c : Thread nD τ).loc main_arg12))) (by norm_num) :=
  Eq.trans (by after_results_simp <;> rfl) ((congrArg slab ((LH.c7 m outs c main_v21 (by decide)).trans (LH.head21 m outs c))).trans (LH.stackSlab _ 256 _ (1 : Fin 3) _ _ _ _))

theorem w2 : V7 m outs c main_v96 = Net.layer (1 : Fin 3) (m ((c : Thread nD τ).loc main_arg14)) :=
  Eq.trans (by after_results_simp <;> rfl) ((congrArg slab ((LH.c7 m outs c main_v22 (by decide)).trans (LH.head22 m outs c))).trans (LH.stackLayer _ (1 : Fin 3) _ _ _))

theorem b1 : V7 m outs c main_v99 = Net.layerRow (1 : Fin 3) (m ((c : Thread nD τ).loc main_arg13)) :=
  Eq.trans (by after_results_simp <;> rfl) ((congrArg row ((LH.c7 m outs c main_arg13 (by decide)).trans (LH.a3 m outs c main_arg13 (by decide) (by decide) (by decide)))).trans (LH.biasRow _ (1 : Fin 3) _ _ _))

theorem b2 : V7 m outs c main_v100 = Net.layerRow (1 : Fin 3) (m ((c : Thread nD τ).loc main_arg15)) :=
  Eq.trans (by after_results_simp <;> rfl) ((congrArg row ((LH.c7 m outs c main_arg15 (by decide)).trans (LH.a3 m outs c main_arg15 (by decide) (by decide) (by decide)))).trans (LH.biasRow _ (1 : Fin 3) _ _ _))

theorem msgf : V9 m outs c main_v102 = outs 8 main_v101 c :=
  (show V9 m outs c main_v102 = V8 m outs c main_v101 by after_results_simp <;> rfl).trans (Function.update_self _ _ _)

theorem zero : V9 m outs c main_v103 = Cert.ReferenceIdeal.Read.val_main_v57 (F := Ideal) := by after_results_simp <;> rfl

theorem dcol : V9 m outs c main_v104 = Cert.ReferenceIdeal.Read.val_main_v58 (F := Ideal) (m ((c : Thread nD τ).loc main_arg2)) := by
  have e : V9 m outs c main_v104 = (broadcastInDim S320000x1 ![0] bcast_S320000_S320000x1_0 (V9 m outs c main_v17 : IVec S320000 32) : IVec S320000x1 32) := by after_results_simp <;> rfl
  rw [e, (LH.c9 m outs c main_v17 (by decide)).trans (LH.head17 m outs c)]
  rfl

theorem agg : V9 m outs c main_v106 = Host.scatterAdd (F := Ideal) (φ := .f32) scatter_S20000x256_S320000x1_S320000x256_1_0_0_1 (V9 m outs c main_v103) (V9 m outs c main_v104) (V9 m outs c main_v102) := by after_results_simp <;> rfl

theorem u1a : V9 m outs c main_v108 = Net.rowsFrom 0 256 (Net.layer (1 : Fin 3) (m ((c : Thread nD τ).loc main_arg16))) (by norm_num) :=
  Eq.trans (by after_results_simp <;> rfl) ((congrArg slab ((LH.c9 m outs c main_v24 (by decide)).trans (LH.head24 m outs c))).trans (LH.stackSlab _ 0 _ (1 : Fin 3) _ _ _ _))

theorem u1b : V9 m outs c main_v110 = Net.rowsFrom 256 256 (Net.layer (1 : Fin 3) (m ((c : Thread nD τ).loc main_arg16))) (by norm_num) :=
  Eq.trans (by after_results_simp <;> rfl) ((congrArg slab ((LH.c9 m outs c main_v26 (by decide)).trans (LH.head26 m outs c))).trans (LH.stackSlab _ 256 _ (1 : Fin 3) _ _ _ _))

theorem u2 : V9 m outs c main_v114 = Net.layer (1 : Fin 3) (m ((c : Thread nD τ).loc main_arg18)) :=
  Eq.trans (by after_results_simp <;> rfl) ((congrArg slab ((LH.c9 m outs c main_v27 (by decide)).trans (LH.head27 m outs c))).trans (LH.stackLayer _ (1 : Fin 3) _ _ _))

theorem ub1 : V9 m outs c main_v117 = Net.layerRow (1 : Fin 3) (m ((c : Thread nD τ).loc main_arg17)) :=
  Eq.trans (by after_results_simp <;> rfl) ((congrArg row ((LH.c9 m outs c main_arg17 (by decide)).trans (LH.a3 m outs c main_arg17 (by decide) (by decide) (by decide)))).trans (LH.biasRow _ (1 : Fin 3) _ _ _))

theorem ub2 : V9 m outs c main_v118 = Net.layerRow (1 : Fin 3) (m ((c : Thread nD τ).loc main_arg19)) :=
  Eq.trans (by after_results_simp <;> rfl) ((congrArg row ((LH.c9 m outs c main_arg19 (by decide)).trans (LH.a3 m outs c main_arg19 (by decide) (by decide) (by decide)))).trans (LH.biasRow _ (1 : Fin 3) _ _ _))

theorem featB : V9 m outs c main_v74 = outs 6 main_v73 c :=
  (V9_of m outs c main_v74 (by decide)).trans ((V8_of m outs c main_v74 (by decide)).trans feat)

theorem res : V9 m outs c main_v73 = outs 6 main_v73 c :=
  (V9_of m outs c main_v73 (by decide)).trans ((V8_of m outs c main_v73 (by decide)).trans
    ((V7_of m outs c main_v73 (by decide)).trans (Function.update_self _ _ _)))

end L1

open L1 in
theorem ker_layer1
    (h1 : outs 8 main_v101 c = Cert.Spec.mlp2Mat (V7 m outs c main_v90) (V7 m outs c main_v92) (V7 m outs c main_v99) (V7 m outs c main_v96) (V7 m outs c main_v100) (V7 m outs c main_v81) (V7 m outs c main_v88))
    (h2 : outs 10 main_v119 c = Cert.Spec.updMat (V9 m outs c main_v108) (V9 m outs c main_v110) (V9 m outs c main_v117) (V9 m outs c main_v114) (V9 m outs c main_v118) (V9 m outs c main_v74) (V9 m outs c main_v106) (V9 m outs c main_v73)) :
    outs 10 main_v119 c = Cert.Net.layerStep (1 : Fin 3) (m ((c : Thread nD τ).loc main_arg2)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (outs 6 main_v73 c) := by
  rw [h2, u1a, u1b, ub1, u2, ub2, featB, agg, zero, dcol, msgf, h1, w1a, w1b, b1, w2, b2, ga, gb, feat, src, dst, res]
  rfl

end Cert.KernelIdeal.HostVal

end
-- ==== Proof.KI.HostLayer2.lean ====
import proofs.«411300_j19516331393713_3_alg».proof.Proof.KI.HostHead

noncomputable section

namespace Cert.KernelIdeal.HostVal

open Idealize.ShloMosaic Idealize.ShloMosaic.TcCoe Idealize.ShloMosaic.ValueIdx Idealize.SL.Sem
open Cert.KernelIdeal Cert.KernelIdeal.Gen Cert.Spec

variable (m : (ℓ : Loc nD τ sig) → Buf (Elt Ideal) ℓ) (outs : Outs (F := Ideal)) (c : Dev nD)

namespace L2

variable {m outs c}

def slab (X : FVec Ideal S3x256x256 .bf16) : Mat 256 256 :=
  shapeCast S256x256 (extractStridedSlice S1x256x256 ![2, 0, 0] X slices_S3x256x256_S1x256x256_2_0_0) shapeCasts_S1x256x256_S256x256

def row (X : Mat 3 256) : Mat 1 256 :=
  shapeCast S1x256 (shapeCast S256 (extractStridedSlice S1x256 ![2, 0] X slices_S3x256_S1x256_2_0) shapeCasts_S1x256_S256) shapeCasts_S256_S1x256

theorem feat : V11 m outs c main_v120 = outs 10 main_v119 c :=
  (show V11 m outs c main_v120 = V10 m outs c main_v119 by after_results_simp <;> rfl).trans (Function.update_self _ _ _)

theorem src : V11 m outs c main_v126 = Cert.ReferenceIdeal.Read.val_main_v30 (F := Ideal) (m ((c : Thread nD τ).loc main_arg2)) :=
  Eq.trans (by after_results_simp <;> rfl) ((congrArg LH.idxCol ((LH.c11 m outs c main_v15 (by decide)).trans (LH.head15 m outs c))).trans (LH.idxCol_src _))

theorem dst : V11 m outs c main_v133 = Cert.ReferenceIdeal.Read.val_main_v37 (F := Ideal) (m ((c : Thread nD τ).loc main_arg2)) :=
  Eq.trans (by after_results_simp <;> rfl) ((congrArg LH.idxCol ((LH.c11 m outs c main_v17 (by decide)).trans (LH.head17 m outs c))).trans (LH.idxCol_dst _))

theorem ga : V11 m outs c main_v127 = Host.gather gather_S20000x256_S320000x1_S320000x256_1_0_n_n_0_1_1256 (V11 m outs c main_v120) (V11 m outs c main_v126) := by after_results_simp <;> rfl

theorem gb : V11 m outs c main_v134 = Host.gather gather_S20000x256_S320000x1_S320000x256_1_0_n_n_0_1_1256 (V11 m outs c main_v120) (V11 m outs c main_v133) := by after_results_simp <;> rfl

theorem w1a : V11 m outs c main_v136 = Net.rowsFrom 0 256 (Net.layer (2 : Fin 3) (m ((c : Thread nD τ).loc main_arg12))) (by norm_num) :=
  Eq.trans (by after_results_simp <;> rfl) ((congrArg slab ((LH.c11 m outs c main_v19 (by decide)).trans (LH.head19 m outs c))).trans (LH.stackSlab _ 0 _ (2 : Fin 3) _ _ _ _))

theorem w1b : V11 m outs c main_v138 = Net.rowsFrom 256 256 (Net.layer (2 : Fin 3) (m ((c : Thread nD τ).loc main_arg12))) (by norm_num) :=
  Eq.trans (by after_results_simp <;> rfl) ((congrArg slab ((LH.c11 m outs c main_v21 (by decide)).trans (LH.head21 m outs c))).trans (LH.stackSlab _ 256 _ (2 : Fin 3) _ _ _ _))

theorem w2 : V11 m outs c main_v142 = Net.layer (2 : Fin 3) (m ((c : Thread nD τ).loc main_arg14)) :=
  Eq.trans (by after_results_simp <;> rfl) ((congrArg slab ((LH.c11 m outs c main_v22 (by decide)).trans (LH.head22 m outs c))).trans (LH.stackLayer _ (2 : Fin 3) _ _ _))

theorem b1 : V11 m outs c main_v145 = Net.layerRow (2 : Fin 3) (m ((c : Thread nD τ).loc main_arg13)) :=
  Eq.trans (by after_results_simp <;> rfl) ((congrArg row ((LH.c11 m outs c main_arg13 (by decide)).trans (LH.a3 m outs c main_arg13 (by decide) (by decide) (by decide)))).trans (LH.biasRow _ (2 : Fin 3) _ _ _))

theorem b2 : V11 m outs c main_v146 = Net.layerRow (2 : Fin 3) (m ((c : Thread nD τ).loc main_arg15)) :=
  Eq.trans (by after_results_simp <;> rfl) ((congrArg row ((LH.c11 m outs c main_arg15 (by decide)).trans (LH.a3 m outs c main_arg15 (by decide) (by decide) (by decide)))).trans (LH.biasRow _ (2 : Fin 3) _ _ _))

theorem msgf : V13 m outs c main_v148 = outs 12 main_v147 c :=
  (show V13 m outs c main_v148 = V12 m outs c main_v147 by after_results_simp <;> rfl).trans (Function.update_self _ _ _)

theorem zero : V13 m outs c main_v149 = Cert.ReferenceIdeal.Read.val_main_v57 (F := Ideal) := by after_results_simp <;> rfl

theorem dcol : V13 m outs c main_v150 = Cert.ReferenceIdeal.Read.val_main_v58 (F := Ideal) (m ((c : Thread nD τ).loc main_arg2)) := by
  have e : V13 m outs c main_v150 = (broadcastInDim S320000x1 ![0] bcast_S320000_S320000x1_0 (V13 m outs c main_v17 : IVec S320000 32) : IVec S320000x1 32) := by after_results_simp <;> rfl
  rw [e, (LH.c13 m outs c main_v17 (by decide)).trans (LH.head17 m outs c)]
  rfl

theorem agg : V13 m outs c main_v152 = Host.scatterAdd (F := Ideal) (φ := .f32) scatter_S20000x256_S320000x1_S320000x256_1_0_0_1 (V13 m outs c main_v149) (V13 m outs c main_v150) (V13 m outs c main_v148) := by after_results_simp <;> rfl

theorem u1a : V13 m outs c main_v154 = Net.rowsFrom 0 256 (Net.layer (2 : Fin 3) (m ((c : Thread nD τ).loc main_arg16))) (by norm_num) :=
  Eq.trans (by after_results_simp <;> rfl) ((congrArg slab ((LH.c13 m outs c main_v24 (by decide)).trans (LH.head24 m outs c))).trans (LH.stackSlab _ 0 _ (2 : Fin 3) _ _ _ _))

theorem u1b : V13 m outs c main_v156 = Net.rowsFrom 256 256 (Net.layer (2 : Fin 3) (m ((c : Thread nD τ).loc main_arg16))) (by norm_num) :=
  Eq.trans (by after_results_simp <;> rfl) ((congrArg slab ((LH.c13 m outs c main_v26 (by decide)).trans (LH.head26 m outs c))).trans (LH.stackSlab _ 256 _ (2 : Fin 3) _ _ _ _))

theorem u2 : V13 m outs c main_v160 = Net.layer (2 : Fin 3) (m ((c : Thread nD τ).loc main_arg18)) :=
  Eq.trans (by after_results_simp <;> rfl) ((congrArg slab ((LH.c13 m outs c main_v27 (by decide)).trans (LH.head27 m outs c))).trans (LH.stackLayer _ (2 : Fin 3) _ _ _))

theorem ub1 : V13 m outs c main_v163 = Net.layerRow (2 : Fin 3) (m ((c : Thread nD τ).loc main_arg17)) :=
  Eq.trans (by after_results_simp <;> rfl) ((congrArg row ((LH.c13 m outs c main_arg17 (by decide)).trans (LH.a3 m outs c main_arg17 (by decide) (by decide) (by decide)))).trans (LH.biasRow _ (2 : Fin 3) _ _ _))

theorem ub2 : V13 m outs c main_v164 = Net.layerRow (2 : Fin 3) (m ((c : Thread nD τ).loc main_arg19)) :=
  Eq.trans (by after_results_simp <;> rfl) ((congrArg row ((LH.c13 m outs c main_arg19 (by decide)).trans (LH.a3 m outs c main_arg19 (by decide) (by decide) (by decide)))).trans (LH.biasRow _ (2 : Fin 3) _ _ _))

theorem featB : V13 m outs c main_v120 = outs 10 main_v119 c :=
  (V13_of m outs c main_v120 (by decide)).trans ((V12_of m outs c main_v120 (by decide)).trans feat)

theorem res : V13 m outs c main_v119 = outs 10 main_v119 c :=
  (V13_of m outs c main_v119 (by decide)).trans ((V12_of m outs c main_v119 (by decide)).trans
    ((V11_of m outs c main_v119 (by decide)).trans (Function.update_self _ _ _)))

end L2

open L2 in
theorem ker_layer2
    (h1 : outs 12 main_v147 c = Cert.Spec.mlp2Mat (V11 m outs c main_v136) (V11 m outs c main_v138) (V11 m outs c main_v145) (V11 m outs c main_v142) (V11 m outs c main_v146) (V11 m outs c main_v127) (V11 m outs c main_v134))
    (h2 : outs 14 main_v165 c = Cert.Spec.updMat (V13 m outs c main_v154) (V13 m outs c main_v156) (V13 m outs c main_v163) (V13 m outs c main_v160) (V13 m outs c main_v164) (V13 m outs c main_v120) (V13 m outs c main_v152) (V13 m outs c main_v119)) :
    outs 14 main_v165 c = Cert.Net.layerStep (2 : Fin 3) (m ((c : Thread nD τ).loc main_arg2)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (outs 10 main_v119 c) := by
  rw [h2, u1a, u1b, ub1, u2, ub2, featB, agg, zero, dcol, msgf, h1, w1a, w1b, b1, w2, b2, ga, gb, feat, src, dst, res]
  rfl

end Cert.KernelIdeal.HostVal

end
-- ==== Proof.LibRowTake.lean ====
import Idealize.ShloMosaic.Lib.ValueIdx

noncomputable section

open scoped BigOperators

namespace Idealize.ShloMosaic.RowTake

open Idealize.ShloMosaic Idealize.ShloMosaic.ValueIdx

section Gather
variable {α : Type}

/-- Whole rows of an `N × C` matrix taken through a column of `R` row numbers. -/
abbrev rowGatherDims (N R C : Nat)
    (wf : GatherDims.WF ⟨2, ![N, C]⟩ ⟨2, ![R, 1]⟩ ⟨2, ![R, C]⟩ [1] [0] [] [0] [] 1 ![1, C]) :
    GatherDims ⟨2, ![N, C]⟩ ⟨2, ![R, 1]⟩ ⟨2, ![R, C]⟩ where
  offsetDims := [1]
  collapsedSliceDims := [0]
  operandBatchingDims := []
  startIndicesBatchingDims := []
  startIndexMap := [0]
  indexVectorDim := 1
  sliceSizes := ![1, C]
  wf := wf

theorem rowGather_start_row {N R C w : Nat}
    (wf : GatherDims.WF ⟨2, ![N, C]⟩ ⟨2, ![R, 1]⟩ ⟨2, ![R, C]⟩ [1] [0] [] [0] [] 1 ![1, C])
    (idx : IVec ⟨2, ![R, 1]⟩ w) (e : Fin R) (c : Fin C) :
    (rowGatherDims N R C wf).start (ix2 e c) idx 0 = min (idx (ix2 e 0)).toInt.toNat (N - 1) := by
  unfold GatherDims.start
  rw [dif_pos (show (0 : Fin 2) ∈ ([0] : List (Fin 2)) from List.mem_singleton.mpr rfl)]
  have hsi : (rowGatherDims N R C wf).siIdx (ix2 e c) ⟨List.idxOf (0 : Fin 2) (rowGatherDims N R C wf).startIndexMap,
      List.idxOf_lt_length_iff.2 (List.mem_singleton.mpr rfl)⟩ = ix2 e 0 := by
    funext b; refine Fin.ext ?_
    match b with
    | ⟨0, _⟩ => rfl
    | ⟨1, _⟩ => rfl
  rw [hsi]
  rfl

theorem rowGather_start_col {N R C w : Nat}
    (wf : GatherDims.WF ⟨2, ![N, C]⟩ ⟨2, ![R, 1]⟩ ⟨2, ![R, C]⟩ [1] [0] [] [0] [] 1 ![1, C])
    (idx : IVec ⟨2, ![R, 1]⟩ w) (e : Fin R) (c : Fin C) :
    (rowGatherDims N R C wf).start (ix2 e c) idx 1 = 0 := by
  unfold GatherDims.start
  rw [dif_neg (show (1 : Fin 2) ∉ ([0] : List (Fin 2)) from by decide)]

theorem rowGather_off_row {N R C : Nat}
    (wf : GatherDims.WF ⟨2, ![N, C]⟩ ⟨2, ![R, 1]⟩ ⟨2, ![R, C]⟩ [1] [0] [] [0] [] 1 ![1, C]) (e : Fin R) (c : Fin C) :
    (rowGatherDims N R C wf).offCoord (ix2 e c) 0 = 0 :=
  GatherDims.offCoord_eq_zero _ _ _ (fun h => ((GatherDims.mem_sKept _ _).mp h).1 (List.mem_singleton.mpr rfl))

theorem rowGather_off_col {N R C : Nat}
    (wf : GatherDims.WF ⟨2, ![N, C]⟩ ⟨2, ![R, 1]⟩ ⟨2, ![R, C]⟩ [1] [0] [] [0] [] 1 ![1, C]) (e : Fin R) (c : Fin C) :
    (rowGatherDims N R C wf).offCoord (ix2 e c) 1 = c.val := by
  unfold GatherDims.offCoord
  rw [dif_pos ((GatherDims.mem_sKept _ _).mpr
    ⟨show (1 : Fin 2) ∉ ([0] : List (Fin 2)) from by decide, List.not_mem_nil⟩)]
  rfl

/-- Entry `(e, c)` of the rows taken through `idx` is `x` at column `c` of the row that `idx[e, 0]` names, read signed and clamped into `[0, N − 1]`. -/
theorem rowGather_apply {N R C w : Nat} (hN : 0 < N)
    (wf : GatherDims.WF ⟨2, ![N, C]⟩ ⟨2, ![R, 1]⟩ ⟨2, ![R, C]⟩ [1] [0] [] [0] [] 1 ![1, C])
    (x : (⟨2, ![N, C]⟩ : Shape).Idx → α) (idx : IVec ⟨2, ![R, 1]⟩ w) (e : Fin R) (c : Fin C) :
    Host.gather (rowGatherDims N R C wf) x idx (ix2 e c)
      = x (ix2 ⟨min (idx (ix2 e 0)).toInt.toNat (N - 1), by omega⟩ c) := by
  unfold Host.gather
  congr 1
  funext a
  refine Fin.ext ?_
  show (rowGatherDims N R C wf).start (ix2 e c) idx a + (rowGatherDims N R C wf).batchCoord (ix2 e c) a
    + (rowGatherDims N R C wf).offCoord (ix2 e c) a = _
  rw [GatherDims.batchCoord_eq_zero _ _ _ List.not_mem_nil, Nat.add_zero]
  match a with
  | ⟨0, _⟩ =>
    exact (show (rowGatherDims N R C wf).start (ix2 e c) idx 0 + (rowGatherDims N R C wf).offCoord (ix2 e c) 0
        = min (idx (ix2 e 0)).toInt.toNat (N - 1) by rw [rowGather_start_row, rowGather_off_row, Nat.add_zero])
  | ⟨1, _⟩ =>
    exact (show (rowGatherDims N R C wf).start (ix2 e c) idx 1 + (rowGatherDims N R C wf).offCoord (ix2 e c) 1
        = c.val by rw [rowGather_start_col, rowGather_off_col, Nat.zero_add])

end Gather

end Idealize.ShloMosaic.RowTake

end
-- ==== Proof.LibBlockTake.lean ====
import Idealize.ShloMosaic.Lib.ValueIdx

noncomputable section

namespace Idealize.ShloMosaic.BlockTake

open Idealize.ShloMosaic Idealize.ShloMosaic.ValueIdx

variable {α : Type}

/-- `1 × B` blocks of an `N × C` matrix taken through `R` pairs of a row number and a first column. -/
abbrev blockGatherDims (N R C B : Nat)
    (wf : GatherDims.WF ⟨2, ![N, C]⟩ ⟨2, ![R, 2]⟩ ⟨2, ![R, B]⟩ [1] [0] [] [0, 1] [] 1 ![1, B]) :
    GatherDims ⟨2, ![N, C]⟩ ⟨2, ![R, 2]⟩ ⟨2, ![R, B]⟩ where
  offsetDims := [1]
  collapsedSliceDims := [0]
  operandBatchingDims := []
  startIndicesBatchingDims := []
  startIndexMap := [0, 1]
  indexVectorDim := 1
  sliceSizes := ![1, B]
  wf := wf

section
variable {N R C B w : Nat}
  (wf : GatherDims.WF ⟨2, ![N, C]⟩ ⟨2, ![R, 2]⟩ ⟨2, ![R, B]⟩ [1] [0] [] [0, 1] [] 1 ![1, B])

theorem blockGather_siIdx (e : Fin R) (j : Fin B) (k : Fin 2)
    (hk : k.val < (blockGatherDims N R C B wf).startIndexMap.length) :
    (blockGatherDims N R C B wf).siIdx (ix2 e j) ⟨k.val, hk⟩ = ix2 e k := by
  funext b; refine Fin.ext ?_
  match b with
  | ⟨0, _⟩ => rfl
  | ⟨1, _⟩ => rfl

theorem blockGather_start_row (idx : IVec ⟨2, ![R, 2]⟩ w) (e : Fin R) (j : Fin B) :
    (blockGatherDims N R C B wf).start (ix2 e j) idx 0 = min (idx (ix2 e 0)).toInt.toNat (N - 1) := by
  unfold GatherDims.start
  rw [dif_pos (show (0 : Fin 2) ∈ ([0, 1] : List (Fin 2)) from by decide)]
  have hsi : (blockGatherDims N R C B wf).siIdx (ix2 e j)
      ⟨List.idxOf (0 : Fin 2) (blockGatherDims N R C B wf).startIndexMap,
        List.idxOf_lt_length_iff.2 (show (0 : Fin 2) ∈ ([0, 1] : List (Fin 2)) from by decide)⟩ = ix2 e 0 :=
    blockGather_siIdx wf e j 0 _
  rw [hsi]
  rfl

theorem blockGather_start_col (idx : IVec ⟨2, ![R, 2]⟩ w) (e : Fin R) (j : Fin B) :
    (blockGatherDims N R C B wf).start (ix2 e j) idx 1 = min (idx (ix2 e 1)).toInt.toNat (C - B) := by
  unfold GatherDims.start
  rw [dif_pos (show (1 : Fin 2) ∈ ([0, 1] : List (Fin 2)) from by decide)]
  have hsi : (blockGatherDims N R C B wf).siIdx (ix2 e j)
      ⟨List.idxOf (1 : Fin 2) (blockGatherDims N R C B wf).startIndexMap,
        List.idxOf_lt_length_iff.2 (show (1 : Fin 2) ∈ ([0, 1] : List (Fin 2)) from by decide)⟩ = ix2 e 1 :=
    blockGather_siIdx wf e j 1 _
  rw [hsi]
  rfl

theorem blockGather_off_row (e : Fin R) (j : Fin B) : (blockGatherDims N R C B wf).offCoord (ix2 e j) 0 = 0 :=
  GatherDims.offCoord_eq_zero _ _ _ (fun h => ((GatherDims.mem_sKept _ _).mp h).1 (List.mem_singleton.mpr rfl))

theorem blockGather_off_col (e : Fin R) (j : Fin B) : (blockGatherDims N R C B wf).offCoord (ix2 e j) 1 = j.val := by
  unfold GatherDims.offCoord
  rw [dif_pos ((GatherDims.mem_sKept _ _).mpr
    ⟨show (1 : Fin 2) ∉ ([0] : List (Fin 2)) from by decide, List.not_mem_nil⟩)]
  rfl

/-- Entry `(e, j)` of the blocks taken through `idx` is `x` at the row `idx[e, 0]` clamped into `[0, N − 1]` and the column `idx[e, 1]` clamped into `[0, C − B]`, plus `j`. -/
theorem blockGather_apply (hN : 0 < N) (hB : B ≤ C)
    (x : (⟨2, ![N, C]⟩ : Shape).Idx → α) (idx : IVec ⟨2, ![R, 2]⟩ w) (e : Fin R) (j : Fin B) :
    Host.gather (blockGatherDims N R C B wf) x idx (ix2 e j)
      = x (ix2 ⟨min (idx (ix2 e 0)).toInt.toNat (N - 1), by omega⟩
              ⟨min (idx (ix2 e 1)).toInt.toNat (C - B) + j.val, by have := j.isLt; omega⟩) := by
  unfold Host.gather
  congr 1
  funext a
  refine Fin.ext ?_
  show (blockGatherDims N R C B wf).start (ix2 e j) idx a + (blockGatherDims N R C B wf).batchCoord (ix2 e j) a
    + (blockGatherDims N R C B wf).offCoord (ix2 e j) a = _
  rw [GatherDims.batchCoord_eq_zero _ _ _ List.not_mem_nil, Nat.add_zero]
  match a with
  | ⟨0, _⟩ =>
    exact (show (blockGatherDims N R C B wf).start (ix2 e j) idx 0 + (blockGatherDims N R C B wf).offCoord (ix2 e j) 0
        = min (idx (ix2 e 0)).toInt.toNat (N - 1) by rw [blockGather_start_row, blockGather_off_row, Nat.add_zero])
  | ⟨1, _⟩ =>
    exact (show (blockGatherDims N R C B wf).start (ix2 e j) idx 1 + (blockGatherDims N R C B wf).offCoord (ix2 e j) 1
        = min (idx (ix2 e 1)).toInt.toNat (C - B) + j.val by rw [blockGather_start_col, blockGather_off_col])

end

end Idealize.ShloMosaic.BlockTake

end
-- ==== Proof.KI.HostRelBlocks.lean ====
import proofs.«411300_j19516331393713_3_alg».proof.Proof.Gen.KernelIdeal.Regions
import proofs.«411300_j19516331393713_3_alg».proof.Proof.Net
import proofs.«411300_j19516331393713_3_alg».proof.Proof.LibRowTake
import proofs.«411300_j19516331393713_3_alg».proof.Proof.LibBlockTake
import Idealize.ShloMosaic.Lib.StableHlo.Run
import Idealize.ShloMosaic.Lib.ValueIdx
import Idealize.ShloMosaic.Lib.Pipeline.Value
import Idealize.ShloMosaic.Lib.ValueLayout

set_option maxRecDepth 2156

noncomputable section

namespace Cert.KernelIdeal.HostVal.Rel

open Idealize.ShloMosaic Idealize.ShloMosaic.TcCoe Idealize.ShloMosaic.ValueIdx
open Cert.KernelIdeal Cert.KernelIdeal.Gen Cert.Spec

theorem slice_rows_eq_blocks {α : Type}
    (wfR : GatherDims.WF ⟨2, ![20000, 18]⟩ ⟨2, ![100000, 1]⟩ ⟨2, ![100000, 18]⟩ [1] [0] [] [0] [] 1 ![1, 18])
    (wfB : GatherDims.WF ⟨2, ![20000, 18]⟩ ⟨2, ![100000, 2]⟩ ⟨2, ![100000, 3]⟩ [1] [0] [] [0, 1] [] 1 ![1, 3])
    (g : (⟨2, ![20000, 18]⟩ : Shape).Idx → α) (col kc : IVec ⟨2, ![100000, 1]⟩ 32)
    (o : Nat) (ho : o + 3 ≤ 18) (hkc : ∀ e : Fin 100000, (kc (ix2 e 0)).toInt.toNat = o)
    (hs : (⟨2, ![100000, 18]⟩ : Shape).Slices ![0, o] ⟨2, ![100000, 3]⟩)
    (hc : Shape.Concatenates [(⟨2, ![100000, 1]⟩ : Shape), ⟨2, ![100000, 1]⟩] ⟨2, ![100000, 2]⟩ 1) :
    extractStridedSlice ⟨2, ![100000, 3]⟩ ![0, o] (Host.gather (RowTake.rowGatherDims 20000 100000 18 wfR) g col) hs
      = Host.gather (BlockTake.blockGatherDims 20000 100000 18 3 wfB) g
          (concatenate ⟨2, ![100000, 2]⟩ 1 [⟨⟨2, ![100000, 1]⟩, col⟩, ⟨⟨2, ![100000, 1]⟩, kc⟩] hc) := by
  funext i
  obtain ⟨e, j, rfl⟩ : ∃ (e : Fin 100000) (j : Fin 3), i = ix2 e j := ⟨i 0, i 1, eq_ix2 i⟩

  have h0 : concatenate ⟨2, ![100000, 2]⟩ 1 [⟨⟨2, ![100000, 1]⟩, col⟩, ⟨⟨2, ![100000, 1]⟩, kc⟩] hc (ix2 e 0)
      = col (ix2 e 0) :=
    concatenate_pair_apply_left 1 col kc hc (ix2 e 0) rfl (ix2 e 0)
      (fun b => match b with | ⟨0, _⟩ => rfl | ⟨1, _⟩ => rfl)
  have h1 : concatenate ⟨2, ![100000, 2]⟩ 1 [⟨⟨2, ![100000, 1]⟩, col⟩, ⟨⟨2, ![100000, 1]⟩, kc⟩] hc (ix2 e 1)
      = kc (ix2 e 0) :=
    concatenate_pair_apply_right 1 col kc hc (ix2 e 1) rfl rfl (ix2 e 0)
      (fun b hb => match b, hb with | ⟨0, _⟩, _ => rfl | ⟨1, _⟩, hb => absurd rfl hb) rfl
  rw [BlockTake.blockGather_apply wfB (by decide) (by decide) g _ e j]
  rw [extractStridedSlice_apply ![0, o] _ hs (ix2 e j) (ix2 e ⟨o + j.val, by have := j.isLt; omega⟩)
    (fun a => match a with
      | ⟨0, _⟩ => by show e.val = 0 + e.val; omega
      | ⟨1, _⟩ => rfl)]
  rw [RowTake.rowGather_apply (by decide) wfR g col e]
  congr 1
  funext a
  refine Fin.ext ?_

  match a with
  | ⟨0, _⟩ =>
    show min (col (ix2 e 0)).toInt.toNat (20000 - 1)
      = min (concatenate ⟨2, ![100000, 2]⟩ 1 [⟨⟨2, ![100000, 1]⟩, col⟩, ⟨⟨2, ![100000, 1]⟩, kc⟩] hc
          (ix2 e 0)).toInt.toNat (20000 - 1)
    rw [h0]
  | ⟨1, _⟩ =>
    show o + j.val
      = min (concatenate ⟨2, ![100000, 2]⟩ 1 [⟨⟨2, ![100000, 1]⟩, col⟩, ⟨⟨2, ![100000, 1]⟩, kc⟩] hc
          (ix2 e 1)).toInt.toNat (18 - 3) + j.val
    rw [h1, hkc e]
    omega

theorem block_eq (o : Nat) (ho : o + 3 ≤ 18) (hs : S100000x18.Slices ![0, o] S100000x3)
    (g : (⟨S20000x18, .f32⟩ : BufTy).Contents (Elt Ideal))
    (col kc : (⟨S100000x1, .i32⟩ : BufTy).Contents (Elt Ideal))
    (hkc : ∀ e : Fin 100000, (kc (ix2 e 0)).toInt.toNat = o)
    (hc : Shape.Concatenates [Cert.ReferenceIdeal.S100000x1, Cert.ReferenceIdeal.S100000x1] Cert.ReferenceIdeal.S100000x2 1) :
    extractStridedSlice S100000x3 ![0, o]
        (Host.gather gather_S20000x18_S100000x1_S100000x18_1_0_n_n_0_1_118 g col) hs
      = Host.gather Cert.ReferenceIdeal.gather_S20000x18_S100000x2_S100000x3_1_0_n_n_01_1_13 g
          (concatenate Cert.ReferenceIdeal.S100000x2 1
            [⟨Cert.ReferenceIdeal.S100000x1, col⟩, ⟨Cert.ReferenceIdeal.S100000x1, kc⟩] hc) :=
  slice_rows_eq_blocks gather_S20000x18_S100000x1_S100000x18_1_0_n_n_0_1_118.wf
    Cert.ReferenceIdeal.gather_S20000x18_S100000x2_S100000x3_1_0_n_n_01_1_13.wf g col kc o ho hkc hs hc

section
variable (m : (ℓ : Loc nD τ sig) → Buf (Elt Ideal) ℓ) (outs : Outs (F := Ideal)) (c : Dev nD)

theorem V14_arg1 : V14 m outs c main_arg1 = m ((c : Thread nD τ).loc main_arg1) :=
  (V14_of m outs c main_arg1 (by decide)).trans <| (V13_of m outs c main_arg1 (by decide)).trans <|
  (V12_of m outs c main_arg1 (by decide)).trans <| (V11_of m outs c main_arg1 (by decide)).trans <|
  (V10_of m outs c main_arg1 (by decide)).trans <| (V9_of m outs c main_arg1 (by decide)).trans <|
  (V8_of m outs c main_arg1 (by decide)).trans <| (V7_of m outs c main_arg1 (by decide)).trans <|
  (V6_of m outs c main_arg1 (by decide)).trans <| (V5_of m outs c main_arg1 (by decide)).trans <|
  (V4_of m outs c main_arg1 (by decide)).trans <| (V3_of m outs c main_arg1 (by decide)).trans <|
  (V2_of m outs c main_arg1 (by decide)).trans <| (V1_of m c main_arg1 (by decide)).trans rfl

theorem V14_arg3 : V14 m outs c main_arg3 = m ((c : Thread nD τ).loc main_arg3) :=
  (V14_of m outs c main_arg3 (by decide)).trans <| (V13_of m outs c main_arg3 (by decide)).trans <|
  (V12_of m outs c main_arg3 (by decide)).trans <| (V11_of m outs c main_arg3 (by decide)).trans <|
  (V10_of m outs c main_arg3 (by decide)).trans <| (V9_of m outs c main_arg3 (by decide)).trans <|
  (V8_of m outs c main_arg3 (by decide)).trans <| (V7_of m outs c main_arg3 (by decide)).trans <|
  (V6_of m outs c main_arg3 (by decide)).trans <| (V5_of m outs c main_arg3 (by decide)).trans <|
  (V4_of m outs c main_arg3 (by decide)).trans <| (V3_of m outs c main_arg3 (by decide)).trans <|
  (V2_of m outs c main_arg3 (by decide)).trans <| (V1_of m c main_arg3 (by decide)).trans rfl

end

section
variable (m : (ℓ : Loc nD τ sig) → Buf (Elt Ideal) ℓ) (outs : Outs (F := Ideal)) (c : Dev nD)

set_option maxHeartbeats 2000000 in

theorem v176_eq :
    V15 m outs c main_v176
      = Host.gather gather_S20000x18_S100000x1_S100000x18_1_0_n_n_0_1_118 (m ((c : Thread nD τ).loc main_arg1))
          (Cert.ReferenceIdeal.Read.val_main_v205 (F := Ideal) (m ((c : Thread nD τ).loc main_arg3))) := by
  show StableHlo.after hostOps7 _ (Proc.devRef .tc main_v176) = _
  after_results_simp
  rw [V14_arg1 m outs c, V14_arg3 m outs c]
  rfl

set_option maxHeartbeats 2000000 in

theorem v183_eq :
    V15 m outs c main_v183
      = Host.gather gather_S20000x18_S100000x1_S100000x18_1_0_n_n_0_1_118 (m ((c : Thread nD τ).loc main_arg1))
          (Cert.ReferenceIdeal.Read.val_main_v196 (F := Ideal) (m ((c : Thread nD τ).loc main_arg3))) := by
  show StableHlo.after hostOps7 _ (Proc.devRef .tc main_v183) = _
  after_results
  rw [V14_arg1 m outs c, V14_arg3 m outs c]
  rfl

theorem blk_o0 (hs : S100000x18.Slices ![0, 0] S100000x3) :
    extractStridedSlice S100000x3 ![0, 0] (Host.gather gather_S20000x18_S100000x1_S100000x18_1_0_n_n_0_1_118 (m ((c : Thread nD τ).loc main_arg1)) (Cert.ReferenceIdeal.Read.val_main_v205 (F := Ideal) (m ((c : Thread nD τ).loc main_arg3)))) hs = Cert.ReferenceIdeal.Read.val_main_v208 (F := Ideal) (m ((c : Thread nD τ).loc main_arg1)) (m ((c : Thread nD τ).loc main_arg3)) := by
  unfold Cert.ReferenceIdeal.Read.val_main_v208 Cert.ReferenceIdeal.Read.val_main_v207
  exact block_eq 0 (by norm_num) hs _ (Cert.ReferenceIdeal.Read.val_main_v205 (F := Ideal) _) (Cert.ReferenceIdeal.Read.val_main_v206 (F := Ideal)) (fun e => by rw [Cert.ReferenceIdeal.Read.val_main_v206_apply, Cert.ReferenceIdeal.Read.val_main_c_18_apply]; rfl) _

theorem blk_s0 (hs : S100000x18.Slices ![0, 0] S100000x3) :
    extractStridedSlice S100000x3 ![0, 0] (Host.gather gather_S20000x18_S100000x1_S100000x18_1_0_n_n_0_1_118 (m ((c : Thread nD τ).loc main_arg1)) (Cert.ReferenceIdeal.Read.val_main_v196 (F := Ideal) (m ((c : Thread nD τ).loc main_arg3)))) hs = Cert.ReferenceIdeal.Read.val_main_v199 (F := Ideal) (m ((c : Thread nD τ).loc main_arg1)) (m ((c : Thread nD τ).loc main_arg3)) := by
  unfold Cert.ReferenceIdeal.Read.val_main_v199 Cert.ReferenceIdeal.Read.val_main_v198
  exact block_eq 0 (by norm_num) hs _ (Cert.ReferenceIdeal.Read.val_main_v196 (F := Ideal) _) (Cert.ReferenceIdeal.Read.val_main_v197 (F := Ideal)) (fun e => by rw [Cert.ReferenceIdeal.Read.val_main_v197_apply, Cert.ReferenceIdeal.Read.val_main_c_15_apply]; rfl) _

theorem blk_o3 (hs : S100000x18.Slices ![0, 3] S100000x3) :
    extractStridedSlice S100000x3 ![0, 3] (Host.gather gather_S20000x18_S100000x1_S100000x18_1_0_n_n_0_1_118 (m ((c : Thread nD τ).loc main_arg1)) (Cert.ReferenceIdeal.Read.val_main_v205 (F := Ideal) (m ((c : Thread nD τ).loc main_arg3)))) hs = Cert.ReferenceIdeal.Read.val_main_v220 (F := Ideal) (m ((c : Thread nD τ).loc main_arg1)) (m ((c : Thread nD τ).loc main_arg3)) := by
  unfold Cert.ReferenceIdeal.Read.val_main_v220 Cert.ReferenceIdeal.Read.val_main_v219
  exact block_eq 3 (by norm_num) hs _ (Cert.ReferenceIdeal.Read.val_main_v217 (F := Ideal) _) (Cert.ReferenceIdeal.Read.val_main_v218 (F := Ideal)) (fun e => by rw [Cert.ReferenceIdeal.Read.val_main_v218_apply, Cert.ReferenceIdeal.Read.val_main_c_21_apply]; rfl) _

theorem blk_s3 (hs : S100000x18.Slices ![0, 3] S100000x3) :
    extractStridedSlice S100000x3 ![0, 3] (Host.gather gather_S20000x18_S100000x1_S100000x18_1_0_n_n_0_1_118 (m ((c : Thread nD τ).loc main_arg1)) (Cert.ReferenceIdeal.Read.val_main_v196 (F := Ideal) (m ((c : Thread nD τ).loc main_arg3)))) hs = Cert.ReferenceIdeal.Read.val_main_v231 (F := Ideal) (m ((c : Thread nD τ).loc main_arg1)) (m ((c : Thread nD τ).loc main_arg3)) := by
  unfold Cert.ReferenceIdeal.Read.val_main_v231 Cert.ReferenceIdeal.Read.val_main_v230
  exact block_eq 3 (by norm_num) hs _ (Cert.ReferenceIdeal.Read.val_main_v228 (F := Ideal) _) (Cert.ReferenceIdeal.Read.val_main_v229 (F := Ideal)) (fun e => by rw [Cert.ReferenceIdeal.Read.val_main_v229_apply, Cert.ReferenceIdeal.Read.val_main_c_25_apply]; rfl) _

theorem blk_o15 (hs : S100000x18.Slices ![0, 15] S100000x3) :
    extractStridedSlice S100000x3 ![0, 15] (Host.gather gather_S20000x18_S100000x1_S100000x18_1_0_n_n_0_1_118 (m ((c : Thread nD τ).loc main_arg1)) (Cert.ReferenceIdeal.Read.val_main_v205 (F := Ideal) (m ((c : Thread nD τ).loc main_arg3)))) hs = Cert.ReferenceIdeal.Read.val_main_v244 (F := Ideal) (m ((c : Thread nD τ).loc main_arg1)) (m ((c : Thread nD τ).loc main_arg3)) := by
  unfold Cert.ReferenceIdeal.Read.val_main_v244 Cert.ReferenceIdeal.Read.val_main_v243
  exact block_eq 15 (by norm_num) hs _ (Cert.ReferenceIdeal.Read.val_main_v241 (F := Ideal) _) (Cert.ReferenceIdeal.Read.val_main_v242 (F := Ideal)) (fun e => by rw [Cert.ReferenceIdeal.Read.val_main_v242_apply, Cert.ReferenceIdeal.Read.val_main_c_29_apply]; rfl) _

theorem blk_s15 (hs : S100000x18.Slices ![0, 15] S100000x3) :
    extractStridedSlice S100000x3 ![0, 15] (Host.gather gather_S20000x18_S100000x1_S100000x18_1_0_n_n_0_1_118 (m ((c : Thread nD τ).loc main_arg1)) (Cert.ReferenceIdeal.Read.val_main_v196 (F := Ideal) (m ((c : Thread nD τ).loc main_arg3)))) hs = Cert.ReferenceIdeal.Read.val_main_v253 (F := Ideal) (m ((c : Thread nD τ).loc main_arg1)) (m ((c : Thread nD τ).loc main_arg3)) := by
  unfold Cert.ReferenceIdeal.Read.val_main_v253 Cert.ReferenceIdeal.Read.val_main_v252
  exact block_eq 15 (by norm_num) hs _ (Cert.ReferenceIdeal.Read.val_main_v250 (F := Ideal) _) (Cert.ReferenceIdeal.Read.val_main_v251 (F := Ideal)) (fun e => by rw [Cert.ReferenceIdeal.Read.val_main_v251_apply, Cert.ReferenceIdeal.Read.val_main_c_32_apply]; rfl) _

end

end Cert.KernelIdeal.HostVal.Rel

end
-- ==== Proof.KI.HostRelFeat.lean ====
import proofs.«411300_j19516331393713_3_alg».proof.Proof.KI.HostRelBlocks
import Idealize.ShloMosaic.Lib.StableHlo.Run
import Idealize.ShloMosaic.Lib.ValueIdx

set_option maxRecDepth 2156

noncomputable section

namespace Cert.KernelIdeal.HostVal.Rel

open Idealize.ShloMosaic Idealize.ShloMosaic.TcCoe Idealize.ShloMosaic.ValueIdx
open Cert.KernelIdeal Cert.KernelIdeal.Gen Cert.Spec

section
variable (m : (ℓ : Loc nD τ sig) → Buf (Elt Ideal) ℓ) (outs : Outs (F := Ideal)) (c : Dev nD)

set_option maxHeartbeats 4000000 in
theorem v186_eq : V15 m outs c main_v186 = Cert.ReferenceIdeal.Read.val_main_v209 (F := Ideal) (m ((c : Thread nD τ).loc main_arg1)) (m ((c : Thread nD τ).loc main_arg3)) := by
  show StableHlo.after hostOps7 _ (Proc.devRef .tc main_v186) = _
  after_results_simp
  rw [V14_arg1 m outs c, V14_arg3 m outs c]
  unfold Cert.ReferenceIdeal.Read.val_main_v209
  rw [← blk_s0 m c Cert.KernelIdeal.Gen.slices_S100000x18_S100000x3_0_0, ← blk_o0 m c Cert.KernelIdeal.Gen.slices_S100000x18_S100000x3_0_0]
  rfl

theorem v176_V16 : V16 m outs c main_v176 = Host.gather gather_S20000x18_S100000x1_S100000x18_1_0_n_n_0_1_118 (m ((c : Thread nD τ).loc main_arg1)) (Cert.ReferenceIdeal.Read.val_main_v205 (F := Ideal) (m ((c : Thread nD τ).loc main_arg3))) :=
  (V16_of m outs c main_v176 (by decide)).trans <| v176_eq m outs c

theorem v183_V16 : V16 m outs c main_v183 = Host.gather gather_S20000x18_S100000x1_S100000x18_1_0_n_n_0_1_118 (m ((c : Thread nD τ).loc main_arg1)) (Cert.ReferenceIdeal.Read.val_main_v196 (F := Ideal) (m ((c : Thread nD τ).loc main_arg3))) :=
  (V16_of m outs c main_v183 (by decide)).trans <| v183_eq m outs c

set_option maxHeartbeats 1000000 in
theorem v187_eq : V16 m outs c main_v187 = Cert.ReferenceIdeal.Read.val_main_v210 (F := Ideal) (m ((c : Thread nD τ).loc main_arg1)) (m ((c : Thread nD τ).loc main_arg3)) := by
  have h0 := v186_eq m outs c
  show StableHlo.after hostOps7_1 (V15 m outs c) (Proc.devRef .tc main_v187) = _
  generalize V15 m outs c = W at h0 ⊢
  after_results
  simp only [StableHlo.TRef.ofBuf, StableHlo.TRef.toBuf, cast_eq]
  rw [h0]
  rfl

set_option maxHeartbeats 2000000 in
theorem v197_eq : V17 m outs c main_v197 = Cert.ReferenceIdeal.Read.val_main_v244 (F := Ideal) (m ((c : Thread nD τ).loc main_arg1)) (m ((c : Thread nD τ).loc main_arg3)) := by
  have h0 := v176_V16 m outs c
  show StableHlo.after hostOps7_2 (V16 m outs c) (Proc.devRef .tc main_v197) = _
  generalize V16 m outs c = W at h0 ⊢
  after_results
  rw [h0, blk_o15 m c]

set_option maxHeartbeats 2000000 in
theorem v198_eq : V17 m outs c main_v198 = Cert.ReferenceIdeal.Read.val_main_v253 (F := Ideal) (m ((c : Thread nD τ).loc main_arg1)) (m ((c : Thread nD τ).loc main_arg3)) := by
  have h0 := v183_V16 m outs c
  show StableHlo.after hostOps7_2 (V16 m outs c) (Proc.devRef .tc main_v198) = _
  generalize V16 m outs c = W at h0 ⊢
  after_results
  rw [h0, blk_s15 m c]

set_option maxHeartbeats 1000000 in
theorem v201_eq : V18 m outs c main_v201 = Cert.ReferenceIdeal.Read.val_main_v256 (F := Ideal) (m ((c : Thread nD τ).loc main_arg1)) (m ((c : Thread nD τ).loc main_arg3)) := by
  have h0 := v197_eq m outs c
  show StableHlo.after hostOps7_3 (V17 m outs c) (Proc.devRef .tc main_v201) = _
  generalize V17 m outs c = W at h0 ⊢
  after_results
  simp only [StableHlo.TRef.ofBuf, StableHlo.TRef.toBuf, cast_eq]
  rw [h0]
  rfl

set_option maxHeartbeats 1000000 in
theorem v204_eq : V20 m outs c main_v204 = Cert.ReferenceIdeal.Read.val_main_v259 (F := Ideal) (m ((c : Thread nD τ).loc main_arg1)) (m ((c : Thread nD τ).loc main_arg3)) := by
  have h0 := (V19_of m outs c main_v198 (by decide)).trans <| (V18_of m outs c main_v198 (by decide)).trans <| v198_eq m outs c
  show StableHlo.after hostOps7_5 (V19 m outs c) (Proc.devRef .tc main_v204) = _
  generalize V19 m outs c = W at h0 ⊢
  after_results
  simp only [StableHlo.TRef.ofBuf, StableHlo.TRef.toBuf, cast_eq]
  rw [h0]
  rfl

theorem v186_V20 : V20 m outs c main_v186 = Cert.ReferenceIdeal.Read.val_main_v209 (F := Ideal) (m ((c : Thread nD τ).loc main_arg1)) (m ((c : Thread nD τ).loc main_arg3)) :=
  (V20_of m outs c main_v186 (by decide)).trans <| (V19_of m outs c main_v186 (by decide)).trans <| (V18_of m outs c main_v186 (by decide)).trans <| (V17_of m outs c main_v186 (by decide)).trans <| (V16_of m outs c main_v186 (by decide)).trans <| v186_eq m outs c

set_option maxHeartbeats 2000000 in
theorem v188_V20 : V20 m outs c main_v188 = Cert.ReferenceIdeal.Read.val_main_v211 (F := Ideal) (m ((c : Thread nD τ).loc main_arg1)) (m ((c : Thread nD τ).loc main_arg3)) := by
  refine (V20_of m outs c main_v188 (by decide)).trans <| (V19_of m outs c main_v188 (by decide)).trans <| (V18_of m outs c main_v188 (by decide)).trans ?_
  have h0 := v187_eq m outs c
  show StableHlo.after hostOps7_2 (V16 m outs c) (Proc.devRef .tc main_v188) = _
  generalize V16 m outs c = W at h0 ⊢
  after_results
  rw [h0]
  rfl

set_option maxHeartbeats 4000000 in
theorem v196_V20 : V20 m outs c main_v196 = Cert.ReferenceIdeal.Read.val_main_v235 (F := Ideal) (m ((c : Thread nD τ).loc main_arg1)) (m ((c : Thread nD τ).loc main_arg3)) := by
  refine (V20_of m outs c main_v196 (by decide)).trans <| (V19_of m outs c main_v196 (by decide)).trans <| (V18_of m outs c main_v196 (by decide)).trans ?_
  have h0 := v176_V16 m outs c
  have h1 := v183_V16 m outs c
  show StableHlo.after hostOps7_2 (V16 m outs c) (Proc.devRef .tc main_v196) = _
  generalize V16 m outs c = W at h0 h1 ⊢
  after_results
  rw [h0, h1, blk_o3 m c, blk_s3 m c]
  rfl

set_option maxHeartbeats 4000000 in
theorem v200_V20 : V20 m outs c main_v200 = Cert.ReferenceIdeal.Read.val_main_v255 (F := Ideal) (m ((c : Thread nD τ).loc main_arg1)) (m ((c : Thread nD τ).loc main_arg3)) := by
  refine (V20_of m outs c main_v200 (by decide)).trans <| (V19_of m outs c main_v200 (by decide)).trans <| (V18_of m outs c main_v200 (by decide)).trans ?_
  have h0 := v176_V16 m outs c
  have h1 := v183_V16 m outs c
  show StableHlo.after hostOps7_2 (V16 m outs c) (Proc.devRef .tc main_v200) = _
  generalize V16 m outs c = W at h0 h1 ⊢
  after_results
  rw [h0, h1, blk_o15 m c, blk_s15 m c]
  rfl

set_option maxHeartbeats 1000000 in
theorem v203_V20 : V20 m outs c main_v203 = Cert.ReferenceIdeal.Read.val_main_v258 (F := Ideal) (m ((c : Thread nD τ).loc main_arg1)) (m ((c : Thread nD τ).loc main_arg3)) := by
  refine (V20_of m outs c main_v203 (by decide)).trans ?_
  have h0 := v201_eq m outs c
  show StableHlo.after hostOps7_4 (V18 m outs c) (Proc.devRef .tc main_v203) = _
  generalize V18 m outs c = W at h0 ⊢
  after_results
  rw [h0]
  rfl

end

end Cert.KernelIdeal.HostVal.Rel

end
-- ==== Proof.KI.HostRel.lean ====
import proofs.«411300_j19516331393713_3_alg».proof.Proof.KI.HostRelFeat
import Idealize.ShloMosaic.Lib.StableHlo.Run
import Idealize.ShloMosaic.Lib.ValueIdx

set_option maxRecDepth 2156

noncomputable section

namespace Cert.KernelIdeal.HostVal

open Idealize.ShloMosaic Idealize.ShloMosaic.TcCoe Idealize.ShloMosaic.ValueIdx
open Cert.KernelIdeal Cert.KernelIdeal.Gen Cert.Spec
open Cert.KernelIdeal.HostVal.Rel

variable (m : (ℓ : Loc nD τ sig) → Buf (Elt Ideal) ℓ) (outs : Outs (F := Ideal)) (c : Dev nD)

set_option maxHeartbeats 8000000 in

theorem ker_rel :
    V21 m outs c main_v226
      = Cert.ReferenceIdeal.Read.val_main_v265 (F := Ideal)
          (m ((c : Thread nD τ).loc main_arg1)) (m ((c : Thread nD τ).loc main_arg3)) := by
  have h0 := v186_V20 m outs c
  have h1 := v188_V20 m outs c
  have h2 := v196_V20 m outs c
  have h3 := v200_V20 m outs c
  have h4 := v203_V20 m outs c
  have h5 := v204_eq m outs c
  show StableHlo.after hostOps7_6 (V20 m outs c) (Proc.devRef .tc main_v226) = _
  generalize V20 m outs c = W at h0 h1 h2 h3 h4 h5 ⊢
  after_results

  simp only [Matrix.cons_val]
  repeat (first
    | rw [StableHlo.nullary_result] | rw [StableHlo.unary_result] | rw [StableHlo.binary_result]
    | (rw [StableHlo.nullary_result_ne]; rotate_left; decide)
    | (rw [StableHlo.unary_result_ne]; rotate_left; decide)
    | (rw [StableHlo.binary_result_ne]; rotate_left; decide))
  rw [h0, h1, h2, h3, h4, h5]
  rfl

end Cert.KernelIdeal.HostVal

end
-- ==== Proof.KI.HostScores.lean ====
import proofs.«411300_j19516331393713_3_alg».proof.Proof.Gen.KernelIdeal.Regions
import proofs.«411300_j19516331393713_3_alg».proof.Proof.Net
import Idealize.ShloMosaic.Lib.StableHlo.Run
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.HostVal

open Idealize.ShloMosaic Idealize.ShloMosaic.TcCoe Idealize.ShloMosaic.ValueIdx
open Idealize.ShloMosaic.StableHlo
open Cert.KernelIdeal Cert.KernelIdeal.Gen Cert.Spec
open scoped BigOperators

namespace Scores

theorem foldl_miss {ι β γ : Type} (step : (β → γ) → ι → (β → γ)) (i : β) (P : ι → Prop)
    (hstep : ∀ r n, P n → step r n i = r i) :
    ∀ (l : List ι) (r : β → γ), (∀ n ∈ l, P n) → l.foldl step r i = r i := by
  intro l
  induction l with
  | nil => intro r _; rfl
  | cons a t ih =>
    intro r h
    rw [List.foldl_cons, ih (step r a) (fun n hn => h n (List.mem_cons_of_mem _ hn))]
    exact hstep r a (h a (by simp))

theorem foldl_hit {ι β γ : Type} (step : (β → γ) → ι → (β → γ)) (i : β) (n₀ : ι) (val : γ)
    (hhit : ∀ r, step r n₀ i = val) (hmiss : ∀ r n, n ≠ n₀ → step r n i = r i) :
    ∀ (l : List ι) (r : β → γ), n₀ ∈ l → l.Nodup → l.foldl step r i = val := by
  intro l
  induction l with
  | nil => intro r h; simp at h
  | cons a t ih =>
    intro r hmem hnd
    rw [List.foldl_cons]
    rw [List.nodup_cons] at hnd
    by_cases ha : a = n₀
    · subst ha
      rw [foldl_miss step i (fun n => n ≠ a) hmiss t (step r a) (fun n hn hna => hnd.1 (hna ▸ hn))]
      exact hhit r
    · have hin : n₀ ∈ t := by
        rcases List.mem_cons.1 hmem with h | h
        · exact absurd h.symm ha
        · exact h
      exact ih (step r a) hin hnd.2

section Scatter
variable {α : Type} {s si u : Shape} {w : Nat} (d : ScatterDims s si u) (x : s.Idx → α) (idx : IVec si w) (upd : u.Idx → α)
  (p : u.Idx → s.Idx) (hp : ∀ j, d.resultIdx? j idx = some (p j))
include hp

theorem scatter_set_hit (hinj : Function.Injective p) (j : u.Idx) :
    Host.scatter d (fun _ b => b) x idx upd (p j) = upd j := by
  unfold Host.scatter
  refine foldl_hit _ (p j) (u.rowMajor j) (upd j) ?_ ?_ _ _ (List.mem_finRange _) (List.nodup_finRange _)
  · intro r
    simp only [Equiv.symm_apply_apply, hp, if_true]
  · intro r n hn
    simp only [hp]
    rw [if_neg]
    intro h
    exact hn (by rw [hinj h, Equiv.apply_symm_apply])

theorem scatter_set_miss (i : s.Idx) (hi : ∀ j, p j ≠ i) :
    Host.scatter d (fun _ b => b) x idx upd i = x i := by
  unfold Host.scatter
  refine foldl_miss _ i (fun _ => True) ?_ _ _ (fun _ _ => trivial)
  intro r n _
  simp only [hp]
  exact if_neg (fun h => hi _ h.symm)

end Scatter

abbrev padIdxW (j : S256x26.Idx) : S256x128.Idx :=
  ix2 ⟨(j 0).val, (j 0).isLt⟩ ⟨(j 1).val, by have h : (j 1).val < 26 := (j 1).isLt; omega⟩

abbrev padIdxB (j : S26.Idx) : S128.Idx :=
  ix1 ⟨(j 0).val, by have h : (j 0).val < 26 := (j 0).isLt; omega⟩

theorem padIdxW_inj : Function.Injective padIdxW := by
  intro j j' h
  funext a
  match a with
  | ⟨0, _⟩ => exact Fin.ext (by have := congrArg (fun f => (f 0).val) h; exact this)
  | ⟨1, _⟩ => exact Fin.ext (by have := congrArg (fun f => (f 1).val) h; exact this)

theorem padIdxB_inj : Function.Injective padIdxB := by
  intro j j' h
  funext a
  match a with
  | ⟨0, _⟩ => exact Fin.ext (by have := congrArg (fun f => (f 0).val) h; exact this)

theorem resultIdx_W (idx : IVec S1 32) (hidx : ∀ k, idx k = 0#32) (j : S256x26.Idx) :
    scatter_S256x128_S1_S256x26_01_n_1_0.resultIdx? j idx = some (padIdxW j) := by
  have h0 : scatter_S256x128_S1_S256x26_01_n_1_0.start j idx 0 = 0 := rfl
  have h1 : scatter_S256x128_S1_S256x26_01_n_1_0.start j idx 1 = 0 := by
    unfold ScatterDims.start
    rw [dif_pos (by decide)]
    rw [hidx]; rfl
  have w0 : scatter_S256x128_S1_S256x26_01_n_1_0.window j 0 = (j 0).val := rfl
  have w1 : scatter_S256x128_S1_S256x26_01_n_1_0.window j 1 = (j 1).val := rfl
  have hs : ∀ a, scatter_S256x128_S1_S256x26_01_n_1_0.start j idx a + (scatter_S256x128_S1_S256x26_01_n_1_0.window j a : Int) = ((padIdxW j a).val : Int) := by
    intro a
    match a with
    | ⟨0, _⟩ => rw [show (⟨0, _⟩ : Fin S256x128.rank) = 0 from rfl, h0, w0]; simp
    | ⟨1, _⟩ => rw [show (⟨1, _⟩ : Fin S256x128.rank) = 1 from rfl, h1, w1]; simp
  unfold ScatterDims.resultIdx?
  rw [dif_pos (by
    intro a
    rw [hs a]
    have := (padIdxW j a).isLt
    constructor
    · omega
    · exact_mod_cast this)]
  congr 1
  funext a
  apply Fin.ext
  show (scatter_S256x128_S1_S256x26_01_n_1_0.start j idx a + (scatter_S256x128_S1_S256x26_01_n_1_0.window j a : Int)).toNat = (padIdxW j a).val
  rw [hs a]; simp

theorem resultIdx_B (idx : IVec S1 32) (hidx : ∀ k, idx k = 0#32) (j : S26.Idx) :
    scatter_S128_S1_S26_0_n_0_0.resultIdx? j idx = some (padIdxB j) := by
  have h0 : scatter_S128_S1_S26_0_n_0_0.start j idx 0 = 0 := by
    unfold ScatterDims.start
    rw [dif_pos (by decide)]
    rw [hidx]; rfl
  have w0 : scatter_S128_S1_S26_0_n_0_0.window j 0 = (j 0).val := rfl
  have hs : ∀ a, scatter_S128_S1_S26_0_n_0_0.start j idx a + (scatter_S128_S1_S26_0_n_0_0.window j a : Int) = ((padIdxB j a).val : Int) := by
    intro a
    match a with
    | ⟨0, _⟩ => rw [show (⟨0, _⟩ : Fin S128.rank) = 0 from rfl, h0, w0]; simp
  unfold ScatterDims.resultIdx?
  rw [dif_pos (by
    intro a
    rw [hs a]
    have := (padIdxB j a).isLt
    constructor
    · omega
    · exact_mod_cast this)]
  congr 1
  funext a
  apply Fin.ext
  show (scatter_S128_S1_S26_0_n_0_0.start j idx a + (scatter_S128_S1_S26_0_n_0_0.window j a : Int)).toNat = (padIdxB j a).val
  rw [hs a]; simp

def padCols {R : Nat} (w : Mat R 26) : Mat R 128 :=
  fun i => if h : (i 1).val < 26 then w (ix2 ⟨(i 0).val, idx2_lt0 i⟩ ⟨(i 1).val, h⟩) else 0

def padRow (b : (⟨1, ![26]⟩ : Shape).Idx → EReal) : Mat 1 128 :=
  fun i => if h : (i 1).val < 26 then b (ix1 ⟨(i 1).val, h⟩) else 0

theorem padCols_lt {R : Nat} (w : Mat R 26) (k : Fin R) (j : Fin 26) :
    padCols w (ix2 k ⟨j.val, by omega⟩) = w (ix2 k j) := by
  unfold padCols
  exact dif_pos j.isLt

theorem padRow_lt (b : (⟨1, ![26]⟩ : Shape).Idx → EReal) (j : Fin 26) :
    padRow b (ix2 0 ⟨j.val, by omega⟩) = b (ix1 j) := by
  unfold padRow
  exact dif_pos j.isLt

theorem outLayer_pad {Hm : Nat} (w : Mat Hm 26) (b : (⟨1, ![26]⟩ : Shape).Idx → EReal) (b' : Mat 1 26)
    (hb : ∀ j : Fin 26, b' (ix2 0 j) = b (ix1 j)) (h : Fin Hm → EReal) (j : Fin 26) :
    outLayer (padCols w) (padRow b) h ⟨j.val, by omega⟩ = outLayer w b' h j := by
  unfold outLayer dot
  rw [padRow_lt, hb]
  congr 1
  exact Finset.sum_congr rfl fun k _ => by rw [padCols_lt]

section Reads
variable (W : Valuation τ sig (Elt Ideal))

theorem read243 : StableHlo.after hostOps8 W (Proc.devRef .tc main_v243)
    = extractStridedSlice S100000x26 ![0, 0] (W (Proc.devRef .tc main_v242)) slices_S100000x128_S100000x26_0_0 := by
  after_results

theorem read228 : StableHlo.after hostOps7_6 W (Proc.devRef .tc main_v228)
    = truncf (F := Ideal) .bf16 (extractStridedSlice S256x256 ![0, 0] (W (Proc.devRef .tc main_arg20)) slices_S520x256_S256x256_0_0) bitsLt_bf16_f32 := by
  after_results <;> rfl

theorem read230 : StableHlo.after hostOps7_6 W (Proc.devRef .tc main_v230)
    = truncf (F := Ideal) .bf16 (extractStridedSlice S256x256 ![256, 0] (W (Proc.devRef .tc main_arg20)) slices_S520x256_S256x256_256_0) bitsLt_bf16_f32 := by
  after_results <;> rfl

theorem read232 : StableHlo.after hostOps7_6 W (Proc.devRef .tc main_v232)
    = truncf (F := Ideal) .bf16 (extractStridedSlice S8x256 ![512, 0] (W (Proc.devRef .tc main_arg20)) slices_S520x256_S8x256_512_0) bitsLt_bf16_f32 := by
  after_results <;> rfl

theorem read240 : StableHlo.after hostOps7_6 W (Proc.devRef .tc main_v240)
    = shapeCast S1x256 (W (Proc.devRef .tc main_arg21)) shapeCasts_S256_S1x256 := by
  after_results <;> rfl

theorem read239 : StableHlo.after hostOps7_6 W (Proc.devRef .tc main_v239)
    = truncf (F := Ideal) .bf16 (Host.scatter scatter_S256x128_S1_S256x26_01_n_1_0 (fun _ b => b)
        (broadcastInDim S256x128 ![] bcast_S_S256x128 (constant (F := Ideal) S_ .f32 0x00000000#32))
        (broadcastInDim S1 ![] bcast_S_S1 (constantI S_ 32 0#32))
        (W (Proc.devRef .tc main_arg22))) bitsLt_bf16_f32 := by
  after_results <;> rfl

theorem read241 : StableHlo.after hostOps7_6 W (Proc.devRef .tc main_v241)
    = shapeCast S1x128 (Host.scatter scatter_S128_S1_S26_0_n_0_0 (fun _ b => b)
        (broadcastInDim S128 ![] bcast_S_S128 (constant (F := Ideal) S_ .f32 0x00000000#32))
        (broadcastInDim S1 ![] bcast_S_S1 (constantI S_ 32 0#32))
        (W (Proc.devRef .tc main_arg23))) shapeCasts_S128_S1x128 := by
  after_results <;> rfl

theorem read218 : StableHlo.after hostOps7_6 W (Proc.devRef .tc main_v218)
    = Host.gather gather_S20000x256_S100000x1_S100000x256_1_0_n_n_0_1_1256
        (truncf (F := Ideal) .bf16 (W (Proc.devRef .tc main_v165)) bitsLt_bf16_f32)
        (broadcastInDim S100000x1 ![0] bcast_S100000_S100000x1_0
          (select (cmpi .slt (W (Proc.devRef .tc main_v167)) (broadcastInDim S100000 ![] bcast_S_S100000 (constantI S_ 32 0#32)))
            (addi (W (Proc.devRef .tc main_v167)) (broadcastInDim S100000 ![] bcast_S_S100000 (constantI S_ 32 20000#32)))
            (W (Proc.devRef .tc main_v167)))) := by
  after_results <;> rfl

theorem read225 : StableHlo.after hostOps7_6 W (Proc.devRef .tc main_v225)
    = Host.gather gather_S20000x256_S100000x1_S100000x256_1_0_n_n_0_1_1256
        (truncf (F := Ideal) .bf16 (W (Proc.devRef .tc main_v165)) bitsLt_bf16_f32)
        (broadcastInDim S100000x1 ![0] bcast_S100000_S100000x1_0
          (select (cmpi .slt (W (Proc.devRef .tc main_v169)) (broadcastInDim S100000 ![] bcast_S_S100000 (constantI S_ 32 0#32)))
            (addi (W (Proc.devRef .tc main_v169)) (broadcastInDim S100000 ![] bcast_S_S100000 (constantI S_ 32 20000#32)))
            (W (Proc.devRef .tc main_v169)))) := by
  after_results <;> rfl

theorem read167 : StableHlo.after hostOps7 W (Proc.devRef .tc main_v167)
    = shapeCast S100000 (extractStridedSlice S100000x1 ![0, 0] (W (Proc.devRef .tc main_arg3)) slices_S100000x2_S100000x1_0_0) shapeCasts_S100000x1_S100000 := by
  after_results <;> rfl

theorem read169 : StableHlo.after hostOps7 W (Proc.devRef .tc main_v169)
    = shapeCast S100000 (extractStridedSlice S100000x1 ![0, 1] (W (Proc.devRef .tc main_arg3)) slices_S100000x2_S100000x1_0_1) shapeCasts_S100000x1_S100000 := by
  after_results <;> rfl

end Reads

section Carry
variable (m : (ℓ : Loc nD τ sig) → Buf (Elt Ideal) ℓ) (outs : Outs (F := Ideal)) (c : Dev nD)

theorem V14_launch (r : Ref sig .tc)
    (h0 : r ∉ hostOps0_W) (h1 : r ∉ ([main_v13] : List (Ref sig .tc))) (h2 : r ∉ hostOps1_W) (h3 : r ∉ ([main_v55] : List (Ref sig .tc)))
    (h4 : r ∉ hostOps2_W) (h5 : r ∉ ([main_v73] : List (Ref sig .tc))) (h6 : r ∉ hostOps3_W) (h7 : r ∉ ([main_v101] : List (Ref sig .tc)))
    (h8 : r ∉ hostOps4_W) (h9 : r ∉ ([main_v119] : List (Ref sig .tc))) (h10 : r ∉ hostOps5_W) (h11 : r ∉ ([main_v147] : List (Ref sig .tc)))
    (h12 : r ∉ hostOps6_W) (h13 : r ∉ ([main_v165] : List (Ref sig .tc))) :
    V14 m outs c r = m ((c : Thread nD τ).loc r) :=
  (V14_of m outs c r h13).trans <| (V13_of m outs c r h12).trans <| (V12_of m outs c r h11).trans <| (V11_of m outs c r h10).trans <|
  (V10_of m outs c r h9).trans <| (V9_of m outs c r h8).trans <| (V8_of m outs c r h7).trans <| (V7_of m outs c r h6).trans <|
  (V6_of m outs c r h5).trans <| (V5_of m outs c r h4).trans <| (V4_of m outs c r h3).trans <| (V3_of m outs c r h2).trans <|
  (V2_of m outs c r h1).trans <| (V1_of m c r h0).trans rfl

theorem V20_V15 (r : Ref sig .tc) (h15 : r ∉ hostOps7_1_W) (h16 : r ∉ hostOps7_2_W) (h17 : r ∉ hostOps7_3_W)
    (h18 : r ∉ hostOps7_4_W) (h19 : r ∉ hostOps7_5_W) : V20 m outs c r = V15 m outs c r :=
  (V20_of m outs c r h19).trans <| (V19_of m outs c r h18).trans <| (V18_of m outs c r h17).trans <|
  (V17_of m outs c r h16).trans (V16_of m outs c r h15)

theorem V20_launch (r : Ref sig .tc)
    (h0 : r ∉ hostOps0_W) (h1 : r ∉ ([main_v13] : List (Ref sig .tc))) (h2 : r ∉ hostOps1_W) (h3 : r ∉ ([main_v55] : List (Ref sig .tc)))
    (h4 : r ∉ hostOps2_W) (h5 : r ∉ ([main_v73] : List (Ref sig .tc))) (h6 : r ∉ hostOps3_W) (h7 : r ∉ ([main_v101] : List (Ref sig .tc)))
    (h8 : r ∉ hostOps4_W) (h9 : r ∉ ([main_v119] : List (Ref sig .tc))) (h10 : r ∉ hostOps5_W) (h11 : r ∉ ([main_v147] : List (Ref sig .tc)))
    (h12 : r ∉ hostOps6_W) (h13 : r ∉ ([main_v165] : List (Ref sig .tc))) (h14 : r ∉ hostOps7_W)
    (h15 : r ∉ hostOps7_1_W) (h16 : r ∉ hostOps7_2_W) (h17 : r ∉ hostOps7_3_W) (h18 : r ∉ hostOps7_4_W) (h19 : r ∉ hostOps7_5_W) :
    V20 m outs c r = m ((c : Thread nD τ).loc r) :=
  (V20_V15 m outs c r h15 h16 h17 h18 h19).trans <| (V15_of m outs c r h14).trans <|
    V14_launch m outs c r h0 h1 h2 h3 h4 h5 h6 h7 h8 h9 h10 h11 h12 h13

theorem V20_arg20 : V20 m outs c main_arg20 = m ((c : Thread nD τ).loc main_arg20) := V20_launch m outs c main_arg20 (by decide) (by decide) (by decide) (by decide) (by decide) (by decide) (by decide) (by decide) (by decide) (by decide) (by decide) (by decide) (by decide) (by decide) (by decide) (by decide) (by decide) (by decide) (by decide) (by decide)
theorem V20_arg21 : V20 m outs c main_arg21 = m ((c : Thread nD τ).loc main_arg21) := V20_launch m outs c main_arg21 (by decide) (by decide) (by decide) (by decide) (by decide) (by decide) (by decide) (by decide) (by decide) (by decide) (by decide) (by decide) (by decide) (by decide) (by decide) (by decide) (by decide) (by decide) (by decide) (by decide)
theorem V20_arg22 : V20 m outs c main_arg22 = m ((c : Thread nD τ).loc main_arg22) := V20_launch m outs c main_arg22 (by decide) (by decide) (by decide) (by decide) (by decide) (by decide) (by decide) (by decide) (by decide) (by decide) (by decide) (by decide) (by decide) (by decide) (by decide) (by decide) (by decide) (by decide) (by decide) (by decide)
theorem V20_arg23 : V20 m outs c main_arg23 = m ((c : Thread nD τ).loc main_arg23) := V20_launch m outs c main_arg23 (by decide) (by decide) (by decide) (by decide) (by decide) (by decide) (by decide) (by decide) (by decide) (by decide) (by decide) (by decide) (by decide) (by decide) (by decide) (by decide) (by decide) (by decide) (by decide) (by decide)

theorem V20_v165 : V20 m outs c main_v165 = outs 14 main_v165 c :=
  (V20_V15 m outs c main_v165 (by decide) (by decide) (by decide) (by decide) (by decide)).trans <| (V15_of m outs c main_v165 (by decide)).trans (Function.update_self _ _ _)

theorem V20_v167 : V20 m outs c main_v167
    = shapeCast S100000 (extractStridedSlice S100000x1 ![0, 0] (m ((c : Thread nD τ).loc main_arg3)) slices_S100000x2_S100000x1_0_0) shapeCasts_S100000x1_S100000 := by
  refine (V20_V15 m outs c main_v167 (by decide) (by decide) (by decide) (by decide) (by decide)).trans <| (read167 (V14 m outs c)).trans ?_
  rw [V14_launch m outs c main_arg3 (by decide) (by decide) (by decide) (by decide) (by decide) (by decide) (by decide) (by decide) (by decide) (by decide) (by decide) (by decide) (by decide) (by decide)]

theorem V20_v169 : V20 m outs c main_v169
    = shapeCast S100000 (extractStridedSlice S100000x1 ![0, 1] (m ((c : Thread nD τ).loc main_arg3)) slices_S100000x2_S100000x1_0_1) shapeCasts_S100000x1_S100000 := by
  refine (V20_V15 m outs c main_v169 (by decide) (by decide) (by decide) (by decide) (by decide)).trans <| (read169 (V14 m outs c)).trans ?_
  rw [V14_launch m outs c main_arg3 (by decide) (by decide) (by decide) (by decide) (by decide) (by decide) (by decide) (by decide) (by decide) (by decide) (by decide) (by decide) (by decide) (by decide)]

theorem v228_eq : V21 m outs c main_v228 = Cert.Net.rowsFrom 0 256 (m ((c : Thread nD τ).loc main_arg20)) (by norm_num) := by
  refine (read228 (V20 m outs c)).trans ?_
  rw [V20_arg20 m outs c]
  funext i
  refine (truncf_apply (ψ := .bf16) _ bitsLt_bf16_f32 i).trans ?_
  unfold Cert.Net.rowsFrom
  exact extractStridedSlice_apply (s := S520x256) (t := S256x256) ![0, 0] (m ((c : Thread nD τ).loc main_arg20)) slices_S520x256_S256x256_0_0 i
    (ix2 ⟨0 + (i 0).val, by have := idx2_lt0 i; omega⟩ ⟨(i 1).val, idx2_lt1 i⟩) (fun a => match a with
    | ⟨0, _⟩ => by show 0 + (i 0).val = 0 + (i 0).val; rfl
    | ⟨1, _⟩ => by show (i 1).val = 0 + (i 1).val; omega)

theorem v230_eq : V21 m outs c main_v230 = Cert.Net.rowsFrom 256 256 (m ((c : Thread nD τ).loc main_arg20)) (by norm_num) := by
  refine (read230 (V20 m outs c)).trans ?_
  rw [V20_arg20 m outs c]
  funext i
  refine (truncf_apply (ψ := .bf16) _ bitsLt_bf16_f32 i).trans ?_
  unfold Cert.Net.rowsFrom
  exact extractStridedSlice_apply (s := S520x256) (t := S256x256) ![256, 0] (m ((c : Thread nD τ).loc main_arg20)) slices_S520x256_S256x256_256_0 i
    (ix2 ⟨256 + (i 0).val, by have := idx2_lt0 i; omega⟩ ⟨(i 1).val, idx2_lt1 i⟩) (fun a => match a with
    | ⟨0, _⟩ => by show 256 + (i 0).val = 256 + (i 0).val; rfl
    | ⟨1, _⟩ => by show (i 1).val = 0 + (i 1).val; omega)

theorem v232_eq : V21 m outs c main_v232 = Cert.Net.rowsFrom 512 8 (m ((c : Thread nD τ).loc main_arg20)) (by norm_num) := by
  refine (read232 (V20 m outs c)).trans ?_
  rw [V20_arg20 m outs c]
  funext i
  refine (truncf_apply (ψ := .bf16) _ bitsLt_bf16_f32 i).trans ?_
  unfold Cert.Net.rowsFrom
  exact extractStridedSlice_apply (s := S520x256) (t := S8x256) ![512, 0] (m ((c : Thread nD τ).loc main_arg20)) slices_S520x256_S8x256_512_0 i
    (ix2 ⟨512 + (i 0).val, by have := idx2_lt0 i; omega⟩ ⟨(i 1).val, idx2_lt1 i⟩) (fun a => match a with
    | ⟨0, _⟩ => by show 512 + (i 0).val = 512 + (i 0).val; rfl
    | ⟨1, _⟩ => by show (i 1).val = 0 + (i 1).val; omega)

theorem v240_eq : V21 m outs c main_v240 = Cert.Net.asRow (m ((c : Thread nD τ).loc main_arg21)) := by
  refine (read240 (V20 m outs c)).trans ?_
  rw [V20_arg21 m outs c]
  funext i
  unfold Cert.Net.asRow
  exact shapeCast_apply _ shapeCasts_S256_S1x256 i _ (by
    rewrite [Shape.rowMajor_val_one, Shape.rowMajor_val_two]
    have h0 : (i 0).val < 1 := (i 0).isLt
    show (i 1).val = (i 0).val * 256 + (i 1).val
    omega)

theorem v239_eq : V21 m outs c main_v239 = padCols (m ((c : Thread nD τ).loc main_arg22)) := by
  refine (read239 (V20 m outs c)).trans ?_
  rw [V20_arg22 m outs c]
  funext i
  refine (truncf_apply (ψ := .bf16) _ bitsLt_bf16_f32 i).trans ?_
  have hp := resultIdx_W (broadcastInDim S1 ![] bcast_S_S1 (constantI S_ 32 0#32)) (fun k => rfl)
  unfold padCols
  by_cases h : (i 1).val < 26
  · rw [dif_pos h]
    have hi : padIdxW (ix2 ⟨(i 0).val, idx2_lt0 i⟩ ⟨(i 1).val, h⟩) = i := by
      funext a; match a with | ⟨0, _⟩ => rfl | ⟨1, _⟩ => rfl
    have := scatter_set_hit scatter_S256x128_S1_S256x26_01_n_1_0
      (broadcastInDim S256x128 ![] bcast_S_S256x128 (constant (F := Ideal) S_ .f32 0x00000000#32))
      (broadcastInDim S1 ![] bcast_S_S1 (constantI S_ 32 0#32)) (m ((c : Thread nD τ).loc main_arg22)) padIdxW hp padIdxW_inj
      (ix2 ⟨(i 0).val, idx2_lt0 i⟩ ⟨(i 1).val, h⟩)
    rw [hi] at this
    exact this
  · rw [dif_neg h]
    rw [scatter_set_miss scatter_S256x128_S1_S256x26_01_n_1_0 _ _ _ padIdxW hp i (fun j hj => h (by rw [← hj]; exact (j 1).isLt))]
    rw [broadcastInDim_apply _ bcast_S_S256x128 _ i ix0 (fun a => a.elim0), constant_apply, Ideal.ofBits_zero_f32]

theorem v241_eq : V21 m outs c main_v241 = padRow (m ((c : Thread nD τ).loc main_arg23)) := by
  refine (read241 (V20 m outs c)).trans ?_
  rw [V20_arg23 m outs c]
  funext i
  refine (shapeCast_apply _ shapeCasts_S128_S1x128 i (ix1 ⟨(i 1).val, idx2_lt1 i⟩) (by
    rewrite [Shape.rowMajor_val_one, Shape.rowMajor_val_two]
    have h0 : (i 0).val < 1 := (i 0).isLt
    show (i 1).val = (i 0).val * 128 + (i 1).val
    omega)).trans ?_
  have hp := resultIdx_B (broadcastInDim S1 ![] bcast_S_S1 (constantI S_ 32 0#32)) (fun k => rfl)
  unfold padRow
  by_cases h : (i 1).val < 26
  · rw [dif_pos h]
    have hi : padIdxB (ix1 ⟨(i 1).val, h⟩) = ix1 ⟨(i 1).val, idx2_lt1 i⟩ := by
      funext a; match a with | ⟨0, _⟩ => rfl
    have := scatter_set_hit scatter_S128_S1_S26_0_n_0_0
      (broadcastInDim S128 ![] bcast_S_S128 (constant (F := Ideal) S_ .f32 0x00000000#32))
      (broadcastInDim S1 ![] bcast_S_S1 (constantI S_ 32 0#32)) (m ((c : Thread nD τ).loc main_arg23)) padIdxB hp padIdxB_inj
      (ix1 ⟨(i 1).val, h⟩)
    rw [hi] at this
    exact this
  · rw [dif_neg h]
    rw [scatter_set_miss scatter_S128_S1_S26_0_n_0_0 _ _ _ padIdxB hp _ (fun j hj => h (by
      have e : (j 0).val = (i 1).val := congrArg (fun f => (f 0).val) hj
      have h26 : (j 0).val < 26 := (j 0).isLt
      omega))]
    rw [broadcastInDim_apply _ bcast_S_S128 _ _ ix0 (fun a => a.elim0), constant_apply, Ideal.ofBits_zero_f32]

theorem v218_eq : V21 m outs c main_v218
    = Host.gather Cert.ReferenceIdeal.gather_S20000x256_S100000x1_S100000x256_1_0_n_n_0_1_1256 (outs 14 main_v165 c)
        (Cert.ReferenceIdeal.Read.val_main_v271 (F := Ideal) (m ((c : Thread nD τ).loc main_arg3))) := by
  refine (read218 (V20 m outs c)).trans ?_
  rw [V20_v165 m outs c, V20_v167 m outs c]
  rfl

theorem v225_eq : V21 m outs c main_v225
    = Host.gather Cert.ReferenceIdeal.gather_S20000x256_S100000x1_S100000x256_1_0_n_n_0_1_1256 (outs 14 main_v165 c)
        (Cert.ReferenceIdeal.Read.val_main_v278 (F := Ideal) (m ((c : Thread nD τ).loc main_arg3))) := by
  refine (read225 (V20 m outs c)).trans ?_
  rw [V20_v165 m outs c, V20_v169 m outs c]
  rfl

end Carry

end Scores

open Scores

variable (m : (ℓ : Loc nD τ sig) → Buf (Elt Ideal) ℓ) (outs : Outs (F := Ideal)) (c : Dev nD)

theorem ker_scores
    (h7 : outs 22 main_v242 c = Cert.Spec.mlp3Mat (V21 m outs c main_v228) (V21 m outs c main_v230) (V21 m outs c main_v232)
      (V21 m outs c main_v240) (V21 m outs c main_v239) (V21 m outs c main_v241)
      (V21 m outs c main_v218) (V21 m outs c main_v225) (V21 m outs c main_v226))
    (hrel : V21 m outs c main_v226 = Cert.ReferenceIdeal.Read.val_main_v265 (F := Ideal)
      (m ((c : Thread nD τ).loc main_arg1)) (m ((c : Thread nD τ).loc main_arg3))) :
    V23 m outs c main_v243 = Cert.Net.scores (m ((c : Thread nD τ).loc main_arg1)) (m ((c : Thread nD τ).loc main_arg3))
      (m ((c : Thread nD τ).loc main_arg20)) (m ((c : Thread nD τ).loc main_arg21))
      (m ((c : Thread nD τ).loc main_arg22)) (m ((c : Thread nD τ).loc main_arg23)) (outs 14 main_v165 c) := by
  have e243 : V23 m outs c main_v243
      = extractStridedSlice S100000x26 ![0, 0] (outs 22 main_v242 c) slices_S100000x128_S100000x26_0_0 := by
    refine (read243 (V22 m outs c)).trans ?_
    rw [show V22 m outs c main_v242 = outs 22 main_v242 c from Function.update_self _ _ _]
  rw [e243, h7, hrel, v228_eq, v230_eq, v232_eq, v240_eq, v239_eq, v241_eq, v218_eq, v225_eq]
  funext i
  refine (extractStridedSlice_apply ![0, 0] _ slices_S100000x128_S100000x26_0_0 i
    (ix2 ⟨(i 0).val, idx2_lt0 i⟩ ⟨(i 1).val, by have := idx2_lt1 i; omega⟩) (fun a => match a with
      | ⟨0, _⟩ => by show (i 0).val = 0 + (i 0).val; omega
      | ⟨1, _⟩ => by show (i 1).val = 0 + (i 1).val; omega)).trans ?_
  unfold Cert.Net.scores mlp3Mat mlp3
  exact outLayer_pad _ _ _ (fun j => rfl) _ ⟨(i 1).val, idx2_lt1 i⟩

end Cert.KernelIdeal.HostVal

end
-- ==== Proof.KI.KerNet.lean ====
import proofs.«411300_j19516331393713_3_alg».proof.Proof.KI.Regs
import proofs.«411300_j19516331393713_3_alg».proof.Proof.KI.RegsResult
import proofs.«411300_j19516331393713_3_alg».proof.Proof.KI.Val0
import proofs.«411300_j19516331393713_3_alg».proof.Proof.KI.Val1
import proofs.«411300_j19516331393713_3_alg».proof.Proof.KI.Val2
import proofs.«411300_j19516331393713_3_alg».proof.Proof.KI.Val3
import proofs.«411300_j19516331393713_3_alg».proof.Proof.KI.Val4
import proofs.«411300_j19516331393713_3_alg».proof.Proof.KI.Val5
import proofs.«411300_j19516331393713_3_alg».proof.Proof.KI.Val6
import proofs.«411300_j19516331393713_3_alg».proof.Proof.KI.Val7
import proofs.«411300_j19516331393713_3_alg».proof.Proof.KI.HostEncoded
import proofs.«411300_j19516331393713_3_alg».proof.Proof.KI.HostLayer0
import proofs.«411300_j19516331393713_3_alg».proof.Proof.KI.HostLayer1
import proofs.«411300_j19516331393713_3_alg».proof.Proof.KI.HostLayer2
import proofs.«411300_j19516331393713_3_alg».proof.Proof.KI.HostRel
import proofs.«411300_j19516331393713_3_alg».proof.Proof.KI.HostScores

noncomputable section

namespace Cert.KernelIdeal.HostVal

open Idealize.ShloMosaic Idealize.ShloMosaic.TcCoe Idealize.SL.Sem Cert.KernelIdeal Cert.KernelIdeal.Gen Cert.KernelIdeal.Val Cert.Spec

variable (m : (ℓ : Loc nD τ sig) → Buf (Elt Ideal) ℓ) (c : Dev nD)

theorem ker_net : V23 m (outs m) c main_v243 = Cert.Net.net (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)) := by
  have e0 := ker_encoded m (outs m) c (by rw [outs_v13]; exact region0_value (atTc (V1 m)) c)
  have e1 := ker_layer0 m (outs m) c (by rw [outs_v55]; exact region1_value (atTc (V3 m (outs m))) c)
    (by rw [outs_v73]; exact region2_value (atTc (V5 m (outs m))) c)
  have e2 := ker_layer1 m (outs m) c (by rw [outs_v101]; exact region3_value (atTc (V7 m (outs m))) c)
    (by rw [outs_v119]; exact region4_value (atTc (V9 m (outs m))) c)
  have e3 := ker_layer2 m (outs m) c (by rw [outs_v147]; exact region5_value (atTc (V11 m (outs m))) c)
    (by rw [outs_v165]; exact region6_value (atTc (V13 m (outs m))) c)
  have e4 := ker_scores m (outs m) c (by rw [outs_v242]; exact region7_value (atTc (V21 m (outs m))) c) (ker_rel m (outs m) c)
  rw [e4, e3, e2, e1, e0]
  rfl

end Cert.KernelIdeal.HostVal

end
-- ==== Proof.Ref.Encoded.lean ====
import proofs.«411300_j19516331393713_3_alg».proof.Proof.Net
import Idealize.ShloMosaic.Lib.ValueIdx
import Idealize.ShloMosaic.Lib.Pipeline.Value
import Idealize.ShloMosaic.PureOps.Ideal.Laws
import Mathlib.Algebra.BigOperators.Fin

noncomputable section

open scoped BigOperators

namespace Cert.Net.Ref

open Idealize.ShloMosaic Idealize.ShloMosaic.ValueIdx Cert.ReferenceIdeal Cert.ReferenceIdeal.Read Cert.Spec Cert.Net

variable (x0 : Mat 20000 512) (x1 : Mat 20000 18) (x4 : Mat 512 512) (x5 : Vec1 512) (x6 : Mat 512 256) (x7 : Vec1 256)
  (x8 : Mat 274 256) (x9 : Vec1 256) (x10 : Mat 256 256) (x11 : Vec1 256)

namespace Encoded

theorem sum_split (f : Fin 274 → EReal) :
    ∑ k : Fin 274, f k = ∑ k : Fin 256, f ⟨k.val, by omega⟩ + ∑ k : Fin 18, f ⟨256 + k.val, by omega⟩ :=
  Fin.sum_univ_add (a := 256) (b := 18) f

theorem rowsFrom_zero (n : Nat) {R C : Nat} (w : Mat R C) (h : 0 + n ≤ R) (k : Fin n) (d : Fin C) :
    rowsFrom 0 n w h (ix2 k d) = w (ix2 ⟨k.val, by omega⟩ d) :=
  congrArg (fun a => w (ix2 a d)) (Fin.ext (Nat.zero_add k.val) : (⟨0 + k.val, by omega⟩ : Fin R) = ⟨k.val, by omega⟩)

theorem dense_read {M K H : Nat} (A : Mat M K) (W : Mat K H) (b : Vec1 H) (p : Fin M) (j : Fin H) (v : Fin K → EReal)
    {li : Fin K → (⟨2, ![M, K]⟩ : Shape).Idx} {ri : Fin K → (⟨2, ![K, H]⟩ : Shape).Idx} {bi : (⟨1, ![H]⟩ : Shape).Idx}
    (hl : ∀ k, li k = ix2 p k) (hr : ∀ k, ri k = ix2 k j) (hb : bi = ix1 j) (hv : ∀ k, A (ix2 p k) = v k) :
    max ((∑ k, A (li k) * W (ri k)) + b bi) 0 = denseRelu W (asRow b) v j := by
  obtain rfl := funext hl
  obtain rfl := funext hr
  obtain rfl := funext hv
  subst hb
  rfl

theorem ref_dense1 (p : Fin 20000) (j : Fin 512) :
    val_main_v4 (F := Ideal) x0 x4 x5 (ix2 p j) = denseRelu x4 (asRow x5) (rowOf x0 p) j := by
  rw [val_main_v4_apply, val_main_v3_apply, val_main_v0_apply, val_main_v2_apply, val_main_v1_apply,
    val_main_call0_v0_apply, val_main_call0_cst_apply, Ideal.maximumf_def, Ideal.addf_def, Ideal.ofBits_def,
    Ideal.ofBits_zero_f32]
  exact dense_read x0 x4 x5 p j _ (fun _ => by exact eq_ix2 _) (fun _ => by exact eq_ix2 _) (by exact eq_ix1 _) fun _ => rfl

theorem ref_dense2 (p : Fin 20000) (j : Fin 256) :
    val_main_v9 (F := Ideal) x0 x4 x5 x6 x7 (ix2 p j)
      = denseRelu x6 (asRow x7) (denseRelu x4 (asRow x5) (rowOf x0 p)) j := by
  rw [val_main_v9_apply, val_main_v8_apply, val_main_v5_apply, val_main_v7_apply, val_main_v6_apply,
    val_main_call1_v0_apply, val_main_call1_cst_apply, Ideal.maximumf_def, Ideal.addf_def, Ideal.ofBits_def,
    Ideal.ofBits_zero_f32]
  exact dense_read (val_main_v4 (F := Ideal) x0 x4 x5) x6 x7 p j _ (fun _ => by exact eq_ix2 _) (fun _ => by exact eq_ix2 _) (by exact eq_ix1 _) (ref_dense1 x0 x4 x5 p)

theorem ref_joined_left (p : Fin 20000) (k : Fin 256) :
    val_main_v10 (F := Ideal) x0 x1 x4 x5 x6 x7 (ix2 p ⟨k.val, by omega⟩)
      = val_main_v9 (F := Ideal) x0 x4 x5 x6 x7 (ix2 p k) := by
  unfold val_main_v10
  exact concatenate_pair_apply_left (t := S20000x274) (s₁ := S20000x256) (s₂ := S20000x18) 1 _ _ _ (ix2 p ⟨k.val, by omega⟩) rfl
    (ix2 p k) (fun b => match b with | ⟨0, _⟩ => rfl | ⟨1, _⟩ => rfl)

theorem ref_joined_right (p : Fin 20000) (k : Fin 18) :
    val_main_v10 (F := Ideal) x0 x1 x4 x5 x6 x7 (ix2 p ⟨256 + k.val, by omega⟩) = x1 (ix2 p k) := by
  unfold val_main_v10
  exact concatenate_pair_apply_right (t := S20000x274) (s₁ := S20000x256) (s₂ := S20000x18) 1 _ _ _ (ix2 p ⟨256 + k.val, by omega⟩)
    rfl rfl (ix2 p k) (fun b hb => match b, hb with | ⟨0, _⟩, _ => rfl | ⟨1, _⟩, hb => absurd rfl hb) (Nat.add_comm k.val 256)

theorem ref_hidden (p : Fin 20000) (d : Fin 256) :
    val_main_v15 (F := Ideal) x0 x1 x4 x5 x6 x7 x8 x9 (ix2 p d)
      = hidden2 (rowsFrom 0 256 x8 (by norm_num)) (rowsFrom 256 18 x8 (by norm_num)) (asRow x9)
          (denseRelu x6 (asRow x7) (denseRelu x4 (asRow x5) (rowOf x0 p))) (rowOf x1 p) d := by
  rw [val_main_v15_apply, val_main_v14_apply, val_main_v11_apply, val_main_v13_apply, val_main_v12_apply,
    val_main_call2_v0_apply, val_main_call2_cst_apply, Ideal.maximumf_def, Ideal.addf_def, Ideal.ofBits_def,
    Ideal.ofBits_zero_f32]
  have e1 : ∀ k : Fin 274, lidx_main_v11 (ix2 p d) k = ix2 p k := fun _ => eq_ix2 _
  have e2 : ∀ k : Fin 274, ridx_main_v11 (ix2 p d) k = ix2 k d := fun _ => eq_ix2 _
  have e3 : idx_main_v12 (idx_main_v13 (ix2 p d)) = ix1 d := eq_ix1 _
  simp only [e1, e2, e3]
  rw [sum_split]
  unfold hidden2 relu dot
  refine congrArg (fun t : EReal => max t 0) (congrArg₂ (fun a b : EReal => a + b) (congrArg₂ (fun a b : EReal => a + b) ?_ ?_) rfl)
  · exact Finset.sum_congr rfl fun k _ => by rw [ref_joined_left, ref_dense2, rowsFrom_zero]
  · exact Finset.sum_congr rfl fun k _ => by rw [ref_joined_right]; rfl

theorem ref_encoded_at (p : Fin 20000) (q : Fin 256) :
    val_main_v20 (F := Ideal) x0 x1 x4 x5 x6 x7 x8 x9 x10 x11 (ix2 p q) = encoded x0 x1 x4 x5 x6 x7 x8 x9 x10 x11 (ix2 p q) := by
  rw [val_main_v20_apply, val_main_v19_apply, val_main_v16_apply, val_main_v18_apply, val_main_v17_apply,
    val_main_call3_v0_apply, val_main_call3_cst_apply, Ideal.maximumf_def, Ideal.addf_def, Ideal.ofBits_def,
    Ideal.ofBits_zero_f32]
  exact (dense_read (val_main_v15 (F := Ideal) x0 x1 x4 x5 x6 x7 x8 x9) x10 x11 p q _ (fun _ => by exact eq_ix2 _) (fun _ => by exact eq_ix2 _) (by exact eq_ix1 _)
    (ref_hidden x0 x1 x4 x5 x6 x7 x8 x9 p)).trans rfl

end Encoded

theorem ref_encoded :
    Cert.ReferenceIdeal.Read.val_main_v20 (F := Ideal) x0 x1 x4 x5 x6 x7 x8 x9 x10 x11
      = Cert.Net.encoded x0 x1 x4 x5 x6 x7 x8 x9 x10 x11 := by
  funext i
  rw [eq_ix2 i]
  exact Encoded.ref_encoded_at x0 x1 x4 x5 x6 x7 x8 x9 x10 x11 (i 0) (i 1)

end Cert.Net.Ref

end
-- ==== Proof.Ref.Mlp.lean ====
import proofs.«411300_j19516331393713_3_alg».proof.Proof.Spec
import proofs.«411300_j19516331393713_3_alg».proof.Proof.Gen.ReferenceIdeal
import Idealize.ShloMosaic.Lib.Pipeline.Value
import Idealize.ShloMosaic.Lib.ValueIdx
import Idealize.ShloMosaic.PureOps.Ideal.Laws
import Mathlib.Algebra.BigOperators.Fin

noncomputable section

open scoped BigOperators

namespace Cert.Net.Ref.Layers

open Idealize.ShloMosaic Idealize.ShloMosaic.ValueIdx Cert.Spec

theorem sum_halves (f : Fin 512 → EReal) :
    ∑ k : Fin 512, f k = (∑ k : Fin 256, f ⟨k.val, by omega⟩) + ∑ k : Fin 256, f ⟨256 + k.val, by omega⟩ :=
  Fin.sum_univ_add (a := 256) (b := 256) f

theorem dot_at {M K N : Nat} (d : DotDims ⟨2, ![M, K]⟩ ⟨2, ![K, N]⟩ ⟨2, ![M, N]⟩)
    (hr : d.contr.rank = 1) (hs : d.contr.size ⟨0, by omega⟩ = K)
    (l0 : ∀ (i : (⟨2, ![M, N]⟩ : Shape).Idx) (q : d.contr.Idx), (d.lhsIdx i q 0).val = (i 0).val)
    (l1 : ∀ (i : (⟨2, ![M, N]⟩ : Shape).Idx) (q : d.contr.Idx), (d.lhsIdx i q 1).val = (q ⟨0, by omega⟩).val)
    (r0 : ∀ (i : (⟨2, ![M, N]⟩ : Shape).Idx) (q : d.contr.Idx), (d.rhsIdx i q 0).val = (q ⟨0, by omega⟩).val)
    (r1 : ∀ (i : (⟨2, ![M, N]⟩ : Shape).Idx) (q : d.contr.Idx), (d.rhsIdx i q 1).val = (i 1).val)
    (a : Mat M K) (w : Mat K N) (r : Fin M) (j : Fin N) :
    Host.dotGeneral (F := Ideal) (φ₁ := .f32) (φ₂ := .f32) d none a w (ix2 r j) = ∑ k : Fin K, a (ix2 r k) * w (ix2 k j) := by
  simp only [Host.dotGeneral]
  rw [Ideal.dotGeneral_apply, ← Equiv.sum_comp (contrEquiv1 d K hr hs).symm]
  refine Finset.sum_congr rfl fun k _ => ?_
  have hk := contrEquiv1_symm_val d K hr hs k
  have el : d.lhsIdx (ix2 r j) ((contrEquiv1 d K hr hs).symm k) = ix2 r k := funext fun b => Fin.ext (by
    match b with
    | ⟨0, _⟩ => exact l0 _ _
    | ⟨1, _⟩ => exact (l1 _ _).trans hk)
  have er : d.rhsIdx (ix2 r j) ((contrEquiv1 d K hr hs).symm k) = ix2 k j := funext fun b => Fin.ext (by
    match b with
    | ⟨0, _⟩ => exact (r0 _ _).trans hk
    | ⟨1, _⟩ => exact r1 _ _)
  rw [el, er]

theorem beside_left {M : Nat} (hc : Shape.Concatenates [(⟨2, ![M, 256]⟩ : Shape), ⟨2, ![M, 256]⟩] ⟨2, ![M, 512]⟩ 1)
    (A B : Mat M 256) (r : Fin M) (k : Fin 256) :
    concatenate (⟨2, ![M, 512]⟩ : Shape) 1 [⟨⟨2, ![M, 256]⟩, A⟩, ⟨⟨2, ![M, 256]⟩, B⟩] hc (ix2 r ⟨k.val, by omega⟩) = A (ix2 r k) :=
  concatenate_pair_apply_left 1 A B hc _ rfl (ix2 r k) (fun b => by
    match b with
    | ⟨0, _⟩ => rfl
    | ⟨1, _⟩ => rfl)

theorem beside_right {M : Nat} (hc : Shape.Concatenates [(⟨2, ![M, 256]⟩ : Shape), ⟨2, ![M, 256]⟩] ⟨2, ![M, 512]⟩ 1)
    (A B : Mat M 256) (r : Fin M) (k : Fin 256) :
    concatenate (⟨2, ![M, 512]⟩ : Shape) 1 [⟨⟨2, ![M, 256]⟩, A⟩, ⟨⟨2, ![M, 256]⟩, B⟩] hc (ix2 r ⟨256 + k.val, by omega⟩) = B (ix2 r k) :=
  concatenate_pair_apply_right 1 A B hc _ rfl rfl (ix2 r k) (fun b hb => by
    match b, hb with
    | ⟨0, _⟩, _ => rfl
    | ⟨1, _⟩, hb => exact absurd rfl hb) (by show k.val + 256 = 256 + k.val; omega)

theorem mlp2_arrays {M : Nat}
    (d1 : DotDims ⟨2, ![M, 512]⟩ ⟨2, ![512, 256]⟩ ⟨2, ![M, 256]⟩) (d2 : DotDims ⟨2, ![M, 256]⟩ ⟨2, ![256, 256]⟩ ⟨2, ![M, 256]⟩)
    (hd1 : ∀ (a : Mat M 512) (w : Mat 512 256) (r : Fin M) (j : Fin 256),
      Host.dotGeneral (F := Ideal) (φ₁ := .f32) (φ₂ := .f32) d1 none a w (ix2 r j) = ∑ k : Fin 512, a (ix2 r k) * w (ix2 k j))
    (hd2 : ∀ (a : Mat M 256) (w : Mat 256 256) (r : Fin M) (j : Fin 256),
      Host.dotGeneral (F := Ideal) (φ₁ := .f32) (φ₂ := .f32) d2 none a w (ix2 r j) = ∑ k : Fin 256, a (ix2 r k) * w (ix2 k j))
    (hc : Shape.Concatenates [(⟨2, ![M, 256]⟩ : Shape), ⟨2, ![M, 256]⟩] ⟨2, ![M, 512]⟩ 1)
    (A B : Mat M 256) (W1 : Mat 512 256) (B1 Z : Mat M 256) (W2 : Mat 256 256) (B2 : Mat M 256)
    (w1a w1b : Mat 256 256) (b1 b2 : Mat 1 256)
    (hw1a : ∀ (k j : Fin 256), W1 (ix2 ⟨k.val, by omega⟩ j) = w1a (ix2 k j))
    (hw1b : ∀ (k j : Fin 256), W1 (ix2 ⟨256 + k.val, by omega⟩ j) = w1b (ix2 k j))
    (hB1 : ∀ (r : Fin M) (j : Fin 256), B1 (ix2 r j) = b1 (ix2 0 j)) (hZ : ∀ (r : Fin M) (j : Fin 256), Z (ix2 r j) = 0)
    (hB2 : ∀ (r : Fin M) (j : Fin 256), B2 (ix2 r j) = b2 (ix2 0 j)) :
    addf (F := Ideal) (φ := .f32) (Host.dotGeneral (F := Ideal) (φ₁ := .f32) (φ₂ := .f32) d2 none
        (maximumf (F := Ideal) (φ := .f32) (addf (F := Ideal) (φ := .f32) (Host.dotGeneral (F := Ideal) (φ₁ := .f32) (φ₂ := .f32) d1 none
          (concatenate (⟨2, ![M, 512]⟩ : Shape) 1 [⟨⟨2, ![M, 256]⟩, A⟩, ⟨⟨2, ![M, 256]⟩, B⟩] hc) W1) B1) Z) W2) B2
      = mlp2Mat w1a w1b b1 W2 b2 A B := by
  funext i
  obtain ⟨r, j, rfl⟩ : ∃ (r : Fin M) (j : Fin 256), i = ix2 r j := ⟨i 0, i 1, eq_ix2 i⟩
  have hid : ∀ k : Fin 256,
      maximumf (F := Ideal) (φ := .f32) (addf (F := Ideal) (φ := .f32) (Host.dotGeneral (F := Ideal) (φ₁ := .f32) (φ₂ := .f32) d1 none
          (concatenate (⟨2, ![M, 512]⟩ : Shape) 1 [⟨⟨2, ![M, 256]⟩, A⟩, ⟨⟨2, ![M, 256]⟩, B⟩] hc) W1) B1) Z (ix2 r k)
        = hidden2 w1a w1b b1 (rowOf A r) (rowOf B r) k := by
    intro k
    rw [maximumf_apply, addf_apply, hd1, hB1, hZ, sum_halves]
    simp only [beside_left hc A B r, beside_right hc A B r, hw1a, hw1b]
    rfl
  rw [addf_apply, hd2, hB2]
  simp only [hid]
  rfl

end Cert.Net.Ref.Layers

end
-- ==== Proof.Ref.Dots.lean ====
import proofs.«411300_j19516331393713_3_alg».proof.Proof.Ref.Mlp

noncomputable section

open scoped BigOperators

namespace Cert.Net.Ref.Layers

open Idealize.ShloMosaic Idealize.ShloMosaic.ValueIdx Cert.ReferenceIdeal Cert.ReferenceIdeal.Gen Cert.Spec

theorem edgeDot1_l0 (i : (⟨2, ![320000, 256]⟩ : Shape).Idx) (q : dot_S320000x512_S512x256_S320000x256_1_0_0_1_n_n.contr.Idx) :
    (dot_S320000x512_S512x256_S320000x256_1_0_0_1_n_n.lhsIdx i q 0).val = (i 0).val := by
  unfold DotDims.lhsIdx
  rw [dif_neg (show ¬(0 : Fin S320000x512.rank) ∈ dot_S320000x512_S512x256_S320000x256_1_0_0_1_n_n.lhsBatch by decide), dif_pos (show (0 : Fin S320000x512.rank) ∈ dot_S320000x512_S512x256_S320000x256_1_0_0_1_n_n.lhsNonContracting by decide)]
  rfl
theorem edgeDot1_l1 (i : (⟨2, ![320000, 256]⟩ : Shape).Idx) (q : dot_S320000x512_S512x256_S320000x256_1_0_0_1_n_n.contr.Idx) :
    (dot_S320000x512_S512x256_S320000x256_1_0_0_1_n_n.lhsIdx i q 1).val = (q ⟨0, by decide⟩).val :=
  dot_S320000x512_S512x256_S320000x256_1_0_0_1_n_n.lhsIdx_val_of_single rfl i q
theorem edgeDot1_r0 (i : (⟨2, ![320000, 256]⟩ : Shape).Idx) (q : dot_S320000x512_S512x256_S320000x256_1_0_0_1_n_n.contr.Idx) :
    (dot_S320000x512_S512x256_S320000x256_1_0_0_1_n_n.rhsIdx i q 0).val = (q ⟨0, by decide⟩).val :=
  dot_S320000x512_S512x256_S320000x256_1_0_0_1_n_n.rhsIdx_val_of_single rfl i q
theorem edgeDot1_r1 (i : (⟨2, ![320000, 256]⟩ : Shape).Idx) (q : dot_S320000x512_S512x256_S320000x256_1_0_0_1_n_n.contr.Idx) :
    (dot_S320000x512_S512x256_S320000x256_1_0_0_1_n_n.rhsIdx i q 1).val = (i 1).val := by
  unfold DotDims.rhsIdx
  rw [dif_neg (show ¬(1 : Fin S512x256.rank) ∈ dot_S320000x512_S512x256_S320000x256_1_0_0_1_n_n.rhsBatch by decide), dif_pos (show (1 : Fin S512x256.rank) ∈ dot_S320000x512_S512x256_S320000x256_1_0_0_1_n_n.rhsNonContracting by decide)]
  rfl

theorem edgeDot1_at (a : Mat 320000 512) (w : Mat 512 256) (r : Fin 320000) (j : Fin 256) :
    Host.dotGeneral (F := Ideal) (φ₁ := .f32) (φ₂ := .f32) dot_S320000x512_S512x256_S320000x256_1_0_0_1_n_n none a w (ix2 r j) = ∑ k : Fin 512, a (ix2 r k) * w (ix2 k j) :=
  dot_at dot_S320000x512_S512x256_S320000x256_1_0_0_1_n_n rfl rfl edgeDot1_l0 edgeDot1_l1 edgeDot1_r0 edgeDot1_r1 a w r j

theorem edgeDot2_l0 (i : (⟨2, ![320000, 256]⟩ : Shape).Idx) (q : dot_S320000x256_S256x256_S320000x256_1_0_0_1_n_n.contr.Idx) :
    (dot_S320000x256_S256x256_S320000x256_1_0_0_1_n_n.lhsIdx i q 0).val = (i 0).val := by
  unfold DotDims.lhsIdx
  rw [dif_neg (show ¬(0 : Fin S320000x256.rank) ∈ dot_S320000x256_S256x256_S320000x256_1_0_0_1_n_n.lhsBatch by decide), dif_pos (show (0 : Fin S320000x256.rank) ∈ dot_S320000x256_S256x256_S320000x256_1_0_0_1_n_n.lhsNonContracting by decide)]
  rfl
theorem edgeDot2_l1 (i : (⟨2, ![320000, 256]⟩ : Shape).Idx) (q : dot_S320000x256_S256x256_S320000x256_1_0_0_1_n_n.contr.Idx) :
    (dot_S320000x256_S256x256_S320000x256_1_0_0_1_n_n.lhsIdx i q 1).val = (q ⟨0, by decide⟩).val :=
  dot_S320000x256_S256x256_S320000x256_1_0_0_1_n_n.lhsIdx_val_of_single rfl i q
theorem edgeDot2_r0 (i : (⟨2, ![320000, 256]⟩ : Shape).Idx) (q : dot_S320000x256_S256x256_S320000x256_1_0_0_1_n_n.contr.Idx) :
    (dot_S320000x256_S256x256_S320000x256_1_0_0_1_n_n.rhsIdx i q 0).val = (q ⟨0, by decide⟩).val :=
  dot_S320000x256_S256x256_S320000x256_1_0_0_1_n_n.rhsIdx_val_of_single rfl i q
theorem edgeDot2_r1 (i : (⟨2, ![320000, 256]⟩ : Shape).Idx) (q : dot_S320000x256_S256x256_S320000x256_1_0_0_1_n_n.contr.Idx) :
    (dot_S320000x256_S256x256_S320000x256_1_0_0_1_n_n.rhsIdx i q 1).val = (i 1).val := by
  unfold DotDims.rhsIdx
  rw [dif_neg (show ¬(1 : Fin S256x256.rank) ∈ dot_S320000x256_S256x256_S320000x256_1_0_0_1_n_n.rhsBatch by decide), dif_pos (show (1 : Fin S256x256.rank) ∈ dot_S320000x256_S256x256_S320000x256_1_0_0_1_n_n.rhsNonContracting by decide)]
  rfl

theorem edgeDot2_at (a : Mat 320000 256) (w : Mat 256 256) (r : Fin 320000) (j : Fin 256) :
    Host.dotGeneral (F := Ideal) (φ₁ := .f32) (φ₂ := .f32) dot_S320000x256_S256x256_S320000x256_1_0_0_1_n_n none a w (ix2 r j) = ∑ k : Fin 256, a (ix2 r k) * w (ix2 k j) :=
  dot_at dot_S320000x256_S256x256_S320000x256_1_0_0_1_n_n rfl rfl edgeDot2_l0 edgeDot2_l1 edgeDot2_r0 edgeDot2_r1 a w r j

theorem nodeDot1_l0 (i : (⟨2, ![20000, 256]⟩ : Shape).Idx) (q : dot_S20000x512_S512x256_S20000x256_1_0_0_1_n_n.contr.Idx) :
    (dot_S20000x512_S512x256_S20000x256_1_0_0_1_n_n.lhsIdx i q 0).val = (i 0).val := by
  unfold DotDims.lhsIdx
  rw [dif_neg (show ¬(0 : Fin S20000x512.rank) ∈ dot_S20000x512_S512x256_S20000x256_1_0_0_1_n_n.lhsBatch by decide), dif_pos (show (0 : Fin S20000x512.rank) ∈ dot_S20000x512_S512x256_S20000x256_1_0_0_1_n_n.lhsNonContracting by decide)]
  rfl
theorem nodeDot1_l1 (i : (⟨2, ![20000, 256]⟩ : Shape).Idx) (q : dot_S20000x512_S512x256_S20000x256_1_0_0_1_n_n.contr.Idx) :
    (dot_S20000x512_S512x256_S20000x256_1_0_0_1_n_n.lhsIdx i q 1).val = (q ⟨0, by decide⟩).val :=
  dot_S20000x512_S512x256_S20000x256_1_0_0_1_n_n.lhsIdx_val_of_single rfl i q
theorem nodeDot1_r0 (i : (⟨2, ![20000, 256]⟩ : Shape).Idx) (q : dot_S20000x512_S512x256_S20000x256_1_0_0_1_n_n.contr.Idx) :
    (dot_S20000x512_S512x256_S20000x256_1_0_0_1_n_n.rhsIdx i q 0).val = (q ⟨0, by decide⟩).val :=
  dot_S20000x512_S512x256_S20000x256_1_0_0_1_n_n.rhsIdx_val_of_single rfl i q
theorem nodeDot1_r1 (i : (⟨2, ![20000, 256]⟩ : Shape).Idx) (q : dot_S20000x512_S512x256_S20000x256_1_0_0_1_n_n.contr.Idx) :
    (dot_S20000x512_S512x256_S20000x256_1_0_0_1_n_n.rhsIdx i q 1).val = (i 1).val := by
  unfold DotDims.rhsIdx
  rw [dif_neg (show ¬(1 : Fin S512x256.rank) ∈ dot_S20000x512_S512x256_S20000x256_1_0_0_1_n_n.rhsBatch by decide), dif_pos (show (1 : Fin S512x256.rank) ∈ dot_S20000x512_S512x256_S20000x256_1_0_0_1_n_n.rhsNonContracting by decide)]
  rfl

theorem nodeDot1_at (a : Mat 20000 512) (w : Mat 512 256) (r : Fin 20000) (j : Fin 256) :
    Host.dotGeneral (F := Ideal) (φ₁ := .f32) (φ₂ := .f32) dot_S20000x512_S512x256_S20000x256_1_0_0_1_n_n none a w (ix2 r j) = ∑ k : Fin 512, a (ix2 r k) * w (ix2 k j) :=
  dot_at dot_S20000x512_S512x256_S20000x256_1_0_0_1_n_n rfl rfl nodeDot1_l0 nodeDot1_l1 nodeDot1_r0 nodeDot1_r1 a w r j

theorem nodeDot2_l0 (i : (⟨2, ![20000, 256]⟩ : Shape).Idx) (q : dot_S20000x256_S256x256_S20000x256_1_0_0_1_n_n.contr.Idx) :
    (dot_S20000x256_S256x256_S20000x256_1_0_0_1_n_n.lhsIdx i q 0).val = (i 0).val := by
  unfold DotDims.lhsIdx
  rw [dif_neg (show ¬(0 : Fin S20000x256.rank) ∈ dot_S20000x256_S256x256_S20000x256_1_0_0_1_n_n.lhsBatch by decide), dif_pos (show (0 : Fin S20000x256.rank) ∈ dot_S20000x256_S256x256_S20000x256_1_0_0_1_n_n.lhsNonContracting by decide)]
  rfl
theorem nodeDot2_l1 (i : (⟨2, ![20000, 256]⟩ : Shape).Idx) (q : dot_S20000x256_S256x256_S20000x256_1_0_0_1_n_n.contr.Idx) :
    (dot_S20000x256_S256x256_S20000x256_1_0_0_1_n_n.lhsIdx i q 1).val = (q ⟨0, by decide⟩).val :=
  dot_S20000x256_S256x256_S20000x256_1_0_0_1_n_n.lhsIdx_val_of_single rfl i q
theorem nodeDot2_r0 (i : (⟨2, ![20000, 256]⟩ : Shape).Idx) (q : dot_S20000x256_S256x256_S20000x256_1_0_0_1_n_n.contr.Idx) :
    (dot_S20000x256_S256x256_S20000x256_1_0_0_1_n_n.rhsIdx i q 0).val = (q ⟨0, by decide⟩).val :=
  dot_S20000x256_S256x256_S20000x256_1_0_0_1_n_n.rhsIdx_val_of_single rfl i q
theorem nodeDot2_r1 (i : (⟨2, ![20000, 256]⟩ : Shape).Idx) (q : dot_S20000x256_S256x256_S20000x256_1_0_0_1_n_n.contr.Idx) :
    (dot_S20000x256_S256x256_S20000x256_1_0_0_1_n_n.rhsIdx i q 1).val = (i 1).val := by
  unfold DotDims.rhsIdx
  rw [dif_neg (show ¬(1 : Fin S256x256.rank) ∈ dot_S20000x256_S256x256_S20000x256_1_0_0_1_n_n.rhsBatch by decide), dif_pos (show (1 : Fin S256x256.rank) ∈ dot_S20000x256_S256x256_S20000x256_1_0_0_1_n_n.rhsNonContracting by decide)]
  rfl

theorem nodeDot2_at (a : Mat 20000 256) (w : Mat 256 256) (r : Fin 20000) (j : Fin 256) :
    Host.dotGeneral (F := Ideal) (φ₁ := .f32) (φ₂ := .f32) dot_S20000x256_S256x256_S20000x256_1_0_0_1_n_n none a w (ix2 r j) = ∑ k : Fin 256, a (ix2 r k) * w (ix2 k j) :=
  dot_at dot_S20000x256_S256x256_S20000x256_1_0_0_1_n_n rfl rfl nodeDot2_l0 nodeDot2_l1 nodeDot2_r0 nodeDot2_r1 a w r j

end Cert.Net.Ref.Layers

end
-- ==== Proof.Ref.Step.lean ====
import proofs.«411300_j19516331393713_3_alg».proof.Proof.Net
import proofs.«411300_j19516331393713_3_alg».proof.Proof.Ref.Dots

noncomputable section

open scoped BigOperators

namespace Cert.Net.Ref.Layers

open Idealize.ShloMosaic Idealize.ShloMosaic.ValueIdx Cert.ReferenceIdeal Cert.ReferenceIdeal.Gen Cert.ReferenceIdeal.Read Cert.Spec Cert.Net

theorem rows_lo (W : Mat 512 256) (k j : Fin 256) :
    W (ix2 ⟨k.val, by omega⟩ j) = rowsFrom 0 256 W (by omega) (ix2 k j) := by
  unfold rowsFrom
  exact congrArg W (funext fun a => Fin.ext (by
    match a with
    | ⟨0, _⟩ => show k.val = 0 + k.val; omega
    | ⟨1, _⟩ => rfl))

theorem rows_hi (W : Mat 512 256) (k j : Fin 256) :
    W (ix2 ⟨256 + k.val, by omega⟩ j) = rowsFrom 256 256 W (by omega) (ix2 k j) := by
  unfold rowsFrom
  exact congrArg W (funext fun a => Fin.ext (by
    match a with
    | ⟨0, _⟩ => rfl
    | ⟨1, _⟩ => rfl))

theorem step_arrays (l : Fin 3) (x2 : (⟨S320000x2, .i32⟩ : BufTy).Contents (Elt Ideal)) (x12 : Stack 3 512 256) (x13 : Mat 3 256)
    (x14 : Stack 3 256 256) (x15 : Mat 3 256) (x16 : Stack 3 512 256) (x17 : Mat 3 256) (x18 : Stack 3 256 256) (x19 : Mat 3 256)
    (H : Mat 20000 256) (B1 Z1 B2 : Mat 320000 256) (C1 Z2 C2 : Mat 20000 256)
    (hB1 : ∀ (r : Fin 320000) (j : Fin 256), B1 (ix2 r j) = layerRow l x13 (ix2 0 j))
    (hZ1 : ∀ (r : Fin 320000) (j : Fin 256), Z1 (ix2 r j) = 0)
    (hB2 : ∀ (r : Fin 320000) (j : Fin 256), B2 (ix2 r j) = layerRow l x15 (ix2 0 j))
    (hC1 : ∀ (r : Fin 20000) (j : Fin 256), C1 (ix2 r j) = layerRow l x17 (ix2 0 j))
    (hZ2 : ∀ (r : Fin 20000) (j : Fin 256), Z2 (ix2 r j) = 0)
    (hC2 : ∀ (r : Fin 20000) (j : Fin 256), C2 (ix2 r j) = layerRow l x19 (ix2 0 j)) :
    addf (F := Ideal) (φ := .f32) H
      (addf (F := Ideal) (φ := .f32) (Host.dotGeneral (F := Ideal) (φ₁ := .f32) (φ₂ := .f32) dot_S20000x256_S256x256_S20000x256_1_0_0_1_n_n none
        (maximumf (F := Ideal) (φ := .f32) (addf (F := Ideal) (φ := .f32) (Host.dotGeneral (F := Ideal) (φ₁ := .f32) (φ₂ := .f32) dot_S20000x512_S512x256_S20000x256_1_0_0_1_n_n none
          (concatenate S20000x512 1 [⟨S20000x256, H⟩, ⟨S20000x256,
            Host.scatterAdd (F := Ideal) (φ := .f32) scatter_S20000x256_S320000x1_S320000x256_1_0_0_1 (val_main_v57 (F := Ideal)) (val_main_v58 (F := Ideal) x2)
              (addf (F := Ideal) (φ := .f32) (Host.dotGeneral (F := Ideal) (φ₁ := .f32) (φ₂ := .f32) dot_S320000x256_S256x256_S320000x256_1_0_0_1_n_n none
                (maximumf (F := Ideal) (φ := .f32) (addf (F := Ideal) (φ := .f32) (Host.dotGeneral (F := Ideal) (φ₁ := .f32) (φ₂ := .f32) dot_S320000x512_S512x256_S320000x256_1_0_0_1_n_n none
                  (concatenate S320000x512 1 [⟨S320000x256, (Host.gather gather_S20000x256_S320000x1_S320000x256_1_0_n_n_0_1_1256 H (val_main_v30 (F := Ideal) x2))⟩, ⟨S320000x256, (Host.gather gather_S20000x256_S320000x1_S320000x256_1_0_n_n_0_1_1256 H (val_main_v37 (F := Ideal) x2))⟩] concatenates_S320000x256_S320000x256_S320000x512_d1)
                  (Net.layer l x12)) B1) Z1) (Net.layer l x14)) B2)⟩] concatenates_S20000x256_S20000x256_S20000x512_d1)
          (Net.layer l x16)) C1) Z2) (Net.layer l x18)) C2)
      = Net.layerStep l x2 x12 x13 x14 x15 x16 x17 x18 x19 H := by
  have hM := mlp2_arrays (M := 320000) dot_S320000x512_S512x256_S320000x256_1_0_0_1_n_n dot_S320000x256_S256x256_S320000x256_1_0_0_1_n_n edgeDot1_at edgeDot2_at concatenates_S320000x256_S320000x256_S320000x512_d1
    (Host.gather gather_S20000x256_S320000x1_S320000x256_1_0_n_n_0_1_1256 H (val_main_v30 (F := Ideal) x2)) (Host.gather gather_S20000x256_S320000x1_S320000x256_1_0_n_n_0_1_1256 H (val_main_v37 (F := Ideal) x2)) (Net.layer l x12) B1 Z1 (Net.layer l x14) B2
    (rowsFrom 0 256 (Net.layer l x12) (by omega)) (rowsFrom 256 256 (Net.layer l x12) (by omega)) (layerRow l x13) (layerRow l x15)
    (rows_lo _) (rows_hi _) hB1 hZ1 hB2
  rw [hM]
  have hU := mlp2_arrays (M := 20000) dot_S20000x512_S512x256_S20000x256_1_0_0_1_n_n dot_S20000x256_S256x256_S20000x256_1_0_0_1_n_n nodeDot1_at nodeDot2_at concatenates_S20000x256_S20000x256_S20000x512_d1
    H (Host.scatterAdd (F := Ideal) (φ := .f32) scatter_S20000x256_S320000x1_S320000x256_1_0_0_1 (val_main_v57 (F := Ideal)) (val_main_v58 (F := Ideal) x2)
        (mlp2Mat (rowsFrom 0 256 (Net.layer l x12) (by omega)) (rowsFrom 256 256 (Net.layer l x12) (by omega)) (layerRow l x13)
          (Net.layer l x14) (layerRow l x15) (Host.gather gather_S20000x256_S320000x1_S320000x256_1_0_n_n_0_1_1256 H (val_main_v30 (F := Ideal) x2)) (Host.gather gather_S20000x256_S320000x1_S320000x256_1_0_n_n_0_1_1256 H (val_main_v37 (F := Ideal) x2))))
    (Net.layer l x16) C1 Z2 (Net.layer l x18) C2
    (rowsFrom 0 256 (Net.layer l x16) (by omega)) (rowsFrom 256 256 (Net.layer l x16) (by omega)) (layerRow l x17) (layerRow l x19)
    (rows_lo _) (rows_hi _) hC1 hZ2 hC2
  rw [hU]
  funext i
  rfl

end Cert.Net.Ref.Layers

end
-- ==== Proof.Ref.Layer0.lean ====
import proofs.«411300_j19516331393713_3_alg».proof.Proof.Ref.Step

noncomputable section

open scoped BigOperators

namespace Cert.Net.Ref

open Idealize.ShloMosaic Idealize.ShloMosaic.ValueIdx Cert.ReferenceIdeal Cert.ReferenceIdeal.Gen Cert.ReferenceIdeal.Read Cert.Spec Cert.Net

namespace Layers

theorem l0_w1 (x12 : (⟨S3x512x256, .f32⟩ : BufTy).Contents (Elt Ideal)) : val_main_v41 (F := Ideal) x12 = Net.layer 0 x12 := by
  funext i
  obtain ⟨k, j, rfl⟩ : ∃ (k : Fin 512) (j : Fin 256), i = ix2 k j := ⟨i 0, i 1, eq_ix2 i⟩
  rw [val_main_v41_apply, val_main_v40_apply]
  unfold Net.layer
  exact congrArg x12 (funext fun a => Fin.ext (by
    match a with
    | ⟨0, _⟩ => rfl
    | ⟨1, _⟩ => show (k.val * 256 + j.val) / 256 % 512 = k.val; have := k.isLt; have := j.isLt; omega
    | ⟨2, _⟩ => show (k.val * 256 + j.val) % 256 = j.val; have := j.isLt; omega))

theorem l0_b1 (x13 : (⟨S3x256, .f32⟩ : BufTy).Contents (Elt Ideal)) (r : Fin 320000) (j : Fin 256) :
    val_main_v46 (F := Ideal) x13 (ix2 r j) = Net.layerRow 0 x13 (ix2 0 j) := by
  rw [val_main_v46_apply, val_main_v45_apply, val_main_v44_apply, val_main_v43_apply]
  unfold Net.layerRow
  exact congrArg x13 (funext fun a => Fin.ext (by
    match a with
    | ⟨0, _⟩ => rfl
    | ⟨1, _⟩ => show j.val % 256 = j.val; have := j.isLt; omega))

theorem l0_z1 (r : Fin 320000) (j : Fin 256) : val_main_call4_v0 (F := Ideal) (ix2 r j) = (0 : EReal) := by
  rw [val_main_call4_v0_apply, val_main_call4_cst_apply]
  exact Ideal.ofBits_zero_f32

theorem l0_w2 (x14 : (⟨S3x256x256, .f32⟩ : BufTy).Contents (Elt Ideal)) : val_main_v50 (F := Ideal) x14 = Net.layer 0 x14 := by
  funext i
  obtain ⟨k, j, rfl⟩ : ∃ (k : Fin 256) (j : Fin 256), i = ix2 k j := ⟨i 0, i 1, eq_ix2 i⟩
  rw [val_main_v50_apply, val_main_v49_apply]
  unfold Net.layer
  exact congrArg x14 (funext fun a => Fin.ext (by
    match a with
    | ⟨0, _⟩ => rfl
    | ⟨1, _⟩ => show (k.val * 256 + j.val) / 256 % 256 = k.val; have := k.isLt; have := j.isLt; omega
    | ⟨2, _⟩ => show (k.val * 256 + j.val) % 256 = j.val; have := j.isLt; omega))

theorem l0_b2 (x15 : (⟨S3x256, .f32⟩ : BufTy).Contents (Elt Ideal)) (r : Fin 320000) (j : Fin 256) :
    val_main_v55 (F := Ideal) x15 (ix2 r j) = Net.layerRow 0 x15 (ix2 0 j) := by
  rw [val_main_v55_apply, val_main_v54_apply, val_main_v53_apply, val_main_v52_apply]
  unfold Net.layerRow
  exact congrArg x15 (funext fun a => Fin.ext (by
    match a with
    | ⟨0, _⟩ => rfl
    | ⟨1, _⟩ => show j.val % 256 = j.val; have := j.isLt; omega))

theorem l0_u1 (x16 : (⟨S3x512x256, .f32⟩ : BufTy).Contents (Elt Ideal)) : val_main_v62 (F := Ideal) x16 = Net.layer 0 x16 := by
  funext i
  obtain ⟨k, j, rfl⟩ : ∃ (k : Fin 512) (j : Fin 256), i = ix2 k j := ⟨i 0, i 1, eq_ix2 i⟩
  rw [val_main_v62_apply, val_main_v61_apply]
  unfold Net.layer
  exact congrArg x16 (funext fun a => Fin.ext (by
    match a with
    | ⟨0, _⟩ => rfl
    | ⟨1, _⟩ => show (k.val * 256 + j.val) / 256 % 512 = k.val; have := k.isLt; have := j.isLt; omega
    | ⟨2, _⟩ => show (k.val * 256 + j.val) % 256 = j.val; have := j.isLt; omega))

theorem l0_c1 (x17 : (⟨S3x256, .f32⟩ : BufTy).Contents (Elt Ideal)) (r : Fin 20000) (j : Fin 256) :
    val_main_v67 (F := Ideal) x17 (ix2 r j) = Net.layerRow 0 x17 (ix2 0 j) := by
  rw [val_main_v67_apply, val_main_v66_apply, val_main_v65_apply, val_main_v64_apply]
  unfold Net.layerRow
  exact congrArg x17 (funext fun a => Fin.ext (by
    match a with
    | ⟨0, _⟩ => rfl
    | ⟨1, _⟩ => show j.val % 256 = j.val; have := j.isLt; omega))

theorem l0_z2 (r : Fin 20000) (j : Fin 256) : val_main_call5_v0 (F := Ideal) (ix2 r j) = (0 : EReal) := by
  rw [val_main_call5_v0_apply, val_main_call5_cst_apply]
  exact Ideal.ofBits_zero_f32

theorem l0_u2 (x18 : (⟨S3x256x256, .f32⟩ : BufTy).Contents (Elt Ideal)) : val_main_v71 (F := Ideal) x18 = Net.layer 0 x18 := by
  funext i
  obtain ⟨k, j, rfl⟩ : ∃ (k : Fin 256) (j : Fin 256), i = ix2 k j := ⟨i 0, i 1, eq_ix2 i⟩
  rw [val_main_v71_apply, val_main_v70_apply]
  unfold Net.layer
  exact congrArg x18 (funext fun a => Fin.ext (by
    match a with
    | ⟨0, _⟩ => rfl
    | ⟨1, _⟩ => show (k.val * 256 + j.val) / 256 % 256 = k.val; have := k.isLt; have := j.isLt; omega
    | ⟨2, _⟩ => show (k.val * 256 + j.val) % 256 = j.val; have := j.isLt; omega))

theorem l0_c2 (x19 : (⟨S3x256, .f32⟩ : BufTy).Contents (Elt Ideal)) (r : Fin 20000) (j : Fin 256) :
    val_main_v76 (F := Ideal) x19 (ix2 r j) = Net.layerRow 0 x19 (ix2 0 j) := by
  rw [val_main_v76_apply, val_main_v75_apply, val_main_v74_apply, val_main_v73_apply]
  unfold Net.layerRow
  exact congrArg x19 (funext fun a => Fin.ext (by
    match a with
    | ⟨0, _⟩ => rfl
    | ⟨1, _⟩ => show j.val % 256 = j.val; have := j.isLt; omega))

end Layers

open Layers

theorem ref_layer0 (x0 : (⟨S20000x512, .f32⟩ : BufTy).Contents (Elt Ideal)) (x1 : (⟨S20000x18, .f32⟩ : BufTy).Contents (Elt Ideal)) (x2 : (⟨S320000x2, .i32⟩ : BufTy).Contents (Elt Ideal)) (x4 : (⟨S512x512, .f32⟩ : BufTy).Contents (Elt Ideal)) (x5 : (⟨S512, .f32⟩ : BufTy).Contents (Elt Ideal)) (x6 : (⟨S512x256, .f32⟩ : BufTy).Contents (Elt Ideal)) (x7 : (⟨S256, .f32⟩ : BufTy).Contents (Elt Ideal)) (x8 : (⟨S274x256, .f32⟩ : BufTy).Contents (Elt Ideal)) (x9 : (⟨S256, .f32⟩ : BufTy).Contents (Elt Ideal)) (x10 : (⟨S256x256, .f32⟩ : BufTy).Contents (Elt Ideal)) (x11 : (⟨S256, .f32⟩ : BufTy).Contents (Elt Ideal)) (x12 : (⟨S3x512x256, .f32⟩ : BufTy).Contents (Elt Ideal)) (x13 : (⟨S3x256, .f32⟩ : BufTy).Contents (Elt Ideal)) (x14 : (⟨S3x256x256, .f32⟩ : BufTy).Contents (Elt Ideal)) (x15 : (⟨S3x256, .f32⟩ : BufTy).Contents (Elt Ideal)) (x16 : (⟨S3x512x256, .f32⟩ : BufTy).Contents (Elt Ideal)) (x17 : (⟨S3x256, .f32⟩ : BufTy).Contents (Elt Ideal)) (x18 : (⟨S3x256x256, .f32⟩ : BufTy).Contents (Elt Ideal)) (x19 : (⟨S3x256, .f32⟩ : BufTy).Contents (Elt Ideal)) :
    val_main_v78 (F := Ideal) x0 x1 x2 x4 x5 x6 x7 x8 x9 x10 x11 x12 x13 x14 x15 x16 x17 x18 x19
      = Net.layerStep 0 x2 x12 x13 x14 x15 x16 x17 x18 x19 (val_main_v20 (F := Ideal) x0 x1 x4 x5 x6 x7 x8 x9 x10 x11) := by
  unfold val_main_v78 val_main_v77 val_main_v72 val_main_v69 val_main_v68 val_main_v63 val_main_v60 val_main_v59 val_main_v56 val_main_v51
    val_main_v48 val_main_v47 val_main_v42 val_main_v39 val_main_v38 val_main_v31
  rw [l0_w1 x12, l0_w2 x14, l0_u1 x16, l0_u2 x18]
  exact step_arrays 0 x2 x12 x13 x14 x15 x16 x17 x18 x19 (val_main_v20 (F := Ideal) x0 x1 x4 x5 x6 x7 x8 x9 x10 x11)
    (val_main_v46 (F := Ideal) x13) (val_main_call4_v0 (F := Ideal)) (val_main_v55 (F := Ideal) x15)
    (val_main_v67 (F := Ideal) x17) (val_main_call5_v0 (F := Ideal)) (val_main_v76 (F := Ideal) x19)
    (l0_b1 x13) l0_z1 (l0_b2 x15) (l0_c1 x17) l0_z2 (l0_c2 x19)

end Cert.Net.Ref

end
-- ==== Proof.Ref.Layer1.lean ====
import proofs.«411300_j19516331393713_3_alg».proof.Proof.Ref.Step

noncomputable section

open scoped BigOperators

namespace Cert.Net.Ref

open Idealize.ShloMosaic Idealize.ShloMosaic.ValueIdx Cert.ReferenceIdeal Cert.ReferenceIdeal.Gen Cert.ReferenceIdeal.Read Cert.Spec Cert.Net

namespace Layers

theorem l1_w1 (x12 : (⟨S3x512x256, .f32⟩ : BufTy).Contents (Elt Ideal)) : val_main_v95 (F := Ideal) x12 = Net.layer 1 x12 := by
  funext i
  obtain ⟨k, j, rfl⟩ : ∃ (k : Fin 512) (j : Fin 256), i = ix2 k j := ⟨i 0, i 1, eq_ix2 i⟩
  rw [val_main_v95_apply, val_main_v94_apply]
  unfold Net.layer
  exact congrArg x12 (funext fun a => Fin.ext (by
    match a with
    | ⟨0, _⟩ => rfl
    | ⟨1, _⟩ => show (k.val * 256 + j.val) / 256 % 512 = k.val; have := k.isLt; have := j.isLt; omega
    | ⟨2, _⟩ => show (k.val * 256 + j.val) % 256 = j.val; have := j.isLt; omega))

theorem l1_b1 (x13 : (⟨S3x256, .f32⟩ : BufTy).Contents (Elt Ideal)) (r : Fin 320000) (j : Fin 256) :
    val_main_v100 (F := Ideal) x13 (ix2 r j) = Net.layerRow 1 x13 (ix2 0 j) := by
  rw [val_main_v100_apply, val_main_v99_apply, val_main_v98_apply, val_main_v97_apply]
  unfold Net.layerRow
  exact congrArg x13 (funext fun a => Fin.ext (by
    match a with
    | ⟨0, _⟩ => rfl
    | ⟨1, _⟩ => show j.val % 256 = j.val; have := j.isLt; omega))

theorem l1_z1 (r : Fin 320000) (j : Fin 256) : val_main_call6_v0 (F := Ideal) (ix2 r j) = (0 : EReal) := by
  rw [val_main_call6_v0_apply, val_main_call6_cst_apply]
  exact Ideal.ofBits_zero_f32

theorem l1_w2 (x14 : (⟨S3x256x256, .f32⟩ : BufTy).Contents (Elt Ideal)) : val_main_v104 (F := Ideal) x14 = Net.layer 1 x14 := by
  funext i
  obtain ⟨k, j, rfl⟩ : ∃ (k : Fin 256) (j : Fin 256), i = ix2 k j := ⟨i 0, i 1, eq_ix2 i⟩
  rw [val_main_v104_apply, val_main_v103_apply]
  unfold Net.layer
  exact congrArg x14 (funext fun a => Fin.ext (by
    match a with
    | ⟨0, _⟩ => rfl
    | ⟨1, _⟩ => show (k.val * 256 + j.val) / 256 % 256 = k.val; have := k.isLt; have := j.isLt; omega
    | ⟨2, _⟩ => show (k.val * 256 + j.val) % 256 = j.val; have := j.isLt; omega))

theorem l1_b2 (x15 : (⟨S3x256, .f32⟩ : BufTy).Contents (Elt Ideal)) (r : Fin 320000) (j : Fin 256) :
    val_main_v109 (F := Ideal) x15 (ix2 r j) = Net.layerRow 1 x15 (ix2 0 j) := by
  rw [val_main_v109_apply, val_main_v108_apply, val_main_v107_apply, val_main_v106_apply]
  unfold Net.layerRow
  exact congrArg x15 (funext fun a => Fin.ext (by
    match a with
    | ⟨0, _⟩ => rfl
    | ⟨1, _⟩ => show j.val % 256 = j.val; have := j.isLt; omega))

theorem l1_u1 (x16 : (⟨S3x512x256, .f32⟩ : BufTy).Contents (Elt Ideal)) : val_main_v116 (F := Ideal) x16 = Net.layer 1 x16 := by
  funext i
  obtain ⟨k, j, rfl⟩ : ∃ (k : Fin 512) (j : Fin 256), i = ix2 k j := ⟨i 0, i 1, eq_ix2 i⟩
  rw [val_main_v116_apply, val_main_v115_apply]
  unfold Net.layer
  exact congrArg x16 (funext fun a => Fin.ext (by
    match a with
    | ⟨0, _⟩ => rfl
    | ⟨1, _⟩ => show (k.val * 256 + j.val) / 256 % 512 = k.val; have := k.isLt; have := j.isLt; omega
    | ⟨2, _⟩ => show (k.val * 256 + j.val) % 256 = j.val; have := j.isLt; omega))

theorem l1_c1 (x17 : (⟨S3x256, .f32⟩ : BufTy).Contents (Elt Ideal)) (r : Fin 20000) (j : Fin 256) :
    val_main_v121 (F := Ideal) x17 (ix2 r j) = Net.layerRow 1 x17 (ix2 0 j) := by
  rw [val_main_v121_apply, val_main_v120_apply, val_main_v119_apply, val_main_v118_apply]
  unfold Net.layerRow
  exact congrArg x17 (funext fun a => Fin.ext (by
    match a with
    | ⟨0, _⟩ => rfl
    | ⟨1, _⟩ => show j.val % 256 = j.val; have := j.isLt; omega))

theorem l1_z2 (r : Fin 20000) (j : Fin 256) : val_main_call7_v0 (F := Ideal) (ix2 r j) = (0 : EReal) := by
  rw [val_main_call7_v0_apply, val_main_call7_cst_apply]
  exact Ideal.ofBits_zero_f32

theorem l1_u2 (x18 : (⟨S3x256x256, .f32⟩ : BufTy).Contents (Elt Ideal)) : val_main_v125 (F := Ideal) x18 = Net.layer 1 x18 := by
  funext i
  obtain ⟨k, j, rfl⟩ : ∃ (k : Fin 256) (j : Fin 256), i = ix2 k j := ⟨i 0, i 1, eq_ix2 i⟩
  rw [val_main_v125_apply, val_main_v124_apply]
  unfold Net.layer
  exact congrArg x18 (funext fun a => Fin.ext (by
    match a with
    | ⟨0, _⟩ => rfl
    | ⟨1, _⟩ => show (k.val * 256 + j.val) / 256 % 256 = k.val; have := k.isLt; have := j.isLt; omega
    | ⟨2, _⟩ => show (k.val * 256 + j.val) % 256 = j.val; have := j.isLt; omega))

theorem l1_c2 (x19 : (⟨S3x256, .f32⟩ : BufTy).Contents (Elt Ideal)) (r : Fin 20000) (j : Fin 256) :
    val_main_v130 (F := Ideal) x19 (ix2 r j) = Net.layerRow 1 x19 (ix2 0 j) := by
  rw [val_main_v130_apply, val_main_v129_apply, val_main_v128_apply, val_main_v127_apply]
  unfold Net.layerRow
  exact congrArg x19 (funext fun a => Fin.ext (by
    match a with
    | ⟨0, _⟩ => rfl
    | ⟨1, _⟩ => show j.val % 256 = j.val; have := j.isLt; omega))

theorem l1_src (x2 : (⟨S320000x2, .i32⟩ : BufTy).Contents (Elt Ideal)) : val_main_v84 (F := Ideal) x2 = val_main_v30 (F := Ideal) x2 := rfl

theorem l1_dst (x2 : (⟨S320000x2, .i32⟩ : BufTy).Contents (Elt Ideal)) : val_main_v91 (F := Ideal) x2 = val_main_v37 (F := Ideal) x2 := rfl

theorem l1_acc : val_main_v111 (F := Ideal) = val_main_v57 (F := Ideal) := rfl

theorem l1_at (x2 : (⟨S320000x2, .i32⟩ : BufTy).Contents (Elt Ideal)) : val_main_v112 (F := Ideal) x2 = val_main_v58 (F := Ideal) x2 := rfl

end Layers

open Layers

theorem ref_layer1 (x0 : (⟨S20000x512, .f32⟩ : BufTy).Contents (Elt Ideal)) (x1 : (⟨S20000x18, .f32⟩ : BufTy).Contents (Elt Ideal)) (x2 : (⟨S320000x2, .i32⟩ : BufTy).Contents (Elt Ideal)) (x4 : (⟨S512x512, .f32⟩ : BufTy).Contents (Elt Ideal)) (x5 : (⟨S512, .f32⟩ : BufTy).Contents (Elt Ideal)) (x6 : (⟨S512x256, .f32⟩ : BufTy).Contents (Elt Ideal)) (x7 : (⟨S256, .f32⟩ : BufTy).Contents (Elt Ideal)) (x8 : (⟨S274x256, .f32⟩ : BufTy).Contents (Elt Ideal)) (x9 : (⟨S256, .f32⟩ : BufTy).Contents (Elt Ideal)) (x10 : (⟨S256x256, .f32⟩ : BufTy).Contents (Elt Ideal)) (x11 : (⟨S256, .f32⟩ : BufTy).Contents (Elt Ideal)) (x12 : (⟨S3x512x256, .f32⟩ : BufTy).Contents (Elt Ideal)) (x13 : (⟨S3x256, .f32⟩ : BufTy).Contents (Elt Ideal)) (x14 : (⟨S3x256x256, .f32⟩ : BufTy).Contents (Elt Ideal)) (x15 : (⟨S3x256, .f32⟩ : BufTy).Contents (Elt Ideal)) (x16 : (⟨S3x512x256, .f32⟩ : BufTy).Contents (Elt Ideal)) (x17 : (⟨S3x256, .f32⟩ : BufTy).Contents (Elt Ideal)) (x18 : (⟨S3x256x256, .f32⟩ : BufTy).Contents (Elt Ideal)) (x19 : (⟨S3x256, .f32⟩ : BufTy).Contents (Elt Ideal)) :
    val_main_v132 (F := Ideal) x0 x1 x2 x4 x5 x6 x7 x8 x9 x10 x11 x12 x13 x14 x15 x16 x17 x18 x19
      = Net.layerStep 1 x2 x12 x13 x14 x15 x16 x17 x18 x19 (val_main_v78 (F := Ideal) x0 x1 x2 x4 x5 x6 x7 x8 x9 x10 x11 x12 x13 x14 x15 x16 x17 x18 x19) := by
  unfold val_main_v132 val_main_v131 val_main_v126 val_main_v123 val_main_v122 val_main_v117 val_main_v114 val_main_v113 val_main_v110 val_main_v105
    val_main_v102 val_main_v101 val_main_v96 val_main_v93 val_main_v92 val_main_v85
  rw [l1_src x2, l1_dst x2, l1_acc, l1_at x2]
  rw [l1_w1 x12, l1_w2 x14, l1_u1 x16, l1_u2 x18]
  exact step_arrays 1 x2 x12 x13 x14 x15 x16 x17 x18 x19 (val_main_v78 (F := Ideal) x0 x1 x2 x4 x5 x6 x7 x8 x9 x10 x11 x12 x13 x14 x15 x16 x17 x18 x19)
    (val_main_v100 (F := Ideal) x13) (val_main_call6_v0 (F := Ideal)) (val_main_v109 (F := Ideal) x15)
    (val_main_v121 (F := Ideal) x17) (val_main_call7_v0 (F := Ideal)) (val_main_v130 (F := Ideal) x19)
    (l1_b1 x13) l1_z1 (l1_b2 x15) (l1_c1 x17) l1_z2 (l1_c2 x19)

end Cert.Net.Ref

end
-- ==== Proof.Ref.Layer2.lean ====
import proofs.«411300_j19516331393713_3_alg».proof.Proof.Ref.Step

noncomputable section

open scoped BigOperators

namespace Cert.Net.Ref

open Idealize.ShloMosaic Idealize.ShloMosaic.ValueIdx Cert.ReferenceIdeal Cert.ReferenceIdeal.Gen Cert.ReferenceIdeal.Read Cert.Spec Cert.Net

namespace Layers

theorem l2_w1 (x12 : (⟨S3x512x256, .f32⟩ : BufTy).Contents (Elt Ideal)) : val_main_v149 (F := Ideal) x12 = Net.layer 2 x12 := by
  funext i
  obtain ⟨k, j, rfl⟩ : ∃ (k : Fin 512) (j : Fin 256), i = ix2 k j := ⟨i 0, i 1, eq_ix2 i⟩
  rw [val_main_v149_apply, val_main_v148_apply]
  unfold Net.layer
  exact congrArg x12 (funext fun a => Fin.ext (by
    match a with
    | ⟨0, _⟩ => rfl
    | ⟨1, _⟩ => show (k.val * 256 + j.val) / 256 % 512 = k.val; have := k.isLt; have := j.isLt; omega
    | ⟨2, _⟩ => show (k.val * 256 + j.val) % 256 = j.val; have := j.isLt; omega))

theorem l2_b1 (x13 : (⟨S3x256, .f32⟩ : BufTy).Contents (Elt Ideal)) (r : Fin 320000) (j : Fin 256) :
    val_main_v154 (F := Ideal) x13 (ix2 r j) = Net.layerRow 2 x13 (ix2 0 j) := by
  rw [val_main_v154_apply, val_main_v153_apply, val_main_v152_apply, val_main_v151_apply]
  unfold Net.layerRow
  exact congrArg x13 (funext fun a => Fin.ext (by
    match a with
    | ⟨0, _⟩ => rfl
    | ⟨1, _⟩ => show j.val % 256 = j.val; have := j.isLt; omega))

theorem l2_z1 (r : Fin 320000) (j : Fin 256) : val_main_call8_v0 (F := Ideal) (ix2 r j) = (0 : EReal) := by
  rw [val_main_call8_v0_apply, val_main_call8_cst_apply]
  exact Ideal.ofBits_zero_f32

theorem l2_w2 (x14 : (⟨S3x256x256, .f32⟩ : BufTy).Contents (Elt Ideal)) : val_main_v158 (F := Ideal) x14 = Net.layer 2 x14 := by
  funext i
  obtain ⟨k, j, rfl⟩ : ∃ (k : Fin 256) (j : Fin 256), i = ix2 k j := ⟨i 0, i 1, eq_ix2 i⟩
  rw [val_main_v158_apply, val_main_v157_apply]
  unfold Net.layer
  exact congrArg x14 (funext fun a => Fin.ext (by
    match a with
    | ⟨0, _⟩ => rfl
    | ⟨1, _⟩ => show (k.val * 256 + j.val) / 256 % 256 = k.val; have := k.isLt; have := j.isLt; omega
    | ⟨2, _⟩ => show (k.val * 256 + j.val) % 256 = j.val; have := j.isLt; omega))

theorem l2_b2 (x15 : (⟨S3x256, .f32⟩ : BufTy).Contents (Elt Ideal)) (r : Fin 320000) (j : Fin 256) :
    val_main_v163 (F := Ideal) x15 (ix2 r j) = Net.layerRow 2 x15 (ix2 0 j) := by
  rw [val_main_v163_apply, val_main_v162_apply, val_main_v161_apply, val_main_v160_apply]
  unfold Net.layerRow
  exact congrArg x15 (funext fun a => Fin.ext (by
    match a with
    | ⟨0, _⟩ => rfl
    | ⟨1, _⟩ => show j.val % 256 = j.val; have := j.isLt; omega))

theorem l2_u1 (x16 : (⟨S3x512x256, .f32⟩ : BufTy).Contents (Elt Ideal)) : val_main_v170 (F := Ideal) x16 = Net.layer 2 x16 := by
  funext i
  obtain ⟨k, j, rfl⟩ : ∃ (k : Fin 512) (j : Fin 256), i = ix2 k j := ⟨i 0, i 1, eq_ix2 i⟩
  rw [val_main_v170_apply, val_main_v169_apply]
  unfold Net.layer
  exact congrArg x16 (funext fun a => Fin.ext (by
    match a with
    | ⟨0, _⟩ => rfl
    | ⟨1, _⟩ => show (k.val * 256 + j.val) / 256 % 512 = k.val; have := k.isLt; have := j.isLt; omega
    | ⟨2, _⟩ => show (k.val * 256 + j.val) % 256 = j.val; have := j.isLt; omega))

theorem l2_c1 (x17 : (⟨S3x256, .f32⟩ : BufTy).Contents (Elt Ideal)) (r : Fin 20000) (j : Fin 256) :
    val_main_v175 (F := Ideal) x17 (ix2 r j) = Net.layerRow 2 x17 (ix2 0 j) := by
  rw [val_main_v175_apply, val_main_v174_apply, val_main_v173_apply, val_main_v172_apply]
  unfold Net.layerRow
  exact congrArg x17 (funext fun a => Fin.ext (by
    match a with
    | ⟨0, _⟩ => rfl
    | ⟨1, _⟩ => show j.val % 256 = j.val; have := j.isLt; omega))

theorem l2_z2 (r : Fin 20000) (j : Fin 256) : val_main_call9_v0 (F := Ideal) (ix2 r j) = (0 : EReal) := by
  rw [val_main_call9_v0_apply, val_main_call9_cst_apply]
  exact Ideal.ofBits_zero_f32

theorem l2_u2 (x18 : (⟨S3x256x256, .f32⟩ : BufTy).Contents (Elt Ideal)) : val_main_v179 (F := Ideal) x18 = Net.layer 2 x18 := by
  funext i
  obtain ⟨k, j, rfl⟩ : ∃ (k : Fin 256) (j : Fin 256), i = ix2 k j := ⟨i 0, i 1, eq_ix2 i⟩
  rw [val_main_v179_apply, val_main_v178_apply]
  unfold Net.layer
  exact congrArg x18 (funext fun a => Fin.ext (by
    match a with
    | ⟨0, _⟩ => rfl
    | ⟨1, _⟩ => show (k.val * 256 + j.val) / 256 % 256 = k.val; have := k.isLt; have := j.isLt; omega
    | ⟨2, _⟩ => show (k.val * 256 + j.val) % 256 = j.val; have := j.isLt; omega))

theorem l2_c2 (x19 : (⟨S3x256, .f32⟩ : BufTy).Contents (Elt Ideal)) (r : Fin 20000) (j : Fin 256) :
    val_main_v184 (F := Ideal) x19 (ix2 r j) = Net.layerRow 2 x19 (ix2 0 j) := by
  rw [val_main_v184_apply, val_main_v183_apply, val_main_v182_apply, val_main_v181_apply]
  unfold Net.layerRow
  exact congrArg x19 (funext fun a => Fin.ext (by
    match a with
    | ⟨0, _⟩ => rfl
    | ⟨1, _⟩ => show j.val % 256 = j.val; have := j.isLt; omega))

theorem l2_src (x2 : (⟨S320000x2, .i32⟩ : BufTy).Contents (Elt Ideal)) : val_main_v138 (F := Ideal) x2 = val_main_v30 (F := Ideal) x2 := rfl

theorem l2_dst (x2 : (⟨S320000x2, .i32⟩ : BufTy).Contents (Elt Ideal)) : val_main_v145 (F := Ideal) x2 = val_main_v37 (F := Ideal) x2 := rfl

theorem l2_acc : val_main_v165 (F := Ideal) = val_main_v57 (F := Ideal) := rfl

theorem l2_at (x2 : (⟨S320000x2, .i32⟩ : BufTy).Contents (Elt Ideal)) : val_main_v166 (F := Ideal) x2 = val_main_v58 (F := Ideal) x2 := rfl

end Layers

open Layers

theorem ref_layer2 (x0 : (⟨S20000x512, .f32⟩ : BufTy).Contents (Elt Ideal)) (x1 : (⟨S20000x18, .f32⟩ : BufTy).Contents (Elt Ideal)) (x2 : (⟨S320000x2, .i32⟩ : BufTy).Contents (Elt Ideal)) (x4 : (⟨S512x512, .f32⟩ : BufTy).Contents (Elt Ideal)) (x5 : (⟨S512, .f32⟩ : BufTy).Contents (Elt Ideal)) (x6 : (⟨S512x256, .f32⟩ : BufTy).Contents (Elt Ideal)) (x7 : (⟨S256, .f32⟩ : BufTy).Contents (Elt Ideal)) (x8 : (⟨S274x256, .f32⟩ : BufTy).Contents (Elt Ideal)) (x9 : (⟨S256, .f32⟩ : BufTy).Contents (Elt Ideal)) (x10 : (⟨S256x256, .f32⟩ : BufTy).Contents (Elt Ideal)) (x11 : (⟨S256, .f32⟩ : BufTy).Contents (Elt Ideal)) (x12 : (⟨S3x512x256, .f32⟩ : BufTy).Contents (Elt Ideal)) (x13 : (⟨S3x256, .f32⟩ : BufTy).Contents (Elt Ideal)) (x14 : (⟨S3x256x256, .f32⟩ : BufTy).Contents (Elt Ideal)) (x15 : (⟨S3x256, .f32⟩ : BufTy).Contents (Elt Ideal)) (x16 : (⟨S3x512x256, .f32⟩ : BufTy).Contents (Elt Ideal)) (x17 : (⟨S3x256, .f32⟩ : BufTy).Contents (Elt Ideal)) (x18 : (⟨S3x256x256, .f32⟩ : BufTy).Contents (Elt Ideal)) (x19 : (⟨S3x256, .f32⟩ : BufTy).Contents (Elt Ideal)) :
    val_main_v186 (F := Ideal) x0 x1 x2 x4 x5 x6 x7 x8 x9 x10 x11 x12 x13 x14 x15 x16 x17 x18 x19
      = Net.layerStep 2 x2 x12 x13 x14 x15 x16 x17 x18 x19 (val_main_v132 (F := Ideal) x0 x1 x2 x4 x5 x6 x7 x8 x9 x10 x11 x12 x13 x14 x15 x16 x17 x18 x19) := by
  unfold val_main_v186 val_main_v185 val_main_v180 val_main_v177 val_main_v176 val_main_v171 val_main_v168 val_main_v167 val_main_v164 val_main_v159
    val_main_v156 val_main_v155 val_main_v150 val_main_v147 val_main_v146 val_main_v139
  rw [l2_src x2, l2_dst x2, l2_acc, l2_at x2]
  rw [l2_w1 x12, l2_w2 x14, l2_u1 x16, l2_u2 x18]
  exact step_arrays 2 x2 x12 x13 x14 x15 x16 x17 x18 x19 (val_main_v132 (F := Ideal) x0 x1 x2 x4 x5 x6 x7 x8 x9 x10 x11 x12 x13 x14 x15 x16 x17 x18 x19)
    (val_main_v154 (F := Ideal) x13) (val_main_call8_v0 (F := Ideal)) (val_main_v163 (F := Ideal) x15)
    (val_main_v175 (F := Ideal) x17) (val_main_call9_v0 (F := Ideal)) (val_main_v184 (F := Ideal) x19)
    (l2_b1 x13) l2_z1 (l2_b2 x15) (l2_c1 x17) l2_z2 (l2_c2 x19)

end Cert.Net.Ref

end
-- ==== Proof.Ref.Scores.lean ====
import proofs.«411300_j19516331393713_3_alg».proof.Proof.Net
import Idealize.ShloMosaic.Lib.Pipeline.Value
import Idealize.ShloMosaic.Lib.ValueIdx
import Idealize.ShloMosaic.PureOps.Ideal.Laws
import Mathlib.Algebra.BigOperators.Fin

noncomputable section

open scoped BigOperators

namespace Cert.Net.Ref

open Idealize.ShloMosaic Idealize.ShloMosaic.ValueIdx Cert.ReferenceIdeal Cert.ReferenceIdeal.Gen Cert.ReferenceIdeal.Read
  Cert.Spec Cert.Net

namespace Scores

theorem sum_520 {M : Type} [AddCommMonoid M] (f : Fin 520 → M) :
    ∑ k : Fin 520, f k =
      (∑ k : Fin 256, f ⟨k.val, by omega⟩ + ∑ k : Fin 256, f ⟨256 + k.val, by omega⟩) + ∑ k : Fin 8, f ⟨512 + k.val, by omega⟩ := by
  have h1 := Fin.sum_univ_add (a := 512) (b := 8) f
  have h2 := Fin.sum_univ_add (a := 256) (b := 256) fun k : Fin 512 => f (Fin.castAdd 8 k)
  rw [h1, h2]
  rfl

section Joined
variable {α : Type}

theorem joined_at {c : Nat} (xs : List ((s : Shape) × (s.Idx → α))) (h : Shape.Concatenates (xs.map (·.1)) S100000x520 1)
    (r : Fin 100000) (n : Nat) (hn : n < xs.length) (x : (⟨2, ![100000, c]⟩ : Shape).Idx → α) (hx : xs[n] = ⟨⟨2, ![100000, c]⟩, x⟩)
    (pre : Nat)
    (hpre : (((xs.take n).map (·.1)).map
      fun s => if h : s.rank = S100000x520.rank then s.size ((1 : Fin S100000x520.rank).cast h.symm) else 0).sum = pre)
    (k : Fin c) (j : Fin 520) (hj : pre + k.val = j.val) :
    concatenate S100000x520 1 xs h (ix2 r j) = x (ix2 r k) :=
  concatenate_apply_piece 1 xs h (ix2 r j) n hn _ x hx rfl pre hpre (ix2 r k)
    (fun b hb => by match b with | ⟨0, _⟩ => rfl | ⟨1, _⟩ => exact absurd (Fin.ext rfl) hb) hj

end Joined

theorem rowsFrom_zero_at {R C : Nat} (n : Nat) (w : Mat R C) (h : 0 + n ≤ R) (k : Fin n) (d : Fin C) (hk : k.val < R) :
    rowsFrom 0 n w h (ix2 k d) = w (ix2 ⟨k.val, hk⟩ d) :=
  congrArg (fun a => w (ix2 a d)) (Fin.ext (Nat.zero_add k.val) : (⟨0 + k.val, by omega⟩ : Fin R) = ⟨k.val, hk⟩)

end Scores

variable (x0 : (⟨S20000x512, .f32⟩ : BufTy).Contents (Elt Ideal)) (x1 : (⟨S20000x18, .f32⟩ : BufTy).Contents (Elt Ideal)) (x2 : (⟨S320000x2, .i32⟩ : BufTy).Contents (Elt Ideal)) (x3 : (⟨S100000x2, .i32⟩ : BufTy).Contents (Elt Ideal))
  (x4 : (⟨S512x512, .f32⟩ : BufTy).Contents (Elt Ideal)) (x5 : (⟨S512, .f32⟩ : BufTy).Contents (Elt Ideal)) (x6 : (⟨S512x256, .f32⟩ : BufTy).Contents (Elt Ideal)) (x7 : (⟨S256, .f32⟩ : BufTy).Contents (Elt Ideal))
  (x8 : (⟨S274x256, .f32⟩ : BufTy).Contents (Elt Ideal)) (x9 : (⟨S256, .f32⟩ : BufTy).Contents (Elt Ideal)) (x10 : (⟨S256x256, .f32⟩ : BufTy).Contents (Elt Ideal)) (x11 : (⟨S256, .f32⟩ : BufTy).Contents (Elt Ideal))
  (x12 : (⟨S3x512x256, .f32⟩ : BufTy).Contents (Elt Ideal)) (x13 : (⟨S3x256, .f32⟩ : BufTy).Contents (Elt Ideal)) (x14 : (⟨S3x256x256, .f32⟩ : BufTy).Contents (Elt Ideal)) (x15 : (⟨S3x256, .f32⟩ : BufTy).Contents (Elt Ideal))
  (x16 : (⟨S3x512x256, .f32⟩ : BufTy).Contents (Elt Ideal)) (x17 : (⟨S3x256, .f32⟩ : BufTy).Contents (Elt Ideal)) (x18 : (⟨S3x256x256, .f32⟩ : BufTy).Contents (Elt Ideal)) (x19 : (⟨S3x256, .f32⟩ : BufTy).Contents (Elt Ideal))
  (x20 : (⟨S520x256, .f32⟩ : BufTy).Contents (Elt Ideal)) (x21 : (⟨S256, .f32⟩ : BufTy).Contents (Elt Ideal)) (x22 : (⟨S256x26, .f32⟩ : BufTy).Contents (Elt Ideal)) (x23 : (⟨S26, .f32⟩ : BufTy).Contents (Elt Ideal))

namespace Scores

theorem ref_hidden (r : Fin 100000) (d : Fin 256) :
    val_main_v285 (F := Ideal) x0 x1 x2 x3 x4 x5 x6 x7 x8 x9 x10 x11 x12 x13 x14 x15 x16 x17 x18 x19 x20 x21 (ix2 r d) =
      hidden3 (rowsFrom 0 256 x20 (by norm_num)) (rowsFrom 256 256 x20 (by norm_num)) (rowsFrom 512 8 x20 (by norm_num)) (asRow x21)
        (rowOf (Host.gather gather_S20000x256_S100000x1_S100000x256_1_0_n_n_0_1_1256 (val_main_v186 (F := Ideal) x0 x1 x2 x4 x5 x6 x7 x8 x9 x10 x11 x12 x13 x14 x15 x16 x17 x18 x19) (val_main_v271 (F := Ideal) x3)) r)
        (rowOf (Host.gather gather_S20000x256_S100000x1_S100000x256_1_0_n_n_0_1_1256 (val_main_v186 (F := Ideal) x0 x1 x2 x4 x5 x6 x7 x8 x9 x10 x11 x12 x13 x14 x15 x16 x17 x18 x19) (val_main_v278 (F := Ideal) x3)) r)
        (rowOf (val_main_v265 (F := Ideal) x1 x3) r) d := by
  have hl : ∀ k : Fin 520, lidx_main_v281 (ix2 r d) k = ix2 r k := fun _ => eq_ix2 _
  have hr : ∀ k : Fin 520, ridx_main_v281 (ix2 r d) k = ix2 k d := fun _ => eq_ix2 _
  have hb : idx_main_v282 (idx_main_v283 (ix2 r d)) = ix1 d := eq_ix1 _
  rw [val_main_v285_apply, val_main_v284_apply, val_main_v281_apply, val_main_v283_apply, val_main_v282_apply,
    val_main_call13_v0_apply, val_main_call13_cst_apply, hb]
  simp only [Ideal.addf_def, Ideal.maximumf_def, Ideal.ofBits_def, Ideal.ofBits_zero_f32, hl, hr]
  rw [sum_520]
  unfold val_main_v280 val_main_v272 val_main_v279 Cert.Spec.hidden3 Cert.Spec.relu Cert.Spec.dot
  refine congrArg (fun t : EReal => max t 0) ?_
  refine congrArg₂ (fun a b : EReal => a + b) (congrArg₂ (fun a b : EReal => a + b) (congrArg₂ (fun a b : EReal => a + b) ?_ ?_) ?_) rfl
  · refine Finset.sum_congr rfl fun k _ => congrArg₂ (fun a b : EReal => a * b) (joined_at _ _ r 0 (by simp) _ rfl 0 rfl k _ (Nat.zero_add _)) ?_
    exact (rowsFrom_zero_at 256 x20 _ k d _).symm
  · exact Finset.sum_congr rfl fun k _ => congrArg₂ (fun a b : EReal => a * b) (joined_at _ _ r 1 (by simp) _ rfl 256 rfl k _ rfl) rfl
  · exact Finset.sum_congr rfl fun k _ => congrArg₂ (fun a b : EReal => a * b) (joined_at _ _ r 2 (by simp) _ rfl 512 rfl k _ rfl) rfl

end Scores

open Scores

theorem ref_scores :
    Read.val_main_v289 (F := Ideal) x0 x1 x2 x3 x4 x5 x6 x7 x8 x9 x10 x11 x12 x13 x14 x15 x16 x17 x18 x19 x20 x21 x22 x23 =
      Cert.Net.scores x1 x3 x20 x21 x22 x23 (Read.val_main_v186 (F := Ideal) x0 x1 x2 x4 x5 x6 x7 x8 x9 x10 x11 x12 x13 x14 x15 x16 x17 x18 x19) := by
  funext i
  obtain ⟨r, c, rfl⟩ : ∃ (r : Fin 100000) (c : Fin 26), i = ix2 r c := ⟨i 0, i 1, eq_ix2 i⟩
  have hl : ∀ k : Fin 256, lidx_main_v286 (ix2 r c) k = ix2 r k := fun _ => eq_ix2 _
  have hr : ∀ k : Fin 256, ridx_main_v286 (ix2 r c) k = ix2 k c := fun _ => eq_ix2 _
  have hb : idx_main_v287 (idx_main_v288 (ix2 r c)) = ix1 c := eq_ix1 _
  rw [val_main_v289_apply, val_main_v286_apply, val_main_v288_apply, val_main_v287_apply, hb]
  simp only [Ideal.addf_def, hl, hr, ref_hidden]
  unfold Cert.Net.scores Cert.Spec.mlp3Mat Cert.Spec.mlp3 Cert.Spec.outLayer Cert.Spec.dot
  rfl

end Cert.Net.Ref

end
-- ==== Proof.Ref.RefNet.lean ====
import proofs.«411300_j19516331393713_3_alg».proof.Proof.Ref.Encoded
import proofs.«411300_j19516331393713_3_alg».proof.Proof.Ref.Layer0
import proofs.«411300_j19516331393713_3_alg».proof.Proof.Ref.Layer1
import proofs.«411300_j19516331393713_3_alg».proof.Proof.Ref.Layer2
import proofs.«411300_j19516331393713_3_alg».proof.Proof.Ref.Scores

noncomputable section

namespace Cert.Net.Ref

open Idealize.ShloMosaic Cert.ReferenceIdeal Cert.ReferenceIdeal.Read Cert.Spec Cert.Net

theorem ref_net (x0 : Mat 20000 512) (x1 : Mat 20000 18) (x2 : (⟨S320000x2, .i32⟩ : BufTy).Contents (Elt Ideal))
    (x3 : (⟨S100000x2, .i32⟩ : BufTy).Contents (Elt Ideal)) (x4 : Mat 512 512) (x5 : Vec1 512) (x6 : Mat 512 256) (x7 : Vec1 256)
    (x8 : Mat 274 256) (x9 : Vec1 256) (x10 : Mat 256 256) (x11 : Vec1 256) (x12 : Stack 3 512 256) (x13 : Mat 3 256)
    (x14 : Stack 3 256 256) (x15 : Mat 3 256) (x16 : Stack 3 512 256) (x17 : Mat 3 256) (x18 : Stack 3 256 256) (x19 : Mat 3 256)
    (x20 : Mat 520 256) (x21 : Vec1 256) (x22 : Mat 256 26) (x23 : Vec1 26) :
    val_main_v289 (F := Ideal) x0 x1 x2 x3 x4 x5 x6 x7 x8 x9 x10 x11 x12 x13 x14 x15 x16 x17 x18 x19 x20 x21 x22 x23 = Cert.Net.net x0 x1 x2 x3 x4 x5 x6 x7 x8 x9 x10 x11 x12 x13 x14 x15 x16 x17 x18 x19 x20 x21 x22 x23 := by
  rw [ref_scores, ref_layer2, ref_layer1, ref_layer0, ref_encoded]
  rfl

end Cert.Net.Ref

end
-- ==== Proof.lean ====
import proofs.«411300_j19516331393713_3_alg».proof.Defs
import proofs.«411300_j19516331393713_3_alg».proof.Proof.Gen.Kernel
import proofs.«411300_j19516331393713_3_alg».proof.Proof.Gen.KernelIdeal
import proofs.«411300_j19516331393713_3_alg».proof.Proof.Gen.ReferenceIdeal
import proofs.«411300_j19516331393713_3_alg».proof.Proof.Gen.Pre_finite_inputs
import proofs.«411300_j19516331393713_3_alg».proof.Proof.RefFrame
import proofs.«411300_j19516331393713_3_alg».proof.Proof.K.Regs
import proofs.«411300_j19516331393713_3_alg».proof.Proof.KI.Regs
import proofs.«411300_j19516331393713_3_alg».proof.Proof.KI.KerNet
import proofs.«411300_j19516331393713_3_alg».proof.Proof.Ref.RefNet
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame (F := Bits) m ρ

theorem frame_ki : Cert.frame_KernelIdeal := fun m ρ _ => Cert.KernelIdeal.Gen.frame (F := Ideal) m ρ

theorem algebraic : Cert.algebraic_KernelIdeal_ReferenceIdeal := by
  intro m ρ m' ρ' _ hagree
  refine ⟨fun c => Cert.Net.net (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)), ?_, ?_⟩
  · exact (θ_run Cert.KernelIdeal.defs _ _).mono
      (fun r h c => ⟨(h c).1.trans (Cert.KernelIdeal.HostVal.ker_net m c), (h c).2⟩)
      (Cert.KernelIdeal.Gen.run_result (F := Ideal) m ρ)
  · refine (θ_run Cert.ReferenceIdeal.defs _ _).mono (fun r h c => ⟨(h c).1.trans ?_, (h c).2⟩)
      (Cert.Proof.Reference.run (F := Ideal) m' ρ')
    rw [Cert.Net.Ref.ref_net]
    obtain ⟨a0, a1, a2, a3, a4, a5, a6, a7, a8, a9, a10, a11, a12, a13, a14, a15, a16, a17, a18, a19, a20, a21, a22, a23⟩ := hagree c
    rw [a0, a1, a2, a3, a4, a5, a6, a7, a8, a9, a10, a11, a12, a13, a14, a15, a16, a17, a18, a19, a20, a21, a22, a23]

theorem claim : Cert.Claim := ⟨Cert.Kernel.Gen.facts, Cert.KernelIdeal.Gen.facts, Cert.ReferenceIdeal.Gen.facts, Cert.Pre_finite_inputs.Gen.facts,
  frame_k, frame_ki, Cert.Proof.Reference.frame, trivial, algebraic⟩

end Cert.Proof

end
